-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  IdealRules.named_const.Statement Cert.KernelIdeal.κ "neg_big" .f32 0xFF333332#32 ⊥

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v189)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v189) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v89) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x512x1024 : Shape := ⟨3, ![1, 512, 1024]⟩
abbrev S1x512 : Shape := ⟨2, ![1, 512]⟩
abbrev S1024x1024 : Shape := ⟨2, ![1024, 1024]⟩
abbrev S20000x1024 : Shape := ⟨2, ![20000, 1024]⟩
abbrev S20000 : Shape := ⟨1, ![20000]⟩
abbrev S1024x256 : Shape := ⟨2, ![1024, 256]⟩
abbrev S20000x256 : Shape := ⟨2, ![20000, 256]⟩
abbrev S1024x64 : Shape := ⟨2, ![1024, 64]⟩
abbrev S160000x64 : Shape := ⟨2, ![160000, 64]⟩
abbrev S160000 : Shape := ⟨1, ![160000]⟩
abbrev S1024x16 : Shape := ⟨2, ![1024, 16]⟩
abbrev S67735x16 : Shape := ⟨2, ![67735, 16]⟩
abbrev S67735 : Shape := ⟨1, ![67735]⟩
abbrev S3x1024 : Shape := ⟨2, ![3, 1024]⟩
abbrev S3 : Shape := ⟨1, ![3]⟩
abbrev S_ : Shape := ⟨0, ![]⟩

class Facts : Prop where
  bcast_S_S1x512x1024 : S_.BroadcastsInDim S1x512x1024 (![] : Fin 0 → Fin S1x512x1024.rank)
  reducesTo_S1x512x1024_S_d0_1_2 : S1x512x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S20000x1024 : S_.BroadcastsInDim S20000x1024 (![] : Fin 0 → Fin S20000x1024.rank)
  reducesTo_S20000x1024_S_d0_1 : S20000x1024.ReducesTo [0, 1] S_
  bcast_S_S20000 : S_.BroadcastsInDim S20000 (![] : Fin 0 → Fin S20000.rank)
  reducesTo_S20000_S_d0 : S20000.ReducesTo [0] S_
  bcast_S_S1024x256 : S_.BroadcastsInDim S1024x256 (![] : Fin 0 → Fin S1024x256.rank)
  reducesTo_S1024x256_S_d0_1 : S1024x256.ReducesTo [0, 1] S_
  bcast_S_S20000x256 : S_.BroadcastsInDim S20000x256 (![] : Fin 0 → Fin S20000x256.rank)
  reducesTo_S20000x256_S_d0_1 : S20000x256.ReducesTo [0, 1] S_
  bcast_S_S1024x64 : S_.BroadcastsInDim S1024x64 (![] : Fin 0 → Fin S1024x64.rank)
  reducesTo_S1024x64_S_d0_1 : S1024x64.ReducesTo [0, 1] S_
  bcast_S_S160000x64 : S_.BroadcastsInDim S160000x64 (![] : Fin 0 → Fin S160000x64.rank)
  reducesTo_S160000x64_S_d0_1 : S160000x64.ReducesTo [0, 1] S_
  bcast_S_S160000 : S_.BroadcastsInDim S160000 (![] : Fin 0 → Fin S160000.rank)
  reducesTo_S160000_S_d0 : S160000.ReducesTo [0] S_
  bcast_S_S1024x16 : S_.BroadcastsInDim S1024x16 (![] : Fin 0 → Fin S1024x16.rank)
  reducesTo_S1024x16_S_d0_1 : S1024x16.ReducesTo [0, 1] S_
  bcast_S_S67735x16 : S_.BroadcastsInDim S67735x16 (![] : Fin 0 → Fin S67735x16.rank)
  reducesTo_S67735x16_S_d0_1 : S67735x16.ReducesTo [0, 1] S_
  bcast_S_S67735 : S_.BroadcastsInDim S67735 (![] : Fin 0 → Fin S67735.rank)
  reducesTo_S67735_S_d0 : S67735.ReducesTo [0] S_
  bcast_S_S3x1024 : S_.BroadcastsInDim S3x1024 (![] : Fin 0 → Fin S3x1024.rank)
  reducesTo_S3x1024_S_d0_1 : S3x1024.ReducesTo [0, 1] S_
  bcast_S_S3 : S_.BroadcastsInDim S3 (![] : Fin 0 → Fin S3.rank)
  reducesTo_S3_S_d0 : S3.ReducesTo [0] S_
  bcast_S_S1x512 : S_.BroadcastsInDim S1x512 (![] : Fin 0 → Fin S1x512.rank)
  reducesTo_S1x512_S_d0_1 : S1x512.ReducesTo [0, 1] S_

variable [Facts]

def fn_part4 {F : FTy → Type} [FloatOps F] (main_arg1 : IVec S1x512 32) (main_arg15 : FVec F S3 .f32) (main_v63 : IVec S_ 1) (main_v67 : IVec S_ 1) : IVec S_ 1 :=
  let main_v68 : IVec S_ 1 := andi main_v63 main_v67
  let main_v69 : FVec F S3 .f32 := Host.absf main_arg15
  let main_cst_26 : FVec F S_ .f32 := constant S_ .f32 0x7F800000#32
  let main_v70 : FVec F S3 .f32 := broadcastInDim S3 ![] bcast_S_S3 main_cst_26
  let main_v71 : IVec S3 1 := cmpf .olt main_v69 main_v70
  let main_c_27 : IVec S_ 1 := constantI S_ 1 1#1
  let main_v72 : IVec S_ 1 := (fun x v => Host.reduce IntOp.andi x v reducesTo_S3_S_d0 h_S_) main_v71 main_c_27
  let main_v73 : IVec S_ 1 := andi main_v68 main_v72
  let main_c_28 : IVec S_ 32 := constantI S_ 32 0#32
  let main_v74 : IVec S1x512 32 := broadcastInDim S1x512 ![] bcast_S_S1x512 main_c_28
  let main_v75 : IVec S1x512 1 := cmpi .sge main_arg1 main_v74
  let main_c_29 : IVec S_ 1 := constantI S_ 1 1#1
  let main_v76 : IVec S_ 1 := (fun x v => Host.reduce IntOp.andi x v reducesTo_S1x512_S_d0_1 h_S_) main_v75 main_c_29
  let main_v77 : IVec S_ 1 := andi main_v73 main_v76
  main_v77

def fn_part3 {F : FTy → Type} [FloatOps F] (main_arg1 : IVec S1x512 32) (main_arg12 : FVec F S67735x16 .f32) (main_arg13 : FVec F S67735 .f32) (main_arg14 : FVec F S3x1024 .f32) (main_arg15 : FVec F S3 .f32) (main_v48 : IVec S_ 1) (main_v49 : FVec F S1024x16 .f32) (main_v50 : FVec F S1024x16 .f32) : IVec S_ 1 :=
  let main_v51 : IVec S1024x16 1 := cmpf .olt main_v49 main_v50
  let main_c_19 : IVec S_ 1 := constantI S_ 1 1#1
  let main_v52 : IVec S_ 1 := (fun x v => Host.reduce IntOp.andi x v reducesTo_S1024x16_S_d0_1 h_S_) main_v51 main_c_19
  let main_v53 : IVec S_ 1 := andi main_v48 main_v52
  let main_v54 : FVec F S67735x16 .f32 := Host.absf main_arg12
  let main_cst_20 : FVec F S_ .f32 := constant S_ .f32 0x7F800000#32
  let main_v55 : FVec F S67735x16 .f32 := broadcastInDim S67735x16 ![] bcast_S_S67735x16 main_cst_20
  let main_v56 : IVec S67735x16 1 := cmpf .olt main_v54 main_v55
  let main_c_21 : IVec S_ 1 := constantI S_ 1 1#1
  let main_v57 : IVec S_ 1 := (fun x v => Host.reduce IntOp.andi x v reducesTo_S67735x16_S_d0_1 h_S_) main_v56 main_c_21
  let main_v58 : IVec S_ 1 := andi main_v53 main_v57
  let main_v59 : FVec F S67735 .f32 := Host.absf main_arg13
  let main_cst_22 : FVec F S_ .f32 := constant S_ .f32 0x7F800000#32
  let main_v60 : FVec F S67735 .f32 := broadcastInDim S67735 ![] bcast_S_S67735 main_cst_22
  let main_v61 : IVec S67735 1 := cmpf .olt main_v59 main_v60
  let main_c_23 : IVec S_ 1 := constantI S_ 1 1#1
  let main_v62 : IVec S_ 1 := (fun x v => Host.reduce IntOp.andi x v reducesTo_S67735_S_d0 h_S_) main_v61 main_c_23
  let main_v63 : IVec S_ 1 := andi main_v58 main_v62
  let main_v64 : FVec F S3x1024 .f32 := Host.absf main_arg14
  let main_cst_24 : FVec F S_ .f32 := constant S_ .f32 0x7F800000#32
  let main_v65 : FVec F S3x1024 .f32 := broadcastInDim S3x1024 ![] bcast_S_S3x1024 main_cst_24
  let main_v66 : IVec S3x1024 1 := cmpf .olt main_v64 main_v65
  let main_c_25 : IVec S_ 1 := constantI S_ 1 1#1
  let main_v67 : IVec S_ 1 := (fun x v => Host.reduce IntOp.andi x v reducesTo_S3x1024_S_d0_1 h_S_) main_v66 main_c_25
  fn_part4 (F := F) main_arg1 main_arg15 main_v63 main_v67

def fn_part2 {F : FTy → Type} [FloatOps F] (main_arg1 : IVec S1x512 32) (main_arg8 : FVec F S1024x64 .f32) (main_arg9 : FVec F S160000x64 .f32) (main_arg10 : FVec F S160000 .f32) (main_arg11 : FVec F S1024x16 .f32) (main_arg12 : FVec F S67735x16 .f32) (main_arg13 : FVec F S67735 .f32) (main_arg14 : FVec F S3x1024 .f32) (main_arg15 : FVec F S3 .f32) (main_v33 : IVec S_ 1) : IVec S_ 1 :=
  let main_v34 : FVec F S1024x64 .f32 := Host.absf main_arg8
  let main_cst_12 : FVec F S_ .f32 := constant S_ .f32 0x7F800000#32
  let main_v35 : FVec F S1024x64 .f32 := broadcastInDim S1024x64 ![] bcast_S_S1024x64 main_cst_12
  let main_v36 : IVec S1024x64 1 := cmpf .olt main_v34 main_v35
  let main_c_13 : IVec S_ 1 := constantI S_ 1 1#1
  let main_v37 : IVec S_ 1 := (fun x v => Host.reduce IntOp.andi x v reducesTo_S1024x64_S_d0_1 h_S_) main_v36 main_c_13
  let main_v38 : IVec S_ 1 := andi main_v33 main_v37
  let main_v39 : FVec F S160000x64 .f32 := Host.absf main_arg9
  let main_cst_14 : FVec F S_ .f32 := constant S_ .f32 0x7F800000#32
  let main_v40 : FVec F S160000x64 .f32 := broadcastInDim S160000x64 ![] bcast_S_S160000x64 main_cst_14
  let main_v41 : IVec S160000x64 1 := cmpf .olt main_v39 main_v40
  let main_c_15 : IVec S_ 1 := constantI S_ 1 1#1
  let main_v42 : IVec S_ 1 := (fun x v => Host.reduce IntOp.andi x v reducesTo_S160000x64_S_d0_1 h_S_) main_v41 main_c_15
  let main_v43 : IVec S_ 1 := andi main_v38 main_v42
  let main_v44 : FVec F S160000 .f32 := Host.absf main_arg10
  let main_cst_16 : FVec F S_ .f32 := constant S_ .f32 0x7F800000#32
  let main_v45 : FVec F S160000 .f32 := broadcastInDim S160000 ![] bcast_S_S160000 main_cst_16
  let main_v46 : IVec S160000 1 := cmpf .olt main_v44 main_v45
  let main_c_17 : IVec S_ 1 := constantI S_ 1 1#1
  let main_v47 : IVec S_ 1 := (fun x v => Host.reduce IntOp.andi x v reducesTo_S160000_S_d0 h_S_) main_v46 main_c_17
  let main_v48 : IVec S_ 1 := andi main_v43 main_v47
  let main_v49 : FVec F S1024x16 .f32 := Host.absf main_arg11
  let main_cst_18 : FVec F S_ .f32 := constant S_ .f32 0x7F800000#32
  let main_v50 : FVec F S1024x16 .f32 := broadcastInDim S1024x16 ![] bcast_S_S1024x16 main_cst_18
  fn_part3 (F := F) main_arg1 main_arg12 main_arg13 main_arg14 main_arg15 main_v48 main_v49 main_v50

def fn_part1 {F : FTy → Type} [FloatOps F] (main_arg1 : IVec S1x512 32) (main_arg5 : FVec F S1024x256 .f32) (main_arg6 : FVec F S20000x256 .f32) (main_arg7 : FVec F S20000 .f32) (main_arg8 : FVec F S1024x64 .f32) (main_arg9 : FVec F S160000x64 .f32) (main_arg10 : FVec F S160000 .f32) (main_arg11 : FVec F S1024x16 .f32) (main_arg12 : FVec F S67735x16 .f32) (main_arg13 : FVec F S67735 .f32) (main_arg14 : FVec F S3x1024 .f32) (main_arg15 : FVec F S3 .f32) (main_v13 : IVec S_ 1) (main_v16 : IVec S20000 1) : IVec S_ 1 :=
  let main_c_5 : IVec S_ 1 := constantI S_ 1 1#1
  let main_v17 : IVec S_ 1 := (fun x v => Host.reduce IntOp.andi x v reducesTo_S20000_S_d0 h_S_) main_v16 main_c_5
  let main_v18 : IVec S_ 1 := andi main_v13 main_v17
  let main_v19 : FVec F S1024x256 .f32 := Host.absf main_arg5
  let main_cst_6 : FVec F S_ .f32 := constant S_ .f32 0x7F800000#32
  let main_v20 : FVec F S1024x256 .f32 := broadcastInDim S1024x256 ![] bcast_S_S1024x256 main_cst_6
  let main_v21 : IVec S1024x256 1 := cmpf .olt main_v19 main_v20
  let main_c_7 : IVec S_ 1 := constantI S_ 1 1#1
  let main_v22 : IVec S_ 1 := (fun x v => Host.reduce IntOp.andi x v reducesTo_S1024x256_S_d0_1 h_S_) main_v21 main_c_7
  let main_v23 : IVec S_ 1 := andi main_v18 main_v22
  let main_v24 : FVec F S20000x256 .f32 := Host.absf main_arg6
  let main_cst_8 : FVec F S_ .f32 := constant S_ .f32 0x7F800000#32
  let main_v25 : FVec F S20000x256 .f32 := broadcastInDim S20000x256 ![] bcast_S_S20000x256 main_cst_8
  let main_v26 : IVec S20000x256 1 := cmpf .olt main_v24 main_v25
  let main_c_9 : IVec S_ 1 := constantI S_ 1 1#1
  let main_v27 : IVec S_ 1 := (fun x v => Host.reduce IntOp.andi x v reducesTo_S20000x256_S_d0_1 h_S_) main_v26 main_c_9
  let main_v28 : IVec S_ 1 := andi main_v23 main_v27
  let main_v29 : FVec F S20000 .f32 := Host.absf main_arg7
  let main_cst_10 : FVec F S_ .f32 := constant S_ .f32 0x7F800000#32
  let main_v30 : FVec F S20000 .f32 := broadcastInDim S20000 ![] bcast_S_S20000 main_cst_10
  let main_v31 : IVec S20000 1 := cmpf .olt main_v29 main_v30
  let main_c_11 : IVec S_ 1 := constantI S_ 1 1#1
  let main_v32 : IVec S_ 1 := (fun x v => Host.reduce IntOp.andi x v reducesTo_S20000_S_d0 h_S_) main_v31 main_c_11
  let main_v33 : IVec S_ 1 := andi main_v28 main_v32
  fn_part2 (F := F) main_arg1 main_arg8 main_arg9 main_arg10 main_arg11 main_arg12 main_arg13 main_arg14 main_arg15 main_v33

def fn {F : FTy → Type} [FloatOps F] (main_arg0 : FVec F S1x512x1024 .f32) (main_arg1 : IVec S1x512 32) (main_arg2 : FVec F S1024x1024 .f32) (main_arg3 : FVec F S20000x1024 .f32) (main_arg4 : FVec F S20000 .f32) (main_arg5 : FVec F S1024x256 .f32) (main_arg6 : FVec F S20000x256 .f32) (main_arg7 : FVec F S20000 .f32) (main_arg8 : FVec F S1024x64 .f32) (main_arg9 : FVec F S160000x64 .f32) (main_arg10 : FVec F S160000 .f32) (main_arg11 : FVec F S1024x16 .f32) (main_arg12 : FVec F S67735x16 .f32) (main_arg13 : FVec F S67735 .f32) (main_arg14 : FVec F S3x1024 .f32) (main_arg15 : FVec F S3 .f32) : IVec S_ 1 :=
  let main_v0 : FVec F S1x512x1024 .f32 := Host.absf main_arg0
  let main_cst : FVec F S_ .f32 := constant S_ .f32 0x7F800000#32
  let main_v1 : FVec F S1x512x1024 .f32 := broadcastInDim S1x512x1024 ![] bcast_S_S1x512x1024 main_cst
  let main_v2 : IVec S1x512x1024 1 := cmpf .olt main_v0 main_v1
  let main_c : IVec S_ 1 := constantI S_ 1 1#1
  let main_v3 : IVec S_ 1 := (fun x v => Host.reduce IntOp.andi x v reducesTo_S1x512x1024_S_d0_1_2 h_S_) main_v2 main_c
  let main_v4 : FVec F S1024x1024 .f32 := Host.absf main_arg2
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S20000x1024 .f32 := Host.absf main_arg3
  let main_cst_2 : FVec F S_ .f32 := constant S_ .f32 0x7F800000#32
  let main_v10 : FVec F S20000x1024 .f32 := broadcastInDim S20000x1024 ![] bcast_S_S20000x1024 main_cst_2
  let main_v11 : IVec S20000x1024 1 := cmpf .olt main_v9 main_v10
  let main_c_3 : IVec S_ 1 := constantI S_ 1 1#1
  let main_v12 : IVec S_ 1 := (fun x v => Host.reduce IntOp.andi x v reducesTo_S20000x1024_S_d0_1 h_S_) main_v11 main_c_3
  let main_v13 : IVec S_ 1 := andi main_v8 main_v12
  let main_v14 : FVec F S20000 .f32 := Host.absf main_arg4
  let main_cst_4 : FVec F S_ .f32 := constant S_ .f32 0x7F800000#32
  let main_v15 : FVec F S20000 .f32 := broadcastInDim S20000 ![] bcast_S_S20000 main_cst_4
  let main_v16 : IVec S20000 1 := cmpf .olt main_v14 main_v15
  fn_part1 (F := F) main_arg1 main_arg5 main_arg6 main_arg7 main_arg8 main_arg9 main_arg10 main_arg11 main_arg12 main_arg13 main_arg14 main_arg15 main_v13 main_v16
-- ==== Kernel.lean ====
abbrev S1x512x1024 : Shape := ⟨3, ![1, 512, 1024]⟩
abbrev S1x512 : Shape := ⟨2, ![1, 512]⟩
abbrev S1024x1024 : Shape := ⟨2, ![1024, 1024]⟩
abbrev S20000x1024 : Shape := ⟨2, ![20000, 1024]⟩
abbrev S20000 : Shape := ⟨1, ![20000]⟩
abbrev S1024x256 : Shape := ⟨2, ![1024, 256]⟩
abbrev S20000x256 : Shape := ⟨2, ![20000, 256]⟩
abbrev S1024x64 : Shape := ⟨2, ![1024, 64]⟩
abbrev S160000x64 : Shape := ⟨2, ![160000, 64]⟩
abbrev S160000 : Shape := ⟨1, ![160000]⟩
abbrev S1024x16 : Shape := ⟨2, ![1024, 16]⟩
abbrev S67735x16 : Shape := ⟨2, ![67735, 16]⟩
abbrev S67735 : Shape := ⟨1, ![67735]⟩
abbrev S3x1024 : Shape := ⟨2, ![3, 1024]⟩
abbrev S3 : Shape := ⟨1, ![3]⟩
abbrev S1x511x1024 : Shape := ⟨3, ![1, 511, 1024]⟩
abbrev S511x1024 : Shape := ⟨2, ![511, 1024]⟩
abbrev S1x511 : Shape := ⟨2, ![1, 511]⟩
abbrev S511 : Shape := ⟨1, ![511]⟩
abbrev S_ : Shape := ⟨0, ![]⟩
abbrev S512x1024 : Shape := ⟨2, ![512, 1024]⟩
abbrev S512 : Shape := ⟨1, ![512]⟩
abbrev S512x1 : Shape := ⟨2, ![512, 1]⟩
abbrev S20000x1 : Shape := ⟨2, ![20000, 1]⟩
abbrev S2x512x1 : Shape := ⟨3, ![2, 512, 1]⟩
abbrev S1000x1024 : Shape := ⟨2, ![1000, 1024]⟩
abbrev S1000x1 : Shape := ⟨2, ![1000, 1]⟩
abbrev S1x512x1 : Shape := ⟨3, ![1, 512, 1]⟩
abbrev S1x1000 : Shape := ⟨2, ![1, 1000]⟩
abbrev S1024x1000 : Shape := ⟨2, ![1024, 1000]⟩
abbrev S512x1000 : Shape := ⟨2, ![512, 1000]⟩
abbrev S1024x3 : Shape := ⟨2, ![1024, 3]⟩
abbrev S512x3 : Shape := ⟨2, ![512, 3]⟩
abbrev S1x3 : Shape := ⟨2, ![1, 3]⟩
abbrev S2000x256 : Shape := ⟨2, ![2000, 256]⟩
abbrev S2000x1 : Shape := ⟨2, ![2000, 1]⟩
abbrev S512x256 : Shape := ⟨2, ![512, 256]⟩
abbrev S1x2000 : Shape := ⟨2, ![1, 2000]⟩
abbrev S256x2000 : Shape := ⟨2, ![256, 2000]⟩
abbrev S512x2000 : Shape := ⟨2, ![512, 2000]⟩
abbrev S160000x1 : Shape := ⟨2, ![160000, 1]⟩
abbrev S3200x64 : Shape := ⟨2, ![3200, 64]⟩
abbrev S3200x1 : Shape := ⟨2, ![3200, 1]⟩
abbrev S512x64 : Shape := ⟨2, ![512, 64]⟩
abbrev S1x3200 : Shape := ⟨2, ![1, 3200]⟩
abbrev S64x3200 : Shape := ⟨2, ![64, 3200]⟩
abbrev S512x3200 : Shape := ⟨2, ![512, 3200]⟩
abbrev S1897x16 : Shape := ⟨2, ![1897, 16]⟩
abbrev S69632x16 : Shape := ⟨2, ![69632, 16]⟩
abbrev S1897 : Shape := ⟨1, ![1897]⟩
abbrev S69632 : Shape := ⟨1, ![69632]⟩
abbrev S69632x1 : Shape := ⟨2, ![69632, 1]⟩
abbrev S2048x16 : Shape := ⟨2, ![2048, 16]⟩
abbrev S2048x1 : Shape := ⟨2, ![2048, 1]⟩
abbrev S512x16 : Shape := ⟨2, ![512, 16]⟩
abbrev S1x2048 : Shape := ⟨2, ![1, 2048]⟩
abbrev S16x2048 : Shape := ⟨2, ![16, 2048]⟩
abbrev S512x2048 : Shape := ⟨2, ![512, 2048]⟩

abbrev nBuf : Space → Nat
  | .hbm => 268
  | .vmem => 68
  | .smem => 0
  | _ => 0

abbrev hbmTy0_0 (i : Nat) : BufTy := match i % 128 with
  | 0 => ⟨S1x512x1024, .f32⟩
  | 1 => ⟨S1x512, .i32⟩
  | 2 => ⟨S1024x1024, .f32⟩
  | 3 => ⟨S20000x1024, .f32⟩
  | 4 => ⟨S20000, .f32⟩
  | 5 => ⟨S1024x256, .f32⟩
  | 6 => ⟨S20000x256, .f32⟩
  | 7 => ⟨S20000, .f32⟩
  | 8 => ⟨S1024x64, .f32⟩
  | 9 => ⟨S160000x64, .f32⟩
  | 10 => ⟨S160000, .f32⟩
  | 11 => ⟨S1024x16, .f32⟩
  | 12 => ⟨S67735x16, .f32⟩
  | 13 => ⟨S67735, .f32⟩
  | 14 => ⟨S3x1024, .f32⟩
  | 15 => ⟨S3, .f32⟩
  | 16 => ⟨S1x511x1024, .f32⟩
  | 17 => ⟨S511x1024, .f32⟩
  | 18 => ⟨S1x511, .i32⟩
  | 19 => ⟨S511, .i32⟩
  | 20 => ⟨S_, .i32⟩
  | 21 => ⟨S_, .f32⟩
  | 22 => ⟨S512x1024, .f32⟩
  | 23 => ⟨S_, .i32⟩
  | 24 => ⟨S_, .i32⟩
  | 25 => ⟨S512, .i32⟩
  | 26 => ⟨S_, .i32⟩
  | 27 => ⟨S512, .i32⟩
  | 28 => ⟨S512, .i1⟩
  | 29 => ⟨S_, .i32⟩
  | 30 => ⟨S512, .i32⟩
  | 31 => ⟨S512, .i1⟩
  | 32 => ⟨S_, .i32⟩
  | 33 => ⟨S512, .i32⟩
  | 34 => ⟨S512, .i1⟩
  | 35 => ⟨S512, .i1⟩
  | 36 => ⟨S_, .i32⟩
  | 37 => ⟨S512, .i32⟩
  | 38 => ⟨S512, .i1⟩
  | 39 => ⟨S_, .i32⟩
  | 40 => ⟨S512, .i32⟩
  | 41 => ⟨S512, .i1⟩
  | 42 => ⟨S512, .i1⟩
  | 43 => ⟨S_, .i32⟩
  | 44 => ⟨S512, .i32⟩
  | 45 => ⟨S512, .i1⟩
  | 46 => ⟨S_, .i32⟩
  | 47 => ⟨S512, .i32⟩
  | 48 => ⟨S512, .i1⟩
  | 49 => ⟨S512, .i1⟩
  | 50 => ⟨S_, .i32⟩
  | 51 => ⟨S_, .i32⟩
  | 52 => ⟨S512, .i32⟩
  | 53 => ⟨S512, .i32⟩
  | 54 => ⟨S512x1, .i32⟩
  | 55 => ⟨S_, .i32⟩
  | 56 => ⟨S512, .i32⟩
  | 57 => ⟨S512, .i32⟩
  | 58 => ⟨S_, .i32⟩
  | 59 => ⟨S_, .i32⟩
  | 60 => ⟨S_, .i32⟩
  | 61 => ⟨S512, .i32⟩
  | 62 => ⟨S512, .i32⟩
  | 63 => ⟨S_, .i32⟩
  | 64 => ⟨S512, .i32⟩
  | 65 => ⟨S512, .i32⟩
  | 66 => ⟨S512x1, .i32⟩
  | 67 => ⟨S_, .i32⟩
  | 68 => ⟨S512, .i32⟩
  | 69 => ⟨S512, .i32⟩
  | 70 => ⟨S_, .i32⟩
  | 71 => ⟨S_, .i32⟩
  | 72 => ⟨S_, .i32⟩
  | 73 => ⟨S512, .i32⟩
  | 74 => ⟨S512, .i32⟩
  | 75 => ⟨S_, .i32⟩
  | 76 => ⟨S512, .i32⟩
  | 77 => ⟨S512, .i32⟩
  | 78 => ⟨S512x1, .i32⟩
  | 79 => ⟨S_, .i32⟩
  | 80 => ⟨S512, .i32⟩
  | 81 => ⟨S512, .i32⟩
  | 82 => ⟨S_, .i32⟩
  | 83 => ⟨S_, .i32⟩
  | 84 => ⟨S_, .i32⟩
  | 85 => ⟨S512, .i32⟩
  | 86 => ⟨S512, .i32⟩
  | 87 => ⟨S_, .i32⟩
  | 88 => ⟨S512, .i32⟩
  | 89 => ⟨S512, .i32⟩
  | 90 => ⟨S512x1, .i32⟩
  | 91 => ⟨S20000x1, .f32⟩
  | 92 => ⟨S2x512x1, .f32⟩
  | 93 => ⟨S2x512x1, .f32⟩
  | 94 => ⟨S2x512x1, .f32⟩
  | 95 => ⟨S1x512x1, .f32⟩
  | 96 => ⟨S512x1, .f32⟩
  | 97 => ⟨S1x512x1, .f32⟩
  | 98 => ⟨S512x1, .f32⟩
  | 99 => ⟨S1x512x1, .f32⟩
  | 100 => ⟨S512x1, .f32⟩
  | 101 => ⟨S1x512x1, .f32⟩
  | 102 => ⟨S512x1, .f32⟩
  | 103 => ⟨S1x512x1, .f32⟩
  | 104 => ⟨S512x1, .f32⟩
  | 105 => ⟨S1x512x1, .f32⟩
  | 106 => ⟨S512x1, .f32⟩
  | 107 => ⟨S512x1, .f32⟩
  | 108 => ⟨S512x1, .f32⟩
  | 109 => ⟨S512x1, .f32⟩
  | 110 => ⟨S512x1, .f32⟩
  | 111 => ⟨S512x1, .f32⟩
  | 112 => ⟨S512x1, .f32⟩
  | 113 => ⟨S512x1, .f32⟩
  | 114 => ⟨S512x1, .f32⟩
  | 115 => ⟨S512x1, .f32⟩
  | 116 => ⟨S512x1024, .f32⟩
  | 117 => ⟨S1024x3, .f32⟩
  | 118 => ⟨S512x3, .f32⟩
  | 119 => ⟨S1x3, .f32⟩
  | 120 => ⟨S512x3, .f32⟩
  | 121 => ⟨S512x3, .f32⟩
  | 122 => ⟨S_, .f32⟩
  | 123 => ⟨S512, .f32⟩
  | 124 => ⟨S512x1, .f32⟩
  | 125 => ⟨S512x3, .f32⟩
  | 126 => ⟨S512x3, .f32⟩
  | 127 => ⟨S512x3, .f32⟩
  | _ => ⟨S1x512x1024, .f32⟩

abbrev hbmTy0_1 (i : Nat) : BufTy := match i % 128 with
  | 0 => ⟨S_, .f32⟩
  | 1 => ⟨S512, .f32⟩
  | 2 => ⟨S512x1, .f32⟩
  | 3 => ⟨S512x1, .f32⟩
  | 4 => ⟨S512x1, .f32⟩
  | 5 => ⟨S512x1, .f32⟩
  | 6 => ⟨S512x1, .f32⟩
  | 7 => ⟨S512x1, .f32⟩
  | 8 => ⟨S512x1, .f32⟩
  | 9 => ⟨S512x1, .f32⟩
  | 10 => ⟨S512x1, .f32⟩
  | 11 => ⟨S512x1, .f32⟩
  | 12 => ⟨S512x1, .f32⟩
  | 13 => ⟨S512x1, .f32⟩
  | 14 => ⟨S512, .f32⟩
  | 15 => ⟨S512x3, .f32⟩
  | 16 => ⟨S512x3, .f32⟩
  | 17 => ⟨S20000x1, .f32⟩
  | 18 => ⟨S2x512x1, .f32⟩
  | 19 => ⟨S2x512x1, .f32⟩
  | 20 => ⟨S2x512x1, .f32⟩
  | 21 => ⟨S1x512x1, .f32⟩
  | 22 => ⟨S512x1, .f32⟩
  | 23 => ⟨S1x512x1, .f32⟩
  | 24 => ⟨S512x1, .f32⟩
  | 25 => ⟨S1x512x1, .f32⟩
  | 26 => ⟨S512x1, .f32⟩
  | 27 => ⟨S1x512x1, .f32⟩
  | 28 => ⟨S512x1, .f32⟩
  | 29 => ⟨S1x512x1, .f32⟩
  | 30 => ⟨S512x1, .f32⟩
  | 31 => ⟨S1x512x1, .f32⟩
  | 32 => ⟨S512x1, .f32⟩
  | 33 => ⟨S512x1, .f32⟩
  | 34 => ⟨S512x1, .f32⟩
  | 35 => ⟨S512x1, .f32⟩
  | 36 => ⟨S512x1, .f32⟩
  | 37 => ⟨S512x1, .f32⟩
  | 38 => ⟨S512x1, .f32⟩
  | 39 => ⟨S512x1, .f32⟩
  | 40 => ⟨S512x1, .f32⟩
  | 41 => ⟨S512x1, .f32⟩
  | 42 => ⟨S512x1, .f32⟩
  | 43 => ⟨S512x1, .f32⟩
  | 44 => ⟨S512x1, .f32⟩
  | 45 => ⟨S512, .f32⟩
  | 46 => ⟨S512x1, .f32⟩
  | 47 => ⟨S512, .f32⟩
  | 48 => ⟨S512, .f32⟩
  | 49 => ⟨S160000x1, .f32⟩
  | 50 => ⟨S2x512x1, .f32⟩
  | 51 => ⟨S2x512x1, .f32⟩
  | 52 => ⟨S2x512x1, .f32⟩
  | 53 => ⟨S1x512x1, .f32⟩
  | 54 => ⟨S512x1, .f32⟩
  | 55 => ⟨S1x512x1, .f32⟩
  | 56 => ⟨S512x1, .f32⟩
  | 57 => ⟨S1x512x1, .f32⟩
  | 58 => ⟨S512x1, .f32⟩
  | 59 => ⟨S1x512x1, .f32⟩
  | 60 => ⟨S512x1, .f32⟩
  | 61 => ⟨S1x512x1, .f32⟩
  | 62 => ⟨S512x1, .f32⟩
  | 63 => ⟨S1x512x1, .f32⟩
  | 64 => ⟨S512x1, .f32⟩
  | 65 => ⟨S512x1, .f32⟩
  | 66 => ⟨S512x1, .f32⟩
  | 67 => ⟨S512x1, .f32⟩
  | 68 => ⟨S512x1, .f32⟩
  | 69 => ⟨S512x1, .f32⟩
  | 70 => ⟨S512x1, .f32⟩
  | 71 => ⟨S512x1, .f32⟩
  | 72 => ⟨S512x1, .f32⟩
  | 73 => ⟨S512x1, .f32⟩
  | 74 => ⟨S512x1, .f32⟩
  | 75 => ⟨S512x1, .f32⟩
  | 76 => ⟨S512x1, .f32⟩
  | 77 => ⟨S512, .f32⟩
  | 78 => ⟨S512x1, .f32⟩
  | 79 => ⟨S512, .f32⟩
  | 80 => ⟨S512, .f32⟩
  | 81 => ⟨S_, .f32⟩
  | 82 => ⟨S1897x16, .f32⟩
  | 83 => ⟨S69632x16, .f32⟩
  | 84 => ⟨S_, .f32⟩
  | 85 => ⟨S1897, .f32⟩
  | 86 => ⟨S69632, .f32⟩
  | 87 => ⟨S69632x1, .f32⟩
  | 88 => ⟨S2x512x1, .f32⟩
  | 89 => ⟨S2x512x1, .f32⟩
  | 90 => ⟨S2x512x1, .f32⟩
  | 91 => ⟨S1x512x1, .f32⟩
  | 92 => ⟨S512x1, .f32⟩
  | 93 => ⟨S1x512x1, .f32⟩
  | 94 => ⟨S512x1, .f32⟩
  | 95 => ⟨S1x512x1, .f32⟩
  | 96 => ⟨S512x1, .f32⟩
  | 97 => ⟨S1x512x1, .f32⟩
  | 98 => ⟨S512x1, .f32⟩
  | 99 => ⟨S1x512x1, .f32⟩
  | 100 => ⟨S512x1, .f32⟩
  | 101 => ⟨S1x512x1, .f32⟩
  | 102 => ⟨S512x1, .f32⟩
  | 103 => ⟨S512x1, .f32⟩
  | 104 => ⟨S512x1, .f32⟩
  | 105 => ⟨S512x1, .f32⟩
  | 106 => ⟨S512x1, .f32⟩
  | 107 => ⟨S512x1, .f32⟩
  | 108 => ⟨S512x1, .f32⟩
  | 109 => ⟨S512x1, .f32⟩
  | 110 => ⟨S512x1, .f32⟩
  | 111 => ⟨S512x1, .f32⟩
  | 112 => ⟨S512x1, .f32⟩
  | 113 => ⟨S512x1, .f32⟩
  | 114 => ⟨S512x1, .f32⟩
  | 115 => ⟨S512, .f32⟩
  | 116 => ⟨S512x1, .f32⟩
  | 117 => ⟨S512, .f32⟩
  | 118 => ⟨S512, .f32⟩
  | 119 => ⟨S_, .f32⟩
  | 120 => ⟨S_, .f32⟩
  | 121 => ⟨S512, .f32⟩
  | 122 => ⟨S512, .f32⟩
  | 123 => ⟨S_, .f32⟩
  | 124 => ⟨S_, .f32⟩
  | 125 => ⟨S512, .f32⟩
  | 126 => ⟨S512, .f32⟩
  | 127 => ⟨S512, .f32⟩
  | _ => ⟨S1x512x1024, .f32⟩

abbrev hbmTy0_2 (i : Nat) : BufTy := match i % 128 with
  | 0 => ⟨S_, .f32⟩
  | 1 => ⟨S_, .f32⟩
  | 2 => ⟨S512, .f32⟩
  | 3 => ⟨S512, .f32⟩
  | 4 => ⟨S512, .f32⟩
  | 5 => ⟨S_, .f32⟩
  | 6 => ⟨S_, .f32⟩
  | 7 => ⟨S512, .f32⟩
  | 8 => ⟨S512, .f32⟩
  | 9 => ⟨S512, .f32⟩
  | 10 => ⟨S512, .f32⟩
  | 11 => ⟨S511, .f32⟩
  | _ => ⟨S1x512x1024, .f32⟩

abbrev hbmTy (i : Nat) : BufTy := match i / 128 with
  | 0 => hbmTy0_0 i
  | 1 => hbmTy0_1 i
  | 2 => hbmTy0_2 i
  | _ => ⟨S1x512x1024, .f32⟩

abbrev bufTy : (tb : Table) → Fin (tcTables nBuf tb) → BufTy
  | .hbm, ⟨i, _⟩ => hbmTy i
  | .local _ .vmem, ⟨0, _⟩ => ⟨S512x1024, .f32⟩
  | .local _ .vmem, ⟨1, _⟩ => ⟨S1024x1024, .f32⟩
  | .local _ .vmem, ⟨2, _⟩ => ⟨S1000x1024, .f32⟩
  | .local _ .vmem, ⟨3, _⟩ => ⟨S1000x1024, .f32⟩
  | .local _ .vmem, ⟨4, _⟩ => ⟨S1000x1, .f32⟩
  | .local _ .vmem, ⟨5, _⟩ => ⟨S1000x1, .f32⟩
  | .local _ .vmem, ⟨6, _⟩ => ⟨S512x1, .i32⟩
  | .local _ .vmem, ⟨7, _⟩ => ⟨S1x512x1, .f32⟩
  | .local _ .vmem, ⟨8, _⟩ => ⟨S1x512x1, .f32⟩
  | .local _ .vmem, ⟨9, _⟩ => ⟨S1x512x1, .f32⟩
  | .local _ .vmem, ⟨10, _⟩ => ⟨S1x512x1, .f32⟩
  | .local _ .vmem, ⟨11, _⟩ => ⟨S1x512x1, .f32⟩
  | .local _ .vmem, ⟨12, _⟩ => ⟨S1x512x1, .f32⟩
  | .local _ .vmem, ⟨13, _⟩ => ⟨S512x1024, .f32⟩
  | .local _ .vmem, ⟨14, _⟩ => ⟨S512x1, .f32⟩
  | .local _ .vmem, ⟨15, _⟩ => ⟨S512x1, .f32⟩
  | .local _ .vmem, ⟨16, _⟩ => ⟨S512x1, .f32⟩
  | .local _ .vmem, ⟨17, _⟩ => ⟨S512x1024, .f32⟩
  | .local _ .vmem, ⟨18, _⟩ => ⟨S1024x256, .f32⟩
  | .local _ .vmem, ⟨19, _⟩ => ⟨S2000x256, .f32⟩
  | .local _ .vmem, ⟨20, _⟩ => ⟨S2000x256, .f32⟩
  | .local _ .vmem, ⟨21, _⟩ => ⟨S2000x1, .f32⟩
  | .local _ .vmem, ⟨22, _⟩ => ⟨S2000x1, .f32⟩
  | .local _ .vmem, ⟨23, _⟩ => ⟨S512x1, .i32⟩
  | .local _ .vmem, ⟨24, _⟩ => ⟨S1x512x1, .f32⟩
  | .local _ .vmem, ⟨25, _⟩ => ⟨S1x512x1, .f32⟩
  | .local _ .vmem, ⟨26, _⟩ => ⟨S1x512x1, .f32⟩
  | .local _ .vmem, ⟨27, _⟩ => ⟨S1x512x1, .f32⟩
  | .local _ .vmem, ⟨28, _⟩ => ⟨S1x512x1, .f32⟩
  | .local _ .vmem, ⟨29, _⟩ => ⟨S1x512x1, .f32⟩
  | .local _ .vmem, ⟨30, _⟩ => ⟨S512x256, .f32⟩
  | .local _ .vmem, ⟨31, _⟩ => ⟨S512x1, .f32⟩
  | .local _ .vmem, ⟨32, _⟩ => ⟨S512x1, .f32⟩
  | .local _ .vmem, ⟨33, _⟩ => ⟨S512x1, .f32⟩
  | .local _ .vmem, ⟨34, _⟩ => ⟨S512x1024, .f32⟩
  | .local _ .vmem, ⟨35, _⟩ => ⟨S1024x64, .f32⟩
  | .local _ .vmem, ⟨36, _⟩ => ⟨S3200x64, .f32⟩
  | .local _ .vmem, ⟨37, _⟩ => ⟨S3200x64, .f32⟩
  | .local _ .vmem, ⟨38, _⟩ => ⟨S3200x1, .f32⟩
  | .local _ .vmem, ⟨39, _⟩ => ⟨S3200x1, .f32⟩
  | .local _ .vmem, ⟨40, _⟩ => ⟨S512x1, .i32⟩
  | .local _ .vmem, ⟨41, _⟩ => ⟨S1x512x1, .f32⟩
  | .local _ .vmem, ⟨42, _⟩ => ⟨S1x512x1, .f32⟩
  | .local _ .vmem, ⟨43, _⟩ => ⟨S1x512x1, .f32⟩
  | .local _ .vmem, ⟨44, _⟩ => ⟨S1x512x1, .f32⟩
  | .local _ .vmem, ⟨45, _⟩ => ⟨S1x512x1, .f32⟩
  | .local _ .vmem, ⟨46, _⟩ => ⟨S1x512x1, .f32⟩
  | .local _ .vmem, ⟨47, _⟩ => ⟨S512x64, .f32⟩
  | .local _ .vmem, ⟨48, _⟩ => ⟨S512x1, .f32⟩
  | .local _ .vmem, ⟨49, _⟩ => ⟨S512x1, .f32⟩
  | .local _ .vmem, ⟨50, _⟩ => ⟨S512x1, .f32⟩
  | .local _ .vmem, ⟨51, _⟩ => ⟨S512x1024, .f32⟩
  | .local _ .vmem, ⟨52, _⟩ => ⟨S1024x16, .f32⟩
  | .local _ .vmem, ⟨53, _⟩ => ⟨S2048x16, .f32⟩
  | .local _ .vmem, ⟨54, _⟩ => ⟨S2048x16, .f32⟩
  | .local _ .vmem, ⟨55, _⟩ => ⟨S2048x1, .f32⟩
  | .local _ .vmem, ⟨56, _⟩ => ⟨S2048x1, .f32⟩
  | .local _ .vmem, ⟨57, _⟩ => ⟨S512x1, .i32⟩
  | .local _ .vmem, ⟨58, _⟩ => ⟨S1x512x1, .f32⟩
  | .local _ .vmem, ⟨59, _⟩ => ⟨S1x512x1, .f32⟩
  | .local _ .vmem, ⟨60, _⟩ => ⟨S1x512x1, .f32⟩
  | .local _ .vmem, ⟨61, _⟩ => ⟨S1x512x1, .f32⟩
  | .local _ .vmem, ⟨62, _⟩ => ⟨S1x512x1, .f32⟩
  | .local _ .vmem, ⟨63, _⟩ => ⟨S1x512x1, .f32⟩
  | .local _ .vmem, ⟨64, _⟩ => ⟨S512x16, .f32⟩
  | .local _ .vmem, ⟨65, _⟩ => ⟨S512x1, .f32⟩
  | .local _ .vmem, ⟨66, _⟩ => ⟨S512x1, .f32⟩
  | .local _ .vmem, ⟨67, _⟩ => ⟨S512x1, .f32⟩
  | _, _ => ⟨S1x512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | _, _ => false

abbrev semScoped : Fin 0 → Bool
  | ⟨_, h⟩ => absurd h (Nat.not_lt_zero _)

abbrev dmaSemScoped : Fin 52 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | _ => false

abbrev sig : RefSig :=
  ofTc nBuf bufTy 0 52 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_c : Ref sig .tc := ⟨.hbm, 20, rfl⟩
abbrev main_call0_v0 : Ref sig .tc := ⟨.hbm, 21, rfl⟩
abbrev main_v4 : Ref sig .tc := ⟨.hbm, 22, rfl⟩
abbrev main_c_0 : Ref sig .tc := ⟨.hbm, 23, rfl⟩
abbrev main_call1_v0 : Ref sig .tc := ⟨.hbm, 24, rfl⟩
abbrev main_v5 : Ref sig .tc := ⟨.hbm, 25, rfl⟩
abbrev main_c_1 : Ref sig .tc := ⟨.hbm, 26, rfl⟩
abbrev main_v6 : Ref sig .tc := ⟨.hbm, 27, rfl⟩
abbrev main_v7 : Ref sig .tc := ⟨.hbm, 28, rfl⟩
abbrev main_c_2 : Ref sig .tc := ⟨.hbm, 29, rfl⟩
abbrev main_v8 : Ref sig .tc := ⟨.hbm, 30, rfl⟩
abbrev main_v9 : Ref sig .tc := ⟨.hbm, 31, rfl⟩
abbrev main_c_3 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_c_4 : Ref sig .tc := ⟨.hbm, 36, rfl⟩
abbrev main_v13 : Ref sig .tc := ⟨.hbm, 37, rfl⟩
abbrev main_v14 : Ref sig .tc := ⟨.hbm, 38, rfl⟩
abbrev main_c_5 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_c_6 : Ref sig .tc := ⟨.hbm, 43, rfl⟩
abbrev main_v18 : Ref sig .tc := ⟨.hbm, 44, rfl⟩
abbrev main_v19 : Ref sig .tc := ⟨.hbm, 45, rfl⟩
abbrev main_c_7 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_c_8 : Ref sig .tc := ⟨.hbm, 50, rfl⟩
abbrev main_call2_v0 : Ref sig .tc := ⟨.hbm, 51, rfl⟩
abbrev main_call2_v1 : Ref sig .tc := ⟨.hbm, 52, rfl⟩
abbrev main_v23 : Ref sig .tc := ⟨.hbm, 53, rfl⟩
abbrev main_v24 : Ref sig .tc := ⟨.hbm, 54, rfl⟩
abbrev main_c_9 : Ref sig .tc := ⟨.hbm, 55, rfl⟩
abbrev main_v25 : Ref sig .tc := ⟨.hbm, 56, rfl⟩
abbrev main_v26 : Ref sig .tc := ⟨.hbm, 57, rfl⟩
abbrev main_c_10 : Ref sig .tc := ⟨.hbm, 58, rfl⟩
abbrev main_c_11 : Ref sig .tc := ⟨.hbm, 59, rfl⟩
abbrev main_call3_v0 : Ref sig .tc := ⟨.hbm, 60, rfl⟩
abbrev main_call3_v1 : Ref sig .tc := ⟨.hbm, 61, rfl⟩
abbrev main_call3_v2 : Ref sig .tc := ⟨.hbm, 62, rfl⟩
abbrev main_call3_v3 : Ref sig .tc := ⟨.hbm, 63, rfl⟩
abbrev main_call3_v4 : Ref sig .tc := ⟨.hbm, 64, rfl⟩
abbrev main_v27 : Ref sig .tc := ⟨.hbm, 65, rfl⟩
abbrev main_v28 : Ref sig .tc := ⟨.hbm, 66, rfl⟩
abbrev main_c_12 : Ref sig .tc := ⟨.hbm, 67, rfl⟩
abbrev main_v29 : Ref sig .tc := ⟨.hbm, 68, rfl⟩
abbrev main_v30 : Ref sig .tc := ⟨.hbm, 69, rfl⟩
abbrev main_c_13 : Ref sig .tc := ⟨.hbm, 70, rfl⟩
abbrev main_c_14 : Ref sig .tc := ⟨.hbm, 71, rfl⟩
abbrev main_call4_v0 : Ref sig .tc := ⟨.hbm, 72, rfl⟩
abbrev main_call4_v1 : Ref sig .tc := ⟨.hbm, 73, rfl⟩
abbrev main_call4_v2 : Ref sig .tc := ⟨.hbm, 74, rfl⟩
abbrev main_call4_v3 : Ref sig .tc := ⟨.hbm, 75, rfl⟩
abbrev main_call4_v4 : Ref sig .tc := ⟨.hbm, 76, rfl⟩
abbrev main_v31 : Ref sig .tc := ⟨.hbm, 77, rfl⟩
abbrev main_v32 : Ref sig .tc := ⟨.hbm, 78, rfl⟩
abbrev main_c_15 : Ref sig .tc := ⟨.hbm, 79, rfl⟩
abbrev main_v33 : Ref sig .tc := ⟨.hbm, 80, rfl⟩
abbrev main_v34 : Ref sig .tc := ⟨.hbm, 81, rfl⟩
abbrev main_c_16 : Ref sig .tc := ⟨.hbm, 82, rfl⟩
abbrev main_c_17 : Ref sig .tc := ⟨.hbm, 83, rfl⟩
abbrev main_call5_v0 : Ref sig .tc := ⟨.hbm, 84, rfl⟩
abbrev main_call5_v1 : Ref sig .tc := ⟨.hbm, 85, rfl⟩
abbrev main_call5_v2 : Ref sig .tc := ⟨.hbm, 86, rfl⟩
abbrev main_call5_v3 : Ref sig .tc := ⟨.hbm, 87, rfl⟩
abbrev main_call5_v4 : Ref sig .tc := ⟨.hbm, 88, rfl⟩
abbrev main_v35 : Ref sig .tc := ⟨.hbm, 89, rfl⟩
abbrev main_v36 : Ref sig .tc := ⟨.hbm, 90, rfl⟩
abbrev main_v37 : Ref sig .tc := ⟨.hbm, 91, rfl⟩
abbrev main_v38_0 : Ref sig .tc := ⟨.hbm, 92, rfl⟩
abbrev main_v38_1 : Ref sig .tc := ⟨.hbm, 93, rfl⟩
abbrev main_v38_2 : Ref sig .tc := ⟨.hbm, 94, rfl⟩
abbrev main_v39 : Ref sig .tc := ⟨.hbm, 95, rfl⟩
abbrev main_v40 : Ref sig .tc := ⟨.hbm, 96, rfl⟩
abbrev main_v41 : Ref sig .tc := ⟨.hbm, 97, rfl⟩
abbrev main_v42 : Ref sig .tc := ⟨.hbm, 98, rfl⟩
abbrev main_v43 : Ref sig .tc := ⟨.hbm, 99, rfl⟩
abbrev main_v44 : Ref sig .tc := ⟨.hbm, 100, rfl⟩
abbrev main_v45 : Ref sig .tc := ⟨.hbm, 101, rfl⟩
abbrev main_v46 : Ref sig .tc := ⟨.hbm, 102, rfl⟩
abbrev main_v47 : Ref sig .tc := ⟨.hbm, 103, rfl⟩
abbrev main_v48 : Ref sig .tc := ⟨.hbm, 104, rfl⟩
abbrev main_v49 : Ref sig .tc := ⟨.hbm, 105, rfl⟩
abbrev main_v50 : Ref sig .tc := ⟨.hbm, 106, rfl⟩
abbrev main_v51 : Ref sig .tc := ⟨.hbm, 107, rfl⟩
abbrev main_v52 : Ref sig .tc := ⟨.hbm, 108, rfl⟩
abbrev main_v53 : Ref sig .tc := ⟨.hbm, 109, rfl⟩
abbrev main_v54 : Ref sig .tc := ⟨.hbm, 110, rfl⟩
abbrev main_v55 : Ref sig .tc := ⟨.hbm, 111, rfl⟩
abbrev main_v56 : Ref sig .tc := ⟨.hbm, 112, rfl⟩
abbrev main_v57 : Ref sig .tc := ⟨.hbm, 113, rfl⟩
abbrev main_v58 : Ref sig .tc := ⟨.hbm, 114, rfl⟩
abbrev main_v59 : Ref sig .tc := ⟨.hbm, 115, rfl⟩
abbrev main_v60 : Ref sig .tc := ⟨.hbm, 116, rfl⟩
abbrev main_v61 : Ref sig .tc := ⟨.hbm, 117, rfl⟩
abbrev main_v62 : Ref sig .tc := ⟨.hbm, 118, rfl⟩
abbrev main_v63 : Ref sig .tc := ⟨.hbm, 119, rfl⟩
abbrev main_v64 : Ref sig .tc := ⟨.hbm, 120, rfl⟩
abbrev main_v65 : Ref sig .tc := ⟨.hbm, 121, rfl⟩
abbrev main_cst : Ref sig .tc := ⟨.hbm, 122, rfl⟩
abbrev main_v66 : Ref sig .tc := ⟨.hbm, 123, rfl⟩
abbrev main_v67 : Ref sig .tc := ⟨.hbm, 124, rfl⟩
abbrev main_v68 : Ref sig .tc := ⟨.hbm, 125, rfl⟩
abbrev main_v69 : Ref sig .tc := ⟨.hbm, 126, rfl⟩
abbrev main_v70 : Ref sig .tc := ⟨.hbm, 127, rfl⟩
abbrev main_cst_18 : Ref sig .tc := ⟨.hbm, 128, rfl⟩
abbrev main_v71 : Ref sig .tc := ⟨.hbm, 129, rfl⟩
abbrev main_v72 : Ref sig .tc := ⟨.hbm, 130, rfl⟩
abbrev main_v73 : Ref sig .tc := ⟨.hbm, 131, rfl⟩
abbrev main_v74 : Ref sig .tc := ⟨.hbm, 132, rfl⟩
abbrev main_v75 : Ref sig .tc := ⟨.hbm, 133, rfl⟩
abbrev main_v76 : Ref sig .tc := ⟨.hbm, 134, rfl⟩
abbrev main_v77 : Ref sig .tc := ⟨.hbm, 135, rfl⟩
abbrev main_v78 : Ref sig .tc := ⟨.hbm, 136, rfl⟩
abbrev main_v79 : Ref sig .tc := ⟨.hbm, 137, rfl⟩
abbrev main_v80 : Ref sig .tc := ⟨.hbm, 138, rfl⟩
abbrev main_v81 : Ref sig .tc := ⟨.hbm, 139, rfl⟩
abbrev main_v82 : Ref sig .tc := ⟨.hbm, 140, rfl⟩
abbrev main_v83 : Ref sig .tc := ⟨.hbm, 141, rfl⟩
abbrev main_v84 : Ref sig .tc := ⟨.hbm, 142, rfl⟩
abbrev main_v85 : Ref sig .tc := ⟨.hbm, 143, rfl⟩
abbrev main_v86 : Ref sig .tc := ⟨.hbm, 144, rfl⟩
abbrev main_v87 : Ref sig .tc := ⟨.hbm, 145, rfl⟩
abbrev main_v88_0 : Ref sig .tc := ⟨.hbm, 146, rfl⟩
abbrev main_v88_1 : Ref sig .tc := ⟨.hbm, 147, rfl⟩
abbrev main_v88_2 : Ref sig .tc := ⟨.hbm, 148, rfl⟩
abbrev main_v89 : Ref sig .tc := ⟨.hbm, 149, rfl⟩
abbrev main_v90 : Ref sig .tc := ⟨.hbm, 150, rfl⟩
abbrev main_v91 : Ref sig .tc := ⟨.hbm, 151, rfl⟩
abbrev main_v92 : Ref sig .tc := ⟨.hbm, 152, rfl⟩
abbrev main_v93 : Ref sig .tc := ⟨.hbm, 153, rfl⟩
abbrev main_v94 : Ref sig .tc := ⟨.hbm, 154, rfl⟩
abbrev main_v95 : Ref sig .tc := ⟨.hbm, 155, rfl⟩
abbrev main_v96 : Ref sig .tc := ⟨.hbm, 156, rfl⟩
abbrev main_v97 : Ref sig .tc := ⟨.hbm, 157, rfl⟩
abbrev main_v98 : Ref sig .tc := ⟨.hbm, 158, rfl⟩
abbrev main_v99 : Ref sig .tc := ⟨.hbm, 159, rfl⟩
abbrev main_v100 : Ref sig .tc := ⟨.hbm, 160, rfl⟩
abbrev main_v101 : Ref sig .tc := ⟨.hbm, 161, rfl⟩
abbrev main_v102 : Ref sig .tc := ⟨.hbm, 162, rfl⟩
abbrev main_v103 : Ref sig .tc := ⟨.hbm, 163, rfl⟩
abbrev main_v104 : Ref sig .tc := ⟨.hbm, 164, rfl⟩
abbrev main_v105 : Ref sig .tc := ⟨.hbm, 165, rfl⟩
abbrev main_v106 : Ref sig .tc := ⟨.hbm, 166, rfl⟩
abbrev main_v107 : Ref sig .tc := ⟨.hbm, 167, rfl⟩
abbrev main_v108 : Ref sig .tc := ⟨.hbm, 168, rfl⟩
abbrev main_v109 : Ref sig .tc := ⟨.hbm, 169, rfl⟩
abbrev main_v110 : Ref sig .tc := ⟨.hbm, 170, rfl⟩
abbrev main_v111 : Ref sig .tc := ⟨.hbm, 171, rfl⟩
abbrev main_v112 : Ref sig .tc := ⟨.hbm, 172, rfl⟩
abbrev main_v113 : Ref sig .tc := ⟨.hbm, 173, rfl⟩
abbrev main_v114 : Ref sig .tc := ⟨.hbm, 174, rfl⟩
abbrev main_v115 : Ref sig .tc := ⟨.hbm, 175, rfl⟩
abbrev main_v116 : Ref sig .tc := ⟨.hbm, 176, rfl⟩
abbrev main_v117 : Ref sig .tc := ⟨.hbm, 177, rfl⟩
abbrev main_v118_0 : Ref sig .tc := ⟨.hbm, 178, rfl⟩
abbrev main_v118_1 : Ref sig .tc := ⟨.hbm, 179, rfl⟩
abbrev main_v118_2 : Ref sig .tc := ⟨.hbm, 180, rfl⟩
abbrev main_v119 : Ref sig .tc := ⟨.hbm, 181, rfl⟩
abbrev main_v120 : Ref sig .tc := ⟨.hbm, 182, rfl⟩
abbrev main_v121 : Ref sig .tc := ⟨.hbm, 183, rfl⟩
abbrev main_v122 : Ref sig .tc := ⟨.hbm, 184, rfl⟩
abbrev main_v123 : Ref sig .tc := ⟨.hbm, 185, rfl⟩
abbrev main_v124 : Ref sig .tc := ⟨.hbm, 186, rfl⟩
abbrev main_v125 : Ref sig .tc := ⟨.hbm, 187, rfl⟩
abbrev main_v126 : Ref sig .tc := ⟨.hbm, 188, rfl⟩
abbrev main_v127 : Ref sig .tc := ⟨.hbm, 189, rfl⟩
abbrev main_v128 : Ref sig .tc := ⟨.hbm, 190, rfl⟩
abbrev main_v129 : Ref sig .tc := ⟨.hbm, 191, rfl⟩
abbrev main_v130 : Ref sig .tc := ⟨.hbm, 192, rfl⟩
abbrev main_v131 : Ref sig .tc := ⟨.hbm, 193, rfl⟩
abbrev main_v132 : Ref sig .tc := ⟨.hbm, 194, rfl⟩
abbrev main_v133 : Ref sig .tc := ⟨.hbm, 195, rfl⟩
abbrev main_v134 : Ref sig .tc := ⟨.hbm, 196, rfl⟩
abbrev main_v135 : Ref sig .tc := ⟨.hbm, 197, rfl⟩
abbrev main_v136 : Ref sig .tc := ⟨.hbm, 198, rfl⟩
abbrev main_v137 : Ref sig .tc := ⟨.hbm, 199, rfl⟩
abbrev main_v138 : Ref sig .tc := ⟨.hbm, 200, rfl⟩
abbrev main_v139 : Ref sig .tc := ⟨.hbm, 201, rfl⟩
abbrev main_v140 : Ref sig .tc := ⟨.hbm, 202, rfl⟩
abbrev main_v141 : Ref sig .tc := ⟨.hbm, 203, rfl⟩
abbrev main_v142 : Ref sig .tc := ⟨.hbm, 204, rfl⟩
abbrev main_v143 : Ref sig .tc := ⟨.hbm, 205, rfl⟩
abbrev main_v144 : Ref sig .tc := ⟨.hbm, 206, rfl⟩
abbrev main_v145 : Ref sig .tc := ⟨.hbm, 207, rfl⟩
abbrev main_v146 : Ref sig .tc := ⟨.hbm, 208, rfl⟩
abbrev main_cst_19 : Ref sig .tc := ⟨.hbm, 209, rfl⟩
abbrev main_v147 : Ref sig .tc := ⟨.hbm, 210, rfl⟩
abbrev main_v148 : Ref sig .tc := ⟨.hbm, 211, rfl⟩
abbrev main_cst_20 : Ref sig .tc := ⟨.hbm, 212, rfl⟩
abbrev main_v149 : Ref sig .tc := ⟨.hbm, 213, rfl⟩
abbrev main_v150 : Ref sig .tc := ⟨.hbm, 214, rfl⟩
abbrev main_v151 : Ref sig .tc := ⟨.hbm, 215, rfl⟩
abbrev main_v152_0 : Ref sig .tc := ⟨.hbm, 216, rfl⟩
abbrev main_v152_1 : Ref sig .tc := ⟨.hbm, 217, rfl⟩
abbrev main_v152_2 : Ref sig .tc := ⟨.hbm, 218, rfl⟩
abbrev main_v153 : Ref sig .tc := ⟨.hbm, 219, rfl⟩
abbrev main_v154 : Ref sig .tc := ⟨.hbm, 220, rfl⟩
abbrev main_v155 : Ref sig .tc := ⟨.hbm, 221, rfl⟩
abbrev main_v156 : Ref sig .tc := ⟨.hbm, 222, rfl⟩
abbrev main_v157 : Ref sig .tc := ⟨.hbm, 223, rfl⟩
abbrev main_v158 : Ref sig .tc := ⟨.hbm, 224, rfl⟩
abbrev main_v159 : Ref sig .tc := ⟨.hbm, 225, rfl⟩
abbrev main_v160 : Ref sig .tc := ⟨.hbm, 226, rfl⟩
abbrev main_v161 : Ref sig .tc := ⟨.hbm, 227, rfl⟩
abbrev main_v162 : Ref sig .tc := ⟨.hbm, 228, rfl⟩
abbrev main_v163 : Ref sig .tc := ⟨.hbm, 229, rfl⟩
abbrev main_v164 : Ref sig .tc := ⟨.hbm, 230, rfl⟩
abbrev main_v165 : Ref sig .tc := ⟨.hbm, 231, rfl⟩
abbrev main_v166 : Ref sig .tc := ⟨.hbm, 232, rfl⟩
abbrev main_v167 : Ref sig .tc := ⟨.hbm, 233, rfl⟩
abbrev main_v168 : Ref sig .tc := ⟨.hbm, 234, rfl⟩
abbrev main_v169 : Ref sig .tc := ⟨.hbm, 235, rfl⟩
abbrev main_v170 : Ref sig .tc := ⟨.hbm, 236, rfl⟩
abbrev main_v171 : Ref sig .tc := ⟨.hbm, 237, rfl⟩
abbrev main_v172 : Ref sig .tc := ⟨.hbm, 238, rfl⟩
abbrev main_v173 : Ref sig .tc := ⟨.hbm, 239, rfl⟩
abbrev main_v174 : Ref sig .tc := ⟨.hbm, 240, rfl⟩
abbrev main_v175 : Ref sig .tc := ⟨.hbm, 241, rfl⟩
abbrev main_v176 : Ref sig .tc := ⟨.hbm, 242, rfl⟩
abbrev main_v177 : Ref sig .tc := ⟨.hbm, 243, rfl⟩
abbrev main_v178 : Ref sig .tc := ⟨.hbm, 244, rfl⟩
abbrev main_v179 : Ref sig .tc := ⟨.hbm, 245, rfl⟩
abbrev main_v180 : Ref sig .tc := ⟨.hbm, 246, rfl⟩
abbrev main_cst_21 : Ref sig .tc := ⟨.hbm, 247, rfl⟩
abbrev main_call6_v0 : Ref sig .tc := ⟨.hbm, 248, rfl⟩
abbrev main_call6_v1 : Ref sig .tc := ⟨.hbm, 249, rfl⟩
abbrev main_v181 : Ref sig .tc := ⟨.hbm, 250, rfl⟩
abbrev main_cst_22 : Ref sig .tc := ⟨.hbm, 251, rfl⟩
abbrev main_call7_v0 : Ref sig .tc := ⟨.hbm, 252, rfl⟩
abbrev main_call7_v1 : Ref sig .tc := ⟨.hbm, 253, rfl⟩
abbrev main_v182 : Ref sig .tc := ⟨.hbm, 254, rfl⟩
abbrev main_v183 : Ref sig .tc := ⟨.hbm, 255, rfl⟩
abbrev main_cst_23 : Ref sig .tc := ⟨.hbm, 256, rfl⟩
abbrev main_call8_v0 : Ref sig .tc := ⟨.hbm, 257, rfl⟩
abbrev main_call8_v1 : Ref sig .tc := ⟨.hbm, 258, rfl⟩
abbrev main_v184 : Ref sig .tc := ⟨.hbm, 259, rfl⟩
abbrev main_v185 : Ref sig .tc := ⟨.hbm, 260, rfl⟩
abbrev main_cst_24 : Ref sig .tc := ⟨.hbm, 261, rfl⟩
abbrev main_call9_v0 : Ref sig .tc := ⟨.hbm, 262, rfl⟩
abbrev main_call9_v1 : Ref sig .tc := ⟨.hbm, 263, rfl⟩
abbrev main_v186 : Ref sig .tc := ⟨.hbm, 264, rfl⟩
abbrev main_v187 : Ref sig .tc := ⟨.hbm, 265, rfl⟩
abbrev main_v188 : Ref sig .tc := ⟨.hbm, 266, rfl⟩
abbrev main_v189 : Ref sig .tc := ⟨.hbm, 267, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_scratch3 : Ref sig .tc := ⟨.vmem, 16, rfl⟩
abbrev cc1_stg0_0 : Ref sig .tc := ⟨.vmem, 17, rfl⟩
abbrev cc1_stg1_0 : Ref sig .tc := ⟨.vmem, 18, rfl⟩
abbrev cc1_stg2_0 : Ref sig .tc := ⟨.vmem, 19, rfl⟩
abbrev cc1_stg2_1 : Ref sig .tc := ⟨.vmem, 20, rfl⟩
abbrev cc1_stg3_0 : Ref sig .tc := ⟨.vmem, 21, rfl⟩
abbrev cc1_stg3_1 : Ref sig .tc := ⟨.vmem, 22, rfl⟩
abbrev cc1_stg4_0 : Ref sig .tc := ⟨.vmem, 23, rfl⟩
abbrev cc1_stg5_0 : Ref sig .tc := ⟨.vmem, 24, rfl⟩
abbrev cc1_stg5_1 : Ref sig .tc := ⟨.vmem, 25, rfl⟩
abbrev cc1_stg6_0 : Ref sig .tc := ⟨.vmem, 26, rfl⟩
abbrev cc1_stg6_1 : Ref sig .tc := ⟨.vmem, 27, rfl⟩
abbrev cc1_stg7_0 : Ref sig .tc := ⟨.vmem, 28, rfl⟩
abbrev cc1_stg7_1 : Ref sig .tc := ⟨.vmem, 29, rfl⟩
abbrev cc1_scratch0 : Ref sig .tc := ⟨.vmem, 30, rfl⟩
abbrev cc1_scratch1 : Ref sig .tc := ⟨.vmem, 31, rfl⟩
abbrev cc1_scratch2 : Ref sig .tc := ⟨.vmem, 32, rfl⟩
abbrev cc1_scratch3 : Ref sig .tc := ⟨.vmem, 33, rfl⟩
abbrev cc2_stg0_0 : Ref sig .tc := ⟨.vmem, 34, rfl⟩
abbrev cc2_stg1_0 : Ref sig .tc := ⟨.vmem, 35, rfl⟩
abbrev cc2_stg2_0 : Ref sig .tc := ⟨.vmem, 36, rfl⟩
abbrev cc2_stg2_1 : Ref sig .tc := ⟨.vmem, 37, rfl⟩
abbrev cc2_stg3_0 : Ref sig .tc := ⟨.vmem, 38, rfl⟩
abbrev cc2_stg3_1 : Ref sig .tc := ⟨.vmem, 39, rfl⟩
abbrev cc2_stg4_0 : Ref sig .tc := ⟨.vmem, 40, rfl⟩
abbrev cc2_stg5_0 : Ref sig .tc := ⟨.vmem, 41, rfl⟩
abbrev cc2_stg5_1 : Ref sig .tc := ⟨.vmem, 42, rfl⟩
abbrev cc2_stg6_0 : Ref sig .tc := ⟨.vmem, 43, rfl⟩
abbrev cc2_stg6_1 : Ref sig .tc := ⟨.vmem, 44, rfl⟩
abbrev cc2_stg7_0 : Ref sig .tc := ⟨.vmem, 45, rfl⟩
abbrev cc2_stg7_1 : Ref sig .tc := ⟨.vmem, 46, rfl⟩
abbrev cc2_scratch0 : Ref sig .tc := ⟨.vmem, 47, rfl⟩
abbrev cc2_scratch1 : Ref sig .tc := ⟨.vmem, 48, rfl⟩
abbrev cc2_scratch2 : Ref sig .tc := ⟨.vmem, 49, rfl⟩
abbrev cc2_scratch3 : Ref sig .tc := ⟨.vmem, 50, rfl⟩
abbrev cc3_stg0_0 : Ref sig .tc := ⟨.vmem, 51, rfl⟩
abbrev cc3_stg1_0 : Ref sig .tc := ⟨.vmem, 52, rfl⟩
abbrev cc3_stg2_0 : Ref sig .tc := ⟨.vmem, 53, rfl⟩
abbrev cc3_stg2_1 : Ref sig .tc := ⟨.vmem, 54, rfl⟩
abbrev cc3_stg3_0 : Ref sig .tc := ⟨.vmem, 55, rfl⟩
abbrev cc3_stg3_1 : Ref sig .tc := ⟨.vmem, 56, rfl⟩
abbrev cc3_stg4_0 : Ref sig .tc := ⟨.vmem, 57, rfl⟩
abbrev cc3_stg5_0 : Ref sig .tc := ⟨.vmem, 58, rfl⟩
abbrev cc3_stg5_1 : Ref sig .tc := ⟨.vmem, 59, rfl⟩
abbrev cc3_stg6_0 : Ref sig .tc := ⟨.vmem, 60, rfl⟩
abbrev cc3_stg6_1 : Ref sig .tc := ⟨.vmem, 61, rfl⟩
abbrev cc3_stg7_0 : Ref sig .tc := ⟨.vmem, 62, rfl⟩
abbrev cc3_stg7_1 : Ref sig .tc := ⟨.vmem, 63, rfl⟩
abbrev cc3_scratch0 : Ref sig .tc := ⟨.vmem, 64, rfl⟩
abbrev cc3_scratch1 : Ref sig .tc := ⟨.vmem, 65, rfl⟩
abbrev cc3_scratch2 : Ref sig .tc := ⟨.vmem, 66, rfl⟩
abbrev cc3_scratch3 : Ref sig .tc := ⟨.vmem, 67, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc1_sem0_0 : DmaSem sig := 13
abbrev cc1_sem1_0 : DmaSem sig := 14
abbrev cc1_sem2_0 : DmaSem sig := 15
abbrev cc1_sem2_1 : DmaSem sig := 16
abbrev cc1_sem3_0 : DmaSem sig := 17
abbrev cc1_sem3_1 : DmaSem sig := 18
abbrev cc1_sem4_0 : DmaSem sig := 19
abbrev cc1_sem5_0 : DmaSem sig := 20
abbrev cc1_sem5_1 : DmaSem sig := 21
abbrev cc1_sem6_0 : DmaSem sig := 22
abbrev cc1_sem6_1 : DmaSem sig := 23
abbrev cc1_sem7_0 : DmaSem sig := 24
abbrev cc1_sem7_1 : DmaSem sig := 25
abbrev cc2_sem0_0 : DmaSem sig := 26
abbrev cc2_sem1_0 : DmaSem sig := 27
abbrev cc2_sem2_0 : DmaSem sig := 28
abbrev cc2_sem2_1 : DmaSem sig := 29
abbrev cc2_sem3_0 : DmaSem sig := 30
abbrev cc2_sem3_1 : DmaSem sig := 31
abbrev cc2_sem4_0 : DmaSem sig := 32
abbrev cc2_sem5_0 : DmaSem sig := 33
abbrev cc2_sem5_1 : DmaSem sig := 34
abbrev cc2_sem6_0 : DmaSem sig := 35
abbrev cc2_sem6_1 : DmaSem sig := 36
abbrev cc2_sem7_0 : DmaSem sig := 37
abbrev cc2_sem7_1 : DmaSem sig := 38
abbrev cc3_sem0_0 : DmaSem sig := 39
abbrev cc3_sem1_0 : DmaSem sig := 40
abbrev cc3_sem2_0 : DmaSem sig := 41
abbrev cc3_sem2_1 : DmaSem sig := 42
abbrev cc3_sem3_0 : DmaSem sig := 43
abbrev cc3_sem3_1 : DmaSem sig := 44
abbrev cc3_sem4_0 : DmaSem sig := 45
abbrev cc3_sem5_0 : DmaSem sig := 46
abbrev cc3_sem5_1 : DmaSem sig := 47
abbrev cc3_sem6_0 : DmaSem sig := 48
abbrev cc3_sem6_1 : DmaSem sig := 49
abbrev cc3_sem7_0 : DmaSem sig := 50
abbrev cc3_sem7_1 : DmaSem sig := 51

abbrev nD : Nat := 1
abbrev τ : Topo := Topo.v7x

variable {F : FTy → Type} [FloatOps F]

abbrev grid0 : Pipeline.Grid := ⟨2, ![2, 10], ![false, false]⟩

def k0_cond2 (i : grid0.Coords) : BitVec 1 :=
  let arg1 : BitVec 32 := BitVec.ofNat 32 (i 1).val
  let c9_i32 : BitVec 32 := 9#32
  let v54 : BitVec 1 := Scalar.cmpi .eq arg1 c9_i32
  let v55 : BitVec 32 := Scalar.extui v54
  let c0_i32_26 : BitVec 32 := 0#32
  let v56 : BitVec 1 := Scalar.cmpi .ne v55 c0_i32_26
  v56

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.muli arg0 c10_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.muli arg0 c10_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1000x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1000x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S512x1 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x512x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x512x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x512x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev grid1 : Pipeline.Grid := ⟨2, ![2, 5], ![false, false]⟩

def k1_cond2 (i : grid1.Coords) : BitVec 1 :=
  let arg1 : BitVec 32 := BitVec.ofNat 32 (i 1).val
  let c4_i32 : BitVec 32 := 4#32
  let v54 : BitVec 1 := Scalar.cmpi .eq arg1 c4_i32
  let v55 : BitVec 32 := Scalar.extui v54
  let c0_i32_26 : BitVec 32 := 0#32
  let v56 : BitVec 1 := Scalar.cmpi .ne v55 c0_i32_26
  v56

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c5_i32 : BitVec 32 := 5#32
  let v0 : BitVec 32 := Scalar.muli arg0 c5_i32
  let v1 : BitVec 32 := Scalar.addi v0 arg1
  let c0_i32 : BitVec 32 := 0#32
  let c0_i32_0 : BitVec 32 := 0#32
  ![v1.toNat, c0_i32.toNat]

def cc1_transform_3 (i : grid1.Coords) : Fin 2 → Nat :=
  let arg0 : BitVec 32 := BitVec.ofNat 32 (i 0).val
  let arg1 : BitVec 32 := BitVec.ofNat 32 (i 1).val
  let c5_i32 : BitVec 32 := 5#32
  let v0 : BitVec 32 := Scalar.muli arg0 c5_i32
  let v1 : BitVec 32 := Scalar.addi v0 arg1
  let c0_i32 : BitVec 32 := 0#32
  let c0_i32_0 : BitVec 32 := 0#32
  ![v1.toNat, c0_i32.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_6 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_7 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 1 → Memref sig .tc .vmem S512x1024 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false, false]

abbrev stage1_1 : Fin 1 → Memref sig .tc .vmem S1024x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 2 → Memref sig .tc .vmem S2000x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S2000x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 1 → Memref sig .tc .vmem S512x1 .i32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 2 → Memref sig .tc .vmem S1x512x1 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

abbrev stage1_6 : Fin 2 → Memref sig .tc .vmem S1x512x1 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, false]

abbrev stage1_7 : Fin 2 → Memref sig .tc .vmem S1x512x1 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, false]

abbrev grid2 : Pipeline.Grid := ⟨2, ![2, 25], ![false, false]⟩

def k2_cond2 (i : grid2.Coords) : BitVec 1 :=
  let arg1 : BitVec 32 := BitVec.ofNat 32 (i 1).val
  let c24_i32 : BitVec 32 := 24#32
  let v54 : BitVec 1 := Scalar.cmpi .eq arg1 c24_i32
  let v55 : BitVec 32 := Scalar.extui v54
  let c0_i32_26 : BitVec 32 := 0#32
  let v56 : BitVec 1 := Scalar.cmpi .ne v55 c0_i32_26
  v56

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let arg1 : BitVec 32 := BitVec.ofNat 32 (i 1).val
  let c25_i32 : BitVec 32 := 25#32
  let v0 : BitVec 32 := Scalar.muli arg0 c25_i32
  let v1 : BitVec 32 := Scalar.addi v0 arg1
  let c0_i32 : BitVec 32 := 0#32
  let c0_i32_0 : BitVec 32 := 0#32
  ![v1.toNat, c0_i32.toNat]

def cc2_transform_3 (i : grid2.Coords) : Fin 2 → Nat :=
  let arg0 : BitVec 32 := BitVec.ofNat 32 (i 0).val
  let arg1 : BitVec 32 := BitVec.ofNat 32 (i 1).val
  let c25_i32 : BitVec 32 := 25#32
  let v0 : BitVec 32 := Scalar.muli arg0 c25_i32
  let v1 : BitVec 32 := Scalar.addi v0 arg1
  let c0_i32 : BitVec 32 := 0#32
  let c0_i32_0 : BitVec 32 := 0#32
  ![v1.toNat, c0_i32.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_6 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_7 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage2_0 : Fin 1 → Memref sig .tc .vmem S512x1024 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false, false]

abbrev stage2_1 : Fin 1 → Memref sig .tc .vmem S1024x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, false]

abbrev stage2_2 : Fin 2 → Memref sig .tc .vmem S3200x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev stage2_3 : Fin 2 → Memref sig .tc .vmem S3200x1 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

abbrev stage2_4 : Fin 1 → Memref sig .tc .vmem S512x1 .i32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false, false]

abbrev stage2_5 : Fin 2 → Memref sig .tc .vmem S1x512x1 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, false]

abbrev stage2_6 : Fin 2 → Memref sig .tc .vmem S1x512x1 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true, false]

abbrev stage2_7 : Fin 2 → Memref sig .tc .vmem S1x512x1 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true, false]

abbrev grid3 : Pipeline.Grid := ⟨2, ![2, 17], ![false, false]⟩

def k3_cond2 (i : grid3.Coords) : BitVec 1 :=
  let arg1 : BitVec 32 := BitVec.ofNat 32 (i 1).val
  let c16_i32 : BitVec 32 := 16#32
  let v59 : BitVec 1 := Scalar.cmpi .eq arg1 c16_i32
  let v60 : BitVec 32 := Scalar.extui v59
  let c0_i32_27 : BitVec 32 := 0#32
  let v61 : BitVec 1 := Scalar.cmpi .ne v60 c0_i32_27
  v61

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let arg1 : BitVec 32 := BitVec.ofNat 32 (i 1).val
  let c17_i32 : BitVec 32 := 17#32
  let v0 : BitVec 32 := Scalar.muli arg0 c17_i32
  let v1 : BitVec 32 := Scalar.addi v0 arg1
  let c0_i32 : BitVec 32 := 0#32
  let c0_i32_0 : BitVec 32 := 0#32
  ![v1.toNat, c0_i32.toNat]

def cc3_transform_3 (i : grid3.Coords) : Fin 2 → Nat :=
  let arg0 : BitVec 32 := BitVec.ofNat 32 (i 0).val
  let arg1 : BitVec 32 := BitVec.ofNat 32 (i 1).val
  let c17_i32 : BitVec 32 := 17#32
  let v0 : BitVec 32 := Scalar.muli arg0 c17_i32
  let v1 : BitVec 32 := Scalar.addi v0 arg1
  let c0_i32 : BitVec 32 := 0#32
  let c0_i32_0 : BitVec 32 := 0#32
  ![v1.toNat, c0_i32.toNat]

def cc3_transform_4 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc3_transform_6 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc3_transform_7 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage3_0 : Fin 1 → Memref sig .tc .vmem S512x1024 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false, false]

abbrev stage3_1 : Fin 1 → Memref sig .tc .vmem S1024x16 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false, false]

abbrev stage3_2 : Fin 2 → Memref sig .tc .vmem S2048x16 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]

abbrev stage3_3 : Fin 2 → Memref sig .tc .vmem S2048x1 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, true]

abbrev stage3_4 : Fin 1 → Memref sig .tc .vmem S512x1 .i32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false, false]

abbrev stage3_5 : Fin 2 → Memref sig .tc .vmem S1x512x1 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true, false]

abbrev stage3_6 : Fin 2 → Memref sig .tc .vmem S1x512x1 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true, false]

abbrev stage3_7 : Fin 2 → Memref sig .tc .vmem S1x512x1 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true, false]

class Facts₀ : Prop where
  slices_S1x512x1024_S1x511x1024_0_0_0 : S1x512x1024.Slices ![0, 0, 0] S1x511x1024
  shapeCasts_S1x511x1024_S511x1024 : S1x511x1024.ShapeCasts S511x1024
  slices_S1x512_S1x511_0_1 : S1x512.Slices ![0, 1] S1x511
  shapeCasts_S1x511_S511 : S1x511.ShapeCasts S511
  pads_S511x1024_S512x1024_010_000 : S511x1024.Pads (![0, 0] : Fin 2 → Nat) ![1, 0] ![0, 0] S512x1024
  h_S_ : 0 < S_.numel
  pads_S511_S512_010 : S511.Pads (![0] : Fin 1 → Nat) ![1] ![0] S512
  bcast_S_S512 : S_.BroadcastsInDim S512 (![] : Fin 0 → Fin S512.rank)
  shapeCasts_S512_S512x1 : S512.ShapeCasts S512x1
  shapeCasts_S20000_S20000x1 : S20000.ShapeCasts S20000x1
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S1000x1024_S1000x1024_0_0 : ∀ a, (![0, 0] : Fin 2 → Nat) a + S1000x1024.size a ≤ S1000x1024.size a
  h_S1000x1024 : 0 < S1000x1024.numel
  inb_S1000x1_S1000x1_0_0 : ∀ a, (![0, 0] : Fin 2 → Nat) a + S1000x1.size a ≤ S1000x1.size a
  h_S1000x1 : 0 < S1000x1.numel
  shapeCasts_S1000x1_S1000x1 : S1000x1.ShapeCasts S1000x1
  transposes_S1000x1_p1_0_S1x1000 : S1000x1.Transposes [1, 0] S1x1000
  transposes_S1000x1024_p1_0_S1024x1000 : S1000x1024.Transposes [1, 0] S1024x1000
  broadcasts_S1x1000_S512x1000 : S1x1000.Broadcasts S512x1000
  iota_S512x1000_d1_w32 : S512x1000.Iotas .tc 32 [1]
  broadcasts_S512x1_S512x1000 : S512x1.Broadcasts S512x1000
  reduces_S512x1000_S512 : S512x1000.Reduces [1] S512
  inb_S1x512x1_S1x512x1_0_0_0 : ∀ a, (![0, 0, 0] : Fin 3 → Nat) a + S1x512x1.size a ≤ S1x512x1.size a
  h_S1x512x1 : 0 < S1x512x1.numel
  shapeCasts_S1x512x1_S512x1 : S1x512x1.ShapeCasts S512x1
  shapeCasts_S512x1_S1x512x1 : S512x1.ShapeCasts S1x512x1
  slices_S2x512x1_S1x512x1_0_0_0 : S2x512x1.Slices ![0, 0, 0] S1x512x1
  slices_S2x512x1_S1x512x1_1_0_0 : S2x512x1.Slices ![1, 0, 0] S1x512x1
  transposes_S3x1024_S1024x3_1_0 : S3x1024.Transposes [1, 0] S1024x3
  bcast_S3_S1x3_1 : S3.BroadcastsInDim S1x3 (![1] : Fin 1 → Fin S1x3.rank)
  bcast_S1x3_S512x3_0_1 : S1x3.BroadcastsInDim S512x3 (![0, 1] : Fin 2 → Fin S512x3.rank)
  reducesTo_S512x3_S512_d1 : S512x3.ReducesTo [1] S512
  bcast_S512_S512x1_0 : S512.BroadcastsInDim S512x1 (![0] : Fin 1 → Fin S512x1.rank)
  bcast_S512x1_S512x3_0_1 : S512x1.BroadcastsInDim S512x3 (![0, 1] : Fin 2 → Fin S512x3.rank)
  shapeCasts_S512x1_S512 : S512x1.ShapeCasts S512
  inb_S1024x256_S1024x256_0_0 : ∀ a, (![0, 0] : Fin 2 → Nat) a + S1024x256.size a ≤ S1024x256.size a
  h_S1024x256 : 0 < S1024x256.numel
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S2000x256_S2000x256_0_0 : ∀ a, (![0, 0] : Fin 2 → Nat) a + S2000x256.size a ≤ S2000x256.size a
  h_S2000x256 : 0 < S2000x256.numel
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  transposes_S2000x1_p1_0_S1x2000 : S2000x1.Transposes [1, 0] S1x2000
  transposes_S2000x256_p1_0_S256x2000 : S2000x256.Transposes [1, 0] S256x2000
  broadcasts_S1x2000_S512x2000 : S1x2000.Broadcasts S512x2000
  iota_S512x2000_d1_w32 : S512x2000.Iotas .tc 32 [1]
  broadcasts_S512x1_S512x2000 : S512x1.Broadcasts S512x2000
  reduces_S512x2000_S512 : S512x2000.Reduces [1] S512
  slices_S512x3_S512x1_0_0 : S512x3.Slices ![0, 0] S512x1
  shapeCasts_S160000_S160000x1 : S160000.ShapeCasts S160000x1
  inb_S1024x64_S1024x64_0_0 : ∀ a, (![0, 0] : Fin 2 → Nat) a + S1024x64.size a ≤ S1024x64.size a
  h_S1024x64 : 0 < S1024x64.numel
  inb_S512x64_S512x64_0_0 : ∀ a, (![0, 0] : Fin 2 → Nat) a + S512x64.size a ≤ S512x64.size a
  h_S512x64 : 0 < S512x64.numel
  shapeCasts_S512x64_S512x64 : S512x64.ShapeCasts S512x64
  inb_S3200x64_S3200x64_0_0 : ∀ a, (![0, 0] : Fin 2 → Nat) a + S3200x64.size a ≤ S3200x64.size a
  h_S3200x64 : 0 < S3200x64.numel
  inb_S3200x1_S3200x1_0_0 : ∀ a, (![0, 0] : Fin 2 → Nat) a + S3200x1.size a ≤ S3200x1.size a
  h_S3200x1 : 0 < S3200x1.numel
  shapeCasts_S3200x1_S3200x1 : S3200x1.ShapeCasts S3200x1
  transposes_S3200x1_p1_0_S1x3200 : S3200x1.Transposes [1, 0] S1x3200
  transposes_S3200x64_p1_0_S64x3200 : S3200x64.Transposes [1, 0] S64x3200
  broadcasts_S1x3200_S512x3200 : S1x3200.Broadcasts S512x3200
  iota_S512x3200_d1_w32 : S512x3200.Iotas .tc 32 [1]
  broadcasts_S512x1_S512x3200 : S512x1.Broadcasts S512x3200
  reduces_S512x3200_S512 : S512x3200.Reduces [1] S512
  slices_S512x3_S512x1_0_1 : S512x3.Slices ![0, 1] S512x1
  bcast_S_S1897x16 : S_.BroadcastsInDim S1897x16 (![] : Fin 0 → Fin S1897x16.rank)
  concatenates_S67735x16_S1897x16_S69632x16_d0 : Shape.Concatenates [S67735x16, S1897x16] S69632x16 0
  bcast_S_S1897 : S_.BroadcastsInDim S1897 (![] : Fin 0 → Fin S1897.rank)
  concatenates_S67735_S1897_S69632_d0 : Shape.Concatenates [S67735, S1897] S69632 0
  shapeCasts_S69632_S69632x1 : S69632.ShapeCasts S69632x1
  inb_S1024x16_S1024x16_0_0 : ∀ a, (![0, 0] : Fin 2 → Nat) a + S1024x16.size a ≤ S1024x16.size a
  h_S1024x16 : 0 < S1024x16.numel
  inb_S512x16_S512x16_0_0 : ∀ a, (![0, 0] : Fin 2 → Nat) a + S512x16.size a ≤ S512x16.size a
  h_S512x16 : 0 < S512x16.numel
  shapeCasts_S512x16_S512x16 : S512x16.ShapeCasts S512x16
  inb_S2048x16_S2048x16_0_0 : ∀ a, (![0, 0] : Fin 2 → Nat) a + S2048x16.size a ≤ S2048x16.size a
  h_S2048x16 : 0 < S2048x16.numel
  shapeCasts_S2048x16_S2048x16 : S2048x16.ShapeCasts S2048x16
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  transposes_S2048x1_p1_0_S1x2048 : S2048x1.Transposes [1, 0] S1x2048
  transposes_S2048x16_p1_0_S16x2048 : S2048x16.Transposes [1, 0] S16x2048
  broadcasts_S1x2048_S512x2048 : S1x2048.Broadcasts S512x2048
  iota_S512x2048_d1_w32 : S512x2048.Iotas .tc 32 [1]
  broadcasts_S512x1_S512x2048 : S512x1.Broadcasts S512x2048
  reduces_S512x2048_S512 : S512x2048.Reduces [1] S512
  slices_S512x3_S512x1_0_2 : S512x3.Slices ![0, 2] S512x1
  slices_S512_S511_0 : S512.Slices ![0] S511
  dot_S512x1024_S1024x1024_S512x1024_1_0_0_1_n_n_wf : DotDims.WF S512x1024 S1024x1024 S512x1024 [1] [0] [0] [1] [] []
  dot_S512x1024_S1024x1000_S512x1000_1_0_0_1_n_n_wf : DotDims.WF S512x1024 S1024x1000 S512x1000 [1] [0] [0] [1] [] []
  dot_S512x1024_S1024x3_S512x3_1_0_0_1_n_n_wf : DotDims.WF S512x1024 S1024x3 S512x3 [1] [0] [0] [1] [] []
  dot_S512x1024_S1024x256_S512x256_1_0_0_1_n_n_wf : DotDims.WF S512x1024 S1024x256 S512x256 [1] [0] [0] [1] [] []
  dot_S512x256_S256x2000_S512x2000_1_0_0_1_n_n_wf : DotDims.WF S512x256 S256x2000 S512x2000 [1] [0] [0] [1] [] []
  dot_S512x1024_S1024x64_S512x64_1_0_0_1_n_n_wf : DotDims.WF S512x1024 S1024x64 S512x64 [1] [0] [0] [1] [] []
  dot_S512x64_S64x3200_S512x3200_1_0_0_1_n_n_wf : DotDims.WF S512x64 S64x3200 S512x3200 [1] [0] [0] [1] [] []
  dot_S512x1024_S1024x16_S512x16_1_0_0_1_n_n_wf : DotDims.WF S512x1024 S1024x16 S512x16 [1] [0] [0] [1] [] []
  dot_S512x16_S16x2048_S512x2048_1_0_0_1_n_n_wf : DotDims.WF S512x16 S16x2048 S512x2048 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S512x1024.size a
  hwx0_0 : ∀ i : grid0.Coords, EltTy.bits .f32 = 32 ∨ (Rect.block (s := S512x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .f32 = 32 ∨ (Rect.block (s := S1024x1024) S1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1000x1024.size a ≤ S20000x1024.size a
  hwx0_2 : ∀ i : grid0.Coords, EltTy.bits .f32 = 32 ∨ (Rect.block (s := S20000x1024) S1000x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1000x1.size a ≤ S20000x1.size a
  hwx0_3 : ∀ i : grid0.Coords, EltTy.bits .f32 = 32 ∨ (Rect.block (s := S20000x1) S1000x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x1.size a ≤ S512x1.size a
  hwx0_4 : ∀ i : grid0.Coords, EltTy.bits .i32 = 32 ∨ (Rect.block (s := S512x1) S512x1.size (cc0_transform_4 i) (hinb0_4 i)).WholeWords (EltTy.packing .i32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x512x1.size a ≤ S2x512x1.size a
  hwx0_5 : ∀ i : grid0.Coords, EltTy.bits .f32 = 32 ∨ (Rect.block (s := S2x512x1) S1x512x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x512x1.size a ≤ S2x512x1.size a
  hwx0_6 : ∀ i : grid0.Coords, EltTy.bits .f32 = 32 ∨ (Rect.block (s := S2x512x1) S1x512x1.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x512x1.size a ≤ S2x512x1.size a
  hwx0_7 : ∀ i : grid0.Coords, EltTy.bits .f32 = 32 ∨ (Rect.block (s := S2x512x1) S1x512x1.size (cc0_transform_7 i) (hinb0_7 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S512x1024.size a ≤ S512x1024.size a
  hwx1_0 : ∀ i : grid1.Coords, EltTy.bits .f32 = 32 ∨ (Rect.block (s := S512x1024) S512x1024.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1024x256.size a ≤ S1024x256.size a
  hwx1_1 : ∀ i : grid1.Coords, EltTy.bits .f32 = 32 ∨ (Rect.block (s := S1024x256) S1024x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x256.size a ≤ S20000x256.size a
  hwx1_2 : ∀ i : grid1.Coords, EltTy.bits .f32 = 32 ∨ (Rect.block (s := S20000x256) S2000x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x1.size a ≤ S20000x1.size a
  hwx1_3 : ∀ i : grid1.Coords, EltTy.bits .f32 = 32 ∨ (Rect.block (s := S20000x1) S2000x1.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S512x1.size a ≤ S512x1.size a
  hwx1_4 : ∀ i : grid1.Coords, EltTy.bits .i32 = 32 ∨ (Rect.block (s := S512x1) S512x1.size (cc1_transform_4 i) (hinb1_4 i)).WholeWords (EltTy.packing .i32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x512x1.size a ≤ S2x512x1.size a
  hwx1_5 : ∀ i : grid1.Coords, EltTy.bits .f32 = 32 ∨ (Rect.block (s := S2x512x1) S1x512x1.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1x512x1.size a ≤ S2x512x1.size a
  hwx1_6 : ∀ i : grid1.Coords, EltTy.bits .f32 = 32 ∨ (Rect.block (s := S2x512x1) S1x512x1.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S1x512x1.size a ≤ S2x512x1.size a
  hwx1_7 : ∀ i : grid1.Coords, EltTy.bits .f32 = 32 ∨ (Rect.block (s := S2x512x1) S1x512x1.size (cc1_transform_7 i) (hinb1_7 i)).WholeWords (EltTy.packing .f32)
  hrank2 : 0 < grid2.rank
  hstage2_0 : ∀ j, (stage2_0 j).IsWhole
  nbuf2_0 : grid2.bufCount reads2_0 true = 1
  hreads2_0 : ∀ i i' : grid2.Coords, (∀ a, reads2_0 a = true → i a = i' a) → cc2_transform_0 i = cc2_transform_0 i'
  hinb2_0 : ∀ (i : grid2.Coords) a, (cc2_transform_0 i a + 1) * S512x1024.size a ≤ S512x1024.size a
  hwx2_0 : ∀ i : grid2.Coords, EltTy.bits .f32 = 32 ∨ (Rect.block (s := S512x1024) S512x1024.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1024x64.size a ≤ S1024x64.size a
  hwx2_1 : ∀ i : grid2.Coords, EltTy.bits .f32 = 32 ∨ (Rect.block (s := S1024x64) S1024x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S3200x64.size a ≤ S160000x64.size a
  hwx2_2 : ∀ i : grid2.Coords, EltTy.bits .f32 = 32 ∨ (Rect.block (s := S160000x64) S3200x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S3200x1.size a ≤ S160000x1.size a
  hwx2_3 : ∀ i : grid2.Coords, EltTy.bits .f32 = 32 ∨ (Rect.block (s := S160000x1) S3200x1.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S512x1.size a ≤ S512x1.size a
  hwx2_4 : ∀ i : grid2.Coords, EltTy.bits .i32 = 32 ∨ (Rect.block (s := S512x1) S512x1.size (cc2_transform_4 i) (hinb2_4 i)).WholeWords (EltTy.packing .i32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S1x512x1.size a ≤ S2x512x1.size a
  hwx2_5 : ∀ i : grid2.Coords, EltTy.bits .f32 = 32 ∨ (Rect.block (s := S2x512x1) S1x512x1.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S1x512x1.size a ≤ S2x512x1.size a
  hwx2_6 : ∀ i : grid2.Coords, EltTy.bits .f32 = 32 ∨ (Rect.block (s := S2x512x1) S1x512x1.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S1x512x1.size a ≤ S2x512x1.size a
  hwx2_7 : ∀ i : grid2.Coords, EltTy.bits .f32 = 32 ∨ (Rect.block (s := S2x512x1) S1x512x1.size (cc2_transform_7 i) (hinb2_7 i)).WholeWords (EltTy.packing .f32)
  hrank3 : 0 < grid3.rank
  hstage3_0 : ∀ j, (stage3_0 j).IsWhole
  nbuf3_0 : grid3.bufCount reads3_0 true = 1
  hreads3_0 : ∀ i i' : grid3.Coords, (∀ a, reads3_0 a = true → i a = i' a) → cc3_transform_0 i = cc3_transform_0 i'
  hinb3_0 : ∀ (i : grid3.Coords) a, (cc3_transform_0 i a + 1) * S512x1024.size a ≤ S512x1024.size a
  hwx3_0 : ∀ i : grid3.Coords, EltTy.bits .f32 = 32 ∨ (Rect.block (s := S512x1024) S512x1024.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1024x16.size a ≤ S1024x16.size a
  hwx3_1 : ∀ i : grid3.Coords, EltTy.bits .f32 = 32 ∨ (Rect.block (s := S1024x16) S1024x16.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2048x16.size a ≤ S69632x16.size a
  hwx3_2 : ∀ i : grid3.Coords, EltTy.bits .f32 = 32 ∨ (Rect.block (s := S69632x16) S2048x16.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S2048x1.size a ≤ S69632x1.size a
  hwx3_3 : ∀ i : grid3.Coords, EltTy.bits .f32 = 32 ∨ (Rect.block (s := S69632x1) S2048x1.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S512x1.size a ≤ S512x1.size a
  hwx3_4 : ∀ i : grid3.Coords, EltTy.bits .i32 = 32 ∨ (Rect.block (s := S512x1) S512x1.size (cc3_transform_4 i) (hinb3_4 i)).WholeWords (EltTy.packing .i32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S1x512x1.size a ≤ S2x512x1.size a
  hwx3_5 : ∀ i : grid3.Coords, EltTy.bits .f32 = 32 ∨ (Rect.block (s := S2x512x1) S1x512x1.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S1x512x1.size a ≤ S2x512x1.size a
  hwx3_6 : ∀ i : grid3.Coords, EltTy.bits .f32 = 32 ∨ (Rect.block (s := S2x512x1) S1x512x1.size (cc3_transform_6 i) (hinb3_6 i)).WholeWords (EltTy.packing .f32)
  hstage3_7 : ∀ j, (stage3_7 j).IsWhole
  nbuf3_7 : grid3.bufCount reads3_7 false = 2
  hreads3_7 : ∀ i i' : grid3.Coords, (∀ a, reads3_7 a = true → i a = i' a) → cc3_transform_7 i = cc3_transform_7 i'
  hinb3_7 : ∀ (i : grid3.Coords) a, (cc3_transform_7 i a + 1) * S1x512x1.size a ≤ S2x512x1.size a
  hwx3_7 : ∀ i : grid3.Coords, EltTy.bits .f32 = 32 ∨ (Rect.block (s := S2x512x1) S1x512x1.size (cc3_transform_7 i) (hinb3_7 i)).WholeWords (EltTy.packing .f32)

variable [Facts₀]

def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf
def dot_S512x1024_S1024x1000_S512x1000_1_0_0_1_n_n : DotDims S512x1024 S1024x1000 S512x1000 where
  lhsContracting := [1]
  rhsContracting := [0]
  lhsNonContracting := [0]
  rhsNonContracting := [1]
  lhsBatch := []
  rhsBatch := []
  wf := dot_S512x1024_S1024x1000_S512x1000_1_0_0_1_n_n_wf
def dot_S512x1024_S1024x3_S512x3_1_0_0_1_n_n : DotDims S512x1024 S1024x3 S512x3 where
  lhsContracting := [1]
  rhsContracting := [0]
  lhsNonContracting := [0]
  rhsNonContracting := [1]
  lhsBatch := []
  rhsBatch := []
  wf := dot_S512x1024_S1024x3_S512x3_1_0_0_1_n_n_wf
def dot_S512x1024_S1024x256_S512x256_1_0_0_1_n_n : DotDims S512x1024 S1024x256 S512x256 where
  lhsContracting := [1]
  rhsContracting := [0]
  lhsNonContracting := [0]
  rhsNonContracting := [1]
  lhsBatch := []
  rhsBatch := []
  wf := dot_S512x1024_S1024x256_S512x256_1_0_0_1_n_n_wf
def dot_S512x256_S256x2000_S512x2000_1_0_0_1_n_n : DotDims S512x256 S256x2000 S512x2000 where
  lhsContracting := [1]
  rhsContracting := [0]
  lhsNonContracting := [0]
  rhsNonContracting := [1]
  lhsBatch := []
  rhsBatch := []
  wf := dot_S512x256_S256x2000_S512x2000_1_0_0_1_n_n_wf
def dot_S512x1024_S1024x64_S512x64_1_0_0_1_n_n : DotDims S512x1024 S1024x64 S512x64 where
  lhsContracting := [1]
  rhsContracting := [0]
  lhsNonContracting := [0]
  rhsNonContracting := [1]
  lhsBatch := []
  rhsBatch := []
  wf := dot_S512x1024_S1024x64_S512x64_1_0_0_1_n_n_wf
def dot_S512x64_S64x3200_S512x3200_1_0_0_1_n_n : DotDims S512x64 S64x3200 S512x3200 where
  lhsContracting := [1]
  rhsContracting := [0]
  lhsNonContracting := [0]
  rhsNonContracting := [1]
  lhsBatch := []
  rhsBatch := []
  wf := dot_S512x64_S64x3200_S512x3200_1_0_0_1_n_n_wf
def dot_S512x1024_S1024x16_S512x16_1_0_0_1_n_n : DotDims S512x1024 S1024x16 S512x16 where
  lhsContracting := [1]
  rhsContracting := [0]
  lhsNonContracting := [0]
  rhsNonContracting := [1]
  lhsBatch := []
  rhsBatch := []
  wf := dot_S512x1024_S1024x16_S512x16_1_0_0_1_n_n_wf
def dot_S512x16_S16x2048_S512x2048_1_0_0_1_n_n : DotDims S512x16 S16x2048 S512x2048 where
  lhsContracting := [1]
  rhsContracting := [0]
  lhsNonContracting := [0]
  rhsNonContracting := [1]
  lhsBatch := []
  rhsBatch := []
  wf := dot_S512x16_S16x2048_S512x2048_1_0_0_1_n_n_wf

abbrev win0_0 : Pipeline.Window sig grid0 :=
  Pipeline.Window.ofSpec (Memref.whole main_v4) S512x1024.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S1000x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v37) S1000x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v24) S512x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v38_0) S1x512x1.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v38_1) S1x512x1.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v38_2) S1x512x1.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev idle0 : Fin 8 → grid0.Coords → Bool := fun | 0 => fun _ => false | 1 => fun _ => false | 2 => fun _ => false | 3 => fun _ => false | 4 => fun _ => false | 5 => fun i => !(k0_cond2 i == 1#1) | 6 => fun i => !(k0_cond2 i == 1#1) | 7 => fun i => !(k0_cond2 i == 1#1) | ⟨_ + 8, h⟩ => absurd h (Nat.not_lt.2 (Nat.le_add_left _ _))

abbrev win1_0 : Pipeline.Window sig grid1 :=
  Pipeline.Window.ofSpec (Memref.whole main_v4) S512x1024.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S1024x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S2000x256.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v87) S2000x1.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v28) S512x1.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v88_0) S1x512x1.size cc1_transform_5 reads1_5 true false 2 stage1_5 sem1_5
    hrank1 hreads1_5 hinb1_5 nbuf1_5 (Memref.isWhole_whole _) hwx1_5 hstage1_5

abbrev win1_6 : Pipeline.Window sig grid1 :=
  Pipeline.Window.ofSpec (Memref.whole main_v88_1) S1x512x1.size cc1_transform_6 reads1_6 true false 2 stage1_6 sem1_6
    hrank1 hreads1_6 hinb1_6 nbuf1_6 (Memref.isWhole_whole _) hwx1_6 hstage1_6

abbrev win1_7 : Pipeline.Window sig grid1 :=
  Pipeline.Window.ofSpec (Memref.whole main_v88_2) S1x512x1.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev idle1 : Fin 8 → grid1.Coords → Bool := fun | 0 => fun _ => false | 1 => fun _ => false | 2 => fun _ => false | 3 => fun _ => false | 4 => fun _ => false | 5 => fun i => !(k1_cond2 i == 1#1) | 6 => fun i => !(k1_cond2 i == 1#1) | 7 => fun i => !(k1_cond2 i == 1#1) | ⟨_ + 8, h⟩ => absurd h (Nat.not_lt.2 (Nat.le_add_left _ _))

abbrev win2_0 : Pipeline.Window sig grid2 :=
  Pipeline.Window.ofSpec (Memref.whole main_v4) S512x1024.size cc2_transform_0 reads2_0 false true 1 stage2_0 sem2_0
    hrank2 hreads2_0 hinb2_0 nbuf2_0 (Memref.isWhole_whole _) hwx2_0 hstage2_0

abbrev win2_1 : Pipeline.Window sig grid2 :=
  Pipeline.Window.ofSpec (Memref.whole main_arg8) S1024x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg9) S3200x64.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v117) S3200x1.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v32) S512x1.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v118_0) S1x512x1.size cc2_transform_5 reads2_5 true false 2 stage2_5 sem2_5
    hrank2 hreads2_5 hinb2_5 nbuf2_5 (Memref.isWhole_whole _) hwx2_5 hstage2_5

abbrev win2_6 : Pipeline.Window sig grid2 :=
  Pipeline.Window.ofSpec (Memref.whole main_v118_1) S1x512x1.size cc2_transform_6 reads2_6 true false 2 stage2_6 sem2_6
    hrank2 hreads2_6 hinb2_6 nbuf2_6 (Memref.isWhole_whole _) hwx2_6 hstage2_6

abbrev win2_7 : Pipeline.Window sig grid2 :=
  Pipeline.Window.ofSpec (Memref.whole main_v118_2) S1x512x1.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

abbrev idle2 : Fin 8 → grid2.Coords → Bool := fun | 0 => fun _ => false | 1 => fun _ => false | 2 => fun _ => false | 3 => fun _ => false | 4 => fun _ => false | 5 => fun i => !(k2_cond2 i == 1#1) | 6 => fun i => !(k2_cond2 i == 1#1) | 7 => fun i => !(k2_cond2 i == 1#1) | ⟨_ + 8, h⟩ => absurd h (Nat.not_lt.2 (Nat.le_add_left _ _))

abbrev win3_0 : Pipeline.Window sig grid3 :=
  Pipeline.Window.ofSpec (Memref.whole main_v4) S512x1024.size cc3_transform_0 reads3_0 false true 1 stage3_0 sem3_0
    hrank3 hreads3_0 hinb3_0 nbuf3_0 (Memref.isWhole_whole _) hwx3_0 hstage3_0

abbrev win3_1 : Pipeline.Window sig grid3 :=
  Pipeline.Window.ofSpec (Memref.whole main_arg11) S1024x16.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v148) S2048x16.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v151) S2048x1.size cc3_transform_3 reads3_3 false false 2 stage3_3 sem3_3
    hrank3 hreads3_3 hinb3_3 nbuf3_3 (Memref.isWhole_whole _) hwx3_3 hstage3_3

abbrev win3_4 : Pipeline.Window sig grid3 :=
  Pipeline.Window.ofSpec (Memref.whole main_v36) S512x1.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v152_0) S1x512x1.size cc3_transform_5 reads3_5 true false 2 stage3_5 sem3_5
    hrank3 hreads3_5 hinb3_5 nbuf3_5 (Memref.isWhole_whole _) hwx3_5 hstage3_5

abbrev win3_6 : Pipeline.Window sig grid3 :=
  Pipeline.Window.ofSpec (Memref.whole main_v152_1) S1x512x1.size cc3_transform_6 reads3_6 true false 2 stage3_6 sem3_6
    hrank3 hreads3_6 hinb3_6 nbuf3_6 (Memref.isWhole_whole _) hwx3_6 hstage3_6

abbrev win3_7 : Pipeline.Window sig grid3 :=
  Pipeline.Window.ofSpec (Memref.whole main_v152_2) S1x512x1.size cc3_transform_7 reads3_7 true false 2 stage3_7 sem3_7
    hrank3 hreads3_7 hinb3_7 nbuf3_7 (Memref.isWhole_whole _) hwx3_7 hstage3_7

abbrev win3 : Fin 8 → Pipeline.Window sig grid3 := fun | 0 => win3_0 | 1 => win3_1 | 2 => win3_2 | 3 => win3_3 | 4 => win3_4 | 5 => win3_5 | 6 => win3_6 | 7 => win3_7 | ⟨_ + 8, h⟩ => absurd h (Nat.not_lt.2 (Nat.le_add_left _ _))
abbrev spec3 : Fin 8 → Pipeline.WinSpec sig grid3.rank := fun w => (win3 w).toWinSpec

abbrev idle3 : Fin 8 → grid3.Coords → Bool := fun | 0 => fun _ => false | 1 => fun _ => false | 2 => fun _ => false | 3 => fun _ => false | 4 => fun _ => false | 5 => fun i => !(k3_cond2 i == 1#1) | 6 => fun i => !(k3_cond2 i == 1#1) | 7 => fun i => !(k3_cond2 i == 1#1) | ⟨_ + 8, h⟩ => absurd h (Nat.not_lt.2 (Nat.le_add_left _ _))

class Facts : Prop extends Facts₀ where

variable [Facts]
-- ==== ReferenceIdeal.lean ====
abbrev S1x512x1024 : Shape := ⟨3, ![1, 512, 1024]⟩
abbrev S1x512 : Shape := ⟨2, ![1, 512]⟩
abbrev S1024x1024 : Shape := ⟨2, ![1024, 1024]⟩
abbrev S20000x1024 : Shape := ⟨2, ![20000, 1024]⟩
abbrev S20000 : Shape := ⟨1, ![20000]⟩
abbrev S1024x256 : Shape := ⟨2, ![1024, 256]⟩
abbrev S20000x256 : Shape := ⟨2, ![20000, 256]⟩
abbrev S1024x64 : Shape := ⟨2, ![1024, 64]⟩
abbrev S160000x64 : Shape := ⟨2, ![160000, 64]⟩
abbrev S160000 : Shape := ⟨1, ![160000]⟩
abbrev S1024x16 : Shape := ⟨2, ![1024, 16]⟩
abbrev S67735x16 : Shape := ⟨2, ![67735, 16]⟩
abbrev S67735 : Shape := ⟨1, ![67735]⟩
abbrev S3x1024 : Shape := ⟨2, ![3, 1024]⟩
abbrev S3 : Shape := ⟨1, ![3]⟩
abbrev S1x511x1024 : Shape := ⟨3, ![1, 511, 1024]⟩
abbrev S511x1024 : Shape := ⟨2, ![511, 1024]⟩
abbrev S1x511 : Shape := ⟨2, ![1, 511]⟩
abbrev S511 : Shape := ⟨1, ![511]⟩
abbrev S20003x1024 : Shape := ⟨2, ![20003, 1024]⟩
abbrev S20003 : Shape := ⟨1, ![20003]⟩
abbrev S1024x20003 : Shape := ⟨2, ![1024, 20003]⟩
abbrev S511x20003 : Shape := ⟨2, ![511, 20003]⟩
abbrev S1x20003 : Shape := ⟨2, ![1, 20003]⟩
abbrev S_ : Shape := ⟨0, ![]⟩
abbrev S511x1 : Shape := ⟨2, ![511, 1]⟩
abbrev S511x1x1 : Shape := ⟨3, ![511, 1, 1]⟩
abbrev S1 : Shape := ⟨1, ![1]⟩
abbrev S1x1x1 : Shape := ⟨3, ![1, 1, 1]⟩
abbrev S511x256 : Shape := ⟨2, ![511, 256]⟩
abbrev S256x20000 : Shape := ⟨2, ![256, 20000]⟩
abbrev S511x20000 : Shape := ⟨2, ![511, 20000]⟩
abbrev S1x20000 : Shape := ⟨2, ![1, 20000]⟩
abbrev S511x64 : Shape := ⟨2, ![511, 64]⟩
abbrev S64x160000 : Shape := ⟨2, ![64, 160000]⟩
abbrev S511x160000 : Shape := ⟨2, ![511, 160000]⟩
abbrev S1x160000 : Shape := ⟨2, ![1, 160000]⟩
abbrev S511x16 : Shape := ⟨2, ![511, 16]⟩
abbrev S16x67735 : Shape := ⟨2, ![16, 67735]⟩
abbrev S511x67735 : Shape := ⟨2, ![511, 67735]⟩
abbrev S1x67735 : Shape := ⟨2, ![1, 67735]⟩

abbrev nBuf : Space → Nat
  | .hbm => 287
  | .vmem => 0
  | .smem => 0
  | _ => 0

abbrev hbmTy0_0 (i : Nat) : BufTy := match i % 128 with
  | 0 => ⟨S1x512x1024, .f32⟩
  | 1 => ⟨S1x512, .i32⟩
  | 2 => ⟨S1024x1024, .f32⟩
  | 3 => ⟨S20000x1024, .f32⟩
  | 4 => ⟨S20000, .f32⟩
  | 5 => ⟨S1024x256, .f32⟩
  | 6 => ⟨S20000x256, .f32⟩
  | 7 => ⟨S20000, .f32⟩
  | 8 => ⟨S1024x64, .f32⟩
  | 9 => ⟨S160000x64, .f32⟩
  | 10 => ⟨S160000, .f32⟩
  | 11 => ⟨S1024x16, .f32⟩
  | 12 => ⟨S67735x16, .f32⟩
  | 13 => ⟨S67735, .f32⟩
  | 14 => ⟨S3x1024, .f32⟩
  | 15 => ⟨S3, .f32⟩
  | 16 => ⟨S1x511x1024, .f32⟩
  | 17 => ⟨S511x1024, .f32⟩
  | 18 => ⟨S1x511, .i32⟩
  | 19 => ⟨S511, .i32⟩
  | 20 => ⟨S20003x1024, .f32⟩
  | 21 => ⟨S20003, .f32⟩
  | 22 => ⟨S511x1024, .f32⟩
  | 23 => ⟨S1024x20003, .f32⟩
  | 24 => ⟨S511x20003, .f32⟩
  | 25 => ⟨S1x20003, .f32⟩
  | 26 => ⟨S511x20003, .f32⟩
  | 27 => ⟨S511x20003, .f32⟩
  | 28 => ⟨S_, .f32⟩
  | 29 => ⟨S511, .f32⟩
  | 30 => ⟨S_, .f32⟩
  | 31 => ⟨S511, .f32⟩
  | 32 => ⟨S511, .f32⟩
  | 33 => ⟨S511x1, .f32⟩
  | 34 => ⟨S511x20003, .f32⟩
  | 35 => ⟨S511x20003, .f32⟩
  | 36 => ⟨S511x20003, .f32⟩
  | 37 => ⟨S_, .f32⟩
  | 38 => ⟨S511, .f32⟩
  | 39 => ⟨S511x1, .f32⟩
  | 40 => ⟨S511x1, .f32⟩
  | 41 => ⟨S511x20003, .f32⟩
  | 42 => ⟨S511x20003, .f32⟩
  | 43 => ⟨S_, .i32⟩
  | 44 => ⟨S511, .i32⟩
  | 45 => ⟨S511, .i1⟩
  | 46 => ⟨S_, .i32⟩
  | 47 => ⟨S_, .i32⟩
  | 48 => ⟨S_, .i32⟩
  | 49 => ⟨S511, .i32⟩
  | 50 => ⟨S511, .i32⟩
  | 51 => ⟨S_, .i32⟩
  | 52 => ⟨S511, .i32⟩
  | 53 => ⟨S511, .i32⟩
  | 54 => ⟨S511x1, .i32⟩
  | 55 => ⟨S_, .i32⟩
  | 56 => ⟨S511x1, .i32⟩
  | 57 => ⟨S511x1, .i1⟩
  | 58 => ⟨S_, .i32⟩
  | 59 => ⟨S511x1, .i32⟩
  | 60 => ⟨S511x1, .i32⟩
  | 61 => ⟨S511x1, .i32⟩
  | 62 => ⟨S511x1x1, .i32⟩
  | 63 => ⟨S1, .i32⟩
  | 64 => ⟨S_, .i32⟩
  | 65 => ⟨S511x1x1, .i32⟩
  | 66 => ⟨S511x1x1, .i1⟩
  | 67 => ⟨S1x1x1, .i32⟩
  | 68 => ⟨S511x1x1, .i32⟩
  | 69 => ⟨S511x1x1, .i1⟩
  | 70 => ⟨S511x1x1, .i1⟩
  | 71 => ⟨S_, .i1⟩
  | 72 => ⟨S511x1, .i1⟩
  | 73 => ⟨S511x1, .f32⟩
  | 74 => ⟨S_, .f32⟩
  | 75 => ⟨S511x1, .f32⟩
  | 76 => ⟨S511x1, .f32⟩
  | 77 => ⟨S511, .f32⟩
  | 78 => ⟨S511, .f32⟩
  | 79 => ⟨S_, .f32⟩
  | 80 => ⟨S_, .f32⟩
  | 81 => ⟨S511, .f32⟩
  | 82 => ⟨S511, .f32⟩
  | 83 => ⟨S_, .i32⟩
  | 84 => ⟨S511, .i32⟩
  | 85 => ⟨S511, .i1⟩
  | 86 => ⟨S_, .i32⟩
  | 87 => ⟨S511, .i32⟩
  | 88 => ⟨S511, .i1⟩
  | 89 => ⟨S511, .i1⟩
  | 90 => ⟨S_, .i32⟩
  | 91 => ⟨S511, .i32⟩
  | 92 => ⟨S511, .i32⟩
  | 93 => ⟨S_, .i32⟩
  | 94 => ⟨S_, .i32⟩
  | 95 => ⟨S_, .i32⟩
  | 96 => ⟨S511, .i32⟩
  | 97 => ⟨S511, .i32⟩
  | 98 => ⟨S_, .i32⟩
  | 99 => ⟨S511, .i32⟩
  | 100 => ⟨S511, .i32⟩
  | 101 => ⟨S511x256, .f32⟩
  | 102 => ⟨S256x20000, .f32⟩
  | 103 => ⟨S511x20000, .f32⟩
  | 104 => ⟨S1x20000, .f32⟩
  | 105 => ⟨S511x20000, .f32⟩
  | 106 => ⟨S511x20000, .f32⟩
  | 107 => ⟨S_, .f32⟩
  | 108 => ⟨S511, .f32⟩
  | 109 => ⟨S_, .f32⟩
  | 110 => ⟨S511, .f32⟩
  | 111 => ⟨S511, .f32⟩
  | 112 => ⟨S511x1, .f32⟩
  | 113 => ⟨S511x20000, .f32⟩
  | 114 => ⟨S511x20000, .f32⟩
  | 115 => ⟨S511x20000, .f32⟩
  | 116 => ⟨S_, .f32⟩
  | 117 => ⟨S511, .f32⟩
  | 118 => ⟨S511x1, .f32⟩
  | 119 => ⟨S511x1, .f32⟩
  | 120 => ⟨S511x20000, .f32⟩
  | 121 => ⟨S511x20000, .f32⟩
  | 122 => ⟨S511x1, .i32⟩
  | 123 => ⟨S_, .i32⟩
  | 124 => ⟨S511x1, .i32⟩
  | 125 => ⟨S511x1, .i1⟩
  | 126 => ⟨S_, .i32⟩
  | 127 => ⟨S511x1, .i32⟩
  | _ => ⟨S1x512x1024, .f32⟩

abbrev hbmTy0_1 (i : Nat) : BufTy := match i % 128 with
  | 0 => ⟨S511x1, .i32⟩
  | 1 => ⟨S511x1, .i32⟩
  | 2 => ⟨S511x1x1, .i32⟩
  | 3 => ⟨S1, .i32⟩
  | 4 => ⟨S_, .i32⟩
  | 5 => ⟨S511x1x1, .i32⟩
  | 6 => ⟨S511x1x1, .i1⟩
  | 7 => ⟨S1x1x1, .i32⟩
  | 8 => ⟨S511x1x1, .i32⟩
  | 9 => ⟨S511x1x1, .i1⟩
  | 10 => ⟨S511x1x1, .i1⟩
  | 11 => ⟨S_, .i1⟩
  | 12 => ⟨S511x1, .i1⟩
  | 13 => ⟨S511x1, .f32⟩
  | 14 => ⟨S_, .f32⟩
  | 15 => ⟨S511x1, .f32⟩
  | 16 => ⟨S511x1, .f32⟩
  | 17 => ⟨S511, .f32⟩
  | 18 => ⟨S511x1, .f32⟩
  | 19 => ⟨S511, .f32⟩
  | 20 => ⟨S511, .f32⟩
  | 21 => ⟨S511, .f32⟩
  | 22 => ⟨S511, .f32⟩
  | 23 => ⟨S_, .i32⟩
  | 24 => ⟨S511, .i32⟩
  | 25 => ⟨S511, .i1⟩
  | 26 => ⟨S_, .i32⟩
  | 27 => ⟨S511, .i32⟩
  | 28 => ⟨S511, .i1⟩
  | 29 => ⟨S511, .i1⟩
  | 30 => ⟨S_, .i32⟩
  | 31 => ⟨S511, .i32⟩
  | 32 => ⟨S511, .i32⟩
  | 33 => ⟨S_, .i32⟩
  | 34 => ⟨S_, .i32⟩
  | 35 => ⟨S_, .i32⟩
  | 36 => ⟨S511, .i32⟩
  | 37 => ⟨S511, .i32⟩
  | 38 => ⟨S_, .i32⟩
  | 39 => ⟨S511, .i32⟩
  | 40 => ⟨S511, .i32⟩
  | 41 => ⟨S511x64, .f32⟩
  | 42 => ⟨S64x160000, .f32⟩
  | 43 => ⟨S511x160000, .f32⟩
  | 44 => ⟨S1x160000, .f32⟩
  | 45 => ⟨S511x160000, .f32⟩
  | 46 => ⟨S511x160000, .f32⟩
  | 47 => ⟨S_, .f32⟩
  | 48 => ⟨S511, .f32⟩
  | 49 => ⟨S_, .f32⟩
  | 50 => ⟨S511, .f32⟩
  | 51 => ⟨S511, .f32⟩
  | 52 => ⟨S511x1, .f32⟩
  | 53 => ⟨S511x160000, .f32⟩
  | 54 => ⟨S511x160000, .f32⟩
  | 55 => ⟨S511x160000, .f32⟩
  | 56 => ⟨S_, .f32⟩
  | 57 => ⟨S511, .f32⟩
  | 58 => ⟨S511x1, .f32⟩
  | 59 => ⟨S511x1, .f32⟩
  | 60 => ⟨S511x160000, .f32⟩
  | 61 => ⟨S511x160000, .f32⟩
  | 62 => ⟨S511x1, .i32⟩
  | 63 => ⟨S_, .i32⟩
  | 64 => ⟨S511x1, .i32⟩
  | 65 => ⟨S511x1, .i1⟩
  | 66 => ⟨S_, .i32⟩
  | 67 => ⟨S511x1, .i32⟩
  | 68 => ⟨S511x1, .i32⟩
  | 69 => ⟨S511x1, .i32⟩
  | 70 => ⟨S511x1x1, .i32⟩
  | 71 => ⟨S1, .i32⟩
  | 72 => ⟨S_, .i32⟩
  | 73 => ⟨S511x1x1, .i32⟩
  | 74 => ⟨S511x1x1, .i1⟩
  | 75 => ⟨S1x1x1, .i32⟩
  | 76 => ⟨S511x1x1, .i32⟩
  | 77 => ⟨S511x1x1, .i1⟩
  | 78 => ⟨S511x1x1, .i1⟩
  | 79 => ⟨S_, .i1⟩
  | 80 => ⟨S511x1, .i1⟩
  | 81 => ⟨S511x1, .f32⟩
  | 82 => ⟨S_, .f32⟩
  | 83 => ⟨S511x1, .f32⟩
  | 84 => ⟨S511x1, .f32⟩
  | 85 => ⟨S511, .f32⟩
  | 86 => ⟨S511x1, .f32⟩
  | 87 => ⟨S511, .f32⟩
  | 88 => ⟨S511, .f32⟩
  | 89 => ⟨S511, .f32⟩
  | 90 => ⟨S511, .f32⟩
  | 91 => ⟨S_, .i32⟩
  | 92 => ⟨S511, .i32⟩
  | 93 => ⟨S511, .i1⟩
  | 94 => ⟨S_, .i32⟩
  | 95 => ⟨S511, .i32⟩
  | 96 => ⟨S511, .i1⟩
  | 97 => ⟨S511, .i1⟩
  | 98 => ⟨S_, .i32⟩
  | 99 => ⟨S511, .i32⟩
  | 100 => ⟨S511, .i32⟩
  | 101 => ⟨S_, .i32⟩
  | 102 => ⟨S_, .i32⟩
  | 103 => ⟨S_, .i32⟩
  | 104 => ⟨S511, .i32⟩
  | 105 => ⟨S511, .i32⟩
  | 106 => ⟨S_, .i32⟩
  | 107 => ⟨S511, .i32⟩
  | 108 => ⟨S511, .i32⟩
  | 109 => ⟨S511x16, .f32⟩
  | 110 => ⟨S16x67735, .f32⟩
  | 111 => ⟨S511x67735, .f32⟩
  | 112 => ⟨S1x67735, .f32⟩
  | 113 => ⟨S511x67735, .f32⟩
  | 114 => ⟨S511x67735, .f32⟩
  | 115 => ⟨S_, .f32⟩
  | 116 => ⟨S511, .f32⟩
  | 117 => ⟨S_, .f32⟩
  | 118 => ⟨S511, .f32⟩
  | 119 => ⟨S511, .f32⟩
  | 120 => ⟨S511x1, .f32⟩
  | 121 => ⟨S511x67735, .f32⟩
  | 122 => ⟨S511x67735, .f32⟩
  | 123 => ⟨S511x67735, .f32⟩
  | 124 => ⟨S_, .f32⟩
  | 125 => ⟨S511, .f32⟩
  | 126 => ⟨S511x1, .f32⟩
  | 127 => ⟨S511x1, .f32⟩
  | _ => ⟨S1x512x1024, .f32⟩

abbrev hbmTy0_2 (i : Nat) : BufTy := match i % 128 with
  | 0 => ⟨S511x67735, .f32⟩
  | 1 => ⟨S511x67735, .f32⟩
  | 2 => ⟨S511x1, .i32⟩
  | 3 => ⟨S_, .i32⟩
  | 4 => ⟨S511x1, .i32⟩
  | 5 => ⟨S511x1, .i1⟩
  | 6 => ⟨S_, .i32⟩
  | 7 => ⟨S511x1, .i32⟩
  | 8 => ⟨S511x1, .i32⟩
  | 9 => ⟨S511x1, .i32⟩
  | 10 => ⟨S511x1x1, .i32⟩
  | 11 => ⟨S1, .i32⟩
  | 12 => ⟨S_, .i32⟩
  | 13 => ⟨S511x1x1, .i32⟩
  | 14 => ⟨S511x1x1, .i1⟩
  | 15 => ⟨S1x1x1, .i32⟩
  | 16 => ⟨S511x1x1, .i32⟩
  | 17 => ⟨S511x1x1, .i1⟩
  | 18 => ⟨S511x1x1, .i1⟩
  | 19 => ⟨S_, .i1⟩
  | 20 => ⟨S511x1, .i1⟩
  | 21 => ⟨S511x1, .f32⟩
  | 22 => ⟨S_, .f32⟩
  | 23 => ⟨S511x1, .f32⟩
  | 24 => ⟨S511x1, .f32⟩
  | 25 => ⟨S511, .f32⟩
  | 26 => ⟨S511x1, .f32⟩
  | 27 => ⟨S511, .f32⟩
  | 28 => ⟨S511, .f32⟩
  | 29 => ⟨S511, .f32⟩
  | 30 => ⟨S511, .f32⟩
  | _ => ⟨S1x512x1024, .f32⟩

abbrev hbmTy (i : Nat) : BufTy := match i / 128 with
  | 0 => hbmTy0_0 i
  | 1 => hbmTy0_1 i
  | 2 => hbmTy0_2 i
  | _ => ⟨S1x512x1024, .f32⟩

abbrev bufTy : (tb : Table) → Fin (tcTables nBuf tb) → BufTy
  | .hbm, ⟨i, _⟩ => hbmTy i
  | _, _ => ⟨S1x512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_call0_cst : Ref sig .tc := ⟨.hbm, 28, rfl⟩
abbrev main_call0_v0 : Ref sig .tc := ⟨.hbm, 29, rfl⟩
abbrev main_call0_cst_0 : Ref sig .tc := ⟨.hbm, 30, rfl⟩
abbrev main_call0_v1 : Ref sig .tc := ⟨.hbm, 31, rfl⟩
abbrev main_call0_v2 : Ref sig .tc := ⟨.hbm, 32, rfl⟩
abbrev main_call0_v3 : Ref sig .tc := ⟨.hbm, 33, rfl⟩
abbrev main_call0_v4 : Ref sig .tc := ⟨.hbm, 34, rfl⟩
abbrev main_call0_v5 : Ref sig .tc := ⟨.hbm, 35, rfl⟩
abbrev main_call0_v6 : Ref sig .tc := ⟨.hbm, 36, rfl⟩
abbrev main_call0_cst_1 : Ref sig .tc := ⟨.hbm, 37, rfl⟩
abbrev main_call0_v7 : Ref sig .tc := ⟨.hbm, 38, rfl⟩
abbrev main_call0_v8 : Ref sig .tc := ⟨.hbm, 39, rfl⟩
abbrev main_call0_v9 : Ref sig .tc := ⟨.hbm, 40, rfl⟩
abbrev main_call0_v10 : Ref sig .tc := ⟨.hbm, 41, rfl⟩
abbrev main_v12 : Ref sig .tc := ⟨.hbm, 42, rfl⟩
abbrev main_c : Ref sig .tc := ⟨.hbm, 43, rfl⟩
abbrev main_v13 : Ref sig .tc := ⟨.hbm, 44, rfl⟩
abbrev main_v14 : Ref sig .tc := ⟨.hbm, 45, rfl⟩
abbrev main_c_0 : Ref sig .tc := ⟨.hbm, 46, rfl⟩
abbrev main_c_1 : Ref sig .tc := ⟨.hbm, 47, rfl⟩
abbrev main_call1_v0 : Ref sig .tc := ⟨.hbm, 48, rfl⟩
abbrev main_call1_v1 : Ref sig .tc := ⟨.hbm, 49, rfl⟩
abbrev main_call1_v2 : Ref sig .tc := ⟨.hbm, 50, rfl⟩
abbrev main_call1_v3 : Ref sig .tc := ⟨.hbm, 51, rfl⟩
abbrev main_call1_v4 : Ref sig .tc := ⟨.hbm, 52, rfl⟩
abbrev main_v15 : Ref sig .tc := ⟨.hbm, 53, rfl⟩
abbrev main_v16 : Ref sig .tc := ⟨.hbm, 54, rfl⟩
abbrev main_call2_c : Ref sig .tc := ⟨.hbm, 55, rfl⟩
abbrev main_call2_v0 : Ref sig .tc := ⟨.hbm, 56, rfl⟩
abbrev main_call2_v1 : Ref sig .tc := ⟨.hbm, 57, rfl⟩
abbrev main_call2_c_0 : Ref sig .tc := ⟨.hbm, 58, rfl⟩
abbrev main_call2_v2 : Ref sig .tc := ⟨.hbm, 59, rfl⟩
abbrev main_call2_v3 : Ref sig .tc := ⟨.hbm, 60, rfl⟩
abbrev main_call2_v4 : Ref sig .tc := ⟨.hbm, 61, rfl⟩
abbrev main_call2_v5 : Ref sig .tc := ⟨.hbm, 62, rfl⟩
abbrev main_call2_c_1 : Ref sig .tc := ⟨.hbm, 63, rfl⟩
abbrev main_call2_c_2 : Ref sig .tc := ⟨.hbm, 64, rfl⟩
abbrev main_call2_v6 : Ref sig .tc := ⟨.hbm, 65, rfl⟩
abbrev main_call2_v7 : Ref sig .tc := ⟨.hbm, 66, rfl⟩
abbrev main_call2_v8 : Ref sig .tc := ⟨.hbm, 67, rfl⟩
abbrev main_call2_v9 : Ref sig .tc := ⟨.hbm, 68, rfl⟩
abbrev main_call2_v10 : Ref sig .tc := ⟨.hbm, 69, rfl⟩
abbrev main_call2_v11 : Ref sig .tc := ⟨.hbm, 70, rfl⟩
abbrev main_call2_c_3 : Ref sig .tc := ⟨.hbm, 71, rfl⟩
abbrev main_call2_v12 : Ref sig .tc := ⟨.hbm, 72, rfl⟩
abbrev main_call2_v13 : Ref sig .tc := ⟨.hbm, 73, rfl⟩
abbrev main_call2_cst : Ref sig .tc := ⟨.hbm, 74, rfl⟩
abbrev main_call2_v14 : Ref sig .tc := ⟨.hbm, 75, rfl⟩
abbrev main_v17 : Ref sig .tc := ⟨.hbm, 76, rfl⟩
abbrev main_v18 : Ref sig .tc := ⟨.hbm, 77, rfl⟩
abbrev main_v19 : Ref sig .tc := ⟨.hbm, 78, rfl⟩
abbrev main_cst : Ref sig .tc := ⟨.hbm, 79, rfl⟩
abbrev main_call3_v0 : Ref sig .tc := ⟨.hbm, 80, rfl⟩
abbrev main_call3_v1 : Ref sig .tc := ⟨.hbm, 81, rfl⟩
abbrev main_v20 : Ref sig .tc := ⟨.hbm, 82, rfl⟩
abbrev main_c_2 : Ref sig .tc := ⟨.hbm, 83, rfl⟩
abbrev main_v21 : Ref sig .tc := ⟨.hbm, 84, rfl⟩
abbrev main_v22 : Ref sig .tc := ⟨.hbm, 85, rfl⟩
abbrev main_c_3 : Ref sig .tc := ⟨.hbm, 86, rfl⟩
abbrev main_v23 : Ref sig .tc := ⟨.hbm, 87, rfl⟩
abbrev main_v24 : Ref sig .tc := ⟨.hbm, 88, rfl⟩
abbrev main_v25 : Ref sig .tc := ⟨.hbm, 89, rfl⟩
abbrev main_c_4 : Ref sig .tc := ⟨.hbm, 90, rfl⟩
abbrev main_v26 : Ref sig .tc := ⟨.hbm, 91, rfl⟩
abbrev main_v27 : Ref sig .tc := ⟨.hbm, 92, rfl⟩
abbrev main_c_5 : Ref sig .tc := ⟨.hbm, 93, rfl⟩
abbrev main_c_6 : Ref sig .tc := ⟨.hbm, 94, rfl⟩
abbrev main_call4_v0 : Ref sig .tc := ⟨.hbm, 95, rfl⟩
abbrev main_call4_v1 : Ref sig .tc := ⟨.hbm, 96, rfl⟩
abbrev main_call4_v2 : Ref sig .tc := ⟨.hbm, 97, rfl⟩
abbrev main_call4_v3 : Ref sig .tc := ⟨.hbm, 98, rfl⟩
abbrev main_call4_v4 : Ref sig .tc := ⟨.hbm, 99, rfl⟩
abbrev main_v28 : Ref sig .tc := ⟨.hbm, 100, rfl⟩
abbrev main_v29 : Ref sig .tc := ⟨.hbm, 101, rfl⟩
abbrev main_v30 : Ref sig .tc := ⟨.hbm, 102, rfl⟩
abbrev main_v31 : Ref sig .tc := ⟨.hbm, 103, rfl⟩
abbrev main_v32 : Ref sig .tc := ⟨.hbm, 104, rfl⟩
abbrev main_v33 : Ref sig .tc := ⟨.hbm, 105, rfl⟩
abbrev main_v34 : Ref sig .tc := ⟨.hbm, 106, rfl⟩
abbrev main_call5_cst : Ref sig .tc := ⟨.hbm, 107, rfl⟩
abbrev main_call5_v0 : Ref sig .tc := ⟨.hbm, 108, rfl⟩
abbrev main_call5_cst_0 : Ref sig .tc := ⟨.hbm, 109, rfl⟩
abbrev main_call5_v1 : Ref sig .tc := ⟨.hbm, 110, rfl⟩
abbrev main_call5_v2 : Ref sig .tc := ⟨.hbm, 111, rfl⟩
abbrev main_call5_v3 : Ref sig .tc := ⟨.hbm, 112, rfl⟩
abbrev main_call5_v4 : Ref sig .tc := ⟨.hbm, 113, rfl⟩
abbrev main_call5_v5 : Ref sig .tc := ⟨.hbm, 114, rfl⟩
abbrev main_call5_v6 : Ref sig .tc := ⟨.hbm, 115, rfl⟩
abbrev main_call5_cst_1 : Ref sig .tc := ⟨.hbm, 116, rfl⟩
abbrev main_call5_v7 : Ref sig .tc := ⟨.hbm, 117, rfl⟩
abbrev main_call5_v8 : Ref sig .tc := ⟨.hbm, 118, rfl⟩
abbrev main_call5_v9 : Ref sig .tc := ⟨.hbm, 119, rfl⟩
abbrev main_call5_v10 : Ref sig .tc := ⟨.hbm, 120, rfl⟩
abbrev main_v35 : Ref sig .tc := ⟨.hbm, 121, rfl⟩
abbrev main_v36 : Ref sig .tc := ⟨.hbm, 122, rfl⟩
abbrev main_call6_c : Ref sig .tc := ⟨.hbm, 123, rfl⟩
abbrev main_call6_v0 : Ref sig .tc := ⟨.hbm, 124, rfl⟩
abbrev main_call6_v1 : Ref sig .tc := ⟨.hbm, 125, rfl⟩
abbrev main_call6_c_0 : Ref sig .tc := ⟨.hbm, 126, rfl⟩
abbrev main_call6_v2 : Ref sig .tc := ⟨.hbm, 127, rfl⟩
abbrev main_call6_v3 : Ref sig .tc := ⟨.hbm, 128, rfl⟩
abbrev main_call6_v4 : Ref sig .tc := ⟨.hbm, 129, rfl⟩
abbrev main_call6_v5 : Ref sig .tc := ⟨.hbm, 130, rfl⟩
abbrev main_call6_c_1 : Ref sig .tc := ⟨.hbm, 131, rfl⟩
abbrev main_call6_c_2 : Ref sig .tc := ⟨.hbm, 132, rfl⟩
abbrev main_call6_v6 : Ref sig .tc := ⟨.hbm, 133, rfl⟩
abbrev main_call6_v7 : Ref sig .tc := ⟨.hbm, 134, rfl⟩
abbrev main_call6_v8 : Ref sig .tc := ⟨.hbm, 135, rfl⟩
abbrev main_call6_v9 : Ref sig .tc := ⟨.hbm, 136, rfl⟩
abbrev main_call6_v10 : Ref sig .tc := ⟨.hbm, 137, rfl⟩
abbrev main_call6_v11 : Ref sig .tc := ⟨.hbm, 138, rfl⟩
abbrev main_call6_c_3 : Ref sig .tc := ⟨.hbm, 139, rfl⟩
abbrev main_call6_v12 : Ref sig .tc := ⟨.hbm, 140, rfl⟩
abbrev main_call6_v13 : Ref sig .tc := ⟨.hbm, 141, rfl⟩
abbrev main_call6_cst : Ref sig .tc := ⟨.hbm, 142, rfl⟩
abbrev main_call6_v14 : Ref sig .tc := ⟨.hbm, 143, rfl⟩
abbrev main_v37 : Ref sig .tc := ⟨.hbm, 144, rfl⟩
abbrev main_v38 : Ref sig .tc := ⟨.hbm, 145, rfl⟩
abbrev main_v39 : Ref sig .tc := ⟨.hbm, 146, rfl⟩
abbrev main_v40 : Ref sig .tc := ⟨.hbm, 147, rfl⟩
abbrev main_v41 : Ref sig .tc := ⟨.hbm, 148, rfl⟩
abbrev main_v42 : Ref sig .tc := ⟨.hbm, 149, rfl⟩
abbrev main_v43 : Ref sig .tc := ⟨.hbm, 150, rfl⟩
abbrev main_c_7 : Ref sig .tc := ⟨.hbm, 151, rfl⟩
abbrev main_v44 : Ref sig .tc := ⟨.hbm, 152, rfl⟩
abbrev main_v45 : Ref sig .tc := ⟨.hbm, 153, rfl⟩
abbrev main_c_8 : Ref sig .tc := ⟨.hbm, 154, rfl⟩
abbrev main_v46 : Ref sig .tc := ⟨.hbm, 155, rfl⟩
abbrev main_v47 : Ref sig .tc := ⟨.hbm, 156, rfl⟩
abbrev main_v48 : Ref sig .tc := ⟨.hbm, 157, rfl⟩
abbrev main_c_9 : Ref sig .tc := ⟨.hbm, 158, rfl⟩
abbrev main_v49 : Ref sig .tc := ⟨.hbm, 159, rfl⟩
abbrev main_v50 : Ref sig .tc := ⟨.hbm, 160, rfl⟩
abbrev main_c_10 : Ref sig .tc := ⟨.hbm, 161, rfl⟩
abbrev main_c_11 : Ref sig .tc := ⟨.hbm, 162, rfl⟩
abbrev main_call8_v0 : Ref sig .tc := ⟨.hbm, 163, rfl⟩
abbrev main_call8_v1 : Ref sig .tc := ⟨.hbm, 164, rfl⟩
abbrev main_call8_v2 : Ref sig .tc := ⟨.hbm, 165, rfl⟩
abbrev main_call8_v3 : Ref sig .tc := ⟨.hbm, 166, rfl⟩
abbrev main_call8_v4 : Ref sig .tc := ⟨.hbm, 167, rfl⟩
abbrev main_v51 : Ref sig .tc := ⟨.hbm, 168, rfl⟩
abbrev main_v52 : Ref sig .tc := ⟨.hbm, 169, rfl⟩
abbrev main_v53 : Ref sig .tc := ⟨.hbm, 170, rfl⟩
abbrev main_v54 : Ref sig .tc := ⟨.hbm, 171, rfl⟩
abbrev main_v55 : Ref sig .tc := ⟨.hbm, 172, rfl⟩
abbrev main_v56 : Ref sig .tc := ⟨.hbm, 173, rfl⟩
abbrev main_v57 : Ref sig .tc := ⟨.hbm, 174, rfl⟩
abbrev main_call9_cst : Ref sig .tc := ⟨.hbm, 175, rfl⟩
abbrev main_call9_v0 : Ref sig .tc := ⟨.hbm, 176, rfl⟩
abbrev main_call9_cst_0 : Ref sig .tc := ⟨.hbm, 177, rfl⟩
abbrev main_call9_v1 : Ref sig .tc := ⟨.hbm, 178, rfl⟩
abbrev main_call9_v2 : Ref sig .tc := ⟨.hbm, 179, rfl⟩
abbrev main_call9_v3 : Ref sig .tc := ⟨.hbm, 180, rfl⟩
abbrev main_call9_v4 : Ref sig .tc := ⟨.hbm, 181, rfl⟩
abbrev main_call9_v5 : Ref sig .tc := ⟨.hbm, 182, rfl⟩
abbrev main_call9_v6 : Ref sig .tc := ⟨.hbm, 183, rfl⟩
abbrev main_call9_cst_1 : Ref sig .tc := ⟨.hbm, 184, rfl⟩
abbrev main_call9_v7 : Ref sig .tc := ⟨.hbm, 185, rfl⟩
abbrev main_call9_v8 : Ref sig .tc := ⟨.hbm, 186, rfl⟩
abbrev main_call9_v9 : Ref sig .tc := ⟨.hbm, 187, rfl⟩
abbrev main_call9_v10 : Ref sig .tc := ⟨.hbm, 188, rfl⟩
abbrev main_v58 : Ref sig .tc := ⟨.hbm, 189, rfl⟩
abbrev main_v59 : Ref sig .tc := ⟨.hbm, 190, rfl⟩
abbrev main_call10_c : Ref sig .tc := ⟨.hbm, 191, rfl⟩
abbrev main_call10_v0 : Ref sig .tc := ⟨.hbm, 192, rfl⟩
abbrev main_call10_v1 : Ref sig .tc := ⟨.hbm, 193, rfl⟩
abbrev main_call10_c_0 : Ref sig .tc := ⟨.hbm, 194, rfl⟩
abbrev main_call10_v2 : Ref sig .tc := ⟨.hbm, 195, rfl⟩
abbrev main_call10_v3 : Ref sig .tc := ⟨.hbm, 196, rfl⟩
abbrev main_call10_v4 : Ref sig .tc := ⟨.hbm, 197, rfl⟩
abbrev main_call10_v5 : Ref sig .tc := ⟨.hbm, 198, rfl⟩
abbrev main_call10_c_1 : Ref sig .tc := ⟨.hbm, 199, rfl⟩
abbrev main_call10_c_2 : Ref sig .tc := ⟨.hbm, 200, rfl⟩
abbrev main_call10_v6 : Ref sig .tc := ⟨.hbm, 201, rfl⟩
abbrev main_call10_v7 : Ref sig .tc := ⟨.hbm, 202, rfl⟩
abbrev main_call10_v8 : Ref sig .tc := ⟨.hbm, 203, rfl⟩
abbrev main_call10_v9 : Ref sig .tc := ⟨.hbm, 204, rfl⟩
abbrev main_call10_v10 : Ref sig .tc := ⟨.hbm, 205, rfl⟩
abbrev main_call10_v11 : Ref sig .tc := ⟨.hbm, 206, rfl⟩
abbrev main_call10_c_3 : Ref sig .tc := ⟨.hbm, 207, rfl⟩
abbrev main_call10_v12 : Ref sig .tc := ⟨.hbm, 208, rfl⟩
abbrev main_call10_v13 : Ref sig .tc := ⟨.hbm, 209, rfl⟩
abbrev main_call10_cst : Ref sig .tc := ⟨.hbm, 210, rfl⟩
abbrev main_call10_v14 : Ref sig .tc := ⟨.hbm, 211, rfl⟩
abbrev main_v60 : Ref sig .tc := ⟨.hbm, 212, rfl⟩
abbrev main_v61 : Ref sig .tc := ⟨.hbm, 213, rfl⟩
abbrev main_v62 : Ref sig .tc := ⟨.hbm, 214, rfl⟩
abbrev main_v63 : Ref sig .tc := ⟨.hbm, 215, rfl⟩
abbrev main_v64 : Ref sig .tc := ⟨.hbm, 216, rfl⟩
abbrev main_v65 : Ref sig .tc := ⟨.hbm, 217, rfl⟩
abbrev main_v66 : Ref sig .tc := ⟨.hbm, 218, rfl⟩
abbrev main_c_12 : Ref sig .tc := ⟨.hbm, 219, rfl⟩
abbrev main_v67 : Ref sig .tc := ⟨.hbm, 220, rfl⟩
abbrev main_v68 : Ref sig .tc := ⟨.hbm, 221, rfl⟩
abbrev main_c_13 : Ref sig .tc := ⟨.hbm, 222, rfl⟩
abbrev main_v69 : Ref sig .tc := ⟨.hbm, 223, rfl⟩
abbrev main_v70 : Ref sig .tc := ⟨.hbm, 224, rfl⟩
abbrev main_v71 : Ref sig .tc := ⟨.hbm, 225, rfl⟩
abbrev main_c_14 : Ref sig .tc := ⟨.hbm, 226, rfl⟩
abbrev main_v72 : Ref sig .tc := ⟨.hbm, 227, rfl⟩
abbrev main_v73 : Ref sig .tc := ⟨.hbm, 228, rfl⟩
abbrev main_c_15 : Ref sig .tc := ⟨.hbm, 229, rfl⟩
abbrev main_c_16 : Ref sig .tc := ⟨.hbm, 230, rfl⟩
abbrev main_call12_v0 : Ref sig .tc := ⟨.hbm, 231, rfl⟩
abbrev main_call12_v1 : Ref sig .tc := ⟨.hbm, 232, rfl⟩
abbrev main_call12_v2 : Ref sig .tc := ⟨.hbm, 233, rfl⟩
abbrev main_call12_v3 : Ref sig .tc := ⟨.hbm, 234, rfl⟩
abbrev main_call12_v4 : Ref sig .tc := ⟨.hbm, 235, rfl⟩
abbrev main_v74 : Ref sig .tc := ⟨.hbm, 236, rfl⟩
abbrev main_v75 : Ref sig .tc := ⟨.hbm, 237, rfl⟩
abbrev main_v76 : Ref sig .tc := ⟨.hbm, 238, rfl⟩
abbrev main_v77 : Ref sig .tc := ⟨.hbm, 239, rfl⟩
abbrev main_v78 : Ref sig .tc := ⟨.hbm, 240, rfl⟩
abbrev main_v79 : Ref sig .tc := ⟨.hbm, 241, rfl⟩
abbrev main_v80 : Ref sig .tc := ⟨.hbm, 242, rfl⟩
abbrev main_call13_cst : Ref sig .tc := ⟨.hbm, 243, rfl⟩
abbrev main_call13_v0 : Ref sig .tc := ⟨.hbm, 244, rfl⟩
abbrev main_call13_cst_0 : Ref sig .tc := ⟨.hbm, 245, rfl⟩
abbrev main_call13_v1 : Ref sig .tc := ⟨.hbm, 246, rfl⟩
abbrev main_call13_v2 : Ref sig .tc := ⟨.hbm, 247, rfl⟩
abbrev main_call13_v3 : Ref sig .tc := ⟨.hbm, 248, rfl⟩
abbrev main_call13_v4 : Ref sig .tc := ⟨.hbm, 249, rfl⟩
abbrev main_call13_v5 : Ref sig .tc := ⟨.hbm, 250, rfl⟩
abbrev main_call13_v6 : Ref sig .tc := ⟨.hbm, 251, rfl⟩
abbrev main_call13_cst_1 : Ref sig .tc := ⟨.hbm, 252, rfl⟩
abbrev main_call13_v7 : Ref sig .tc := ⟨.hbm, 253, rfl⟩
abbrev main_call13_v8 : Ref sig .tc := ⟨.hbm, 254, rfl⟩
abbrev main_call13_v9 : Ref sig .tc := ⟨.hbm, 255, rfl⟩
abbrev main_call13_v10 : Ref sig .tc := ⟨.hbm, 256, rfl⟩
abbrev main_v81 : Ref sig .tc := ⟨.hbm, 257, rfl⟩
abbrev main_v82 : Ref sig .tc := ⟨.hbm, 258, rfl⟩
abbrev main_call14_c : Ref sig .tc := ⟨.hbm, 259, rfl⟩
abbrev main_call14_v0 : Ref sig .tc := ⟨.hbm, 260, rfl⟩
abbrev main_call14_v1 : Ref sig .tc := ⟨.hbm, 261, rfl⟩
abbrev main_call14_c_0 : Ref sig .tc := ⟨.hbm, 262, rfl⟩
abbrev main_call14_v2 : Ref sig .tc := ⟨.hbm, 263, rfl⟩
abbrev main_call14_v3 : Ref sig .tc := ⟨.hbm, 264, rfl⟩
abbrev main_call14_v4 : Ref sig .tc := ⟨.hbm, 265, rfl⟩
abbrev main_call14_v5 : Ref sig .tc := ⟨.hbm, 266, rfl⟩
abbrev main_call14_c_1 : Ref sig .tc := ⟨.hbm, 267, rfl⟩
abbrev main_call14_c_2 : Ref sig .tc := ⟨.hbm, 268, rfl⟩
abbrev main_call14_v6 : Ref sig .tc := ⟨.hbm, 269, rfl⟩
abbrev main_call14_v7 : Ref sig .tc := ⟨.hbm, 270, rfl⟩
abbrev main_call14_v8 : Ref sig .tc := ⟨.hbm, 271, rfl⟩
abbrev main_call14_v9 : Ref sig .tc := ⟨.hbm, 272, rfl⟩
abbrev main_call14_v10 : Ref sig .tc := ⟨.hbm, 273, rfl⟩
abbrev main_call14_v11 : Ref sig .tc := ⟨.hbm, 274, rfl⟩
abbrev main_call14_c_3 : Ref sig .tc := ⟨.hbm, 275, rfl⟩
abbrev main_call14_v12 : Ref sig .tc := ⟨.hbm, 276, rfl⟩
abbrev main_call14_v13 : Ref sig .tc := ⟨.hbm, 277, rfl⟩
abbrev main_call14_cst : Ref sig .tc := ⟨.hbm, 278, rfl⟩
abbrev main_call14_v14 : Ref sig .tc := ⟨.hbm, 279, rfl⟩
abbrev main_v83 : Ref sig .tc := ⟨.hbm, 280, rfl⟩
abbrev main_v84 : Ref sig .tc := ⟨.hbm, 281, rfl⟩
abbrev main_v85 : Ref sig .tc := ⟨.hbm, 282, rfl⟩
abbrev main_v86 : Ref sig .tc := ⟨.hbm, 283, rfl⟩
abbrev main_v87 : Ref sig .tc := ⟨.hbm, 284, rfl⟩
abbrev main_v88 : Ref sig .tc := ⟨.hbm, 285, rfl⟩
abbrev main_v89 : Ref sig .tc := ⟨.hbm, 286, rfl⟩

abbrev nD : Nat := 1
abbrev τ : Topo := Topo.v7x

variable {F : FTy → Type} [FloatOps F]

class Facts₀ : Prop where
  slices_S1x512x1024_S1x511x1024_0_0_0 : S1x512x1024.Slices ![0, 0, 0] S1x511x1024
  shapeCasts_S1x511x1024_S511x1024 : S1x511x1024.ShapeCasts S511x1024
  slices_S1x512_S1x511_0_1 : S1x512.Slices ![0, 1] S1x511
  shapeCasts_S1x511_S511 : S1x511.ShapeCasts S511
  concatenates_S20000x1024_S3x1024_S20003x1024_d0 : Shape.Concatenates [S20000x1024, S3x1024] S20003x1024 0
  concatenates_S20000_S3_S20003_d0 : Shape.Concatenates [S20000, S3] S20003 0
  transposes_S20003x1024_S1024x20003_1_0 : S20003x1024.Transposes [1, 0] S1024x20003
  bcast_S20003_S1x20003_1 : S20003.BroadcastsInDim S1x20003 (![1] : Fin 1 → Fin S1x20003.rank)
  bcast_S1x20003_S511x20003_0_1 : S1x20003.BroadcastsInDim S511x20003 (![0, 1] : Fin 2 → Fin S511x20003.rank)
  reducesTo_S511x20003_S511_d1 : S511x20003.ReducesTo [1] S511
  h_S_ : 0 < S_.numel
  bcast_S_S511 : S_.BroadcastsInDim S511 (![] : Fin 0 → Fin S511.rank)
  bcast_S511_S511x1_0 : S511.BroadcastsInDim S511x1 (![0] : Fin 1 → Fin S511x1.rank)
  bcast_S511x1_S511x20003_0_1 : S511x1.BroadcastsInDim S511x20003 (![0, 1] : Fin 2 → Fin S511x20003.rank)
  bcast_S_S511x1 : S_.BroadcastsInDim S511x1 (![] : Fin 0 → Fin S511x1.rank)
  shapeCasts_S511x1_S511x1x1 : S511x1.ShapeCasts S511x1x1
  bcast_S_S511x1x1 : S_.BroadcastsInDim S511x1x1 (![] : Fin 0 → Fin S511x1x1.rank)
  bcast_S1_S1x1x1_2 : S1.BroadcastsInDim S1x1x1 (![2] : Fin 1 → Fin S1x1x1.rank)
  bcast_S1x1x1_S511x1x1_0_1_2 : S1x1x1.BroadcastsInDim S511x1x1 (![0, 1, 2] : Fin 3 → Fin S511x1x1.rank)
  reducesTo_S511x1x1_S511x1_d2 : S511x1x1.ReducesTo [2] S511x1
  shapeCasts_S511x1_S511 : S511x1.ShapeCasts S511
  transposes_S20000x256_S256x20000_1_0 : S20000x256.Transposes [1, 0] S256x20000
  bcast_S20000_S1x20000_1 : S20000.BroadcastsInDim S1x20000 (![1] : Fin 1 → Fin S1x20000.rank)
  bcast_S1x20000_S511x20000_0_1 : S1x20000.BroadcastsInDim S511x20000 (![0, 1] : Fin 2 → Fin S511x20000.rank)
  reducesTo_S511x20000_S511_d1 : S511x20000.ReducesTo [1] S511
  bcast_S511x1_S511x20000_0_1 : S511x1.BroadcastsInDim S511x20000 (![0, 1] : Fin 2 → Fin S511x20000.rank)
  slices_S511x20003_S511x1_0_20000 : S511x20003.Slices ![0, 20000] S511x1
  transposes_S160000x64_S64x160000_1_0 : S160000x64.Transposes [1, 0] S64x160000
  bcast_S160000_S1x160000_1 : S160000.BroadcastsInDim S1x160000 (![1] : Fin 1 → Fin S1x160000.rank)
  bcast_S1x160000_S511x160000_0_1 : S1x160000.BroadcastsInDim S511x160000 (![0, 1] : Fin 2 → Fin S511x160000.rank)
  reducesTo_S511x160000_S511_d1 : S511x160000.ReducesTo [1] S511
  bcast_S511x1_S511x160000_0_1 : S511x1.BroadcastsInDim S511x160000 (![0, 1] : Fin 2 → Fin S511x160000.rank)
  slices_S511x20003_S511x1_0_20001 : S511x20003.Slices ![0, 20001] S511x1
  transposes_S67735x16_S16x67735_1_0 : S67735x16.Transposes [1, 0] S16x67735
  bcast_S67735_S1x67735_1 : S67735.BroadcastsInDim S1x67735 (![1] : Fin 1 → Fin S1x67735.rank)
  bcast_S1x67735_S511x67735_0_1 : S1x67735.BroadcastsInDim S511x67735 (![0, 1] : Fin 2 → Fin S511x67735.rank)
  reducesTo_S511x67735_S511_d1 : S511x67735.ReducesTo [1] S511
  bcast_S511x1_S511x67735_0_1 : S511x1.BroadcastsInDim S511x67735 (![0, 1] : Fin 2 → Fin S511x67735.rank)
  slices_S511x20003_S511x1_0_20002 : S511x20003.Slices ![0, 20002] S511x1
  dot_S511x1024_S1024x1024_S511x1024_1_0_0_1_n_n_wf : DotDims.WF S511x1024 S1024x1024 S511x1024 [1] [0] [0] [1] [] []
  dot_S511x1024_S1024x20003_S511x20003_1_0_0_1_n_n_wf : DotDims.WF S511x1024 S1024x20003 S511x20003 [1] [0] [0] [1] [] []
  gather_S511x20003_S511x1x1_S511x1_n_1_0_0_1_2_11_wf : GatherDims.WF S511x20003 S511x1x1 S511x1 [] [1] [0] [1] [0] 2 ![1, 1]
  dot_S511x1024_S1024x256_S511x256_1_0_0_1_n_n_wf : DotDims.WF S511x1024 S1024x256 S511x256 [1] [0] [0] [1] [] []
  dot_S511x256_S256x20000_S511x20000_1_0_0_1_n_n_wf : DotDims.WF S511x256 S256x20000 S511x20000 [1] [0] [0] [1] [] []
  gather_S511x20000_S511x1x1_S511x1_n_1_0_0_1_2_11_wf : GatherDims.WF S511x20000 S511x1x1 S511x1 [] [1] [0] [1] [0] 2 ![1, 1]
  dot_S511x1024_S1024x64_S511x64_1_0_0_1_n_n_wf : DotDims.WF S511x1024 S1024x64 S511x64 [1] [0] [0] [1] [] []
  dot_S511x64_S64x160000_S511x160000_1_0_0_1_n_n_wf : DotDims.WF S511x64 S64x160000 S511x160000 [1] [0] [0] [1] [] []
  gather_S511x160000_S511x1x1_S511x1_n_1_0_0_1_2_11_wf : GatherDims.WF S511x160000 S511x1x1 S511x1 [] [1] [0] [1] [0] 2 ![1, 1]
  dot_S511x1024_S1024x16_S511x16_1_0_0_1_n_n_wf : DotDims.WF S511x1024 S1024x16 S511x16 [1] [0] [0] [1] [] []
  dot_S511x16_S16x67735_S511x67735_1_0_0_1_n_n_wf : DotDims.WF S511x16 S16x67735 S511x67735 [1] [0] [0] [1] [] []
  gather_S511x67735_S511x1x1_S511x1_n_1_0_0_1_2_11_wf : GatherDims.WF S511x67735 S511x1x1 S511x1 [] [1] [0] [1] [0] 2 ![1, 1]

variable [Facts₀]

def dot_S511x1024_S1024x1024_S511x1024_1_0_0_1_n_n : DotDims S511x1024 S1024x1024 S511x1024 where
  lhsContracting := [1]
  rhsContracting := [0]
  lhsNonContracting := [0]
  rhsNonContracting := [1]
  lhsBatch := []
  rhsBatch := []
  wf := dot_S511x1024_S1024x1024_S511x1024_1_0_0_1_n_n_wf
def dot_S511x1024_S1024x20003_S511x20003_1_0_0_1_n_n : DotDims S511x1024 S1024x20003 S511x20003 where
  lhsContracting := [1]
  rhsContracting := [0]
  lhsNonContracting := [0]
  rhsNonContracting := [1]
  lhsBatch := []
  rhsBatch := []
  wf := dot_S511x1024_S1024x20003_S511x20003_1_0_0_1_n_n_wf
def gather_S511x20003_S511x1x1_S511x1_n_1_0_0_1_2_11 : GatherDims S511x20003 S511x1x1 S511x1 where
  offsetDims := []
  collapsedSliceDims := [1]
  operandBatchingDims := [0]
  startIndicesBatchingDims := [0]
  startIndexMap := [1]
  indexVectorDim := 2
  sliceSizes := ![1, 1]
  wf := gather_S511x20003_S511x1x1_S511x1_n_1_0_0_1_2_11_wf
def dot_S511x1024_S1024x256_S511x256_1_0_0_1_n_n : DotDims S511x1024 S1024x256 S511x256 where
  lhsContracting := [1]
  rhsContracting := [0]
  lhsNonContracting := [0]
  rhsNonContracting := [1]
  lhsBatch := []
  rhsBatch := []
  wf := dot_S511x1024_S1024x256_S511x256_1_0_0_1_n_n_wf
def dot_S511x256_S256x20000_S511x20000_1_0_0_1_n_n : DotDims S511x256 S256x20000 S511x20000 where
  lhsContracting := [1]
  rhsContracting := [0]
  lhsNonContracting := [0]
  rhsNonContracting := [1]
  lhsBatch := []
  rhsBatch := []
  wf := dot_S511x256_S256x20000_S511x20000_1_0_0_1_n_n_wf
def gather_S511x20000_S511x1x1_S511x1_n_1_0_0_1_2_11 : GatherDims S511x20000 S511x1x1 S511x1 where
  offsetDims := []
  collapsedSliceDims := [1]
  operandBatchingDims := [0]
  startIndicesBatchingDims := [0]
  startIndexMap := [1]
  indexVectorDim := 2
  sliceSizes := ![1, 1]
  wf := gather_S511x20000_S511x1x1_S511x1_n_1_0_0_1_2_11_wf
def dot_S511x1024_S1024x64_S511x64_1_0_0_1_n_n : DotDims S511x1024 S1024x64 S511x64 where
  lhsContracting := [1]
  rhsContracting := [0]
  lhsNonContracting := [0]
  rhsNonContracting := [1]
  lhsBatch := []
  rhsBatch := []
  wf := dot_S511x1024_S1024x64_S511x64_1_0_0_1_n_n_wf
def dot_S511x64_S64x160000_S511x160000_1_0_0_1_n_n : DotDims S511x64 S64x160000 S511x160000 where
  lhsContracting := [1]
  rhsContracting := [0]
  lhsNonContracting := [0]
  rhsNonContracting := [1]
  lhsBatch := []
  rhsBatch := []
  wf := dot_S511x64_S64x160000_S511x160000_1_0_0_1_n_n_wf
def gather_S511x160000_S511x1x1_S511x1_n_1_0_0_1_2_11 : GatherDims S511x160000 S511x1x1 S511x1 where
  offsetDims := []
  collapsedSliceDims := [1]
  operandBatchingDims := [0]
  startIndicesBatchingDims := [0]
  startIndexMap := [1]
  indexVectorDim := 2
  sliceSizes := ![1, 1]
  wf := gather_S511x160000_S511x1x1_S511x1_n_1_0_0_1_2_11_wf
def dot_S511x1024_S1024x16_S511x16_1_0_0_1_n_n : DotDims S511x1024 S1024x16 S511x16 where
  lhsContracting := [1]
  rhsContracting := [0]
  lhsNonContracting := [0]
  rhsNonContracting := [1]
  lhsBatch := []
  rhsBatch := []
  wf := dot_S511x1024_S1024x16_S511x16_1_0_0_1_n_n_wf
def dot_S511x16_S16x67735_S511x67735_1_0_0_1_n_n : DotDims S511x16 S16x67735 S511x67735 where
  lhsContracting := [1]
  rhsContracting := [0]
  lhsNonContracting := [0]
  rhsNonContracting := [1]
  lhsBatch := []
  rhsBatch := []
  wf := dot_S511x16_S16x67735_S511x67735_1_0_0_1_n_n_wf
def gather_S511x67735_S511x1x1_S511x1_n_1_0_0_1_2_11 : GatherDims S511x67735 S511x1x1 S511x1 where
  offsetDims := []
  collapsedSliceDims := [1]
  operandBatchingDims := [0]
  startIndicesBatchingDims := [0]
  startIndexMap := [1]
  indexVectorDim := 2
  sliceSizes := ![1, 1]
  wf := gather_S511x67735_S511x1x1_S511x1_n_1_0_0_1_2_11_wf

class Facts : Prop extends Facts₀ where

variable [Facts]
-- ==== Proof.Frame0Base.lean ====
import proofs.«412644_j75642964017948_3_alg».proof.Proof.Gen.KernelIdeal.Launch
import proofs.«412644_j75642964017948_3_alg».proof.Proof.Gen.KernelIdeal.Skeleton
import proofs.«412644_j75642964017948_3_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

abbrev cond0_0 (i : grid0.Coords) : Prop := (Scalar.cmpi .ne (Scalar.extui (Scalar.cmpi .eq (BitVec.ofNat 32 (i 1).val) 0#32)) 0#32) = 1#1

abbrev cond0_1 (i : grid0.Coords) : Prop := k0_cond2 i = 1#1

theorem hcond0_0 : ∀ t : Fin cfg0.N, cond0_0 (grid0.coords t) ↔ t.val % 10 = 0 :=
  (by decide +kernel : ∀ t : Fin grid0.N, cond0_0 (grid0.coords t) ↔ t.val % 10 = 0)
theorem hcond0_1 : ∀ t : Fin cfg0.N, cond0_1 (grid0.coords t) ↔ t.val % 10 = 9 :=
  (by decide +kernel : ∀ t : Fin grid0.N, cond0_1 (grid0.coords t) ↔ t.val % 10 = 9)

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem idleAt0_5 : ∀ t : Fin cfg0.N, ¬cond0_1 (grid0.coords t) → cfg0.idle 5 (grid0.coords t) = true := by decide +kernel
theorem idleAt0_6 : ∀ t : Fin cfg0.N, ¬cond0_1 (grid0.coords t) → cfg0.idle 6 (grid0.coords t) = true := by decide +kernel
theorem idleAt0_7 : ∀ t : Fin cfg0.N, ¬cond0_1 (grid0.coords t) → cfg0.idle 7 (grid0.coords t) = true := by decide +kernel
theorem noFlush0_5 : ∀ t : Fin cfg0.N, ¬cond0_1 (grid0.coords t) → (cfg0.win 5).flush t = false := by decide +kernel
theorem noFlush0_6 : ∀ t : Fin cfg0.N, ¬cond0_1 (grid0.coords t) → (cfg0.win 6).flush t = false := by decide +kernel
theorem noFlush0_7 : ∀ t : Fin cfg0.N, ¬cond0_1 (grid0.coords t) → (cfg0.win 7).flush t = false := by decide +kernel
theorem liveAt0_5 : ∀ t : Fin cfg0.N, cond0_1 (grid0.coords t) → cfg0.idle 5 (grid0.coords t) = false := by decide +kernel
theorem liveAt0_6 : ∀ t : Fin cfg0.N, cond0_1 (grid0.coords t) → cfg0.idle 6 (grid0.coords t) = false := by decide +kernel
theorem liveAt0_7 : ∀ t : Fin cfg0.N, cond0_1 (grid0.coords t) → cfg0.idle 7 (grid0.coords t) = false := by decide +kernel

theorem hz2_0 : (![0, 0] : Fin 2 → Nat) = fun _ => 0 := by funext a; fin_cases a <;> rfl
theorem hz3_0 : (![0, 0, 0] : Fin 3 → Nat) = fun _ => 0 := by funext a; fin_cases a <;> rfl

abbrev ms0_0 (t : Fin cfg0.N) := win0_0.stage (cfg0.slots t 0)
abbrev hs0_0 (t : Fin cfg0.N) : (ms0_0 t).IsWhole := hstage0_0 ((cfg0.slots t 0).cast nbuf0_0)
abbrev ms0_1 (t : Fin cfg0.N) := win0_1.stage (cfg0.slots t 1)
abbrev hs0_1 (t : Fin cfg0.N) : (ms0_1 t).IsWhole := hstage0_1 ((cfg0.slots t 1).cast nbuf0_1)
abbrev ms0_2 (t : Fin cfg0.N) := win0_2.stage (cfg0.slots t 2)
abbrev hs0_2 (t : Fin cfg0.N) : (ms0_2 t).IsWhole := hstage0_2 ((cfg0.slots t 2).cast nbuf0_2)
abbrev ms0_3 (t : Fin cfg0.N) := win0_3.stage (cfg0.slots t 3)
abbrev hs0_3 (t : Fin cfg0.N) : (ms0_3 t).IsWhole := hstage0_3 ((cfg0.slots t 3).cast nbuf0_3)
abbrev ms0_4 (t : Fin cfg0.N) := win0_4.stage (cfg0.slots t 4)
abbrev hs0_4 (t : Fin cfg0.N) : (ms0_4 t).IsWhole := hstage0_4 ((cfg0.slots t 4).cast nbuf0_4)
abbrev ms0_5 (t : Fin cfg0.N) := win0_5.stage (cfg0.slots t 5)
abbrev hs0_5 (t : Fin cfg0.N) : (ms0_5 t).IsWhole := hstage0_5 ((cfg0.slots t 5).cast nbuf0_5)
abbrev ms0_6 (t : Fin cfg0.N) := win0_6.stage (cfg0.slots t 6)
abbrev hs0_6 (t : Fin cfg0.N) : (ms0_6 t).IsWhole := hstage0_6 ((cfg0.slots t 6).cast nbuf0_6)
abbrev ms0_7 (t : Fin cfg0.N) := win0_7.stage (cfg0.slots t 7)
abbrev hs0_7 (t : Fin cfg0.N) : (ms0_7 t).IsWhole := hstage0_7 ((cfg0.slots t 7).cast nbuf0_7)

abbrev scM0_0 : Memref sig .tc .vmem S512x1024 .f32 := Memref.whole cc0_scratch0
abbrev scM0_1 : Memref sig .tc .vmem S512x1 .f32 := Memref.whole cc0_scratch1
abbrev scM0_2 : Memref sig .tc .vmem S512x1 .f32 := Memref.whole cc0_scratch2
abbrev scM0_3 : Memref sig .tc .vmem S512x1 .f32 := Memref.whole cc0_scratch3

theorem PhiA0_eq (c : Dev nD) :
    (Pipeline.ΦA spec0 c : sProp 𝕄)
      = iprop(iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d))
          ∗ Pipeline.scopedRestBut (Ix := Unit) (Name := ℕ) (U := UR sig nD τ) (Lvl := ℕ) (Val := Elt F) spec0 c [cc0_scratch0, cc0_scratch1, cc0_scratch2, cc0_scratch3]) ∗ (∃ r, prngReg c r)) := by
  unfold Pipeline.ΦA; rw [scopedRest0_split]; simp only [scM0_0, scM0_1, scM0_2, scM0_3, owns_whole]; try rfl

end Cert.KernelIdeal.Hand

end
-- ==== Proof.Frame0RunA.lean ====
import proofs.«412644_j75642964017948_3_alg».proof.Proof.Frame0Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 8000000 in

theorem run0_A (c : Dev nD) (i : grid0.Coords) (arg2 : Memref sig .tc .vmem S512x1024 .f32) (harg2 : arg2.IsWhole) (arg3 : Memref sig .tc .vmem S1024x1024 .f32) (harg3 : arg3.IsWhole) (arg4 : Memref sig .tc .vmem S1000x1024 .f32) (harg4 : arg4.IsWhole) (arg5 : Memref sig .tc .vmem S1000x1 .f32) (harg5 : arg5.IsWhole) (arg6 : Memref sig .tc .vmem S512x1 .i32) (harg6 : arg6.IsWhole) (arg7 : Memref sig .tc .vmem S1x512x1 .f32) (harg7 : arg7.IsWhole) (arg8 : Memref sig .tc .vmem S1x512x1 .f32) (harg8 : arg8.IsWhole) (arg9 : Memref sig .tc .vmem S1x512x1 .f32) (harg9 : arg9.IsWhole) (arg10 : Memref sig .tc .vmem S512x1024 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (hc0 : cond0_0 i) (hc1 : ¬cond0_1 i)
    (x0 : Vec F S512x1024 .f32) (x1 : Vec F S1024x1024 .f32) (x2 : Vec F S1000x1024 .f32) (x3 : Vec F S1000x1 .f32) (x4 : Vec F S512x1 .i32) (xi5 xi6 xi7 : Vec F S1x512x1 .f32) (E : Set ℕ) (K : PUnit → sProp 𝕄) :
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
            ∗ owns (c : Thread nD τ) arg7 fullShare xi5 ∗ owns (c : Thread nD τ) arg8 fullShare xi6 ∗ owns (c : Thread nD τ) arg9 fullShare xi7
            ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
                ∗ owns (c : Thread nD τ) arg7 fullShare xi5 ∗ owns (c : Thread nD τ) arg8 fullShare xi6 ∗ owns (c : Thread nD τ) arg9 fullShare xi7
                ∗ owns (c : Thread nD τ) arg10 fullShare (k0_pay7 x0 x1) ∗ owns (c : Thread nD τ) arg11 fullShare (k0_pay3 (k0_pay13 (k0_pay7 x0 x1) x2 x3) (k0_pay8 (F := F))) ∗ owns (c : Thread nD τ) arg12 fullShare (k0_pay2 (k0_pay11 (k0_pay7 x0 x1) x2 x3) (k0_pay13 (k0_pay7 x0 x1) x2 x3) (k0_pay8 (F := F)) (k0_pay9 (F := F)) (k0_pay8 (F := F))) ∗ owns (c : Thread nD τ) arg13 fullShare (k0_pay12 i (k0_pay7 x0 x1) x2 x3 x4 (k0_pay10 (F := F)))) -∗ K ⟨⟩))
          ⊢ wp frame (wpE (defs₀ (F := F)) Variants.none c none) E (cc0__cluster_kernel i arg2 harg2 arg3 harg3 arg4 harg4 arg5 harg5 arg6 harg6 arg7 harg7 arg8 harg8 arg9 harg9 arg10 harg10 arg11 harg11 arg12 harg12 arg13 harg13) K := by
    simp only [cc0__cluster_kernel_eq_skeleton]; unfold cc0__cluster_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%ds0, %fs0, -, HS0⟩, ⟨%ds1, %fs1, -, HS1⟩, ⟨%ds2, %fs2, -, HS2⟩, ⟨%ds3, %fs3, -, HS3⟩, Hk⟩
    obtain rfl := harg2.eq_unread hf0; obtain rfl := harg3.eq_unread hf1; obtain rfl := harg4.eq_unread hf2; obtain rfl := harg5.eq_unread hf3; obtain rfl := harg6.eq_unread hf4
    obtain rfl := harg7.eq_unread hf5; obtain rfl := harg8.eq_unread hf6; obtain rfl := harg9.eq_unread hf7
    sl_exec (disch := first | exact hc0 | exact hc1)
    sl_step
    iapply Hk
    isplitl [H0]; · iexists _; isplitr; · ipureintro; exact harg2.read_unread _
                    iexact H0
    isplitl [H1]; · iexists _; isplitr; · ipureintro; exact harg3.read_unread _
                    iexact H1
    isplitl [H2]; · iexists _; isplitr; · ipureintro; exact harg4.read_unread _
                    iexact H2
    isplitl [H3]; · iexists _; isplitr; · ipureintro; exact harg5.read_unread _
                    iexact H3
    isplitl [H4]; · iexists _; isplitr; · ipureintro; exact harg6.read_unread _
                    iexact H4
    isplitl [H5]; · iexists _; isplitr; · ipureintro; exact harg7.read_unread _
                    iexact H5
    isplitl [H6]; · iexists _; isplitr; · ipureintro; exact harg8.read_unread _
                    iexact H6
    isplitl [H7]; · iexists _; isplitr; · ipureintro; exact harg9.read_unread _
                    iexact H7
    isplitl [HS0]
    · iexists _; isplitr; swap; · iexact HS0
      ipureintro
      rw [View.read_writes_eq_canon _ _ _ (View.cover_of_tiledL _ S512x1024.size (by sl_kernel_rfl))]
      (try sl_unfold_words)
      rw [View.canon_cons_unit_zero hz2_0]
      (try simp only [View.readAt_eq_ld, View.readCov_unit_zero (S := S512x1) _ hz2_0, View.readCov_unit_zero (S := S512x1024) _ hz2_0, harg2.read_unread, harg3.read_unread, harg4.read_unread, harg5.read_unread, harg6.read_unread, harg10.read_unread, harg11.read_unread, harg12.read_unread, harg13.read_unread, View.ld_unit_zero (S := S512x1) hz2_0, View.ld_unit_zero (S := S512x1024) hz2_0, View.ld_unit_zero (S := S1024x1024) hz2_0, View.ld_unit_zero (S := S1000x1024) hz2_0, View.ld_unit_zero (S := S1000x1) hz2_0, View.ld_unit_zero (S := S512x1024) hz2_0, View.ld_unit_zero (S := S1x512x1) hz3_0])
      (try rfl)
    isplitl [HS1]
    · iexists _; isplitr; swap; · iexact HS1
      ipureintro
      rw [View.read_writes_eq_canon _ _ _ (View.cover_of_tiledL _ S512x1.size (by sl_kernel_rfl))]
      (try sl_unfold_words)
      rw [View.canon_cons_unit_zero hz2_0]
      (try simp only [View.readAt_eq_ld, View.readCov_unit_zero (S := S512x1) _ hz2_0, View.readCov_unit_zero (S := S512x1024) _ hz2_0, harg2.read_unread, harg3.read_unread, harg4.read_unread, harg5.read_unread, harg6.read_unread, harg10.read_unread, harg11.read_unread, harg12.read_unread, harg13.read_unread, View.ld_unit_zero (S := S512x1) hz2_0, View.ld_unit_zero (S := S512x1024) hz2_0, View.ld_unit_zero (S := S1024x1024) hz2_0, View.ld_unit_zero (S := S1000x1024) hz2_0, View.ld_unit_zero (S := S1000x1) hz2_0, View.ld_unit_zero (S := S512x1024) hz2_0, View.ld_unit_zero (S := S1x512x1) hz3_0])
      (try rfl)
    isplitl [HS2]
    · iexists _; isplitr; swap; · iexact HS2
      ipureintro
      rw [View.read_writes_eq_canon _ _ _ (View.cover_of_tiledL _ S512x1.size (by sl_kernel_rfl))]
      (try sl_unfold_words)
      rw [View.canon_cons_unit_zero hz2_0]
      (try simp only [View.readAt_eq_ld, View.readCov_unit_zero (S := S512x1) _ hz2_0, View.readCov_unit_zero (S := S512x1024) _ hz2_0, harg2.read_unread, harg3.read_unread, harg4.read_unread, harg5.read_unread, harg6.read_unread, harg10.read_unread, harg11.read_unread, harg12.read_unread, harg13.read_unread, View.ld_unit_zero (S := S512x1) hz2_0, View.ld_unit_zero (S := S512x1024) hz2_0, View.ld_unit_zero (S := S1024x1024) hz2_0, View.ld_unit_zero (S := S1000x1024) hz2_0, View.ld_unit_zero (S := S1000x1) hz2_0, View.ld_unit_zero (S := S512x1024) hz2_0, View.ld_unit_zero (S := S1x512x1) hz3_0])
      (try rfl)
    · iexists _; isplitr; swap; · iexact HS3
      ipureintro
      rw [View.read_writes_eq_canon _ _ _ (View.cover_of_tiledL _ S512x1.size (by sl_kernel_rfl))]
      (try sl_unfold_words)
      rw [View.canon_cons_unit_zero hz2_0]
      (try simp only [View.readAt_eq_ld, View.readCov_unit_zero (S := S512x1) _ hz2_0, View.readCov_unit_zero (S := S512x1024) _ hz2_0, harg2.read_unread, harg3.read_unread, harg4.read_unread, harg5.read_unread, harg6.read_unread, harg10.read_unread, harg11.read_unread, harg12.read_unread, harg13.read_unread, View.ld_unit_zero (S := S512x1) hz2_0, View.ld_unit_zero (S := S512x1024) hz2_0, View.ld_unit_zero (S := S1024x1024) hz2_0, View.ld_unit_zero (S := S1000x1024) hz2_0, View.ld_unit_zero (S := S1000x1) hz2_0, View.ld_unit_zero (S := S512x1024) hz2_0, View.ld_unit_zero (S := S1x512x1) hz3_0])
      (try rfl)

end Cert.KernelIdeal.Hand

end
-- ==== Proof.Frame0RunB.lean ====
import proofs.«412644_j75642964017948_3_alg».proof.Proof.Frame0Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 8000000 in

theorem run0_B (c : Dev nD) (i : grid0.Coords) (arg2 : Memref sig .tc .vmem S512x1024 .f32) (harg2 : arg2.IsWhole) (arg3 : Memref sig .tc .vmem S1024x1024 .f32) (harg3 : arg3.IsWhole) (arg4 : Memref sig .tc .vmem S1000x1024 .f32) (harg4 : arg4.IsWhole) (arg5 : Memref sig .tc .vmem S1000x1 .f32) (harg5 : arg5.IsWhole) (arg6 : Memref sig .tc .vmem S512x1 .i32) (harg6 : arg6.IsWhole) (arg7 : Memref sig .tc .vmem S1x512x1 .f32) (harg7 : arg7.IsWhole) (arg8 : Memref sig .tc .vmem S1x512x1 .f32) (harg8 : arg8.IsWhole) (arg9 : Memref sig .tc .vmem S1x512x1 .f32) (harg9 : arg9.IsWhole) (arg10 : Memref sig .tc .vmem S512x1024 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (hc0 : ¬cond0_0 i) (hc1 : ¬cond0_1 i)
    (x0 : Vec F S512x1024 .f32) (x1 : Vec F S1024x1024 .f32) (x2 : Vec F S1000x1024 .f32) (x3 : Vec F S1000x1 .f32) (x4 : Vec F S512x1 .i32) (xi5 xi6 xi7 : Vec F S1x512x1 .f32) (xs0 : Vec F S512x1024 .f32) (xs1 xs2 xs3 : Vec F S512x1 .f32) (E : Set ℕ) (K : PUnit → sProp 𝕄) :
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
            ∗ owns (c : Thread nD τ) arg7 fullShare xi5 ∗ owns (c : Thread nD τ) arg8 fullShare xi6 ∗ owns (c : Thread nD τ) arg9 fullShare xi7
            ∗ owns (c : Thread nD τ) arg10 fullShare xs0 ∗ owns (c : Thread nD τ) arg11 fullShare xs1 ∗ owns (c : Thread nD τ) arg12 fullShare xs2 ∗ owns (c : Thread nD τ) arg13 fullShare xs3
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
                ∗ owns (c : Thread nD τ) arg7 fullShare xi5 ∗ owns (c : Thread nD τ) arg8 fullShare xi6 ∗ owns (c : Thread nD τ) arg9 fullShare xi7
                ∗ owns (c : Thread nD τ) arg10 fullShare xs0 ∗ owns (c : Thread nD τ) arg11 fullShare (k0_pay3 (k0_pay13 xs0 x2 x3) xs1) ∗ owns (c : Thread nD τ) arg12 fullShare (k0_pay2 (k0_pay11 xs0 x2 x3) (k0_pay13 xs0 x2 x3) xs1 xs2 xs1) ∗ owns (c : Thread nD τ) arg13 fullShare (k0_pay12 i xs0 x2 x3 x4 xs3)) -∗ K ⟨⟩))
          ⊢ wp frame (wpE (defs₀ (F := F)) Variants.none c none) E (cc0__cluster_kernel i arg2 harg2 arg3 harg3 arg4 harg4 arg5 harg5 arg6 harg6 arg7 harg7 arg8 harg8 arg9 harg9 arg10 harg10 arg11 harg11 arg12 harg12 arg13 harg13) K := by
    simp only [cc0__cluster_kernel_eq_skeleton]; unfold cc0__cluster_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs0, %hfs0, HS0⟩, ⟨%fs1, %hfs1, HS1⟩, ⟨%fs2, %hfs2, HS2⟩, ⟨%fs3, %hfs3, HS3⟩, Hk⟩
    obtain rfl := harg2.eq_unread hf0; obtain rfl := harg3.eq_unread hf1; obtain rfl := harg4.eq_unread hf2; obtain rfl := harg5.eq_unread hf3; obtain rfl := harg6.eq_unread hf4
    obtain rfl := harg7.eq_unread hf5; obtain rfl := harg8.eq_unread hf6; obtain rfl := harg9.eq_unread hf7
    obtain rfl := harg10.eq_unread hfs0; obtain rfl := harg11.eq_unread hfs1; obtain rfl := harg12.eq_unread hfs2; obtain rfl := harg13.eq_unread hfs3
    sl_exec (disch := first | exact hc0 | exact hc1)
    sl_step
    iapply Hk
    isplitl [H0]; · iexists _; isplitr; · ipureintro; exact harg2.read_unread _
                    iexact H0
    isplitl [H1]; · iexists _; isplitr; · ipureintro; exact harg3.read_unread _
                    iexact H1
    isplitl [H2]; · iexists _; isplitr; · ipureintro; exact harg4.read_unread _
                    iexact H2
    isplitl [H3]; · iexists _; isplitr; · ipureintro; exact harg5.read_unread _
                    iexact H3
    isplitl [H4]; · iexists _; isplitr; · ipureintro; exact harg6.read_unread _
                    iexact H4
    isplitl [H5]; · iexists _; isplitr; · ipureintro; exact harg7.read_unread _
                    iexact H5
    isplitl [H6]; · iexists _; isplitr; · ipureintro; exact harg8.read_unread _
                    iexact H6
    isplitl [H7]; · iexists _; isplitr; · ipureintro; exact harg9.read_unread _
                    iexact H7
    isplitl [HS0]; · iexists _; isplitr; · ipureintro; exact harg10.read_unread _
                     iexact HS0
    isplitl [HS1]
    · iexists _; isplitr; swap; · iexact HS1
      ipureintro
      rw [View.read_writes_eq_canon _ _ _ (View.cover_of_tiledL _ S512x1.size (by sl_kernel_rfl))]
      (try sl_unfold_words)
      rw [View.canon_cons_unit_zero hz2_0]
      (try simp only [View.readAt_eq_ld, View.readCov_unit_zero (S := S512x1) _ hz2_0, View.readCov_unit_zero (S := S512x1024) _ hz2_0, harg2.read_unread, harg3.read_unread, harg4.read_unread, harg5.read_unread, harg6.read_unread, harg10.read_unread, harg11.read_unread, harg12.read_unread, harg13.read_unread, View.ld_unit_zero (S := S512x1) hz2_0, View.ld_unit_zero (S := S512x1024) hz2_0, View.ld_unit_zero (S := S1024x1024) hz2_0, View.ld_unit_zero (S := S1000x1024) hz2_0, View.ld_unit_zero (S := S1000x1) hz2_0, View.ld_unit_zero (S := S512x1024) hz2_0, View.ld_unit_zero (S := S1x512x1) hz3_0])
      (try rfl)
    isplitl [HS2]
    · iexists _; isplitr; swap; · iexact HS2
      ipureintro
      rw [View.read_writes_eq_canon _ _ _ (View.cover_of_tiledL _ S512x1.size (by sl_kernel_rfl))]
      (try sl_unfold_words)
      rw [View.canon_cons_unit_zero hz2_0]
      (try simp only [View.readAt_eq_ld, View.readCov_unit_zero (S := S512x1) _ hz2_0, View.readCov_unit_zero (S := S512x1024) _ hz2_0, harg2.read_unread, harg3.read_unread, harg4.read_unread, harg5.read_unread, harg6.read_unread, harg10.read_unread, harg11.read_unread, harg12.read_unread, harg13.read_unread, View.ld_unit_zero (S := S512x1) hz2_0, View.ld_unit_zero (S := S512x1024) hz2_0, View.ld_unit_zero (S := S1024x1024) hz2_0, View.ld_unit_zero (S := S1000x1024) hz2_0, View.ld_unit_zero (S := S1000x1) hz2_0, View.ld_unit_zero (S := S512x1024) hz2_0, View.ld_unit_zero (S := S1x512x1) hz3_0])
      (try rfl)
    · iexists _; isplitr; swap; · iexact HS3
      ipureintro
      rw [View.read_writes_eq_canon _ _ _ (View.cover_of_tiledL _ S512x1.size (by sl_kernel_rfl))]
      (try sl_unfold_words)
      rw [View.canon_cons_unit_zero hz2_0]
      (try simp only [View.readAt_eq_ld, View.readCov_unit_zero (S := S512x1) _ hz2_0, View.readCov_unit_zero (S := S512x1024) _ hz2_0, harg2.read_unread, harg3.read_unread, harg4.read_unread, harg5.read_unread, harg6.read_unread, harg10.read_unread, harg11.read_unread, harg12.read_unread, harg13.read_unread, View.ld_unit_zero (S := S512x1) hz2_0, View.ld_unit_zero (S := S512x1024) hz2_0, View.ld_unit_zero (S := S1024x1024) hz2_0, View.ld_unit_zero (S := S1000x1024) hz2_0, View.ld_unit_zero (S := S1000x1) hz2_0, View.ld_unit_zero (S := S512x1024) hz2_0, View.ld_unit_zero (S := S1x512x1) hz3_0])
      (try rfl)

end Cert.KernelIdeal.Hand

end
-- ==== Proof.Frame0RunC.lean ====
import proofs.«412644_j75642964017948_3_alg».proof.Proof.Frame0Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 8000000 in

theorem run0_C (c : Dev nD) (i : grid0.Coords) (arg2 : Memref sig .tc .vmem S512x1024 .f32) (harg2 : arg2.IsWhole) (arg3 : Memref sig .tc .vmem S1024x1024 .f32) (harg3 : arg3.IsWhole) (arg4 : Memref sig .tc .vmem S1000x1024 .f32) (harg4 : arg4.IsWhole) (arg5 : Memref sig .tc .vmem S1000x1 .f32) (harg5 : arg5.IsWhole) (arg6 : Memref sig .tc .vmem S512x1 .i32) (harg6 : arg6.IsWhole) (arg7 : Memref sig .tc .vmem S1x512x1 .f32) (harg7 : arg7.IsWhole) (arg8 : Memref sig .tc .vmem S1x512x1 .f32) (harg8 : arg8.IsWhole) (arg9 : Memref sig .tc .vmem S1x512x1 .f32) (harg9 : arg9.IsWhole) (arg10 : Memref sig .tc .vmem S512x1024 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (hc0 : ¬cond0_0 i) (hc1 : cond0_1 i)
    (x0 : Vec F S512x1024 .f32) (x1 : Vec F S1024x1024 .f32) (x2 : Vec F S1000x1024 .f32) (x3 : Vec F S1000x1 .f32) (x4 : Vec F S512x1 .i32) (xs0 : Vec F S512x1024 .f32) (xs1 xs2 xs3 : Vec F S512x1 .f32) (E : Set ℕ) (K : PUnit → sProp 𝕄) :
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
            ∗ (∃ d, owns (c : Thread nD τ) arg7 fullShare d) ∗ (∃ d, owns (c : Thread nD τ) arg8 fullShare d) ∗ (∃ d, owns (c : Thread nD τ) arg9 fullShare d)
            ∗ owns (c : Thread nD τ) arg10 fullShare xs0 ∗ owns (c : Thread nD τ) arg11 fullShare xs1 ∗ owns (c : Thread nD τ) arg12 fullShare xs2 ∗ owns (c : Thread nD τ) arg13 fullShare xs3
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
                ∗ owns (c : Thread nD τ) arg7 fullShare (k0_pay4 (k0_pay3 (k0_pay13 xs0 x2 x3) xs1)) ∗ owns (c : Thread nD τ) arg8 fullShare (k0_pay5 (k0_pay2 (k0_pay11 xs0 x2 x3) (k0_pay13 xs0 x2 x3) xs1 xs2 xs1)) ∗ owns (c : Thread nD τ) arg9 fullShare (k0_pay6 (k0_pay12 i xs0 x2 x3 x4 xs3))
                ∗ owns (c : Thread nD τ) arg10 fullShare xs0 ∗ owns (c : Thread nD τ) arg11 fullShare (k0_pay3 (k0_pay13 xs0 x2 x3) xs1) ∗ owns (c : Thread nD τ) arg12 fullShare (k0_pay2 (k0_pay11 xs0 x2 x3) (k0_pay13 xs0 x2 x3) xs1 xs2 xs1) ∗ owns (c : Thread nD τ) arg13 fullShare (k0_pay12 i xs0 x2 x3 x4 xs3)) -∗ K ⟨⟩))
          ⊢ wp frame (wpE (defs₀ (F := F)) Variants.none c none) E (cc0__cluster_kernel i arg2 harg2 arg3 harg3 arg4 harg4 arg5 harg5 arg6 harg6 arg7 harg7 arg8 harg8 arg9 harg9 arg10 harg10 arg11 harg11 arg12 harg12 arg13 harg13) K := by
    simp only [cc0__cluster_kernel_eq_skeleton]; unfold cc0__cluster_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%fs0, %hfs0, HS0⟩, ⟨%fs1, %hfs1, HS1⟩, ⟨%fs2, %hfs2, HS2⟩, ⟨%fs3, %hfs3, HS3⟩, Hk⟩
    obtain rfl := harg2.eq_unread hf0; obtain rfl := harg3.eq_unread hf1; obtain rfl := harg4.eq_unread hf2; obtain rfl := harg5.eq_unread hf3; obtain rfl := harg6.eq_unread hf4
    obtain rfl := harg10.eq_unread hfs0; obtain rfl := harg11.eq_unread hfs1; obtain rfl := harg12.eq_unread hfs2; obtain rfl := harg13.eq_unread hfs3
    sl_exec (disch := first | exact hc0 | exact hc1)
    sl_step
    iapply Hk
    isplitl [H0]; · iexists _; isplitr; · ipureintro; exact harg2.read_unread _
                    iexact H0
    isplitl [H1]; · iexists _; isplitr; · ipureintro; exact harg3.read_unread _
                    iexact H1
    isplitl [H2]; · iexists _; isplitr; · ipureintro; exact harg4.read_unread _
                    iexact H2
    isplitl [H3]; · iexists _; isplitr; · ipureintro; exact harg5.read_unread _
                    iexact H3
    isplitl [H4]; · iexists _; isplitr; · ipureintro; exact harg6.read_unread _
                    iexact H4
    isplitl [H5]
    · iexists _; isplitr; swap; · iexact H5
      ipureintro
      rw [View.read_writes_eq_canon _ _ _ (View.cover_of_tiledL _ S1x512x1.size (by sl_kernel_rfl))]
      (try sl_unfold_words)
      rw [View.canon_cons_unit_zero hz3_0]
      (try simp only [View.readAt_eq_ld, View.readCov_unit_zero (S := S512x1) _ hz2_0, View.readCov_unit_zero (S := S512x1024) _ hz2_0, harg2.read_unread, harg3.read_unread, harg4.read_unread, harg5.read_unread, harg6.read_unread, harg10.read_unread, harg11.read_unread, harg12.read_unread, harg13.read_unread, View.ld_unit_zero (S := S512x1) hz2_0, View.ld_unit_zero (S := S512x1024) hz2_0, View.ld_unit_zero (S := S1024x1024) hz2_0, View.ld_unit_zero (S := S1000x1024) hz2_0, View.ld_unit_zero (S := S1000x1) hz2_0, View.ld_unit_zero (S := S512x1024) hz2_0, View.ld_unit_zero (S := S1x512x1) hz3_0])
      (try rfl)
    isplitl [H6]
    · iexists _; isplitr; swap; · iexact H6
      ipureintro
      rw [View.read_writes_eq_canon _ _ _ (View.cover_of_tiledL _ S1x512x1.size (by sl_kernel_rfl))]
      (try sl_unfold_words)
      rw [View.canon_cons_unit_zero hz3_0]
      (try simp only [View.readAt_eq_ld, View.readCov_unit_zero (S := S512x1) _ hz2_0, View.readCov_unit_zero (S := S512x1024) _ hz2_0, harg2.read_unread, harg3.read_unread, harg4.read_unread, harg5.read_unread, harg6.read_unread, harg10.read_unread, harg11.read_unread, harg12.read_unread, harg13.read_unread, View.ld_unit_zero (S := S512x1) hz2_0, View.ld_unit_zero (S := S512x1024) hz2_0, View.ld_unit_zero (S := S1024x1024) hz2_0, View.ld_unit_zero (S := S1000x1024) hz2_0, View.ld_unit_zero (S := S1000x1) hz2_0, View.ld_unit_zero (S := S512x1024) hz2_0, View.ld_unit_zero (S := S1x512x1) hz3_0])
      (try rfl)
    isplitl [H7]
    · iexists _; isplitr; swap; · iexact H7
      ipureintro
      rw [View.read_writes_eq_canon _ _ _ (View.cover_of_tiledL _ S1x512x1.size (by sl_kernel_rfl))]
      (try sl_unfold_words)
      rw [View.canon_cons_unit_zero hz3_0]
      (try simp only [View.readAt_eq_ld, View.readCov_unit_zero (S := S512x1) _ hz2_0, View.readCov_unit_zero (S := S512x1024) _ hz2_0, harg2.read_unread, harg3.read_unread, harg4.read_unread, harg5.read_unread, harg6.read_unread, harg10.read_unread, harg11.read_unread, harg12.read_unread, harg13.read_unread, View.ld_unit_zero (S := S512x1) hz2_0, View.ld_unit_zero (S := S512x1024) hz2_0, View.ld_unit_zero (S := S1024x1024) hz2_0, View.ld_unit_zero (S := S1000x1024) hz2_0, View.ld_unit_zero (S := S1000x1) hz2_0, View.ld_unit_zero (S := S512x1024) hz2_0, View.ld_unit_zero (S := S1x512x1) hz3_0])
      (try rfl)
    isplitl [HS0]; · iexists _; isplitr; · ipureintro; exact harg10.read_unread _
                     iexact HS0
    isplitl [HS1]
    · iexists _; isplitr; swap; · iexact HS1
      ipureintro
      rw [View.read_writes_eq_canon _ _ _ (View.cover_of_tiledL _ S512x1.size (by sl_kernel_rfl))]
      (try sl_unfold_words)
      rw [View.canon_cons_unit_zero hz2_0]
      (try simp only [View.readAt_eq_ld, View.readCov_unit_zero (S := S512x1) _ hz2_0, View.readCov_unit_zero (S := S512x1024) _ hz2_0, harg2.read_unread, harg3.read_unread, harg4.read_unread, harg5.read_unread, harg6.read_unread, harg10.read_unread, harg11.read_unread, harg12.read_unread, harg13.read_unread, View.ld_unit_zero (S := S512x1) hz2_0, View.ld_unit_zero (S := S512x1024) hz2_0, View.ld_unit_zero (S := S1024x1024) hz2_0, View.ld_unit_zero (S := S1000x1024) hz2_0, View.ld_unit_zero (S := S1000x1) hz2_0, View.ld_unit_zero (S := S512x1024) hz2_0, View.ld_unit_zero (S := S1x512x1) hz3_0])
      (try rfl)
    isplitl [HS2]
    · iexists _; isplitr; swap; · iexact HS2
      ipureintro
      rw [View.read_writes_eq_canon _ _ _ (View.cover_of_tiledL _ S512x1.size (by sl_kernel_rfl))]
      (try sl_unfold_words)
      rw [View.canon_cons_unit_zero hz2_0]
      (try simp only [View.readAt_eq_ld, View.readCov_unit_zero (S := S512x1) _ hz2_0, View.readCov_unit_zero (S := S512x1024) _ hz2_0, harg2.read_unread, harg3.read_unread, harg4.read_unread, harg5.read_unread, harg6.read_unread, harg10.read_unread, harg11.read_unread, harg12.read_unread, harg13.read_unread, View.ld_unit_zero (S := S512x1) hz2_0, View.ld_unit_zero (S := S512x1024) hz2_0, View.ld_unit_zero (S := S1024x1024) hz2_0, View.ld_unit_zero (S := S1000x1024) hz2_0, View.ld_unit_zero (S := S1000x1) hz2_0, View.ld_unit_zero (S := S512x1024) hz2_0, View.ld_unit_zero (S := S1x512x1) hz3_0])
      (try rfl)
    · iexists _; isplitr; swap; · iexact HS3
      ipureintro
      rw [View.read_writes_eq_canon _ _ _ (View.cover_of_tiledL _ S512x1.size (by sl_kernel_rfl))]
      (try sl_unfold_words)
      rw [View.canon_cons_unit_zero hz2_0]
      (try simp only [View.readAt_eq_ld, View.readCov_unit_zero (S := S512x1) _ hz2_0, View.readCov_unit_zero (S := S512x1024) _ hz2_0, harg2.read_unread, harg3.read_unread, harg4.read_unread, harg5.read_unread, harg6.read_unread, harg10.read_unread, harg11.read_unread, harg12.read_unread, harg13.read_unread, View.ld_unit_zero (S := S512x1) hz2_0, View.ld_unit_zero (S := S512x1024) hz2_0, View.ld_unit_zero (S := S1024x1024) hz2_0, View.ld_unit_zero (S := S1000x1024) hz2_0, View.ld_unit_zero (S := S1000x1) hz2_0, View.ld_unit_zero (S := S512x1024) hz2_0, View.ld_unit_zero (S := S1x512x1) hz3_0])
      (try rfl)

end Cert.KernelIdeal.Hand

end
-- ==== Proof.Frame0Dat.lean ====
import proofs.«412644_j75642964017948_3_alg».proof.Proof.Frame0RunA
import proofs.«412644_j75642964017948_3_alg».proof.Proof.Frame0RunB
import proofs.«412644_j75642964017948_3_alg».proof.Proof.Frame0RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

section

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev St0 (F : FTy → Type) : Type := Vec F S512x1024 .f32 × Vec F S512x1 .f32 × Vec F S512x1 .f32 × Vec F S512x1 .f32

def reset0 (x0 : Vec F S512x1024 .f32) (x1 : Vec F S1024x1024 .f32) : St0 F := ((k0_pay7 x0 x1), (k0_pay8 (F := F)), (k0_pay9 (F := F)), (k0_pay10 (F := F)))

def upd0 (i : grid0.Coords) (x2 : Vec F S1000x1024 .f32) (x3 : Vec F S1000x1 .f32) (x4 : Vec F S512x1 .i32) (s : St0 F) : St0 F :=
  (s.1, (k0_pay3 (k0_pay13 s.1 x2 x3) s.2.1), (k0_pay2 (k0_pay11 s.1 x2 x3) (k0_pay13 s.1 x2 x3) s.2.1 s.2.2.1 s.2.1), (k0_pay12 i s.1 x2 x3 x4 s.2.2.2))

def stAt0 (c : Dev nD) : (n : ℕ) → n < cfg0.N → St0 F
  | 0, hn => upd0 (grid0.coords ⟨0, hn⟩) (iblk0 V c 2 ⟨0, hn⟩) (iblk0 V c 3 ⟨0, hn⟩) (iblk0 V c 4 ⟨0, hn⟩) (reset0 (iblk0 V c 0 ⟨0, hn⟩) (iblk0 V c 1 ⟨0, hn⟩))
  | n + 1, hn => upd0 (grid0.coords ⟨n + 1, hn⟩) (iblk0 V c 2 ⟨n + 1, hn⟩) (iblk0 V c 3 ⟨n + 1, hn⟩) (iblk0 V c 4 ⟨n + 1, hn⟩)
      (if (n + 1) % 10 = 0 then reset0 (iblk0 V c 0 ⟨n + 1, hn⟩) (iblk0 V c 1 ⟨n + 1, hn⟩) else stAt0 c n (Nat.lt_of_succ_lt hn))

theorem stAt0_first (c : Dev nD) (t : Fin cfg0.N) (h : t.val % 10 = 0) :
    stAt0 V c t.val t.isLt = upd0 (grid0.coords t) (iblk0 V c 2 t) (iblk0 V c 3 t) (iblk0 V c 4 t) (reset0 (iblk0 V c 0 t) (iblk0 V c 1 t)) := by
  obtain ⟨n, hn⟩ := t
  cases n with
  | zero => rfl
  | succ n => show upd0 _ _ _ _ (if (n + 1) % 10 = 0 then _ else _) = _; rw [if_pos h]

theorem stAt0_next (c : Dev nD) (t : Fin cfg0.N) (h : ¬t.val % 10 = 0) :
    stAt0 V c t.val t.isLt = upd0 (grid0.coords t) (iblk0 V c 2 t) (iblk0 V c 3 t) (iblk0 V c 4 t) (stAt0 V c (t.val - 1) (Nat.lt_of_le_of_lt (Nat.sub_le _ _) t.isLt)) := by
  obtain ⟨n, hn⟩ := t
  cases n with
  | zero => exact absurd (Nat.zero_mod _) h
  | succ n => show upd0 _ _ _ _ (if (n + 1) % 10 = 0 then _ else _) = _; rw [if_neg h]; rfl

def PhiS0 (c : Dev nD) : (n : ℕ) → n ≤ cfg0.N → sProp 𝕄
  | 0, _ => Pipeline.ΦA spec0 c
  | n + 1, hn => iprop(iprop(iprop(owns (c : Thread nD τ) scM0_0 fullShare (stAt0 V c n hn).1 ∗ owns (c : Thread nD τ) scM0_1 fullShare (stAt0 V c n hn).2.1 ∗ owns (c : Thread nD τ) scM0_2 fullShare (stAt0 V c n hn).2.2.1 ∗ owns (c : Thread nD τ) scM0_3 fullShare (stAt0 V c n hn).2.2.2) ∗ Pipeline.scopedRestBut (Ix := Unit) (Name := ℕ) (U := UR sig nD τ) (Lvl := ℕ) (Val := Elt F) spec0 c [cc0_scratch0, cc0_scratch1, cc0_scratch2, cc0_scratch3]) ∗ (∃ r, prngReg c r))

theorem PhiS0_succ (c : Dev nD) (n : ℕ) (hn : n < cfg0.N) :
    PhiS0 V c (n + 1) hn = iprop(iprop(iprop(owns (c : Thread nD τ) scM0_0 fullShare (stAt0 V c n hn).1 ∗ owns (c : Thread nD τ) scM0_1 fullShare (stAt0 V c n hn).2.1 ∗ owns (c : Thread nD τ) scM0_2 fullShare (stAt0 V c n hn).2.2.1 ∗ owns (c : Thread nD τ) scM0_3 fullShare (stAt0 V c n hn).2.2.2) ∗ Pipeline.scopedRestBut (Ix := Unit) (Name := ℕ) (U := UR sig nD τ) (Lvl := ℕ) (Val := Elt F) spec0 c [cc0_scratch0, cc0_scratch1, cc0_scratch2, cc0_scratch3]) ∗ (∃ r, prngReg c r)) := rfl

theorem PhiS0_pos (c : Dev nD) (n : ℕ) (h : n ≤ cfg0.N) (hz : n ≠ 0) :
    PhiS0 V c n h = iprop(iprop(iprop(owns (c : Thread nD τ) scM0_0 fullShare (stAt0 V c (n - 1) (by omega)).1 ∗ owns (c : Thread nD τ) scM0_1 fullShare (stAt0 V c (n - 1) (by omega)).2.1 ∗ owns (c : Thread nD τ) scM0_2 fullShare (stAt0 V c (n - 1) (by omega)).2.2.1 ∗ owns (c : Thread nD τ) scM0_3 fullShare (stAt0 V c (n - 1) (by omega)).2.2.2) ∗ Pipeline.scopedRestBut (Ix := Unit) (Name := ℕ) (U := UR sig nD τ) (Lvl := ℕ) (Val := Elt F) spec0 c [cc0_scratch0, cc0_scratch1, cc0_scratch2, cc0_scratch3]) ∗ (∃ r, prngReg c r)) := by
  cases n with
  | zero => exact absurd rfl hz
  | succ n => rfl

theorem PhiS0_any (c : Dev nD) (n : ℕ) (h : n ≤ cfg0.N) :
    PhiS0 V c n h ⊢ iprop(iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ Pipeline.scopedRestBut (Ix := Unit) (Name := ℕ) (U := UR sig nD τ) (Lvl := ℕ) (Val := Elt F) spec0 c [cc0_scratch0, cc0_scratch1, cc0_scratch2, cc0_scratch3]) ∗ (∃ r, prngReg c r)) := by
  cases n with
  | zero => rw [show PhiS0 V c 0 h = Pipeline.ΦA spec0 c from rfl, PhiA0_eq]
  | succ n =>
    rw [PhiS0_succ]
    iintro ⟨⟨⟨HS0, HS1, HS2, HS3⟩, Hrest⟩, Hg⟩
    isplitl [HS0 HS1 HS2 HS3 Hrest]
    · isplitl [HS0 HS1 HS2 HS3]
      · isplitl [HS0]; · iexists _; iexact HS0
        isplitl [HS1]; · iexists _; iexact HS1
        isplitl [HS2]; · iexists _; iexact HS2
        iexists _; iexact HS3
      iexact Hrest
    iexact Hg

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => (k0_pay4 (stAt0 V c t.val t.isLt).2.1)
    | ⟨6, _⟩ => (k0_pay5 (stAt0 V c t.val t.isLt).2.2.1)
    | ⟨7, _⟩ => (k0_pay6 (stAt0 V c t.val t.isLt).2.2.2)
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = (k0_pay4 (stAt0 V c t.val t.isLt).2.1) := by dsimp only [dat0]
theorem after0_6 (c : Dev nD) (t : Fin cfg0.N) : (dat0 V c).after 6 t = (k0_pay5 (stAt0 V c t.val t.isLt).2.2.1) := by dsimp only [dat0]
theorem after0_7 (c : Dev nD) (t : Fin cfg0.N) : (dat0 V c).after 7 t = (k0_pay6 (stAt0 V c t.val t.isLt).2.2.2) := by dsimp only [dat0]

theorem before0_0 (c : Dev nD) (t : Fin cfg0.N) (d) : (dat0 V c).before 0 t d = iblk0 V c 0 t :=
  ((dat0 V c).before_in_eq_fetched 0 rfl (fun _ => rfl) (fun _ _ _ => rfl) (fun _ => rfl) t d).trans rfl
theorem before0_1 (c : Dev nD) (t : Fin cfg0.N) (d) : (dat0 V c).before 1 t d = iblk0 V c 1 t :=
  ((dat0 V c).before_in_eq_fetched 1 rfl (fun _ => rfl) (fun _ _ _ => rfl) (fun _ => rfl) t d).trans rfl
theorem before0_2 (c : Dev nD) (t : Fin cfg0.N) (d) : (dat0 V c).before 2 t d = iblk0 V c 2 t :=
  ((dat0 V c).before_in_eq_fetched 2 rfl (fun _ => rfl) (fun _ _ _ => rfl) (fun _ => rfl) t d).trans rfl
theorem before0_3 (c : Dev nD) (t : Fin cfg0.N) (d) : (dat0 V c).before 3 t d = iblk0 V c 3 t :=
  ((dat0 V c).before_in_eq_fetched 3 rfl (fun _ => rfl) (fun _ _ _ => rfl) (fun _ => rfl) t d).trans rfl
theorem before0_4 (c : Dev nD) (t : Fin cfg0.N) (d) : (dat0 V c).before 4 t d = iblk0 V c 4 t :=
  ((dat0 V c).before_in_eq_fetched 4 rfl (fun _ => rfl) (fun _ _ _ => rfl) (fun _ => rfl) t d).trans rfl

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d)))

def bodyPost0 (c : Dev nD) (t : Fin cfg0.N) : sProp 𝕄 :=
  iprop((dat0 V c).Φ t.succ ∗ (dat0 V c).owesAt () t.succ
    ∗ (dat0 V c).leavesExact 0 t ∗ (dat0 V c).leavesExact 1 t ∗ (dat0 V c).leavesExact 2 t ∗ (dat0 V c).leavesExact 3 t ∗ (dat0 V c).leavesExact 4 t ∗ (dat0 V c).leavesExact 5 t ∗ (dat0 V c).leavesExact 6 t ∗ (dat0 V c).leavesExact 7 t)

set_option maxHeartbeats 8000000 in

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).owesAt () t.succ = (dat0 V c).owesAt () t.castSucc from rfl]
  rw [show (dat0 V c).Φ t.succ = PhiS0 V c (t.val + 1) t.isLt from rfl, PhiS0_succ]
  have hN : t.val < 20 := lt_of_lt_of_eq t.isLt (show cfg0.N = 20 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  rw [show (dat0 V c).leavesExact 3 t = owns (c : Thread nD τ) (ms0_3 t) fullShare ((dat0 V c).after 3 t) from by
    unfold Dat.leavesExact; rw [liveAt0_3 t], after0_3]
  rw [show (dat0 V c).leavesExact 4 t = owns (c : Thread nD τ) (ms0_4 t) fullShare ((dat0 V c).after 4 t) from by
    unfold Dat.leavesExact; rw [liveAt0_4 t], after0_4]
  simp only [after0_0, after0_1, after0_2, after0_3, after0_4]
  by_cases h0 : t.val % 10 = 0
  · have hc0 : cond0_0 (grid0.coords t) := (hcond0_0 t).mpr h0
    have hc1 : ¬cond0_1 (grid0.coords t) := fun h => by have := (hcond0_1 t).mp h; omega
    rw [Dat.leavesExact_idle (dat0 V c) 5 t (idleAt0_5 t hc1) (noFlush0_5 t hc1), Dat.leavesExact_idle (dat0 V c) 6 t (idleAt0_6 t hc1) (noFlush0_6 t hc1), Dat.leavesExact_idle (dat0 V c) 7 t (idleAt0_7 t hc1) (noFlush0_7 t hc1)]
    rw [stAt0_first V c t h0]; dsimp only [upd0, reset0]
    rw [PhiS0_castSucc V c t]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    ihave HΦ' := (PhiS0_any V c t.val (Nat.le_of_lt t.isLt)) $$ HΦ
    icases HΦ' with ⟨⟨⟨HS0, HS1, HS2, HS3⟩, Hrest⟩, Hg⟩
    iapply (run0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) hc0 hc1 (iblk0 V c 0 t) (iblk0 V c 1 t) (iblk0 V c 2 t) (iblk0 V c 3 t) (iblk0 V c 4 t) ((dat0 V c).before 5 t d5) ((dat0 V c).before 6 t d6) ((dat0 V c).before 7 t d7) Set.univ _)
    iframe
    iintro ⟨H0, H1, H2, H3, H4, H5, H6, H7, HS0, HS1, HS2, HS3⟩
    iframe
    isplitl [H5]; · iexists _; iexact H5
    isplitl [H6]; · iexists _; iexact H6
    iexists _; iexact H7
  · have hc0 : ¬cond0_0 (grid0.coords t) := fun h => h0 ((hcond0_0 t).mp h)
    have hz : t.val ≠ 0 := fun h => h0 (by rw [h])
    rw [stAt0_next V c t h0]; dsimp only [upd0]
    rw [PhiS0_castSucc V c t, PhiS0_pos V c _ _ hz]
    by_cases h1 : t.val % 10 = 9
    · have hc1 : cond0_1 (grid0.coords t) := (hcond0_1 t).mpr h1
      rw [show (dat0 V c).leavesExact 5 t = owns (c : Thread nD τ) (ms0_5 t) fullShare ((dat0 V c).after 5 t) from by
        unfold Dat.leavesExact; rw [liveAt0_5 t hc1], after0_5]
      rw [show (dat0 V c).leavesExact 6 t = owns (c : Thread nD τ) (ms0_6 t) fullShare ((dat0 V c).after 6 t) from by
        unfold Dat.leavesExact; rw [liveAt0_6 t hc1], after0_6]
      rw [show (dat0 V c).leavesExact 7 t = owns (c : Thread nD τ) (ms0_7 t) fullShare ((dat0 V c).after 7 t) from by
        unfold Dat.leavesExact; rw [liveAt0_7 t hc1], after0_7]
      rw [stAt0_next V c t h0]; dsimp only [upd0]
      iintro ⟨⟨⟨⟨HS0, HS1, HS2, HS3⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (run0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) hc0 hc1 (iblk0 V c 0 t) (iblk0 V c 1 t) (iblk0 V c 2 t) (iblk0 V c 3 t) (iblk0 V c 4 t) _ _ _ _ Set.univ _)
      iframe
      isplitl [H5]; · iexists _; iexact H5
      isplitl [H6]; · iexists _; iexact H6
      isplitl [H7]; · iexists _; iexact H7
      iintro ⟨H0, H1, H2, H3, H4, H5, H6, H7, HS0, HS1, HS2, HS3⟩
      iframe
    · have hc1 : ¬cond0_1 (grid0.coords t) := fun h => h1 ((hcond0_1 t).mp h)
      rw [Dat.leavesExact_idle (dat0 V c) 5 t (idleAt0_5 t hc1) (noFlush0_5 t hc1), Dat.leavesExact_idle (dat0 V c) 6 t (idleAt0_6 t hc1) (noFlush0_6 t hc1), Dat.leavesExact_idle (dat0 V c) 7 t (idleAt0_7 t hc1) (noFlush0_7 t hc1)]
      iintro ⟨⟨⟨⟨HS0, HS1, HS2, HS3⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (run0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) hc0 hc1 (iblk0 V c 0 t) (iblk0 V c 1 t) (iblk0 V c 2 t) (iblk0 V c 3 t) (iblk0 V c 4 t) ((dat0 V c).before 5 t d5) ((dat0 V c).before 6 t d6) ((dat0 V c).before 7 t d7) _ _ _ _ Set.univ _)
      iframe
      iintro ⟨H0, H1, H2, H3, H4, H5, H6, H7, HS0, HS1, HS2, HS3⟩
      iframe
      isplitl [H5]; · iexists _; iexact H5
      isplitl [H6]; · iexists _; iexact H6
      iexists _; iexact H7

theorem body_obligation0 (c : Dev nD) : BodyObligation (dat0 (F := F) V c) (defs₀ (F := F)) Variants.none () Set.univ := fun t => by
  rw [bigSep_W0, bigSep_W0]
  exact sound_body0 V c t

theorem hout0 (c : Dev nD) : (dat0 V c).Φ (Fin.last cfg0.N) ⊢ Pipeline.ΦA spec0 c := by
  rw [show (dat0 V c).Φ (Fin.last cfg0.N) = PhiS0 V c (Fin.last cfg0.N).val (Nat.le_of_lt_succ (Fin.last cfg0.N).isLt) from rfl, PhiA0_eq]
  exact PhiS0_any V c _ _

end

end Cert.KernelIdeal.Hand

end
-- ==== Proof.Frame1Base.lean ====
import proofs.«412644_j75642964017948_3_alg».proof.Proof.Gen.KernelIdeal.Launch
import proofs.«412644_j75642964017948_3_alg».proof.Proof.Gen.KernelIdeal.Skeleton
import proofs.«412644_j75642964017948_3_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

abbrev cond1_0 (i : grid1.Coords) : Prop := (Scalar.cmpi .ne (Scalar.extui (Scalar.cmpi .eq (BitVec.ofNat 32 (i 1).val) 0#32)) 0#32) = 1#1

abbrev cond1_1 (i : grid1.Coords) : Prop := k1_cond2 i = 1#1

theorem hcond1_0 : ∀ t : Fin cfg1.N, cond1_0 (grid1.coords t) ↔ t.val % 5 = 0 :=
  (by decide +kernel : ∀ t : Fin grid1.N, cond1_0 (grid1.coords t) ↔ t.val % 5 = 0)
theorem hcond1_1 : ∀ t : Fin cfg1.N, cond1_1 (grid1.coords t) ↔ t.val % 5 = 4 :=
  (by decide +kernel : ∀ t : Fin grid1.N, cond1_1 (grid1.coords t) ↔ t.val % 5 = 4)

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
theorem idleAt1_5 : ∀ t : Fin cfg1.N, ¬cond1_1 (grid1.coords t) → cfg1.idle 5 (grid1.coords t) = true := by decide +kernel
theorem idleAt1_6 : ∀ t : Fin cfg1.N, ¬cond1_1 (grid1.coords t) → cfg1.idle 6 (grid1.coords t) = true := by decide +kernel
theorem idleAt1_7 : ∀ t : Fin cfg1.N, ¬cond1_1 (grid1.coords t) → cfg1.idle 7 (grid1.coords t) = true := by decide +kernel
theorem noFlush1_5 : ∀ t : Fin cfg1.N, ¬cond1_1 (grid1.coords t) → (cfg1.win 5).flush t = false := by decide +kernel
theorem noFlush1_6 : ∀ t : Fin cfg1.N, ¬cond1_1 (grid1.coords t) → (cfg1.win 6).flush t = false := by decide +kernel
theorem noFlush1_7 : ∀ t : Fin cfg1.N, ¬cond1_1 (grid1.coords t) → (cfg1.win 7).flush t = false := by decide +kernel
theorem liveAt1_5 : ∀ t : Fin cfg1.N, cond1_1 (grid1.coords t) → cfg1.idle 5 (grid1.coords t) = false := by decide +kernel
theorem liveAt1_6 : ∀ t : Fin cfg1.N, cond1_1 (grid1.coords t) → cfg1.idle 6 (grid1.coords t) = false := by decide +kernel
theorem liveAt1_7 : ∀ t : Fin cfg1.N, cond1_1 (grid1.coords t) → cfg1.idle 7 (grid1.coords t) = false := by decide +kernel

theorem hz2_1 : (![0, 0] : Fin 2 → Nat) = fun _ => 0 := by funext a; fin_cases a <;> rfl
theorem hz3_1 : (![0, 0, 0] : Fin 3 → Nat) = fun _ => 0 := by funext a; fin_cases a <;> rfl

abbrev ms1_0 (t : Fin cfg1.N) := win1_0.stage (cfg1.slots t 0)
abbrev hs1_0 (t : Fin cfg1.N) : (ms1_0 t).IsWhole := hstage1_0 ((cfg1.slots t 0).cast nbuf1_0)
abbrev ms1_1 (t : Fin cfg1.N) := win1_1.stage (cfg1.slots t 1)
abbrev hs1_1 (t : Fin cfg1.N) : (ms1_1 t).IsWhole := hstage1_1 ((cfg1.slots t 1).cast nbuf1_1)
abbrev ms1_2 (t : Fin cfg1.N) := win1_2.stage (cfg1.slots t 2)
abbrev hs1_2 (t : Fin cfg1.N) : (ms1_2 t).IsWhole := hstage1_2 ((cfg1.slots t 2).cast nbuf1_2)
abbrev ms1_3 (t : Fin cfg1.N) := win1_3.stage (cfg1.slots t 3)
abbrev hs1_3 (t : Fin cfg1.N) : (ms1_3 t).IsWhole := hstage1_3 ((cfg1.slots t 3).cast nbuf1_3)
abbrev ms1_4 (t : Fin cfg1.N) := win1_4.stage (cfg1.slots t 4)
abbrev hs1_4 (t : Fin cfg1.N) : (ms1_4 t).IsWhole := hstage1_4 ((cfg1.slots t 4).cast nbuf1_4)
abbrev ms1_5 (t : Fin cfg1.N) := win1_5.stage (cfg1.slots t 5)
abbrev hs1_5 (t : Fin cfg1.N) : (ms1_5 t).IsWhole := hstage1_5 ((cfg1.slots t 5).cast nbuf1_5)
abbrev ms1_6 (t : Fin cfg1.N) := win1_6.stage (cfg1.slots t 6)
abbrev hs1_6 (t : Fin cfg1.N) : (ms1_6 t).IsWhole := hstage1_6 ((cfg1.slots t 6).cast nbuf1_6)
abbrev ms1_7 (t : Fin cfg1.N) := win1_7.stage (cfg1.slots t 7)
abbrev hs1_7 (t : Fin cfg1.N) : (ms1_7 t).IsWhole := hstage1_7 ((cfg1.slots t 7).cast nbuf1_7)

abbrev scM1_0 : Memref sig .tc .vmem S512x256 .f32 := Memref.whole cc1_scratch0
abbrev scM1_1 : Memref sig .tc .vmem S512x1 .f32 := Memref.whole cc1_scratch1
abbrev scM1_2 : Memref sig .tc .vmem S512x1 .f32 := Memref.whole cc1_scratch2
abbrev scM1_3 : Memref sig .tc .vmem S512x1 .f32 := Memref.whole cc1_scratch3

theorem PhiA1_eq (c : Dev nD) :
    (Pipeline.ΦA spec1 c : sProp 𝕄)
      = iprop(iprop(iprop((∃ d, owns (c : Thread nD τ) scM1_0 fullShare d) ∗ (∃ d, owns (c : Thread nD τ) scM1_1 fullShare d) ∗ (∃ d, owns (c : Thread nD τ) scM1_2 fullShare d) ∗ (∃ d, owns (c : Thread nD τ) scM1_3 fullShare d))
          ∗ Pipeline.scopedRestBut (Ix := Unit) (Name := ℕ) (U := UR sig nD τ) (Lvl := ℕ) (Val := Elt F) spec1 c [cc1_scratch0, cc1_scratch1, cc1_scratch2, cc1_scratch3]) ∗ (∃ r, prngReg c r)) := by
  unfold Pipeline.ΦA; rw [scopedRest1_split]; simp only [scM1_0, scM1_1, scM1_2, scM1_3, owns_whole]; try rfl

end Cert.KernelIdeal.Hand

end
-- ==== Proof.Frame1RunA.lean ====
import proofs.«412644_j75642964017948_3_alg».proof.Proof.Frame1Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 8000000 in

theorem run1_A (c : Dev nD) (i : grid1.Coords) (arg2 : Memref sig .tc .vmem S512x1024 .f32) (harg2 : arg2.IsWhole) (arg3 : Memref sig .tc .vmem S1024x256 .f32) (harg3 : arg3.IsWhole) (arg4 : Memref sig .tc .vmem S2000x256 .f32) (harg4 : arg4.IsWhole) (arg5 : Memref sig .tc .vmem S2000x1 .f32) (harg5 : arg5.IsWhole) (arg6 : Memref sig .tc .vmem S512x1 .i32) (harg6 : arg6.IsWhole) (arg7 : Memref sig .tc .vmem S1x512x1 .f32) (harg7 : arg7.IsWhole) (arg8 : Memref sig .tc .vmem S1x512x1 .f32) (harg8 : arg8.IsWhole) (arg9 : Memref sig .tc .vmem S1x512x1 .f32) (harg9 : arg9.IsWhole) (arg10 : Memref sig .tc .vmem S512x256 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (hc0 : cond1_0 i) (hc1 : ¬cond1_1 i)
    (x0 : Vec F S512x1024 .f32) (x1 : Vec F S1024x256 .f32) (x2 : Vec F S2000x256 .f32) (x3 : Vec F S2000x1 .f32) (x4 : Vec F S512x1 .i32) (xi5 xi6 xi7 : Vec F S1x512x1 .f32) (E : Set ℕ) (K : PUnit → sProp 𝕄) :
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
            ∗ owns (c : Thread nD τ) arg7 fullShare xi5 ∗ owns (c : Thread nD τ) arg8 fullShare xi6 ∗ owns (c : Thread nD τ) arg9 fullShare xi7
            ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
                ∗ owns (c : Thread nD τ) arg7 fullShare xi5 ∗ owns (c : Thread nD τ) arg8 fullShare xi6 ∗ owns (c : Thread nD τ) arg9 fullShare xi7
                ∗ owns (c : Thread nD τ) arg10 fullShare (k1_pay7 x0 x1) ∗ owns (c : Thread nD τ) arg11 fullShare (k1_pay3 (k1_pay13 (k1_pay7 x0 x1) x2 x3) (k1_pay8 (F := F))) ∗ owns (c : Thread nD τ) arg12 fullShare (k1_pay2 (k1_pay11 (k1_pay7 x0 x1) x2 x3) (k1_pay13 (k1_pay7 x0 x1) x2 x3) (k1_pay8 (F := F)) (k1_pay9 (F := F)) (k1_pay8 (F := F))) ∗ owns (c : Thread nD τ) arg13 fullShare (k1_pay12 i (k1_pay7 x0 x1) x2 x3 x4 (k1_pay10 (F := F)))) -∗ K ⟨⟩))
          ⊢ wp frame (wpE (defs₀ (F := F)) Variants.none c none) E (cc1__cluster_kernel i arg2 harg2 arg3 harg3 arg4 harg4 arg5 harg5 arg6 harg6 arg7 harg7 arg8 harg8 arg9 harg9 arg10 harg10 arg11 harg11 arg12 harg12 arg13 harg13) K := by
    simp only [cc1__cluster_kernel_eq_skeleton]; unfold cc1__cluster_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%ds0, %fs0, -, HS0⟩, ⟨%ds1, %fs1, -, HS1⟩, ⟨%ds2, %fs2, -, HS2⟩, ⟨%ds3, %fs3, -, HS3⟩, Hk⟩
    obtain rfl := harg2.eq_unread hf0; obtain rfl := harg3.eq_unread hf1; obtain rfl := harg4.eq_unread hf2; obtain rfl := harg5.eq_unread hf3; obtain rfl := harg6.eq_unread hf4
    obtain rfl := harg7.eq_unread hf5; obtain rfl := harg8.eq_unread hf6; obtain rfl := harg9.eq_unread hf7
    sl_exec (disch := first | exact hc0 | exact hc1)
    sl_step
    iapply Hk
    isplitl [H0]; · iexists _; isplitr; · ipureintro; exact harg2.read_unread _
                    iexact H0
    isplitl [H1]; · iexists _; isplitr; · ipureintro; exact harg3.read_unread _
                    iexact H1
    isplitl [H2]; · iexists _; isplitr; · ipureintro; exact harg4.read_unread _
                    iexact H2
    isplitl [H3]; · iexists _; isplitr; · ipureintro; exact harg5.read_unread _
                    iexact H3
    isplitl [H4]; · iexists _; isplitr; · ipureintro; exact harg6.read_unread _
                    iexact H4
    isplitl [H5]; · iexists _; isplitr; · ipureintro; exact harg7.read_unread _
                    iexact H5
    isplitl [H6]; · iexists _; isplitr; · ipureintro; exact harg8.read_unread _
                    iexact H6
    isplitl [H7]; · iexists _; isplitr; · ipureintro; exact harg9.read_unread _
                    iexact H7
    isplitl [HS0]
    · iexists _; isplitr; swap; · iexact HS0
      ipureintro
      rw [View.read_writes_eq_canon _ _ _ (View.cover_of_tiledL _ S512x256.size (by sl_kernel_rfl))]
      (try sl_unfold_words)
      rw [View.canon_cons_unit_zero hz2_1]
      (try simp only [View.readAt_eq_ld, View.readCov_unit_zero (S := S512x1) _ hz2_1, View.readCov_unit_zero (S := S512x256) _ hz2_1, harg2.read_unread, harg3.read_unread, harg4.read_unread, harg5.read_unread, harg6.read_unread, harg10.read_unread, harg11.read_unread, harg12.read_unread, harg13.read_unread, View.ld_unit_zero (S := S512x1) hz2_1, View.ld_unit_zero (S := S512x1024) hz2_1, View.ld_unit_zero (S := S1024x256) hz2_1, View.ld_unit_zero (S := S2000x256) hz2_1, View.ld_unit_zero (S := S2000x1) hz2_1, View.ld_unit_zero (S := S512x256) hz2_1, View.ld_unit_zero (S := S1x512x1) hz3_1])
      (try rfl)
    isplitl [HS1]
    · iexists _; isplitr; swap; · iexact HS1
      ipureintro
      rw [View.read_writes_eq_canon _ _ _ (View.cover_of_tiledL _ S512x1.size (by sl_kernel_rfl))]
      (try sl_unfold_words)
      rw [View.canon_cons_unit_zero hz2_1]
      (try simp only [View.readAt_eq_ld, View.readCov_unit_zero (S := S512x1) _ hz2_1, View.readCov_unit_zero (S := S512x256) _ hz2_1, harg2.read_unread, harg3.read_unread, harg4.read_unread, harg5.read_unread, harg6.read_unread, harg10.read_unread, harg11.read_unread, harg12.read_unread, harg13.read_unread, View.ld_unit_zero (S := S512x1) hz2_1, View.ld_unit_zero (S := S512x1024) hz2_1, View.ld_unit_zero (S := S1024x256) hz2_1, View.ld_unit_zero (S := S2000x256) hz2_1, View.ld_unit_zero (S := S2000x1) hz2_1, View.ld_unit_zero (S := S512x256) hz2_1, View.ld_unit_zero (S := S1x512x1) hz3_1])
      (try rfl)
    isplitl [HS2]
    · iexists _; isplitr; swap; · iexact HS2
      ipureintro
      rw [View.read_writes_eq_canon _ _ _ (View.cover_of_tiledL _ S512x1.size (by sl_kernel_rfl))]
      (try sl_unfold_words)
      rw [View.canon_cons_unit_zero hz2_1]
      (try simp only [View.readAt_eq_ld, View.readCov_unit_zero (S := S512x1) _ hz2_1, View.readCov_unit_zero (S := S512x256) _ hz2_1, harg2.read_unread, harg3.read_unread, harg4.read_unread, harg5.read_unread, harg6.read_unread, harg10.read_unread, harg11.read_unread, harg12.read_unread, harg13.read_unread, View.ld_unit_zero (S := S512x1) hz2_1, View.ld_unit_zero (S := S512x1024) hz2_1, View.ld_unit_zero (S := S1024x256) hz2_1, View.ld_unit_zero (S := S2000x256) hz2_1, View.ld_unit_zero (S := S2000x1) hz2_1, View.ld_unit_zero (S := S512x256) hz2_1, View.ld_unit_zero (S := S1x512x1) hz3_1])
      (try rfl)
    · iexists _; isplitr; swap; · iexact HS3
      ipureintro
      rw [View.read_writes_eq_canon _ _ _ (View.cover_of_tiledL _ S512x1.size (by sl_kernel_rfl))]
      (try sl_unfold_words)
      rw [View.canon_cons_unit_zero hz2_1]
      (try simp only [View.readAt_eq_ld, View.readCov_unit_zero (S := S512x1) _ hz2_1, View.readCov_unit_zero (S := S512x256) _ hz2_1, harg2.read_unread, harg3.read_unread, harg4.read_unread, harg5.read_unread, harg6.read_unread, harg10.read_unread, harg11.read_unread, harg12.read_unread, harg13.read_unread, View.ld_unit_zero (S := S512x1) hz2_1, View.ld_unit_zero (S := S512x1024) hz2_1, View.ld_unit_zero (S := S1024x256) hz2_1, View.ld_unit_zero (S := S2000x256) hz2_1, View.ld_unit_zero (S := S2000x1) hz2_1, View.ld_unit_zero (S := S512x256) hz2_1, View.ld_unit_zero (S := S1x512x1) hz3_1])
      (try rfl)

end Cert.KernelIdeal.Hand

end
-- ==== Proof.Frame1RunB.lean ====
import proofs.«412644_j75642964017948_3_alg».proof.Proof.Frame1Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 8000000 in

theorem run1_B (c : Dev nD) (i : grid1.Coords) (arg2 : Memref sig .tc .vmem S512x1024 .f32) (harg2 : arg2.IsWhole) (arg3 : Memref sig .tc .vmem S1024x256 .f32) (harg3 : arg3.IsWhole) (arg4 : Memref sig .tc .vmem S2000x256 .f32) (harg4 : arg4.IsWhole) (arg5 : Memref sig .tc .vmem S2000x1 .f32) (harg5 : arg5.IsWhole) (arg6 : Memref sig .tc .vmem S512x1 .i32) (harg6 : arg6.IsWhole) (arg7 : Memref sig .tc .vmem S1x512x1 .f32) (harg7 : arg7.IsWhole) (arg8 : Memref sig .tc .vmem S1x512x1 .f32) (harg8 : arg8.IsWhole) (arg9 : Memref sig .tc .vmem S1x512x1 .f32) (harg9 : arg9.IsWhole) (arg10 : Memref sig .tc .vmem S512x256 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (hc0 : ¬cond1_0 i) (hc1 : ¬cond1_1 i)
    (x0 : Vec F S512x1024 .f32) (x1 : Vec F S1024x256 .f32) (x2 : Vec F S2000x256 .f32) (x3 : Vec F S2000x1 .f32) (x4 : Vec F S512x1 .i32) (xi5 xi6 xi7 : Vec F S1x512x1 .f32) (xs0 : Vec F S512x256 .f32) (xs1 xs2 xs3 : Vec F S512x1 .f32) (E : Set ℕ) (K : PUnit → sProp 𝕄) :
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
            ∗ owns (c : Thread nD τ) arg7 fullShare xi5 ∗ owns (c : Thread nD τ) arg8 fullShare xi6 ∗ owns (c : Thread nD τ) arg9 fullShare xi7
            ∗ owns (c : Thread nD τ) arg10 fullShare xs0 ∗ owns (c : Thread nD τ) arg11 fullShare xs1 ∗ owns (c : Thread nD τ) arg12 fullShare xs2 ∗ owns (c : Thread nD τ) arg13 fullShare xs3
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
                ∗ owns (c : Thread nD τ) arg7 fullShare xi5 ∗ owns (c : Thread nD τ) arg8 fullShare xi6 ∗ owns (c : Thread nD τ) arg9 fullShare xi7
                ∗ owns (c : Thread nD τ) arg10 fullShare xs0 ∗ owns (c : Thread nD τ) arg11 fullShare (k1_pay3 (k1_pay13 xs0 x2 x3) xs1) ∗ owns (c : Thread nD τ) arg12 fullShare (k1_pay2 (k1_pay11 xs0 x2 x3) (k1_pay13 xs0 x2 x3) xs1 xs2 xs1) ∗ owns (c : Thread nD τ) arg13 fullShare (k1_pay12 i xs0 x2 x3 x4 xs3)) -∗ K ⟨⟩))
          ⊢ wp frame (wpE (defs₀ (F := F)) Variants.none c none) E (cc1__cluster_kernel i arg2 harg2 arg3 harg3 arg4 harg4 arg5 harg5 arg6 harg6 arg7 harg7 arg8 harg8 arg9 harg9 arg10 harg10 arg11 harg11 arg12 harg12 arg13 harg13) K := by
    simp only [cc1__cluster_kernel_eq_skeleton]; unfold cc1__cluster_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs0, %hfs0, HS0⟩, ⟨%fs1, %hfs1, HS1⟩, ⟨%fs2, %hfs2, HS2⟩, ⟨%fs3, %hfs3, HS3⟩, Hk⟩
    obtain rfl := harg2.eq_unread hf0; obtain rfl := harg3.eq_unread hf1; obtain rfl := harg4.eq_unread hf2; obtain rfl := harg5.eq_unread hf3; obtain rfl := harg6.eq_unread hf4
    obtain rfl := harg7.eq_unread hf5; obtain rfl := harg8.eq_unread hf6; obtain rfl := harg9.eq_unread hf7
    obtain rfl := harg10.eq_unread hfs0; obtain rfl := harg11.eq_unread hfs1; obtain rfl := harg12.eq_unread hfs2; obtain rfl := harg13.eq_unread hfs3
    sl_exec (disch := first | exact hc0 | exact hc1)
    sl_step
    iapply Hk
    isplitl [H0]; · iexists _; isplitr; · ipureintro; exact harg2.read_unread _
                    iexact H0
    isplitl [H1]; · iexists _; isplitr; · ipureintro; exact harg3.read_unread _
                    iexact H1
    isplitl [H2]; · iexists _; isplitr; · ipureintro; exact harg4.read_unread _
                    iexact H2
    isplitl [H3]; · iexists _; isplitr; · ipureintro; exact harg5.read_unread _
                    iexact H3
    isplitl [H4]; · iexists _; isplitr; · ipureintro; exact harg6.read_unread _
                    iexact H4
    isplitl [H5]; · iexists _; isplitr; · ipureintro; exact harg7.read_unread _
                    iexact H5
    isplitl [H6]; · iexists _; isplitr; · ipureintro; exact harg8.read_unread _
                    iexact H6
    isplitl [H7]; · iexists _; isplitr; · ipureintro; exact harg9.read_unread _
                    iexact H7
    isplitl [HS0]; · iexists _; isplitr; · ipureintro; exact harg10.read_unread _
                     iexact HS0
    isplitl [HS1]
    · iexists _; isplitr; swap; · iexact HS1
      ipureintro
      rw [View.read_writes_eq_canon _ _ _ (View.cover_of_tiledL _ S512x1.size (by sl_kernel_rfl))]
      (try sl_unfold_words)
      rw [View.canon_cons_unit_zero hz2_1]
      (try simp only [View.readAt_eq_ld, View.readCov_unit_zero (S := S512x1) _ hz2_1, View.readCov_unit_zero (S := S512x256) _ hz2_1, harg2.read_unread, harg3.read_unread, harg4.read_unread, harg5.read_unread, harg6.read_unread, harg10.read_unread, harg11.read_unread, harg12.read_unread, harg13.read_unread, View.ld_unit_zero (S := S512x1) hz2_1, View.ld_unit_zero (S := S512x1024) hz2_1, View.ld_unit_zero (S := S1024x256) hz2_1, View.ld_unit_zero (S := S2000x256) hz2_1, View.ld_unit_zero (S := S2000x1) hz2_1, View.ld_unit_zero (S := S512x256) hz2_1, View.ld_unit_zero (S := S1x512x1) hz3_1])
      (try rfl)
    isplitl [HS2]
    · iexists _; isplitr; swap; · iexact HS2
      ipureintro
      rw [View.read_writes_eq_canon _ _ _ (View.cover_of_tiledL _ S512x1.size (by sl_kernel_rfl))]
      (try sl_unfold_words)
      rw [View.canon_cons_unit_zero hz2_1]
      (try simp only [View.readAt_eq_ld, View.readCov_unit_zero (S := S512x1) _ hz2_1, View.readCov_unit_zero (S := S512x256) _ hz2_1, harg2.read_unread, harg3.read_unread, harg4.read_unread, harg5.read_unread, harg6.read_unread, harg10.read_unread, harg11.read_unread, harg12.read_unread, harg13.read_unread, View.ld_unit_zero (S := S512x1) hz2_1, View.ld_unit_zero (S := S512x1024) hz2_1, View.ld_unit_zero (S := S1024x256) hz2_1, View.ld_unit_zero (S := S2000x256) hz2_1, View.ld_unit_zero (S := S2000x1) hz2_1, View.ld_unit_zero (S := S512x256) hz2_1, View.ld_unit_zero (S := S1x512x1) hz3_1])
      (try rfl)
    · iexists _; isplitr; swap; · iexact HS3
      ipureintro
      rw [View.read_writes_eq_canon _ _ _ (View.cover_of_tiledL _ S512x1.size (by sl_kernel_rfl))]
      (try sl_unfold_words)
      rw [View.canon_cons_unit_zero hz2_1]
      (try simp only [View.readAt_eq_ld, View.readCov_unit_zero (S := S512x1) _ hz2_1, View.readCov_unit_zero (S := S512x256) _ hz2_1, harg2.read_unread, harg3.read_unread, harg4.read_unread, harg5.read_unread, harg6.read_unread, harg10.read_unread, harg11.read_unread, harg12.read_unread, harg13.read_unread, View.ld_unit_zero (S := S512x1) hz2_1, View.ld_unit_zero (S := S512x1024) hz2_1, View.ld_unit_zero (S := S1024x256) hz2_1, View.ld_unit_zero (S := S2000x256) hz2_1, View.ld_unit_zero (S := S2000x1) hz2_1, View.ld_unit_zero (S := S512x256) hz2_1, View.ld_unit_zero (S := S1x512x1) hz3_1])
      (try rfl)

end Cert.KernelIdeal.Hand

end
-- ==== Proof.Frame1RunC.lean ====
import proofs.«412644_j75642964017948_3_alg».proof.Proof.Frame1Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 8000000 in

theorem run1_C (c : Dev nD) (i : grid1.Coords) (arg2 : Memref sig .tc .vmem S512x1024 .f32) (harg2 : arg2.IsWhole) (arg3 : Memref sig .tc .vmem S1024x256 .f32) (harg3 : arg3.IsWhole) (arg4 : Memref sig .tc .vmem S2000x256 .f32) (harg4 : arg4.IsWhole) (arg5 : Memref sig .tc .vmem S2000x1 .f32) (harg5 : arg5.IsWhole) (arg6 : Memref sig .tc .vmem S512x1 .i32) (harg6 : arg6.IsWhole) (arg7 : Memref sig .tc .vmem S1x512x1 .f32) (harg7 : arg7.IsWhole) (arg8 : Memref sig .tc .vmem S1x512x1 .f32) (harg8 : arg8.IsWhole) (arg9 : Memref sig .tc .vmem S1x512x1 .f32) (harg9 : arg9.IsWhole) (arg10 : Memref sig .tc .vmem S512x256 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (hc0 : ¬cond1_0 i) (hc1 : cond1_1 i)
    (x0 : Vec F S512x1024 .f32) (x1 : Vec F S1024x256 .f32) (x2 : Vec F S2000x256 .f32) (x3 : Vec F S2000x1 .f32) (x4 : Vec F S512x1 .i32) (xs0 : Vec F S512x256 .f32) (xs1 xs2 xs3 : Vec F S512x1 .f32) (E : Set ℕ) (K : PUnit → sProp 𝕄) :
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
            ∗ (∃ d, owns (c : Thread nD τ) arg7 fullShare d) ∗ (∃ d, owns (c : Thread nD τ) arg8 fullShare d) ∗ (∃ d, owns (c : Thread nD τ) arg9 fullShare d)
            ∗ owns (c : Thread nD τ) arg10 fullShare xs0 ∗ owns (c : Thread nD τ) arg11 fullShare xs1 ∗ owns (c : Thread nD τ) arg12 fullShare xs2 ∗ owns (c : Thread nD τ) arg13 fullShare xs3
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
                ∗ owns (c : Thread nD τ) arg7 fullShare (k1_pay4 (k1_pay3 (k1_pay13 xs0 x2 x3) xs1)) ∗ owns (c : Thread nD τ) arg8 fullShare (k1_pay5 (k1_pay2 (k1_pay11 xs0 x2 x3) (k1_pay13 xs0 x2 x3) xs1 xs2 xs1)) ∗ owns (c : Thread nD τ) arg9 fullShare (k1_pay6 (k1_pay12 i xs0 x2 x3 x4 xs3))
                ∗ owns (c : Thread nD τ) arg10 fullShare xs0 ∗ owns (c : Thread nD τ) arg11 fullShare (k1_pay3 (k1_pay13 xs0 x2 x3) xs1) ∗ owns (c : Thread nD τ) arg12 fullShare (k1_pay2 (k1_pay11 xs0 x2 x3) (k1_pay13 xs0 x2 x3) xs1 xs2 xs1) ∗ owns (c : Thread nD τ) arg13 fullShare (k1_pay12 i xs0 x2 x3 x4 xs3)) -∗ K ⟨⟩))
          ⊢ wp frame (wpE (defs₀ (F := F)) Variants.none c none) E (cc1__cluster_kernel i arg2 harg2 arg3 harg3 arg4 harg4 arg5 harg5 arg6 harg6 arg7 harg7 arg8 harg8 arg9 harg9 arg10 harg10 arg11 harg11 arg12 harg12 arg13 harg13) K := by
    simp only [cc1__cluster_kernel_eq_skeleton]; unfold cc1__cluster_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%fs0, %hfs0, HS0⟩, ⟨%fs1, %hfs1, HS1⟩, ⟨%fs2, %hfs2, HS2⟩, ⟨%fs3, %hfs3, HS3⟩, Hk⟩
    obtain rfl := harg2.eq_unread hf0; obtain rfl := harg3.eq_unread hf1; obtain rfl := harg4.eq_unread hf2; obtain rfl := harg5.eq_unread hf3; obtain rfl := harg6.eq_unread hf4
    obtain rfl := harg10.eq_unread hfs0; obtain rfl := harg11.eq_unread hfs1; obtain rfl := harg12.eq_unread hfs2; obtain rfl := harg13.eq_unread hfs3
    sl_exec (disch := first | exact hc0 | exact hc1)
    sl_step
    iapply Hk
    isplitl [H0]; · iexists _; isplitr; · ipureintro; exact harg2.read_unread _
                    iexact H0
    isplitl [H1]; · iexists _; isplitr; · ipureintro; exact harg3.read_unread _
                    iexact H1
    isplitl [H2]; · iexists _; isplitr; · ipureintro; exact harg4.read_unread _
                    iexact H2
    isplitl [H3]; · iexists _; isplitr; · ipureintro; exact harg5.read_unread _
                    iexact H3
    isplitl [H4]; · iexists _; isplitr; · ipureintro; exact harg6.read_unread _
                    iexact H4
    isplitl [H5]
    · iexists _; isplitr; swap; · iexact H5
      ipureintro
      rw [View.read_writes_eq_canon _ _ _ (View.cover_of_tiledL _ S1x512x1.size (by sl_kernel_rfl))]
      (try sl_unfold_words)
      rw [View.canon_cons_unit_zero hz3_1]
      (try simp only [View.readAt_eq_ld, View.readCov_unit_zero (S := S512x1) _ hz2_1, View.readCov_unit_zero (S := S512x256) _ hz2_1, harg2.read_unread, harg3.read_unread, harg4.read_unread, harg5.read_unread, harg6.read_unread, harg10.read_unread, harg11.read_unread, harg12.read_unread, harg13.read_unread, View.ld_unit_zero (S := S512x1) hz2_1, View.ld_unit_zero (S := S512x1024) hz2_1, View.ld_unit_zero (S := S1024x256) hz2_1, View.ld_unit_zero (S := S2000x256) hz2_1, View.ld_unit_zero (S := S2000x1) hz2_1, View.ld_unit_zero (S := S512x256) hz2_1, View.ld_unit_zero (S := S1x512x1) hz3_1])
      (try rfl)
    isplitl [H6]
    · iexists _; isplitr; swap; · iexact H6
      ipureintro
      rw [View.read_writes_eq_canon _ _ _ (View.cover_of_tiledL _ S1x512x1.size (by sl_kernel_rfl))]
      (try sl_unfold_words)
      rw [View.canon_cons_unit_zero hz3_1]
      (try simp only [View.readAt_eq_ld, View.readCov_unit_zero (S := S512x1) _ hz2_1, View.readCov_unit_zero (S := S512x256) _ hz2_1, harg2.read_unread, harg3.read_unread, harg4.read_unread, harg5.read_unread, harg6.read_unread, harg10.read_unread, harg11.read_unread, harg12.read_unread, harg13.read_unread, View.ld_unit_zero (S := S512x1) hz2_1, View.ld_unit_zero (S := S512x1024) hz2_1, View.ld_unit_zero (S := S1024x256) hz2_1, View.ld_unit_zero (S := S2000x256) hz2_1, View.ld_unit_zero (S := S2000x1) hz2_1, View.ld_unit_zero (S := S512x256) hz2_1, View.ld_unit_zero (S := S1x512x1) hz3_1])
      (try rfl)
    isplitl [H7]
    · iexists _; isplitr; swap; · iexact H7
      ipureintro
      rw [View.read_writes_eq_canon _ _ _ (View.cover_of_tiledL _ S1x512x1.size (by sl_kernel_rfl))]
      (try sl_unfold_words)
      rw [View.canon_cons_unit_zero hz3_1]
      (try simp only [View.readAt_eq_ld, View.readCov_unit_zero (S := S512x1) _ hz2_1, View.readCov_unit_zero (S := S512x256) _ hz2_1, harg2.read_unread, harg3.read_unread, harg4.read_unread, harg5.read_unread, harg6.read_unread, harg10.read_unread, harg11.read_unread, harg12.read_unread, harg13.read_unread, View.ld_unit_zero (S := S512x1) hz2_1, View.ld_unit_zero (S := S512x1024) hz2_1, View.ld_unit_zero (S := S1024x256) hz2_1, View.ld_unit_zero (S := S2000x256) hz2_1, View.ld_unit_zero (S := S2000x1) hz2_1, View.ld_unit_zero (S := S512x256) hz2_1, View.ld_unit_zero (S := S1x512x1) hz3_1])
      (try rfl)
    isplitl [HS0]; · iexists _; isplitr; · ipureintro; exact harg10.read_unread _
                     iexact HS0
    isplitl [HS1]
    · iexists _; isplitr; swap; · iexact HS1
      ipureintro
      rw [View.read_writes_eq_canon _ _ _ (View.cover_of_tiledL _ S512x1.size (by sl_kernel_rfl))]
      (try sl_unfold_words)
      rw [View.canon_cons_unit_zero hz2_1]
      (try simp only [View.readAt_eq_ld, View.readCov_unit_zero (S := S512x1) _ hz2_1, View.readCov_unit_zero (S := S512x256) _ hz2_1, harg2.read_unread, harg3.read_unread, harg4.read_unread, harg5.read_unread, harg6.read_unread, harg10.read_unread, harg11.read_unread, harg12.read_unread, harg13.read_unread, View.ld_unit_zero (S := S512x1) hz2_1, View.ld_unit_zero (S := S512x1024) hz2_1, View.ld_unit_zero (S := S1024x256) hz2_1, View.ld_unit_zero (S := S2000x256) hz2_1, View.ld_unit_zero (S := S2000x1) hz2_1, View.ld_unit_zero (S := S512x256) hz2_1, View.ld_unit_zero (S := S1x512x1) hz3_1])
      (try rfl)
    isplitl [HS2]
    · iexists _; isplitr; swap; · iexact HS2
      ipureintro
      rw [View.read_writes_eq_canon _ _ _ (View.cover_of_tiledL _ S512x1.size (by sl_kernel_rfl))]
      (try sl_unfold_words)
      rw [View.canon_cons_unit_zero hz2_1]
      (try simp only [View.readAt_eq_ld, View.readCov_unit_zero (S := S512x1) _ hz2_1, View.readCov_unit_zero (S := S512x256) _ hz2_1, harg2.read_unread, harg3.read_unread, harg4.read_unread, harg5.read_unread, harg6.read_unread, harg10.read_unread, harg11.read_unread, harg12.read_unread, harg13.read_unread, View.ld_unit_zero (S := S512x1) hz2_1, View.ld_unit_zero (S := S512x1024) hz2_1, View.ld_unit_zero (S := S1024x256) hz2_1, View.ld_unit_zero (S := S2000x256) hz2_1, View.ld_unit_zero (S := S2000x1) hz2_1, View.ld_unit_zero (S := S512x256) hz2_1, View.ld_unit_zero (S := S1x512x1) hz3_1])
      (try rfl)
    · iexists _; isplitr; swap; · iexact HS3
      ipureintro
      rw [View.read_writes_eq_canon _ _ _ (View.cover_of_tiledL _ S512x1.size (by sl_kernel_rfl))]
      (try sl_unfold_words)
      rw [View.canon_cons_unit_zero hz2_1]
      (try simp only [View.readAt_eq_ld, View.readCov_unit_zero (S := S512x1) _ hz2_1, View.readCov_unit_zero (S := S512x256) _ hz2_1, harg2.read_unread, harg3.read_unread, harg4.read_unread, harg5.read_unread, harg6.read_unread, harg10.read_unread, harg11.read_unread, harg12.read_unread, harg13.read_unread, View.ld_unit_zero (S := S512x1) hz2_1, View.ld_unit_zero (S := S512x1024) hz2_1, View.ld_unit_zero (S := S1024x256) hz2_1, View.ld_unit_zero (S := S2000x256) hz2_1, View.ld_unit_zero (S := S2000x1) hz2_1, View.ld_unit_zero (S := S512x256) hz2_1, View.ld_unit_zero (S := S1x512x1) hz3_1])
      (try rfl)

end Cert.KernelIdeal.Hand

end
-- ==== Proof.Frame1Dat.lean ====
import proofs.«412644_j75642964017948_3_alg».proof.Proof.Frame1RunA
import proofs.«412644_j75642964017948_3_alg».proof.Proof.Frame1RunB
import proofs.«412644_j75642964017948_3_alg».proof.Proof.Frame1RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

section

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev St1 (F : FTy → Type) : Type := Vec F S512x256 .f32 × Vec F S512x1 .f32 × Vec F S512x1 .f32 × Vec F S512x1 .f32

def reset1 (x0 : Vec F S512x1024 .f32) (x1 : Vec F S1024x256 .f32) : St1 F := ((k1_pay7 x0 x1), (k1_pay8 (F := F)), (k1_pay9 (F := F)), (k1_pay10 (F := F)))

def upd1 (i : grid1.Coords) (x2 : Vec F S2000x256 .f32) (x3 : Vec F S2000x1 .f32) (x4 : Vec F S512x1 .i32) (s : St1 F) : St1 F :=
  (s.1, (k1_pay3 (k1_pay13 s.1 x2 x3) s.2.1), (k1_pay2 (k1_pay11 s.1 x2 x3) (k1_pay13 s.1 x2 x3) s.2.1 s.2.2.1 s.2.1), (k1_pay12 i s.1 x2 x3 x4 s.2.2.2))

def stAt1 (c : Dev nD) : (n : ℕ) → n < cfg1.N → St1 F
  | 0, hn => upd1 (grid1.coords ⟨0, hn⟩) (iblk1 V c 2 ⟨0, hn⟩) (iblk1 V c 3 ⟨0, hn⟩) (iblk1 V c 4 ⟨0, hn⟩) (reset1 (iblk1 V c 0 ⟨0, hn⟩) (iblk1 V c 1 ⟨0, hn⟩))
  | n + 1, hn => upd1 (grid1.coords ⟨n + 1, hn⟩) (iblk1 V c 2 ⟨n + 1, hn⟩) (iblk1 V c 3 ⟨n + 1, hn⟩) (iblk1 V c 4 ⟨n + 1, hn⟩)
      (if (n + 1) % 5 = 0 then reset1 (iblk1 V c 0 ⟨n + 1, hn⟩) (iblk1 V c 1 ⟨n + 1, hn⟩) else stAt1 c n (Nat.lt_of_succ_lt hn))

theorem stAt1_first (c : Dev nD) (t : Fin cfg1.N) (h : t.val % 5 = 0) :
    stAt1 V c t.val t.isLt = upd1 (grid1.coords t) (iblk1 V c 2 t) (iblk1 V c 3 t) (iblk1 V c 4 t) (reset1 (iblk1 V c 0 t) (iblk1 V c 1 t)) := by
  obtain ⟨n, hn⟩ := t
  cases n with
  | zero => rfl
  | succ n => show upd1 _ _ _ _ (if (n + 1) % 5 = 0 then _ else _) = _; rw [if_pos h]

theorem stAt1_next (c : Dev nD) (t : Fin cfg1.N) (h : ¬t.val % 5 = 0) :
    stAt1 V c t.val t.isLt = upd1 (grid1.coords t) (iblk1 V c 2 t) (iblk1 V c 3 t) (iblk1 V c 4 t) (stAt1 V c (t.val - 1) (Nat.lt_of_le_of_lt (Nat.sub_le _ _) t.isLt)) := by
  obtain ⟨n, hn⟩ := t
  cases n with
  | zero => exact absurd (Nat.zero_mod _) h
  | succ n => show upd1 _ _ _ _ (if (n + 1) % 5 = 0 then _ else _) = _; rw [if_neg h]; rfl

def PhiS1 (c : Dev nD) : (n : ℕ) → n ≤ cfg1.N → sProp 𝕄
  | 0, _ => Pipeline.ΦA spec1 c
  | n + 1, hn => iprop(iprop(iprop(owns (c : Thread nD τ) scM1_0 fullShare (stAt1 V c n hn).1 ∗ owns (c : Thread nD τ) scM1_1 fullShare (stAt1 V c n hn).2.1 ∗ owns (c : Thread nD τ) scM1_2 fullShare (stAt1 V c n hn).2.2.1 ∗ owns (c : Thread nD τ) scM1_3 fullShare (stAt1 V c n hn).2.2.2) ∗ Pipeline.scopedRestBut (Ix := Unit) (Name := ℕ) (U := UR sig nD τ) (Lvl := ℕ) (Val := Elt F) spec1 c [cc1_scratch0, cc1_scratch1, cc1_scratch2, cc1_scratch3]) ∗ (∃ r, prngReg c r))

theorem PhiS1_succ (c : Dev nD) (n : ℕ) (hn : n < cfg1.N) :
    PhiS1 V c (n + 1) hn = iprop(iprop(iprop(owns (c : Thread nD τ) scM1_0 fullShare (stAt1 V c n hn).1 ∗ owns (c : Thread nD τ) scM1_1 fullShare (stAt1 V c n hn).2.1 ∗ owns (c : Thread nD τ) scM1_2 fullShare (stAt1 V c n hn).2.2.1 ∗ owns (c : Thread nD τ) scM1_3 fullShare (stAt1 V c n hn).2.2.2) ∗ Pipeline.scopedRestBut (Ix := Unit) (Name := ℕ) (U := UR sig nD τ) (Lvl := ℕ) (Val := Elt F) spec1 c [cc1_scratch0, cc1_scratch1, cc1_scratch2, cc1_scratch3]) ∗ (∃ r, prngReg c r)) := rfl

theorem PhiS1_pos (c : Dev nD) (n : ℕ) (h : n ≤ cfg1.N) (hz : n ≠ 0) :
    PhiS1 V c n h = iprop(iprop(iprop(owns (c : Thread nD τ) scM1_0 fullShare (stAt1 V c (n - 1) (by omega)).1 ∗ owns (c : Thread nD τ) scM1_1 fullShare (stAt1 V c (n - 1) (by omega)).2.1 ∗ owns (c : Thread nD τ) scM1_2 fullShare (stAt1 V c (n - 1) (by omega)).2.2.1 ∗ owns (c : Thread nD τ) scM1_3 fullShare (stAt1 V c (n - 1) (by omega)).2.2.2) ∗ Pipeline.scopedRestBut (Ix := Unit) (Name := ℕ) (U := UR sig nD τ) (Lvl := ℕ) (Val := Elt F) spec1 c [cc1_scratch0, cc1_scratch1, cc1_scratch2, cc1_scratch3]) ∗ (∃ r, prngReg c r)) := by
  cases n with
  | zero => exact absurd rfl hz
  | succ n => rfl

theorem PhiS1_any (c : Dev nD) (n : ℕ) (h : n ≤ cfg1.N) :
    PhiS1 V c n h ⊢ iprop(iprop(iprop((∃ d, owns (c : Thread nD τ) scM1_0 fullShare d) ∗ (∃ d, owns (c : Thread nD τ) scM1_1 fullShare d) ∗ (∃ d, owns (c : Thread nD τ) scM1_2 fullShare d) ∗ (∃ d, owns (c : Thread nD τ) scM1_3 fullShare d)) ∗ Pipeline.scopedRestBut (Ix := Unit) (Name := ℕ) (U := UR sig nD τ) (Lvl := ℕ) (Val := Elt F) spec1 c [cc1_scratch0, cc1_scratch1, cc1_scratch2, cc1_scratch3]) ∗ (∃ r, prngReg c r)) := by
  cases n with
  | zero => rw [show PhiS1 V c 0 h = Pipeline.ΦA spec1 c from rfl, PhiA1_eq]
  | succ n =>
    rw [PhiS1_succ]
    iintro ⟨⟨⟨HS0, HS1, HS2, HS3⟩, Hrest⟩, Hg⟩
    isplitl [HS0 HS1 HS2 HS3 Hrest]
    · isplitl [HS0 HS1 HS2 HS3]
      · isplitl [HS0]; · iexists _; iexact HS0
        isplitl [HS1]; · iexists _; iexact HS1
        isplitl [HS2]; · iexists _; iexact HS2
        iexists _; iexact HS3
      iexact Hrest
    iexact Hg

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => (k1_pay4 (stAt1 V c t.val t.isLt).2.1)
    | ⟨6, _⟩ => (k1_pay5 (stAt1 V c t.val t.isLt).2.2.1)
    | ⟨7, _⟩ => (k1_pay6 (stAt1 V c t.val t.isLt).2.2.2)
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = (k1_pay4 (stAt1 V c t.val t.isLt).2.1) := by dsimp only [dat1]
theorem after1_6 (c : Dev nD) (t : Fin cfg1.N) : (dat1 V c).after 6 t = (k1_pay5 (stAt1 V c t.val t.isLt).2.2.1) := by dsimp only [dat1]
theorem after1_7 (c : Dev nD) (t : Fin cfg1.N) : (dat1 V c).after 7 t = (k1_pay6 (stAt1 V c t.val t.isLt).2.2.2) := by dsimp only [dat1]

theorem before1_0 (c : Dev nD) (t : Fin cfg1.N) (d) : (dat1 V c).before 0 t d = iblk1 V c 0 t :=
  ((dat1 V c).before_in_eq_fetched 0 rfl (fun _ => rfl) (fun _ _ _ => rfl) (fun _ => rfl) t d).trans rfl
theorem before1_1 (c : Dev nD) (t : Fin cfg1.N) (d) : (dat1 V c).before 1 t d = iblk1 V c 1 t :=
  ((dat1 V c).before_in_eq_fetched 1 rfl (fun _ => rfl) (fun _ _ _ => rfl) (fun _ => rfl) t d).trans rfl
theorem before1_2 (c : Dev nD) (t : Fin cfg1.N) (d) : (dat1 V c).before 2 t d = iblk1 V c 2 t :=
  ((dat1 V c).before_in_eq_fetched 2 rfl (fun _ => rfl) (fun _ _ _ => rfl) (fun _ => rfl) t d).trans rfl
theorem before1_3 (c : Dev nD) (t : Fin cfg1.N) (d) : (dat1 V c).before 3 t d = iblk1 V c 3 t :=
  ((dat1 V c).before_in_eq_fetched 3 rfl (fun _ => rfl) (fun _ _ _ => rfl) (fun _ => rfl) t d).trans rfl
theorem before1_4 (c : Dev nD) (t : Fin cfg1.N) (d) : (dat1 V c).before 4 t d = iblk1 V c 4 t :=
  ((dat1 V c).before_in_eq_fetched 4 rfl (fun _ => rfl) (fun _ _ _ => rfl) (fun _ => rfl) t d).trans rfl

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d)))

def bodyPost1 (c : Dev nD) (t : Fin cfg1.N) : sProp 𝕄 :=
  iprop((dat1 V c).Φ t.succ ∗ (dat1 V c).owesAt () t.succ
    ∗ (dat1 V c).leavesExact 0 t ∗ (dat1 V c).leavesExact 1 t ∗ (dat1 V c).leavesExact 2 t ∗ (dat1 V c).leavesExact 3 t ∗ (dat1 V c).leavesExact 4 t ∗ (dat1 V c).leavesExact 5 t ∗ (dat1 V c).leavesExact 6 t ∗ (dat1 V c).leavesExact 7 t)

set_option maxHeartbeats 8000000 in

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl]
  rw [show (dat1 V c).Φ t.succ = PhiS1 V c (t.val + 1) t.isLt from rfl, PhiS1_succ]
  have hN : t.val < 10 := lt_of_lt_of_eq t.isLt (show cfg1.N = 10 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  rw [show (dat1 V c).leavesExact 4 t = owns (c : Thread nD τ) (ms1_4 t) fullShare ((dat1 V c).after 4 t) from by
    unfold Dat.leavesExact; rw [liveAt1_4 t], after1_4]
  simp only [after1_0, after1_1, after1_2, after1_3, after1_4]
  by_cases h0 : t.val % 5 = 0
  · have hc0 : cond1_0 (grid1.coords t) := (hcond1_0 t).mpr h0
    have hc1 : ¬cond1_1 (grid1.coords t) := fun h => by have := (hcond1_1 t).mp h; omega
    rw [Dat.leavesExact_idle (dat1 V c) 5 t (idleAt1_5 t hc1) (noFlush1_5 t hc1), Dat.leavesExact_idle (dat1 V c) 6 t (idleAt1_6 t hc1) (noFlush1_6 t hc1), Dat.leavesExact_idle (dat1 V c) 7 t (idleAt1_7 t hc1) (noFlush1_7 t hc1)]
    rw [stAt1_first V c t h0]; dsimp only [upd1, reset1]
    rw [PhiS1_castSucc V c t]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    ihave HΦ' := (PhiS1_any V c t.val (Nat.le_of_lt t.isLt)) $$ HΦ
    icases HΦ' with ⟨⟨⟨HS0, HS1, HS2, HS3⟩, Hrest⟩, Hg⟩
    iapply (run1_A c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) scM1_2 (Memref.isWhole_whole _) scM1_3 (Memref.isWhole_whole _) hc0 hc1 (iblk1 V c 0 t) (iblk1 V c 1 t) (iblk1 V c 2 t) (iblk1 V c 3 t) (iblk1 V c 4 t) ((dat1 V c).before 5 t d5) ((dat1 V c).before 6 t d6) ((dat1 V c).before 7 t d7) Set.univ _)
    iframe
    iintro ⟨H0, H1, H2, H3, H4, H5, H6, H7, HS0, HS1, HS2, HS3⟩
    iframe
    isplitl [H5]; · iexists _; iexact H5
    isplitl [H6]; · iexists _; iexact H6
    iexists _; iexact H7
  · have hc0 : ¬cond1_0 (grid1.coords t) := fun h => h0 ((hcond1_0 t).mp h)
    have hz : t.val ≠ 0 := fun h => h0 (by rw [h])
    rw [stAt1_next V c t h0]; dsimp only [upd1]
    rw [PhiS1_castSucc V c t, PhiS1_pos V c _ _ hz]
    by_cases h1 : t.val % 5 = 4
    · have hc1 : cond1_1 (grid1.coords t) := (hcond1_1 t).mpr h1
      rw [show (dat1 V c).leavesExact 5 t = owns (c : Thread nD τ) (ms1_5 t) fullShare ((dat1 V c).after 5 t) from by
        unfold Dat.leavesExact; rw [liveAt1_5 t hc1], after1_5]
      rw [show (dat1 V c).leavesExact 6 t = owns (c : Thread nD τ) (ms1_6 t) fullShare ((dat1 V c).after 6 t) from by
        unfold Dat.leavesExact; rw [liveAt1_6 t hc1], after1_6]
      rw [show (dat1 V c).leavesExact 7 t = owns (c : Thread nD τ) (ms1_7 t) fullShare ((dat1 V c).after 7 t) from by
        unfold Dat.leavesExact; rw [liveAt1_7 t hc1], after1_7]
      rw [stAt1_next V c t h0]; dsimp only [upd1]
      iintro ⟨⟨⟨⟨HS0, HS1, HS2, HS3⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (run1_C c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) scM1_2 (Memref.isWhole_whole _) scM1_3 (Memref.isWhole_whole _) hc0 hc1 (iblk1 V c 0 t) (iblk1 V c 1 t) (iblk1 V c 2 t) (iblk1 V c 3 t) (iblk1 V c 4 t) _ _ _ _ Set.univ _)
      iframe
      isplitl [H5]; · iexists _; iexact H5
      isplitl [H6]; · iexists _; iexact H6
      isplitl [H7]; · iexists _; iexact H7
      iintro ⟨H0, H1, H2, H3, H4, H5, H6, H7, HS0, HS1, HS2, HS3⟩
      iframe
    · have hc1 : ¬cond1_1 (grid1.coords t) := fun h => h1 ((hcond1_1 t).mp h)
      rw [Dat.leavesExact_idle (dat1 V c) 5 t (idleAt1_5 t hc1) (noFlush1_5 t hc1), Dat.leavesExact_idle (dat1 V c) 6 t (idleAt1_6 t hc1) (noFlush1_6 t hc1), Dat.leavesExact_idle (dat1 V c) 7 t (idleAt1_7 t hc1) (noFlush1_7 t hc1)]
      iintro ⟨⟨⟨⟨HS0, HS1, HS2, HS3⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (run1_B c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) scM1_2 (Memref.isWhole_whole _) scM1_3 (Memref.isWhole_whole _) hc0 hc1 (iblk1 V c 0 t) (iblk1 V c 1 t) (iblk1 V c 2 t) (iblk1 V c 3 t) (iblk1 V c 4 t) ((dat1 V c).before 5 t d5) ((dat1 V c).before 6 t d6) ((dat1 V c).before 7 t d7) _ _ _ _ Set.univ _)
      iframe
      iintro ⟨H0, H1, H2, H3, H4, H5, H6, H7, HS0, HS1, HS2, HS3⟩
      iframe
      isplitl [H5]; · iexists _; iexact H5
      isplitl [H6]; · iexists _; iexact H6
      iexists _; iexact H7

theorem body_obligation1 (c : Dev nD) : BodyObligation (dat1 (F := F) V c) (defs₀ (F := F)) Variants.none () Set.univ := fun t => by
  rw [bigSep_W1, bigSep_W1]
  exact sound_body1 V c t

theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl, PhiA1_eq]
  exact PhiS1_any V c _ _

end

end Cert.KernelIdeal.Hand

end
-- ==== Proof.Frame2Base.lean ====
import proofs.«412644_j75642964017948_3_alg».proof.Proof.Gen.KernelIdeal.Launch
import proofs.«412644_j75642964017948_3_alg».proof.Proof.Gen.KernelIdeal.Skeleton
import proofs.«412644_j75642964017948_3_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

abbrev cond2_0 (i : grid2.Coords) : Prop := (Scalar.cmpi .ne (Scalar.extui (Scalar.cmpi .eq (BitVec.ofNat 32 (i 1).val) 0#32)) 0#32) = 1#1

abbrev cond2_1 (i : grid2.Coords) : Prop := k2_cond2 i = 1#1

theorem hcond2_0 : ∀ t : Fin cfg2.N, cond2_0 (grid2.coords t) ↔ t.val % 25 = 0 :=
  (by decide +kernel : ∀ t : Fin grid2.N, cond2_0 (grid2.coords t) ↔ t.val % 25 = 0)
theorem hcond2_1 : ∀ t : Fin cfg2.N, cond2_1 (grid2.coords t) ↔ t.val % 25 = 24 :=
  (by decide +kernel : ∀ t : Fin grid2.N, cond2_1 (grid2.coords t) ↔ t.val % 25 = 24)

theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
theorem liveAt2_3 : ∀ t : Fin cfg2.N, cfg2.idle 3 (grid2.coords t) = false := by decide +kernel
theorem liveAt2_4 : ∀ t : Fin cfg2.N, cfg2.idle 4 (grid2.coords t) = false := by decide +kernel
theorem idleAt2_5 : ∀ t : Fin cfg2.N, ¬cond2_1 (grid2.coords t) → cfg2.idle 5 (grid2.coords t) = true := by decide +kernel
theorem idleAt2_6 : ∀ t : Fin cfg2.N, ¬cond2_1 (grid2.coords t) → cfg2.idle 6 (grid2.coords t) = true := by decide +kernel
theorem idleAt2_7 : ∀ t : Fin cfg2.N, ¬cond2_1 (grid2.coords t) → cfg2.idle 7 (grid2.coords t) = true := by decide +kernel
theorem noFlush2_5 : ∀ t : Fin cfg2.N, ¬cond2_1 (grid2.coords t) → (cfg2.win 5).flush t = false := by decide +kernel
theorem noFlush2_6 : ∀ t : Fin cfg2.N, ¬cond2_1 (grid2.coords t) → (cfg2.win 6).flush t = false := by decide +kernel
theorem noFlush2_7 : ∀ t : Fin cfg2.N, ¬cond2_1 (grid2.coords t) → (cfg2.win 7).flush t = false := by decide +kernel
theorem liveAt2_5 : ∀ t : Fin cfg2.N, cond2_1 (grid2.coords t) → cfg2.idle 5 (grid2.coords t) = false := by decide +kernel
theorem liveAt2_6 : ∀ t : Fin cfg2.N, cond2_1 (grid2.coords t) → cfg2.idle 6 (grid2.coords t) = false := by decide +kernel
theorem liveAt2_7 : ∀ t : Fin cfg2.N, cond2_1 (grid2.coords t) → cfg2.idle 7 (grid2.coords t) = false := by decide +kernel

theorem hz2_2 : (![0, 0] : Fin 2 → Nat) = fun _ => 0 := by funext a; fin_cases a <;> rfl
theorem hz3_2 : (![0, 0, 0] : Fin 3 → Nat) = fun _ => 0 := by funext a; fin_cases a <;> rfl

abbrev ms2_0 (t : Fin cfg2.N) := win2_0.stage (cfg2.slots t 0)
abbrev hs2_0 (t : Fin cfg2.N) : (ms2_0 t).IsWhole := hstage2_0 ((cfg2.slots t 0).cast nbuf2_0)
abbrev ms2_1 (t : Fin cfg2.N) := win2_1.stage (cfg2.slots t 1)
abbrev hs2_1 (t : Fin cfg2.N) : (ms2_1 t).IsWhole := hstage2_1 ((cfg2.slots t 1).cast nbuf2_1)
abbrev ms2_2 (t : Fin cfg2.N) := win2_2.stage (cfg2.slots t 2)
abbrev hs2_2 (t : Fin cfg2.N) : (ms2_2 t).IsWhole := hstage2_2 ((cfg2.slots t 2).cast nbuf2_2)
abbrev ms2_3 (t : Fin cfg2.N) := win2_3.stage (cfg2.slots t 3)
abbrev hs2_3 (t : Fin cfg2.N) : (ms2_3 t).IsWhole := hstage2_3 ((cfg2.slots t 3).cast nbuf2_3)
abbrev ms2_4 (t : Fin cfg2.N) := win2_4.stage (cfg2.slots t 4)
abbrev hs2_4 (t : Fin cfg2.N) : (ms2_4 t).IsWhole := hstage2_4 ((cfg2.slots t 4).cast nbuf2_4)
abbrev ms2_5 (t : Fin cfg2.N) := win2_5.stage (cfg2.slots t 5)
abbrev hs2_5 (t : Fin cfg2.N) : (ms2_5 t).IsWhole := hstage2_5 ((cfg2.slots t 5).cast nbuf2_5)
abbrev ms2_6 (t : Fin cfg2.N) := win2_6.stage (cfg2.slots t 6)
abbrev hs2_6 (t : Fin cfg2.N) : (ms2_6 t).IsWhole := hstage2_6 ((cfg2.slots t 6).cast nbuf2_6)
abbrev ms2_7 (t : Fin cfg2.N) := win2_7.stage (cfg2.slots t 7)
abbrev hs2_7 (t : Fin cfg2.N) : (ms2_7 t).IsWhole := hstage2_7 ((cfg2.slots t 7).cast nbuf2_7)

abbrev scM2_0 : Memref sig .tc .vmem S512x64 .f32 := Memref.whole cc2_scratch0
abbrev scM2_1 : Memref sig .tc .vmem S512x1 .f32 := Memref.whole cc2_scratch1
abbrev scM2_2 : Memref sig .tc .vmem S512x1 .f32 := Memref.whole cc2_scratch2
abbrev scM2_3 : Memref sig .tc .vmem S512x1 .f32 := Memref.whole cc2_scratch3

theorem PhiA2_eq (c : Dev nD) :
    (Pipeline.ΦA spec2 c : sProp 𝕄)
      = iprop(iprop(iprop((∃ d, owns (c : Thread nD τ) scM2_0 fullShare d) ∗ (∃ d, owns (c : Thread nD τ) scM2_1 fullShare d) ∗ (∃ d, owns (c : Thread nD τ) scM2_2 fullShare d) ∗ (∃ d, owns (c : Thread nD τ) scM2_3 fullShare d))
          ∗ Pipeline.scopedRestBut (Ix := Unit) (Name := ℕ) (U := UR sig nD τ) (Lvl := ℕ) (Val := Elt F) spec2 c [cc2_scratch0, cc2_scratch1, cc2_scratch2, cc2_scratch3]) ∗ (∃ r, prngReg c r)) := by
  unfold Pipeline.ΦA; rw [scopedRest2_split]; simp only [scM2_0, scM2_1, scM2_2, scM2_3, owns_whole]; try rfl

end Cert.KernelIdeal.Hand

end
-- ==== Proof.Frame2RunA.lean ====
import proofs.«412644_j75642964017948_3_alg».proof.Proof.Frame2Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 8000000 in

theorem run2_A (c : Dev nD) (i : grid2.Coords) (arg2 : Memref sig .tc .vmem S512x1024 .f32) (harg2 : arg2.IsWhole) (arg3 : Memref sig .tc .vmem S1024x64 .f32) (harg3 : arg3.IsWhole) (arg4 : Memref sig .tc .vmem S3200x64 .f32) (harg4 : arg4.IsWhole) (arg5 : Memref sig .tc .vmem S3200x1 .f32) (harg5 : arg5.IsWhole) (arg6 : Memref sig .tc .vmem S512x1 .i32) (harg6 : arg6.IsWhole) (arg7 : Memref sig .tc .vmem S1x512x1 .f32) (harg7 : arg7.IsWhole) (arg8 : Memref sig .tc .vmem S1x512x1 .f32) (harg8 : arg8.IsWhole) (arg9 : Memref sig .tc .vmem S1x512x1 .f32) (harg9 : arg9.IsWhole) (arg10 : Memref sig .tc .vmem S512x64 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (hc0 : cond2_0 i) (hc1 : ¬cond2_1 i)
    (x0 : Vec F S512x1024 .f32) (x1 : Vec F S1024x64 .f32) (x2 : Vec F S3200x64 .f32) (x3 : Vec F S3200x1 .f32) (x4 : Vec F S512x1 .i32) (xi5 xi6 xi7 : Vec F S1x512x1 .f32) (E : Set ℕ) (K : PUnit → sProp 𝕄) :
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
            ∗ owns (c : Thread nD τ) arg7 fullShare xi5 ∗ owns (c : Thread nD τ) arg8 fullShare xi6 ∗ owns (c : Thread nD τ) arg9 fullShare xi7
            ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
                ∗ owns (c : Thread nD τ) arg7 fullShare xi5 ∗ owns (c : Thread nD τ) arg8 fullShare xi6 ∗ owns (c : Thread nD τ) arg9 fullShare xi7
                ∗ owns (c : Thread nD τ) arg10 fullShare (k2_pay7 x0 x1) ∗ owns (c : Thread nD τ) arg11 fullShare (k2_pay3 (k2_pay13 (k2_pay7 x0 x1) x2 x3) (k2_pay8 (F := F))) ∗ owns (c : Thread nD τ) arg12 fullShare (k2_pay2 (k2_pay11 (k2_pay7 x0 x1) x2 x3) (k2_pay13 (k2_pay7 x0 x1) x2 x3) (k2_pay8 (F := F)) (k2_pay9 (F := F)) (k2_pay8 (F := F))) ∗ owns (c : Thread nD τ) arg13 fullShare (k2_pay12 i (k2_pay7 x0 x1) x2 x3 x4 (k2_pay10 (F := F)))) -∗ K ⟨⟩))
          ⊢ wp frame (wpE (defs₀ (F := F)) Variants.none c none) E (cc2__cluster_kernel i arg2 harg2 arg3 harg3 arg4 harg4 arg5 harg5 arg6 harg6 arg7 harg7 arg8 harg8 arg9 harg9 arg10 harg10 arg11 harg11 arg12 harg12 arg13 harg13) K := by
    simp only [cc2__cluster_kernel_eq_skeleton]; unfold cc2__cluster_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%ds0, %fs0, -, HS0⟩, ⟨%ds1, %fs1, -, HS1⟩, ⟨%ds2, %fs2, -, HS2⟩, ⟨%ds3, %fs3, -, HS3⟩, Hk⟩
    obtain rfl := harg2.eq_unread hf0; obtain rfl := harg3.eq_unread hf1; obtain rfl := harg4.eq_unread hf2; obtain rfl := harg5.eq_unread hf3; obtain rfl := harg6.eq_unread hf4
    obtain rfl := harg7.eq_unread hf5; obtain rfl := harg8.eq_unread hf6; obtain rfl := harg9.eq_unread hf7
    sl_exec (disch := first | exact hc0 | exact hc1)
    sl_step
    iapply Hk
    isplitl [H0]; · iexists _; isplitr; · ipureintro; exact harg2.read_unread _
                    iexact H0
    isplitl [H1]; · iexists _; isplitr; · ipureintro; exact harg3.read_unread _
                    iexact H1
    isplitl [H2]; · iexists _; isplitr; · ipureintro; exact harg4.read_unread _
                    iexact H2
    isplitl [H3]; · iexists _; isplitr; · ipureintro; exact harg5.read_unread _
                    iexact H3
    isplitl [H4]; · iexists _; isplitr; · ipureintro; exact harg6.read_unread _
                    iexact H4
    isplitl [H5]; · iexists _; isplitr; · ipureintro; exact harg7.read_unread _
                    iexact H5
    isplitl [H6]; · iexists _; isplitr; · ipureintro; exact harg8.read_unread _
                    iexact H6
    isplitl [H7]; · iexists _; isplitr; · ipureintro; exact harg9.read_unread _
                    iexact H7
    isplitl [HS0]
    · iexists _; isplitr; swap; · iexact HS0
      ipureintro
      rw [View.read_writes_eq_canon _ _ _ (View.cover_of_tiledL _ S512x64.size (by sl_kernel_rfl))]
      (try sl_unfold_words)
      rw [View.canon_cons_unit_zero hz2_2]
      (try simp only [View.readAt_eq_ld, View.readCov_unit_zero (S := S512x1) _ hz2_2, View.readCov_unit_zero (S := S512x64) _ hz2_2, harg2.read_unread, harg3.read_unread, harg4.read_unread, harg5.read_unread, harg6.read_unread, harg10.read_unread, harg11.read_unread, harg12.read_unread, harg13.read_unread, View.ld_unit_zero (S := S512x1) hz2_2, View.ld_unit_zero (S := S512x1024) hz2_2, View.ld_unit_zero (S := S1024x64) hz2_2, View.ld_unit_zero (S := S3200x64) hz2_2, View.ld_unit_zero (S := S3200x1) hz2_2, View.ld_unit_zero (S := S512x64) hz2_2, View.ld_unit_zero (S := S1x512x1) hz3_2])
      (try rfl)
    isplitl [HS1]
    · iexists _; isplitr; swap; · iexact HS1
      ipureintro
      rw [View.read_writes_eq_canon _ _ _ (View.cover_of_tiledL _ S512x1.size (by sl_kernel_rfl))]
      (try sl_unfold_words)
      rw [View.canon_cons_unit_zero hz2_2]
      (try simp only [View.readAt_eq_ld, View.readCov_unit_zero (S := S512x1) _ hz2_2, View.readCov_unit_zero (S := S512x64) _ hz2_2, harg2.read_unread, harg3.read_unread, harg4.read_unread, harg5.read_unread, harg6.read_unread, harg10.read_unread, harg11.read_unread, harg12.read_unread, harg13.read_unread, View.ld_unit_zero (S := S512x1) hz2_2, View.ld_unit_zero (S := S512x1024) hz2_2, View.ld_unit_zero (S := S1024x64) hz2_2, View.ld_unit_zero (S := S3200x64) hz2_2, View.ld_unit_zero (S := S3200x1) hz2_2, View.ld_unit_zero (S := S512x64) hz2_2, View.ld_unit_zero (S := S1x512x1) hz3_2])
      (try rfl)
    isplitl [HS2]
    · iexists _; isplitr; swap; · iexact HS2
      ipureintro
      rw [View.read_writes_eq_canon _ _ _ (View.cover_of_tiledL _ S512x1.size (by sl_kernel_rfl))]
      (try sl_unfold_words)
      rw [View.canon_cons_unit_zero hz2_2]
      (try simp only [View.readAt_eq_ld, View.readCov_unit_zero (S := S512x1) _ hz2_2, View.readCov_unit_zero (S := S512x64) _ hz2_2, harg2.read_unread, harg3.read_unread, harg4.read_unread, harg5.read_unread, harg6.read_unread, harg10.read_unread, harg11.read_unread, harg12.read_unread, harg13.read_unread, View.ld_unit_zero (S := S512x1) hz2_2, View.ld_unit_zero (S := S512x1024) hz2_2, View.ld_unit_zero (S := S1024x64) hz2_2, View.ld_unit_zero (S := S3200x64) hz2_2, View.ld_unit_zero (S := S3200x1) hz2_2, View.ld_unit_zero (S := S512x64) hz2_2, View.ld_unit_zero (S := S1x512x1) hz3_2])
      (try rfl)
    · iexists _; isplitr; swap; · iexact HS3
      ipureintro
      rw [View.read_writes_eq_canon _ _ _ (View.cover_of_tiledL _ S512x1.size (by sl_kernel_rfl))]
      (try sl_unfold_words)
      rw [View.canon_cons_unit_zero hz2_2]
      (try simp only [View.readAt_eq_ld, View.readCov_unit_zero (S := S512x1) _ hz2_2, View.readCov_unit_zero (S := S512x64) _ hz2_2, harg2.read_unread, harg3.read_unread, harg4.read_unread, harg5.read_unread, harg6.read_unread, harg10.read_unread, harg11.read_unread, harg12.read_unread, harg13.read_unread, View.ld_unit_zero (S := S512x1) hz2_2, View.ld_unit_zero (S := S512x1024) hz2_2, View.ld_unit_zero (S := S1024x64) hz2_2, View.ld_unit_zero (S := S3200x64) hz2_2, View.ld_unit_zero (S := S3200x1) hz2_2, View.ld_unit_zero (S := S512x64) hz2_2, View.ld_unit_zero (S := S1x512x1) hz3_2])
      (try rfl)

end Cert.KernelIdeal.Hand

end
-- ==== Proof.Frame2RunB.lean ====
import proofs.«412644_j75642964017948_3_alg».proof.Proof.Frame2Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 8000000 in

theorem run2_B (c : Dev nD) (i : grid2.Coords) (arg2 : Memref sig .tc .vmem S512x1024 .f32) (harg2 : arg2.IsWhole) (arg3 : Memref sig .tc .vmem S1024x64 .f32) (harg3 : arg3.IsWhole) (arg4 : Memref sig .tc .vmem S3200x64 .f32) (harg4 : arg4.IsWhole) (arg5 : Memref sig .tc .vmem S3200x1 .f32) (harg5 : arg5.IsWhole) (arg6 : Memref sig .tc .vmem S512x1 .i32) (harg6 : arg6.IsWhole) (arg7 : Memref sig .tc .vmem S1x512x1 .f32) (harg7 : arg7.IsWhole) (arg8 : Memref sig .tc .vmem S1x512x1 .f32) (harg8 : arg8.IsWhole) (arg9 : Memref sig .tc .vmem S1x512x1 .f32) (harg9 : arg9.IsWhole) (arg10 : Memref sig .tc .vmem S512x64 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (hc0 : ¬cond2_0 i) (hc1 : ¬cond2_1 i)
    (x0 : Vec F S512x1024 .f32) (x1 : Vec F S1024x64 .f32) (x2 : Vec F S3200x64 .f32) (x3 : Vec F S3200x1 .f32) (x4 : Vec F S512x1 .i32) (xi5 xi6 xi7 : Vec F S1x512x1 .f32) (xs0 : Vec F S512x64 .f32) (xs1 xs2 xs3 : Vec F S512x1 .f32) (E : Set ℕ) (K : PUnit → sProp 𝕄) :
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
            ∗ owns (c : Thread nD τ) arg7 fullShare xi5 ∗ owns (c : Thread nD τ) arg8 fullShare xi6 ∗ owns (c : Thread nD τ) arg9 fullShare xi7
            ∗ owns (c : Thread nD τ) arg10 fullShare xs0 ∗ owns (c : Thread nD τ) arg11 fullShare xs1 ∗ owns (c : Thread nD τ) arg12 fullShare xs2 ∗ owns (c : Thread nD τ) arg13 fullShare xs3
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
                ∗ owns (c : Thread nD τ) arg7 fullShare xi5 ∗ owns (c : Thread nD τ) arg8 fullShare xi6 ∗ owns (c : Thread nD τ) arg9 fullShare xi7
                ∗ owns (c : Thread nD τ) arg10 fullShare xs0 ∗ owns (c : Thread nD τ) arg11 fullShare (k2_pay3 (k2_pay13 xs0 x2 x3) xs1) ∗ owns (c : Thread nD τ) arg12 fullShare (k2_pay2 (k2_pay11 xs0 x2 x3) (k2_pay13 xs0 x2 x3) xs1 xs2 xs1) ∗ owns (c : Thread nD τ) arg13 fullShare (k2_pay12 i xs0 x2 x3 x4 xs3)) -∗ K ⟨⟩))
          ⊢ wp frame (wpE (defs₀ (F := F)) Variants.none c none) E (cc2__cluster_kernel i arg2 harg2 arg3 harg3 arg4 harg4 arg5 harg5 arg6 harg6 arg7 harg7 arg8 harg8 arg9 harg9 arg10 harg10 arg11 harg11 arg12 harg12 arg13 harg13) K := by
    simp only [cc2__cluster_kernel_eq_skeleton]; unfold cc2__cluster_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs0, %hfs0, HS0⟩, ⟨%fs1, %hfs1, HS1⟩, ⟨%fs2, %hfs2, HS2⟩, ⟨%fs3, %hfs3, HS3⟩, Hk⟩
    obtain rfl := harg2.eq_unread hf0; obtain rfl := harg3.eq_unread hf1; obtain rfl := harg4.eq_unread hf2; obtain rfl := harg5.eq_unread hf3; obtain rfl := harg6.eq_unread hf4
    obtain rfl := harg7.eq_unread hf5; obtain rfl := harg8.eq_unread hf6; obtain rfl := harg9.eq_unread hf7
    obtain rfl := harg10.eq_unread hfs0; obtain rfl := harg11.eq_unread hfs1; obtain rfl := harg12.eq_unread hfs2; obtain rfl := harg13.eq_unread hfs3
    sl_exec (disch := first | exact hc0 | exact hc1)
    sl_step
    iapply Hk
    isplitl [H0]; · iexists _; isplitr; · ipureintro; exact harg2.read_unread _
                    iexact H0
    isplitl [H1]; · iexists _; isplitr; · ipureintro; exact harg3.read_unread _
                    iexact H1
    isplitl [H2]; · iexists _; isplitr; · ipureintro; exact harg4.read_unread _
                    iexact H2
    isplitl [H3]; · iexists _; isplitr; · ipureintro; exact harg5.read_unread _
                    iexact H3
    isplitl [H4]; · iexists _; isplitr; · ipureintro; exact harg6.read_unread _
                    iexact H4
    isplitl [H5]; · iexists _; isplitr; · ipureintro; exact harg7.read_unread _
                    iexact H5
    isplitl [H6]; · iexists _; isplitr; · ipureintro; exact harg8.read_unread _
                    iexact H6
    isplitl [H7]; · iexists _; isplitr; · ipureintro; exact harg9.read_unread _
                    iexact H7
    isplitl [HS0]; · iexists _; isplitr; · ipureintro; exact harg10.read_unread _
                     iexact HS0
    isplitl [HS1]
    · iexists _; isplitr; swap; · iexact HS1
      ipureintro
      rw [View.read_writes_eq_canon _ _ _ (View.cover_of_tiledL _ S512x1.size (by sl_kernel_rfl))]
      (try sl_unfold_words)
      rw [View.canon_cons_unit_zero hz2_2]
      (try simp only [View.readAt_eq_ld, View.readCov_unit_zero (S := S512x1) _ hz2_2, View.readCov_unit_zero (S := S512x64) _ hz2_2, harg2.read_unread, harg3.read_unread, harg4.read_unread, harg5.read_unread, harg6.read_unread, harg10.read_unread, harg11.read_unread, harg12.read_unread, harg13.read_unread, View.ld_unit_zero (S := S512x1) hz2_2, View.ld_unit_zero (S := S512x1024) hz2_2, View.ld_unit_zero (S := S1024x64) hz2_2, View.ld_unit_zero (S := S3200x64) hz2_2, View.ld_unit_zero (S := S3200x1) hz2_2, View.ld_unit_zero (S := S512x64) hz2_2, View.ld_unit_zero (S := S1x512x1) hz3_2])
      (try rfl)
    isplitl [HS2]
    · iexists _; isplitr; swap; · iexact HS2
      ipureintro
      rw [View.read_writes_eq_canon _ _ _ (View.cover_of_tiledL _ S512x1.size (by sl_kernel_rfl))]
      (try sl_unfold_words)
      rw [View.canon_cons_unit_zero hz2_2]
      (try simp only [View.readAt_eq_ld, View.readCov_unit_zero (S := S512x1) _ hz2_2, View.readCov_unit_zero (S := S512x64) _ hz2_2, harg2.read_unread, harg3.read_unread, harg4.read_unread, harg5.read_unread, harg6.read_unread, harg10.read_unread, harg11.read_unread, harg12.read_unread, harg13.read_unread, View.ld_unit_zero (S := S512x1) hz2_2, View.ld_unit_zero (S := S512x1024) hz2_2, View.ld_unit_zero (S := S1024x64) hz2_2, View.ld_unit_zero (S := S3200x64) hz2_2, View.ld_unit_zero (S := S3200x1) hz2_2, View.ld_unit_zero (S := S512x64) hz2_2, View.ld_unit_zero (S := S1x512x1) hz3_2])
      (try rfl)
    · iexists _; isplitr; swap; · iexact HS3
      ipureintro
      rw [View.read_writes_eq_canon _ _ _ (View.cover_of_tiledL _ S512x1.size (by sl_kernel_rfl))]
      (try sl_unfold_words)
      rw [View.canon_cons_unit_zero hz2_2]
      (try simp only [View.readAt_eq_ld, View.readCov_unit_zero (S := S512x1) _ hz2_2, View.readCov_unit_zero (S := S512x64) _ hz2_2, harg2.read_unread, harg3.read_unread, harg4.read_unread, harg5.read_unread, harg6.read_unread, harg10.read_unread, harg11.read_unread, harg12.read_unread, harg13.read_unread, View.ld_unit_zero (S := S512x1) hz2_2, View.ld_unit_zero (S := S512x1024) hz2_2, View.ld_unit_zero (S := S1024x64) hz2_2, View.ld_unit_zero (S := S3200x64) hz2_2, View.ld_unit_zero (S := S3200x1) hz2_2, View.ld_unit_zero (S := S512x64) hz2_2, View.ld_unit_zero (S := S1x512x1) hz3_2])
      (try rfl)

end Cert.KernelIdeal.Hand

end
-- ==== Proof.Frame2RunC.lean ====
import proofs.«412644_j75642964017948_3_alg».proof.Proof.Frame2Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 8000000 in

theorem run2_C (c : Dev nD) (i : grid2.Coords) (arg2 : Memref sig .tc .vmem S512x1024 .f32) (harg2 : arg2.IsWhole) (arg3 : Memref sig .tc .vmem S1024x64 .f32) (harg3 : arg3.IsWhole) (arg4 : Memref sig .tc .vmem S3200x64 .f32) (harg4 : arg4.IsWhole) (arg5 : Memref sig .tc .vmem S3200x1 .f32) (harg5 : arg5.IsWhole) (arg6 : Memref sig .tc .vmem S512x1 .i32) (harg6 : arg6.IsWhole) (arg7 : Memref sig .tc .vmem S1x512x1 .f32) (harg7 : arg7.IsWhole) (arg8 : Memref sig .tc .vmem S1x512x1 .f32) (harg8 : arg8.IsWhole) (arg9 : Memref sig .tc .vmem S1x512x1 .f32) (harg9 : arg9.IsWhole) (arg10 : Memref sig .tc .vmem S512x64 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (hc0 : ¬cond2_0 i) (hc1 : cond2_1 i)
    (x0 : Vec F S512x1024 .f32) (x1 : Vec F S1024x64 .f32) (x2 : Vec F S3200x64 .f32) (x3 : Vec F S3200x1 .f32) (x4 : Vec F S512x1 .i32) (xs0 : Vec F S512x64 .f32) (xs1 xs2 xs3 : Vec F S512x1 .f32) (E : Set ℕ) (K : PUnit → sProp 𝕄) :
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
            ∗ (∃ d, owns (c : Thread nD τ) arg7 fullShare d) ∗ (∃ d, owns (c : Thread nD τ) arg8 fullShare d) ∗ (∃ d, owns (c : Thread nD τ) arg9 fullShare d)
            ∗ owns (c : Thread nD τ) arg10 fullShare xs0 ∗ owns (c : Thread nD τ) arg11 fullShare xs1 ∗ owns (c : Thread nD τ) arg12 fullShare xs2 ∗ owns (c : Thread nD τ) arg13 fullShare xs3
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
                ∗ owns (c : Thread nD τ) arg7 fullShare (k2_pay4 (k2_pay3 (k2_pay13 xs0 x2 x3) xs1)) ∗ owns (c : Thread nD τ) arg8 fullShare (k2_pay5 (k2_pay2 (k2_pay11 xs0 x2 x3) (k2_pay13 xs0 x2 x3) xs1 xs2 xs1)) ∗ owns (c : Thread nD τ) arg9 fullShare (k2_pay6 (k2_pay12 i xs0 x2 x3 x4 xs3))
                ∗ owns (c : Thread nD τ) arg10 fullShare xs0 ∗ owns (c : Thread nD τ) arg11 fullShare (k2_pay3 (k2_pay13 xs0 x2 x3) xs1) ∗ owns (c : Thread nD τ) arg12 fullShare (k2_pay2 (k2_pay11 xs0 x2 x3) (k2_pay13 xs0 x2 x3) xs1 xs2 xs1) ∗ owns (c : Thread nD τ) arg13 fullShare (k2_pay12 i xs0 x2 x3 x4 xs3)) -∗ K ⟨⟩))
          ⊢ wp frame (wpE (defs₀ (F := F)) Variants.none c none) E (cc2__cluster_kernel i arg2 harg2 arg3 harg3 arg4 harg4 arg5 harg5 arg6 harg6 arg7 harg7 arg8 harg8 arg9 harg9 arg10 harg10 arg11 harg11 arg12 harg12 arg13 harg13) K := by
    simp only [cc2__cluster_kernel_eq_skeleton]; unfold cc2__cluster_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%fs0, %hfs0, HS0⟩, ⟨%fs1, %hfs1, HS1⟩, ⟨%fs2, %hfs2, HS2⟩, ⟨%fs3, %hfs3, HS3⟩, Hk⟩
    obtain rfl := harg2.eq_unread hf0; obtain rfl := harg3.eq_unread hf1; obtain rfl := harg4.eq_unread hf2; obtain rfl := harg5.eq_unread hf3; obtain rfl := harg6.eq_unread hf4
    obtain rfl := harg10.eq_unread hfs0; obtain rfl := harg11.eq_unread hfs1; obtain rfl := harg12.eq_unread hfs2; obtain rfl := harg13.eq_unread hfs3
    sl_exec (disch := first | exact hc0 | exact hc1)
    sl_step
    iapply Hk
    isplitl [H0]; · iexists _; isplitr; · ipureintro; exact harg2.read_unread _
                    iexact H0
    isplitl [H1]; · iexists _; isplitr; · ipureintro; exact harg3.read_unread _
                    iexact H1
    isplitl [H2]; · iexists _; isplitr; · ipureintro; exact harg4.read_unread _
                    iexact H2
    isplitl [H3]; · iexists _; isplitr; · ipureintro; exact harg5.read_unread _
                    iexact H3
    isplitl [H4]; · iexists _; isplitr; · ipureintro; exact harg6.read_unread _
                    iexact H4
    isplitl [H5]
    · iexists _; isplitr; swap; · iexact H5
      ipureintro
      rw [View.read_writes_eq_canon _ _ _ (View.cover_of_tiledL _ S1x512x1.size (by sl_kernel_rfl))]
      (try sl_unfold_words)
      rw [View.canon_cons_unit_zero hz3_2]
      (try simp only [View.readAt_eq_ld, View.readCov_unit_zero (S := S512x1) _ hz2_2, View.readCov_unit_zero (S := S512x64) _ hz2_2, harg2.read_unread, harg3.read_unread, harg4.read_unread, harg5.read_unread, harg6.read_unread, harg10.read_unread, harg11.read_unread, harg12.read_unread, harg13.read_unread, View.ld_unit_zero (S := S512x1) hz2_2, View.ld_unit_zero (S := S512x1024) hz2_2, View.ld_unit_zero (S := S1024x64) hz2_2, View.ld_unit_zero (S := S3200x64) hz2_2, View.ld_unit_zero (S := S3200x1) hz2_2, View.ld_unit_zero (S := S512x64) hz2_2, View.ld_unit_zero (S := S1x512x1) hz3_2])
      (try rfl)
    isplitl [H6]
    · iexists _; isplitr; swap; · iexact H6
      ipureintro
      rw [View.read_writes_eq_canon _ _ _ (View.cover_of_tiledL _ S1x512x1.size (by sl_kernel_rfl))]
      (try sl_unfold_words)
      rw [View.canon_cons_unit_zero hz3_2]
      (try simp only [View.readAt_eq_ld, View.readCov_unit_zero (S := S512x1) _ hz2_2, View.readCov_unit_zero (S := S512x64) _ hz2_2, harg2.read_unread, harg3.read_unread, harg4.read_unread, harg5.read_unread, harg6.read_unread, harg10.read_unread, harg11.read_unread, harg12.read_unread, harg13.read_unread, View.ld_unit_zero (S := S512x1) hz2_2, View.ld_unit_zero (S := S512x1024) hz2_2, View.ld_unit_zero (S := S1024x64) hz2_2, View.ld_unit_zero (S := S3200x64) hz2_2, View.ld_unit_zero (S := S3200x1) hz2_2, View.ld_unit_zero (S := S512x64) hz2_2, View.ld_unit_zero (S := S1x512x1) hz3_2])
      (try rfl)
    isplitl [H7]
    · iexists _; isplitr; swap; · iexact H7
      ipureintro
      rw [View.read_writes_eq_canon _ _ _ (View.cover_of_tiledL _ S1x512x1.size (by sl_kernel_rfl))]
      (try sl_unfold_words)
      rw [View.canon_cons_unit_zero hz3_2]
      (try simp only [View.readAt_eq_ld, View.readCov_unit_zero (S := S512x1) _ hz2_2, View.readCov_unit_zero (S := S512x64) _ hz2_2, harg2.read_unread, harg3.read_unread, harg4.read_unread, harg5.read_unread, harg6.read_unread, harg10.read_unread, harg11.read_unread, harg12.read_unread, harg13.read_unread, View.ld_unit_zero (S := S512x1) hz2_2, View.ld_unit_zero (S := S512x1024) hz2_2, View.ld_unit_zero (S := S1024x64) hz2_2, View.ld_unit_zero (S := S3200x64) hz2_2, View.ld_unit_zero (S := S3200x1) hz2_2, View.ld_unit_zero (S := S512x64) hz2_2, View.ld_unit_zero (S := S1x512x1) hz3_2])
      (try rfl)
    isplitl [HS0]; · iexists _; isplitr; · ipureintro; exact harg10.read_unread _
                     iexact HS0
    isplitl [HS1]
    · iexists _; isplitr; swap; · iexact HS1
      ipureintro
      rw [View.read_writes_eq_canon _ _ _ (View.cover_of_tiledL _ S512x1.size (by sl_kernel_rfl))]
      (try sl_unfold_words)
      rw [View.canon_cons_unit_zero hz2_2]
      (try simp only [View.readAt_eq_ld, View.readCov_unit_zero (S := S512x1) _ hz2_2, View.readCov_unit_zero (S := S512x64) _ hz2_2, harg2.read_unread, harg3.read_unread, harg4.read_unread, harg5.read_unread, harg6.read_unread, harg10.read_unread, harg11.read_unread, harg12.read_unread, harg13.read_unread, View.ld_unit_zero (S := S512x1) hz2_2, View.ld_unit_zero (S := S512x1024) hz2_2, View.ld_unit_zero (S := S1024x64) hz2_2, View.ld_unit_zero (S := S3200x64) hz2_2, View.ld_unit_zero (S := S3200x1) hz2_2, View.ld_unit_zero (S := S512x64) hz2_2, View.ld_unit_zero (S := S1x512x1) hz3_2])
      (try rfl)
    isplitl [HS2]
    · iexists _; isplitr; swap; · iexact HS2
      ipureintro
      rw [View.read_writes_eq_canon _ _ _ (View.cover_of_tiledL _ S512x1.size (by sl_kernel_rfl))]
      (try sl_unfold_words)
      rw [View.canon_cons_unit_zero hz2_2]
      (try simp only [View.readAt_eq_ld, View.readCov_unit_zero (S := S512x1) _ hz2_2, View.readCov_unit_zero (S := S512x64) _ hz2_2, harg2.read_unread, harg3.read_unread, harg4.read_unread, harg5.read_unread, harg6.read_unread, harg10.read_unread, harg11.read_unread, harg12.read_unread, harg13.read_unread, View.ld_unit_zero (S := S512x1) hz2_2, View.ld_unit_zero (S := S512x1024) hz2_2, View.ld_unit_zero (S := S1024x64) hz2_2, View.ld_unit_zero (S := S3200x64) hz2_2, View.ld_unit_zero (S := S3200x1) hz2_2, View.ld_unit_zero (S := S512x64) hz2_2, View.ld_unit_zero (S := S1x512x1) hz3_2])
      (try rfl)
    · iexists _; isplitr; swap; · iexact HS3
      ipureintro
      rw [View.read_writes_eq_canon _ _ _ (View.cover_of_tiledL _ S512x1.size (by sl_kernel_rfl))]
      (try sl_unfold_words)
      rw [View.canon_cons_unit_zero hz2_2]
      (try simp only [View.readAt_eq_ld, View.readCov_unit_zero (S := S512x1) _ hz2_2, View.readCov_unit_zero (S := S512x64) _ hz2_2, harg2.read_unread, harg3.read_unread, harg4.read_unread, harg5.read_unread, harg6.read_unread, harg10.read_unread, harg11.read_unread, harg12.read_unread, harg13.read_unread, View.ld_unit_zero (S := S512x1) hz2_2, View.ld_unit_zero (S := S512x1024) hz2_2, View.ld_unit_zero (S := S1024x64) hz2_2, View.ld_unit_zero (S := S3200x64) hz2_2, View.ld_unit_zero (S := S3200x1) hz2_2, View.ld_unit_zero (S := S512x64) hz2_2, View.ld_unit_zero (S := S1x512x1) hz3_2])
      (try rfl)

end Cert.KernelIdeal.Hand

end
-- ==== Proof.Frame2Dat.lean ====
import proofs.«412644_j75642964017948_3_alg».proof.Proof.Frame2RunA
import proofs.«412644_j75642964017948_3_alg».proof.Proof.Frame2RunB
import proofs.«412644_j75642964017948_3_alg».proof.Proof.Frame2RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

section

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev St2 (F : FTy → Type) : Type := Vec F S512x64 .f32 × Vec F S512x1 .f32 × Vec F S512x1 .f32 × Vec F S512x1 .f32

def reset2 (x0 : Vec F S512x1024 .f32) (x1 : Vec F S1024x64 .f32) : St2 F := ((k2_pay7 x0 x1), (k2_pay8 (F := F)), (k2_pay9 (F := F)), (k2_pay10 (F := F)))

def upd2 (i : grid2.Coords) (x2 : Vec F S3200x64 .f32) (x3 : Vec F S3200x1 .f32) (x4 : Vec F S512x1 .i32) (s : St2 F) : St2 F :=
  (s.1, (k2_pay3 (k2_pay13 s.1 x2 x3) s.2.1), (k2_pay2 (k2_pay11 s.1 x2 x3) (k2_pay13 s.1 x2 x3) s.2.1 s.2.2.1 s.2.1), (k2_pay12 i s.1 x2 x3 x4 s.2.2.2))

def stAt2 (c : Dev nD) : (n : ℕ) → n < cfg2.N → St2 F
  | 0, hn => upd2 (grid2.coords ⟨0, hn⟩) (iblk2 V c 2 ⟨0, hn⟩) (iblk2 V c 3 ⟨0, hn⟩) (iblk2 V c 4 ⟨0, hn⟩) (reset2 (iblk2 V c 0 ⟨0, hn⟩) (iblk2 V c 1 ⟨0, hn⟩))
  | n + 1, hn => upd2 (grid2.coords ⟨n + 1, hn⟩) (iblk2 V c 2 ⟨n + 1, hn⟩) (iblk2 V c 3 ⟨n + 1, hn⟩) (iblk2 V c 4 ⟨n + 1, hn⟩)
      (if (n + 1) % 25 = 0 then reset2 (iblk2 V c 0 ⟨n + 1, hn⟩) (iblk2 V c 1 ⟨n + 1, hn⟩) else stAt2 c n (Nat.lt_of_succ_lt hn))

theorem stAt2_first (c : Dev nD) (t : Fin cfg2.N) (h : t.val % 25 = 0) :
    stAt2 V c t.val t.isLt = upd2 (grid2.coords t) (iblk2 V c 2 t) (iblk2 V c 3 t) (iblk2 V c 4 t) (reset2 (iblk2 V c 0 t) (iblk2 V c 1 t)) := by
  obtain ⟨n, hn⟩ := t
  cases n with
  | zero => rfl
  | succ n => show upd2 _ _ _ _ (if (n + 1) % 25 = 0 then _ else _) = _; rw [if_pos h]

theorem stAt2_next (c : Dev nD) (t : Fin cfg2.N) (h : ¬t.val % 25 = 0) :
    stAt2 V c t.val t.isLt = upd2 (grid2.coords t) (iblk2 V c 2 t) (iblk2 V c 3 t) (iblk2 V c 4 t) (stAt2 V c (t.val - 1) (Nat.lt_of_le_of_lt (Nat.sub_le _ _) t.isLt)) := by
  obtain ⟨n, hn⟩ := t
  cases n with
  | zero => exact absurd (Nat.zero_mod _) h
  | succ n => show upd2 _ _ _ _ (if (n + 1) % 25 = 0 then _ else _) = _; rw [if_neg h]; rfl

def PhiS2 (c : Dev nD) : (n : ℕ) → n ≤ cfg2.N → sProp 𝕄
  | 0, _ => Pipeline.ΦA spec2 c
  | n + 1, hn => iprop(iprop(iprop(owns (c : Thread nD τ) scM2_0 fullShare (stAt2 V c n hn).1 ∗ owns (c : Thread nD τ) scM2_1 fullShare (stAt2 V c n hn).2.1 ∗ owns (c : Thread nD τ) scM2_2 fullShare (stAt2 V c n hn).2.2.1 ∗ owns (c : Thread nD τ) scM2_3 fullShare (stAt2 V c n hn).2.2.2) ∗ Pipeline.scopedRestBut (Ix := Unit) (Name := ℕ) (U := UR sig nD τ) (Lvl := ℕ) (Val := Elt F) spec2 c [cc2_scratch0, cc2_scratch1, cc2_scratch2, cc2_scratch3]) ∗ (∃ r, prngReg c r))

theorem PhiS2_succ (c : Dev nD) (n : ℕ) (hn : n < cfg2.N) :
    PhiS2 V c (n + 1) hn = iprop(iprop(iprop(owns (c : Thread nD τ) scM2_0 fullShare (stAt2 V c n hn).1 ∗ owns (c : Thread nD τ) scM2_1 fullShare (stAt2 V c n hn).2.1 ∗ owns (c : Thread nD τ) scM2_2 fullShare (stAt2 V c n hn).2.2.1 ∗ owns (c : Thread nD τ) scM2_3 fullShare (stAt2 V c n hn).2.2.2) ∗ Pipeline.scopedRestBut (Ix := Unit) (Name := ℕ) (U := UR sig nD τ) (Lvl := ℕ) (Val := Elt F) spec2 c [cc2_scratch0, cc2_scratch1, cc2_scratch2, cc2_scratch3]) ∗ (∃ r, prngReg c r)) := rfl

theorem PhiS2_pos (c : Dev nD) (n : ℕ) (h : n ≤ cfg2.N) (hz : n ≠ 0) :
    PhiS2 V c n h = iprop(iprop(iprop(owns (c : Thread nD τ) scM2_0 fullShare (stAt2 V c (n - 1) (by omega)).1 ∗ owns (c : Thread nD τ) scM2_1 fullShare (stAt2 V c (n - 1) (by omega)).2.1 ∗ owns (c : Thread nD τ) scM2_2 fullShare (stAt2 V c (n - 1) (by omega)).2.2.1 ∗ owns (c : Thread nD τ) scM2_3 fullShare (stAt2 V c (n - 1) (by omega)).2.2.2) ∗ Pipeline.scopedRestBut (Ix := Unit) (Name := ℕ) (U := UR sig nD τ) (Lvl := ℕ) (Val := Elt F) spec2 c [cc2_scratch0, cc2_scratch1, cc2_scratch2, cc2_scratch3]) ∗ (∃ r, prngReg c r)) := by
  cases n with
  | zero => exact absurd rfl hz
  | succ n => rfl

theorem PhiS2_any (c : Dev nD) (n : ℕ) (h : n ≤ cfg2.N) :
    PhiS2 V c n h ⊢ iprop(iprop(iprop((∃ d, owns (c : Thread nD τ) scM2_0 fullShare d) ∗ (∃ d, owns (c : Thread nD τ) scM2_1 fullShare d) ∗ (∃ d, owns (c : Thread nD τ) scM2_2 fullShare d) ∗ (∃ d, owns (c : Thread nD τ) scM2_3 fullShare d)) ∗ Pipeline.scopedRestBut (Ix := Unit) (Name := ℕ) (U := UR sig nD τ) (Lvl := ℕ) (Val := Elt F) spec2 c [cc2_scratch0, cc2_scratch1, cc2_scratch2, cc2_scratch3]) ∗ (∃ r, prngReg c r)) := by
  cases n with
  | zero => rw [show PhiS2 V c 0 h = Pipeline.ΦA spec2 c from rfl, PhiA2_eq]
  | succ n =>
    rw [PhiS2_succ]
    iintro ⟨⟨⟨HS0, HS1, HS2, HS3⟩, Hrest⟩, Hg⟩
    isplitl [HS0 HS1 HS2 HS3 Hrest]
    · isplitl [HS0 HS1 HS2 HS3]
      · isplitl [HS0]; · iexists _; iexact HS0
        isplitl [HS1]; · iexists _; iexact HS1
        isplitl [HS2]; · iexists _; iexact HS2
        iexists _; iexact HS3
      iexact Hrest
    iexact Hg

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => (k2_pay4 (stAt2 V c t.val t.isLt).2.1)
    | ⟨6, _⟩ => (k2_pay5 (stAt2 V c t.val t.isLt).2.2.1)
    | ⟨7, _⟩ => (k2_pay6 (stAt2 V c t.val t.isLt).2.2.2)
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem PhiS2_castSucc (c : Dev nD) (t : Fin cfg2.N) :
    (dat2 V c).Φ t.castSucc = PhiS2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = (k2_pay4 (stAt2 V c t.val t.isLt).2.1) := by dsimp only [dat2]
theorem after2_6 (c : Dev nD) (t : Fin cfg2.N) : (dat2 V c).after 6 t = (k2_pay5 (stAt2 V c t.val t.isLt).2.2.1) := by dsimp only [dat2]
theorem after2_7 (c : Dev nD) (t : Fin cfg2.N) : (dat2 V c).after 7 t = (k2_pay6 (stAt2 V c t.val t.isLt).2.2.2) := by dsimp only [dat2]

theorem before2_0 (c : Dev nD) (t : Fin cfg2.N) (d) : (dat2 V c).before 0 t d = iblk2 V c 0 t :=
  ((dat2 V c).before_in_eq_fetched 0 rfl (fun _ => rfl) (fun _ _ _ => rfl) (fun _ => rfl) t d).trans rfl
theorem before2_1 (c : Dev nD) (t : Fin cfg2.N) (d) : (dat2 V c).before 1 t d = iblk2 V c 1 t :=
  ((dat2 V c).before_in_eq_fetched 1 rfl (fun _ => rfl) (fun _ _ _ => rfl) (fun _ => rfl) t d).trans rfl
theorem before2_2 (c : Dev nD) (t : Fin cfg2.N) (d) : (dat2 V c).before 2 t d = iblk2 V c 2 t :=
  ((dat2 V c).before_in_eq_fetched 2 rfl (fun _ => rfl) (fun _ _ _ => rfl) (fun _ => rfl) t d).trans rfl
theorem before2_3 (c : Dev nD) (t : Fin cfg2.N) (d) : (dat2 V c).before 3 t d = iblk2 V c 3 t :=
  ((dat2 V c).before_in_eq_fetched 3 rfl (fun _ => rfl) (fun _ _ _ => rfl) (fun _ => rfl) t d).trans rfl
theorem before2_4 (c : Dev nD) (t : Fin cfg2.N) (d) : (dat2 V c).before 4 t d = iblk2 V c 4 t :=
  ((dat2 V c).before_in_eq_fetched 4 rfl (fun _ => rfl) (fun _ _ _ => rfl) (fun _ => rfl) t d).trans rfl

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d))
    ∗ (∃ d, owns (c : Thread nD τ) (ms2_6 t) fullShare ((dat2 V c).before 6 t d))
    ∗ (∃ d, owns (c : Thread nD τ) (ms2_7 t) fullShare ((dat2 V c).before 7 t d)))

def bodyPost2 (c : Dev nD) (t : Fin cfg2.N) : sProp 𝕄 :=
  iprop((dat2 V c).Φ t.succ ∗ (dat2 V c).owesAt () t.succ
    ∗ (dat2 V c).leavesExact 0 t ∗ (dat2 V c).leavesExact 1 t ∗ (dat2 V c).leavesExact 2 t ∗ (dat2 V c).leavesExact 3 t ∗ (dat2 V c).leavesExact 4 t ∗ (dat2 V c).leavesExact 5 t ∗ (dat2 V c).leavesExact 6 t ∗ (dat2 V c).leavesExact 7 t)

set_option maxHeartbeats 8000000 in

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).owesAt () t.succ = (dat2 V c).owesAt () t.castSucc from rfl]
  rw [show (dat2 V c).Φ t.succ = PhiS2 V c (t.val + 1) t.isLt from rfl, PhiS2_succ]
  have hN : t.val < 50 := lt_of_lt_of_eq t.isLt (show cfg2.N = 50 from N_2)
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  rw [show (dat2 V c).leavesExact 2 t = owns (c : Thread nD τ) (ms2_2 t) fullShare ((dat2 V c).after 2 t) from by
    unfold Dat.leavesExact; rw [liveAt2_2 t], after2_2]
  rw [show (dat2 V c).leavesExact 3 t = owns (c : Thread nD τ) (ms2_3 t) fullShare ((dat2 V c).after 3 t) from by
    unfold Dat.leavesExact; rw [liveAt2_3 t], after2_3]
  rw [show (dat2 V c).leavesExact 4 t = owns (c : Thread nD τ) (ms2_4 t) fullShare ((dat2 V c).after 4 t) from by
    unfold Dat.leavesExact; rw [liveAt2_4 t], after2_4]
  simp only [after2_0, after2_1, after2_2, after2_3, after2_4]
  by_cases h0 : t.val % 25 = 0
  · have hc0 : cond2_0 (grid2.coords t) := (hcond2_0 t).mpr h0
    have hc1 : ¬cond2_1 (grid2.coords t) := fun h => by have := (hcond2_1 t).mp h; omega
    rw [Dat.leavesExact_idle (dat2 V c) 5 t (idleAt2_5 t hc1) (noFlush2_5 t hc1), Dat.leavesExact_idle (dat2 V c) 6 t (idleAt2_6 t hc1) (noFlush2_6 t hc1), Dat.leavesExact_idle (dat2 V c) 7 t (idleAt2_7 t hc1) (noFlush2_7 t hc1)]
    rw [stAt2_first V c t h0]; dsimp only [upd2, reset2]
    rw [PhiS2_castSucc V c t]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    ihave HΦ' := (PhiS2_any V c t.val (Nat.le_of_lt t.isLt)) $$ HΦ
    icases HΦ' with ⟨⟨⟨HS0, HS1, HS2, HS3⟩, Hrest⟩, Hg⟩
    iapply (run2_A c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) scM2_1 (Memref.isWhole_whole _) scM2_2 (Memref.isWhole_whole _) scM2_3 (Memref.isWhole_whole _) hc0 hc1 (iblk2 V c 0 t) (iblk2 V c 1 t) (iblk2 V c 2 t) (iblk2 V c 3 t) (iblk2 V c 4 t) ((dat2 V c).before 5 t d5) ((dat2 V c).before 6 t d6) ((dat2 V c).before 7 t d7) Set.univ _)
    iframe
    iintro ⟨H0, H1, H2, H3, H4, H5, H6, H7, HS0, HS1, HS2, HS3⟩
    iframe
    isplitl [H5]; · iexists _; iexact H5
    isplitl [H6]; · iexists _; iexact H6
    iexists _; iexact H7
  · have hc0 : ¬cond2_0 (grid2.coords t) := fun h => h0 ((hcond2_0 t).mp h)
    have hz : t.val ≠ 0 := fun h => h0 (by rw [h])
    rw [stAt2_next V c t h0]; dsimp only [upd2]
    rw [PhiS2_castSucc V c t, PhiS2_pos V c _ _ hz]
    by_cases h1 : t.val % 25 = 24
    · have hc1 : cond2_1 (grid2.coords t) := (hcond2_1 t).mpr h1
      rw [show (dat2 V c).leavesExact 5 t = owns (c : Thread nD τ) (ms2_5 t) fullShare ((dat2 V c).after 5 t) from by
        unfold Dat.leavesExact; rw [liveAt2_5 t hc1], after2_5]
      rw [show (dat2 V c).leavesExact 6 t = owns (c : Thread nD τ) (ms2_6 t) fullShare ((dat2 V c).after 6 t) from by
        unfold Dat.leavesExact; rw [liveAt2_6 t hc1], after2_6]
      rw [show (dat2 V c).leavesExact 7 t = owns (c : Thread nD τ) (ms2_7 t) fullShare ((dat2 V c).after 7 t) from by
        unfold Dat.leavesExact; rw [liveAt2_7 t hc1], after2_7]
      rw [stAt2_next V c t h0]; dsimp only [upd2]
      iintro ⟨⟨⟨⟨HS0, HS1, HS2, HS3⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (run2_C c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) scM2_1 (Memref.isWhole_whole _) scM2_2 (Memref.isWhole_whole _) scM2_3 (Memref.isWhole_whole _) hc0 hc1 (iblk2 V c 0 t) (iblk2 V c 1 t) (iblk2 V c 2 t) (iblk2 V c 3 t) (iblk2 V c 4 t) _ _ _ _ Set.univ _)
      iframe
      isplitl [H5]; · iexists _; iexact H5
      isplitl [H6]; · iexists _; iexact H6
      isplitl [H7]; · iexists _; iexact H7
      iintro ⟨H0, H1, H2, H3, H4, H5, H6, H7, HS0, HS1, HS2, HS3⟩
      iframe
    · have hc1 : ¬cond2_1 (grid2.coords t) := fun h => h1 ((hcond2_1 t).mp h)
      rw [Dat.leavesExact_idle (dat2 V c) 5 t (idleAt2_5 t hc1) (noFlush2_5 t hc1), Dat.leavesExact_idle (dat2 V c) 6 t (idleAt2_6 t hc1) (noFlush2_6 t hc1), Dat.leavesExact_idle (dat2 V c) 7 t (idleAt2_7 t hc1) (noFlush2_7 t hc1)]
      iintro ⟨⟨⟨⟨HS0, HS1, HS2, HS3⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (run2_B c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) scM2_1 (Memref.isWhole_whole _) scM2_2 (Memref.isWhole_whole _) scM2_3 (Memref.isWhole_whole _) hc0 hc1 (iblk2 V c 0 t) (iblk2 V c 1 t) (iblk2 V c 2 t) (iblk2 V c 3 t) (iblk2 V c 4 t) ((dat2 V c).before 5 t d5) ((dat2 V c).before 6 t d6) ((dat2 V c).before 7 t d7) _ _ _ _ Set.univ _)
      iframe
      iintro ⟨H0, H1, H2, H3, H4, H5, H6, H7, HS0, HS1, HS2, HS3⟩
      iframe
      isplitl [H5]; · iexists _; iexact H5
      isplitl [H6]; · iexists _; iexact H6
      iexists _; iexact H7

theorem body_obligation2 (c : Dev nD) : BodyObligation (dat2 (F := F) V c) (defs₀ (F := F)) Variants.none () Set.univ := fun t => by
  rw [bigSep_W2, bigSep_W2]
  exact sound_body2 V c t

theorem hout2 (c : Dev nD) : (dat2 V c).Φ (Fin.last cfg2.N) ⊢ Pipeline.ΦA spec2 c := by
  rw [show (dat2 V c).Φ (Fin.last cfg2.N) = PhiS2 V c (Fin.last cfg2.N).val (Nat.le_of_lt_succ (Fin.last cfg2.N).isLt) from rfl, PhiA2_eq]
  exact PhiS2_any V c _ _

end

end Cert.KernelIdeal.Hand

end
-- ==== Proof.Frame3Base.lean ====
import proofs.«412644_j75642964017948_3_alg».proof.Proof.Gen.KernelIdeal.Launch
import proofs.«412644_j75642964017948_3_alg».proof.Proof.Gen.KernelIdeal.Skeleton
import proofs.«412644_j75642964017948_3_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

abbrev cond3_0 (i : grid3.Coords) : Prop := (Scalar.cmpi .ne (Scalar.extui (Scalar.cmpi .eq (BitVec.ofNat 32 (i 1).val) 0#32)) 0#32) = 1#1

abbrev cond3_1 (i : grid3.Coords) : Prop := k3_cond2 i = 1#1

theorem hcond3_0 : ∀ t : Fin cfg3.N, cond3_0 (grid3.coords t) ↔ t.val % 17 = 0 :=
  (by decide +kernel : ∀ t : Fin grid3.N, cond3_0 (grid3.coords t) ↔ t.val % 17 = 0)
theorem hcond3_1 : ∀ t : Fin cfg3.N, cond3_1 (grid3.coords t) ↔ t.val % 17 = 16 :=
  (by decide +kernel : ∀ t : Fin grid3.N, cond3_1 (grid3.coords t) ↔ t.val % 17 = 16)

theorem liveAt3_0 : ∀ t : Fin cfg3.N, cfg3.idle 0 (grid3.coords t) = false := by decide +kernel
theorem liveAt3_1 : ∀ t : Fin cfg3.N, cfg3.idle 1 (grid3.coords t) = false := by decide +kernel
theorem liveAt3_2 : ∀ t : Fin cfg3.N, cfg3.idle 2 (grid3.coords t) = false := by decide +kernel
theorem liveAt3_3 : ∀ t : Fin cfg3.N, cfg3.idle 3 (grid3.coords t) = false := by decide +kernel
theorem liveAt3_4 : ∀ t : Fin cfg3.N, cfg3.idle 4 (grid3.coords t) = false := by decide +kernel
theorem idleAt3_5 : ∀ t : Fin cfg3.N, ¬cond3_1 (grid3.coords t) → cfg3.idle 5 (grid3.coords t) = true := by decide +kernel
theorem idleAt3_6 : ∀ t : Fin cfg3.N, ¬cond3_1 (grid3.coords t) → cfg3.idle 6 (grid3.coords t) = true := by decide +kernel
theorem idleAt3_7 : ∀ t : Fin cfg3.N, ¬cond3_1 (grid3.coords t) → cfg3.idle 7 (grid3.coords t) = true := by decide +kernel
theorem noFlush3_5 : ∀ t : Fin cfg3.N, ¬cond3_1 (grid3.coords t) → (cfg3.win 5).flush t = false := by decide +kernel
theorem noFlush3_6 : ∀ t : Fin cfg3.N, ¬cond3_1 (grid3.coords t) → (cfg3.win 6).flush t = false := by decide +kernel
theorem noFlush3_7 : ∀ t : Fin cfg3.N, ¬cond3_1 (grid3.coords t) → (cfg3.win 7).flush t = false := by decide +kernel
theorem liveAt3_5 : ∀ t : Fin cfg3.N, cond3_1 (grid3.coords t) → cfg3.idle 5 (grid3.coords t) = false := by decide +kernel
theorem liveAt3_6 : ∀ t : Fin cfg3.N, cond3_1 (grid3.coords t) → cfg3.idle 6 (grid3.coords t) = false := by decide +kernel
theorem liveAt3_7 : ∀ t : Fin cfg3.N, cond3_1 (grid3.coords t) → cfg3.idle 7 (grid3.coords t) = false := by decide +kernel

theorem hz2_3 : (![0, 0] : Fin 2 → Nat) = fun _ => 0 := by funext a; fin_cases a <;> rfl
theorem hz3_3 : (![0, 0, 0] : Fin 3 → Nat) = fun _ => 0 := by funext a; fin_cases a <;> rfl

abbrev ms3_0 (t : Fin cfg3.N) := win3_0.stage (cfg3.slots t 0)
abbrev hs3_0 (t : Fin cfg3.N) : (ms3_0 t).IsWhole := hstage3_0 ((cfg3.slots t 0).cast nbuf3_0)
abbrev ms3_1 (t : Fin cfg3.N) := win3_1.stage (cfg3.slots t 1)
abbrev hs3_1 (t : Fin cfg3.N) : (ms3_1 t).IsWhole := hstage3_1 ((cfg3.slots t 1).cast nbuf3_1)
abbrev ms3_2 (t : Fin cfg3.N) := win3_2.stage (cfg3.slots t 2)
abbrev hs3_2 (t : Fin cfg3.N) : (ms3_2 t).IsWhole := hstage3_2 ((cfg3.slots t 2).cast nbuf3_2)
abbrev ms3_3 (t : Fin cfg3.N) := win3_3.stage (cfg3.slots t 3)
abbrev hs3_3 (t : Fin cfg3.N) : (ms3_3 t).IsWhole := hstage3_3 ((cfg3.slots t 3).cast nbuf3_3)
abbrev ms3_4 (t : Fin cfg3.N) := win3_4.stage (cfg3.slots t 4)
abbrev hs3_4 (t : Fin cfg3.N) : (ms3_4 t).IsWhole := hstage3_4 ((cfg3.slots t 4).cast nbuf3_4)
abbrev ms3_5 (t : Fin cfg3.N) := win3_5.stage (cfg3.slots t 5)
abbrev hs3_5 (t : Fin cfg3.N) : (ms3_5 t).IsWhole := hstage3_5 ((cfg3.slots t 5).cast nbuf3_5)
abbrev ms3_6 (t : Fin cfg3.N) := win3_6.stage (cfg3.slots t 6)
abbrev hs3_6 (t : Fin cfg3.N) : (ms3_6 t).IsWhole := hstage3_6 ((cfg3.slots t 6).cast nbuf3_6)
abbrev ms3_7 (t : Fin cfg3.N) := win3_7.stage (cfg3.slots t 7)
abbrev hs3_7 (t : Fin cfg3.N) : (ms3_7 t).IsWhole := hstage3_7 ((cfg3.slots t 7).cast nbuf3_7)

abbrev scM3_0 : Memref sig .tc .vmem S512x16 .f32 := Memref.whole cc3_scratch0
abbrev scM3_1 : Memref sig .tc .vmem S512x1 .f32 := Memref.whole cc3_scratch1
abbrev scM3_2 : Memref sig .tc .vmem S512x1 .f32 := Memref.whole cc3_scratch2
abbrev scM3_3 : Memref sig .tc .vmem S512x1 .f32 := Memref.whole cc3_scratch3

theorem PhiA3_eq (c : Dev nD) :
    (Pipeline.ΦA spec3 c : sProp 𝕄)
      = iprop(iprop(iprop((∃ d, owns (c : Thread nD τ) scM3_0 fullShare d) ∗ (∃ d, owns (c : Thread nD τ) scM3_1 fullShare d) ∗ (∃ d, owns (c : Thread nD τ) scM3_2 fullShare d) ∗ (∃ d, owns (c : Thread nD τ) scM3_3 fullShare d))
          ∗ Pipeline.scopedRestBut (Ix := Unit) (Name := ℕ) (U := UR sig nD τ) (Lvl := ℕ) (Val := Elt F) spec3 c [cc3_scratch0, cc3_scratch1, cc3_scratch2, cc3_scratch3]) ∗ (∃ r, prngReg c r)) := by
  unfold Pipeline.ΦA; rw [scopedRest3_split]; simp only [scM3_0, scM3_1, scM3_2, scM3_3, owns_whole]; try rfl

end Cert.KernelIdeal.Hand

end
-- ==== Proof.Frame3RunA.lean ====
import proofs.«412644_j75642964017948_3_alg».proof.Proof.Frame3Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 8000000 in

theorem run3_A (c : Dev nD) (i : grid3.Coords) (arg2 : Memref sig .tc .vmem S512x1024 .f32) (harg2 : arg2.IsWhole) (arg3 : Memref sig .tc .vmem S1024x16 .f32) (harg3 : arg3.IsWhole) (arg4 : Memref sig .tc .vmem S2048x16 .f32) (harg4 : arg4.IsWhole) (arg5 : Memref sig .tc .vmem S2048x1 .f32) (harg5 : arg5.IsWhole) (arg6 : Memref sig .tc .vmem S512x1 .i32) (harg6 : arg6.IsWhole) (arg7 : Memref sig .tc .vmem S1x512x1 .f32) (harg7 : arg7.IsWhole) (arg8 : Memref sig .tc .vmem S1x512x1 .f32) (harg8 : arg8.IsWhole) (arg9 : Memref sig .tc .vmem S1x512x1 .f32) (harg9 : arg9.IsWhole) (arg10 : Memref sig .tc .vmem S512x16 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (hc0 : cond3_0 i) (hc1 : ¬cond3_1 i)
    (x0 : Vec F S512x1024 .f32) (x1 : Vec F S1024x16 .f32) (x2 : Vec F S2048x16 .f32) (x3 : Vec F S2048x1 .f32) (x4 : Vec F S512x1 .i32) (xi5 xi6 xi7 : Vec F S1x512x1 .f32) (E : Set ℕ) (K : PUnit → sProp 𝕄) :
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
            ∗ owns (c : Thread nD τ) arg7 fullShare xi5 ∗ owns (c : Thread nD τ) arg8 fullShare xi6 ∗ owns (c : Thread nD τ) arg9 fullShare xi7
            ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
                ∗ owns (c : Thread nD τ) arg7 fullShare xi5 ∗ owns (c : Thread nD τ) arg8 fullShare xi6 ∗ owns (c : Thread nD τ) arg9 fullShare xi7
                ∗ owns (c : Thread nD τ) arg10 fullShare (k3_pay8 x0 x1) ∗ owns (c : Thread nD τ) arg11 fullShare (k3_pay4 (k3_pay13 i (k3_pay8 x0 x1) x2 x3) (k3_pay9 (F := F))) ∗ owns (c : Thread nD τ) arg12 fullShare (k3_pay3 (k3_pay13 i (k3_pay8 x0 x1) x2 x3) (k3_pay9 (F := F)) (k3_pay10 (F := F)) (k3_pay9 (F := F))) ∗ owns (c : Thread nD τ) arg13 fullShare (k3_pay1 (k3_pay14 i (k3_pay8 x0 x1) x2 x3 x4 (k3_pay11 (F := F))))) -∗ K ⟨⟩))
          ⊢ wp frame (wpE (defs₀ (F := F)) Variants.none c none) E (cc3__cluster_kernel i arg2 harg2 arg3 harg3 arg4 harg4 arg5 harg5 arg6 harg6 arg7 harg7 arg8 harg8 arg9 harg9 arg10 harg10 arg11 harg11 arg12 harg12 arg13 harg13) K := by
    simp only [cc3__cluster_kernel_eq_skeleton]; unfold cc3__cluster_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%ds0, %fs0, -, HS0⟩, ⟨%ds1, %fs1, -, HS1⟩, ⟨%ds2, %fs2, -, HS2⟩, ⟨%ds3, %fs3, -, HS3⟩, Hk⟩
    obtain rfl := harg2.eq_unread hf0; obtain rfl := harg3.eq_unread hf1; obtain rfl := harg4.eq_unread hf2; obtain rfl := harg5.eq_unread hf3; obtain rfl := harg6.eq_unread hf4
    obtain rfl := harg7.eq_unread hf5; obtain rfl := harg8.eq_unread hf6; obtain rfl := harg9.eq_unread hf7
    sl_exec (disch := first | exact hc0 | exact hc1)
    sl_step
    iapply Hk
    isplitl [H0]; · iexists _; isplitr; · ipureintro; exact harg2.read_unread _
                    iexact H0
    isplitl [H1]; · iexists _; isplitr; · ipureintro; exact harg3.read_unread _
                    iexact H1
    isplitl [H2]; · iexists _; isplitr; · ipureintro; exact harg4.read_unread _
                    iexact H2
    isplitl [H3]; · iexists _; isplitr; · ipureintro; exact harg5.read_unread _
                    iexact H3
    isplitl [H4]; · iexists _; isplitr; · ipureintro; exact harg6.read_unread _
                    iexact H4
    isplitl [H5]; · iexists _; isplitr; · ipureintro; exact harg7.read_unread _
                    iexact H5
    isplitl [H6]; · iexists _; isplitr; · ipureintro; exact harg8.read_unread _
                    iexact H6
    isplitl [H7]; · iexists _; isplitr; · ipureintro; exact harg9.read_unread _
                    iexact H7
    isplitl [HS0]
    · iexists _; isplitr; swap; · iexact HS0
      ipureintro
      rw [View.read_writes_eq_canon _ _ _ (View.cover_of_tiledL _ S512x16.size (by sl_kernel_rfl))]
      (try sl_unfold_words)
      rw [View.canon_cons_unit_zero hz2_3]
      (try simp only [View.readAt_eq_ld, View.readCov_unit_zero (S := S512x1) _ hz2_3, View.readCov_unit_zero (S := S512x16) _ hz2_3, harg2.read_unread, harg3.read_unread, harg4.read_unread, harg5.read_unread, harg6.read_unread, harg10.read_unread, harg11.read_unread, harg12.read_unread, harg13.read_unread, View.ld_unit_zero (S := S512x1) hz2_3, View.ld_unit_zero (S := S512x1024) hz2_3, View.ld_unit_zero (S := S1024x16) hz2_3, View.ld_unit_zero (S := S2048x16) hz2_3, View.ld_unit_zero (S := S2048x1) hz2_3, View.ld_unit_zero (S := S512x16) hz2_3, View.ld_unit_zero (S := S1x512x1) hz3_3])
      (try rfl)
    isplitl [HS1]
    · iexists _; isplitr; swap; · iexact HS1
      ipureintro
      rw [View.read_writes_eq_canon _ _ _ (View.cover_of_tiledL _ S512x1.size (by sl_kernel_rfl))]
      (try sl_unfold_words)
      rw [View.canon_cons_unit_zero hz2_3]
      (try simp only [View.readAt_eq_ld, View.readCov_unit_zero (S := S512x1) _ hz2_3, View.readCov_unit_zero (S := S512x16) _ hz2_3, harg2.read_unread, harg3.read_unread, harg4.read_unread, harg5.read_unread, harg6.read_unread, harg10.read_unread, harg11.read_unread, harg12.read_unread, harg13.read_unread, View.ld_unit_zero (S := S512x1) hz2_3, View.ld_unit_zero (S := S512x1024) hz2_3, View.ld_unit_zero (S := S1024x16) hz2_3, View.ld_unit_zero (S := S2048x16) hz2_3, View.ld_unit_zero (S := S2048x1) hz2_3, View.ld_unit_zero (S := S512x16) hz2_3, View.ld_unit_zero (S := S1x512x1) hz3_3])
      (try rfl)
    isplitl [HS2]
    · iexists _; isplitr; swap; · iexact HS2
      ipureintro
      rw [View.read_writes_eq_canon _ _ _ (View.cover_of_tiledL _ S512x1.size (by sl_kernel_rfl))]
      (try sl_unfold_words)
      rw [View.canon_cons_unit_zero hz2_3]
      (try simp only [View.readAt_eq_ld, View.readCov_unit_zero (S := S512x1) _ hz2_3, View.readCov_unit_zero (S := S512x16) _ hz2_3, harg2.read_unread, harg3.read_unread, harg4.read_unread, harg5.read_unread, harg6.read_unread, harg10.read_unread, harg11.read_unread, harg12.read_unread, harg13.read_unread, View.ld_unit_zero (S := S512x1) hz2_3, View.ld_unit_zero (S := S512x1024) hz2_3, View.ld_unit_zero (S := S1024x16) hz2_3, View.ld_unit_zero (S := S2048x16) hz2_3, View.ld_unit_zero (S := S2048x1) hz2_3, View.ld_unit_zero (S := S512x16) hz2_3, View.ld_unit_zero (S := S1x512x1) hz3_3])
      (try rfl)
    · iexists _; isplitr; swap; · iexact HS3
      ipureintro
      rw [View.read_writes_eq_canon _ _ _ (View.cover_of_tiledL _ S512x1.size (by sl_kernel_rfl))]
      (try sl_unfold_words)
      rw [View.canon_cons_unit_zero hz2_3]
      (try simp only [View.readAt_eq_ld, View.readCov_unit_zero (S := S512x1) _ hz2_3, View.readCov_unit_zero (S := S512x16) _ hz2_3, harg2.read_unread, harg3.read_unread, harg4.read_unread, harg5.read_unread, harg6.read_unread, harg10.read_unread, harg11.read_unread, harg12.read_unread, harg13.read_unread, View.ld_unit_zero (S := S512x1) hz2_3, View.ld_unit_zero (S := S512x1024) hz2_3, View.ld_unit_zero (S := S1024x16) hz2_3, View.ld_unit_zero (S := S2048x16) hz2_3, View.ld_unit_zero (S := S2048x1) hz2_3, View.ld_unit_zero (S := S512x16) hz2_3, View.ld_unit_zero (S := S1x512x1) hz3_3])
      (try rfl)

end Cert.KernelIdeal.Hand

end
-- ==== Proof.Frame3RunB.lean ====
import proofs.«412644_j75642964017948_3_alg».proof.Proof.Frame3Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 8000000 in

theorem run3_B (c : Dev nD) (i : grid3.Coords) (arg2 : Memref sig .tc .vmem S512x1024 .f32) (harg2 : arg2.IsWhole) (arg3 : Memref sig .tc .vmem S1024x16 .f32) (harg3 : arg3.IsWhole) (arg4 : Memref sig .tc .vmem S2048x16 .f32) (harg4 : arg4.IsWhole) (arg5 : Memref sig .tc .vmem S2048x1 .f32) (harg5 : arg5.IsWhole) (arg6 : Memref sig .tc .vmem S512x1 .i32) (harg6 : arg6.IsWhole) (arg7 : Memref sig .tc .vmem S1x512x1 .f32) (harg7 : arg7.IsWhole) (arg8 : Memref sig .tc .vmem S1x512x1 .f32) (harg8 : arg8.IsWhole) (arg9 : Memref sig .tc .vmem S1x512x1 .f32) (harg9 : arg9.IsWhole) (arg10 : Memref sig .tc .vmem S512x16 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (hc0 : ¬cond3_0 i) (hc1 : ¬cond3_1 i)
    (x0 : Vec F S512x1024 .f32) (x1 : Vec F S1024x16 .f32) (x2 : Vec F S2048x16 .f32) (x3 : Vec F S2048x1 .f32) (x4 : Vec F S512x1 .i32) (xi5 xi6 xi7 : Vec F S1x512x1 .f32) (xs0 : Vec F S512x16 .f32) (xs1 xs2 xs3 : Vec F S512x1 .f32) (E : Set ℕ) (K : PUnit → sProp 𝕄) :
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
            ∗ owns (c : Thread nD τ) arg7 fullShare xi5 ∗ owns (c : Thread nD τ) arg8 fullShare xi6 ∗ owns (c : Thread nD τ) arg9 fullShare xi7
            ∗ owns (c : Thread nD τ) arg10 fullShare xs0 ∗ owns (c : Thread nD τ) arg11 fullShare xs1 ∗ owns (c : Thread nD τ) arg12 fullShare xs2 ∗ owns (c : Thread nD τ) arg13 fullShare xs3
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
                ∗ owns (c : Thread nD τ) arg7 fullShare xi5 ∗ owns (c : Thread nD τ) arg8 fullShare xi6 ∗ owns (c : Thread nD τ) arg9 fullShare xi7
                ∗ owns (c : Thread nD τ) arg10 fullShare xs0 ∗ owns (c : Thread nD τ) arg11 fullShare (k3_pay4 (k3_pay13 i xs0 x2 x3) xs1) ∗ owns (c : Thread nD τ) arg12 fullShare (k3_pay3 (k3_pay13 i xs0 x2 x3) xs1 xs2 xs1) ∗ owns (c : Thread nD τ) arg13 fullShare (k3_pay1 (k3_pay14 i xs0 x2 x3 x4 xs3))) -∗ K ⟨⟩))
          ⊢ wp frame (wpE (defs₀ (F := F)) Variants.none c none) E (cc3__cluster_kernel i arg2 harg2 arg3 harg3 arg4 harg4 arg5 harg5 arg6 harg6 arg7 harg7 arg8 harg8 arg9 harg9 arg10 harg10 arg11 harg11 arg12 harg12 arg13 harg13) K := by
    simp only [cc3__cluster_kernel_eq_skeleton]; unfold cc3__cluster_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs0, %hfs0, HS0⟩, ⟨%fs1, %hfs1, HS1⟩, ⟨%fs2, %hfs2, HS2⟩, ⟨%fs3, %hfs3, HS3⟩, Hk⟩
    obtain rfl := harg2.eq_unread hf0; obtain rfl := harg3.eq_unread hf1; obtain rfl := harg4.eq_unread hf2; obtain rfl := harg5.eq_unread hf3; obtain rfl := harg6.eq_unread hf4
    obtain rfl := harg7.eq_unread hf5; obtain rfl := harg8.eq_unread hf6; obtain rfl := harg9.eq_unread hf7
    obtain rfl := harg10.eq_unread hfs0; obtain rfl := harg11.eq_unread hfs1; obtain rfl := harg12.eq_unread hfs2; obtain rfl := harg13.eq_unread hfs3
    sl_exec (disch := first | exact hc0 | exact hc1)
    sl_step
    iapply Hk
    isplitl [H0]; · iexists _; isplitr; · ipureintro; exact harg2.read_unread _
                    iexact H0
    isplitl [H1]; · iexists _; isplitr; · ipureintro; exact harg3.read_unread _
                    iexact H1
    isplitl [H2]; · iexists _; isplitr; · ipureintro; exact harg4.read_unread _
                    iexact H2
    isplitl [H3]; · iexists _; isplitr; · ipureintro; exact harg5.read_unread _
                    iexact H3
    isplitl [H4]; · iexists _; isplitr; · ipureintro; exact harg6.read_unread _
                    iexact H4
    isplitl [H5]; · iexists _; isplitr; · ipureintro; exact harg7.read_unread _
                    iexact H5
    isplitl [H6]; · iexists _; isplitr; · ipureintro; exact harg8.read_unread _
                    iexact H6
    isplitl [H7]; · iexists _; isplitr; · ipureintro; exact harg9.read_unread _
                    iexact H7
    isplitl [HS0]; · iexists _; isplitr; · ipureintro; exact harg10.read_unread _
                     iexact HS0
    isplitl [HS1]
    · iexists _; isplitr; swap; · iexact HS1
      ipureintro
      rw [View.read_writes_eq_canon _ _ _ (View.cover_of_tiledL _ S512x1.size (by sl_kernel_rfl))]
      (try sl_unfold_words)
      rw [View.canon_cons_unit_zero hz2_3]
      (try simp only [View.readAt_eq_ld, View.readCov_unit_zero (S := S512x1) _ hz2_3, View.readCov_unit_zero (S := S512x16) _ hz2_3, harg2.read_unread, harg3.read_unread, harg4.read_unread, harg5.read_unread, harg6.read_unread, harg10.read_unread, harg11.read_unread, harg12.read_unread, harg13.read_unread, View.ld_unit_zero (S := S512x1) hz2_3, View.ld_unit_zero (S := S512x1024) hz2_3, View.ld_unit_zero (S := S1024x16) hz2_3, View.ld_unit_zero (S := S2048x16) hz2_3, View.ld_unit_zero (S := S2048x1) hz2_3, View.ld_unit_zero (S := S512x16) hz2_3, View.ld_unit_zero (S := S1x512x1) hz3_3])
      (try rfl)
    isplitl [HS2]
    · iexists _; isplitr; swap; · iexact HS2
      ipureintro
      rw [View.read_writes_eq_canon _ _ _ (View.cover_of_tiledL _ S512x1.size (by sl_kernel_rfl))]
      (try sl_unfold_words)
      rw [View.canon_cons_unit_zero hz2_3]
      (try simp only [View.readAt_eq_ld, View.readCov_unit_zero (S := S512x1) _ hz2_3, View.readCov_unit_zero (S := S512x16) _ hz2_3, harg2.read_unread, harg3.read_unread, harg4.read_unread, harg5.read_unread, harg6.read_unread, harg10.read_unread, harg11.read_unread, harg12.read_unread, harg13.read_unread, View.ld_unit_zero (S := S512x1) hz2_3, View.ld_unit_zero (S := S512x1024) hz2_3, View.ld_unit_zero (S := S1024x16) hz2_3, View.ld_unit_zero (S := S2048x16) hz2_3, View.ld_unit_zero (S := S2048x1) hz2_3, View.ld_unit_zero (S := S512x16) hz2_3, View.ld_unit_zero (S := S1x512x1) hz3_3])
      (try rfl)
    · iexists _; isplitr; swap; · iexact HS3
      ipureintro
      rw [View.read_writes_eq_canon _ _ _ (View.cover_of_tiledL _ S512x1.size (by sl_kernel_rfl))]
      (try sl_unfold_words)
      rw [View.canon_cons_unit_zero hz2_3]
      (try simp only [View.readAt_eq_ld, View.readCov_unit_zero (S := S512x1) _ hz2_3, View.readCov_unit_zero (S := S512x16) _ hz2_3, harg2.read_unread, harg3.read_unread, harg4.read_unread, harg5.read_unread, harg6.read_unread, harg10.read_unread, harg11.read_unread, harg12.read_unread, harg13.read_unread, View.ld_unit_zero (S := S512x1) hz2_3, View.ld_unit_zero (S := S512x1024) hz2_3, View.ld_unit_zero (S := S1024x16) hz2_3, View.ld_unit_zero (S := S2048x16) hz2_3, View.ld_unit_zero (S := S2048x1) hz2_3, View.ld_unit_zero (S := S512x16) hz2_3, View.ld_unit_zero (S := S1x512x1) hz3_3])
      (try rfl)

end Cert.KernelIdeal.Hand

end
-- ==== Proof.Frame3RunC.lean ====
import proofs.«412644_j75642964017948_3_alg».proof.Proof.Frame3Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 8000000 in

theorem run3_C (c : Dev nD) (i : grid3.Coords) (arg2 : Memref sig .tc .vmem S512x1024 .f32) (harg2 : arg2.IsWhole) (arg3 : Memref sig .tc .vmem S1024x16 .f32) (harg3 : arg3.IsWhole) (arg4 : Memref sig .tc .vmem S2048x16 .f32) (harg4 : arg4.IsWhole) (arg5 : Memref sig .tc .vmem S2048x1 .f32) (harg5 : arg5.IsWhole) (arg6 : Memref sig .tc .vmem S512x1 .i32) (harg6 : arg6.IsWhole) (arg7 : Memref sig .tc .vmem S1x512x1 .f32) (harg7 : arg7.IsWhole) (arg8 : Memref sig .tc .vmem S1x512x1 .f32) (harg8 : arg8.IsWhole) (arg9 : Memref sig .tc .vmem S1x512x1 .f32) (harg9 : arg9.IsWhole) (arg10 : Memref sig .tc .vmem S512x16 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (hc0 : ¬cond3_0 i) (hc1 : cond3_1 i)
    (x0 : Vec F S512x1024 .f32) (x1 : Vec F S1024x16 .f32) (x2 : Vec F S2048x16 .f32) (x3 : Vec F S2048x1 .f32) (x4 : Vec F S512x1 .i32) (xs0 : Vec F S512x16 .f32) (xs1 xs2 xs3 : Vec F S512x1 .f32) (E : Set ℕ) (K : PUnit → sProp 𝕄) :
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
            ∗ (∃ d, owns (c : Thread nD τ) arg7 fullShare d) ∗ (∃ d, owns (c : Thread nD τ) arg8 fullShare d) ∗ (∃ d, owns (c : Thread nD τ) arg9 fullShare d)
            ∗ owns (c : Thread nD τ) arg10 fullShare xs0 ∗ owns (c : Thread nD τ) arg11 fullShare xs1 ∗ owns (c : Thread nD τ) arg12 fullShare xs2 ∗ owns (c : Thread nD τ) arg13 fullShare xs3
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
                ∗ owns (c : Thread nD τ) arg7 fullShare (k3_pay5 (k3_pay4 (k3_pay13 i xs0 x2 x3) xs1)) ∗ owns (c : Thread nD τ) arg8 fullShare (k3_pay6 (k3_pay3 (k3_pay13 i xs0 x2 x3) xs1 xs2 xs1)) ∗ owns (c : Thread nD τ) arg9 fullShare (k3_pay7 (k3_pay1 (k3_pay14 i xs0 x2 x3 x4 xs3)))
                ∗ owns (c : Thread nD τ) arg10 fullShare xs0 ∗ owns (c : Thread nD τ) arg11 fullShare (k3_pay4 (k3_pay13 i xs0 x2 x3) xs1) ∗ owns (c : Thread nD τ) arg12 fullShare (k3_pay3 (k3_pay13 i xs0 x2 x3) xs1 xs2 xs1) ∗ owns (c : Thread nD τ) arg13 fullShare (k3_pay1 (k3_pay14 i xs0 x2 x3 x4 xs3))) -∗ K ⟨⟩))
          ⊢ wp frame (wpE (defs₀ (F := F)) Variants.none c none) E (cc3__cluster_kernel i arg2 harg2 arg3 harg3 arg4 harg4 arg5 harg5 arg6 harg6 arg7 harg7 arg8 harg8 arg9 harg9 arg10 harg10 arg11 harg11 arg12 harg12 arg13 harg13) K := by
    simp only [cc3__cluster_kernel_eq_skeleton]; unfold cc3__cluster_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%fs0, %hfs0, HS0⟩, ⟨%fs1, %hfs1, HS1⟩, ⟨%fs2, %hfs2, HS2⟩, ⟨%fs3, %hfs3, HS3⟩, Hk⟩
    obtain rfl := harg2.eq_unread hf0; obtain rfl := harg3.eq_unread hf1; obtain rfl := harg4.eq_unread hf2; obtain rfl := harg5.eq_unread hf3; obtain rfl := harg6.eq_unread hf4
    obtain rfl := harg10.eq_unread hfs0; obtain rfl := harg11.eq_unread hfs1; obtain rfl := harg12.eq_unread hfs2; obtain rfl := harg13.eq_unread hfs3
    sl_exec (disch := first | exact hc0 | exact hc1)
    sl_step
    iapply Hk
    isplitl [H0]; · iexists _; isplitr; · ipureintro; exact harg2.read_unread _
                    iexact H0
    isplitl [H1]; · iexists _; isplitr; · ipureintro; exact harg3.read_unread _
                    iexact H1
    isplitl [H2]; · iexists _; isplitr; · ipureintro; exact harg4.read_unread _
                    iexact H2
    isplitl [H3]; · iexists _; isplitr; · ipureintro; exact harg5.read_unread _
                    iexact H3
    isplitl [H4]; · iexists _; isplitr; · ipureintro; exact harg6.read_unread _
                    iexact H4
    isplitl [H5]
    · iexists _; isplitr; swap; · iexact H5
      ipureintro
      rw [View.read_writes_eq_canon _ _ _ (View.cover_of_tiledL _ S1x512x1.size (by sl_kernel_rfl))]
      (try sl_unfold_words)
      rw [View.canon_cons_unit_zero hz3_3]
      (try simp only [View.readAt_eq_ld, View.readCov_unit_zero (S := S512x1) _ hz2_3, View.readCov_unit_zero (S := S512x16) _ hz2_3, harg2.read_unread, harg3.read_unread, harg4.read_unread, harg5.read_unread, harg6.read_unread, harg10.read_unread, harg11.read_unread, harg12.read_unread, harg13.read_unread, View.ld_unit_zero (S := S512x1) hz2_3, View.ld_unit_zero (S := S512x1024) hz2_3, View.ld_unit_zero (S := S1024x16) hz2_3, View.ld_unit_zero (S := S2048x16) hz2_3, View.ld_unit_zero (S := S2048x1) hz2_3, View.ld_unit_zero (S := S512x16) hz2_3, View.ld_unit_zero (S := S1x512x1) hz3_3])
      (try rfl)
    isplitl [H6]
    · iexists _; isplitr; swap; · iexact H6
      ipureintro
      rw [View.read_writes_eq_canon _ _ _ (View.cover_of_tiledL _ S1x512x1.size (by sl_kernel_rfl))]
      (try sl_unfold_words)
      rw [View.canon_cons_unit_zero hz3_3]
      (try simp only [View.readAt_eq_ld, View.readCov_unit_zero (S := S512x1) _ hz2_3, View.readCov_unit_zero (S := S512x16) _ hz2_3, harg2.read_unread, harg3.read_unread, harg4.read_unread, harg5.read_unread, harg6.read_unread, harg10.read_unread, harg11.read_unread, harg12.read_unread, harg13.read_unread, View.ld_unit_zero (S := S512x1) hz2_3, View.ld_unit_zero (S := S512x1024) hz2_3, View.ld_unit_zero (S := S1024x16) hz2_3, View.ld_unit_zero (S := S2048x16) hz2_3, View.ld_unit_zero (S := S2048x1) hz2_3, View.ld_unit_zero (S := S512x16) hz2_3, View.ld_unit_zero (S := S1x512x1) hz3_3])
      (try rfl)
    isplitl [H7]
    · iexists _; isplitr; swap; · iexact H7
      ipureintro
      rw [View.read_writes_eq_canon _ _ _ (View.cover_of_tiledL _ S1x512x1.size (by sl_kernel_rfl))]
      (try sl_unfold_words)
      rw [View.canon_cons_unit_zero hz3_3]
      (try simp only [View.readAt_eq_ld, View.readCov_unit_zero (S := S512x1) _ hz2_3, View.readCov_unit_zero (S := S512x16) _ hz2_3, harg2.read_unread, harg3.read_unread, harg4.read_unread, harg5.read_unread, harg6.read_unread, harg10.read_unread, harg11.read_unread, harg12.read_unread, harg13.read_unread, View.ld_unit_zero (S := S512x1) hz2_3, View.ld_unit_zero (S := S512x1024) hz2_3, View.ld_unit_zero (S := S1024x16) hz2_3, View.ld_unit_zero (S := S2048x16) hz2_3, View.ld_unit_zero (S := S2048x1) hz2_3, View.ld_unit_zero (S := S512x16) hz2_3, View.ld_unit_zero (S := S1x512x1) hz3_3])
      (try rfl)
    isplitl [HS0]; · iexists _; isplitr; · ipureintro; exact harg10.read_unread _
                     iexact HS0
    isplitl [HS1]
    · iexists _; isplitr; swap; · iexact HS1
      ipureintro
      rw [View.read_writes_eq_canon _ _ _ (View.cover_of_tiledL _ S512x1.size (by sl_kernel_rfl))]
      (try sl_unfold_words)
      rw [View.canon_cons_unit_zero hz2_3]
      (try simp only [View.readAt_eq_ld, View.readCov_unit_zero (S := S512x1) _ hz2_3, View.readCov_unit_zero (S := S512x16) _ hz2_3, harg2.read_unread, harg3.read_unread, harg4.read_unread, harg5.read_unread, harg6.read_unread, harg10.read_unread, harg11.read_unread, harg12.read_unread, harg13.read_unread, View.ld_unit_zero (S := S512x1) hz2_3, View.ld_unit_zero (S := S512x1024) hz2_3, View.ld_unit_zero (S := S1024x16) hz2_3, View.ld_unit_zero (S := S2048x16) hz2_3, View.ld_unit_zero (S := S2048x1) hz2_3, View.ld_unit_zero (S := S512x16) hz2_3, View.ld_unit_zero (S := S1x512x1) hz3_3])
      (try rfl)
    isplitl [HS2]
    · iexists _; isplitr; swap; · iexact HS2
      ipureintro
      rw [View.read_writes_eq_canon _ _ _ (View.cover_of_tiledL _ S512x1.size (by sl_kernel_rfl))]
      (try sl_unfold_words)
      rw [View.canon_cons_unit_zero hz2_3]
      (try simp only [View.readAt_eq_ld, View.readCov_unit_zero (S := S512x1) _ hz2_3, View.readCov_unit_zero (S := S512x16) _ hz2_3, harg2.read_unread, harg3.read_unread, harg4.read_unread, harg5.read_unread, harg6.read_unread, harg10.read_unread, harg11.read_unread, harg12.read_unread, harg13.read_unread, View.ld_unit_zero (S := S512x1) hz2_3, View.ld_unit_zero (S := S512x1024) hz2_3, View.ld_unit_zero (S := S1024x16) hz2_3, View.ld_unit_zero (S := S2048x16) hz2_3, View.ld_unit_zero (S := S2048x1) hz2_3, View.ld_unit_zero (S := S512x16) hz2_3, View.ld_unit_zero (S := S1x512x1) hz3_3])
      (try rfl)
    · iexists _; isplitr; swap; · iexact HS3
      ipureintro
      rw [View.read_writes_eq_canon _ _ _ (View.cover_of_tiledL _ S512x1.size (by sl_kernel_rfl))]
      (try sl_unfold_words)
      rw [View.canon_cons_unit_zero hz2_3]
      (try simp only [View.readAt_eq_ld, View.readCov_unit_zero (S := S512x1) _ hz2_3, View.readCov_unit_zero (S := S512x16) _ hz2_3, harg2.read_unread, harg3.read_unread, harg4.read_unread, harg5.read_unread, harg6.read_unread, harg10.read_unread, harg11.read_unread, harg12.read_unread, harg13.read_unread, View.ld_unit_zero (S := S512x1) hz2_3, View.ld_unit_zero (S := S512x1024) hz2_3, View.ld_unit_zero (S := S1024x16) hz2_3, View.ld_unit_zero (S := S2048x16) hz2_3, View.ld_unit_zero (S := S2048x1) hz2_3, View.ld_unit_zero (S := S512x16) hz2_3, View.ld_unit_zero (S := S1x512x1) hz3_3])
      (try rfl)

end Cert.KernelIdeal.Hand

end
-- ==== Proof.Frame3Dat.lean ====
import proofs.«412644_j75642964017948_3_alg».proof.Proof.Frame3RunA
import proofs.«412644_j75642964017948_3_alg».proof.Proof.Frame3RunB
import proofs.«412644_j75642964017948_3_alg».proof.Proof.Frame3RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

section

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev St3 (F : FTy → Type) : Type := Vec F S512x16 .f32 × Vec F S512x1 .f32 × Vec F S512x1 .f32 × Vec F S512x1 .f32

def reset3 (x0 : Vec F S512x1024 .f32) (x1 : Vec F S1024x16 .f32) : St3 F := ((k3_pay8 x0 x1), (k3_pay9 (F := F)), (k3_pay10 (F := F)), (k3_pay11 (F := F)))

def upd3 (i : grid3.Coords) (x2 : Vec F S2048x16 .f32) (x3 : Vec F S2048x1 .f32) (x4 : Vec F S512x1 .i32) (s : St3 F) : St3 F :=
  (s.1, (k3_pay4 (k3_pay13 i s.1 x2 x3) s.2.1), (k3_pay3 (k3_pay13 i s.1 x2 x3) s.2.1 s.2.2.1 s.2.1), (k3_pay1 (k3_pay14 i s.1 x2 x3 x4 s.2.2.2)))

def stAt3 (c : Dev nD) : (n : ℕ) → n < cfg3.N → St3 F
  | 0, hn => upd3 (grid3.coords ⟨0, hn⟩) (iblk3 V c 2 ⟨0, hn⟩) (iblk3 V c 3 ⟨0, hn⟩) (iblk3 V c 4 ⟨0, hn⟩) (reset3 (iblk3 V c 0 ⟨0, hn⟩) (iblk3 V c 1 ⟨0, hn⟩))
  | n + 1, hn => upd3 (grid3.coords ⟨n + 1, hn⟩) (iblk3 V c 2 ⟨n + 1, hn⟩) (iblk3 V c 3 ⟨n + 1, hn⟩) (iblk3 V c 4 ⟨n + 1, hn⟩)
      (if (n + 1) % 17 = 0 then reset3 (iblk3 V c 0 ⟨n + 1, hn⟩) (iblk3 V c 1 ⟨n + 1, hn⟩) else stAt3 c n (Nat.lt_of_succ_lt hn))

theorem stAt3_first (c : Dev nD) (t : Fin cfg3.N) (h : t.val % 17 = 0) :
    stAt3 V c t.val t.isLt = upd3 (grid3.coords t) (iblk3 V c 2 t) (iblk3 V c 3 t) (iblk3 V c 4 t) (reset3 (iblk3 V c 0 t) (iblk3 V c 1 t)) := by
  obtain ⟨n, hn⟩ := t
  cases n with
  | zero => rfl
  | succ n => show upd3 _ _ _ _ (if (n + 1) % 17 = 0 then _ else _) = _; rw [if_pos h]

theorem stAt3_next (c : Dev nD) (t : Fin cfg3.N) (h : ¬t.val % 17 = 0) :
    stAt3 V c t.val t.isLt = upd3 (grid3.coords t) (iblk3 V c 2 t) (iblk3 V c 3 t) (iblk3 V c 4 t) (stAt3 V c (t.val - 1) (Nat.lt_of_le_of_lt (Nat.sub_le _ _) t.isLt)) := by
  obtain ⟨n, hn⟩ := t
  cases n with
  | zero => exact absurd (Nat.zero_mod _) h
  | succ n => show upd3 _ _ _ _ (if (n + 1) % 17 = 0 then _ else _) = _; rw [if_neg h]; rfl

def PhiS3 (c : Dev nD) : (n : ℕ) → n ≤ cfg3.N → sProp 𝕄
  | 0, _ => Pipeline.ΦA spec3 c
  | n + 1, hn => iprop(iprop(iprop(owns (c : Thread nD τ) scM3_0 fullShare (stAt3 V c n hn).1 ∗ owns (c : Thread nD τ) scM3_1 fullShare (stAt3 V c n hn).2.1 ∗ owns (c : Thread nD τ) scM3_2 fullShare (stAt3 V c n hn).2.2.1 ∗ owns (c : Thread nD τ) scM3_3 fullShare (stAt3 V c n hn).2.2.2) ∗ Pipeline.scopedRestBut (Ix := Unit) (Name := ℕ) (U := UR sig nD τ) (Lvl := ℕ) (Val := Elt F) spec3 c [cc3_scratch0, cc3_scratch1, cc3_scratch2, cc3_scratch3]) ∗ (∃ r, prngReg c r))

theorem PhiS3_succ (c : Dev nD) (n : ℕ) (hn : n < cfg3.N) :
    PhiS3 V c (n + 1) hn = iprop(iprop(iprop(owns (c : Thread nD τ) scM3_0 fullShare (stAt3 V c n hn).1 ∗ owns (c : Thread nD τ) scM3_1 fullShare (stAt3 V c n hn).2.1 ∗ owns (c : Thread nD τ) scM3_2 fullShare (stAt3 V c n hn).2.2.1 ∗ owns (c : Thread nD τ) scM3_3 fullShare (stAt3 V c n hn).2.2.2) ∗ Pipeline.scopedRestBut (Ix := Unit) (Name := ℕ) (U := UR sig nD τ) (Lvl := ℕ) (Val := Elt F) spec3 c [cc3_scratch0, cc3_scratch1, cc3_scratch2, cc3_scratch3]) ∗ (∃ r, prngReg c r)) := rfl

theorem PhiS3_pos (c : Dev nD) (n : ℕ) (h : n ≤ cfg3.N) (hz : n ≠ 0) :
    PhiS3 V c n h = iprop(iprop(iprop(owns (c : Thread nD τ) scM3_0 fullShare (stAt3 V c (n - 1) (by omega)).1 ∗ owns (c : Thread nD τ) scM3_1 fullShare (stAt3 V c (n - 1) (by omega)).2.1 ∗ owns (c : Thread nD τ) scM3_2 fullShare (stAt3 V c (n - 1) (by omega)).2.2.1 ∗ owns (c : Thread nD τ) scM3_3 fullShare (stAt3 V c (n - 1) (by omega)).2.2.2) ∗ Pipeline.scopedRestBut (Ix := Unit) (Name := ℕ) (U := UR sig nD τ) (Lvl := ℕ) (Val := Elt F) spec3 c [cc3_scratch0, cc3_scratch1, cc3_scratch2, cc3_scratch3]) ∗ (∃ r, prngReg c r)) := by
  cases n with
  | zero => exact absurd rfl hz
  | succ n => rfl

theorem PhiS3_any (c : Dev nD) (n : ℕ) (h : n ≤ cfg3.N) :
    PhiS3 V c n h ⊢ iprop(iprop(iprop((∃ d, owns (c : Thread nD τ) scM3_0 fullShare d) ∗ (∃ d, owns (c : Thread nD τ) scM3_1 fullShare d) ∗ (∃ d, owns (c : Thread nD τ) scM3_2 fullShare d) ∗ (∃ d, owns (c : Thread nD τ) scM3_3 fullShare d)) ∗ Pipeline.scopedRestBut (Ix := Unit) (Name := ℕ) (U := UR sig nD τ) (Lvl := ℕ) (Val := Elt F) spec3 c [cc3_scratch0, cc3_scratch1, cc3_scratch2, cc3_scratch3]) ∗ (∃ r, prngReg c r)) := by
  cases n with
  | zero => rw [show PhiS3 V c 0 h = Pipeline.ΦA spec3 c from rfl, PhiA3_eq]
  | succ n =>
    rw [PhiS3_succ]
    iintro ⟨⟨⟨HS0, HS1, HS2, HS3⟩, Hrest⟩, Hg⟩
    isplitl [HS0 HS1 HS2 HS3 Hrest]
    · isplitl [HS0 HS1 HS2 HS3]
      · isplitl [HS0]; · iexists _; iexact HS0
        isplitl [HS1]; · iexists _; iexact HS1
        isplitl [HS2]; · iexists _; iexact HS2
        iexists _; iexact HS3
      iexact Hrest
    iexact Hg

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => (k3_pay5 (stAt3 V c t.val t.isLt).2.1)
    | ⟨6, _⟩ => (k3_pay6 (stAt3 V c t.val t.isLt).2.2.1)
    | ⟨7, _⟩ => (k3_pay7 (stAt3 V c t.val t.isLt).2.2.2)
  Φ t := PhiS3 V c t.val (Nat.le_of_lt_succ t.isLt)
  q _ := fullShare
  owed _ := 0

theorem A_eq3 (c : Dev nD) (w : Fin cfg3.W) : (dat3 V c).A w = V c (Pipeline.arrRef spec3 w) := by
  dsimp only [dat3]

theorem PhiS3_castSucc (c : Dev nD) (t : Fin cfg3.N) :
    (dat3 V c).Φ t.castSucc = PhiS3 V c t.val (Nat.le_of_lt t.isLt) := by
  dsimp only [dat3]; simp only [Fin.coe_castSucc]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = (k3_pay5 (stAt3 V c t.val t.isLt).2.1) := by dsimp only [dat3]
theorem after3_6 (c : Dev nD) (t : Fin cfg3.N) : (dat3 V c).after 6 t = (k3_pay6 (stAt3 V c t.val t.isLt).2.2.1) := by dsimp only [dat3]
theorem after3_7 (c : Dev nD) (t : Fin cfg3.N) : (dat3 V c).after 7 t = (k3_pay7 (stAt3 V c t.val t.isLt).2.2.2) := by dsimp only [dat3]

theorem before3_0 (c : Dev nD) (t : Fin cfg3.N) (d) : (dat3 V c).before 0 t d = iblk3 V c 0 t :=
  ((dat3 V c).before_in_eq_fetched 0 rfl (fun _ => rfl) (fun _ _ _ => rfl) (fun _ => rfl) t d).trans rfl
theorem before3_1 (c : Dev nD) (t : Fin cfg3.N) (d) : (dat3 V c).before 1 t d = iblk3 V c 1 t :=
  ((dat3 V c).before_in_eq_fetched 1 rfl (fun _ => rfl) (fun _ _ _ => rfl) (fun _ => rfl) t d).trans rfl
theorem before3_2 (c : Dev nD) (t : Fin cfg3.N) (d) : (dat3 V c).before 2 t d = iblk3 V c 2 t :=
  ((dat3 V c).before_in_eq_fetched 2 rfl (fun _ => rfl) (fun _ _ _ => rfl) (fun _ => rfl) t d).trans rfl
theorem before3_3 (c : Dev nD) (t : Fin cfg3.N) (d) : (dat3 V c).before 3 t d = iblk3 V c 3 t :=
  ((dat3 V c).before_in_eq_fetched 3 rfl (fun _ => rfl) (fun _ _ _ => rfl) (fun _ => rfl) t d).trans rfl
theorem before3_4 (c : Dev nD) (t : Fin cfg3.N) (d) : (dat3 V c).before 4 t d = iblk3 V c 4 t :=
  ((dat3 V c).before_in_eq_fetched 4 rfl (fun _ => rfl) (fun _ _ _ => rfl) (fun _ => rfl) t d).trans rfl

def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d))
    ∗ (∃ d, owns (c : Thread nD τ) (ms3_4 t) fullShare ((dat3 V c).before 4 t d))
    ∗ (∃ d, owns (c : Thread nD τ) (ms3_5 t) fullShare ((dat3 V c).before 5 t d))
    ∗ (∃ d, owns (c : Thread nD τ) (ms3_6 t) fullShare ((dat3 V c).before 6 t d))
    ∗ (∃ d, owns (c : Thread nD τ) (ms3_7 t) fullShare ((dat3 V c).before 7 t d)))

def bodyPost3 (c : Dev nD) (t : Fin cfg3.N) : sProp 𝕄 :=
  iprop((dat3 V c).Φ t.succ ∗ (dat3 V c).owesAt () t.succ
    ∗ (dat3 V c).leavesExact 0 t ∗ (dat3 V c).leavesExact 1 t ∗ (dat3 V c).leavesExact 2 t ∗ (dat3 V c).leavesExact 3 t ∗ (dat3 V c).leavesExact 4 t ∗ (dat3 V c).leavesExact 5 t ∗ (dat3 V c).leavesExact 6 t ∗ (dat3 V c).leavesExact 7 t)

set_option maxHeartbeats 8000000 in

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4]
  rw [show (dat3 V c).owesAt () t.succ = (dat3 V c).owesAt () t.castSucc from rfl]
  rw [show (dat3 V c).Φ t.succ = PhiS3 V c (t.val + 1) t.isLt from rfl, PhiS3_succ]
  have hN : t.val < 34 := lt_of_lt_of_eq t.isLt (show cfg3.N = 34 from N_3)
  rw [show (dat3 V c).leavesExact 0 t = owns (c : Thread nD τ) (ms3_0 t) fullShare ((dat3 V c).after 0 t) from by
    unfold Dat.leavesExact; rw [liveAt3_0 t], after3_0]
  rw [show (dat3 V c).leavesExact 1 t = owns (c : Thread nD τ) (ms3_1 t) fullShare ((dat3 V c).after 1 t) from by
    unfold Dat.leavesExact; rw [liveAt3_1 t], after3_1]
  rw [show (dat3 V c).leavesExact 2 t = owns (c : Thread nD τ) (ms3_2 t) fullShare ((dat3 V c).after 2 t) from by
    unfold Dat.leavesExact; rw [liveAt3_2 t], after3_2]
  rw [show (dat3 V c).leavesExact 3 t = owns (c : Thread nD τ) (ms3_3 t) fullShare ((dat3 V c).after 3 t) from by
    unfold Dat.leavesExact; rw [liveAt3_3 t], after3_3]
  rw [show (dat3 V c).leavesExact 4 t = owns (c : Thread nD τ) (ms3_4 t) fullShare ((dat3 V c).after 4 t) from by
    unfold Dat.leavesExact; rw [liveAt3_4 t], after3_4]
  simp only [after3_0, after3_1, after3_2, after3_3, after3_4]
  by_cases h0 : t.val % 17 = 0
  · have hc0 : cond3_0 (grid3.coords t) := (hcond3_0 t).mpr h0
    have hc1 : ¬cond3_1 (grid3.coords t) := fun h => by have := (hcond3_1 t).mp h; omega
    rw [Dat.leavesExact_idle (dat3 V c) 5 t (idleAt3_5 t hc1) (noFlush3_5 t hc1), Dat.leavesExact_idle (dat3 V c) 6 t (idleAt3_6 t hc1) (noFlush3_6 t hc1), Dat.leavesExact_idle (dat3 V c) 7 t (idleAt3_7 t hc1) (noFlush3_7 t hc1)]
    rw [stAt3_first V c t h0]; dsimp only [upd3, reset3]
    rw [PhiS3_castSucc V c t]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    ihave HΦ' := (PhiS3_any V c t.val (Nat.le_of_lt t.isLt)) $$ HΦ
    icases HΦ' with ⟨⟨⟨HS0, HS1, HS2, HS3⟩, Hrest⟩, Hg⟩
    iapply (run3_A c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) scM3_0 (Memref.isWhole_whole _) scM3_1 (Memref.isWhole_whole _) scM3_2 (Memref.isWhole_whole _) scM3_3 (Memref.isWhole_whole _) hc0 hc1 (iblk3 V c 0 t) (iblk3 V c 1 t) (iblk3 V c 2 t) (iblk3 V c 3 t) (iblk3 V c 4 t) ((dat3 V c).before 5 t d5) ((dat3 V c).before 6 t d6) ((dat3 V c).before 7 t d7) Set.univ _)
    iframe
    iintro ⟨H0, H1, H2, H3, H4, H5, H6, H7, HS0, HS1, HS2, HS3⟩
    iframe
    isplitl [H5]; · iexists _; iexact H5
    isplitl [H6]; · iexists _; iexact H6
    iexists _; iexact H7
  · have hc0 : ¬cond3_0 (grid3.coords t) := fun h => h0 ((hcond3_0 t).mp h)
    have hz : t.val ≠ 0 := fun h => h0 (by rw [h])
    rw [stAt3_next V c t h0]; dsimp only [upd3]
    rw [PhiS3_castSucc V c t, PhiS3_pos V c _ _ hz]
    by_cases h1 : t.val % 17 = 16
    · have hc1 : cond3_1 (grid3.coords t) := (hcond3_1 t).mpr h1
      rw [show (dat3 V c).leavesExact 5 t = owns (c : Thread nD τ) (ms3_5 t) fullShare ((dat3 V c).after 5 t) from by
        unfold Dat.leavesExact; rw [liveAt3_5 t hc1], after3_5]
      rw [show (dat3 V c).leavesExact 6 t = owns (c : Thread nD τ) (ms3_6 t) fullShare ((dat3 V c).after 6 t) from by
        unfold Dat.leavesExact; rw [liveAt3_6 t hc1], after3_6]
      rw [show (dat3 V c).leavesExact 7 t = owns (c : Thread nD τ) (ms3_7 t) fullShare ((dat3 V c).after 7 t) from by
        unfold Dat.leavesExact; rw [liveAt3_7 t hc1], after3_7]
      rw [stAt3_next V c t h0]; dsimp only [upd3]
      iintro ⟨⟨⟨⟨HS0, HS1, HS2, HS3⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (run3_C c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) scM3_0 (Memref.isWhole_whole _) scM3_1 (Memref.isWhole_whole _) scM3_2 (Memref.isWhole_whole _) scM3_3 (Memref.isWhole_whole _) hc0 hc1 (iblk3 V c 0 t) (iblk3 V c 1 t) (iblk3 V c 2 t) (iblk3 V c 3 t) (iblk3 V c 4 t) _ _ _ _ Set.univ _)
      iframe
      isplitl [H5]; · iexists _; iexact H5
      isplitl [H6]; · iexists _; iexact H6
      isplitl [H7]; · iexists _; iexact H7
      iintro ⟨H0, H1, H2, H3, H4, H5, H6, H7, HS0, HS1, HS2, HS3⟩
      iframe
    · have hc1 : ¬cond3_1 (grid3.coords t) := fun h => h1 ((hcond3_1 t).mp h)
      rw [Dat.leavesExact_idle (dat3 V c) 5 t (idleAt3_5 t hc1) (noFlush3_5 t hc1), Dat.leavesExact_idle (dat3 V c) 6 t (idleAt3_6 t hc1) (noFlush3_6 t hc1), Dat.leavesExact_idle (dat3 V c) 7 t (idleAt3_7 t hc1) (noFlush3_7 t hc1)]
      iintro ⟨⟨⟨⟨HS0, HS1, HS2, HS3⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (run3_B c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) scM3_0 (Memref.isWhole_whole _) scM3_1 (Memref.isWhole_whole _) scM3_2 (Memref.isWhole_whole _) scM3_3 (Memref.isWhole_whole _) hc0 hc1 (iblk3 V c 0 t) (iblk3 V c 1 t) (iblk3 V c 2 t) (iblk3 V c 3 t) (iblk3 V c 4 t) ((dat3 V c).before 5 t d5) ((dat3 V c).before 6 t d6) ((dat3 V c).before 7 t d7) _ _ _ _ Set.univ _)
      iframe
      iintro ⟨H0, H1, H2, H3, H4, H5, H6, H7, HS0, HS1, HS2, HS3⟩
      iframe
      isplitl [H5]; · iexists _; iexact H5
      isplitl [H6]; · iexists _; iexact H6
      iexists _; iexact H7

theorem body_obligation3 (c : Dev nD) : BodyObligation (dat3 (F := F) V c) (defs₀ (F := F)) Variants.none () Set.univ := fun t => by
  rw [bigSep_W3, bigSep_W3]
  exact sound_body3 V c t

theorem hout3 (c : Dev nD) : (dat3 V c).Φ (Fin.last cfg3.N) ⊢ Pipeline.ΦA spec3 c := by
  rw [show (dat3 V c).Φ (Fin.last cfg3.N) = PhiS3 V c (Fin.last cfg3.N).val (Nat.le_of_lt_succ (Fin.last cfg3.N).isLt) from rfl, PhiA3_eq]
  exact PhiS3_any V c _ _

end

end Cert.KernelIdeal.Hand

end
-- ==== Proof.FrameRegions.lean ====
import proofs.«412644_j75642964017948_3_alg».proof.Proof.Frame0Dat
import proofs.«412644_j75642964017948_3_alg».proof.Proof.Frame1Dat
import proofs.«412644_j75642964017948_3_alg».proof.Proof.Frame2Dat
import proofs.«412644_j75642964017948_3_alg».proof.Proof.Frame3Dat
import proofs.«412644_j75642964017948_3_alg».proof.Proof.Gen.KernelIdeal.Regions
import Idealize.ShloMosaic.Lib.Pipeline.Regions
import Idealize.ShloMosaic.Lib.Pipeline.RegionsLoop

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (outs : Outs (F := F))

abbrev En0 : (c : Dev nD) → (b : Ref sig .tc) → Buf (Elt F) ((c : Thread nD τ).loc b) := fun c b => V13 m c b
abbrev Ex0 : (c : Dev nD) → (b : Ref sig .tc) → Buf (Elt F) ((c : Thread nD τ).loc b) := fun c b => V14 m outs c b
abbrev En1 : (c : Dev nD) → (b : Ref sig .tc) → Buf (Elt F) ((c : Thread nD τ).loc b) := fun c b => V15 m outs c b
abbrev Ex1 : (c : Dev nD) → (b : Ref sig .tc) → Buf (Elt F) ((c : Thread nD τ).loc b) := fun c b => V16 m outs c b
abbrev En2 : (c : Dev nD) → (b : Ref sig .tc) → Buf (Elt F) ((c : Thread nD τ).loc b) := fun c b => V17 m outs c b
abbrev Ex2 : (c : Dev nD) → (b : Ref sig .tc) → Buf (Elt F) ((c : Thread nD τ).loc b) := fun c b => V18 m outs c b
abbrev En3 : (c : Dev nD) → (b : Ref sig .tc) → Buf (Elt F) ((c : Thread nD τ).loc b) := fun c b => V19 m outs c b
abbrev Ex3 : (c : Dev nD) → (b : Ref sig .tc) → Buf (Elt F) ((c : Thread nD τ).loc b) := fun c b => V20 m outs c b

def pdats : (p : Fin 4) → (c : Dev nD) → Dat τ (Elt F) Unit ℕ (UR sig nD τ) ℕ (Pipeline.pin (pcfgs (F := F)) adm p) c
  | ⟨0, _⟩ => fun c => dat0 (En0 m) c
  | ⟨1, _⟩ => fun c => dat1 (En1 m outs) c
  | ⟨2, _⟩ => fun c => dat2 (En2 m outs) c
  | ⟨3, _⟩ => fun c => dat3 (En3 m outs) c

structure OutsOk : Prop where
  h0 : ∀ c w, (pdats m outs 0 c).arrAt w cfg0.N = Ex0 m outs c (Pipeline.arrRef spec0 w)
  h1 : ∀ c w, (pdats m outs 1 c).arrAt w cfg1.N = Ex1 m outs c (Pipeline.arrRef spec1 w)
  h2 : ∀ c w, (pdats m outs 2 c).arrAt w cfg2.N = Ex2 m outs c (Pipeline.arrRef spec2 w)
  h3 : ∀ c w, (pdats m outs 3 c).arrAt w cfg3.N = Ex3 m outs c (Pipeline.arrRef spec3 w)

abbrev 𝒱₀ : Variants := Variants.none
abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)

theorem hrest0 (c : Dev nD) : ∀ b, b ∉ Finset.univ.image (Pipeline.arrRef spec0) → Ex0 m outs c b = En0 m c b :=
  fun b hb => V14_of m outs c b fun hmem => hb (by
    simp only [List.mem_cons, List.mem_nil_iff, or_false] at hmem
    rcases hmem with rfl | rfl | rfl
    · exact Finset.mem_image.mpr ⟨5, Finset.mem_univ _, rfl⟩
    · exact Finset.mem_image.mpr ⟨6, Finset.mem_univ _, rfl⟩
    · exact Finset.mem_image.mpr ⟨7, Finset.mem_univ _, rfl⟩)

set_option backward.isDefEq.respectTransparency.types false in

def reg0 (hO : OutsOk m outs) : Pipeline.RegionSeg (pcfgs (F := F)) adm (pdats m outs) () defs₀ 𝒱₀ L lv 0  where
  win := launch0.win.to₀
  block_pos := launch0.block_pos
  stage_whole := launch0.stage_whole
  K := PEmpty
  osem k := k.elim
  ho := Pipeline.OwnSemFacts.none _
  hbody c := (body_obligation0 (En0 m) c).loose
  hwaits := Pipeline.hwaits_of_owed_zero _ _ _ _ L lv 0 fun _ _ => rfl
  pre c := iprop(StableHlo.held (c : Thread nD τ) (Pipeline.ucRefs τ sig) (V13 m c) ∗ R c)
  post c := iprop(StableHlo.held (c : Thread nD τ) (Pipeline.ucRefs τ sig) (V14 m outs c) ∗ R c)
  X c := iprop(∃ r, prngReg c r)
  Y c := iprop(∃ r, prngReg c r)
  Z c := Pipeline.unscopedRest (Ix := Unit) (Name := ℕ) (U := UR sig nD τ) (Lvl := ℕ) spec0 c (En0 m c)
  hentry c := by
    rw [Pipeline.ownSems0_none]
    have hsplit := Pipeline.arrays_of_unscopedBufs (p := 0) (pcfgs (F := F)) adm (pdats m outs) launch0.win launch0.arr_whole c
      ((pdats m outs 0 c).share_full fun _ => rfl) (En0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m outs 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (hout0 (En0 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m outs) ((pdats m outs 0 c).share_full fun _ => rfl)
      (En0 m c) (Ex0 m outs c) ((pdats m outs 0 c).arrAt · cfg0.N) (hO.h0 c) (hrest0 m outs c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

theorem hrest1 (c : Dev nD) : ∀ b, b ∉ Finset.univ.image (Pipeline.arrRef spec1) → Ex1 m outs c b = En1 m outs c b :=
  fun b hb => V16_of m outs c b fun hmem => hb (by
    simp only [List.mem_cons, List.mem_nil_iff, or_false] at hmem
    rcases hmem with rfl | rfl | rfl
    · exact Finset.mem_image.mpr ⟨5, Finset.mem_univ _, rfl⟩
    · exact Finset.mem_image.mpr ⟨6, Finset.mem_univ _, rfl⟩
    · exact Finset.mem_image.mpr ⟨7, Finset.mem_univ _, rfl⟩)

set_option backward.isDefEq.respectTransparency.types false in

def reg1 (hO : OutsOk m outs) : Pipeline.RegionSeg (pcfgs (F := F)) adm (pdats m outs) () defs₀ 𝒱₀ L lv 1  where
  win := launch1.win.to₀
  block_pos := launch1.block_pos
  stage_whole := launch1.stage_whole
  K := PEmpty
  osem k := k.elim
  ho := Pipeline.OwnSemFacts.none _
  hbody c := (body_obligation1 (En1 m outs) c).loose
  hwaits := Pipeline.hwaits_of_owed_zero _ _ _ _ L lv 1 fun _ _ => rfl
  pre c := iprop(StableHlo.held (c : Thread nD τ) (Pipeline.ucRefs τ sig) (V15 m outs c) ∗ R c)
  post c := iprop(StableHlo.held (c : Thread nD τ) (Pipeline.ucRefs τ sig) (V16 m outs c) ∗ R c)
  X c := iprop(∃ r, prngReg c r)
  Y c := iprop(∃ r, prngReg c r)
  Z c := Pipeline.unscopedRest (Ix := Unit) (Name := ℕ) (U := UR sig nD τ) (Lvl := ℕ) spec1 c (En1 m outs c)
  hentry c := by
    rw [Pipeline.ownSems0_none]
    have hsplit := Pipeline.arrays_of_unscopedBufs (p := 1) (pcfgs (F := F)) adm (pdats m outs) launch1.win launch1.arr_whole c
      ((pdats m outs 1 c).share_full fun _ => rfl) (En1 m outs c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m outs 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (hout1 (En1 m outs) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m outs) ((pdats m outs 1 c).share_full fun _ => rfl)
      (En1 m outs c) (Ex1 m outs c) ((pdats m outs 1 c).arrAt · cfg1.N) (hO.h1 c) (hrest1 m outs c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

theorem hrest2 (c : Dev nD) : ∀ b, b ∉ Finset.univ.image (Pipeline.arrRef spec2) → Ex2 m outs c b = En2 m outs c b :=
  fun b hb => V18_of m outs c b fun hmem => hb (by
    simp only [List.mem_cons, List.mem_nil_iff, or_false] at hmem
    rcases hmem with rfl | rfl | rfl
    · exact Finset.mem_image.mpr ⟨5, Finset.mem_univ _, rfl⟩
    · exact Finset.mem_image.mpr ⟨6, Finset.mem_univ _, rfl⟩
    · exact Finset.mem_image.mpr ⟨7, Finset.mem_univ _, rfl⟩)

set_option backward.isDefEq.respectTransparency.types false in

def reg2 (hO : OutsOk m outs) : Pipeline.RegionSeg (pcfgs (F := F)) adm (pdats m outs) () defs₀ 𝒱₀ L lv 2  where
  win := launch2.win.to₀
  block_pos := launch2.block_pos
  stage_whole := launch2.stage_whole
  K := PEmpty
  osem k := k.elim
  ho := Pipeline.OwnSemFacts.none _
  hbody c := (body_obligation2 (En2 m outs) c).loose
  hwaits := Pipeline.hwaits_of_owed_zero _ _ _ _ L lv 2 fun _ _ => rfl
  pre c := iprop(StableHlo.held (c : Thread nD τ) (Pipeline.ucRefs τ sig) (V17 m outs c) ∗ R c)
  post c := iprop(StableHlo.held (c : Thread nD τ) (Pipeline.ucRefs τ sig) (V18 m outs c) ∗ R c)
  X c := iprop(∃ r, prngReg c r)
  Y c := iprop(∃ r, prngReg c r)
  Z c := Pipeline.unscopedRest (Ix := Unit) (Name := ℕ) (U := UR sig nD τ) (Lvl := ℕ) spec2 c (En2 m outs c)
  hentry c := by
    rw [Pipeline.ownSems0_none]
    have hsplit := Pipeline.arrays_of_unscopedBufs (p := 2) (pcfgs (F := F)) adm (pdats m outs) launch2.win launch2.arr_whole c
      ((pdats m outs 2 c).share_full fun _ => rfl) (En2 m outs c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m outs 2 c).Φ 0 = Pipeline.ΦA spec2 c from rfl]; unfold Pipeline.ΦA
    iintro ⟨Hp, -, Hr⟩
    isplitl [Hr]; · iexact Hr
    iexact Hp
  hout c := by
    rw [Pipeline.ownSems0_none]
    refine (hout2 (En2 m outs) c).trans ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m outs) ((pdats m outs 2 c).share_full fun _ => rfl)
      (En2 m outs c) (Ex2 m outs c) ((pdats m outs 2 c).arrAt · cfg2.N) (hO.h2 c) (hrest2 m outs c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

theorem hrest3 (c : Dev nD) : ∀ b, b ∉ Finset.univ.image (Pipeline.arrRef spec3) → Ex3 m outs c b = En3 m outs c b :=
  fun b hb => V20_of m outs c b fun hmem => hb (by
    simp only [List.mem_cons, List.mem_nil_iff, or_false] at hmem
    rcases hmem with rfl | rfl | rfl
    · exact Finset.mem_image.mpr ⟨5, Finset.mem_univ _, rfl⟩
    · exact Finset.mem_image.mpr ⟨6, Finset.mem_univ _, rfl⟩
    · exact Finset.mem_image.mpr ⟨7, Finset.mem_univ _, rfl⟩)

set_option backward.isDefEq.respectTransparency.types false in

def reg3 (hO : OutsOk m outs) : Pipeline.RegionSeg (pcfgs (F := F)) adm (pdats m outs) () defs₀ 𝒱₀ L lv 3  where
  win := launch3.win.to₀
  block_pos := launch3.block_pos
  stage_whole := launch3.stage_whole
  K := PEmpty
  osem k := k.elim
  ho := Pipeline.OwnSemFacts.none _
  hbody c := (body_obligation3 (En3 m outs) c).loose
  hwaits := Pipeline.hwaits_of_owed_zero _ _ _ _ L lv 3 fun _ _ => rfl
  pre c := iprop(StableHlo.held (c : Thread nD τ) (Pipeline.ucRefs τ sig) (V19 m outs c) ∗ R c)
  post c := iprop(StableHlo.held (c : Thread nD τ) (Pipeline.ucRefs τ sig) (V20 m outs c) ∗ R c)
  X c := iprop(∃ r, prngReg c r)
  Y c := iprop(∃ r, prngReg c r)
  Z c := Pipeline.unscopedRest (Ix := Unit) (Name := ℕ) (U := UR sig nD τ) (Lvl := ℕ) spec3 c (En3 m outs c)
  hentry c := by
    rw [Pipeline.ownSems0_none]
    have hsplit := Pipeline.arrays_of_unscopedBufs (p := 3) (pcfgs (F := F)) adm (pdats m outs) launch3.win launch3.arr_whole c
      ((pdats m outs 3 c).share_full fun _ => rfl) (En3 m outs c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m outs 3 c).Φ 0 = Pipeline.ΦA spec3 c from rfl]; unfold Pipeline.ΦA
    iintro ⟨Hp, -, Hr⟩
    isplitl [Hr]; · iexact Hr
    iexact Hp
  hout c := by
    rw [Pipeline.ownSems0_none]
    refine (hout3 (En3 m outs) c).trans ?_
    unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m outs) ((pdats m outs 3 c).share_full fun _ => rfl)
      (En3 m outs c) (Ex3 m outs c) ((pdats m outs 3 c).arrAt · cfg3.N) (hO.h3 c) (hrest3 m outs c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.FrameOuts.lean ====
import proofs.«412644_j75642964017948_3_alg».proof.Proof.FrameRegions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ)

def W14 (c : Dev nD) : Valuation τ sig (Elt F) :=
  Pipeline.withArrays spec0 c (V13 m c) fun w => (dat0 (fun c b => V13 m c b) c).arrAt w cfg0.N
def W15 (c : Dev nD) : Valuation τ sig (Elt F) := StableHlo.after hostOps1 (W14 m c)
def W16 (c : Dev nD) : Valuation τ sig (Elt F) :=
  Pipeline.withArrays spec1 c (W15 m c) fun w => (dat1 (fun c b => W15 m c b) c).arrAt w cfg1.N
def W17 (c : Dev nD) : Valuation τ sig (Elt F) := StableHlo.after hostOps2 (W16 m c)
def W18 (c : Dev nD) : Valuation τ sig (Elt F) :=
  Pipeline.withArrays spec2 c (W17 m c) fun w => (dat2 (fun c b => W17 m c b) c).arrAt w cfg2.N
def W19 (c : Dev nD) : Valuation τ sig (Elt F) := StableHlo.after hostOps3 (W18 m c)
def W20 (c : Dev nD) : Valuation τ sig (Elt F) :=
  Pipeline.withArrays spec3 c (W19 m c) fun w => (dat3 (fun c b => W19 m c b) c).arrAt w cfg3.N

def outsW : Outs (F := F) := fun J r c =>
  match J with
  | 14 => W14 m c (Proc.devRef .tc r)
  | 16 => W16 m c (Proc.devRef .tc r)
  | 18 => W18 m c (Proc.devRef .tc r)
  | 20 => W20 m c (Proc.devRef .tc r)
  | _ => W14 m c (Proc.devRef .tc r)

theorem V14_eq (c : Dev nD) : V14 m (outsW m) c = W14 m c := by
  funext b
  have hA : ∀ w : Fin 8, w.val < 5 → (dat0 (fun c b => V13 m c b) c).arrAt w cfg0.N = (V13 m c) (Proc.devRef .tc (Pipeline.arrRef spec0 w)) := fun w hw => by
    fin_cases w <;> first | (exact ((dat0 (fun c b => V13 m c b) c).arrAt_in _ rfl _).trans (A_eq0 _ c _)) | (exact absurd hw (by decide))
  by_cases h2 : b = (Proc.devRef .tc main_v38_2 : DevRef τ sig)
  · subst h2
    simp only [V14, Function.update_self]; rfl
  by_cases h1 : b = (Proc.devRef .tc main_v38_1 : DevRef τ sig)
  · subst h1
    simp only [V14, Function.update_of_ne h2, Function.update_self]; rfl
  by_cases h0 : b = (Proc.devRef .tc main_v38_0 : DevRef τ sig)
  · subst h0
    simp only [V14, Function.update_of_ne h2, Function.update_of_ne h1, Function.update_self]; rfl
  simp only [V14, Function.update_of_ne h2, Function.update_of_ne h1, Function.update_of_ne h0]

  unfold W14
  by_cases hb : ∃ w, Proc.devRef .tc (Pipeline.arrRef spec0 w) = b
  · obtain ⟨w, rfl⟩ := hb
    rw [Pipeline.withArrays_arr spec0 launch0.win.arr_inj c _ _ w]
    fin_cases w <;> first | exact (hA _ (by decide)).symm | exact absurd rfl h0 | exact absurd rfl h1 | exact absurd rfl h2
  · unfold Pipeline.withArrays; rw [dif_neg hb]

theorem V16_eq (c : Dev nD) (hprev : V15 m (outsW m) c = W15 m c) : V16 m (outsW m) c = W16 m c := by
  funext b
  have hA : ∀ w : Fin 8, w.val < 5 → (dat1 (fun c b => W15 m c b) c).arrAt w cfg1.N = (W15 m c) (Proc.devRef .tc (Pipeline.arrRef spec1 w)) := fun w hw => by
    fin_cases w <;> first | (exact ((dat1 (fun c b => W15 m c b) c).arrAt_in _ rfl _).trans (A_eq1 _ c _)) | (exact absurd hw (by decide))
  by_cases h2 : b = (Proc.devRef .tc main_v88_2 : DevRef τ sig)
  · subst h2
    simp only [V16, Function.update_self]; rfl
  by_cases h1 : b = (Proc.devRef .tc main_v88_1 : DevRef τ sig)
  · subst h1
    simp only [V16, Function.update_of_ne h2, Function.update_self]; rfl
  by_cases h0 : b = (Proc.devRef .tc main_v88_0 : DevRef τ sig)
  · subst h0
    simp only [V16, Function.update_of_ne h2, Function.update_of_ne h1, Function.update_self]; rfl
  simp only [V16, Function.update_of_ne h2, Function.update_of_ne h1, Function.update_of_ne h0]
  rw [show V15 m (outsW m) c = W15 m c from hprev]
  unfold W16
  by_cases hb : ∃ w, Proc.devRef .tc (Pipeline.arrRef spec1 w) = b
  · obtain ⟨w, rfl⟩ := hb
    rw [Pipeline.withArrays_arr spec1 launch1.win.arr_inj c _ _ w]
    fin_cases w <;> first | exact (hA _ (by decide)).symm | exact absurd rfl h0 | exact absurd rfl h1 | exact absurd rfl h2
  · unfold Pipeline.withArrays; rw [dif_neg hb]

theorem V18_eq (c : Dev nD) (hprev : V17 m (outsW m) c = W17 m c) : V18 m (outsW m) c = W18 m c := by
  funext b
  have hA : ∀ w : Fin 8, w.val < 5 → (dat2 (fun c b => W17 m c b) c).arrAt w cfg2.N = (W17 m c) (Proc.devRef .tc (Pipeline.arrRef spec2 w)) := fun w hw => by
    fin_cases w <;> first | (exact ((dat2 (fun c b => W17 m c b) c).arrAt_in _ rfl _).trans (A_eq2 _ c _)) | (exact absurd hw (by decide))
  by_cases h2 : b = (Proc.devRef .tc main_v118_2 : DevRef τ sig)
  · subst h2
    simp only [V18, Function.update_self]; rfl
  by_cases h1 : b = (Proc.devRef .tc main_v118_1 : DevRef τ sig)
  · subst h1
    simp only [V18, Function.update_of_ne h2, Function.update_self]; rfl
  by_cases h0 : b = (Proc.devRef .tc main_v118_0 : DevRef τ sig)
  · subst h0
    simp only [V18, Function.update_of_ne h2, Function.update_of_ne h1, Function.update_self]; rfl
  simp only [V18, Function.update_of_ne h2, Function.update_of_ne h1, Function.update_of_ne h0]
  rw [show V17 m (outsW m) c = W17 m c from hprev]
  unfold W18
  by_cases hb : ∃ w, Proc.devRef .tc (Pipeline.arrRef spec2 w) = b
  · obtain ⟨w, rfl⟩ := hb
    rw [Pipeline.withArrays_arr spec2 launch2.win.arr_inj c _ _ w]
    fin_cases w <;> first | exact (hA _ (by decide)).symm | exact absurd rfl h0 | exact absurd rfl h1 | exact absurd rfl h2
  · unfold Pipeline.withArrays; rw [dif_neg hb]

theorem V20_eq (c : Dev nD) (hprev : V19 m (outsW m) c = W19 m c) : V20 m (outsW m) c = W20 m c := by
  funext b
  have hA : ∀ w : Fin 8, w.val < 5 → (dat3 (fun c b => W19 m c b) c).arrAt w cfg3.N = (W19 m c) (Proc.devRef .tc (Pipeline.arrRef spec3 w)) := fun w hw => by
    fin_cases w <;> first | (exact ((dat3 (fun c b => W19 m c b) c).arrAt_in _ rfl _).trans (A_eq3 _ c _)) | (exact absurd hw (by decide))
  by_cases h2 : b = (Proc.devRef .tc main_v152_2 : DevRef τ sig)
  · subst h2
    simp only [V20, Function.update_self]; rfl
  by_cases h1 : b = (Proc.devRef .tc main_v152_1 : DevRef τ sig)
  · subst h1
    simp only [V20, Function.update_of_ne h2, Function.update_self]; rfl
  by_cases h0 : b = (Proc.devRef .tc main_v152_0 : DevRef τ sig)
  · subst h0
    simp only [V20, Function.update_of_ne h2, Function.update_of_ne h1, Function.update_self]; rfl
  simp only [V20, Function.update_of_ne h2, Function.update_of_ne h1, Function.update_of_ne h0]
  rw [show V19 m (outsW m) c = W19 m c from hprev]
  unfold W20
  by_cases hb : ∃ w, Proc.devRef .tc (Pipeline.arrRef spec3 w) = b
  · obtain ⟨w, rfl⟩ := hb
    rw [Pipeline.withArrays_arr spec3 launch3.win.arr_inj c _ _ w]
    fin_cases w <;> first | exact (hA _ (by decide)).symm | exact absurd rfl h0 | exact absurd rfl h1 | exact absurd rfl h2
  · unfold Pipeline.withArrays; rw [dif_neg hb]

theorem V15_eq (c : Dev nD) : V15 m (outsW m) c = W15 m c := by
  show StableHlo.after hostOps1 (V14 m (outsW m) c) = _; rw [V14_eq]; rfl
theorem V17_eq (c : Dev nD) : V17 m (outsW m) c = W17 m c := by
  show StableHlo.after hostOps2 (V16 m (outsW m) c) = _; rw [V16_eq m c (V15_eq m c)]; rfl
theorem V19_eq (c : Dev nD) : V19 m (outsW m) c = W19 m c := by
  show StableHlo.after hostOps3 (V18 m (outsW m) c) = _; rw [V18_eq m c (V17_eq m c)]; rfl

theorem outsW_ok : OutsOk m (outsW m) where
  h0 c w := by
    show (dat0 (fun c b => V13 m c b) c).arrAt w cfg0.N = V14 m (outsW m) c (Proc.devRef .tc (Pipeline.arrRef spec0 w))
    rw [V14_eq]; unfold W14; rw [Pipeline.withArrays_arr spec0 launch0.win.arr_inj c _ _ w]
  h1 c w := by
    show (dat1 (fun c b => V15 m (outsW m) c b) c).arrAt w cfg1.N = V16 m (outsW m) c (Proc.devRef .tc (Pipeline.arrRef spec1 w))
    have e : (fun (c : Dev nD) (b : Ref sig .tc) => V15 m (outsW m) c b) = fun (c : Dev nD) (b : Ref sig .tc) => W15 m c b := by funext c b; rw [V15_eq]
    rw [V16_eq m c (V15_eq m c), e]; unfold W16; rw [Pipeline.withArrays_arr spec1 launch1.win.arr_inj c _ _ w]
  h2 c w := by
    show (dat2 (fun c b => V17 m (outsW m) c b) c).arrAt w cfg2.N = V18 m (outsW m) c (Proc.devRef .tc (Pipeline.arrRef spec2 w))
    have e : (fun (c : Dev nD) (b : Ref sig .tc) => V17 m (outsW m) c b) = fun (c : Dev nD) (b : Ref sig .tc) => W17 m c b := by funext c b; rw [V17_eq]
    rw [V18_eq m c (V17_eq m c), e]; unfold W18; rw [Pipeline.withArrays_arr spec2 launch2.win.arr_inj c _ _ w]
  h3 c w := by
    show (dat3 (fun c b => V19 m (outsW m) c b) c).arrAt w cfg3.N = V20 m (outsW m) c (Proc.devRef .tc (Pipeline.arrRef spec3 w))
    have e : (fun (c : Dev nD) (b : Ref sig .tc) => V19 m (outsW m) c b) = fun (c : Dev nD) (b : Ref sig .tc) => W19 m c b := by funext c b; rw [V19_eq]
    rw [V20_eq m c (V19_eq m c), e]; unfold W20; rw [Pipeline.withArrays_arr spec3 launch3.win.arr_inj c _ _ w]

end Cert.KernelIdeal.Hand

end
-- ==== Proof.FrameMain.lean ====
import proofs.«412644_j75642964017948_3_alg».proof.Proof.FrameOuts
import proofs.«412644_j75642964017948_3_alg».proof.Proof.FrameRunCond
import Idealize.ShloMosaic.Lib.Pipeline.Kit

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in

theorem run_main : θ_run defs (onTc (τ := τ) (main (F := F))) ⟨m, fun _ => 0, ρ⟩ (fun r => ∀ c : Dev nD,
      ∀ b ∈ Pipeline.ucRefs τ sig, r.2.mem (((c : Thread nD τ)).1, b) = V29 m (outsW m) c b) :=
  run_cond m (Ix := Unit) (U := UR sig nD τ) (Lvl := ℕ) emb₁ () 𝒱₀ L lv (fun _ _ => rfl) ρ (outsW m) (pdats m (outsW m))
    (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => R c)
    (hE0 := by
      refine Pipeline.initEach L lv fun c => ?_
      iintro ⟨⟨-, HO, -, Hp, -⟩, -⟩
      imodintro
      isplitl [Hp]; · iexists _; iexact Hp
      iexists ∅; iexact HO)
    (hE4 := fun c => by iintro ⟨-, HO⟩; iexact HO)
    (reg0 m (outsW m) (outsW_ok m)) (fun c => .rfl) (fun c => .rfl)
    (reg1 m (outsW m) (outsW_ok m)) (fun c => .rfl) (fun c => .rfl)
    (reg2 m (outsW m) (outsW_ok m)) (fun c => .rfl) (fun c => .rfl)
    (reg3 m (outsW m) (outsW_ok m)) (fun c => .rfl) (fun c => .rfl)

theorem run_value : θ_run defs (onTc (τ := τ) (main (F := F))) ⟨m, fun _ => 0, ρ⟩ (fun r => ∀ c : Dev nD,
      r.2.mem ((c.tc : Thread nD τ).loc main_v189) = V29 m (outsW m) c main_v189
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (fun r h c => ⟨h c _ (mem_uc main_v189 (by decide)),
      (h c _ (mem_uc main_arg0 (by decide))).trans (V29_main_arg0 m (outsW m) c),
      (h c _ (mem_uc main_arg1 (by decide))).trans (V29_main_arg1 m (outsW m) c),
      (h c _ (mem_uc main_arg2 (by decide))).trans (V29_main_arg2 m (outsW m) c),
      (h c _ (mem_uc main_arg3 (by decide))).trans (V29_main_arg3 m (outsW m) c),
      (h c _ (mem_uc main_arg4 (by decide))).trans (V29_main_arg4 m (outsW m) c),
      (h c _ (mem_uc main_arg5 (by decide))).trans (V29_main_arg5 m (outsW m) c),
      (h c _ (mem_uc main_arg6 (by decide))).trans (V29_main_arg6 m (outsW m) c),
      (h c _ (mem_uc main_arg7 (by decide))).trans (V29_main_arg7 m (outsW m) c),
      (h c _ (mem_uc main_arg8 (by decide))).trans (V29_main_arg8 m (outsW m) c),
      (h c _ (mem_uc main_arg9 (by decide))).trans (V29_main_arg9 m (outsW m) c),
      (h c _ (mem_uc main_arg10 (by decide))).trans (V29_main_arg10 m (outsW m) c),
      (h c _ (mem_uc main_arg11 (by decide))).trans (V29_main_arg11 m (outsW m) c),
      (h c _ (mem_uc main_arg12 (by decide))).trans (V29_main_arg12 m (outsW m) c),
      (h c _ (mem_uc main_arg13 (by decide))).trans (V29_main_arg13 m (outsW m) c),
      (h c _ (mem_uc main_arg14 (by decide))).trans (V29_main_arg14 m (outsW m) c),
      (h c _ (mem_uc main_arg15 (by decide))).trans (V29_main_arg15 m (outsW m) c)⟩) (run_main m ρ)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (fun _ h c => (h c).2) (run_value m ρ)

end Cert.KernelIdeal.Hand

end
-- ==== Proof.PayIdx0.lean ====
import proofs.«412644_j75642964017948_3_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.Hand.Pay0

open Cert.KernelIdeal Cert.KernelIdeal.Gen Idealize.ShloMosaic Idealize.ShloMosaic.ValueIdx Idealize.SL.Sem

section Layout
variable {α : Type}

theorem col_of_vec (v : S512.Idx → α) (n : Fin 512) :
    shapeCast S512x1 v shapeCasts_S512_S512x1 (ix2 n (0 : Fin 1)) = v (ix1 n) :=
  shapeCast_apply v _ _ _ (by
    rw [Shape.rowMajor_val_one, Shape.rowMajor_val_two]
    show n.val = n.val * 1 + 0
    omega)

theorem bcast_col (v : S512x1.Idx → α) (n : Fin 512) (j : Fin 1000) :
    broadcastTo S512x1000 v broadcasts_S512x1_S512x1000 (ix2 n j) = v (ix2 n (0 : Fin 1)) := by
  refine broadcastTo_apply v _ (ix2 n j) (ix2 n (0 : Fin 1)) fun ax => ?_
  match ax with
  | ⟨0, _⟩ => rfl
  | ⟨1, _⟩ => rfl

theorem block_of_col (v : S512x1.Idx → α) (n : Fin 512) :
    shapeCast S1x512x1 v shapeCasts_S512x1_S1x512x1 (ix3 (0 : Fin 1) n (0 : Fin 1)) = v (ix2 n (0 : Fin 1)) :=
  shapeCast_ab_1ab_apply v _ 0 n 0

end Layout

theorem ofBits_neg_inf : Ideal.ofBits .f32 0xFF800000#32 = (⊥ : EReal) := by
  simp [Ideal.ofBits, Ideal.ieee]

theorem rowsum_apply (v : FVec Ideal S512x1000 .f32) (n : Fin 512) :
    multiReduction (F := Ideal) .add [1] S512 v 0x00000000#32 reduces_S512x1000_S512 (.inl rfl) rfl (ix1 n)
      = ∑ j : Fin 1000, v (ix2 n j) := by
  refine (Ideal.multiReduction_add_single v 0x00000000#32 reduces_S512x1000_S512 (.inl rfl) rfl (ix1 n)).trans ?_
  refine Finset.sum_congr rfl fun j _ => congrArg v (funext fun a => Fin.ext ?_)
  match a with
  | ⟨0, _⟩ => rfl
  | ⟨1, _⟩ => rfl

theorem rowmax_apply (v : FVec Ideal S512x1000 .f32) (n : Fin 512) :
    multiReduction (F := Ideal) .maximumf [1] S512 v 0xFF800000#32 reduces_S512x1000_S512 (.inl rfl) rfl (ix1 n)
      = Finset.univ.sup fun j : Fin 1000 => v (ix2 n j) := by
  refine (Ideal.multiReduction_maximumf_single v 0xFF800000#32 reduces_S512x1000_S512 (.inl rfl) rfl (ix1 n)).trans ?_
  rw [Ideal.ofBits_def, ofBits_neg_inf]
  have e : (v ∘ reduces_S512x1000_S512.lift (ix1 n)) = fun j : Fin 1000 => v (ix2 n j) :=
    funext fun j => congrArg v (funext fun a => Fin.ext (by
      match a with
      | ⟨0, _⟩ => rfl
      | ⟨1, _⟩ => rfl))
  rw [e]
  rfl

theorem lhs_proj_0 (i : S512x1024.Idx) (q : dot_S512x1024_S1024x1024_S512x1024_1_0_0_1_n_n.contr.Idx) :
    (dot_S512x1024_S1024x1024_S512x1024_1_0_0_1_n_n.lhsIdx i q 0).val = (i 0).val := by
  unfold DotDims.lhsIdx
  rw [dif_neg (show ¬(0 : Fin S512x1024.rank) ∈ dot_S512x1024_S1024x1024_S512x1024_1_0_0_1_n_n.lhsBatch by decide), dif_pos (show (0 : Fin S512x1024.rank) ∈ dot_S512x1024_S1024x1024_S512x1024_1_0_0_1_n_n.lhsNonContracting by decide)]
  rfl

theorem lhs_proj_1 (i : S512x1024.Idx) (q : dot_S512x1024_S1024x1024_S512x1024_1_0_0_1_n_n.contr.Idx) :
    (dot_S512x1024_S1024x1024_S512x1024_1_0_0_1_n_n.lhsIdx i q 1).val = (q ⟨0, by decide⟩).val :=
  dot_S512x1024_S1024x1024_S512x1024_1_0_0_1_n_n.lhsIdx_val_of_single rfl i q

theorem rhs_proj_0 (i : S512x1024.Idx) (q : dot_S512x1024_S1024x1024_S512x1024_1_0_0_1_n_n.contr.Idx) :
    (dot_S512x1024_S1024x1024_S512x1024_1_0_0_1_n_n.rhsIdx i q 0).val = (q ⟨0, by decide⟩).val :=
  dot_S512x1024_S1024x1024_S512x1024_1_0_0_1_n_n.rhsIdx_val_of_single rfl i q

theorem rhs_proj_1 (i : S512x1024.Idx) (q : dot_S512x1024_S1024x1024_S512x1024_1_0_0_1_n_n.contr.Idx) :
    (dot_S512x1024_S1024x1024_S512x1024_1_0_0_1_n_n.rhsIdx i q 1).val = (i 1).val := by
  unfold DotDims.rhsIdx
  rw [dif_neg (show ¬(1 : Fin S1024x1024.rank) ∈ dot_S512x1024_S1024x1024_S512x1024_1_0_0_1_n_n.rhsBatch by decide), dif_pos (show (1 : Fin S1024x1024.rank) ∈ dot_S512x1024_S1024x1024_S512x1024_1_0_0_1_n_n.rhsNonContracting by decide)]
  rfl

theorem matmul_proj_apply {φ₁ φ₂ : FTy} (lhs : FVec Ideal S512x1024 φ₁) (rhs : FVec Ideal S1024x1024 φ₂) (n : Fin 512) (j : Fin 1024) :
    matmul dot_S512x1024_S1024x1024_S512x1024_1_0_0_1_n_n none lhs rhs (constant (F := Ideal) S512x1024 .f32 0x00000000#32) (ix2 n j)
      = ∑ k : Fin 1024, lhs (ix2 n k) * rhs (ix2 k j) := by
  simp only [matmul]
  rw [Ideal.matmul_constant_zero_apply, ← Equiv.sum_comp (ValueIdx.contrEquiv1 dot_S512x1024_S1024x1024_S512x1024_1_0_0_1_n_n 1024 rfl rfl).symm]
  refine Finset.sum_congr rfl fun k _ => ?_
  have hk := ValueIdx.contrEquiv1_symm_val dot_S512x1024_S1024x1024_S512x1024_1_0_0_1_n_n 1024 rfl rfl k
  have el : dot_S512x1024_S1024x1024_S512x1024_1_0_0_1_n_n.lhsIdx (ix2 n j) ((ValueIdx.contrEquiv1 dot_S512x1024_S1024x1024_S512x1024_1_0_0_1_n_n 1024 rfl rfl).symm k) = ix2 n k := funext fun a => Fin.ext (by
    match a with
    | ⟨0, _⟩ => exact lhs_proj_0 _ _
    | ⟨1, _⟩ => exact (lhs_proj_1 _ _).trans hk)
  have er : dot_S512x1024_S1024x1024_S512x1024_1_0_0_1_n_n.rhsIdx (ix2 n j) ((ValueIdx.contrEquiv1 dot_S512x1024_S1024x1024_S512x1024_1_0_0_1_n_n 1024 rfl rfl).symm k) = ix2 k j := funext fun a => Fin.ext (by
    match a with
    | ⟨0, _⟩ => exact (rhs_proj_0 _ _).trans hk
    | ⟨1, _⟩ => exact rhs_proj_1 _ _)
  rw [el, er]

theorem pay7_at (x : Vec Ideal S512x1024 .f32) (pj : Vec Ideal S1024x1024 .f32) (n : Fin 512) (d : Fin 1024) :
    k0_pay7 (F := Ideal) x pj (ix2 n d) = ∑ k : Fin 1024, x (ix2 n k) * pj (ix2 k d) := by
  unfold k0_pay7
  rw [shapeCast_self, matmul_proj_apply, shapeCast_self]
  refine Finset.sum_congr rfl fun k _ => ?_
  rw [truncf_apply, truncf_apply]

theorem lhs_logits_0 (i : S512x1000.Idx) (q : dot_S512x1024_S1024x1000_S512x1000_1_0_0_1_n_n.contr.Idx) :
    (dot_S512x1024_S1024x1000_S512x1000_1_0_0_1_n_n.lhsIdx i q 0).val = (i 0).val := by
  unfold DotDims.lhsIdx
  rw [dif_neg (show ¬(0 : Fin S512x1024.rank) ∈ dot_S512x1024_S1024x1000_S512x1000_1_0_0_1_n_n.lhsBatch by decide), dif_pos (show (0 : Fin S512x1024.rank) ∈ dot_S512x1024_S1024x1000_S512x1000_1_0_0_1_n_n.lhsNonContracting by decide)]
  rfl

theorem lhs_logits_1 (i : S512x1000.Idx) (q : dot_S512x1024_S1024x1000_S512x1000_1_0_0_1_n_n.contr.Idx) :
    (dot_S512x1024_S1024x1000_S512x1000_1_0_0_1_n_n.lhsIdx i q 1).val = (q ⟨0, by decide⟩).val :=
  dot_S512x1024_S1024x1000_S512x1000_1_0_0_1_n_n.lhsIdx_val_of_single rfl i q

theorem rhs_logits_0 (i : S512x1000.Idx) (q : dot_S512x1024_S1024x1000_S512x1000_1_0_0_1_n_n.contr.Idx) :
    (dot_S512x1024_S1024x1000_S512x1000_1_0_0_1_n_n.rhsIdx i q 0).val = (q ⟨0, by decide⟩).val :=
  dot_S512x1024_S1024x1000_S512x1000_1_0_0_1_n_n.rhsIdx_val_of_single rfl i q

theorem rhs_logits_1 (i : S512x1000.Idx) (q : dot_S512x1024_S1024x1000_S512x1000_1_0_0_1_n_n.contr.Idx) :
    (dot_S512x1024_S1024x1000_S512x1000_1_0_0_1_n_n.rhsIdx i q 1).val = (i 1).val := by
  unfold DotDims.rhsIdx
  rw [dif_neg (show ¬(1 : Fin S1024x1000.rank) ∈ dot_S512x1024_S1024x1000_S512x1000_1_0_0_1_n_n.rhsBatch by decide), dif_pos (show (1 : Fin S1024x1000.rank) ∈ dot_S512x1024_S1024x1000_S512x1000_1_0_0_1_n_n.rhsNonContracting by decide)]
  rfl

theorem matmul_logits_apply {φ₁ φ₂ : FTy} (lhs : FVec Ideal S512x1024 φ₁) (rhs : FVec Ideal S1024x1000 φ₂) (n : Fin 512) (j : Fin 1000) :
    matmul dot_S512x1024_S1024x1000_S512x1000_1_0_0_1_n_n none lhs rhs (constant (F := Ideal) S512x1000 .f32 0x00000000#32) (ix2 n j)
      = ∑ k : Fin 1024, lhs (ix2 n k) * rhs (ix2 k j) := by
  simp only [matmul]
  rw [Ideal.matmul_constant_zero_apply, ← Equiv.sum_comp (ValueIdx.contrEquiv1 dot_S512x1024_S1024x1000_S512x1000_1_0_0_1_n_n 1024 rfl rfl).symm]
  refine Finset.sum_congr rfl fun k _ => ?_
  have hk := ValueIdx.contrEquiv1_symm_val dot_S512x1024_S1024x1000_S512x1000_1_0_0_1_n_n 1024 rfl rfl k
  have el : dot_S512x1024_S1024x1000_S512x1000_1_0_0_1_n_n.lhsIdx (ix2 n j) ((ValueIdx.contrEquiv1 dot_S512x1024_S1024x1000_S512x1000_1_0_0_1_n_n 1024 rfl rfl).symm k) = ix2 n k := funext fun a => Fin.ext (by
    match a with
    | ⟨0, _⟩ => exact lhs_logits_0 _ _
    | ⟨1, _⟩ => exact (lhs_logits_1 _ _).trans hk)
  have er : dot_S512x1024_S1024x1000_S512x1000_1_0_0_1_n_n.rhsIdx (ix2 n j) ((ValueIdx.contrEquiv1 dot_S512x1024_S1024x1000_S512x1000_1_0_0_1_n_n 1024 rfl rfl).symm k) = ix2 k j := funext fun a => Fin.ext (by
    match a with
    | ⟨0, _⟩ => exact (rhs_logits_0 _ _).trans hk
    | ⟨1, _⟩ => exact rhs_logits_1 _ _)
  rw [el, er]

theorem pay11_at (H : Vec Ideal S512x1024 .f32) (wt : Vec Ideal S1000x1024 .f32) (bt : Vec Ideal S1000x1 .f32)
    (n : Fin 512) (j : Fin 1000) :
    k0_pay11 (F := Ideal) H wt bt (ix2 n j) = (∑ d : Fin 1024, H (ix2 n d) * wt (ix2 j d)) + bt (ix2 j 0) := by
  unfold k0_pay11
  dsimp only
  rw [addf_apply, matmul_logits_apply, broadcastTo_1b_ab_apply, transpose_ix2_apply, shapeCast_self]
  refine congrArg (· + bt (ix2 j 0)) (Finset.sum_congr rfl fun d _ => ?_)
  rw [transpose_ix2_apply, truncf_apply, truncf_apply]

theorem pay8_at (n : Fin 512) : k0_pay8 (F := Ideal) (ix2 n (0 : Fin 1)) = (⊥ : EReal) := by
  unfold k0_pay8
  rw [shapeCast_self, broadcast_apply]
  exact ofBits_neg_inf

theorem pay9_at (n : Fin 512) : k0_pay9 (F := Ideal) (ix2 n (0 : Fin 1)) = (0 : EReal) := by
  unfold k0_pay9
  rw [shapeCast_self, broadcast_apply]
  exact Ideal.ofBits_zero_f32

theorem pay10_at (n : Fin 512) : k0_pay10 (F := Ideal) (ix2 n (0 : Fin 1)) = (0 : EReal) := by
  unfold k0_pay10
  rw [shapeCast_self, broadcast_apply]
  exact Ideal.ofBits_zero_f32

theorem pay1_at (tm : FVec Ideal S512x1 .f32) (M : Vec Ideal S512x1 .f32) (n : Fin 512) :
    k0_pay1 (F := Ideal) tm M (ix2 n (0 : Fin 1)) = max (M (ix2 n (0 : Fin 1))) (tm (ix2 n (0 : Fin 1))) := by
  unfold k0_pay1
  rw [maximumf_apply]

theorem pay3_at (tm : FVec Ideal S512x1 .f32) (M : Vec Ideal S512x1 .f32) (n : Fin 512) :
    k0_pay3 (F := Ideal) tm M (ix2 n (0 : Fin 1)) = max (M (ix2 n (0 : Fin 1))) (tm (ix2 n (0 : Fin 1))) := by
  unfold k0_pay3
  rw [shapeCast_self, pay1_at]

theorem pay4_at (v : Vec Ideal S512x1 .f32) (n : Fin 512) :
    k0_pay4 (F := Ideal) v (ix3 (0 : Fin 1) n (0 : Fin 1)) = v (ix2 n (0 : Fin 1)) := by
  unfold k0_pay4
  exact block_of_col v n

theorem pay5_at (v : Vec Ideal S512x1 .f32) (n : Fin 512) :
    k0_pay5 (F := Ideal) v (ix3 (0 : Fin 1) n (0 : Fin 1)) = v (ix2 n (0 : Fin 1)) := by
  unfold k0_pay5
  exact block_of_col v n

theorem pay6_at (v : Vec Ideal S512x1 .f32) (n : Fin 512) :
    k0_pay6 (F := Ideal) v (ix3 (0 : Fin 1) n (0 : Fin 1)) = v (ix2 n (0 : Fin 1)) := by
  unfold k0_pay6
  exact block_of_col v n

theorem pay13_at (H : Vec Ideal S512x1024 .f32) (wt : Vec Ideal S1000x1024 .f32) (bt : Vec Ideal S1000x1 .f32)
    (n : Fin 512) :
    k0_pay13 (F := Ideal) H wt bt (ix2 n (0 : Fin 1))
      = Finset.univ.sup fun j : Fin 1000 => k0_pay11 (F := Ideal) H wt bt (ix2 n j) := by
  unfold k0_pay13
  dsimp only
  rw [col_of_vec, rowmax_apply]

theorem pay2_at (lg : FVec Ideal S512x1000 .f32) (tm : FVec Ideal S512x1 .f32) (M L M' : Vec Ideal S512x1 .f32)
    (n : Fin 512) :
    k0_pay2 (F := Ideal) lg tm M L M' (ix2 n (0 : Fin 1))
      = L (ix2 n (0 : Fin 1)) * Ideal.exp (M' (ix2 n (0 : Fin 1)) - max (M (ix2 n (0 : Fin 1))) (tm (ix2 n (0 : Fin 1))))
        + ∑ j : Fin 1000, Ideal.exp (lg (ix2 n j) - max (M (ix2 n (0 : Fin 1))) (tm (ix2 n (0 : Fin 1)))) := by
  unfold k0_pay2
  dsimp only
  rw [shapeCast_self, addf_apply, mulf_apply, col_of_vec, rowsum_apply]
  show L (ix2 n (0 : Fin 1)) * Ideal.exp (subf M' (k0_pay1 tm M) (ix2 n (0 : Fin 1))) + _ = _
  rw [subf_apply, pay1_at]
  refine congrArg (_ + ·) (Finset.sum_congr rfl fun j _ => ?_)
  show Ideal.exp (subf lg (broadcastTo S512x1000 (k0_pay1 tm M) broadcasts_S512x1_S512x1000) (ix2 n j)) = _
  rw [subf_apply, bcast_col, pay1_at]

def pos0 (i : grid0.Coords) (j : Fin 1000) : BitVec 32 :=
  IntOp.addi
    (Scalar.muli (Scalar.addi (Scalar.muli (BitVec.ofNat 32 (i 0).val) 10#32) (BitVec.ofNat 32 (i 1).val)) 1000#32)
    (BitVec.ofNat 32 j.val)

theorem pos0_toNat (i : grid0.Coords) (j : Fin 1000) :
    (pos0 i j).toNat = ((i 0).val * 10 + (i 1).val) * 1000 + j.val := by
  have h0 : (i 0).val < 2 := (i 0).isLt
  have h1 : (i 1).val < 10 := (i 1).isLt
  have hj : j.val < 1000 := j.isLt
  unfold pos0 Scalar.muli Scalar.addi IntOp.muli IntOp.addi
  simp only [BitVec.toNat_add, BitVec.toNat_mul, BitVec.toNat_ofNat]
  omega

theorem pay12_at (i : grid0.Coords) (H : Vec Ideal S512x1024 .f32) (wt : Vec Ideal S1000x1024 .f32)
    (bt : Vec Ideal S1000x1 .f32) (tg : Vec Ideal S512x1 .i32) (A : Vec Ideal S512x1 .f32) (n : Fin 512) :
    k0_pay12 (F := Ideal) i H wt bt tg A (ix2 n (0 : Fin 1))
      = A (ix2 n (0 : Fin 1)) + ∑ j : Fin 1000,
          if pos0 i j = (tg (ix2 n (0 : Fin 1)) : BitVec 32) then k0_pay11 (F := Ideal) H wt bt (ix2 n j) else 0 := by
  unfold k0_pay12
  dsimp only
  rw [shapeCast_self, addf_apply, col_of_vec, rowsum_apply]
  refine congrArg (_ + ·) (Finset.sum_congr rfl fun j _ => ?_)
  rw [select_apply]
  show Scalar.select
      (IntOp.cmpi .eq (IntOp.addi _ (iota .tc S512x1000 32 [1] iota_S512x1000_d1_w32 (ix2 n j)))
        (broadcastTo S512x1000 (shapeCast S512x1 tg shapeCasts_S512x1_S512x1) broadcasts_S512x1_S512x1000 (ix2 n j)))
      _ (Ideal.ofBits .f32 0x00000000#32) = _
  rw [iota_single_apply, bcast_col, shapeCast_self, Ideal.ofBits_zero_f32]
  show Scalar.select (IntOp.cmpi .eq (pos0 i j) (tg (ix2 n (0 : Fin 1)))) _ _ = _
  by_cases h : pos0 i j = (tg (ix2 n (0 : Fin 1)) : BitVec 32)
  · rw [if_pos h, IntOp.cmpi_eq.mpr h, select_one]
  · rw [if_neg h, eq_zero_of_ne_one (fun hc => h (IntOp.cmpi_eq.mp hc)), select_zero]

end Cert.Hand.Pay0
-- ==== Proof.LibLogSumExp.lean ====
import Mathlib.Analysis.SpecialFunctions.Log.Basic
import Mathlib.Analysis.SpecialFunctions.Exp
import Mathlib.Data.Fintype.BigOperators
import Mathlib.Data.Finset.Lattice.Fold
import Idealize.ShloMosaic.PureOps.Ideal

noncomputable section

namespace Cert.Hand.LSE

open scoped BigOperators

section Real

variable {ι : Type*}

def SummOn (s : Finset ι) (x : ι → ℝ) (m l : ℝ) : Prop :=
  (∀ i ∈ s, x i ≤ m) ∧ (∃ i ∈ s, x i = m) ∧ l = ∑ i ∈ s, Real.exp (x i - m)

theorem sum_exp_rescale (s : Finset ι) (x : ι → ℝ) (m M : ℝ) :
    (∑ i ∈ s, Real.exp (x i - m)) * Real.exp (m - M) = ∑ i ∈ s, Real.exp (x i - M) := by
  rw [Finset.sum_mul]
  refine Finset.sum_congr rfl fun i _ => ?_
  rw [← Real.exp_add]
  congr 1
  ring

theorem SummOn.pos {s : Finset ι} {x : ι → ℝ} {m l : ℝ} (h : SummOn s x m l) : 0 < l := by
  obtain ⟨_, ⟨i, hi, _⟩, hl⟩ := h
  rw [hl]
  exact Finset.sum_pos (fun j _ => Real.exp_pos _) ⟨i, hi⟩

theorem SummOn.nonempty {s : Finset ι} {x : ι → ℝ} {m l : ℝ} (h : SummOn s x m l) :
    s.Nonempty := by
  obtain ⟨_, ⟨i, hi, _⟩, _⟩ := h
  exact ⟨i, hi⟩

theorem SummOn.max_eq {s : Finset ι} {x : ι → ℝ} {m l : ℝ} (h : SummOn s x m l)
    (hs : s.Nonempty) : m = s.sup' hs x := by
  obtain ⟨hle, ⟨i, hi, him⟩, _⟩ := h
  apply le_antisymm
  · calc m = x i := him.symm
      _ ≤ s.sup' hs x := Finset.le_sup' x hi
  · exact Finset.sup'_le _ _ hle

theorem SummOn.lse {s : Finset ι} {x : ι → ℝ} {m l : ℝ} (h : SummOn s x m l) :
    m + Real.log l = Real.log (∑ i ∈ s, Real.exp (x i)) := by
  have hpos := h.pos
  obtain ⟨_, _, hl⟩ := h
  have hfac : ∑ i ∈ s, Real.exp (x i) = Real.exp m * l := by
    rw [hl, Finset.mul_sum]
    refine Finset.sum_congr rfl fun i _ => ?_
    rw [← Real.exp_add]
    congr 1
    ring
  rw [hfac, Real.log_mul (Real.exp_ne_zero m) hpos.ne', Real.log_exp]

theorem SummOn.unique {s : Finset ι} {x : ι → ℝ} {m l m' l' : ℝ}
    (h : SummOn s x m l) (h' : SummOn s x m' l') : m = m' ∧ l = l' := by
  have hm : m = m' := by rw [h.max_eq h.nonempty, h'.max_eq h.nonempty]
  subst hm
  exact ⟨rfl, by rw [h.2.2, h'.2.2]⟩

theorem SummOn.congr {s : Finset ι} {x y : ι → ℝ} {m l : ℝ}
    (hxy : ∀ i ∈ s, x i = y i) (h : SummOn s x m l) : SummOn s y m l := by
  obtain ⟨hle, ⟨i, hi, him⟩, hl⟩ := h
  refine ⟨fun j hj => (hxy j hj) ▸ hle j hj, ⟨i, hi, (hxy i hi) ▸ him⟩, ?_⟩
  rw [hl]
  exact Finset.sum_congr rfl fun j hj => by rw [hxy j hj]

theorem SummOn.of_sup' (s : Finset ι) (hs : s.Nonempty) (x : ι → ℝ) :
    SummOn s x (s.sup' hs x) (∑ i ∈ s, Real.exp (x i - s.sup' hs x)) := by
  refine ⟨fun i hi => Finset.le_sup' x hi, ?_, rfl⟩
  obtain ⟨i, hi, h⟩ := Finset.exists_mem_eq_sup' hs x
  exact ⟨i, hi, h.symm⟩

theorem SummOn.merge {s t : Finset ι} [DecidableEq ι] {x : ι → ℝ} {m₁ l₁ m₂ l₂ : ℝ}
    (hd : Disjoint s t) (h₁ : SummOn s x m₁ l₁) (h₂ : SummOn t x m₂ l₂) :
    SummOn (s ∪ t) x (max m₁ m₂)
      (l₁ * Real.exp (m₁ - max m₁ m₂) + l₂ * Real.exp (m₂ - max m₁ m₂)) := by
  obtain ⟨hle₁, ⟨i₁, hi₁, him₁⟩, hl₁⟩ := h₁
  obtain ⟨hle₂, ⟨i₂, hi₂, him₂⟩, hl₂⟩ := h₂
  refine ⟨?_, ?_, ?_⟩
  · intro i hi
    rcases Finset.mem_union.mp hi with hi | hi
    · exact (hle₁ i hi).trans (le_max_left _ _)
    · exact (hle₂ i hi).trans (le_max_right _ _)
  · rcases le_total m₁ m₂ with hm | hm
    · exact ⟨i₂, Finset.mem_union_right _ hi₂, by rw [him₂, max_eq_right hm]⟩
    · exact ⟨i₁, Finset.mem_union_left _ hi₁, by rw [him₁, max_eq_left hm]⟩
  · rw [Finset.sum_union hd, hl₁, hl₂, sum_exp_rescale, sum_exp_rescale]

theorem SummOn.step {s t : Finset ι} [DecidableEq ι] {x : ι → ℝ} {m l : ℝ}
    (hd : Disjoint s t) (ht : t.Nonempty) (h : SummOn s x m l) :
    SummOn (s ∪ t) x (max m (t.sup' ht x))
      (l * Real.exp (m - max m (t.sup' ht x)) +
        ∑ k ∈ t, Real.exp (x k - max m (t.sup' ht x))) := by
  have hm := h.merge hd (SummOn.of_sup' t ht x)
  rw [sum_exp_rescale] at hm
  exact hm

theorem SummOn.image {κ : Type*} [DecidableEq κ] {s : Finset ι} {f : ι → κ} {y : κ → ℝ}
    {m l : ℝ} (hf : Set.InjOn f s) (h : SummOn s (fun i => y (f i)) m l) :
    SummOn (s.image f) y m l := by
  obtain ⟨hle, ⟨i, hi, him⟩, hl⟩ := h
  refine ⟨?_, ⟨f i, Finset.mem_image_of_mem f hi, him⟩, ?_⟩
  · intro k hk
    obtain ⟨j, hj, rfl⟩ := Finset.mem_image.mp hk
    exact hle j hj
  · rw [hl, Finset.sum_image hf]

theorem SummOn.lse_eq_of_image {κ : Type*} [DecidableEq κ] {s : Finset ι} {u : Finset κ}
    {f : ι → κ} {x : ι → ℝ} {y : κ → ℝ} {m l m' l' : ℝ}
    (hf : Set.InjOn f s) (hu : s.image f = u) (hxy : ∀ i ∈ s, x i = y (f i))
    (h : SummOn s x m l) (h' : SummOn u y m' l') :
    m + Real.log l = m' + Real.log l' := by
  have h₁ : SummOn u y m l := hu ▸ (h.congr hxy).image hf
  obtain ⟨rfl, rfl⟩ := h₁.unique h'
  rfl

section Fintype

variable {κ : Type*} [Fintype ι] [Fintype κ]

def Summ (x : ι → ℝ) (m l : ℝ) : Prop := SummOn Finset.univ x m l

theorem summ_iff (x : ι → ℝ) (m l : ℝ) :
    Summ x m l ↔ (∀ i, x i ≤ m) ∧ (∃ i, x i = m) ∧ l = ∑ i, Real.exp (x i - m) := by
  simp [Summ, SummOn]

theorem Summ.pos {x : ι → ℝ} {m l : ℝ} (h : Summ x m l) : 0 < l := SummOn.pos h

theorem Summ.lse {x : ι → ℝ} {m l : ℝ} (h : Summ x m l) :
    m + Real.log l = Real.log (∑ i, Real.exp (x i)) := SummOn.lse h

theorem Summ.unique {x : ι → ℝ} {m l m' l' : ℝ} (h : Summ x m l) (h' : Summ x m' l') :
    m = m' ∧ l = l' := SummOn.unique h h'

theorem Summ.of_sup' [Nonempty ι] (x : ι → ℝ) :
    Summ x (Finset.univ.sup' Finset.univ_nonempty x)
      (∑ i, Real.exp (x i - Finset.univ.sup' Finset.univ_nonempty x)) :=
  SummOn.of_sup' _ _ x

theorem Summ.merge {x : ι → ℝ} {y : κ → ℝ} {m₁ l₁ m₂ l₂ : ℝ}
    (h₁ : Summ x m₁ l₁) (h₂ : Summ y m₂ l₂) :
    Summ (Sum.elim x y) (max m₁ m₂)
      (l₁ * Real.exp (m₁ - max m₁ m₂) + l₂ * Real.exp (m₂ - max m₁ m₂)) := by
  rw [summ_iff] at h₁ h₂ ⊢
  obtain ⟨hle₁, ⟨i₁, him₁⟩, hl₁⟩ := h₁
  obtain ⟨hle₂, ⟨i₂, him₂⟩, hl₂⟩ := h₂
  refine ⟨?_, ?_, ?_⟩
  · rintro (i | k)
    · exact (hle₁ i).trans (le_max_left _ _)
    · exact (hle₂ k).trans (le_max_right _ _)
  · rcases le_total m₁ m₂ with hm | hm
    · exact ⟨Sum.inr i₂, by simp [him₂, max_eq_right hm]⟩
    · exact ⟨Sum.inl i₁, by simp [him₁, max_eq_left hm]⟩
  · rw [Fintype.sum_sum_type]
    simp only [Sum.elim_inl, Sum.elim_inr]
    rw [hl₁, hl₂, sum_exp_rescale, sum_exp_rescale]

theorem Summ.step [Nonempty κ] {x : ι → ℝ} {m l : ℝ} (h : Summ x m l) (t : κ → ℝ) :
    Summ (Sum.elim x t) (max m (Finset.univ.sup' Finset.univ_nonempty t))
      (l * Real.exp (m - max m (Finset.univ.sup' Finset.univ_nonempty t)) +
        ∑ k, Real.exp (t k - max m (Finset.univ.sup' Finset.univ_nonempty t))) := by
  have hm := h.merge (Summ.of_sup' t)
  rw [sum_exp_rescale] at hm
  exact hm

theorem Summ.congr_equiv (e : ι ≃ κ) {x : ι → ℝ} {m l : ℝ} (h : Summ x m l) :
    Summ (x ∘ e.symm) m l := by
  rw [summ_iff] at h ⊢
  obtain ⟨hle, ⟨i, him⟩, hl⟩ := h
  refine ⟨fun k => hle _, ⟨e i, by simp [him]⟩, ?_⟩
  rw [hl]
  exact (Equiv.sum_comp e.symm fun i => Real.exp (x i - m)).symm

end Fintype

end Real

section Ext

open Idealize.ShloMosaic

variable {ι κ : Type*}

theorem coe_sum (s : Finset ι) (f : ι → ℝ) :
    ((∑ i ∈ s, f i : ℝ) : EReal) = ∑ i ∈ s, (f i : EReal) := by
  induction s using Finset.cons_induction with
  | empty => simp
  | cons a s ha ih => rw [Finset.sum_cons, Finset.sum_cons, EReal.coe_add, ih]

theorem coe_max (a b : ℝ) : ((max a b : ℝ) : EReal) = max (a : EReal) (b : EReal) :=
  EReal.coe_strictMono.monotone.map_max

theorem exp_coe_sub (a b : ℝ) :
    Ideal.exp ((a : EReal) - (b : EReal)) = ((Real.exp (a - b) : ℝ) : EReal) := by
  rw [← EReal.coe_sub, Ideal.exp_coe]

theorem exp_bot_sub (b : EReal) : Ideal.exp (⊥ - b) = 0 := by
  rw [EReal.bot_sub, Ideal.exp_bot]

theorem coe_add_log (m : ℝ) {l : ℝ} (hl : 0 < l) :
    (m : EReal) + Ideal.log (l : EReal) = ((m + Real.log l : ℝ) : EReal) := by
  rw [Ideal.log_coe, if_neg (not_le.mpr hl), ← EReal.coe_add]

theorem coe_sub_coe (a b : ℝ) : (a : EReal) - (b : EReal) = ((a - b : ℝ) : EReal) := rfl

theorem fold_max_bot_eq_sup (s : Finset κ) (t : κ → EReal) :
    Finset.fold max ⊥ t s = s.sup t := rfl

section Tile

variable [Fintype κ] (t : κ → EReal) (live : Finset κ) (r : κ → ℝ)

theorem tile_sup (hlive : ∀ j ∈ live, t j = (r j : EReal)) (hdead : ∀ j ∉ live, t j = ⊥)
    (hne : live.Nonempty) : Finset.univ.sup t = ((live.sup' hne r : ℝ) : EReal) := by
  apply le_antisymm
  · refine Finset.sup_le fun j _ => ?_
    by_cases hj : j ∈ live
    · rw [hlive j hj]; exact EReal.coe_le_coe_iff.mpr (Finset.le_sup' r hj)
    · rw [hdead j hj]; exact bot_le
  · obtain ⟨j, hj, hsup⟩ := Finset.exists_mem_eq_sup' hne r
    rw [hsup, ← hlive j hj]
    exact Finset.le_sup (Finset.mem_univ j)

theorem tile_sum_exp (hlive : ∀ j ∈ live, t j = (r j : EReal)) (hdead : ∀ j ∉ live, t j = ⊥)
    (M : ℝ) :
    ∑ j, Ideal.exp (t j - (M : EReal)) = ((∑ j ∈ live, Real.exp (r j - M) : ℝ) : EReal) := by
  rw [coe_sum,
    ← Finset.sum_subset (Finset.subset_univ live)
      (fun j _ hj => by rw [hdead j hj, exp_bot_sub])]
  exact Finset.sum_congr rfl fun j hj => by rw [hlive j hj, exp_coe_sub]

end Tile

def ESumm (s : Finset ι) (x : ι → ℝ) (m l : EReal) : Prop :=
  ∃ mr lr : ℝ, m = (mr : EReal) ∧ l = (lr : EReal) ∧ SummOn s x mr lr

def ESumm0 (s : Finset ι) (x : ι → ℝ) (m l : EReal) : Prop :=
  (s = ∅ ∧ m = ⊥ ∧ l = 0) ∨ ESumm s x m l

theorem ESumm0.init (x : ι → ℝ) : ESumm0 (∅ : Finset ι) x ⊥ 0 := Or.inl ⟨rfl, rfl, rfl⟩

theorem ESumm.congr {s : Finset ι} {x y : ι → ℝ} {m l : EReal}
    (hxy : ∀ i ∈ s, x i = y i) (h : ESumm s x m l) : ESumm s y m l := by
  obtain ⟨mr, lr, hm, hl, hS⟩ := h
  exact ⟨mr, lr, hm, hl, hS.congr hxy⟩

section Update

variable [Fintype κ] [DecidableEq ι] {x : ι → ℝ} (t : κ → EReal) (f : κ → ι) (live : Finset κ)

theorem ESumm.of_tile (hlive : ∀ j ∈ live, t j = (x (f j) : EReal))
    (hdead : ∀ j ∉ live, t j = ⊥) (hinj : Set.InjOn f live) (hne : live.Nonempty)
    {tm : EReal} (htm : tm = Finset.univ.sup t) :
    ESumm (live.image f) x tm (∑ j, Ideal.exp (t j - tm)) := by
  have hM := tile_sup t live (fun j => x (f j)) hlive hdead hne
  refine ⟨live.sup' hne fun j => x (f j), _, by rw [htm, hM], ?_,
    SummOn.image hinj (SummOn.of_sup' live hne fun j => x (f j))⟩
  rw [htm, hM, tile_sum_exp t live (fun j => x (f j)) hlive hdead]

theorem ESumm.step {s : Finset ι} {m l : EReal} (h : ESumm s x m l)
    (hlive : ∀ j ∈ live, t j = (x (f j) : EReal))
    (hdead : ∀ j ∉ live, t j = ⊥) (hinj : Set.InjOn f live) (hne : live.Nonempty)
    (hd : Disjoint s (live.image f)) {tm : EReal} (htm : tm = Finset.univ.sup t) :
    ESumm (s ∪ live.image f) x (max m tm)
      (l * Ideal.exp (m - max m tm) + ∑ j, Ideal.exp (t j - max m tm)) := by
  obtain ⟨mr, lr, rfl, rfl, hS⟩ := h
  have hM := tile_sup t live (fun j => x (f j)) hlive hdead hne
  have h₂ : SummOn (live.image f) x (live.sup' hne fun j => x (f j)) _ :=
    SummOn.image hinj (SummOn.of_sup' live hne fun j => x (f j))
  have hm := hS.merge hd h₂
  rw [sum_exp_rescale] at hm
  refine ⟨_, _, ?_, ?_, hm⟩
  · rw [htm, hM, coe_max]
  · rw [htm, hM, ← coe_max, exp_coe_sub, tile_sum_exp t live (fun j => x (f j)) hlive hdead,
      ← EReal.coe_mul, ← EReal.coe_add]

theorem ESumm.first {m l : EReal} (hm : m = ⊥) (hl : l = 0)
    (hlive : ∀ j ∈ live, t j = (x (f j) : EReal))
    (hdead : ∀ j ∉ live, t j = ⊥) (hinj : Set.InjOn f live) (hne : live.Nonempty)
    {tm : EReal} (htm : tm = Finset.univ.sup t) :
    ESumm (live.image f) x (max m tm)
      (l * Ideal.exp (m - max m tm) + ∑ j, Ideal.exp (t j - max m tm)) := by
  subst hm hl
  rw [max_eq_right bot_le, zero_mul, zero_add]
  exact ESumm.of_tile t f live hlive hdead hinj hne htm

theorem ESumm0.step {s : Finset ι} {m l : EReal} (h : ESumm0 s x m l)
    (hlive : ∀ j ∈ live, t j = (x (f j) : EReal))
    (hdead : ∀ j ∉ live, t j = ⊥) (hinj : Set.InjOn f live) (hne : live.Nonempty)
    (hd : Disjoint s (live.image f)) {tm : EReal} (htm : tm = Finset.univ.sup t) :
    ESumm (s ∪ live.image f) x (max m tm)
      (l * Ideal.exp (m - max m tm) + ∑ j, Ideal.exp (t j - max m tm)) := by
  rcases h with ⟨rfl, hm, hl⟩ | h
  · rw [Finset.empty_union]
    exact ESumm.first t f live hm hl hlive hdead hinj hne htm
  · exact h.step t f live hlive hdead hinj hne hd htm

end Update

theorem ESumm.merge [DecidableEq ι] {s u : Finset ι} {x : ι → ℝ} {m₁ l₁ m₂ l₂ : EReal}
    (hd : Disjoint s u) (h₁ : ESumm s x m₁ l₁) (h₂ : ESumm u x m₂ l₂) :
    ESumm (s ∪ u) x (max m₁ m₂)
      (l₁ * Ideal.exp (m₁ - max m₁ m₂) + l₂ * Ideal.exp (m₂ - max m₁ m₂)) := by
  obtain ⟨a₁, b₁, rfl, rfl, hS₁⟩ := h₁
  obtain ⟨a₂, b₂, rfl, rfl, hS₂⟩ := h₂
  refine ⟨_, _, (coe_max a₁ a₂).symm, ?_, hS₁.merge hd hS₂⟩
  rw [← coe_max, exp_coe_sub, exp_coe_sub, ← EReal.coe_mul, ← EReal.coe_mul, ← EReal.coe_add]

theorem ESumm.lse {s : Finset ι} {x : ι → ℝ} {m l : EReal} (h : ESumm s x m l) :
    m + Ideal.log l = ((Real.log (∑ i ∈ s, Real.exp (x i)) : ℝ) : EReal) := by
  obtain ⟨mr, lr, rfl, rfl, hS⟩ := h
  rw [coe_add_log mr hS.pos, hS.lse]

theorem ESumm.ref_logp {s : Finset ι} {x : ι → ℝ} {m l : EReal} (h : ESumm s x m l) (a : ℝ) :
    ((a : EReal) - m) - Ideal.log l
      = ((a - Real.log (∑ i ∈ s, Real.exp (x i)) : ℝ) : EReal) := by
  obtain ⟨mr, lr, rfl, rfl, hS⟩ := h
  rw [Ideal.log_coe, if_neg (not_le.mpr hS.pos), coe_sub_coe, coe_sub_coe, ← hS.lse]
  congr 1
  ring

theorem ESumm.unique {s : Finset ι} {x : ι → ℝ} {m l m' l' : EReal}
    (h : ESumm s x m l) (h' : ESumm s x m' l') : m = m' ∧ l = l' := by
  obtain ⟨a, b, rfl, rfl, hS⟩ := h
  obtain ⟨a', b', rfl, rfl, hS'⟩ := h'
  obtain ⟨rfl, rfl⟩ := hS.unique hS'
  exact ⟨rfl, rfl⟩

theorem ESumm.image [DecidableEq κ] {s : Finset ι} {f : ι → κ} {y : κ → ℝ} {m l : EReal}
    (hf : Set.InjOn f s) (h : ESumm s (fun i => y (f i)) m l) : ESumm (s.image f) y m l := by
  obtain ⟨a, b, hm, hl, hS⟩ := h
  exact ⟨a, b, hm, hl, hS.image hf⟩

theorem ESumm.lse_eq_of_image [DecidableEq κ] {s : Finset ι} {u : Finset κ}
    {f : ι → κ} {x : ι → ℝ} {y : κ → ℝ} {m l m' l' : EReal}
    (hf : Set.InjOn f s) (hu : s.image f = u) (hxy : ∀ i ∈ s, x i = y (f i))
    (h : ESumm s x m l) (h' : ESumm u y m' l') :
    m + Ideal.log l = m' + Ideal.log l' := by
  have h₁ : ESumm u y m l := hu ▸ (h.congr hxy).image hf
  obtain ⟨rfl, rfl⟩ := h₁.unique h'
  rfl

end Ext

end Cert.Hand.LSE
-- ==== Proof.LibOnlineRow.lean ====
import proofs.«412644_j75642964017948_3_alg».proof.Proof.LibLogSumExp

noncomputable section

namespace Cert.Hand.LSE

open Idealize.ShloMosaic

variable {V T : ℕ}

def span (V a b : ℕ) : Finset (Fin V) := Finset.univ.filter fun j => a ≤ j.val ∧ j.val < b

theorem mem_span {a b : ℕ} {j : Fin V} : j ∈ span V a b ↔ a ≤ j.val ∧ j.val < b := by
  simp [span]

theorem span_self (a : ℕ) : span V a a = ∅ := by
  ext j; simp only [mem_span, Finset.notMem_empty, iff_false]; omega

theorem span_univ {b : ℕ} (hb : V ≤ b) : span V 0 b = Finset.univ := by
  ext j; simp only [mem_span, Finset.mem_univ, iff_true]; have := j.isLt; omega

theorem span_union_span {a b c : ℕ} (hab : a ≤ b) (hbc : b ≤ c) :
    span V a b ∪ span V b c = span V a c := by
  ext j; simp only [Finset.mem_union, mem_span]; omega

theorem span_disjoint {a b c : ℕ} : Disjoint (span V a b) (span V b c) := by
  rw [Finset.disjoint_left]; intro j h₁ h₂
  rw [mem_span] at h₁ h₂; omega

def lane (V : ℕ) {b : ℕ} (hbV : b < V) (j : Fin T) : Fin V :=
  if hj : b + j.val < V then ⟨b + j.val, hj⟩ else ⟨b, hbV⟩

theorem lane_val {b : ℕ} (hbV : b < V) (j : Fin T) (hj : b + j.val < V) :
    (lane V hbV j).val = b + j.val := by
  unfold lane; rw [dif_pos hj]

def liveLanes (V b T : ℕ) : Finset (Fin T) := Finset.univ.filter fun j => b + j.val < V

theorem mem_liveLanes {b : ℕ} {j : Fin T} : j ∈ liveLanes V b T ↔ b + j.val < V := by
  simp [liveLanes]

theorem lane_injOn {b : ℕ} (hbV : b < V) :
    Set.InjOn (lane V hbV (T := T)) (liveLanes V b T) := by
  intro j hj k hk hjk
  have hj' := mem_liveLanes.mp hj
  have hk' := mem_liveLanes.mp hk
  have := congrArg Fin.val hjk
  rw [lane_val hbV j hj', lane_val hbV k hk'] at this
  exact Fin.ext (by omega)

theorem span_union_lanes {a b : ℕ} (hab : a ≤ b) (hbV : b < V) :
    span V a b ∪ (liveLanes V b T).image (lane V hbV) = span V a (b + T) := by
  ext i
  simp only [Finset.mem_union, mem_span, Finset.mem_image, mem_liveLanes]
  constructor
  · rintro (⟨h1, h2⟩ | ⟨j, hj, rfl⟩)
    · exact ⟨h1, by omega⟩
    · rw [lane_val hbV j hj]; have := j.isLt; omega
  · rintro ⟨h1, h2⟩
    by_cases hib : i.val < b
    · exact Or.inl ⟨h1, hib⟩
    · have hi := i.isLt
      have hlt : b + (i.val - b) < V := by omega
      refine Or.inr ⟨⟨i.val - b, by omega⟩, hlt, ?_⟩
      apply Fin.ext
      rw [lane_val hbV _ hlt]
      show b + (i.val - b) = i.val
      omega

theorem span_disjoint_lanes {a b : ℕ} (hbV : b < V) :
    Disjoint (span V a b) ((liveLanes V b T).image (lane V hbV)) := by
  rw [Finset.disjoint_left]
  intro i hi hi'
  obtain ⟨j, hj, rfl⟩ := Finset.mem_image.mp hi'
  have := (mem_span.mp hi).2
  rw [lane_val hbV j (mem_liveLanes.mp hj)] at this
  omega

def RowInv (x : Fin V → ℝ) (tgt : BitVec 32) (a b : ℕ) (M L A : EReal) : Prop :=
  ESumm (span V a b) x M L ∧
    A = ∑ j ∈ span V a b, if BitVec.ofNat 32 j.val = tgt then ((x j : ℝ) : EReal) else 0

def RowInv0 (x : Fin V → ℝ) (tgt : BitVec 32) (a b : ℕ) (M L A : EReal) : Prop :=
  (b = a ∧ M = ⊥ ∧ L = 0 ∧ A = 0) ∨ RowInv x tgt a b M L A

theorem RowInv0.init (x : Fin V → ℝ) (tgt : BitVec 32) (a : ℕ) : RowInv0 x tgt a a ⊥ 0 0 :=
  Or.inl ⟨rfl, rfl, rfl, rfl⟩

theorem RowInv0.step {x : Fin V → ℝ} {tgt : BitVec 32} {a b : ℕ} {M L A : EReal}
    (h : RowInv0 x tgt a b M L A) (hab : a ≤ b) (hbV : b < V)
    (lg : Fin T → EReal)
    (hlg : ∀ j : Fin T,
      lg j = if hj : b + j.val < V then ((x ⟨b + j.val, hj⟩ : ℝ) : EReal) else ⊥)
    (pos : Fin T → BitVec 32) (hpos : ∀ j : Fin T, (pos j).toNat = b + j.val)
    (hmask : b + T ≤ V ∨ tgt.toNat < V) (hT : 0 < T)
    {tm : EReal} (htm : tm = Finset.univ.sup lg) :
    RowInv x tgt a (b + T) (max M tm)
      (L * Ideal.exp (M - max M tm) + ∑ j, Ideal.exp (lg j - max M tm))
      (A + ∑ j : Fin T, if pos j = tgt then lg j else 0) := by
  have hlive : ∀ j ∈ liveLanes V b T, lg j = ((x (lane V hbV j) : ℝ) : EReal) := by
    intro j hj
    have hj' := mem_liveLanes.mp hj
    rw [hlg j, dif_pos hj']
    unfold lane
    rw [dif_pos hj']
  have hdead : ∀ j ∉ liveLanes V b T, lg j = ⊥ := by
    intro j hj
    rw [hlg j, dif_neg fun hj' => hj (mem_liveLanes.mpr hj')]
  have hne : (liveLanes V b T).Nonempty := ⟨⟨0, hT⟩, mem_liveLanes.mpr (by simpa using hbV)⟩
  have h0 : ESumm0 (span V a b) x M L ∧
      A = ∑ j ∈ span V a b, if BitVec.ofNat 32 j.val = tgt then ((x j : ℝ) : EReal) else 0 := by
    rcases h with ⟨rfl, hM, hL, hA⟩ | ⟨hS, hA⟩
    · rw [span_self]
      exact ⟨Or.inl ⟨rfl, hM, hL⟩, by rw [hA, Finset.sum_empty]⟩
    · exact ⟨Or.inr hS, hA⟩
  refine ⟨?_, ?_⟩
  · have := h0.1.step lg (lane V hbV) (liveLanes V b T) hlive hdead (lane_injOn hbV) hne
      (span_disjoint_lanes hbV) htm
    rwa [span_union_lanes hab hbV] at this
  · rw [← span_union_lanes (T := T) hab hbV, Finset.sum_union (span_disjoint_lanes hbV), ← h0.2,
      Finset.sum_image (lane_injOn hbV)]
    congr 1
    rw [← Finset.sum_subset (Finset.subset_univ (liveLanes V b T))]
    · refine Finset.sum_congr rfl fun j hj => ?_
      have hj' := mem_liveLanes.mp hj
      have hp : pos j = BitVec.ofNat 32 (lane V hbV j).val := by
        apply BitVec.eq_of_toNat_eq
        rw [hpos j, lane_val hbV j hj', BitVec.toNat_ofNat, Nat.mod_eq_of_lt]
        have := (pos j).isLt
        rw [hpos j] at this
        exact this
      rw [hp, hlive j hj]
    · intro j _ hj
      have hj' : ¬ b + j.val < V := fun h => hj (mem_liveLanes.mpr h)
      rw [if_neg]
      intro hp
      rcases hmask with hm | hm
      · have := j.isLt; omega
      · have := hpos j
        rw [hp] at this
        omega

theorem RowInv.merge {x : Fin V → ℝ} {tgt : BitVec 32} {a b c : ℕ}
    {M₁ L₁ A₁ M₂ L₂ A₂ : EReal} (hab : a ≤ b) (hbc : b ≤ c)
    (h₁ : RowInv x tgt a b M₁ L₁ A₁) (h₂ : RowInv x tgt b c M₂ L₂ A₂) :
    RowInv x tgt a c (max M₁ M₂)
      (L₁ * Ideal.exp (M₁ - max M₁ M₂) + L₂ * Ideal.exp (M₂ - max M₁ M₂)) (A₁ + A₂) := by
  refine ⟨?_, ?_⟩
  · have := h₁.1.merge span_disjoint h₂.1
    rwa [span_union_span hab hbc] at this
  · rw [← span_union_span (V := V) hab hbc, Finset.sum_union span_disjoint, ← h₁.2, ← h₂.2]

theorem RowInv.acc_hit {x : Fin V → ℝ} {tgt : BitVec 32} {a b : ℕ} {M L A : EReal}
    (h : RowInv x tgt a b M L A) (y : Fin V) (hy : y ∈ span V a b)
    (htgt : tgt = BitVec.ofNat 32 y.val) (hV : V ≤ 2 ^ 32) : A = ((x y : ℝ) : EReal) := by
  rw [h.2, Finset.sum_eq_single_of_mem y hy, if_pos htgt.symm]
  intro j _ hjy
  rw [if_neg]
  intro hj
  apply hjy
  have := congrArg BitVec.toNat (hj.trans htgt)
  rw [BitVec.toNat_ofNat, BitVec.toNat_ofNat, Nat.mod_eq_of_lt (by have := j.isLt; omega),
    Nat.mod_eq_of_lt (by have := y.isLt; omega)] at this
  exact Fin.ext this

theorem RowInv.acc_miss {x : Fin V → ℝ} {tgt : BitVec 32} {a b : ℕ} {M L A : EReal}
    (h : RowInv x tgt a b M L A) (hmiss : ∀ j ∈ span V a b, BitVec.ofNat 32 j.val ≠ tgt) :
    A = 0 := by
  rw [h.2]
  exact Finset.sum_eq_zero fun j hj => if_neg (hmiss j hj)

end Cert.Hand.LSE
-- ==== Proof.RowState0.lean ====
import proofs.«412644_j75642964017948_3_alg».proof.Proof.Frame0Dat
import proofs.«412644_j75642964017948_3_alg».proof.Proof.PayIdx0
import proofs.«412644_j75642964017948_3_alg».proof.Proof.LibOnlineRow

set_option maxRecDepth 16384

noncomputable section

namespace Cert.Hand.Row0

open Cert.KernelIdeal Cert.KernelIdeal.Gen Cert.KernelIdeal.Hand Cert.Hand.Pay0 Cert.Hand.LSE
open Idealize.ShloMosaic Idealize.ShloMosaic.TcCoe Idealize.ShloMosaic.ValueIdx
open Idealize.SL Idealize.SL.Sem

theorem lt_points (t : Fin cfg0.N) : t.val < 20 := lt_of_lt_of_eq t.isLt (show cfg0.N = 20 from N_0)

theorem coords_val : ∀ t : Fin cfg0.N, ((grid0.coords t) 0).val * 10 + ((grid0.coords t) 1).val = t.val :=
  (by decide +kernel : ∀ t : Fin grid0.N, ((grid0.coords t) 0).val * 10 + ((grid0.coords t) 1).val = t.val)

def tile0 (t : Fin cfg0.N) (j : Fin 1000) : Fin 20000 :=
  ⟨t.val * 1000 + j.val, by have := lt_points t; have := j.isLt; omega⟩

section
variable (V : (c : Dev nD) → (b : Ref sig .tc) → Buf (Elt Ideal) ((c : Thread nD τ).loc b)) (c : Dev nD)

abbrev X0 : Vec Ideal S512x1024 .f32 := V c (Pipeline.arrRef spec0 0)

abbrev P0 : Vec Ideal S1024x1024 .f32 := V c (Pipeline.arrRef spec0 1)

abbrev W0 : Vec Ideal S20000x1024 .f32 := V c (Pipeline.arrRef spec0 2)

abbrev B0 : Vec Ideal S20000x1 .f32 := V c (Pipeline.arrRef spec0 3)

abbrev T0 : Vec Ideal S512x1 .i32 := V c (Pipeline.arrRef spec0 4)

structure BlkReads0 : Prop where
  rX : ∀ (t : Fin cfg0.N) (r : Fin 512) (k : Fin 1024),
    (iblk0 V c 0 t : Vec Ideal S512x1024 .f32) (ix2 r k) = X0 V c (ix2 r k)
  rP : ∀ (t : Fin cfg0.N) (k : Fin 1024) (d : Fin 1024),
    (iblk0 V c 1 t : Vec Ideal S1024x1024 .f32) (ix2 k d) = P0 V c (ix2 k d)
  rW : ∀ (t : Fin cfg0.N) (j : Fin 1000) (d : Fin 1024),
    (iblk0 V c 2 t : Vec Ideal S1000x1024 .f32) (ix2 j d) = W0 V c (ix2 (tile0 t j) d)
  rB : ∀ (t : Fin cfg0.N) (j : Fin 1000),
    (iblk0 V c 3 t : Vec Ideal S1000x1 .f32) (ix2 j (0 : Fin 1)) = B0 V c (ix2 (tile0 t j) (0 : Fin 1))
  rT : ∀ (t : Fin cfg0.N) (r : Fin 512),
    (iblk0 V c 4 t : Vec Ideal S512x1 .i32) (ix2 r (0 : Fin 1)) = T0 V c (ix2 r (0 : Fin 1))

def logit0 (r : Fin 512) (j : Fin 20000) : EReal :=
  (∑ d : Fin 1024, (∑ k : Fin 1024, X0 V c (ix2 r k) * P0 V c (ix2 k d)) * W0 V c (ix2 j d))
    + B0 V c (ix2 j (0 : Fin 1))

variable {V c}

theorem upd_row (hb : BlkReads0 V c) (r : Fin 512) (x : Fin 20000 → ℝ)
    (hx : ∀ j : Fin 20000, logit0 V c r j = ((x j : ℝ) : EReal))
    (t : Fin cfg0.N) (Sp : St0 Ideal) (a : ℕ) (ha : a ≤ t.val * 1000)
    (hH : ∀ d : Fin 1024, Sp.1 (ix2 r d) = ∑ k : Fin 1024, X0 V c (ix2 r k) * P0 V c (ix2 k d))
    (hinv : RowInv0 x (T0 V c (ix2 r (0 : Fin 1))) a (t.val * 1000)
      (Sp.2.1 (ix2 r (0 : Fin 1))) (Sp.2.2.1 (ix2 r (0 : Fin 1))) (Sp.2.2.2 (ix2 r (0 : Fin 1)))) :
    (∀ d : Fin 1024, (upd0 (grid0.coords t) (iblk0 V c 2 t) (iblk0 V c 3 t) (iblk0 V c 4 t) Sp).1 (ix2 r d)
        = ∑ k : Fin 1024, X0 V c (ix2 r k) * P0 V c (ix2 k d)) ∧
      RowInv x (T0 V c (ix2 r (0 : Fin 1))) a (t.val * 1000 + 1000)
        ((upd0 (grid0.coords t) (iblk0 V c 2 t) (iblk0 V c 3 t) (iblk0 V c 4 t) Sp).2.1 (ix2 r (0 : Fin 1)))
        ((upd0 (grid0.coords t) (iblk0 V c 2 t) (iblk0 V c 3 t) (iblk0 V c 4 t) Sp).2.2.1 (ix2 r (0 : Fin 1)))
        ((upd0 (grid0.coords t) (iblk0 V c 2 t) (iblk0 V c 3 t) (iblk0 V c 4 t) Sp).2.2.2 (ix2 r (0 : Fin 1))) := by
  refine ⟨hH, ?_⟩
  have hN := lt_points t

  have hlg : ∀ j : Fin 1000, k0_pay11 (F := Ideal) Sp.1 (iblk0 V c 2 t) (iblk0 V c 3 t) (ix2 r j)
      = if hj : t.val * 1000 + j.val < 20000 then ((x ⟨t.val * 1000 + j.val, hj⟩ : ℝ) : EReal) else ⊥ := by
    intro j
    have hj : t.val * 1000 + j.val < 20000 := by have := j.isLt; omega
    rw [dif_pos hj, pay11_at, hb.rB t j, ← hx ⟨t.val * 1000 + j.val, hj⟩]
    refine congrArg (· + _) (Finset.sum_congr rfl fun d _ => ?_)
    rw [hH d, hb.rW t j d]
    rfl

  have hpos : ∀ j : Fin 1000, (pos0 (grid0.coords t) j).toNat = t.val * 1000 + j.val := by
    intro j
    rw [pos0_toNat, coords_val t]
  show RowInv _ _ _ _
    (k0_pay3 (F := Ideal) (k0_pay13 Sp.1 (iblk0 V c 2 t) (iblk0 V c 3 t)) Sp.2.1 (ix2 r (0 : Fin 1)))
    (k0_pay2 (F := Ideal) (k0_pay11 Sp.1 (iblk0 V c 2 t) (iblk0 V c 3 t))
      (k0_pay13 Sp.1 (iblk0 V c 2 t) (iblk0 V c 3 t)) Sp.2.1 Sp.2.2.1 Sp.2.1 (ix2 r (0 : Fin 1)))
    (k0_pay12 (F := Ideal) (grid0.coords t) Sp.1 (iblk0 V c 2 t) (iblk0 V c 3 t) (iblk0 V c 4 t) Sp.2.2.2
      (ix2 r (0 : Fin 1)))
  rw [pay3_at, pay2_at, pay12_at, pay13_at, hb.rT t r]
  exact RowInv0.step hinv ha (by omega)
    (fun j : Fin 1000 => k0_pay11 (F := Ideal) Sp.1 (iblk0 V c 2 t) (iblk0 V c 3 t) (ix2 r j)) hlg
    (pos0 (grid0.coords t)) hpos (Or.inl (by omega)) (by norm_num) rfl

theorem reset_row (hb : BlkReads0 V c) (t : Fin cfg0.N) (r : Fin 512) :
    (∀ d : Fin 1024, (reset0 (iblk0 V c 0 t) (iblk0 V c 1 t)).1 (ix2 r d)
        = ∑ k : Fin 1024, X0 V c (ix2 r k) * P0 V c (ix2 k d)) ∧
      (reset0 (F := Ideal) (iblk0 V c 0 t) (iblk0 V c 1 t)).2.1 (ix2 r (0 : Fin 1)) = ⊥ ∧
      (reset0 (F := Ideal) (iblk0 V c 0 t) (iblk0 V c 1 t)).2.2.1 (ix2 r (0 : Fin 1)) = 0 ∧
      (reset0 (F := Ideal) (iblk0 V c 0 t) (iblk0 V c 1 t)).2.2.2 (ix2 r (0 : Fin 1)) = 0 := by
  refine ⟨fun d => ?_, pay8_at r, pay9_at r, pay10_at r⟩
  show k0_pay7 (F := Ideal) (iblk0 V c 0 t) (iblk0 V c 1 t) (ix2 r d) = _
  rw [pay7_at]
  exact Finset.sum_congr rfl fun k _ => by rw [hb.rX t r k, hb.rP t k d]

theorem rowState0 (hb : BlkReads0 V c) (r : Fin 512) (x : Fin 20000 → ℝ)
    (hx : ∀ j : Fin 20000, logit0 V c r j = ((x j : ℝ) : EReal))
    (κ : Fin 2) (s : ℕ) :
    ∀ (hs : s < 10) (hn : κ.val * 10 + s < cfg0.N),
      (∀ d : Fin 1024, (stAt0 V c (κ.val * 10 + s) hn).1 (ix2 r d)
          = ∑ k : Fin 1024, X0 V c (ix2 r k) * P0 V c (ix2 k d)) ∧
        RowInv x (T0 V c (ix2 r (0 : Fin 1))) (κ.val * 10000) (κ.val * 10000 + (s + 1) * 1000)
          ((stAt0 V c (κ.val * 10 + s) hn).2.1 (ix2 r (0 : Fin 1)))
          ((stAt0 V c (κ.val * 10 + s) hn).2.2.1 (ix2 r (0 : Fin 1)))
          ((stAt0 V c (κ.val * 10 + s) hn).2.2.2 (ix2 r (0 : Fin 1))) := by
  induction s with
  | zero =>
    intro hs hn
    have e : stAt0 V c (κ.val * 10 + 0) hn = _ :=
      stAt0_first V c ⟨κ.val * 10 + 0, hn⟩ (by show (κ.val * 10 + 0) % 10 = 0; omega)
    rw [e]
    obtain ⟨hH, hM, hL, hA⟩ := reset_row hb ⟨κ.val * 10 + 0, hn⟩ r
    have hstep := upd_row hb r x hx ⟨κ.val * 10 + 0, hn⟩ _ (κ.val * 10000)
      (by show κ.val * 10000 ≤ (κ.val * 10 + 0) * 1000; omega) hH
      (Or.inl ⟨by show (κ.val * 10 + 0) * 1000 = κ.val * 10000; omega, hM, hL, hA⟩)
    have hb' : (κ.val * 10 + 0) * 1000 + 1000 = κ.val * 10000 + (0 + 1) * 1000 := by omega
    exact ⟨hstep.1, hb' ▸ hstep.2⟩
  | succ s ih =>
    intro hs hn
    obtain ⟨hH, hI⟩ := ih (by omega) (by omega)
    have e : stAt0 V c (κ.val * 10 + (s + 1)) hn = _ :=
      stAt0_next V c ⟨κ.val * 10 + (s + 1), hn⟩ (by show ¬ (κ.val * 10 + (s + 1)) % 10 = 0; omega)
    rw [e]
    have hstep := upd_row hb r x hx ⟨κ.val * 10 + (s + 1), hn⟩
      (stAt0 V c (κ.val * 10 + s) (by omega)) (κ.val * 10000)
      (by show κ.val * 10000 ≤ (κ.val * 10 + (s + 1)) * 1000; omega) hH
      (Or.inr (by
        have hb' : κ.val * 10000 + (s + 1) * 1000 = (κ.val * 10 + (s + 1)) * 1000 := by omega
        exact hb' ▸ hI))
    have hb' : (κ.val * 10 + (s + 1)) * 1000 + 1000 = κ.val * 10000 + (s + 1 + 1) * 1000 := by omega
    exact ⟨hstep.1, hb' ▸ hstep.2⟩

theorem rowState0_last (hb : BlkReads0 V c) (r : Fin 512) (x : Fin 20000 → ℝ)
    (hx : ∀ j : Fin 20000, logit0 V c r j = ((x j : ℝ) : EReal))
    (κ : Fin 2) (hn : κ.val * 10 + 9 < cfg0.N) :
    RowInv x (T0 V c (ix2 r (0 : Fin 1))) (κ.val * 10000) (κ.val * 10000 + 10000)
      ((stAt0 V c (κ.val * 10 + 9) hn).2.1 (ix2 r (0 : Fin 1)))
      ((stAt0 V c (κ.val * 10 + 9) hn).2.2.1 (ix2 r (0 : Fin 1)))
      ((stAt0 V c (κ.val * 10 + 9) hn).2.2.2 (ix2 r (0 : Fin 1))) :=
  (rowState0 hb r x hx κ 9 (by norm_num) hn).2

theorem rowCore0_0 (hb : BlkReads0 V c) (r : Fin 512) (x : Fin 20000 → ℝ)
    (hx : ∀ j : Fin 20000, logit0 V c r j = ((x j : ℝ) : EReal))
    (h₀ : 9 < cfg0.N) :
    RowInv x (T0 V c (ix2 r (0 : Fin 1))) 0 10000
      ((stAt0 V c 9 h₀).2.1 (ix2 r (0 : Fin 1))) ((stAt0 V c 9 h₀).2.2.1 (ix2 r (0 : Fin 1)))
      ((stAt0 V c 9 h₀).2.2.2 (ix2 r (0 : Fin 1))) :=
  rowState0_last hb r x hx (0 : Fin 2) h₀

theorem rowCore1_0 (hb : BlkReads0 V c) (r : Fin 512) (x : Fin 20000 → ℝ)
    (hx : ∀ j : Fin 20000, logit0 V c r j = ((x j : ℝ) : EReal))
    (h₁ : 19 < cfg0.N) :
    RowInv x (T0 V c (ix2 r (0 : Fin 1))) 10000 20000
      ((stAt0 V c 19 h₁).2.1 (ix2 r (0 : Fin 1))) ((stAt0 V c 19 h₁).2.2.1 (ix2 r (0 : Fin 1)))
      ((stAt0 V c 19 h₁).2.2.2 (ix2 r (0 : Fin 1))) :=
  rowState0_last hb r x hx (1 : Fin 2) h₁

end

end Cert.Hand.Row0
-- ==== Proof.RowMerge.lean ====
import proofs.«412644_j75642964017948_3_alg».proof.Proof.LibOnlineRow

noncomputable section

namespace Cert.Hand.LSE

open Idealize.ShloMosaic

variable {V : ℕ}

theorem RowInv.whole {x : Fin V → ℝ} {tg : BitVec 32} {b c : ℕ} {M₀ L₀ A₀ M₁ L₁ A₁ : EReal}
    (hbc : b ≤ c) (hV : V ≤ c) (hV32 : V ≤ 2 ^ 32)
    (h₀ : RowInv x tg 0 b M₀ L₀ A₀) (h₁ : RowInv x tg b c M₁ L₁ A₁) :
    ESumm Finset.univ x (max M₀ M₁)
        (L₀ * Ideal.exp (M₀ - max M₀ M₁) + L₁ * Ideal.exp (M₁ - max M₀ M₁)) ∧
      (∀ h : tg.toNat < V, A₀ + A₁ = ((x ⟨tg.toNat, h⟩ : ℝ) : EReal)) ∧
      (V ≤ tg.toNat → A₀ + A₁ = 0) := by
  have hm := RowInv.merge (Nat.zero_le b) hbc h₀ h₁
  have hu : span V 0 c = Finset.univ := span_univ hV
  refine ⟨?_, ?_, ?_⟩
  · have := hm.1
    rwa [hu] at this
  · intro h
    refine hm.acc_hit ⟨tg.toNat, h⟩ (by rw [hu]; exact Finset.mem_univ _) ?_ hV32
    apply BitVec.eq_of_toNat_eq
    rw [BitVec.toNat_ofNat, Nat.mod_eq_of_lt tg.isLt]
  · intro h
    refine hm.acc_miss fun j _ hj => ?_
    have := congrArg BitVec.toNat hj
    rw [BitVec.toNat_ofNat, Nat.mod_eq_of_lt (by have := j.isLt; omega)] at this
    have := j.isLt
    omega

end Cert.Hand.LSE
-- ==== Proof.Frame0Arr.lean ====
import proofs.«412644_j75642964017948_3_alg».proof.Proof.Frame0Dat
import Idealize.ShloMosaic.Lib.Pipeline.Value
import Idealize.ShloMosaic.Lib.ValueIdx
import Idealize.ShloMosaic.Lib.ValueLayout

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable {F : FTy → Type} [FloatOps F] [Named F]

theorem idx_facts0 : ∀ t : Fin cfg0.N,
    win0_0.index t (0 : Fin 2) = 0 ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = 0 ∧ win0_4.index t (1 : Fin 2) = 0
    ∧ win0_5.index t (0 : Fin 3) = t.val / 10 ∧ win0_5.index t (1 : Fin 3) = 0 ∧ win0_5.index t (2 : Fin 3) = 0
    ∧ win0_6.index t (0 : Fin 3) = t.val / 10 ∧ win0_6.index t (1 : Fin 3) = 0 ∧ win0_6.index t (2 : Fin 3) = 0
    ∧ win0_7.index t (0 : Fin 3) = t.val / 10 ∧ win0_7.index t (1 : Fin 3) = 0 ∧ win0_7.index t (2 : Fin 3) = 0 :=
  (by decide +kernel : ∀ t : Fin grid0.N, _)

section

variable (V : (c : Dev nD) → (b : Ref sig .tc) → Buf (Elt F) ((c : Thread nD τ).loc b))

theorem iblk0_0_at (c : Dev nD) (t : Fin cfg0.N) (r : Fin 512) (k : Fin 1024) :
    iblk0 V c 0 t (ix2 r k) = (V c (Pipeline.arrRef spec0 0) : S512x1024.Idx → Elt F .f32) (ix2 r k) := by
  obtain ⟨e00, e01, -⟩ := idx_facts0 t
  show V c (Pipeline.arrRef spec0 0) (((cfg0.win 0).blk t).view.emb (ix2 r k)) = _
  refine congrArg _ (funext fun a => Fin.ext ?_)
  match a with
  | ⟨0, _⟩ => show win0_0.index t (0 : Fin 2) * 512 + 1 * r.val = r.val; omega
  | ⟨1, _⟩ => show win0_0.index t (1 : Fin 2) * 1024 + 1 * k.val = k.val; omega

theorem iblk0_1_at (c : Dev nD) (t : Fin cfg0.N) (k : Fin 1024) (d : Fin 1024) :
    iblk0 V c 1 t (ix2 k d) = (V c (Pipeline.arrRef spec0 1) : S1024x1024.Idx → Elt F .f32) (ix2 k d) := by
  obtain ⟨-, -, e10, e11, -⟩ := idx_facts0 t
  show V c (Pipeline.arrRef spec0 1) (((cfg0.win 1).blk t).view.emb (ix2 k d)) = _
  refine congrArg _ (funext fun a => Fin.ext ?_)
  match a with
  | ⟨0, _⟩ => show win0_1.index t (0 : Fin 2) * 1024 + 1 * k.val = k.val; omega
  | ⟨1, _⟩ => show win0_1.index t (1 : Fin 2) * 1024 + 1 * d.val = d.val; omega

theorem iblk0_2_at (c : Dev nD) (t : Fin cfg0.N) (j : Fin 1000) (d : Fin 1024) :
    iblk0 V c 2 t (ix2 j d)
      = (V c (Pipeline.arrRef spec0 2) : S20000x1024.Idx → Elt F .f32)
          (ix2 ⟨t.val * 1000 + j.val, by have := t.isLt; have h : cfg0.N = 20 := N_0; have := j.isLt; omega⟩ d) := by
  obtain ⟨-, -, -, -, e20, e21, -⟩ := idx_facts0 t
  show V c (Pipeline.arrRef spec0 2) (((cfg0.win 2).blk t).view.emb (ix2 j d)) = _
  refine congrArg _ (funext fun a => Fin.ext ?_)
  match a with
  | ⟨0, _⟩ => show win0_2.index t (0 : Fin 2) * 1000 + 1 * j.val = t.val * 1000 + j.val; omega
  | ⟨1, _⟩ => show win0_2.index t (1 : Fin 2) * 1024 + 1 * d.val = d.val; omega

theorem iblk0_3_at (c : Dev nD) (t : Fin cfg0.N) (j : Fin 1000) :
    iblk0 V c 3 t (ix2 j (0 : Fin 1))
      = (V c (Pipeline.arrRef spec0 3) : S20000x1.Idx → Elt F .f32)
          (ix2 ⟨t.val * 1000 + j.val, by have := t.isLt; have h : cfg0.N = 20 := N_0; have := j.isLt; omega⟩ (0 : Fin 1)) := by
  obtain ⟨-, -, -, -, -, -, e30, e31, -⟩ := idx_facts0 t
  show V c (Pipeline.arrRef spec0 3) (((cfg0.win 3).blk t).view.emb (ix2 j (0 : Fin 1))) = _
  refine congrArg _ (funext fun a => Fin.ext ?_)
  match a with
  | ⟨0, _⟩ => show win0_3.index t (0 : Fin 2) * 1000 + 1 * j.val = t.val * 1000 + j.val; omega
  | ⟨1, _⟩ => show win0_3.index t (1 : Fin 2) * 1 + 1 * 0 = 0; omega

theorem iblk0_4_at (c : Dev nD) (t : Fin cfg0.N) (r : Fin 512) :
    iblk0 V c 4 t (ix2 r (0 : Fin 1)) = (V c (Pipeline.arrRef spec0 4) : S512x1.Idx → Elt F .i32) (ix2 r (0 : Fin 1)) := by
  obtain ⟨-, -, -, -, -, -, -, -, e40, e41, -⟩ := idx_facts0 t
  show V c (Pipeline.arrRef spec0 4) (((cfg0.win 4).blk t).view.emb (ix2 r (0 : Fin 1))) = _
  refine congrArg _ (funext fun a => Fin.ext ?_)
  match a with
  | ⟨0, _⟩ => show win0_4.index t (0 : Fin 2) * 512 + 1 * r.val = r.val; omega
  | ⟨1, _⟩ => show win0_4.index t (1 : Fin 2) * 1 + 1 * 0 = 0; omega

theorem arr0_5_at (c : Dev nD) (κ : Fin 2) (r : Fin 512) (hlt : κ.val * 10 + 9 < cfg0.N) :
    ((dat0 V c).arrAt 5 cfg0.N : S2x512x1.Idx → Elt F .f32) (ix3 κ r (0 : Fin 1))
      = (stAt0 V c (κ.val * 10 + 9) hlt).2.1 (ix2 r (0 : Fin 1)) := by
  let s : (n : ℕ) → n < cfg0.N → Vec F S512x1 .f32 := fun n hn => (stAt0 V c n hn).2.1
  have hN : cfg0.N = 20 := N_0
  have hκ : κ.val < 2 := κ.isLt
  let G : S2x512x1.Idx → Elt F .f32 := fun i =>
    s ((i 0).val * 10 + 9) (by have : (i 0).val < 2 := (i 0).isLt; rw [hN]; omega) (ix2 ⟨(i 1).val, (i 1).isLt⟩ (0 : Fin 1))
  have hG : ∀ t, (cfg0.win 5).flush t = true → (dat0 V c).flushed 5 t = ((cfg0.win 5).blk t).view.read (Elt F) G := by
    intro t hf
    have h9 : t.val % 10 = 9 := (flush0_5 t).mp hf
    obtain ⟨-, -, -, -, -, -, -, -, -, -, e0, e1, e2, -⟩ := idx_facts0 t
    show (cfg0.win 5).cut (grid0.coords t) ((dat0 V c).after 5 t) = _
    rw [after0_5]
    funext y
    obtain ⟨u, p, u', rfl⟩ : ∃ (u : Fin 1) (p : Fin 512) (u' : Fin 1), y = ix3 u p u' := ⟨y 0, y 1, y 2, eq_ix3 y⟩
    have hu : u.val = 0 := by omega
    have hu' : u' = (0 : Fin 1) := Fin.ext (by omega)
    subst hu'
    show k0_pay4 (s t.val t.isLt) (ix3 u p (0 : Fin 1)) = G (((cfg0.win 5).blk t).view.emb (ix3 u p (0 : Fin 1)))
    have h0 : ((((cfg0.win 5).blk t).view.emb (ix3 u p (0 : Fin 1))) 0).val = t.val / 10 := by
      show win0_5.index t (0 : Fin 3) * 1 + 1 * u.val = _; omega
    have h1 : ((((cfg0.win 5).blk t).view.emb (ix3 u p (0 : Fin 1))) 1).val = p.val := by
      show win0_5.index t (1 : Fin 3) * 512 + 1 * p.val = _; omega
    have key : ∀ (n : ℕ) (hn : n < cfg0.N) (q : Fin 512), n = t.val → q = p →
        s n hn (ix2 q (0 : Fin 1)) = s t.val t.isLt (ix2 p (0 : Fin 1)) := by
      intro n hn q hnt hq; subst hnt; subst hq; rfl
    unfold k0_pay4
    rw [shapeCast_ab_1ab_apply]
    exact (key _ _ _ (by rw [h0]; omega) (Fin.ext h1)).symm
  have hf : (cfg0.win 5).flush ⟨κ.val * 10 + 9, hlt⟩ = true :=
    (flush0_5 _).mpr (by show (κ.val * 10 + 9) % 10 = 9; omega)
  obtain ⟨-, -, -, -, -, -, -, -, -, -, e0, e1, e2, -⟩ := idx_facts0 ⟨κ.val * 10 + 9, hlt⟩
  have e : ((cfg0.win 5).blk ⟨κ.val * 10 + 9, hlt⟩).view.emb (ix3 (0 : Fin 1) r (0 : Fin 1)) = ix3 κ r (0 : Fin 1) :=
    funext fun a => Fin.ext (by
      match a with
      | ⟨0, _⟩ => show win0_5.index ⟨κ.val * 10 + 9, hlt⟩ (0 : Fin 3) * 1 + 1 * 0 = κ.val; rw [e0]; show (κ.val * 10 + 9) / 10 * 1 + 1 * 0 = κ.val; omega
      | ⟨1, _⟩ => show win0_5.index ⟨κ.val * 10 + 9, hlt⟩ (1 : Fin 3) * 512 + 1 * r.val = r.val; rw [e1]; omega
      | ⟨2, _⟩ => show win0_5.index ⟨κ.val * 10 + 9, hlt⟩ (2 : Fin 3) * 1 + 1 * 0 = 0; rw [e2])
  have hmem := ((cfg0.win 5).blk ⟨κ.val * 10 + 9, hlt⟩).view.emb_mem_set (ix3 (0 : Fin 1) r (0 : Fin 1))
  rw [e] at hmem
  exact (dat0 V c).arrAt_apply_of_mem 5 G hG cfg0.N ⟨κ.val * 10 + 9, hlt⟩ (ix3 κ r (0 : Fin 1)) hlt hf hmem

theorem arr0_6_at (c : Dev nD) (κ : Fin 2) (r : Fin 512) (hlt : κ.val * 10 + 9 < cfg0.N) :
    ((dat0 V c).arrAt 6 cfg0.N : S2x512x1.Idx → Elt F .f32) (ix3 κ r (0 : Fin 1))
      = (stAt0 V c (κ.val * 10 + 9) hlt).2.2.1 (ix2 r (0 : Fin 1)) := by
  let s : (n : ℕ) → n < cfg0.N → Vec F S512x1 .f32 := fun n hn => (stAt0 V c n hn).2.2.1
  have hN : cfg0.N = 20 := N_0
  have hκ : κ.val < 2 := κ.isLt
  let G : S2x512x1.Idx → Elt F .f32 := fun i =>
    s ((i 0).val * 10 + 9) (by have : (i 0).val < 2 := (i 0).isLt; rw [hN]; omega) (ix2 ⟨(i 1).val, (i 1).isLt⟩ (0 : Fin 1))
  have hG : ∀ t, (cfg0.win 6).flush t = true → (dat0 V c).flushed 6 t = ((cfg0.win 6).blk t).view.read (Elt F) G := by
    intro t hf
    have h9 : t.val % 10 = 9 := (flush0_6 t).mp hf
    obtain ⟨-, -, -, -, -, -, -, -, -, -, -, -, -, e0, e1, e2, -⟩ := idx_facts0 t
    show (cfg0.win 6).cut (grid0.coords t) ((dat0 V c).after 6 t) = _
    rw [after0_6]
    funext y
    obtain ⟨u, p, u', rfl⟩ : ∃ (u : Fin 1) (p : Fin 512) (u' : Fin 1), y = ix3 u p u' := ⟨y 0, y 1, y 2, eq_ix3 y⟩
    have hu : u.val = 0 := by omega
    have hu' : u' = (0 : Fin 1) := Fin.ext (by omega)
    subst hu'
    show k0_pay5 (s t.val t.isLt) (ix3 u p (0 : Fin 1)) = G (((cfg0.win 6).blk t).view.emb (ix3 u p (0 : Fin 1)))
    have h0 : ((((cfg0.win 6).blk t).view.emb (ix3 u p (0 : Fin 1))) 0).val = t.val / 10 := by
      show win0_6.index t (0 : Fin 3) * 1 + 1 * u.val = _; omega
    have h1 : ((((cfg0.win 6).blk t).view.emb (ix3 u p (0 : Fin 1))) 1).val = p.val := by
      show win0_6.index t (1 : Fin 3) * 512 + 1 * p.val = _; omega
    have key : ∀ (n : ℕ) (hn : n < cfg0.N) (q : Fin 512), n = t.val → q = p →
        s n hn (ix2 q (0 : Fin 1)) = s t.val t.isLt (ix2 p (0 : Fin 1)) := by
      intro n hn q hnt hq; subst hnt; subst hq; rfl
    unfold k0_pay5
    rw [shapeCast_ab_1ab_apply]
    exact (key _ _ _ (by rw [h0]; omega) (Fin.ext h1)).symm
  have hf : (cfg0.win 6).flush ⟨κ.val * 10 + 9, hlt⟩ = true :=
    (flush0_6 _).mpr (by show (κ.val * 10 + 9) % 10 = 9; omega)
  obtain ⟨-, -, -, -, -, -, -, -, -, -, -, -, -, e0, e1, e2, -⟩ := idx_facts0 ⟨κ.val * 10 + 9, hlt⟩
  have e : ((cfg0.win 6).blk ⟨κ.val * 10 + 9, hlt⟩).view.emb (ix3 (0 : Fin 1) r (0 : Fin 1)) = ix3 κ r (0 : Fin 1) :=
    funext fun a => Fin.ext (by
      match a with
      | ⟨0, _⟩ => show win0_6.index ⟨κ.val * 10 + 9, hlt⟩ (0 : Fin 3) * 1 + 1 * 0 = κ.val; rw [e0]; show (κ.val * 10 + 9) / 10 * 1 + 1 * 0 = κ.val; omega
      | ⟨1, _⟩ => show win0_6.index ⟨κ.val * 10 + 9, hlt⟩ (1 : Fin 3) * 512 + 1 * r.val = r.val; rw [e1]; omega
      | ⟨2, _⟩ => show win0_6.index ⟨κ.val * 10 + 9, hlt⟩ (2 : Fin 3) * 1 + 1 * 0 = 0; rw [e2])
  have hmem := ((cfg0.win 6).blk ⟨κ.val * 10 + 9, hlt⟩).view.emb_mem_set (ix3 (0 : Fin 1) r (0 : Fin 1))
  rw [e] at hmem
  exact (dat0 V c).arrAt_apply_of_mem 6 G hG cfg0.N ⟨κ.val * 10 + 9, hlt⟩ (ix3 κ r (0 : Fin 1)) hlt hf hmem

theorem arr0_7_at (c : Dev nD) (κ : Fin 2) (r : Fin 512) (hlt : κ.val * 10 + 9 < cfg0.N) :
    ((dat0 V c).arrAt 7 cfg0.N : S2x512x1.Idx → Elt F .f32) (ix3 κ r (0 : Fin 1))
      = (stAt0 V c (κ.val * 10 + 9) hlt).2.2.2 (ix2 r (0 : Fin 1)) := by
  let s : (n : ℕ) → n < cfg0.N → Vec F S512x1 .f32 := fun n hn => (stAt0 V c n hn).2.2.2
  have hN : cfg0.N = 20 := N_0
  have hκ : κ.val < 2 := κ.isLt
  let G : S2x512x1.Idx → Elt F .f32 := fun i =>
    s ((i 0).val * 10 + 9) (by have : (i 0).val < 2 := (i 0).isLt; rw [hN]; omega) (ix2 ⟨(i 1).val, (i 1).isLt⟩ (0 : Fin 1))
  have hG : ∀ t, (cfg0.win 7).flush t = true → (dat0 V c).flushed 7 t = ((cfg0.win 7).blk t).view.read (Elt F) G := by
    intro t hf
    have h9 : t.val % 10 = 9 := (flush0_7 t).mp hf
    obtain ⟨-, -, -, -, -, -, -, -, -, -, -, -, -, -, -, -, e0, e1, e2⟩ := idx_facts0 t
    show (cfg0.win 7).cut (grid0.coords t) ((dat0 V c).after 7 t) = _
    rw [after0_7]
    funext y
    obtain ⟨u, p, u', rfl⟩ : ∃ (u : Fin 1) (p : Fin 512) (u' : Fin 1), y = ix3 u p u' := ⟨y 0, y 1, y 2, eq_ix3 y⟩
    have hu : u.val = 0 := by omega
    have hu' : u' = (0 : Fin 1) := Fin.ext (by omega)
    subst hu'
    show k0_pay6 (s t.val t.isLt) (ix3 u p (0 : Fin 1)) = G (((cfg0.win 7).blk t).view.emb (ix3 u p (0 : Fin 1)))
    have h0 : ((((cfg0.win 7).blk t).view.emb (ix3 u p (0 : Fin 1))) 0).val = t.val / 10 := by
      show win0_7.index t (0 : Fin 3) * 1 + 1 * u.val = _; omega
    have h1 : ((((cfg0.win 7).blk t).view.emb (ix3 u p (0 : Fin 1))) 1).val = p.val := by
      show win0_7.index t (1 : Fin 3) * 512 + 1 * p.val = _; omega
    have key : ∀ (n : ℕ) (hn : n < cfg0.N) (q : Fin 512), n = t.val → q = p →
        s n hn (ix2 q (0 : Fin 1)) = s t.val t.isLt (ix2 p (0 : Fin 1)) := by
      intro n hn q hnt hq; subst hnt; subst hq; rfl
    unfold k0_pay6
    rw [shapeCast_ab_1ab_apply]
    exact (key _ _ _ (by rw [h0]; omega) (Fin.ext h1)).symm
  have hf : (cfg0.win 7).flush ⟨κ.val * 10 + 9, hlt⟩ = true :=
    (flush0_7 _).mpr (by show (κ.val * 10 + 9) % 10 = 9; omega)
  obtain ⟨-, -, -, -, -, -, -, -, -, -, -, -, -, -, -, -, e0, e1, e2⟩ := idx_facts0 ⟨κ.val * 10 + 9, hlt⟩
  have e : ((cfg0.win 7).blk ⟨κ.val * 10 + 9, hlt⟩).view.emb (ix3 (0 : Fin 1) r (0 : Fin 1)) = ix3 κ r (0 : Fin 1) :=
    funext fun a => Fin.ext (by
      match a with
      | ⟨0, _⟩ => show win0_7.index ⟨κ.val * 10 + 9, hlt⟩ (0 : Fin 3) * 1 + 1 * 0 = κ.val; rw [e0]; show (κ.val * 10 + 9) / 10 * 1 + 1 * 0 = κ.val; omega
      | ⟨1, _⟩ => show win0_7.index ⟨κ.val * 10 + 9, hlt⟩ (1 : Fin 3) * 512 + 1 * r.val = r.val; rw [e1]; omega
      | ⟨2, _⟩ => show win0_7.index ⟨κ.val * 10 + 9, hlt⟩ (2 : Fin 3) * 1 + 1 * 0 = 0; rw [e2])
  have hmem := ((cfg0.win 7).blk ⟨κ.val * 10 + 9, hlt⟩).view.emb_mem_set (ix3 (0 : Fin 1) r (0 : Fin 1))
  rw [e] at hmem
  exact (dat0 V c).arrAt_apply_of_mem 7 G hG cfg0.N ⟨κ.val * 10 + 9, hlt⟩ (ix3 κ r (0 : Fin 1)) hlt hf hmem

end

end Cert.KernelIdeal.Hand

end
-- ==== Proof.GluePostDefs.lean ====
import proofs.«412644_j75642964017948_3_alg».proof.Proof.Gen.KernelIdeal.Regions
import Idealize.ShloMosaic.Lib.ValueIdx
import Idealize.ShloMosaic.Lib.ValueLayout
import Idealize.ShloMosaic.Lib.StableHlo.Run
import Idealize.ShloMosaic.PureOps.Ideal.Laws
import Idealize.ShloMosaic.Lib.StackMember

set_option maxRecDepth 1856

noncomputable section

namespace Cert.Hand.GluePost

open Idealize.ShloMosaic Idealize.ShloMosaic.TcCoe
open Idealize.ShloMosaic.ValueIdx
open Cert.KernelIdeal Cert.KernelIdeal.Gen
open scoped BigOperators

section Basics
variable {s : Shape} {φ : FTy}

theorem hexp_apply (x : FVec Ideal s φ) (i : s.Idx) : Host.exp x i = Ideal.exp (x i) := rfl

theorem hlog_apply (x : FVec Ideal s φ) (i : s.Idx) : Host.log x i = Ideal.log (x i) := rfl

theorem hneg_apply (x : FVec Ideal s φ) (i : s.Idx) : Host.negf x i = -(x i) := rfl
end Basics

theorem read_core0 (O : S2x512x1.Idx → EReal) (h1 : S2x512x1.Slices ![0, 0, 0] S1x512x1) (h2 : S1x512x1.ShapeCasts S512x1)
    (n : Fin 512) : shapeCast S512x1 (extractStridedSlice S1x512x1 ![0, 0, 0] O h1) h2 (ix2 n 0) = O (ix3 0 n 0) :=
  (shapeCast_1ab_ab_apply _ h2 n 0).trans
    (extractStridedSlice_apply _ O h1 _ (ix3 0 n 0) fun a => match a with | ⟨0, _⟩ => rfl | ⟨1, _⟩ => (Nat.zero_add _).symm | ⟨2, _⟩ => rfl)
theorem read_core1 (O : S2x512x1.Idx → EReal) (h1 : S2x512x1.Slices ![1, 0, 0] S1x512x1) (h2 : S1x512x1.ShapeCasts S512x1)
    (n : Fin 512) : shapeCast S512x1 (extractStridedSlice S1x512x1 ![1, 0, 0] O h1) h2 (ix2 n 0) = O (ix3 1 n 0) :=
  (shapeCast_1ab_ab_apply _ h2 n 0).trans
    (extractStridedSlice_apply _ O h1 _ (ix3 1 n 0) fun a => match a with | ⟨0, _⟩ => rfl | ⟨1, _⟩ => (Nat.zero_add _).symm | ⟨2, _⟩ => rfl)

def merge (m0 l0 m1 l1 : EReal) : EReal × EReal :=
  (max m0 m1, l0 * Ideal.exp (m0 - max m0 m1) + l1 * Ideal.exp (m1 - max m0 m1))

structure Six where
  m0 : EReal
  m1 : EReal
  l0 : EReal
  l1 : EReal
  a0 : EReal
  a1 : EReal

def sixAt (M L A : S2x512x1.Idx → EReal) (r : Fin 512) : Six :=
  ⟨M (ix3 0 r 0), M (ix3 1 r 0), L (ix3 0 r 0), L (ix3 1 r 0), A (ix3 0 r 0), A (ix3 1 r 0)⟩

def Six.st (s : Six) : EReal × EReal := merge s.m0 s.l0 s.m1 s.l1

def Six.acc (s : Six) : EReal := s.a0 + s.a1

def clusterLogit (X : S512x1024.Idx → EReal) (P : S1024x1024.Idx → EReal) (W : S3x1024.Idx → EReal) (b : S3.Idx → EReal)
    (r : Fin 512) (i : Fin 3) : EReal :=
  (∑ k : Fin 1024, (∑ j : Fin 1024, X (ix2 r j) * P (ix2 j k)) * W (ix2 i k)) + b (ix1 i)

def clMax (cl : Fin 3 → EReal) : EReal := Finset.univ.sup cl

def clSum (cl : Fin 3 → EReal) : EReal := ∑ i : Fin 3, Ideal.exp (cl i - clMax cl)

def logZ (h : Six) (cl : Fin 3 → EReal) : EReal :=
  (merge h.st.1 h.st.2 (clMax cl) (clSum cl)).1 + Ideal.log (merge h.st.1 h.st.2 (clMax cl) (clSum cl)).2

def sel0 (h : Six) (cl : Fin 3 → EReal) : EReal := h.acc - logZ h cl

def selT (h : Six) (cl : Fin 3 → EReal) (t : Six) (i : Fin 3) : EReal :=
  (cl i - logZ h cl) + (t.acc - (t.st.1 + Ideal.log t.st.2))

def kerRow (k0 k1 k2 k3 : BitVec 1) (cl : Fin 3 → EReal) (h t1 t2 t3 : Six) : EReal :=
  -((((if k0 = 1#1 then sel0 h cl else 0) + (if k1 = 1#1 then selT h cl t1 0 else 0))
      + (if k2 = 1#1 then selT h cl t2 1 else 0)) + (if k3 = 1#1 then selT h cl t3 2 else 0))

theorem dot1_apply (A : S512x1024.Idx → EReal) (B : S1024x1024.Idx → EReal) (a : Fin 512) (b : Fin 1024) :
    Host.dotGeneral (F := Ideal) (φ₁ := .f32) (φ₂ := .f32) dot_S512x1024_S1024x1024_S512x1024_1_0_0_1_n_n none A B (ix2 a b) = ∑ k : Fin 1024, A (ix2 a k) * B (ix2 k b) :=
  StackMember.dotGeneral_plain_apply (m := 512) (n := 1024) (k := 1024) none A B a b

theorem dot2_apply (A : S512x1024.Idx → EReal) (B : S1024x3.Idx → EReal) (a : Fin 512) (b : Fin 3) :
    Host.dotGeneral (F := Ideal) (φ₁ := .f32) (φ₂ := .f32) dot_S512x1024_S1024x3_S512x3_1_0_0_1_n_n none A B (ix2 a b) = ∑ k : Fin 1024, A (ix2 a k) * B (ix2 k b) :=
  StackMember.dotGeneral_plain_apply (m := 512) (n := 3) (k := 1024) none A B a b

theorem bias_apply (b : S3.Idx → EReal) (h1 : S3.BroadcastsInDim S1x3 ![1]) (h2 : S1x3.BroadcastsInDim S512x3 ![0, 1]) (n : Fin 512) (i : Fin 3) :
    broadcastInDim S512x3 ![0, 1] h2 (broadcastInDim S1x3 ![1] h1 b) (ix2 n i) = b (ix1 i) :=
  (broadcastInDim_apply _ h2 _ (ix2 n i) (ix2 0 i) fun a => match a with | ⟨0, _⟩ => rfl | ⟨1, _⟩ => rfl).trans
    (broadcastInDim_apply _ h1 b (ix2 0 i) (ix1 i) fun a => match a with | ⟨0, _⟩ => rfl)

theorem col_apply {α : Type} (v : S512.Idx → α) (h : S512.BroadcastsInDim S512x1 ![0]) (n : Fin 512) :
    broadcastInDim S512x1 ![0] h v (ix2 n 0) = v (ix1 n) :=
  broadcastInDim_apply _ h v (ix2 n 0) (ix1 n) fun a => match a with | ⟨0, _⟩ => rfl

theorem rowbc_apply {α : Type} (v : S512x1.Idx → α) (h : S512x1.BroadcastsInDim S512x3 ![0, 1]) (n : Fin 512) (i : Fin 3) :
    broadcastInDim S512x3 ![0, 1] h v (ix2 n i) = v (ix2 n 0) :=
  broadcastInDim_apply _ h v (ix2 n i) (ix2 n 0) fun a => match a with | ⟨0, _⟩ => rfl | ⟨1, _⟩ => rfl

theorem colcast_apply {α : Type} (x : S512x1.Idx → α) (h : S512x1.ShapeCasts S512) (n : Fin 512) :
    shapeCast S512 x h (ix1 n) = x (ix2 n 0) :=
  shapeCast_apply x h _ _ (by
    rw [Shape.rowMajor_val_two, Shape.rowMajor_val_one]
    show n.val * 1 + 0 = n.val
    omega)

theorem lift_ix2_ax1 (h : S512x3.Reduces [1] S512) (n : Fin 512) (k : Fin 3) : h.lift (ix1 n) k = ix2 n k := by
  funext c; apply Fin.ext
  fin_cases c <;> rfl

theorem rowMax_apply (x : FVec Ideal S512x3 .f32) (h' : S512x3.ReducesTo [1] S512) (hu : 0 < S_.numel) (n : Fin 512) :
    Host.reduce (FloatOps.maximumf (F := Ideal) (φ := .f32)) x (constant (F := Ideal) S_ .f32 0xFF800000#32) h' hu (ix1 n)
      = Finset.univ.sup fun i : Fin 3 => x (ix2 n i) := by
  have h : S512x3.Reduces [1] S512 := by decide
  rw [Host.reduce_eq_fold_single FloatOps.maximumf x _ h' h hu]
  have hb : (constant (F := Ideal) S_ .f32 0xFF800000#32) (Shape.Idx.first hu) = (⊥ : EReal) := by
    show Ideal.ofBits .f32 0xFF800000#32 = ⊥
    simp [Ideal.ofBits, Ideal.ieee]
  rw [hb]
  have hf : (x ∘ h.lift (ix1 n)) = fun i : Fin 3 => x (ix2 n i) := funext fun k => congrArg x (lift_ix2_ax1 h n k)
  exact congrArg (fun f => Finset.fold max (⊥ : EReal) f (Finset.univ : Finset (Fin 3))) hf

theorem rowSum_apply (x : FVec Ideal S512x3 .f32) (h' : S512x3.ReducesTo [1] S512) (hu : 0 < S_.numel) (n : Fin 512) :
    Host.reduceAdd (F := Ideal) (φ := .f32) x (constant (F := Ideal) S_ .f32 0x00000000#32) h' hu (ix1 n)
      = ∑ i : Fin 3, x (ix2 n i) := by
  have h : S512x3.Reduces [1] S512 := by decide
  show Ideal.hostReduceAdd h' x (Ideal.ofBits .f32 0x00000000#32) (ix1 n) = _
  rw [Ideal.hostReduceAdd_single h' h, Ideal.ofBits_zero_f32, zero_add]
  exact Finset.sum_congr rfl fun k _ => congrArg x (lift_ix2_ax1 h n k)

theorem colpick0_apply {α : Type} (x : S512x3.Idx → α) (h : S512x3.Slices ![0, 0] S512x1) (n : Fin 512) :
    extractStridedSlice S512x1 ![0, 0] x h (ix2 n 0) = x (ix2 n 0) := slice2_axis1_apply 0 x h n 0 0 rfl

theorem colpick1_apply {α : Type} (x : S512x3.Idx → α) (h : S512x3.Slices ![0, 1] S512x1) (n : Fin 512) :
    extractStridedSlice S512x1 ![0, 1] x h (ix2 n 0) = x (ix2 n 1) := slice2_axis1_apply 1 x h n 0 1 rfl

theorem colpick2_apply {α : Type} (x : S512x3.Idx → α) (h : S512x3.Slices ![0, 2] S512x1) (n : Fin 512) :
    extractStridedSlice S512x1 ![0, 2] x h (ix2 n 0) = x (ix2 n 2) := slice2_axis1_apply 2 x h n 0 2 rfl

end Cert.Hand.GluePost
-- ==== Proof.RegionSix0.lean ====
import proofs.«412644_j75642964017948_3_alg».proof.Proof.RowState0
import proofs.«412644_j75642964017948_3_alg».proof.Proof.RowMerge
import proofs.«412644_j75642964017948_3_alg».proof.Proof.Frame0Arr
import proofs.«412644_j75642964017948_3_alg».proof.Proof.GluePostDefs

set_option maxRecDepth 16384

noncomputable section

namespace Cert.Hand.Row0

open Cert.KernelIdeal Cert.KernelIdeal.Gen Cert.KernelIdeal.Hand Cert.Hand.LSE Cert.Hand.GluePost
open Idealize.ShloMosaic Idealize.ShloMosaic.TcCoe Idealize.ShloMosaic.ValueIdx
open Idealize.SL Idealize.SL.Sem

section
variable (V : (c : Dev nD) → (b : Ref sig .tc) → Buf (Elt Ideal) ((c : Thread nD τ).loc b)) (c : Dev nD)

theorem blkReads0 : BlkReads0 V c where
  rX := fun t r k => iblk0_0_at V c t r k
  rP := fun t k d => iblk0_1_at V c t k d
  rW := fun t j d => iblk0_2_at V c t j d
  rB := fun t j => iblk0_3_at V c t j
  rT := fun t r => iblk0_4_at V c t r

abbrev six0At (r : Fin 512) : Six :=
  sixAt ((dat0 V c).arrAt 5 cfg0.N : S2x512x1.Idx → EReal) ((dat0 V c).arrAt 6 cfg0.N : S2x512x1.Idx → EReal)
    ((dat0 V c).arrAt 7 cfg0.N : S2x512x1.Idx → EReal) r

theorem six0 (r : Fin 512) (x : Fin 20000 → ℝ)
    (hx : ∀ j : Fin 20000, logit0 V c r j = ((x j : ℝ) : EReal)) :
    ESumm Finset.univ x (six0At V c r).st.1 (six0At V c r).st.2 ∧
      (∀ h : (T0 V c (ix2 r (0 : Fin 1)) : BitVec 32).toNat < 20000,
        (six0At V c r).acc = ((x ⟨(T0 V c (ix2 r (0 : Fin 1)) : BitVec 32).toNat, h⟩ : ℝ) : EReal)) ∧
      (20000 ≤ (T0 V c (ix2 r (0 : Fin 1)) : BitVec 32).toNat → (six0At V c r).acc = 0) := by
  have h₀ : 9 < cfg0.N := by rw [show cfg0.N = 20 from N_0]; norm_num
  have h₁ : 19 < cfg0.N := by rw [show cfg0.N = 20 from N_0]; norm_num
  have hs : six0At V c r
      = ⟨(stAt0 V c 9 h₀).2.1 (ix2 r (0 : Fin 1)), (stAt0 V c 19 h₁).2.1 (ix2 r (0 : Fin 1)),
         (stAt0 V c 9 h₀).2.2.1 (ix2 r (0 : Fin 1)), (stAt0 V c 19 h₁).2.2.1 (ix2 r (0 : Fin 1)),
         (stAt0 V c 9 h₀).2.2.2 (ix2 r (0 : Fin 1)), (stAt0 V c 19 h₁).2.2.2 (ix2 r (0 : Fin 1))⟩ := by
    show sixAt _ _ _ r = _
    unfold sixAt
    rw [arr0_5_at V c (0 : Fin 2) r h₀, arr0_5_at V c (1 : Fin 2) r h₁, arr0_6_at V c (0 : Fin 2) r h₀,
      arr0_6_at V c (1 : Fin 2) r h₁, arr0_7_at V c (0 : Fin 2) r h₀, arr0_7_at V c (1 : Fin 2) r h₁]
    rfl
  have hw := RowInv.whole (by norm_num : 10000 ≤ 20000) (by norm_num : 20000 ≤ 20000) (by norm_num)
    (rowCore0_0 (blkReads0 V c) r x hx h₀) (rowCore1_0 (blkReads0 V c) r x hx h₁)
  rw [hs]
  exact hw

end

end Cert.Hand.Row0
-- ==== Proof.PayIdx1.lean ====
import proofs.«412644_j75642964017948_3_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.Hand.Pay1

open Cert.KernelIdeal Cert.KernelIdeal.Gen Idealize.ShloMosaic Idealize.ShloMosaic.ValueIdx Idealize.SL.Sem

section Layout
variable {α : Type}

theorem col_of_vec (v : S512.Idx → α) (n : Fin 512) :
    shapeCast S512x1 v shapeCasts_S512_S512x1 (ix2 n (0 : Fin 1)) = v (ix1 n) :=
  shapeCast_apply v _ _ _ (by
    rw [Shape.rowMajor_val_one, Shape.rowMajor_val_two]
    show n.val = n.val * 1 + 0
    omega)

theorem bcast_col (v : S512x1.Idx → α) (n : Fin 512) (j : Fin 2000) :
    broadcastTo S512x2000 v broadcasts_S512x1_S512x2000 (ix2 n j) = v (ix2 n (0 : Fin 1)) := by
  refine broadcastTo_apply v _ (ix2 n j) (ix2 n (0 : Fin 1)) fun ax => ?_
  match ax with
  | ⟨0, _⟩ => rfl
  | ⟨1, _⟩ => rfl

theorem block_of_col (v : S512x1.Idx → α) (n : Fin 512) :
    shapeCast S1x512x1 v shapeCasts_S512x1_S1x512x1 (ix3 (0 : Fin 1) n (0 : Fin 1)) = v (ix2 n (0 : Fin 1)) :=
  shapeCast_ab_1ab_apply v _ 0 n 0

end Layout

theorem ofBits_neg_inf : Ideal.ofBits .f32 0xFF800000#32 = (⊥ : EReal) := by
  simp [Ideal.ofBits, Ideal.ieee]

theorem rowsum_apply (v : FVec Ideal S512x2000 .f32) (n : Fin 512) :
    multiReduction (F := Ideal) .add [1] S512 v 0x00000000#32 reduces_S512x2000_S512 (.inl rfl) rfl (ix1 n)
      = ∑ j : Fin 2000, v (ix2 n j) := by
  refine (Ideal.multiReduction_add_single v 0x00000000#32 reduces_S512x2000_S512 (.inl rfl) rfl (ix1 n)).trans ?_
  refine Finset.sum_congr rfl fun j _ => congrArg v (funext fun a => Fin.ext ?_)
  match a with
  | ⟨0, _⟩ => rfl
  | ⟨1, _⟩ => rfl

theorem rowmax_apply (v : FVec Ideal S512x2000 .f32) (n : Fin 512) :
    multiReduction (F := Ideal) .maximumf [1] S512 v 0xFF800000#32 reduces_S512x2000_S512 (.inl rfl) rfl (ix1 n)
      = Finset.univ.sup fun j : Fin 2000 => v (ix2 n j) := by
  refine (Ideal.multiReduction_maximumf_single v 0xFF800000#32 reduces_S512x2000_S512 (.inl rfl) rfl (ix1 n)).trans ?_
  rw [Ideal.ofBits_def, ofBits_neg_inf]
  have e : (v ∘ reduces_S512x2000_S512.lift (ix1 n)) = fun j : Fin 2000 => v (ix2 n j) :=
    funext fun j => congrArg v (funext fun a => Fin.ext (by
      match a with
      | ⟨0, _⟩ => rfl
      | ⟨1, _⟩ => rfl))
  rw [e]
  rfl

theorem lhs_proj_0 (i : S512x256.Idx) (q : dot_S512x1024_S1024x256_S512x256_1_0_0_1_n_n.contr.Idx) :
    (dot_S512x1024_S1024x256_S512x256_1_0_0_1_n_n.lhsIdx i q 0).val = (i 0).val := by
  unfold DotDims.lhsIdx
  rw [dif_neg (show ¬(0 : Fin S512x1024.rank) ∈ dot_S512x1024_S1024x256_S512x256_1_0_0_1_n_n.lhsBatch by decide), dif_pos (show (0 : Fin S512x1024.rank) ∈ dot_S512x1024_S1024x256_S512x256_1_0_0_1_n_n.lhsNonContracting by decide)]
  rfl

theorem lhs_proj_1 (i : S512x256.Idx) (q : dot_S512x1024_S1024x256_S512x256_1_0_0_1_n_n.contr.Idx) :
    (dot_S512x1024_S1024x256_S512x256_1_0_0_1_n_n.lhsIdx i q 1).val = (q ⟨0, by decide⟩).val :=
  dot_S512x1024_S1024x256_S512x256_1_0_0_1_n_n.lhsIdx_val_of_single rfl i q

theorem rhs_proj_0 (i : S512x256.Idx) (q : dot_S512x1024_S1024x256_S512x256_1_0_0_1_n_n.contr.Idx) :
    (dot_S512x1024_S1024x256_S512x256_1_0_0_1_n_n.rhsIdx i q 0).val = (q ⟨0, by decide⟩).val :=
  dot_S512x1024_S1024x256_S512x256_1_0_0_1_n_n.rhsIdx_val_of_single rfl i q

theorem rhs_proj_1 (i : S512x256.Idx) (q : dot_S512x1024_S1024x256_S512x256_1_0_0_1_n_n.contr.Idx) :
    (dot_S512x1024_S1024x256_S512x256_1_0_0_1_n_n.rhsIdx i q 1).val = (i 1).val := by
  unfold DotDims.rhsIdx
  rw [dif_neg (show ¬(1 : Fin S1024x256.rank) ∈ dot_S512x1024_S1024x256_S512x256_1_0_0_1_n_n.rhsBatch by decide), dif_pos (show (1 : Fin S1024x256.rank) ∈ dot_S512x1024_S1024x256_S512x256_1_0_0_1_n_n.rhsNonContracting by decide)]
  rfl

theorem matmul_proj_apply {φ₁ φ₂ : FTy} (lhs : FVec Ideal S512x1024 φ₁) (rhs : FVec Ideal S1024x256 φ₂) (n : Fin 512) (j : Fin 256) :
    matmul dot_S512x1024_S1024x256_S512x256_1_0_0_1_n_n none lhs rhs (constant (F := Ideal) S512x256 .f32 0x00000000#32) (ix2 n j)
      = ∑ k : Fin 1024, lhs (ix2 n k) * rhs (ix2 k j) := by
  simp only [matmul]
  rw [Ideal.matmul_constant_zero_apply, ← Equiv.sum_comp (ValueIdx.contrEquiv1 dot_S512x1024_S1024x256_S512x256_1_0_0_1_n_n 1024 rfl rfl).symm]
  refine Finset.sum_congr rfl fun k _ => ?_
  have hk := ValueIdx.contrEquiv1_symm_val dot_S512x1024_S1024x256_S512x256_1_0_0_1_n_n 1024 rfl rfl k
  have el : dot_S512x1024_S1024x256_S512x256_1_0_0_1_n_n.lhsIdx (ix2 n j) ((ValueIdx.contrEquiv1 dot_S512x1024_S1024x256_S512x256_1_0_0_1_n_n 1024 rfl rfl).symm k) = ix2 n k := funext fun a => Fin.ext (by
    match a with
    | ⟨0, _⟩ => exact lhs_proj_0 _ _
    | ⟨1, _⟩ => exact (lhs_proj_1 _ _).trans hk)
  have er : dot_S512x1024_S1024x256_S512x256_1_0_0_1_n_n.rhsIdx (ix2 n j) ((ValueIdx.contrEquiv1 dot_S512x1024_S1024x256_S512x256_1_0_0_1_n_n 1024 rfl rfl).symm k) = ix2 k j := funext fun a => Fin.ext (by
    match a with
    | ⟨0, _⟩ => exact (rhs_proj_0 _ _).trans hk
    | ⟨1, _⟩ => exact rhs_proj_1 _ _)
  rw [el, er]

theorem pay7_at (x : Vec Ideal S512x1024 .f32) (pj : Vec Ideal S1024x256 .f32) (n : Fin 512) (d : Fin 256) :
    k1_pay7 (F := Ideal) x pj (ix2 n d) = ∑ k : Fin 1024, x (ix2 n k) * pj (ix2 k d) := by
  unfold k1_pay7
  rw [shapeCast_self, matmul_proj_apply, shapeCast_self]
  refine Finset.sum_congr rfl fun k _ => ?_
  rw [truncf_apply, truncf_apply]

theorem lhs_logits_0 (i : S512x2000.Idx) (q : dot_S512x256_S256x2000_S512x2000_1_0_0_1_n_n.contr.Idx) :
    (dot_S512x256_S256x2000_S512x2000_1_0_0_1_n_n.lhsIdx i q 0).val = (i 0).val := by
  unfold DotDims.lhsIdx
  rw [dif_neg (show ¬(0 : Fin S512x256.rank) ∈ dot_S512x256_S256x2000_S512x2000_1_0_0_1_n_n.lhsBatch by decide), dif_pos (show (0 : Fin S512x256.rank) ∈ dot_S512x256_S256x2000_S512x2000_1_0_0_1_n_n.lhsNonContracting by decide)]
  rfl

theorem lhs_logits_1 (i : S512x2000.Idx) (q : dot_S512x256_S256x2000_S512x2000_1_0_0_1_n_n.contr.Idx) :
    (dot_S512x256_S256x2000_S512x2000_1_0_0_1_n_n.lhsIdx i q 1).val = (q ⟨0, by decide⟩).val :=
  dot_S512x256_S256x2000_S512x2000_1_0_0_1_n_n.lhsIdx_val_of_single rfl i q

theorem rhs_logits_0 (i : S512x2000.Idx) (q : dot_S512x256_S256x2000_S512x2000_1_0_0_1_n_n.contr.Idx) :
    (dot_S512x256_S256x2000_S512x2000_1_0_0_1_n_n.rhsIdx i q 0).val = (q ⟨0, by decide⟩).val :=
  dot_S512x256_S256x2000_S512x2000_1_0_0_1_n_n.rhsIdx_val_of_single rfl i q

theorem rhs_logits_1 (i : S512x2000.Idx) (q : dot_S512x256_S256x2000_S512x2000_1_0_0_1_n_n.contr.Idx) :
    (dot_S512x256_S256x2000_S512x2000_1_0_0_1_n_n.rhsIdx i q 1).val = (i 1).val := by
  unfold DotDims.rhsIdx
  rw [dif_neg (show ¬(1 : Fin S256x2000.rank) ∈ dot_S512x256_S256x2000_S512x2000_1_0_0_1_n_n.rhsBatch by decide), dif_pos (show (1 : Fin S256x2000.rank) ∈ dot_S512x256_S256x2000_S512x2000_1_0_0_1_n_n.rhsNonContracting by decide)]
  rfl

theorem matmul_logits_apply {φ₁ φ₂ : FTy} (lhs : FVec Ideal S512x256 φ₁) (rhs : FVec Ideal S256x2000 φ₂) (n : Fin 512) (j : Fin 2000) :
    matmul dot_S512x256_S256x2000_S512x2000_1_0_0_1_n_n none lhs rhs (constant (F := Ideal) S512x2000 .f32 0x00000000#32) (ix2 n j)
      = ∑ k : Fin 256, lhs (ix2 n k) * rhs (ix2 k j) := by
  simp only [matmul]
  rw [Ideal.matmul_constant_zero_apply, ← Equiv.sum_comp (ValueIdx.contrEquiv1 dot_S512x256_S256x2000_S512x2000_1_0_0_1_n_n 256 rfl rfl).symm]
  refine Finset.sum_congr rfl fun k _ => ?_
  have hk := ValueIdx.contrEquiv1_symm_val dot_S512x256_S256x2000_S512x2000_1_0_0_1_n_n 256 rfl rfl k
  have el : dot_S512x256_S256x2000_S512x2000_1_0_0_1_n_n.lhsIdx (ix2 n j) ((ValueIdx.contrEquiv1 dot_S512x256_S256x2000_S512x2000_1_0_0_1_n_n 256 rfl rfl).symm k) = ix2 n k := funext fun a => Fin.ext (by
    match a with
    | ⟨0, _⟩ => exact lhs_logits_0 _ _
    | ⟨1, _⟩ => exact (lhs_logits_1 _ _).trans hk)
  have er : dot_S512x256_S256x2000_S512x2000_1_0_0_1_n_n.rhsIdx (ix2 n j) ((ValueIdx.contrEquiv1 dot_S512x256_S256x2000_S512x2000_1_0_0_1_n_n 256 rfl rfl).symm k) = ix2 k j := funext fun a => Fin.ext (by
    match a with
    | ⟨0, _⟩ => exact (rhs_logits_0 _ _).trans hk
    | ⟨1, _⟩ => exact rhs_logits_1 _ _)
  rw [el, er]

theorem pay11_at (H : Vec Ideal S512x256 .f32) (wt : Vec Ideal S2000x256 .f32) (bt : Vec Ideal S2000x1 .f32)
    (n : Fin 512) (j : Fin 2000) :
    k1_pay11 (F := Ideal) H wt bt (ix2 n j) = (∑ d : Fin 256, H (ix2 n d) * wt (ix2 j d)) + bt (ix2 j 0) := by
  unfold k1_pay11
  dsimp only
  rw [addf_apply, matmul_logits_apply, broadcastTo_1b_ab_apply, transpose_ix2_apply, shapeCast_self]
  refine congrArg (· + bt (ix2 j 0)) (Finset.sum_congr rfl fun d _ => ?_)
  rw [transpose_ix2_apply, truncf_apply, truncf_apply]

theorem pay8_at (n : Fin 512) : k1_pay8 (F := Ideal) (ix2 n (0 : Fin 1)) = (⊥ : EReal) := by
  unfold k1_pay8
  rw [shapeCast_self, broadcast_apply]
  exact ofBits_neg_inf

theorem pay9_at (n : Fin 512) : k1_pay9 (F := Ideal) (ix2 n (0 : Fin 1)) = (0 : EReal) := by
  unfold k1_pay9
  rw [shapeCast_self, broadcast_apply]
  exact Ideal.ofBits_zero_f32

theorem pay10_at (n : Fin 512) : k1_pay10 (F := Ideal) (ix2 n (0 : Fin 1)) = (0 : EReal) := by
  unfold k1_pay10
  rw [shapeCast_self, broadcast_apply]
  exact Ideal.ofBits_zero_f32

theorem pay1_at (tm : FVec Ideal S512x1 .f32) (M : Vec Ideal S512x1 .f32) (n : Fin 512) :
    k1_pay1 (F := Ideal) tm M (ix2 n (0 : Fin 1)) = max (M (ix2 n (0 : Fin 1))) (tm (ix2 n (0 : Fin 1))) := by
  unfold k1_pay1
  rw [maximumf_apply]

theorem pay3_at (tm : FVec Ideal S512x1 .f32) (M : Vec Ideal S512x1 .f32) (n : Fin 512) :
    k1_pay3 (F := Ideal) tm M (ix2 n (0 : Fin 1)) = max (M (ix2 n (0 : Fin 1))) (tm (ix2 n (0 : Fin 1))) := by
  unfold k1_pay3
  rw [shapeCast_self, pay1_at]

theorem pay4_at (v : Vec Ideal S512x1 .f32) (n : Fin 512) :
    k1_pay4 (F := Ideal) v (ix3 (0 : Fin 1) n (0 : Fin 1)) = v (ix2 n (0 : Fin 1)) := by
  unfold k1_pay4
  exact block_of_col v n

theorem pay5_at (v : Vec Ideal S512x1 .f32) (n : Fin 512) :
    k1_pay5 (F := Ideal) v (ix3 (0 : Fin 1) n (0 : Fin 1)) = v (ix2 n (0 : Fin 1)) := by
  unfold k1_pay5
  exact block_of_col v n

theorem pay6_at (v : Vec Ideal S512x1 .f32) (n : Fin 512) :
    k1_pay6 (F := Ideal) v (ix3 (0 : Fin 1) n (0 : Fin 1)) = v (ix2 n (0 : Fin 1)) := by
  unfold k1_pay6
  exact block_of_col v n

theorem pay13_at (H : Vec Ideal S512x256 .f32) (wt : Vec Ideal S2000x256 .f32) (bt : Vec Ideal S2000x1 .f32)
    (n : Fin 512) :
    k1_pay13 (F := Ideal) H wt bt (ix2 n (0 : Fin 1))
      = Finset.univ.sup fun j : Fin 2000 => k1_pay11 (F := Ideal) H wt bt (ix2 n j) := by
  unfold k1_pay13
  dsimp only
  rw [col_of_vec, rowmax_apply]

theorem pay2_at (lg : FVec Ideal S512x2000 .f32) (tm : FVec Ideal S512x1 .f32) (M L M' : Vec Ideal S512x1 .f32)
    (n : Fin 512) :
    k1_pay2 (F := Ideal) lg tm M L M' (ix2 n (0 : Fin 1))
      = L (ix2 n (0 : Fin 1)) * Ideal.exp (M' (ix2 n (0 : Fin 1)) - max (M (ix2 n (0 : Fin 1))) (tm (ix2 n (0 : Fin 1))))
        + ∑ j : Fin 2000, Ideal.exp (lg (ix2 n j) - max (M (ix2 n (0 : Fin 1))) (tm (ix2 n (0 : Fin 1)))) := by
  unfold k1_pay2
  dsimp only
  rw [shapeCast_self, addf_apply, mulf_apply, col_of_vec, rowsum_apply]
  show L (ix2 n (0 : Fin 1)) * Ideal.exp (subf M' (k1_pay1 tm M) (ix2 n (0 : Fin 1))) + _ = _
  rw [subf_apply, pay1_at]
  refine congrArg (_ + ·) (Finset.sum_congr rfl fun j _ => ?_)
  show Ideal.exp (subf lg (broadcastTo S512x2000 (k1_pay1 tm M) broadcasts_S512x1_S512x2000) (ix2 n j)) = _
  rw [subf_apply, bcast_col, pay1_at]

def pos1 (i : grid1.Coords) (j : Fin 2000) : BitVec 32 :=
  IntOp.addi
    (Scalar.muli (Scalar.addi (Scalar.muli (BitVec.ofNat 32 (i 0).val) 5#32) (BitVec.ofNat 32 (i 1).val)) 2000#32)
    (BitVec.ofNat 32 j.val)

theorem pos1_toNat (i : grid1.Coords) (j : Fin 2000) :
    (pos1 i j).toNat = ((i 0).val * 5 + (i 1).val) * 2000 + j.val := by
  have h0 : (i 0).val < 2 := (i 0).isLt
  have h1 : (i 1).val < 5 := (i 1).isLt
  have hj : j.val < 2000 := j.isLt
  unfold pos1 Scalar.muli Scalar.addi IntOp.muli IntOp.addi
  simp only [BitVec.toNat_add, BitVec.toNat_mul, BitVec.toNat_ofNat]
  omega

theorem pay12_at (i : grid1.Coords) (H : Vec Ideal S512x256 .f32) (wt : Vec Ideal S2000x256 .f32)
    (bt : Vec Ideal S2000x1 .f32) (tg : Vec Ideal S512x1 .i32) (A : Vec Ideal S512x1 .f32) (n : Fin 512) :
    k1_pay12 (F := Ideal) i H wt bt tg A (ix2 n (0 : Fin 1))
      = A (ix2 n (0 : Fin 1)) + ∑ j : Fin 2000,
          if pos1 i j = (tg (ix2 n (0 : Fin 1)) : BitVec 32) then k1_pay11 (F := Ideal) H wt bt (ix2 n j) else 0 := by
  unfold k1_pay12
  dsimp only
  rw [shapeCast_self, addf_apply, col_of_vec, rowsum_apply]
  refine congrArg (_ + ·) (Finset.sum_congr rfl fun j _ => ?_)
  rw [select_apply]
  show Scalar.select
      (IntOp.cmpi .eq (IntOp.addi _ (iota .tc S512x2000 32 [1] iota_S512x2000_d1_w32 (ix2 n j)))
        (broadcastTo S512x2000 (shapeCast S512x1 tg shapeCasts_S512x1_S512x1) broadcasts_S512x1_S512x2000 (ix2 n j)))
      _ (Ideal.ofBits .f32 0x00000000#32) = _
  rw [iota_single_apply, bcast_col, shapeCast_self, Ideal.ofBits_zero_f32]
  show Scalar.select (IntOp.cmpi .eq (pos1 i j) (tg (ix2 n (0 : Fin 1)))) _ _ = _
  by_cases h : pos1 i j = (tg (ix2 n (0 : Fin 1)) : BitVec 32)
  · rw [if_pos h, IntOp.cmpi_eq.mpr h, select_one]
  · rw [if_neg h, eq_zero_of_ne_one (fun hc => h (IntOp.cmpi_eq.mp hc)), select_zero]

end Cert.Hand.Pay1
-- ==== Proof.RowState1.lean ====
import proofs.«412644_j75642964017948_3_alg».proof.Proof.Frame1Dat
import proofs.«412644_j75642964017948_3_alg».proof.Proof.PayIdx1
import proofs.«412644_j75642964017948_3_alg».proof.Proof.LibOnlineRow

set_option maxRecDepth 16384

noncomputable section

namespace Cert.Hand.Row1

open Cert.KernelIdeal Cert.KernelIdeal.Gen Cert.KernelIdeal.Hand Cert.Hand.Pay1 Cert.Hand.LSE
open Idealize.ShloMosaic Idealize.ShloMosaic.TcCoe Idealize.ShloMosaic.ValueIdx
open Idealize.SL Idealize.SL.Sem

theorem lt_points (t : Fin cfg1.N) : t.val < 10 := lt_of_lt_of_eq t.isLt (show cfg1.N = 10 from N_1)

theorem coords_val : ∀ t : Fin cfg1.N, ((grid1.coords t) 0).val * 5 + ((grid1.coords t) 1).val = t.val :=
  (by decide +kernel : ∀ t : Fin grid1.N, ((grid1.coords t) 0).val * 5 + ((grid1.coords t) 1).val = t.val)

def tile1 (t : Fin cfg1.N) (j : Fin 2000) : Fin 20000 :=
  ⟨t.val * 2000 + j.val, by have := lt_points t; have := j.isLt; omega⟩

section
variable (V : (c : Dev nD) → (b : Ref sig .tc) → Buf (Elt Ideal) ((c : Thread nD τ).loc b)) (c : Dev nD)

abbrev X1 : Vec Ideal S512x1024 .f32 := V c (Pipeline.arrRef spec1 0)

abbrev P1 : Vec Ideal S1024x256 .f32 := V c (Pipeline.arrRef spec1 1)

abbrev W1 : Vec Ideal S20000x256 .f32 := V c (Pipeline.arrRef spec1 2)

abbrev B1 : Vec Ideal S20000x1 .f32 := V c (Pipeline.arrRef spec1 3)

abbrev T1 : Vec Ideal S512x1 .i32 := V c (Pipeline.arrRef spec1 4)

structure BlkReads1 : Prop where
  rX : ∀ (t : Fin cfg1.N) (r : Fin 512) (k : Fin 1024),
    (iblk1 V c 0 t : Vec Ideal S512x1024 .f32) (ix2 r k) = X1 V c (ix2 r k)
  rP : ∀ (t : Fin cfg1.N) (k : Fin 1024) (d : Fin 256),
    (iblk1 V c 1 t : Vec Ideal S1024x256 .f32) (ix2 k d) = P1 V c (ix2 k d)
  rW : ∀ (t : Fin cfg1.N) (j : Fin 2000) (d : Fin 256),
    (iblk1 V c 2 t : Vec Ideal S2000x256 .f32) (ix2 j d) = W1 V c (ix2 (tile1 t j) d)
  rB : ∀ (t : Fin cfg1.N) (j : Fin 2000),
    (iblk1 V c 3 t : Vec Ideal S2000x1 .f32) (ix2 j (0 : Fin 1)) = B1 V c (ix2 (tile1 t j) (0 : Fin 1))
  rT : ∀ (t : Fin cfg1.N) (r : Fin 512),
    (iblk1 V c 4 t : Vec Ideal S512x1 .i32) (ix2 r (0 : Fin 1)) = T1 V c (ix2 r (0 : Fin 1))

def logit1 (r : Fin 512) (j : Fin 20000) : EReal :=
  (∑ d : Fin 256, (∑ k : Fin 1024, X1 V c (ix2 r k) * P1 V c (ix2 k d)) * W1 V c (ix2 j d))
    + B1 V c (ix2 j (0 : Fin 1))

variable {V c}

theorem upd_row (hb : BlkReads1 V c) (r : Fin 512) (x : Fin 20000 → ℝ)
    (hx : ∀ j : Fin 20000, logit1 V c r j = ((x j : ℝ) : EReal))
    (t : Fin cfg1.N) (Sp : St1 Ideal) (a : ℕ) (ha : a ≤ t.val * 2000)
    (hH : ∀ d : Fin 256, Sp.1 (ix2 r d) = ∑ k : Fin 1024, X1 V c (ix2 r k) * P1 V c (ix2 k d))
    (hinv : RowInv0 x (T1 V c (ix2 r (0 : Fin 1))) a (t.val * 2000)
      (Sp.2.1 (ix2 r (0 : Fin 1))) (Sp.2.2.1 (ix2 r (0 : Fin 1))) (Sp.2.2.2 (ix2 r (0 : Fin 1)))) :
    (∀ d : Fin 256, (upd1 (grid1.coords t) (iblk1 V c 2 t) (iblk1 V c 3 t) (iblk1 V c 4 t) Sp).1 (ix2 r d)
        = ∑ k : Fin 1024, X1 V c (ix2 r k) * P1 V c (ix2 k d)) ∧
      RowInv x (T1 V c (ix2 r (0 : Fin 1))) a (t.val * 2000 + 2000)
        ((upd1 (grid1.coords t) (iblk1 V c 2 t) (iblk1 V c 3 t) (iblk1 V c 4 t) Sp).2.1 (ix2 r (0 : Fin 1)))
        ((upd1 (grid1.coords t) (iblk1 V c 2 t) (iblk1 V c 3 t) (iblk1 V c 4 t) Sp).2.2.1 (ix2 r (0 : Fin 1)))
        ((upd1 (grid1.coords t) (iblk1 V c 2 t) (iblk1 V c 3 t) (iblk1 V c 4 t) Sp).2.2.2 (ix2 r (0 : Fin 1))) := by
  refine ⟨hH, ?_⟩
  have hN := lt_points t

  have hlg : ∀ j : Fin 2000, k1_pay11 (F := Ideal) Sp.1 (iblk1 V c 2 t) (iblk1 V c 3 t) (ix2 r j)
      = if hj : t.val * 2000 + j.val < 20000 then ((x ⟨t.val * 2000 + j.val, hj⟩ : ℝ) : EReal) else ⊥ := by
    intro j
    have hj : t.val * 2000 + j.val < 20000 := by have := j.isLt; omega
    rw [dif_pos hj, pay11_at, hb.rB t j, ← hx ⟨t.val * 2000 + j.val, hj⟩]
    refine congrArg (· + _) (Finset.sum_congr rfl fun d _ => ?_)
    rw [hH d, hb.rW t j d]
    rfl

  have hpos : ∀ j : Fin 2000, (pos1 (grid1.coords t) j).toNat = t.val * 2000 + j.val := by
    intro j
    rw [pos1_toNat, coords_val t]
  show RowInv _ _ _ _
    (k1_pay3 (F := Ideal) (k1_pay13 Sp.1 (iblk1 V c 2 t) (iblk1 V c 3 t)) Sp.2.1 (ix2 r (0 : Fin 1)))
    (k1_pay2 (F := Ideal) (k1_pay11 Sp.1 (iblk1 V c 2 t) (iblk1 V c 3 t))
      (k1_pay13 Sp.1 (iblk1 V c 2 t) (iblk1 V c 3 t)) Sp.2.1 Sp.2.2.1 Sp.2.1 (ix2 r (0 : Fin 1)))
    (k1_pay12 (F := Ideal) (grid1.coords t) Sp.1 (iblk1 V c 2 t) (iblk1 V c 3 t) (iblk1 V c 4 t) Sp.2.2.2
      (ix2 r (0 : Fin 1)))
  rw [pay3_at, pay2_at, pay12_at, pay13_at, hb.rT t r]
  exact RowInv0.step hinv ha (by omega)
    (fun j : Fin 2000 => k1_pay11 (F := Ideal) Sp.1 (iblk1 V c 2 t) (iblk1 V c 3 t) (ix2 r j)) hlg
    (pos1 (grid1.coords t)) hpos (Or.inl (by omega)) (by norm_num) rfl

theorem reset_row (hb : BlkReads1 V c) (t : Fin cfg1.N) (r : Fin 512) :
    (∀ d : Fin 256, (reset1 (iblk1 V c 0 t) (iblk1 V c 1 t)).1 (ix2 r d)
        = ∑ k : Fin 1024, X1 V c (ix2 r k) * P1 V c (ix2 k d)) ∧
      (reset1 (F := Ideal) (iblk1 V c 0 t) (iblk1 V c 1 t)).2.1 (ix2 r (0 : Fin 1)) = ⊥ ∧
      (reset1 (F := Ideal) (iblk1 V c 0 t) (iblk1 V c 1 t)).2.2.1 (ix2 r (0 : Fin 1)) = 0 ∧
      (reset1 (F := Ideal) (iblk1 V c 0 t) (iblk1 V c 1 t)).2.2.2 (ix2 r (0 : Fin 1)) = 0 := by
  refine ⟨fun d => ?_, pay8_at r, pay9_at r, pay10_at r⟩
  show k1_pay7 (F := Ideal) (iblk1 V c 0 t) (iblk1 V c 1 t) (ix2 r d) = _
  rw [pay7_at]
  exact Finset.sum_congr rfl fun k _ => by rw [hb.rX t r k, hb.rP t k d]

theorem rowState1 (hb : BlkReads1 V c) (r : Fin 512) (x : Fin 20000 → ℝ)
    (hx : ∀ j : Fin 20000, logit1 V c r j = ((x j : ℝ) : EReal))
    (κ : Fin 2) (s : ℕ) :
    ∀ (hs : s < 5) (hn : κ.val * 5 + s < cfg1.N),
      (∀ d : Fin 256, (stAt1 V c (κ.val * 5 + s) hn).1 (ix2 r d)
          = ∑ k : Fin 1024, X1 V c (ix2 r k) * P1 V c (ix2 k d)) ∧
        RowInv x (T1 V c (ix2 r (0 : Fin 1))) (κ.val * 10000) (κ.val * 10000 + (s + 1) * 2000)
          ((stAt1 V c (κ.val * 5 + s) hn).2.1 (ix2 r (0 : Fin 1)))
          ((stAt1 V c (κ.val * 5 + s) hn).2.2.1 (ix2 r (0 : Fin 1)))
          ((stAt1 V c (κ.val * 5 + s) hn).2.2.2 (ix2 r (0 : Fin 1))) := by
  induction s with
  | zero =>
    intro hs hn
    have e : stAt1 V c (κ.val * 5 + 0) hn = _ :=
      stAt1_first V c ⟨κ.val * 5 + 0, hn⟩ (by show (κ.val * 5 + 0) % 5 = 0; omega)
    rw [e]
    obtain ⟨hH, hM, hL, hA⟩ := reset_row hb ⟨κ.val * 5 + 0, hn⟩ r
    have hstep := upd_row hb r x hx ⟨κ.val * 5 + 0, hn⟩ _ (κ.val * 10000)
      (by show κ.val * 10000 ≤ (κ.val * 5 + 0) * 2000; omega) hH
      (Or.inl ⟨by show (κ.val * 5 + 0) * 2000 = κ.val * 10000; omega, hM, hL, hA⟩)
    have hb' : (κ.val * 5 + 0) * 2000 + 2000 = κ.val * 10000 + (0 + 1) * 2000 := by omega
    exact ⟨hstep.1, hb' ▸ hstep.2⟩
  | succ s ih =>
    intro hs hn
    obtain ⟨hH, hI⟩ := ih (by omega) (by omega)
    have e : stAt1 V c (κ.val * 5 + (s + 1)) hn = _ :=
      stAt1_next V c ⟨κ.val * 5 + (s + 1), hn⟩ (by show ¬ (κ.val * 5 + (s + 1)) % 5 = 0; omega)
    rw [e]
    have hstep := upd_row hb r x hx ⟨κ.val * 5 + (s + 1), hn⟩
      (stAt1 V c (κ.val * 5 + s) (by omega)) (κ.val * 10000)
      (by show κ.val * 10000 ≤ (κ.val * 5 + (s + 1)) * 2000; omega) hH
      (Or.inr (by
        have hb' : κ.val * 10000 + (s + 1) * 2000 = (κ.val * 5 + (s + 1)) * 2000 := by omega
        exact hb' ▸ hI))
    have hb' : (κ.val * 5 + (s + 1)) * 2000 + 2000 = κ.val * 10000 + (s + 1 + 1) * 2000 := by omega
    exact ⟨hstep.1, hb' ▸ hstep.2⟩

theorem rowState1_last (hb : BlkReads1 V c) (r : Fin 512) (x : Fin 20000 → ℝ)
    (hx : ∀ j : Fin 20000, logit1 V c r j = ((x j : ℝ) : EReal))
    (κ : Fin 2) (hn : κ.val * 5 + 4 < cfg1.N) :
    RowInv x (T1 V c (ix2 r (0 : Fin 1))) (κ.val * 10000) (κ.val * 10000 + 10000)
      ((stAt1 V c (κ.val * 5 + 4) hn).2.1 (ix2 r (0 : Fin 1)))
      ((stAt1 V c (κ.val * 5 + 4) hn).2.2.1 (ix2 r (0 : Fin 1)))
      ((stAt1 V c (κ.val * 5 + 4) hn).2.2.2 (ix2 r (0 : Fin 1))) :=
  (rowState1 hb r x hx κ 4 (by norm_num) hn).2

theorem rowCore0_1 (hb : BlkReads1 V c) (r : Fin 512) (x : Fin 20000 → ℝ)
    (hx : ∀ j : Fin 20000, logit1 V c r j = ((x j : ℝ) : EReal))
    (h₀ : 4 < cfg1.N) :
    RowInv x (T1 V c (ix2 r (0 : Fin 1))) 0 10000
      ((stAt1 V c 4 h₀).2.1 (ix2 r (0 : Fin 1))) ((stAt1 V c 4 h₀).2.2.1 (ix2 r (0 : Fin 1)))
      ((stAt1 V c 4 h₀).2.2.2 (ix2 r (0 : Fin 1))) :=
  rowState1_last hb r x hx (0 : Fin 2) h₀

theorem rowCore1_1 (hb : BlkReads1 V c) (r : Fin 512) (x : Fin 20000 → ℝ)
    (hx : ∀ j : Fin 20000, logit1 V c r j = ((x j : ℝ) : EReal))
    (h₁ : 9 < cfg1.N) :
    RowInv x (T1 V c (ix2 r (0 : Fin 1))) 10000 20000
      ((stAt1 V c 9 h₁).2.1 (ix2 r (0 : Fin 1))) ((stAt1 V c 9 h₁).2.2.1 (ix2 r (0 : Fin 1)))
      ((stAt1 V c 9 h₁).2.2.2 (ix2 r (0 : Fin 1))) :=
  rowState1_last hb r x hx (1 : Fin 2) h₁

end

end Cert.Hand.Row1
-- ==== Proof.Frame1Arr.lean ====
import proofs.«412644_j75642964017948_3_alg».proof.Proof.Frame1Dat
import Idealize.ShloMosaic.Lib.Pipeline.Value
import Idealize.ShloMosaic.Lib.ValueIdx
import Idealize.ShloMosaic.Lib.ValueLayout

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable {F : FTy → Type} [FloatOps F] [Named F]

theorem idx_facts1 : ∀ t : Fin cfg1.N,
    win1_0.index t (0 : Fin 2) = 0 ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0
    ∧ win1_4.index t (0 : Fin 2) = 0 ∧ win1_4.index t (1 : Fin 2) = 0
    ∧ win1_5.index t (0 : Fin 3) = t.val / 5 ∧ win1_5.index t (1 : Fin 3) = 0 ∧ win1_5.index t (2 : Fin 3) = 0
    ∧ win1_6.index t (0 : Fin 3) = t.val / 5 ∧ win1_6.index t (1 : Fin 3) = 0 ∧ win1_6.index t (2 : Fin 3) = 0
    ∧ win1_7.index t (0 : Fin 3) = t.val / 5 ∧ win1_7.index t (1 : Fin 3) = 0 ∧ win1_7.index t (2 : Fin 3) = 0 :=
  (by decide +kernel : ∀ t : Fin grid1.N, _)

section

variable (V : (c : Dev nD) → (b : Ref sig .tc) → Buf (Elt F) ((c : Thread nD τ).loc b))

theorem iblk1_0_at (c : Dev nD) (t : Fin cfg1.N) (r : Fin 512) (k : Fin 1024) :
    iblk1 V c 0 t (ix2 r k) = (V c (Pipeline.arrRef spec1 0) : S512x1024.Idx → Elt F .f32) (ix2 r k) := by
  obtain ⟨e00, e01, -⟩ := idx_facts1 t
  show V c (Pipeline.arrRef spec1 0) (((cfg1.win 0).blk t).view.emb (ix2 r k)) = _
  refine congrArg _ (funext fun a => Fin.ext ?_)
  match a with
  | ⟨0, _⟩ => show win1_0.index t (0 : Fin 2) * 512 + 1 * r.val = r.val; omega
  | ⟨1, _⟩ => show win1_0.index t (1 : Fin 2) * 1024 + 1 * k.val = k.val; omega

theorem iblk1_1_at (c : Dev nD) (t : Fin cfg1.N) (k : Fin 1024) (d : Fin 256) :
    iblk1 V c 1 t (ix2 k d) = (V c (Pipeline.arrRef spec1 1) : S1024x256.Idx → Elt F .f32) (ix2 k d) := by
  obtain ⟨-, -, e10, e11, -⟩ := idx_facts1 t
  show V c (Pipeline.arrRef spec1 1) (((cfg1.win 1).blk t).view.emb (ix2 k d)) = _
  refine congrArg _ (funext fun a => Fin.ext ?_)
  match a with
  | ⟨0, _⟩ => show win1_1.index t (0 : Fin 2) * 1024 + 1 * k.val = k.val; omega
  | ⟨1, _⟩ => show win1_1.index t (1 : Fin 2) * 256 + 1 * d.val = d.val; omega

theorem iblk1_2_at (c : Dev nD) (t : Fin cfg1.N) (j : Fin 2000) (d : Fin 256) :
    iblk1 V c 2 t (ix2 j d)
      = (V c (Pipeline.arrRef spec1 2) : S20000x256.Idx → Elt F .f32)
          (ix2 ⟨t.val * 2000 + j.val, by have := t.isLt; have h : cfg1.N = 10 := N_1; have := j.isLt; omega⟩ d) := by
  obtain ⟨-, -, -, -, e20, e21, -⟩ := idx_facts1 t
  show V c (Pipeline.arrRef spec1 2) (((cfg1.win 2).blk t).view.emb (ix2 j d)) = _
  refine congrArg _ (funext fun a => Fin.ext ?_)
  match a with
  | ⟨0, _⟩ => show win1_2.index t (0 : Fin 2) * 2000 + 1 * j.val = t.val * 2000 + j.val; omega
  | ⟨1, _⟩ => show win1_2.index t (1 : Fin 2) * 256 + 1 * d.val = d.val; omega

theorem iblk1_3_at (c : Dev nD) (t : Fin cfg1.N) (j : Fin 2000) :
    iblk1 V c 3 t (ix2 j (0 : Fin 1))
      = (V c (Pipeline.arrRef spec1 3) : S20000x1.Idx → Elt F .f32)
          (ix2 ⟨t.val * 2000 + j.val, by have := t.isLt; have h : cfg1.N = 10 := N_1; have := j.isLt; omega⟩ (0 : Fin 1)) := by
  obtain ⟨-, -, -, -, -, -, e30, e31, -⟩ := idx_facts1 t
  show V c (Pipeline.arrRef spec1 3) (((cfg1.win 3).blk t).view.emb (ix2 j (0 : Fin 1))) = _
  refine congrArg _ (funext fun a => Fin.ext ?_)
  match a with
  | ⟨0, _⟩ => show win1_3.index t (0 : Fin 2) * 2000 + 1 * j.val = t.val * 2000 + j.val; omega
  | ⟨1, _⟩ => show win1_3.index t (1 : Fin 2) * 1 + 1 * 0 = 0; omega

theorem iblk1_4_at (c : Dev nD) (t : Fin cfg1.N) (r : Fin 512) :
    iblk1 V c 4 t (ix2 r (0 : Fin 1)) = (V c (Pipeline.arrRef spec1 4) : S512x1.Idx → Elt F .i32) (ix2 r (0 : Fin 1)) := by
  obtain ⟨-, -, -, -, -, -, -, -, e40, e41, -⟩ := idx_facts1 t
  show V c (Pipeline.arrRef spec1 4) (((cfg1.win 4).blk t).view.emb (ix2 r (0 : Fin 1))) = _
  refine congrArg _ (funext fun a => Fin.ext ?_)
  match a with
  | ⟨0, _⟩ => show win1_4.index t (0 : Fin 2) * 512 + 1 * r.val = r.val; omega
  | ⟨1, _⟩ => show win1_4.index t (1 : Fin 2) * 1 + 1 * 0 = 0; omega

theorem arr1_5_at (c : Dev nD) (κ : Fin 2) (r : Fin 512) (hlt : κ.val * 5 + 4 < cfg1.N) :
    ((dat1 V c).arrAt 5 cfg1.N : S2x512x1.Idx → Elt F .f32) (ix3 κ r (0 : Fin 1))
      = (stAt1 V c (κ.val * 5 + 4) hlt).2.1 (ix2 r (0 : Fin 1)) := by
  let s : (n : ℕ) → n < cfg1.N → Vec F S512x1 .f32 := fun n hn => (stAt1 V c n hn).2.1
  have hN : cfg1.N = 10 := N_1
  have hκ : κ.val < 2 := κ.isLt
  let G : S2x512x1.Idx → Elt F .f32 := fun i =>
    s ((i 0).val * 5 + 4) (by have : (i 0).val < 2 := (i 0).isLt; rw [hN]; omega) (ix2 ⟨(i 1).val, (i 1).isLt⟩ (0 : Fin 1))
  have hG : ∀ t, (cfg1.win 5).flush t = true → (dat1 V c).flushed 5 t = ((cfg1.win 5).blk t).view.read (Elt F) G := by
    intro t hf
    have h9 : t.val % 5 = 4 := (flush1_5 t).mp hf
    obtain ⟨-, -, -, -, -, -, -, -, -, -, e0, e1, e2, -⟩ := idx_facts1 t
    show (cfg1.win 5).cut (grid1.coords t) ((dat1 V c).after 5 t) = _
    rw [after1_5]
    funext y
    obtain ⟨u, p, u', rfl⟩ : ∃ (u : Fin 1) (p : Fin 512) (u' : Fin 1), y = ix3 u p u' := ⟨y 0, y 1, y 2, eq_ix3 y⟩
    have hu : u.val = 0 := by omega
    have hu' : u' = (0 : Fin 1) := Fin.ext (by omega)
    subst hu'
    show k1_pay4 (s t.val t.isLt) (ix3 u p (0 : Fin 1)) = G (((cfg1.win 5).blk t).view.emb (ix3 u p (0 : Fin 1)))
    have h0 : ((((cfg1.win 5).blk t).view.emb (ix3 u p (0 : Fin 1))) 0).val = t.val / 5 := by
      show win1_5.index t (0 : Fin 3) * 1 + 1 * u.val = _; omega
    have h1 : ((((cfg1.win 5).blk t).view.emb (ix3 u p (0 : Fin 1))) 1).val = p.val := by
      show win1_5.index t (1 : Fin 3) * 512 + 1 * p.val = _; omega
    have key : ∀ (n : ℕ) (hn : n < cfg1.N) (q : Fin 512), n = t.val → q = p →
        s n hn (ix2 q (0 : Fin 1)) = s t.val t.isLt (ix2 p (0 : Fin 1)) := by
      intro n hn q hnt hq; subst hnt; subst hq; rfl
    unfold k1_pay4
    rw [shapeCast_ab_1ab_apply]
    exact (key _ _ _ (by rw [h0]; omega) (Fin.ext h1)).symm
  have hf : (cfg1.win 5).flush ⟨κ.val * 5 + 4, hlt⟩ = true :=
    (flush1_5 _).mpr (by show (κ.val * 5 + 4) % 5 = 4; omega)
  obtain ⟨-, -, -, -, -, -, -, -, -, -, e0, e1, e2, -⟩ := idx_facts1 ⟨κ.val * 5 + 4, hlt⟩
  have e : ((cfg1.win 5).blk ⟨κ.val * 5 + 4, hlt⟩).view.emb (ix3 (0 : Fin 1) r (0 : Fin 1)) = ix3 κ r (0 : Fin 1) :=
    funext fun a => Fin.ext (by
      match a with
      | ⟨0, _⟩ => show win1_5.index ⟨κ.val * 5 + 4, hlt⟩ (0 : Fin 3) * 1 + 1 * 0 = κ.val; rw [e0]; show (κ.val * 5 + 4) / 5 * 1 + 1 * 0 = κ.val; omega
      | ⟨1, _⟩ => show win1_5.index ⟨κ.val * 5 + 4, hlt⟩ (1 : Fin 3) * 512 + 1 * r.val = r.val; rw [e1]; omega
      | ⟨2, _⟩ => show win1_5.index ⟨κ.val * 5 + 4, hlt⟩ (2 : Fin 3) * 1 + 1 * 0 = 0; rw [e2])
  have hmem := ((cfg1.win 5).blk ⟨κ.val * 5 + 4, hlt⟩).view.emb_mem_set (ix3 (0 : Fin 1) r (0 : Fin 1))
  rw [e] at hmem
  exact (dat1 V c).arrAt_apply_of_mem 5 G hG cfg1.N ⟨κ.val * 5 + 4, hlt⟩ (ix3 κ r (0 : Fin 1)) hlt hf hmem

theorem arr1_6_at (c : Dev nD) (κ : Fin 2) (r : Fin 512) (hlt : κ.val * 5 + 4 < cfg1.N) :
    ((dat1 V c).arrAt 6 cfg1.N : S2x512x1.Idx → Elt F .f32) (ix3 κ r (0 : Fin 1))
      = (stAt1 V c (κ.val * 5 + 4) hlt).2.2.1 (ix2 r (0 : Fin 1)) := by
  let s : (n : ℕ) → n < cfg1.N → Vec F S512x1 .f32 := fun n hn => (stAt1 V c n hn).2.2.1
  have hN : cfg1.N = 10 := N_1
  have hκ : κ.val < 2 := κ.isLt
  let G : S2x512x1.Idx → Elt F .f32 := fun i =>
    s ((i 0).val * 5 + 4) (by have : (i 0).val < 2 := (i 0).isLt; rw [hN]; omega) (ix2 ⟨(i 1).val, (i 1).isLt⟩ (0 : Fin 1))
  have hG : ∀ t, (cfg1.win 6).flush t = true → (dat1 V c).flushed 6 t = ((cfg1.win 6).blk t).view.read (Elt F) G := by
    intro t hf
    have h9 : t.val % 5 = 4 := (flush1_6 t).mp hf
    obtain ⟨-, -, -, -, -, -, -, -, -, -, -, -, -, e0, e1, e2, -⟩ := idx_facts1 t
    show (cfg1.win 6).cut (grid1.coords t) ((dat1 V c).after 6 t) = _
    rw [after1_6]
    funext y
    obtain ⟨u, p, u', rfl⟩ : ∃ (u : Fin 1) (p : Fin 512) (u' : Fin 1), y = ix3 u p u' := ⟨y 0, y 1, y 2, eq_ix3 y⟩
    have hu : u.val = 0 := by omega
    have hu' : u' = (0 : Fin 1) := Fin.ext (by omega)
    subst hu'
    show k1_pay5 (s t.val t.isLt) (ix3 u p (0 : Fin 1)) = G (((cfg1.win 6).blk t).view.emb (ix3 u p (0 : Fin 1)))
    have h0 : ((((cfg1.win 6).blk t).view.emb (ix3 u p (0 : Fin 1))) 0).val = t.val / 5 := by
      show win1_6.index t (0 : Fin 3) * 1 + 1 * u.val = _; omega
    have h1 : ((((cfg1.win 6).blk t).view.emb (ix3 u p (0 : Fin 1))) 1).val = p.val := by
      show win1_6.index t (1 : Fin 3) * 512 + 1 * p.val = _; omega
    have key : ∀ (n : ℕ) (hn : n < cfg1.N) (q : Fin 512), n = t.val → q = p →
        s n hn (ix2 q (0 : Fin 1)) = s t.val t.isLt (ix2 p (0 : Fin 1)) := by
      intro n hn q hnt hq; subst hnt; subst hq; rfl
    unfold k1_pay5
    rw [shapeCast_ab_1ab_apply]
    exact (key _ _ _ (by rw [h0]; omega) (Fin.ext h1)).symm
  have hf : (cfg1.win 6).flush ⟨κ.val * 5 + 4, hlt⟩ = true :=
    (flush1_6 _).mpr (by show (κ.val * 5 + 4) % 5 = 4; omega)
  obtain ⟨-, -, -, -, -, -, -, -, -, -, -, -, -, e0, e1, e2, -⟩ := idx_facts1 ⟨κ.val * 5 + 4, hlt⟩
  have e : ((cfg1.win 6).blk ⟨κ.val * 5 + 4, hlt⟩).view.emb (ix3 (0 : Fin 1) r (0 : Fin 1)) = ix3 κ r (0 : Fin 1) :=
    funext fun a => Fin.ext (by
      match a with
      | ⟨0, _⟩ => show win1_6.index ⟨κ.val * 5 + 4, hlt⟩ (0 : Fin 3) * 1 + 1 * 0 = κ.val; rw [e0]; show (κ.val * 5 + 4) / 5 * 1 + 1 * 0 = κ.val; omega
      | ⟨1, _⟩ => show win1_6.index ⟨κ.val * 5 + 4, hlt⟩ (1 : Fin 3) * 512 + 1 * r.val = r.val; rw [e1]; omega
      | ⟨2, _⟩ => show win1_6.index ⟨κ.val * 5 + 4, hlt⟩ (2 : Fin 3) * 1 + 1 * 0 = 0; rw [e2])
  have hmem := ((cfg1.win 6).blk ⟨κ.val * 5 + 4, hlt⟩).view.emb_mem_set (ix3 (0 : Fin 1) r (0 : Fin 1))
  rw [e] at hmem
  exact (dat1 V c).arrAt_apply_of_mem 6 G hG cfg1.N ⟨κ.val * 5 + 4, hlt⟩ (ix3 κ r (0 : Fin 1)) hlt hf hmem

theorem arr1_7_at (c : Dev nD) (κ : Fin 2) (r : Fin 512) (hlt : κ.val * 5 + 4 < cfg1.N) :
    ((dat1 V c).arrAt 7 cfg1.N : S2x512x1.Idx → Elt F .f32) (ix3 κ r (0 : Fin 1))
      = (stAt1 V c (κ.val * 5 + 4) hlt).2.2.2 (ix2 r (0 : Fin 1)) := by
  let s : (n : ℕ) → n < cfg1.N → Vec F S512x1 .f32 := fun n hn => (stAt1 V c n hn).2.2.2
  have hN : cfg1.N = 10 := N_1
  have hκ : κ.val < 2 := κ.isLt
  let G : S2x512x1.Idx → Elt F .f32 := fun i =>
    s ((i 0).val * 5 + 4) (by have : (i 0).val < 2 := (i 0).isLt; rw [hN]; omega) (ix2 ⟨(i 1).val, (i 1).isLt⟩ (0 : Fin 1))
  have hG : ∀ t, (cfg1.win 7).flush t = true → (dat1 V c).flushed 7 t = ((cfg1.win 7).blk t).view.read (Elt F) G := by
    intro t hf
    have h9 : t.val % 5 = 4 := (flush1_7 t).mp hf
    obtain ⟨-, -, -, -, -, -, -, -, -, -, -, -, -, -, -, -, e0, e1, e2⟩ := idx_facts1 t
    show (cfg1.win 7).cut (grid1.coords t) ((dat1 V c).after 7 t) = _
    rw [after1_7]
    funext y
    obtain ⟨u, p, u', rfl⟩ : ∃ (u : Fin 1) (p : Fin 512) (u' : Fin 1), y = ix3 u p u' := ⟨y 0, y 1, y 2, eq_ix3 y⟩
    have hu : u.val = 0 := by omega
    have hu' : u' = (0 : Fin 1) := Fin.ext (by omega)
    subst hu'
    show k1_pay6 (s t.val t.isLt) (ix3 u p (0 : Fin 1)) = G (((cfg1.win 7).blk t).view.emb (ix3 u p (0 : Fin 1)))
    have h0 : ((((cfg1.win 7).blk t).view.emb (ix3 u p (0 : Fin 1))) 0).val = t.val / 5 := by
      show win1_7.index t (0 : Fin 3) * 1 + 1 * u.val = _; omega
    have h1 : ((((cfg1.win 7).blk t).view.emb (ix3 u p (0 : Fin 1))) 1).val = p.val := by
      show win1_7.index t (1 : Fin 3) * 512 + 1 * p.val = _; omega
    have key : ∀ (n : ℕ) (hn : n < cfg1.N) (q : Fin 512), n = t.val → q = p →
        s n hn (ix2 q (0 : Fin 1)) = s t.val t.isLt (ix2 p (0 : Fin 1)) := by
      intro n hn q hnt hq; subst hnt; subst hq; rfl
    unfold k1_pay6
    rw [shapeCast_ab_1ab_apply]
    exact (key _ _ _ (by rw [h0]; omega) (Fin.ext h1)).symm
  have hf : (cfg1.win 7).flush ⟨κ.val * 5 + 4, hlt⟩ = true :=
    (flush1_7 _).mpr (by show (κ.val * 5 + 4) % 5 = 4; omega)
  obtain ⟨-, -, -, -, -, -, -, -, -, -, -, -, -, -, -, -, e0, e1, e2⟩ := idx_facts1 ⟨κ.val * 5 + 4, hlt⟩
  have e : ((cfg1.win 7).blk ⟨κ.val * 5 + 4, hlt⟩).view.emb (ix3 (0 : Fin 1) r (0 : Fin 1)) = ix3 κ r (0 : Fin 1) :=
    funext fun a => Fin.ext (by
      match a with
      | ⟨0, _⟩ => show win1_7.index ⟨κ.val * 5 + 4, hlt⟩ (0 : Fin 3) * 1 + 1 * 0 = κ.val; rw [e0]; show (κ.val * 5 + 4) / 5 * 1 + 1 * 0 = κ.val; omega
      | ⟨1, _⟩ => show win1_7.index ⟨κ.val * 5 + 4, hlt⟩ (1 : Fin 3) * 512 + 1 * r.val = r.val; rw [e1]; omega
      | ⟨2, _⟩ => show win1_7.index ⟨κ.val * 5 + 4, hlt⟩ (2 : Fin 3) * 1 + 1 * 0 = 0; rw [e2])
  have hmem := ((cfg1.win 7).blk ⟨κ.val * 5 + 4, hlt⟩).view.emb_mem_set (ix3 (0 : Fin 1) r (0 : Fin 1))
  rw [e] at hmem
  exact (dat1 V c).arrAt_apply_of_mem 7 G hG cfg1.N ⟨κ.val * 5 + 4, hlt⟩ (ix3 κ r (0 : Fin 1)) hlt hf hmem

end

end Cert.KernelIdeal.Hand

end
-- ==== Proof.RegionSix1.lean ====
import proofs.«412644_j75642964017948_3_alg».proof.Proof.RowState1
import proofs.«412644_j75642964017948_3_alg».proof.Proof.RowMerge
import proofs.«412644_j75642964017948_3_alg».proof.Proof.Frame1Arr
import proofs.«412644_j75642964017948_3_alg».proof.Proof.GluePostDefs

set_option maxRecDepth 16384

noncomputable section

namespace Cert.Hand.Row1

open Cert.KernelIdeal Cert.KernelIdeal.Gen Cert.KernelIdeal.Hand Cert.Hand.LSE Cert.Hand.GluePost
open Idealize.ShloMosaic Idealize.ShloMosaic.TcCoe Idealize.ShloMosaic.ValueIdx
open Idealize.SL Idealize.SL.Sem

section
variable (V : (c : Dev nD) → (b : Ref sig .tc) → Buf (Elt Ideal) ((c : Thread nD τ).loc b)) (c : Dev nD)

theorem blkReads1 : BlkReads1 V c where
  rX := fun t r k => iblk1_0_at V c t r k
  rP := fun t k d => iblk1_1_at V c t k d
  rW := fun t j d => iblk1_2_at V c t j d
  rB := fun t j => iblk1_3_at V c t j
  rT := fun t r => iblk1_4_at V c t r

abbrev six1At (r : Fin 512) : Six :=
  sixAt ((dat1 V c).arrAt 5 cfg1.N : S2x512x1.Idx → EReal) ((dat1 V c).arrAt 6 cfg1.N : S2x512x1.Idx → EReal)
    ((dat1 V c).arrAt 7 cfg1.N : S2x512x1.Idx → EReal) r

theorem six1 (r : Fin 512) (x : Fin 20000 → ℝ)
    (hx : ∀ j : Fin 20000, logit1 V c r j = ((x j : ℝ) : EReal)) :
    ESumm Finset.univ x (six1At V c r).st.1 (six1At V c r).st.2 ∧
      (∀ h : (T1 V c (ix2 r (0 : Fin 1)) : BitVec 32).toNat < 20000,
        (six1At V c r).acc = ((x ⟨(T1 V c (ix2 r (0 : Fin 1)) : BitVec 32).toNat, h⟩ : ℝ) : EReal)) ∧
      (20000 ≤ (T1 V c (ix2 r (0 : Fin 1)) : BitVec 32).toNat → (six1At V c r).acc = 0) := by
  have h₀ : 4 < cfg1.N := by rw [show cfg1.N = 10 from N_1]; norm_num
  have h₁ : 9 < cfg1.N := by rw [show cfg1.N = 10 from N_1]; norm_num
  have hs : six1At V c r
      = ⟨(stAt1 V c 4 h₀).2.1 (ix2 r (0 : Fin 1)), (stAt1 V c 9 h₁).2.1 (ix2 r (0 : Fin 1)),
         (stAt1 V c 4 h₀).2.2.1 (ix2 r (0 : Fin 1)), (stAt1 V c 9 h₁).2.2.1 (ix2 r (0 : Fin 1)),
         (stAt1 V c 4 h₀).2.2.2 (ix2 r (0 : Fin 1)), (stAt1 V c 9 h₁).2.2.2 (ix2 r (0 : Fin 1))⟩ := by
    show sixAt _ _ _ r = _
    unfold sixAt
    rw [arr1_5_at V c (0 : Fin 2) r h₀, arr1_5_at V c (1 : Fin 2) r h₁, arr1_6_at V c (0 : Fin 2) r h₀,
      arr1_6_at V c (1 : Fin 2) r h₁, arr1_7_at V c (0 : Fin 2) r h₀, arr1_7_at V c (1 : Fin 2) r h₁]
    rfl
  have hw := RowInv.whole (by norm_num : 10000 ≤ 20000) (by norm_num : 20000 ≤ 20000) (by norm_num)
    (rowCore0_1 (blkReads1 V c) r x hx h₀) (rowCore1_1 (blkReads1 V c) r x hx h₁)
  rw [hs]
  exact hw

end

end Cert.Hand.Row1
-- ==== Proof.PayIdx2.lean ====
import proofs.«412644_j75642964017948_3_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.Hand.Pay2

open Cert.KernelIdeal Cert.KernelIdeal.Gen Idealize.ShloMosaic Idealize.ShloMosaic.ValueIdx Idealize.SL.Sem

section Layout
variable {α : Type}

theorem col_of_vec (v : S512.Idx → α) (n : Fin 512) :
    shapeCast S512x1 v shapeCasts_S512_S512x1 (ix2 n (0 : Fin 1)) = v (ix1 n) :=
  shapeCast_apply v _ _ _ (by
    rw [Shape.rowMajor_val_one, Shape.rowMajor_val_two]
    show n.val = n.val * 1 + 0
    omega)

theorem bcast_col (v : S512x1.Idx → α) (n : Fin 512) (j : Fin 3200) :
    broadcastTo S512x3200 v broadcasts_S512x1_S512x3200 (ix2 n j) = v (ix2 n (0 : Fin 1)) := by
  refine broadcastTo_apply v _ (ix2 n j) (ix2 n (0 : Fin 1)) fun ax => ?_
  match ax with
  | ⟨0, _⟩ => rfl
  | ⟨1, _⟩ => rfl

theorem block_of_col (v : S512x1.Idx → α) (n : Fin 512) :
    shapeCast S1x512x1 v shapeCasts_S512x1_S1x512x1 (ix3 (0 : Fin 1) n (0 : Fin 1)) = v (ix2 n (0 : Fin 1)) :=
  shapeCast_ab_1ab_apply v _ 0 n 0

end Layout

theorem ofBits_neg_inf : Ideal.ofBits .f32 0xFF800000#32 = (⊥ : EReal) := by
  simp [Ideal.ofBits, Ideal.ieee]

theorem rowsum_apply (v : FVec Ideal S512x3200 .f32) (n : Fin 512) :
    multiReduction (F := Ideal) .add [1] S512 v 0x00000000#32 reduces_S512x3200_S512 (.inl rfl) rfl (ix1 n)
      = ∑ j : Fin 3200, v (ix2 n j) := by
  refine (Ideal.multiReduction_add_single v 0x00000000#32 reduces_S512x3200_S512 (.inl rfl) rfl (ix1 n)).trans ?_
  refine Finset.sum_congr rfl fun j _ => congrArg v (funext fun a => Fin.ext ?_)
  match a with
  | ⟨0, _⟩ => rfl
  | ⟨1, _⟩ => rfl

theorem rowmax_apply (v : FVec Ideal S512x3200 .f32) (n : Fin 512) :
    multiReduction (F := Ideal) .maximumf [1] S512 v 0xFF800000#32 reduces_S512x3200_S512 (.inl rfl) rfl (ix1 n)
      = Finset.univ.sup fun j : Fin 3200 => v (ix2 n j) := by
  refine (Ideal.multiReduction_maximumf_single v 0xFF800000#32 reduces_S512x3200_S512 (.inl rfl) rfl (ix1 n)).trans ?_
  rw [Ideal.ofBits_def, ofBits_neg_inf]
  have e : (v ∘ reduces_S512x3200_S512.lift (ix1 n)) = fun j : Fin 3200 => v (ix2 n j) :=
    funext fun j => congrArg v (funext fun a => Fin.ext (by
      match a with
      | ⟨0, _⟩ => rfl
      | ⟨1, _⟩ => rfl))
  rw [e]
  rfl

theorem lhs_proj_0 (i : S512x64.Idx) (q : dot_S512x1024_S1024x64_S512x64_1_0_0_1_n_n.contr.Idx) :
    (dot_S512x1024_S1024x64_S512x64_1_0_0_1_n_n.lhsIdx i q 0).val = (i 0).val := by
  unfold DotDims.lhsIdx
  rw [dif_neg (show ¬(0 : Fin S512x1024.rank) ∈ dot_S512x1024_S1024x64_S512x64_1_0_0_1_n_n.lhsBatch by decide), dif_pos (show (0 : Fin S512x1024.rank) ∈ dot_S512x1024_S1024x64_S512x64_1_0_0_1_n_n.lhsNonContracting by decide)]
  rfl

theorem lhs_proj_1 (i : S512x64.Idx) (q : dot_S512x1024_S1024x64_S512x64_1_0_0_1_n_n.contr.Idx) :
    (dot_S512x1024_S1024x64_S512x64_1_0_0_1_n_n.lhsIdx i q 1).val = (q ⟨0, by decide⟩).val :=
  dot_S512x1024_S1024x64_S512x64_1_0_0_1_n_n.lhsIdx_val_of_single rfl i q

theorem rhs_proj_0 (i : S512x64.Idx) (q : dot_S512x1024_S1024x64_S512x64_1_0_0_1_n_n.contr.Idx) :
    (dot_S512x1024_S1024x64_S512x64_1_0_0_1_n_n.rhsIdx i q 0).val = (q ⟨0, by decide⟩).val :=
  dot_S512x1024_S1024x64_S512x64_1_0_0_1_n_n.rhsIdx_val_of_single rfl i q

theorem rhs_proj_1 (i : S512x64.Idx) (q : dot_S512x1024_S1024x64_S512x64_1_0_0_1_n_n.contr.Idx) :
    (dot_S512x1024_S1024x64_S512x64_1_0_0_1_n_n.rhsIdx i q 1).val = (i 1).val := by
  unfold DotDims.rhsIdx
  rw [dif_neg (show ¬(1 : Fin S1024x64.rank) ∈ dot_S512x1024_S1024x64_S512x64_1_0_0_1_n_n.rhsBatch by decide), dif_pos (show (1 : Fin S1024x64.rank) ∈ dot_S512x1024_S1024x64_S512x64_1_0_0_1_n_n.rhsNonContracting by decide)]
  rfl

theorem matmul_proj_apply {φ₁ φ₂ : FTy} (lhs : FVec Ideal S512x1024 φ₁) (rhs : FVec Ideal S1024x64 φ₂) (n : Fin 512) (j : Fin 64) :
    matmul dot_S512x1024_S1024x64_S512x64_1_0_0_1_n_n none lhs rhs (constant (F := Ideal) S512x64 .f32 0x00000000#32) (ix2 n j)
      = ∑ k : Fin 1024, lhs (ix2 n k) * rhs (ix2 k j) := by
  simp only [matmul]
  rw [Ideal.matmul_constant_zero_apply, ← Equiv.sum_comp (ValueIdx.contrEquiv1 dot_S512x1024_S1024x64_S512x64_1_0_0_1_n_n 1024 rfl rfl).symm]
  refine Finset.sum_congr rfl fun k _ => ?_
  have hk := ValueIdx.contrEquiv1_symm_val dot_S512x1024_S1024x64_S512x64_1_0_0_1_n_n 1024 rfl rfl k
  have el : dot_S512x1024_S1024x64_S512x64_1_0_0_1_n_n.lhsIdx (ix2 n j) ((ValueIdx.contrEquiv1 dot_S512x1024_S1024x64_S512x64_1_0_0_1_n_n 1024 rfl rfl).symm k) = ix2 n k := funext fun a => Fin.ext (by
    match a with
    | ⟨0, _⟩ => exact lhs_proj_0 _ _
    | ⟨1, _⟩ => exact (lhs_proj_1 _ _).trans hk)
  have er : dot_S512x1024_S1024x64_S512x64_1_0_0_1_n_n.rhsIdx (ix2 n j) ((ValueIdx.contrEquiv1 dot_S512x1024_S1024x64_S512x64_1_0_0_1_n_n 1024 rfl rfl).symm k) = ix2 k j := funext fun a => Fin.ext (by
    match a with
    | ⟨0, _⟩ => exact (rhs_proj_0 _ _).trans hk
    | ⟨1, _⟩ => exact rhs_proj_1 _ _)
  rw [el, er]

theorem pay7_at (x : Vec Ideal S512x1024 .f32) (pj : Vec Ideal S1024x64 .f32) (n : Fin 512) (d : Fin 64) :
    k2_pay7 (F := Ideal) x pj (ix2 n d) = ∑ k : Fin 1024, x (ix2 n k) * pj (ix2 k d) := by
  unfold k2_pay7
  rw [shapeCast_self, matmul_proj_apply, shapeCast_self]
  refine Finset.sum_congr rfl fun k _ => ?_
  rw [truncf_apply, truncf_apply]

theorem lhs_logits_0 (i : S512x3200.Idx) (q : dot_S512x64_S64x3200_S512x3200_1_0_0_1_n_n.contr.Idx) :
    (dot_S512x64_S64x3200_S512x3200_1_0_0_1_n_n.lhsIdx i q 0).val = (i 0).val := by
  unfold DotDims.lhsIdx
  rw [dif_neg (show ¬(0 : Fin S512x64.rank) ∈ dot_S512x64_S64x3200_S512x3200_1_0_0_1_n_n.lhsBatch by decide), dif_pos (show (0 : Fin S512x64.rank) ∈ dot_S512x64_S64x3200_S512x3200_1_0_0_1_n_n.lhsNonContracting by decide)]
  rfl

theorem lhs_logits_1 (i : S512x3200.Idx) (q : dot_S512x64_S64x3200_S512x3200_1_0_0_1_n_n.contr.Idx) :
    (dot_S512x64_S64x3200_S512x3200_1_0_0_1_n_n.lhsIdx i q 1).val = (q ⟨0, by decide⟩).val :=
  dot_S512x64_S64x3200_S512x3200_1_0_0_1_n_n.lhsIdx_val_of_single rfl i q

theorem rhs_logits_0 (i : S512x3200.Idx) (q : dot_S512x64_S64x3200_S512x3200_1_0_0_1_n_n.contr.Idx) :
    (dot_S512x64_S64x3200_S512x3200_1_0_0_1_n_n.rhsIdx i q 0).val = (q ⟨0, by decide⟩).val :=
  dot_S512x64_S64x3200_S512x3200_1_0_0_1_n_n.rhsIdx_val_of_single rfl i q

theorem rhs_logits_1 (i : S512x3200.Idx) (q : dot_S512x64_S64x3200_S512x3200_1_0_0_1_n_n.contr.Idx) :
    (dot_S512x64_S64x3200_S512x3200_1_0_0_1_n_n.rhsIdx i q 1).val = (i 1).val := by
  unfold DotDims.rhsIdx
  rw [dif_neg (show ¬(1 : Fin S64x3200.rank) ∈ dot_S512x64_S64x3200_S512x3200_1_0_0_1_n_n.rhsBatch by decide), dif_pos (show (1 : Fin S64x3200.rank) ∈ dot_S512x64_S64x3200_S512x3200_1_0_0_1_n_n.rhsNonContracting by decide)]
  rfl

theorem matmul_logits_apply {φ₁ φ₂ : FTy} (lhs : FVec Ideal S512x64 φ₁) (rhs : FVec Ideal S64x3200 φ₂) (n : Fin 512) (j : Fin 3200) :
    matmul dot_S512x64_S64x3200_S512x3200_1_0_0_1_n_n none lhs rhs (constant (F := Ideal) S512x3200 .f32 0x00000000#32) (ix2 n j)
      = ∑ k : Fin 64, lhs (ix2 n k) * rhs (ix2 k j) := by
  simp only [matmul]
  rw [Ideal.matmul_constant_zero_apply, ← Equiv.sum_comp (ValueIdx.contrEquiv1 dot_S512x64_S64x3200_S512x3200_1_0_0_1_n_n 64 rfl rfl).symm]
  refine Finset.sum_congr rfl fun k _ => ?_
  have hk := ValueIdx.contrEquiv1_symm_val dot_S512x64_S64x3200_S512x3200_1_0_0_1_n_n 64 rfl rfl k
  have el : dot_S512x64_S64x3200_S512x3200_1_0_0_1_n_n.lhsIdx (ix2 n j) ((ValueIdx.contrEquiv1 dot_S512x64_S64x3200_S512x3200_1_0_0_1_n_n 64 rfl rfl).symm k) = ix2 n k := funext fun a => Fin.ext (by
    match a with
    | ⟨0, _⟩ => exact lhs_logits_0 _ _
    | ⟨1, _⟩ => exact (lhs_logits_1 _ _).trans hk)
  have er : dot_S512x64_S64x3200_S512x3200_1_0_0_1_n_n.rhsIdx (ix2 n j) ((ValueIdx.contrEquiv1 dot_S512x64_S64x3200_S512x3200_1_0_0_1_n_n 64 rfl rfl).symm k) = ix2 k j := funext fun a => Fin.ext (by
    match a with
    | ⟨0, _⟩ => exact (rhs_logits_0 _ _).trans hk
    | ⟨1, _⟩ => exact rhs_logits_1 _ _)
  rw [el, er]

theorem pay11_at (H : Vec Ideal S512x64 .f32) (wt : Vec Ideal S3200x64 .f32) (bt : Vec Ideal S3200x1 .f32)
    (n : Fin 512) (j : Fin 3200) :
    k2_pay11 (F := Ideal) H wt bt (ix2 n j) = (∑ d : Fin 64, H (ix2 n d) * wt (ix2 j d)) + bt (ix2 j 0) := by
  unfold k2_pay11
  dsimp only
  rw [addf_apply, matmul_logits_apply, broadcastTo_1b_ab_apply, transpose_ix2_apply, shapeCast_self]
  refine congrArg (· + bt (ix2 j 0)) (Finset.sum_congr rfl fun d _ => ?_)
  rw [transpose_ix2_apply, truncf_apply, truncf_apply]

theorem pay8_at (n : Fin 512) : k2_pay8 (F := Ideal) (ix2 n (0 : Fin 1)) = (⊥ : EReal) := by
  unfold k2_pay8
  rw [shapeCast_self, broadcast_apply]
  exact ofBits_neg_inf

theorem pay9_at (n : Fin 512) : k2_pay9 (F := Ideal) (ix2 n (0 : Fin 1)) = (0 : EReal) := by
  unfold k2_pay9
  rw [shapeCast_self, broadcast_apply]
  exact Ideal.ofBits_zero_f32

theorem pay10_at (n : Fin 512) : k2_pay10 (F := Ideal) (ix2 n (0 : Fin 1)) = (0 : EReal) := by
  unfold k2_pay10
  rw [shapeCast_self, broadcast_apply]
  exact Ideal.ofBits_zero_f32

theorem pay1_at (tm : FVec Ideal S512x1 .f32) (M : Vec Ideal S512x1 .f32) (n : Fin 512) :
    k2_pay1 (F := Ideal) tm M (ix2 n (0 : Fin 1)) = max (M (ix2 n (0 : Fin 1))) (tm (ix2 n (0 : Fin 1))) := by
  unfold k2_pay1
  rw [maximumf_apply]

theorem pay3_at (tm : FVec Ideal S512x1 .f32) (M : Vec Ideal S512x1 .f32) (n : Fin 512) :
    k2_pay3 (F := Ideal) tm M (ix2 n (0 : Fin 1)) = max (M (ix2 n (0 : Fin 1))) (tm (ix2 n (0 : Fin 1))) := by
  unfold k2_pay3
  rw [shapeCast_self, pay1_at]

theorem pay4_at (v : Vec Ideal S512x1 .f32) (n : Fin 512) :
    k2_pay4 (F := Ideal) v (ix3 (0 : Fin 1) n (0 : Fin 1)) = v (ix2 n (0 : Fin 1)) := by
  unfold k2_pay4
  exact block_of_col v n

theorem pay5_at (v : Vec Ideal S512x1 .f32) (n : Fin 512) :
    k2_pay5 (F := Ideal) v (ix3 (0 : Fin 1) n (0 : Fin 1)) = v (ix2 n (0 : Fin 1)) := by
  unfold k2_pay5
  exact block_of_col v n

theorem pay6_at (v : Vec Ideal S512x1 .f32) (n : Fin 512) :
    k2_pay6 (F := Ideal) v (ix3 (0 : Fin 1) n (0 : Fin 1)) = v (ix2 n (0 : Fin 1)) := by
  unfold k2_pay6
  exact block_of_col v n

theorem pay13_at (H : Vec Ideal S512x64 .f32) (wt : Vec Ideal S3200x64 .f32) (bt : Vec Ideal S3200x1 .f32)
    (n : Fin 512) :
    k2_pay13 (F := Ideal) H wt bt (ix2 n (0 : Fin 1))
      = Finset.univ.sup fun j : Fin 3200 => k2_pay11 (F := Ideal) H wt bt (ix2 n j) := by
  unfold k2_pay13
  dsimp only
  rw [col_of_vec, rowmax_apply]

theorem pay2_at (lg : FVec Ideal S512x3200 .f32) (tm : FVec Ideal S512x1 .f32) (M L M' : Vec Ideal S512x1 .f32)
    (n : Fin 512) :
    k2_pay2 (F := Ideal) lg tm M L M' (ix2 n (0 : Fin 1))
      = L (ix2 n (0 : Fin 1)) * Ideal.exp (M' (ix2 n (0 : Fin 1)) - max (M (ix2 n (0 : Fin 1))) (tm (ix2 n (0 : Fin 1))))
        + ∑ j : Fin 3200, Ideal.exp (lg (ix2 n j) - max (M (ix2 n (0 : Fin 1))) (tm (ix2 n (0 : Fin 1)))) := by
  unfold k2_pay2
  dsimp only
  rw [shapeCast_self, addf_apply, mulf_apply, col_of_vec, rowsum_apply]
  show L (ix2 n (0 : Fin 1)) * Ideal.exp (subf M' (k2_pay1 tm M) (ix2 n (0 : Fin 1))) + _ = _
  rw [subf_apply, pay1_at]
  refine congrArg (_ + ·) (Finset.sum_congr rfl fun j _ => ?_)
  show Ideal.exp (subf lg (broadcastTo S512x3200 (k2_pay1 tm M) broadcasts_S512x1_S512x3200) (ix2 n j)) = _
  rw [subf_apply, bcast_col, pay1_at]

def pos2 (i : grid2.Coords) (j : Fin 3200) : BitVec 32 :=
  IntOp.addi
    (Scalar.muli (Scalar.addi (Scalar.muli (BitVec.ofNat 32 (i 0).val) 25#32) (BitVec.ofNat 32 (i 1).val)) 3200#32)
    (BitVec.ofNat 32 j.val)

theorem pos2_toNat (i : grid2.Coords) (j : Fin 3200) :
    (pos2 i j).toNat = ((i 0).val * 25 + (i 1).val) * 3200 + j.val := by
  have h0 : (i 0).val < 2 := (i 0).isLt
  have h1 : (i 1).val < 25 := (i 1).isLt
  have hj : j.val < 3200 := j.isLt
  unfold pos2 Scalar.muli Scalar.addi IntOp.muli IntOp.addi
  simp only [BitVec.toNat_add, BitVec.toNat_mul, BitVec.toNat_ofNat]
  omega

theorem pay12_at (i : grid2.Coords) (H : Vec Ideal S512x64 .f32) (wt : Vec Ideal S3200x64 .f32)
    (bt : Vec Ideal S3200x1 .f32) (tg : Vec Ideal S512x1 .i32) (A : Vec Ideal S512x1 .f32) (n : Fin 512) :
    k2_pay12 (F := Ideal) i H wt bt tg A (ix2 n (0 : Fin 1))
      = A (ix2 n (0 : Fin 1)) + ∑ j : Fin 3200,
          if pos2 i j = (tg (ix2 n (0 : Fin 1)) : BitVec 32) then k2_pay11 (F := Ideal) H wt bt (ix2 n j) else 0 := by
  unfold k2_pay12
  dsimp only
  rw [shapeCast_self, addf_apply, col_of_vec, rowsum_apply]
  refine congrArg (_ + ·) (Finset.sum_congr rfl fun j _ => ?_)
  rw [select_apply]
  show Scalar.select
      (IntOp.cmpi .eq (IntOp.addi _ (iota .tc S512x3200 32 [1] iota_S512x3200_d1_w32 (ix2 n j)))
        (broadcastTo S512x3200 (shapeCast S512x1 tg shapeCasts_S512x1_S512x1) broadcasts_S512x1_S512x3200 (ix2 n j)))
      _ (Ideal.ofBits .f32 0x00000000#32) = _
  rw [iota_single_apply, bcast_col, shapeCast_self, Ideal.ofBits_zero_f32]
  show Scalar.select (IntOp.cmpi .eq (pos2 i j) (tg (ix2 n (0 : Fin 1)))) _ _ = _
  by_cases h : pos2 i j = (tg (ix2 n (0 : Fin 1)) : BitVec 32)
  · rw [if_pos h, IntOp.cmpi_eq.mpr h, select_one]
  · rw [if_neg h, eq_zero_of_ne_one (fun hc => h (IntOp.cmpi_eq.mp hc)), select_zero]

end Cert.Hand.Pay2
-- ==== Proof.RowState2.lean ====
import proofs.«412644_j75642964017948_3_alg».proof.Proof.Frame2Dat
import proofs.«412644_j75642964017948_3_alg».proof.Proof.PayIdx2
import proofs.«412644_j75642964017948_3_alg».proof.Proof.LibOnlineRow

set_option maxRecDepth 16384

noncomputable section

namespace Cert.Hand.Row2

open Cert.KernelIdeal Cert.KernelIdeal.Gen Cert.KernelIdeal.Hand Cert.Hand.Pay2 Cert.Hand.LSE
open Idealize.ShloMosaic Idealize.ShloMosaic.TcCoe Idealize.ShloMosaic.ValueIdx
open Idealize.SL Idealize.SL.Sem

theorem lt_points (t : Fin cfg2.N) : t.val < 50 := lt_of_lt_of_eq t.isLt (show cfg2.N = 50 from N_2)

theorem coords_val : ∀ t : Fin cfg2.N, ((grid2.coords t) 0).val * 25 + ((grid2.coords t) 1).val = t.val :=
  (by decide +kernel : ∀ t : Fin grid2.N, ((grid2.coords t) 0).val * 25 + ((grid2.coords t) 1).val = t.val)

def tile2 (t : Fin cfg2.N) (j : Fin 3200) : Fin 160000 :=
  ⟨t.val * 3200 + j.val, by have := lt_points t; have := j.isLt; omega⟩

section
variable (V : (c : Dev nD) → (b : Ref sig .tc) → Buf (Elt Ideal) ((c : Thread nD τ).loc b)) (c : Dev nD)

abbrev X2 : Vec Ideal S512x1024 .f32 := V c (Pipeline.arrRef spec2 0)

abbrev P2 : Vec Ideal S1024x64 .f32 := V c (Pipeline.arrRef spec2 1)

abbrev W2 : Vec Ideal S160000x64 .f32 := V c (Pipeline.arrRef spec2 2)

abbrev B2 : Vec Ideal S160000x1 .f32 := V c (Pipeline.arrRef spec2 3)

abbrev T2 : Vec Ideal S512x1 .i32 := V c (Pipeline.arrRef spec2 4)

structure BlkReads2 : Prop where
  rX : ∀ (t : Fin cfg2.N) (r : Fin 512) (k : Fin 1024),
    (iblk2 V c 0 t : Vec Ideal S512x1024 .f32) (ix2 r k) = X2 V c (ix2 r k)
  rP : ∀ (t : Fin cfg2.N) (k : Fin 1024) (d : Fin 64),
    (iblk2 V c 1 t : Vec Ideal S1024x64 .f32) (ix2 k d) = P2 V c (ix2 k d)
  rW : ∀ (t : Fin cfg2.N) (j : Fin 3200) (d : Fin 64),
    (iblk2 V c 2 t : Vec Ideal S3200x64 .f32) (ix2 j d) = W2 V c (ix2 (tile2 t j) d)
  rB : ∀ (t : Fin cfg2.N) (j : Fin 3200),
    (iblk2 V c 3 t : Vec Ideal S3200x1 .f32) (ix2 j (0 : Fin 1)) = B2 V c (ix2 (tile2 t j) (0 : Fin 1))
  rT : ∀ (t : Fin cfg2.N) (r : Fin 512),
    (iblk2 V c 4 t : Vec Ideal S512x1 .i32) (ix2 r (0 : Fin 1)) = T2 V c (ix2 r (0 : Fin 1))

def logit2 (r : Fin 512) (j : Fin 160000) : EReal :=
  (∑ d : Fin 64, (∑ k : Fin 1024, X2 V c (ix2 r k) * P2 V c (ix2 k d)) * W2 V c (ix2 j d))
    + B2 V c (ix2 j (0 : Fin 1))

variable {V c}

theorem upd_row (hb : BlkReads2 V c) (r : Fin 512) (x : Fin 160000 → ℝ)
    (hx : ∀ j : Fin 160000, logit2 V c r j = ((x j : ℝ) : EReal))
    (t : Fin cfg2.N) (Sp : St2 Ideal) (a : ℕ) (ha : a ≤ t.val * 3200)
    (hH : ∀ d : Fin 64, Sp.1 (ix2 r d) = ∑ k : Fin 1024, X2 V c (ix2 r k) * P2 V c (ix2 k d))
    (hinv : RowInv0 x (T2 V c (ix2 r (0 : Fin 1))) a (t.val * 3200)
      (Sp.2.1 (ix2 r (0 : Fin 1))) (Sp.2.2.1 (ix2 r (0 : Fin 1))) (Sp.2.2.2 (ix2 r (0 : Fin 1)))) :
    (∀ d : Fin 64, (upd2 (grid2.coords t) (iblk2 V c 2 t) (iblk2 V c 3 t) (iblk2 V c 4 t) Sp).1 (ix2 r d)
        = ∑ k : Fin 1024, X2 V c (ix2 r k) * P2 V c (ix2 k d)) ∧
      RowInv x (T2 V c (ix2 r (0 : Fin 1))) a (t.val * 3200 + 3200)
        ((upd2 (grid2.coords t) (iblk2 V c 2 t) (iblk2 V c 3 t) (iblk2 V c 4 t) Sp).2.1 (ix2 r (0 : Fin 1)))
        ((upd2 (grid2.coords t) (iblk2 V c 2 t) (iblk2 V c 3 t) (iblk2 V c 4 t) Sp).2.2.1 (ix2 r (0 : Fin 1)))
        ((upd2 (grid2.coords t) (iblk2 V c 2 t) (iblk2 V c 3 t) (iblk2 V c 4 t) Sp).2.2.2 (ix2 r (0 : Fin 1))) := by
  refine ⟨hH, ?_⟩
  have hN := lt_points t

  have hlg : ∀ j : Fin 3200, k2_pay11 (F := Ideal) Sp.1 (iblk2 V c 2 t) (iblk2 V c 3 t) (ix2 r j)
      = if hj : t.val * 3200 + j.val < 160000 then ((x ⟨t.val * 3200 + j.val, hj⟩ : ℝ) : EReal) else ⊥ := by
    intro j
    have hj : t.val * 3200 + j.val < 160000 := by have := j.isLt; omega
    rw [dif_pos hj, pay11_at, hb.rB t j, ← hx ⟨t.val * 3200 + j.val, hj⟩]
    refine congrArg (· + _) (Finset.sum_congr rfl fun d _ => ?_)
    rw [hH d, hb.rW t j d]
    rfl

  have hpos : ∀ j : Fin 3200, (pos2 (grid2.coords t) j).toNat = t.val * 3200 + j.val := by
    intro j
    rw [pos2_toNat, coords_val t]
  show RowInv _ _ _ _
    (k2_pay3 (F := Ideal) (k2_pay13 Sp.1 (iblk2 V c 2 t) (iblk2 V c 3 t)) Sp.2.1 (ix2 r (0 : Fin 1)))
    (k2_pay2 (F := Ideal) (k2_pay11 Sp.1 (iblk2 V c 2 t) (iblk2 V c 3 t))
      (k2_pay13 Sp.1 (iblk2 V c 2 t) (iblk2 V c 3 t)) Sp.2.1 Sp.2.2.1 Sp.2.1 (ix2 r (0 : Fin 1)))
    (k2_pay12 (F := Ideal) (grid2.coords t) Sp.1 (iblk2 V c 2 t) (iblk2 V c 3 t) (iblk2 V c 4 t) Sp.2.2.2
      (ix2 r (0 : Fin 1)))
  rw [pay3_at, pay2_at, pay12_at, pay13_at, hb.rT t r]
  exact RowInv0.step hinv ha (by omega)
    (fun j : Fin 3200 => k2_pay11 (F := Ideal) Sp.1 (iblk2 V c 2 t) (iblk2 V c 3 t) (ix2 r j)) hlg
    (pos2 (grid2.coords t)) hpos (Or.inl (by omega)) (by norm_num) rfl

theorem reset_row (hb : BlkReads2 V c) (t : Fin cfg2.N) (r : Fin 512) :
    (∀ d : Fin 64, (reset2 (iblk2 V c 0 t) (iblk2 V c 1 t)).1 (ix2 r d)
        = ∑ k : Fin 1024, X2 V c (ix2 r k) * P2 V c (ix2 k d)) ∧
      (reset2 (F := Ideal) (iblk2 V c 0 t) (iblk2 V c 1 t)).2.1 (ix2 r (0 : Fin 1)) = ⊥ ∧
      (reset2 (F := Ideal) (iblk2 V c 0 t) (iblk2 V c 1 t)).2.2.1 (ix2 r (0 : Fin 1)) = 0 ∧
      (reset2 (F := Ideal) (iblk2 V c 0 t) (iblk2 V c 1 t)).2.2.2 (ix2 r (0 : Fin 1)) = 0 := by
  refine ⟨fun d => ?_, pay8_at r, pay9_at r, pay10_at r⟩
  show k2_pay7 (F := Ideal) (iblk2 V c 0 t) (iblk2 V c 1 t) (ix2 r d) = _
  rw [pay7_at]
  exact Finset.sum_congr rfl fun k _ => by rw [hb.rX t r k, hb.rP t k d]

theorem rowState2 (hb : BlkReads2 V c) (r : Fin 512) (x : Fin 160000 → ℝ)
    (hx : ∀ j : Fin 160000, logit2 V c r j = ((x j : ℝ) : EReal))
    (κ : Fin 2) (s : ℕ) :
    ∀ (hs : s < 25) (hn : κ.val * 25 + s < cfg2.N),
      (∀ d : Fin 64, (stAt2 V c (κ.val * 25 + s) hn).1 (ix2 r d)
          = ∑ k : Fin 1024, X2 V c (ix2 r k) * P2 V c (ix2 k d)) ∧
        RowInv x (T2 V c (ix2 r (0 : Fin 1))) (κ.val * 80000) (κ.val * 80000 + (s + 1) * 3200)
          ((stAt2 V c (κ.val * 25 + s) hn).2.1 (ix2 r (0 : Fin 1)))
          ((stAt2 V c (κ.val * 25 + s) hn).2.2.1 (ix2 r (0 : Fin 1)))
          ((stAt2 V c (κ.val * 25 + s) hn).2.2.2 (ix2 r (0 : Fin 1))) := by
  induction s with
  | zero =>
    intro hs hn
    have e : stAt2 V c (κ.val * 25 + 0) hn = _ :=
      stAt2_first V c ⟨κ.val * 25 + 0, hn⟩ (by show (κ.val * 25 + 0) % 25 = 0; omega)
    rw [e]
    obtain ⟨hH, hM, hL, hA⟩ := reset_row hb ⟨κ.val * 25 + 0, hn⟩ r
    have hstep := upd_row hb r x hx ⟨κ.val * 25 + 0, hn⟩ _ (κ.val * 80000)
      (by show κ.val * 80000 ≤ (κ.val * 25 + 0) * 3200; omega) hH
      (Or.inl ⟨by show (κ.val * 25 + 0) * 3200 = κ.val * 80000; omega, hM, hL, hA⟩)
    have hb' : (κ.val * 25 + 0) * 3200 + 3200 = κ.val * 80000 + (0 + 1) * 3200 := by omega
    exact ⟨hstep.1, hb' ▸ hstep.2⟩
  | succ s ih =>
    intro hs hn
    obtain ⟨hH, hI⟩ := ih (by omega) (by omega)
    have e : stAt2 V c (κ.val * 25 + (s + 1)) hn = _ :=
      stAt2_next V c ⟨κ.val * 25 + (s + 1), hn⟩ (by show ¬ (κ.val * 25 + (s + 1)) % 25 = 0; omega)
    rw [e]
    have hstep := upd_row hb r x hx ⟨κ.val * 25 + (s + 1), hn⟩
      (stAt2 V c (κ.val * 25 + s) (by omega)) (κ.val * 80000)
      (by show κ.val * 80000 ≤ (κ.val * 25 + (s + 1)) * 3200; omega) hH
      (Or.inr (by
        have hb' : κ.val * 80000 + (s + 1) * 3200 = (κ.val * 25 + (s + 1)) * 3200 := by omega
        exact hb' ▸ hI))
    have hb' : (κ.val * 25 + (s + 1)) * 3200 + 3200 = κ.val * 80000 + (s + 1 + 1) * 3200 := by omega
    exact ⟨hstep.1, hb' ▸ hstep.2⟩

theorem rowState2_last (hb : BlkReads2 V c) (r : Fin 512) (x : Fin 160000 → ℝ)
    (hx : ∀ j : Fin 160000, logit2 V c r j = ((x j : ℝ) : EReal))
    (κ : Fin 2) (hn : κ.val * 25 + 24 < cfg2.N) :
    RowInv x (T2 V c (ix2 r (0 : Fin 1))) (κ.val * 80000) (κ.val * 80000 + 80000)
      ((stAt2 V c (κ.val * 25 + 24) hn).2.1 (ix2 r (0 : Fin 1)))
      ((stAt2 V c (κ.val * 25 + 24) hn).2.2.1 (ix2 r (0 : Fin 1)))
      ((stAt2 V c (κ.val * 25 + 24) hn).2.2.2 (ix2 r (0 : Fin 1))) :=
  (rowState2 hb r x hx κ 24 (by norm_num) hn).2

theorem rowCore0_2 (hb : BlkReads2 V c) (r : Fin 512) (x : Fin 160000 → ℝ)
    (hx : ∀ j : Fin 160000, logit2 V c r j = ((x j : ℝ) : EReal))
    (h₀ : 24 < cfg2.N) :
    RowInv x (T2 V c (ix2 r (0 : Fin 1))) 0 80000
      ((stAt2 V c 24 h₀).2.1 (ix2 r (0 : Fin 1))) ((stAt2 V c 24 h₀).2.2.1 (ix2 r (0 : Fin 1)))
      ((stAt2 V c 24 h₀).2.2.2 (ix2 r (0 : Fin 1))) :=
  rowState2_last hb r x hx (0 : Fin 2) h₀

theorem rowCore1_2 (hb : BlkReads2 V c) (r : Fin 512) (x : Fin 160000 → ℝ)
    (hx : ∀ j : Fin 160000, logit2 V c r j = ((x j : ℝ) : EReal))
    (h₁ : 49 < cfg2.N) :
    RowInv x (T2 V c (ix2 r (0 : Fin 1))) 80000 160000
      ((stAt2 V c 49 h₁).2.1 (ix2 r (0 : Fin 1))) ((stAt2 V c 49 h₁).2.2.1 (ix2 r (0 : Fin 1)))
      ((stAt2 V c 49 h₁).2.2.2 (ix2 r (0 : Fin 1))) :=
  rowState2_last hb r x hx (1 : Fin 2) h₁

end

end Cert.Hand.Row2
-- ==== Proof.Frame2Arr.lean ====
import proofs.«412644_j75642964017948_3_alg».proof.Proof.Frame2Dat
import Idealize.ShloMosaic.Lib.Pipeline.Value
import Idealize.ShloMosaic.Lib.ValueIdx
import Idealize.ShloMosaic.Lib.ValueLayout

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable {F : FTy → Type} [FloatOps F] [Named F]

theorem idx_facts2 : ∀ t : Fin cfg2.N,
    win2_0.index t (0 : Fin 2) = 0 ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0
    ∧ win2_3.index t (0 : Fin 2) = t.val ∧ win2_3.index t (1 : Fin 2) = 0
    ∧ win2_4.index t (0 : Fin 2) = 0 ∧ win2_4.index t (1 : Fin 2) = 0
    ∧ win2_5.index t (0 : Fin 3) = t.val / 25 ∧ win2_5.index t (1 : Fin 3) = 0 ∧ win2_5.index t (2 : Fin 3) = 0
    ∧ win2_6.index t (0 : Fin 3) = t.val / 25 ∧ win2_6.index t (1 : Fin 3) = 0 ∧ win2_6.index t (2 : Fin 3) = 0
    ∧ win2_7.index t (0 : Fin 3) = t.val / 25 ∧ win2_7.index t (1 : Fin 3) = 0 ∧ win2_7.index t (2 : Fin 3) = 0 :=
  (by decide +kernel : ∀ t : Fin grid2.N, _)

section

variable (V : (c : Dev nD) → (b : Ref sig .tc) → Buf (Elt F) ((c : Thread nD τ).loc b))

theorem iblk2_0_at (c : Dev nD) (t : Fin cfg2.N) (r : Fin 512) (k : Fin 1024) :
    iblk2 V c 0 t (ix2 r k) = (V c (Pipeline.arrRef spec2 0) : S512x1024.Idx → Elt F .f32) (ix2 r k) := by
  obtain ⟨e00, e01, -⟩ := idx_facts2 t
  show V c (Pipeline.arrRef spec2 0) (((cfg2.win 0).blk t).view.emb (ix2 r k)) = _
  refine congrArg _ (funext fun a => Fin.ext ?_)
  match a with
  | ⟨0, _⟩ => show win2_0.index t (0 : Fin 2) * 512 + 1 * r.val = r.val; omega
  | ⟨1, _⟩ => show win2_0.index t (1 : Fin 2) * 1024 + 1 * k.val = k.val; omega

theorem iblk2_1_at (c : Dev nD) (t : Fin cfg2.N) (k : Fin 1024) (d : Fin 64) :
    iblk2 V c 1 t (ix2 k d) = (V c (Pipeline.arrRef spec2 1) : S1024x64.Idx → Elt F .f32) (ix2 k d) := by
  obtain ⟨-, -, e10, e11, -⟩ := idx_facts2 t
  show V c (Pipeline.arrRef spec2 1) (((cfg2.win 1).blk t).view.emb (ix2 k d)) = _
  refine congrArg _ (funext fun a => Fin.ext ?_)
  match a with
  | ⟨0, _⟩ => show win2_1.index t (0 : Fin 2) * 1024 + 1 * k.val = k.val; omega
  | ⟨1, _⟩ => show win2_1.index t (1 : Fin 2) * 64 + 1 * d.val = d.val; omega

theorem iblk2_2_at (c : Dev nD) (t : Fin cfg2.N) (j : Fin 3200) (d : Fin 64) :
    iblk2 V c 2 t (ix2 j d)
      = (V c (Pipeline.arrRef spec2 2) : S160000x64.Idx → Elt F .f32)
          (ix2 ⟨t.val * 3200 + j.val, by have := t.isLt; have h : cfg2.N = 50 := N_2; have := j.isLt; omega⟩ d) := by
  obtain ⟨-, -, -, -, e20, e21, -⟩ := idx_facts2 t
  show V c (Pipeline.arrRef spec2 2) (((cfg2.win 2).blk t).view.emb (ix2 j d)) = _
  refine congrArg _ (funext fun a => Fin.ext ?_)
  match a with
  | ⟨0, _⟩ => show win2_2.index t (0 : Fin 2) * 3200 + 1 * j.val = t.val * 3200 + j.val; omega
  | ⟨1, _⟩ => show win2_2.index t (1 : Fin 2) * 64 + 1 * d.val = d.val; omega

theorem iblk2_3_at (c : Dev nD) (t : Fin cfg2.N) (j : Fin 3200) :
    iblk2 V c 3 t (ix2 j (0 : Fin 1))
      = (V c (Pipeline.arrRef spec2 3) : S160000x1.Idx → Elt F .f32)
          (ix2 ⟨t.val * 3200 + j.val, by have := t.isLt; have h : cfg2.N = 50 := N_2; have := j.isLt; omega⟩ (0 : Fin 1)) := by
  obtain ⟨-, -, -, -, -, -, e30, e31, -⟩ := idx_facts2 t
  show V c (Pipeline.arrRef spec2 3) (((cfg2.win 3).blk t).view.emb (ix2 j (0 : Fin 1))) = _
  refine congrArg _ (funext fun a => Fin.ext ?_)
  match a with
  | ⟨0, _⟩ => show win2_3.index t (0 : Fin 2) * 3200 + 1 * j.val = t.val * 3200 + j.val; omega
  | ⟨1, _⟩ => show win2_3.index t (1 : Fin 2) * 1 + 1 * 0 = 0; omega

theorem iblk2_4_at (c : Dev nD) (t : Fin cfg2.N) (r : Fin 512) :
    iblk2 V c 4 t (ix2 r (0 : Fin 1)) = (V c (Pipeline.arrRef spec2 4) : S512x1.Idx → Elt F .i32) (ix2 r (0 : Fin 1)) := by
  obtain ⟨-, -, -, -, -, -, -, -, e40, e41, -⟩ := idx_facts2 t
  show V c (Pipeline.arrRef spec2 4) (((cfg2.win 4).blk t).view.emb (ix2 r (0 : Fin 1))) = _
  refine congrArg _ (funext fun a => Fin.ext ?_)
  match a with
  | ⟨0, _⟩ => show win2_4.index t (0 : Fin 2) * 512 + 1 * r.val = r.val; omega
  | ⟨1, _⟩ => show win2_4.index t (1 : Fin 2) * 1 + 1 * 0 = 0; omega

theorem arr2_5_at (c : Dev nD) (κ : Fin 2) (r : Fin 512) (hlt : κ.val * 25 + 24 < cfg2.N) :
    ((dat2 V c).arrAt 5 cfg2.N : S2x512x1.Idx → Elt F .f32) (ix3 κ r (0 : Fin 1))
      = (stAt2 V c (κ.val * 25 + 24) hlt).2.1 (ix2 r (0 : Fin 1)) := by
  let s : (n : ℕ) → n < cfg2.N → Vec F S512x1 .f32 := fun n hn => (stAt2 V c n hn).2.1
  have hN : cfg2.N = 50 := N_2
  have hκ : κ.val < 2 := κ.isLt
  let G : S2x512x1.Idx → Elt F .f32 := fun i =>
    s ((i 0).val * 25 + 24) (by have : (i 0).val < 2 := (i 0).isLt; rw [hN]; omega) (ix2 ⟨(i 1).val, (i 1).isLt⟩ (0 : Fin 1))
  have hG : ∀ t, (cfg2.win 5).flush t = true → (dat2 V c).flushed 5 t = ((cfg2.win 5).blk t).view.read (Elt F) G := by
    intro t hf
    have h9 : t.val % 25 = 24 := (flush2_5 t).mp hf
    obtain ⟨-, -, -, -, -, -, -, -, -, -, e0, e1, e2, -⟩ := idx_facts2 t
    show (cfg2.win 5).cut (grid2.coords t) ((dat2 V c).after 5 t) = _
    rw [after2_5]
    funext y
    obtain ⟨u, p, u', rfl⟩ : ∃ (u : Fin 1) (p : Fin 512) (u' : Fin 1), y = ix3 u p u' := ⟨y 0, y 1, y 2, eq_ix3 y⟩
    have hu : u.val = 0 := by omega
    have hu' : u' = (0 : Fin 1) := Fin.ext (by omega)
    subst hu'
    show k2_pay4 (s t.val t.isLt) (ix3 u p (0 : Fin 1)) = G (((cfg2.win 5).blk t).view.emb (ix3 u p (0 : Fin 1)))
    have h0 : ((((cfg2.win 5).blk t).view.emb (ix3 u p (0 : Fin 1))) 0).val = t.val / 25 := by
      show win2_5.index t (0 : Fin 3) * 1 + 1 * u.val = _; omega
    have h1 : ((((cfg2.win 5).blk t).view.emb (ix3 u p (0 : Fin 1))) 1).val = p.val := by
      show win2_5.index t (1 : Fin 3) * 512 + 1 * p.val = _; omega
    have key : ∀ (n : ℕ) (hn : n < cfg2.N) (q : Fin 512), n = t.val → q = p →
        s n hn (ix2 q (0 : Fin 1)) = s t.val t.isLt (ix2 p (0 : Fin 1)) := by
      intro n hn q hnt hq; subst hnt; subst hq; rfl
    unfold k2_pay4
    rw [shapeCast_ab_1ab_apply]
    exact (key _ _ _ (by rw [h0]; omega) (Fin.ext h1)).symm
  have hf : (cfg2.win 5).flush ⟨κ.val * 25 + 24, hlt⟩ = true :=
    (flush2_5 _).mpr (by show (κ.val * 25 + 24) % 25 = 24; omega)
  obtain ⟨-, -, -, -, -, -, -, -, -, -, e0, e1, e2, -⟩ := idx_facts2 ⟨κ.val * 25 + 24, hlt⟩
  have e : ((cfg2.win 5).blk ⟨κ.val * 25 + 24, hlt⟩).view.emb (ix3 (0 : Fin 1) r (0 : Fin 1)) = ix3 κ r (0 : Fin 1) :=
    funext fun a => Fin.ext (by
      match a with
      | ⟨0, _⟩ => show win2_5.index ⟨κ.val * 25 + 24, hlt⟩ (0 : Fin 3) * 1 + 1 * 0 = κ.val; rw [e0]; show (κ.val * 25 + 24) / 25 * 1 + 1 * 0 = κ.val; omega
      | ⟨1, _⟩ => show win2_5.index ⟨κ.val * 25 + 24, hlt⟩ (1 : Fin 3) * 512 + 1 * r.val = r.val; rw [e1]; omega
      | ⟨2, _⟩ => show win2_5.index ⟨κ.val * 25 + 24, hlt⟩ (2 : Fin 3) * 1 + 1 * 0 = 0; rw [e2])
  have hmem := ((cfg2.win 5).blk ⟨κ.val * 25 + 24, hlt⟩).view.emb_mem_set (ix3 (0 : Fin 1) r (0 : Fin 1))
  rw [e] at hmem
  exact (dat2 V c).arrAt_apply_of_mem 5 G hG cfg2.N ⟨κ.val * 25 + 24, hlt⟩ (ix3 κ r (0 : Fin 1)) hlt hf hmem

theorem arr2_6_at (c : Dev nD) (κ : Fin 2) (r : Fin 512) (hlt : κ.val * 25 + 24 < cfg2.N) :
    ((dat2 V c).arrAt 6 cfg2.N : S2x512x1.Idx → Elt F .f32) (ix3 κ r (0 : Fin 1))
      = (stAt2 V c (κ.val * 25 + 24) hlt).2.2.1 (ix2 r (0 : Fin 1)) := by
  let s : (n : ℕ) → n < cfg2.N → Vec F S512x1 .f32 := fun n hn => (stAt2 V c n hn).2.2.1
  have hN : cfg2.N = 50 := N_2
  have hκ : κ.val < 2 := κ.isLt
  let G : S2x512x1.Idx → Elt F .f32 := fun i =>
    s ((i 0).val * 25 + 24) (by have : (i 0).val < 2 := (i 0).isLt; rw [hN]; omega) (ix2 ⟨(i 1).val, (i 1).isLt⟩ (0 : Fin 1))
  have hG : ∀ t, (cfg2.win 6).flush t = true → (dat2 V c).flushed 6 t = ((cfg2.win 6).blk t).view.read (Elt F) G := by
    intro t hf
    have h9 : t.val % 25 = 24 := (flush2_6 t).mp hf
    obtain ⟨-, -, -, -, -, -, -, -, -, -, -, -, -, e0, e1, e2, -⟩ := idx_facts2 t
    show (cfg2.win 6).cut (grid2.coords t) ((dat2 V c).after 6 t) = _
    rw [after2_6]
    funext y
    obtain ⟨u, p, u', rfl⟩ : ∃ (u : Fin 1) (p : Fin 512) (u' : Fin 1), y = ix3 u p u' := ⟨y 0, y 1, y 2, eq_ix3 y⟩
    have hu : u.val = 0 := by omega
    have hu' : u' = (0 : Fin 1) := Fin.ext (by omega)
    subst hu'
    show k2_pay5 (s t.val t.isLt) (ix3 u p (0 : Fin 1)) = G (((cfg2.win 6).blk t).view.emb (ix3 u p (0 : Fin 1)))
    have h0 : ((((cfg2.win 6).blk t).view.emb (ix3 u p (0 : Fin 1))) 0).val = t.val / 25 := by
      show win2_6.index t (0 : Fin 3) * 1 + 1 * u.val = _; omega
    have h1 : ((((cfg2.win 6).blk t).view.emb (ix3 u p (0 : Fin 1))) 1).val = p.val := by
      show win2_6.index t (1 : Fin 3) * 512 + 1 * p.val = _; omega
    have key : ∀ (n : ℕ) (hn : n < cfg2.N) (q : Fin 512), n = t.val → q = p →
        s n hn (ix2 q (0 : Fin 1)) = s t.val t.isLt (ix2 p (0 : Fin 1)) := by
      intro n hn q hnt hq; subst hnt; subst hq; rfl
    unfold k2_pay5
    rw [shapeCast_ab_1ab_apply]
    exact (key _ _ _ (by rw [h0]; omega) (Fin.ext h1)).symm
  have hf : (cfg2.win 6).flush ⟨κ.val * 25 + 24, hlt⟩ = true :=
    (flush2_6 _).mpr (by show (κ.val * 25 + 24) % 25 = 24; omega)
  obtain ⟨-, -, -, -, -, -, -, -, -, -, -, -, -, e0, e1, e2, -⟩ := idx_facts2 ⟨κ.val * 25 + 24, hlt⟩
  have e : ((cfg2.win 6).blk ⟨κ.val * 25 + 24, hlt⟩).view.emb (ix3 (0 : Fin 1) r (0 : Fin 1)) = ix3 κ r (0 : Fin 1) :=
    funext fun a => Fin.ext (by
      match a with
      | ⟨0, _⟩ => show win2_6.index ⟨κ.val * 25 + 24, hlt⟩ (0 : Fin 3) * 1 + 1 * 0 = κ.val; rw [e0]; show (κ.val * 25 + 24) / 25 * 1 + 1 * 0 = κ.val; omega
      | ⟨1, _⟩ => show win2_6.index ⟨κ.val * 25 + 24, hlt⟩ (1 : Fin 3) * 512 + 1 * r.val = r.val; rw [e1]; omega
      | ⟨2, _⟩ => show win2_6.index ⟨κ.val * 25 + 24, hlt⟩ (2 : Fin 3) * 1 + 1 * 0 = 0; rw [e2])
  have hmem := ((cfg2.win 6).blk ⟨κ.val * 25 + 24, hlt⟩).view.emb_mem_set (ix3 (0 : Fin 1) r (0 : Fin 1))
  rw [e] at hmem
  exact (dat2 V c).arrAt_apply_of_mem 6 G hG cfg2.N ⟨κ.val * 25 + 24, hlt⟩ (ix3 κ r (0 : Fin 1)) hlt hf hmem

theorem arr2_7_at (c : Dev nD) (κ : Fin 2) (r : Fin 512) (hlt : κ.val * 25 + 24 < cfg2.N) :
    ((dat2 V c).arrAt 7 cfg2.N : S2x512x1.Idx → Elt F .f32) (ix3 κ r (0 : Fin 1))
      = (stAt2 V c (κ.val * 25 + 24) hlt).2.2.2 (ix2 r (0 : Fin 1)) := by
  let s : (n : ℕ) → n < cfg2.N → Vec F S512x1 .f32 := fun n hn => (stAt2 V c n hn).2.2.2
  have hN : cfg2.N = 50 := N_2
  have hκ : κ.val < 2 := κ.isLt
  let G : S2x512x1.Idx → Elt F .f32 := fun i =>
    s ((i 0).val * 25 + 24) (by have : (i 0).val < 2 := (i 0).isLt; rw [hN]; omega) (ix2 ⟨(i 1).val, (i 1).isLt⟩ (0 : Fin 1))
  have hG : ∀ t, (cfg2.win 7).flush t = true → (dat2 V c).flushed 7 t = ((cfg2.win 7).blk t).view.read (Elt F) G := by
    intro t hf
    have h9 : t.val % 25 = 24 := (flush2_7 t).mp hf
    obtain ⟨-, -, -, -, -, -, -, -, -, -, -, -, -, -, -, -, e0, e1, e2⟩ := idx_facts2 t
    show (cfg2.win 7).cut (grid2.coords t) ((dat2 V c).after 7 t) = _
    rw [after2_7]
    funext y
    obtain ⟨u, p, u', rfl⟩ : ∃ (u : Fin 1) (p : Fin 512) (u' : Fin 1), y = ix3 u p u' := ⟨y 0, y 1, y 2, eq_ix3 y⟩
    have hu : u.val = 0 := by omega
    have hu' : u' = (0 : Fin 1) := Fin.ext (by omega)
    subst hu'
    show k2_pay6 (s t.val t.isLt) (ix3 u p (0 : Fin 1)) = G (((cfg2.win 7).blk t).view.emb (ix3 u p (0 : Fin 1)))
    have h0 : ((((cfg2.win 7).blk t).view.emb (ix3 u p (0 : Fin 1))) 0).val = t.val / 25 := by
      show win2_7.index t (0 : Fin 3) * 1 + 1 * u.val = _; omega
    have h1 : ((((cfg2.win 7).blk t).view.emb (ix3 u p (0 : Fin 1))) 1).val = p.val := by
      show win2_7.index t (1 : Fin 3) * 512 + 1 * p.val = _; omega
    have key : ∀ (n : ℕ) (hn : n < cfg2.N) (q : Fin 512), n = t.val → q = p →
        s n hn (ix2 q (0 : Fin 1)) = s t.val t.isLt (ix2 p (0 : Fin 1)) := by
      intro n hn q hnt hq; subst hnt; subst hq; rfl
    unfold k2_pay6
    rw [shapeCast_ab_1ab_apply]
    exact (key _ _ _ (by rw [h0]; omega) (Fin.ext h1)).symm
  have hf : (cfg2.win 7).flush ⟨κ.val * 25 + 24, hlt⟩ = true :=
    (flush2_7 _).mpr (by show (κ.val * 25 + 24) % 25 = 24; omega)
  obtain ⟨-, -, -, -, -, -, -, -, -, -, -, -, -, -, -, -, e0, e1, e2⟩ := idx_facts2 ⟨κ.val * 25 + 24, hlt⟩
  have e : ((cfg2.win 7).blk ⟨κ.val * 25 + 24, hlt⟩).view.emb (ix3 (0 : Fin 1) r (0 : Fin 1)) = ix3 κ r (0 : Fin 1) :=
    funext fun a => Fin.ext (by
      match a with
      | ⟨0, _⟩ => show win2_7.index ⟨κ.val * 25 + 24, hlt⟩ (0 : Fin 3) * 1 + 1 * 0 = κ.val; rw [e0]; show (κ.val * 25 + 24) / 25 * 1 + 1 * 0 = κ.val; omega
      | ⟨1, _⟩ => show win2_7.index ⟨κ.val * 25 + 24, hlt⟩ (1 : Fin 3) * 512 + 1 * r.val = r.val; rw [e1]; omega
      | ⟨2, _⟩ => show win2_7.index ⟨κ.val * 25 + 24, hlt⟩ (2 : Fin 3) * 1 + 1 * 0 = 0; rw [e2])
  have hmem := ((cfg2.win 7).blk ⟨κ.val * 25 + 24, hlt⟩).view.emb_mem_set (ix3 (0 : Fin 1) r (0 : Fin 1))
  rw [e] at hmem
  exact (dat2 V c).arrAt_apply_of_mem 7 G hG cfg2.N ⟨κ.val * 25 + 24, hlt⟩ (ix3 κ r (0 : Fin 1)) hlt hf hmem

end

end Cert.KernelIdeal.Hand

end
-- ==== Proof.RegionSix2.lean ====
import proofs.«412644_j75642964017948_3_alg».proof.Proof.RowState2
import proofs.«412644_j75642964017948_3_alg».proof.Proof.RowMerge
import proofs.«412644_j75642964017948_3_alg».proof.Proof.Frame2Arr
import proofs.«412644_j75642964017948_3_alg».proof.Proof.GluePostDefs

set_option maxRecDepth 16384

noncomputable section

namespace Cert.Hand.Row2

open Cert.KernelIdeal Cert.KernelIdeal.Gen Cert.KernelIdeal.Hand Cert.Hand.LSE Cert.Hand.GluePost
open Idealize.ShloMosaic Idealize.ShloMosaic.TcCoe Idealize.ShloMosaic.ValueIdx
open Idealize.SL Idealize.SL.Sem

section
variable (V : (c : Dev nD) → (b : Ref sig .tc) → Buf (Elt Ideal) ((c : Thread nD τ).loc b)) (c : Dev nD)

theorem blkReads2 : BlkReads2 V c where
  rX := fun t r k => iblk2_0_at V c t r k
  rP := fun t k d => iblk2_1_at V c t k d
  rW := fun t j d => iblk2_2_at V c t j d
  rB := fun t j => iblk2_3_at V c t j
  rT := fun t r => iblk2_4_at V c t r

abbrev six2At (r : Fin 512) : Six :=
  sixAt ((dat2 V c).arrAt 5 cfg2.N : S2x512x1.Idx → EReal) ((dat2 V c).arrAt 6 cfg2.N : S2x512x1.Idx → EReal)
    ((dat2 V c).arrAt 7 cfg2.N : S2x512x1.Idx → EReal) r

theorem six2 (r : Fin 512) (x : Fin 160000 → ℝ)
    (hx : ∀ j : Fin 160000, logit2 V c r j = ((x j : ℝ) : EReal)) :
    ESumm Finset.univ x (six2At V c r).st.1 (six2At V c r).st.2 ∧
      (∀ h : (T2 V c (ix2 r (0 : Fin 1)) : BitVec 32).toNat < 160000,
        (six2At V c r).acc = ((x ⟨(T2 V c (ix2 r (0 : Fin 1)) : BitVec 32).toNat, h⟩ : ℝ) : EReal)) ∧
      (160000 ≤ (T2 V c (ix2 r (0 : Fin 1)) : BitVec 32).toNat → (six2At V c r).acc = 0) := by
  have h₀ : 24 < cfg2.N := by rw [show cfg2.N = 50 from N_2]; norm_num
  have h₁ : 49 < cfg2.N := by rw [show cfg2.N = 50 from N_2]; norm_num
  have hs : six2At V c r
      = ⟨(stAt2 V c 24 h₀).2.1 (ix2 r (0 : Fin 1)), (stAt2 V c 49 h₁).2.1 (ix2 r (0 : Fin 1)),
         (stAt2 V c 24 h₀).2.2.1 (ix2 r (0 : Fin 1)), (stAt2 V c 49 h₁).2.2.1 (ix2 r (0 : Fin 1)),
         (stAt2 V c 24 h₀).2.2.2 (ix2 r (0 : Fin 1)), (stAt2 V c 49 h₁).2.2.2 (ix2 r (0 : Fin 1))⟩ := by
    show sixAt _ _ _ r = _
    unfold sixAt
    rw [arr2_5_at V c (0 : Fin 2) r h₀, arr2_5_at V c (1 : Fin 2) r h₁, arr2_6_at V c (0 : Fin 2) r h₀,
      arr2_6_at V c (1 : Fin 2) r h₁, arr2_7_at V c (0 : Fin 2) r h₀, arr2_7_at V c (1 : Fin 2) r h₁]
    rfl
  have hw := RowInv.whole (by norm_num : 80000 ≤ 160000) (by norm_num : 160000 ≤ 160000) (by norm_num)
    (rowCore0_2 (blkReads2 V c) r x hx h₀) (rowCore1_2 (blkReads2 V c) r x hx h₁)
  rw [hs]
  exact hw

end

end Cert.Hand.Row2
-- ==== Proof.PayIdx3.lean ====
import proofs.«412644_j75642964017948_3_alg».proof.Proof.Gen.KernelIdeal.Skeleton
import Idealize.ShloMosaic.Lib.ValueIdx
import Idealize.ShloMosaic.Lib.ValueLayout
import Idealize.ShloMosaic.Lib.Pipeline.Value
import Idealize.ShloMosaic.Lib.StableHlo.Predicate
import Idealize.ShloMosaic.PureOps.Ideal.Laws

noncomputable section

namespace Cert.Hand.Pay3

open Cert.KernelIdeal Cert.KernelIdeal.Gen Idealize.ShloMosaic Idealize.ShloMosaic.ValueIdx Idealize.SL.Sem

section Layout
variable {α : Type}

theorem col_of_vec (v : S512.Idx → α) (n : Fin 512) :
    shapeCast S512x1 v shapeCasts_S512_S512x1 (ix2 n (0 : Fin 1)) = v (ix1 n) :=
  shapeCast_apply v _ _ _ (by
    rw [Shape.rowMajor_val_one, Shape.rowMajor_val_two]
    show n.val = n.val * 1 + 0
    omega)

theorem bcast_col (v : S512x1.Idx → α) (n : Fin 512) (j : Fin 2048) :
    broadcastTo S512x2048 v broadcasts_S512x1_S512x2048 (ix2 n j) = v (ix2 n (0 : Fin 1)) := by
  refine broadcastTo_apply v _ (ix2 n j) (ix2 n (0 : Fin 1)) fun ax => ?_
  match ax with
  | ⟨0, _⟩ => rfl
  | ⟨1, _⟩ => rfl

theorem block_of_col (v : S512x1.Idx → α) (n : Fin 512) :
    shapeCast S1x512x1 v shapeCasts_S512x1_S1x512x1 (ix3 (0 : Fin 1) n (0 : Fin 1)) = v (ix2 n (0 : Fin 1)) :=
  shapeCast_ab_1ab_apply v _ 0 n 0

end Layout

theorem ofBits_neg_inf : Ideal.ofBits .f32 0xFF800000#32 = (⊥ : EReal) := by
  simp [Ideal.ofBits, Ideal.ieee]

theorem neg_big : Named.named (F := Ideal) κ "neg_big" (φ := .f32) 0xFF333332#32 = (⊥ : EReal) :=
  IdealRules.named_const.ideal_named_scalar _ _ _ _ rfl

theorem rowsum_apply (v : FVec Ideal S512x2048 .f32) (n : Fin 512) :
    multiReduction (F := Ideal) .add [1] S512 v 0x00000000#32 reduces_S512x2048_S512 (.inl rfl) rfl (ix1 n)
      = ∑ j : Fin 2048, v (ix2 n j) := by
  refine (Ideal.multiReduction_add_single v 0x00000000#32 reduces_S512x2048_S512 (.inl rfl) rfl (ix1 n)).trans ?_
  refine Finset.sum_congr rfl fun j _ => congrArg v (funext fun a => Fin.ext ?_)
  match a with
  | ⟨0, _⟩ => rfl
  | ⟨1, _⟩ => rfl

theorem rowmax_apply (v : FVec Ideal S512x2048 .f32) (n : Fin 512) :
    multiReduction (F := Ideal) .maximumf [1] S512 v 0xFF800000#32 reduces_S512x2048_S512 (.inl rfl) rfl (ix1 n)
      = Finset.univ.sup fun j : Fin 2048 => v (ix2 n j) := by
  refine (Ideal.multiReduction_maximumf_single v 0xFF800000#32 reduces_S512x2048_S512 (.inl rfl) rfl (ix1 n)).trans ?_
  rw [Ideal.ofBits_def, ofBits_neg_inf]
  have e : (v ∘ reduces_S512x2048_S512.lift (ix1 n)) = fun j : Fin 2048 => v (ix2 n j) :=
    funext fun j => congrArg v (funext fun a => Fin.ext (by
      match a with
      | ⟨0, _⟩ => rfl
      | ⟨1, _⟩ => rfl))
  rw [e]
  rfl

theorem lhs_proj_0 (i : S512x16.Idx) (q : dot_S512x1024_S1024x16_S512x16_1_0_0_1_n_n.contr.Idx) :
    (dot_S512x1024_S1024x16_S512x16_1_0_0_1_n_n.lhsIdx i q 0).val = (i 0).val := by
  unfold DotDims.lhsIdx
  rw [dif_neg (show ¬(0 : Fin S512x1024.rank) ∈ dot_S512x1024_S1024x16_S512x16_1_0_0_1_n_n.lhsBatch by decide), dif_pos (show (0 : Fin S512x1024.rank) ∈ dot_S512x1024_S1024x16_S512x16_1_0_0_1_n_n.lhsNonContracting by decide)]
  rfl

theorem lhs_proj_1 (i : S512x16.Idx) (q : dot_S512x1024_S1024x16_S512x16_1_0_0_1_n_n.contr.Idx) :
    (dot_S512x1024_S1024x16_S512x16_1_0_0_1_n_n.lhsIdx i q 1).val = (q ⟨0, by decide⟩).val :=
  dot_S512x1024_S1024x16_S512x16_1_0_0_1_n_n.lhsIdx_val_of_single rfl i q

theorem rhs_proj_0 (i : S512x16.Idx) (q : dot_S512x1024_S1024x16_S512x16_1_0_0_1_n_n.contr.Idx) :
    (dot_S512x1024_S1024x16_S512x16_1_0_0_1_n_n.rhsIdx i q 0).val = (q ⟨0, by decide⟩).val :=
  dot_S512x1024_S1024x16_S512x16_1_0_0_1_n_n.rhsIdx_val_of_single rfl i q

theorem rhs_proj_1 (i : S512x16.Idx) (q : dot_S512x1024_S1024x16_S512x16_1_0_0_1_n_n.contr.Idx) :
    (dot_S512x1024_S1024x16_S512x16_1_0_0_1_n_n.rhsIdx i q 1).val = (i 1).val := by
  unfold DotDims.rhsIdx
  rw [dif_neg (show ¬(1 : Fin S1024x16.rank) ∈ dot_S512x1024_S1024x16_S512x16_1_0_0_1_n_n.rhsBatch by decide), dif_pos (show (1 : Fin S1024x16.rank) ∈ dot_S512x1024_S1024x16_S512x16_1_0_0_1_n_n.rhsNonContracting by decide)]
  rfl

theorem matmul_proj_apply {φ₁ φ₂ : FTy} (lhs : FVec Ideal S512x1024 φ₁) (rhs : FVec Ideal S1024x16 φ₂) (n : Fin 512) (j : Fin 16) :
    matmul dot_S512x1024_S1024x16_S512x16_1_0_0_1_n_n none lhs rhs (constant (F := Ideal) S512x16 .f32 0x00000000#32) (ix2 n j)
      = ∑ k : Fin 1024, lhs (ix2 n k) * rhs (ix2 k j) := by
  simp only [matmul]
  rw [Ideal.matmul_constant_zero_apply, ← Equiv.sum_comp (ValueIdx.contrEquiv1 dot_S512x1024_S1024x16_S512x16_1_0_0_1_n_n 1024 rfl rfl).symm]
  refine Finset.sum_congr rfl fun k _ => ?_
  have hk := ValueIdx.contrEquiv1_symm_val dot_S512x1024_S1024x16_S512x16_1_0_0_1_n_n 1024 rfl rfl k
  have el : dot_S512x1024_S1024x16_S512x16_1_0_0_1_n_n.lhsIdx (ix2 n j) ((ValueIdx.contrEquiv1 dot_S512x1024_S1024x16_S512x16_1_0_0_1_n_n 1024 rfl rfl).symm k) = ix2 n k := funext fun a => Fin.ext (by
    match a with
    | ⟨0, _⟩ => exact lhs_proj_0 _ _
    | ⟨1, _⟩ => exact (lhs_proj_1 _ _).trans hk)
  have er : dot_S512x1024_S1024x16_S512x16_1_0_0_1_n_n.rhsIdx (ix2 n j) ((ValueIdx.contrEquiv1 dot_S512x1024_S1024x16_S512x16_1_0_0_1_n_n 1024 rfl rfl).symm k) = ix2 k j := funext fun a => Fin.ext (by
    match a with
    | ⟨0, _⟩ => exact (rhs_proj_0 _ _).trans hk
    | ⟨1, _⟩ => exact rhs_proj_1 _ _)
  rw [el, er]

theorem pay8_at (x : Vec Ideal S512x1024 .f32) (pj : Vec Ideal S1024x16 .f32) (n : Fin 512) (d : Fin 16) :
    k3_pay8 (F := Ideal) x pj (ix2 n d) = ∑ k : Fin 1024, x (ix2 n k) * pj (ix2 k d) := by
  unfold k3_pay8
  rw [shapeCast_self, matmul_proj_apply, shapeCast_self]
  refine Finset.sum_congr rfl fun k _ => ?_
  rw [truncf_apply, truncf_apply]

def pos3 (i : grid3.Coords) (j : Fin 2048) : BitVec 32 :=
  IntOp.addi
    (Scalar.muli (Scalar.addi (Scalar.muli (BitVec.ofNat 32 (i 0).val) 17#32) (BitVec.ofNat 32 (i 1).val)) 2048#32)
    (BitVec.ofNat 32 j.val)

theorem pos3_toNat (i : grid3.Coords) (j : Fin 2048) :
    (pos3 i j).toNat = ((i 0).val * 17 + (i 1).val) * 2048 + j.val := by
  have h0 : (i 0).val < 2 := (i 0).isLt
  have h1 : (i 1).val < 17 := (i 1).isLt
  have hj : j.val < 2048 := j.isLt
  unfold pos3 Scalar.muli Scalar.addi IntOp.muli IntOp.addi
  simp only [BitVec.toNat_add, BitVec.toNat_mul, BitVec.toNat_ofNat]
  omega

theorem pay12_at (i : grid3.Coords) (n : Fin 512) (j : Fin 2048) : k3_pay12 i (ix2 n j) = pos3 i j := by
  unfold k3_pay12
  dsimp only
  show IntOp.addi _ (iota .tc S512x2048 32 [1] iota_S512x2048_d1_w32 (ix2 n j)) = _
  rw [iota_single_apply]
  rfl

def live3 (i : grid3.Coords) (j : Fin 2048) : BitVec 1 := IntOp.cmpi .slt (pos3 i j) 67735#32

theorem live3_eq_one_iff (i : grid3.Coords) (j : Fin 2048) : live3 i j = 1#1 ↔ (pos3 i j).toNat < 67735 := by
  have h0 : (i 0).val < 2 := (i 0).isLt
  have h1 : (i 1).val < 17 := (i 1).isLt
  have hj : j.val < 2048 := j.isLt
  have hp := pos3_toNat i j
  unfold live3
  rw [StableHlo.Predicate.slt_iff_toNat (by omega) (by decide)]
  rfl

theorem lhs_logits_0 (i : S512x2048.Idx) (q : dot_S512x16_S16x2048_S512x2048_1_0_0_1_n_n.contr.Idx) :
    (dot_S512x16_S16x2048_S512x2048_1_0_0_1_n_n.lhsIdx i q 0).val = (i 0).val := by
  unfold DotDims.lhsIdx
  rw [dif_neg (show ¬(0 : Fin S512x16.rank) ∈ dot_S512x16_S16x2048_S512x2048_1_0_0_1_n_n.lhsBatch by decide), dif_pos (show (0 : Fin S512x16.rank) ∈ dot_S512x16_S16x2048_S512x2048_1_0_0_1_n_n.lhsNonContracting by decide)]
  rfl

theorem lhs_logits_1 (i : S512x2048.Idx) (q : dot_S512x16_S16x2048_S512x2048_1_0_0_1_n_n.contr.Idx) :
    (dot_S512x16_S16x2048_S512x2048_1_0_0_1_n_n.lhsIdx i q 1).val = (q ⟨0, by decide⟩).val :=
  dot_S512x16_S16x2048_S512x2048_1_0_0_1_n_n.lhsIdx_val_of_single rfl i q

theorem rhs_logits_0 (i : S512x2048.Idx) (q : dot_S512x16_S16x2048_S512x2048_1_0_0_1_n_n.contr.Idx) :
    (dot_S512x16_S16x2048_S512x2048_1_0_0_1_n_n.rhsIdx i q 0).val = (q ⟨0, by decide⟩).val :=
  dot_S512x16_S16x2048_S512x2048_1_0_0_1_n_n.rhsIdx_val_of_single rfl i q

theorem rhs_logits_1 (i : S512x2048.Idx) (q : dot_S512x16_S16x2048_S512x2048_1_0_0_1_n_n.contr.Idx) :
    (dot_S512x16_S16x2048_S512x2048_1_0_0_1_n_n.rhsIdx i q 1).val = (i 1).val := by
  unfold DotDims.rhsIdx
  rw [dif_neg (show ¬(1 : Fin S16x2048.rank) ∈ dot_S512x16_S16x2048_S512x2048_1_0_0_1_n_n.rhsBatch by decide), dif_pos (show (1 : Fin S16x2048.rank) ∈ dot_S512x16_S16x2048_S512x2048_1_0_0_1_n_n.rhsNonContracting by decide)]
  rfl

theorem matmul_logits_apply {φ₁ φ₂ : FTy} (lhs : FVec Ideal S512x16 φ₁) (rhs : FVec Ideal S16x2048 φ₂) (n : Fin 512) (j : Fin 2048) :
    matmul dot_S512x16_S16x2048_S512x2048_1_0_0_1_n_n none lhs rhs (constant (F := Ideal) S512x2048 .f32 0x00000000#32) (ix2 n j)
      = ∑ k : Fin 16, lhs (ix2 n k) * rhs (ix2 k j) := by
  simp only [matmul]
  rw [Ideal.matmul_constant_zero_apply, ← Equiv.sum_comp (ValueIdx.contrEquiv1 dot_S512x16_S16x2048_S512x2048_1_0_0_1_n_n 16 rfl rfl).symm]
  refine Finset.sum_congr rfl fun k _ => ?_
  have hk := ValueIdx.contrEquiv1_symm_val dot_S512x16_S16x2048_S512x2048_1_0_0_1_n_n 16 rfl rfl k
  have el : dot_S512x16_S16x2048_S512x2048_1_0_0_1_n_n.lhsIdx (ix2 n j) ((ValueIdx.contrEquiv1 dot_S512x16_S16x2048_S512x2048_1_0_0_1_n_n 16 rfl rfl).symm k) = ix2 n k := funext fun a => Fin.ext (by
    match a with
    | ⟨0, _⟩ => exact lhs_logits_0 _ _
    | ⟨1, _⟩ => exact (lhs_logits_1 _ _).trans hk)
  have er : dot_S512x16_S16x2048_S512x2048_1_0_0_1_n_n.rhsIdx (ix2 n j) ((ValueIdx.contrEquiv1 dot_S512x16_S16x2048_S512x2048_1_0_0_1_n_n 16 rfl rfl).symm k) = ix2 k j := funext fun a => Fin.ext (by
    match a with
    | ⟨0, _⟩ => exact (rhs_logits_0 _ _).trans hk
    | ⟨1, _⟩ => exact rhs_logits_1 _ _)
  rw [el, er]

theorem pay13_at (i : grid3.Coords) (H : Vec Ideal S512x16 .f32) (wt : Vec Ideal S2048x16 .f32) (bt : Vec Ideal S2048x1 .f32)
    (n : Fin 512) (j : Fin 2048) :
    k3_pay13 (F := Ideal) i H wt bt (ix2 n j)
      = if (pos3 i j).toNat < 67735 then (∑ d : Fin 16, H (ix2 n d) * wt (ix2 j d)) + bt (ix2 j 0) else (⊥ : EReal) := by
  unfold k3_pay13
  dsimp only
  rw [select_apply]
  show Scalar.select (IntOp.cmpi .slt (k3_pay12 i (ix2 n j)) 67735#32) _ (Named.named (F := Ideal) κ "neg_big" (φ := .f32) 0xFF333332#32) = _
  rw [pay12_at, neg_big]
  show Scalar.select (live3 i j) _ _ = _
  by_cases h : (pos3 i j).toNat < 67735
  · rw [if_pos h, (live3_eq_one_iff i j).mpr h, select_one, addf_apply, matmul_logits_apply, broadcastTo_1b_ab_apply,
      transpose_ix2_apply, shapeCast_self, shapeCast_self]
    refine congrArg (· + bt (ix2 j 0)) (Finset.sum_congr rfl fun d _ => ?_)
    rw [transpose_ix2_apply, truncf_apply, truncf_apply]
  · rw [if_neg h, eq_zero_of_ne_one (fun hc => h ((live3_eq_one_iff i j).mp hc)), select_zero]

theorem pay9_at (n : Fin 512) : k3_pay9 (F := Ideal) (ix2 n (0 : Fin 1)) = (⊥ : EReal) := by
  unfold k3_pay9
  rw [shapeCast_self, broadcast_apply]
  exact ofBits_neg_inf

theorem pay10_at (n : Fin 512) : k3_pay10 (F := Ideal) (ix2 n (0 : Fin 1)) = (0 : EReal) := by
  unfold k3_pay10
  rw [shapeCast_self, broadcast_apply]
  exact Ideal.ofBits_zero_f32

theorem pay11_at (n : Fin 512) : k3_pay11 (F := Ideal) (ix2 n (0 : Fin 1)) = (0 : EReal) := by
  unfold k3_pay11
  rw [shapeCast_self, broadcast_apply]
  exact Ideal.ofBits_zero_f32

theorem pay1_at (v : FVec Ideal S512x1 .f32) (n : Fin 512) :
    k3_pay1 (F := Ideal) v (ix2 n (0 : Fin 1)) = v (ix2 n (0 : Fin 1)) := by
  unfold k3_pay1
  rw [shapeCast_self]

theorem pay2_at (lg : FVec Ideal S512x2048 .f32) (M : Vec Ideal S512x1 .f32) (n : Fin 512) :
    k3_pay2 (F := Ideal) lg M (ix2 n (0 : Fin 1))
      = max (M (ix2 n (0 : Fin 1))) (Finset.univ.sup fun j : Fin 2048 => lg (ix2 n j)) := by
  unfold k3_pay2
  dsimp only
  rw [maximumf_apply, col_of_vec, rowmax_apply]

theorem pay4_at (lg : FVec Ideal S512x2048 .f32) (M : Vec Ideal S512x1 .f32) (n : Fin 512) :
    k3_pay4 (F := Ideal) lg M (ix2 n (0 : Fin 1))
      = max (M (ix2 n (0 : Fin 1))) (Finset.univ.sup fun j : Fin 2048 => lg (ix2 n j)) := by
  unfold k3_pay4
  rw [shapeCast_self, pay2_at]

theorem pay3_at (lg : FVec Ideal S512x2048 .f32) (M L M' : Vec Ideal S512x1 .f32) (n : Fin 512) :
    k3_pay3 (F := Ideal) lg M L M' (ix2 n (0 : Fin 1))
      = L (ix2 n (0 : Fin 1))
          * Ideal.exp (M' (ix2 n (0 : Fin 1)) - max (M (ix2 n (0 : Fin 1))) (Finset.univ.sup fun j : Fin 2048 => lg (ix2 n j)))
        + ∑ j : Fin 2048,
            Ideal.exp (lg (ix2 n j) - max (M (ix2 n (0 : Fin 1))) (Finset.univ.sup fun j : Fin 2048 => lg (ix2 n j))) := by
  unfold k3_pay3
  dsimp only
  rw [shapeCast_self, addf_apply, mulf_apply, col_of_vec, rowsum_apply]
  show L (ix2 n (0 : Fin 1)) * Ideal.exp (subf M' (k3_pay2 lg M) (ix2 n (0 : Fin 1))) + _ = _
  rw [subf_apply, pay2_at]
  refine congrArg (_ + ·) (Finset.sum_congr rfl fun j _ => ?_)
  show Ideal.exp (subf lg (broadcastTo S512x2048 (k3_pay2 lg M) broadcasts_S512x1_S512x2048) (ix2 n j)) = _
  rw [subf_apply, bcast_col, pay2_at]

theorem pay5_at (v : Vec Ideal S512x1 .f32) (n : Fin 512) :
    k3_pay5 (F := Ideal) v (ix3 (0 : Fin 1) n (0 : Fin 1)) = v (ix2 n (0 : Fin 1)) := by
  unfold k3_pay5
  exact block_of_col v n

theorem pay6_at (v : Vec Ideal S512x1 .f32) (n : Fin 512) :
    k3_pay6 (F := Ideal) v (ix3 (0 : Fin 1) n (0 : Fin 1)) = v (ix2 n (0 : Fin 1)) := by
  unfold k3_pay6
  exact block_of_col v n

theorem pay7_at (v : Vec Ideal S512x1 .f32) (n : Fin 512) :
    k3_pay7 (F := Ideal) v (ix3 (0 : Fin 1) n (0 : Fin 1)) = v (ix2 n (0 : Fin 1)) := by
  unfold k3_pay7
  exact block_of_col v n

theorem pay14_at (i : grid3.Coords) (H : Vec Ideal S512x16 .f32) (wt : Vec Ideal S2048x16 .f32)
    (bt : Vec Ideal S2048x1 .f32) (tg : Vec Ideal S512x1 .i32) (A : Vec Ideal S512x1 .f32) (n : Fin 512) :
    k3_pay14 (F := Ideal) i H wt bt tg A (ix2 n (0 : Fin 1))
      = A (ix2 n (0 : Fin 1)) + ∑ j : Fin 2048,
          if pos3 i j = (tg (ix2 n (0 : Fin 1)) : BitVec 32) then k3_pay13 (F := Ideal) i H wt bt (ix2 n j) else 0 := by
  unfold k3_pay14
  dsimp only
  rw [addf_apply, col_of_vec, rowsum_apply]
  refine congrArg (_ + ·) (Finset.sum_congr rfl fun j _ => ?_)
  rw [select_apply]
  show Scalar.select
      (IntOp.cmpi .eq (k3_pay12 i (ix2 n j))
        (broadcastTo S512x2048 (shapeCast S512x1 tg shapeCasts_S512x1_S512x1) broadcasts_S512x1_S512x2048 (ix2 n j)))
      _ (Ideal.ofBits .f32 0x00000000#32) = _
  rw [pay12_at, bcast_col, shapeCast_self, Ideal.ofBits_zero_f32]
  by_cases h : pos3 i j = (tg (ix2 n (0 : Fin 1)) : BitVec 32)
  · rw [if_pos h, IntOp.cmpi_eq.mpr h, select_one]
  · rw [if_neg h, eq_zero_of_ne_one (fun hc => h (IntOp.cmpi_eq.mp hc)), select_zero]

end Cert.Hand.Pay3
-- ==== Proof.RowState3.lean ====
import proofs.«412644_j75642964017948_3_alg».proof.Proof.Frame3Dat
import proofs.«412644_j75642964017948_3_alg».proof.Proof.PayIdx3
import proofs.«412644_j75642964017948_3_alg».proof.Proof.LibOnlineRow

set_option maxRecDepth 16384

noncomputable section

namespace Cert.Hand.Row3

open Cert.KernelIdeal Cert.KernelIdeal.Gen Cert.KernelIdeal.Hand Cert.Hand.Pay3 Cert.Hand.LSE
open Idealize.ShloMosaic Idealize.ShloMosaic.TcCoe Idealize.ShloMosaic.ValueIdx
open Idealize.SL Idealize.SL.Sem

theorem lt_points (t : Fin cfg3.N) : t.val < 34 := lt_of_lt_of_eq t.isLt (show cfg3.N = 34 from N_3)

theorem coords_val : ∀ t : Fin cfg3.N, ((grid3.coords t) 0).val * 17 + ((grid3.coords t) 1).val = t.val :=
  (by decide +kernel : ∀ t : Fin grid3.N, ((grid3.coords t) 0).val * 17 + ((grid3.coords t) 1).val = t.val)

def tile3 (t : Fin cfg3.N) (j : Fin 2048) : Fin 69632 :=
  ⟨t.val * 2048 + j.val, by have := lt_points t; have := j.isLt; omega⟩

def pad3 (j : Fin 67735) : Fin 69632 := ⟨j.val, by have := j.isLt; omega⟩

section
variable (V : (c : Dev nD) → (b : Ref sig .tc) → Buf (Elt Ideal) ((c : Thread nD τ).loc b)) (c : Dev nD)

abbrev X3 : Vec Ideal S512x1024 .f32 := V c (Pipeline.arrRef spec3 0)

abbrev P3 : Vec Ideal S1024x16 .f32 := V c (Pipeline.arrRef spec3 1)

abbrev W3 : Vec Ideal S69632x16 .f32 := V c (Pipeline.arrRef spec3 2)

abbrev B3 : Vec Ideal S69632x1 .f32 := V c (Pipeline.arrRef spec3 3)

abbrev T3 : Vec Ideal S512x1 .i32 := V c (Pipeline.arrRef spec3 4)

structure BlkReads3 : Prop where
  rX : ∀ (t : Fin cfg3.N) (r : Fin 512) (k : Fin 1024),
    (iblk3 V c 0 t : Vec Ideal S512x1024 .f32) (ix2 r k) = X3 V c (ix2 r k)
  rP : ∀ (t : Fin cfg3.N) (k : Fin 1024) (d : Fin 16),
    (iblk3 V c 1 t : Vec Ideal S1024x16 .f32) (ix2 k d) = P3 V c (ix2 k d)
  rW : ∀ (t : Fin cfg3.N) (j : Fin 2048) (d : Fin 16),
    (iblk3 V c 2 t : Vec Ideal S2048x16 .f32) (ix2 j d) = W3 V c (ix2 (tile3 t j) d)
  rB : ∀ (t : Fin cfg3.N) (j : Fin 2048),
    (iblk3 V c 3 t : Vec Ideal S2048x1 .f32) (ix2 j (0 : Fin 1)) = B3 V c (ix2 (tile3 t j) (0 : Fin 1))
  rT : ∀ (t : Fin cfg3.N) (r : Fin 512),
    (iblk3 V c 4 t : Vec Ideal S512x1 .i32) (ix2 r (0 : Fin 1)) = T3 V c (ix2 r (0 : Fin 1))

def logit3 (r : Fin 512) (j : Fin 69632) : EReal :=
  (∑ d : Fin 16, (∑ k : Fin 1024, X3 V c (ix2 r k) * P3 V c (ix2 k d)) * W3 V c (ix2 j d))
    + B3 V c (ix2 j (0 : Fin 1))

variable {V c}

theorem upd_row (hb : BlkReads3 V c) (r : Fin 512) (x : Fin 67735 → ℝ)
    (hx : ∀ j : Fin 67735, logit3 V c r (pad3 j) = ((x j : ℝ) : EReal))
    (htg : (T3 V c (ix2 r (0 : Fin 1)) : BitVec 32).toNat < 67735)
    (t : Fin cfg3.N) (Sp : St3 Ideal) (a : ℕ) (ha : a ≤ t.val * 2048)
    (hH : ∀ d : Fin 16, Sp.1 (ix2 r d) = ∑ k : Fin 1024, X3 V c (ix2 r k) * P3 V c (ix2 k d))
    (hinv : RowInv0 x (T3 V c (ix2 r (0 : Fin 1))) a (t.val * 2048)
      (Sp.2.1 (ix2 r (0 : Fin 1))) (Sp.2.2.1 (ix2 r (0 : Fin 1))) (Sp.2.2.2 (ix2 r (0 : Fin 1)))) :
    (∀ d : Fin 16, (upd3 (grid3.coords t) (iblk3 V c 2 t) (iblk3 V c 3 t) (iblk3 V c 4 t) Sp).1 (ix2 r d)
        = ∑ k : Fin 1024, X3 V c (ix2 r k) * P3 V c (ix2 k d)) ∧
      RowInv x (T3 V c (ix2 r (0 : Fin 1))) a (t.val * 2048 + 2048)
        ((upd3 (grid3.coords t) (iblk3 V c 2 t) (iblk3 V c 3 t) (iblk3 V c 4 t) Sp).2.1 (ix2 r (0 : Fin 1)))
        ((upd3 (grid3.coords t) (iblk3 V c 2 t) (iblk3 V c 3 t) (iblk3 V c 4 t) Sp).2.2.1 (ix2 r (0 : Fin 1)))
        ((upd3 (grid3.coords t) (iblk3 V c 2 t) (iblk3 V c 3 t) (iblk3 V c 4 t) Sp).2.2.2 (ix2 r (0 : Fin 1))) := by
  refine ⟨hH, ?_⟩
  have hN := lt_points t

  have hpos : ∀ j : Fin 2048, (pos3 (grid3.coords t) j).toNat = t.val * 2048 + j.val := by
    intro j
    rw [pos3_toNat, coords_val t]

  have hlg : ∀ j : Fin 2048,
      k3_pay13 (F := Ideal) (grid3.coords t) Sp.1 (iblk3 V c 2 t) (iblk3 V c 3 t) (ix2 r j)
      = if hj : t.val * 2048 + j.val < 67735 then ((x ⟨t.val * 2048 + j.val, hj⟩ : ℝ) : EReal) else ⊥ := by
    intro j
    rw [pay13_at, hpos j]
    by_cases hj : t.val * 2048 + j.val < 67735
    · rw [if_pos hj, dif_pos hj, hb.rB t j, ← hx ⟨t.val * 2048 + j.val, hj⟩]
      refine congrArg (· + _) (Finset.sum_congr rfl fun d _ => ?_)
      rw [hH d, hb.rW t j d]
      rfl
    · rw [if_neg hj, dif_neg hj]
  show RowInv _ _ _ _
    (k3_pay4 (F := Ideal) (k3_pay13 (grid3.coords t) Sp.1 (iblk3 V c 2 t) (iblk3 V c 3 t)) Sp.2.1 (ix2 r (0 : Fin 1)))
    (k3_pay3 (F := Ideal) (k3_pay13 (grid3.coords t) Sp.1 (iblk3 V c 2 t) (iblk3 V c 3 t)) Sp.2.1 Sp.2.2.1 Sp.2.1
      (ix2 r (0 : Fin 1)))
    (k3_pay1 (F := Ideal) (k3_pay14 (grid3.coords t) Sp.1 (iblk3 V c 2 t) (iblk3 V c 3 t) (iblk3 V c 4 t) Sp.2.2.2)
      (ix2 r (0 : Fin 1)))
  rw [pay4_at, pay3_at, pay1_at, pay14_at, hb.rT t r]
  exact RowInv0.step hinv ha (by omega)
    (fun j : Fin 2048 => k3_pay13 (F := Ideal) (grid3.coords t) Sp.1 (iblk3 V c 2 t) (iblk3 V c 3 t) (ix2 r j)) hlg
    (pos3 (grid3.coords t)) hpos (Or.inr htg) (by norm_num) rfl

theorem reset_row (hb : BlkReads3 V c) (t : Fin cfg3.N) (r : Fin 512) :
    (∀ d : Fin 16, (reset3 (iblk3 V c 0 t) (iblk3 V c 1 t)).1 (ix2 r d)
        = ∑ k : Fin 1024, X3 V c (ix2 r k) * P3 V c (ix2 k d)) ∧
      (reset3 (F := Ideal) (iblk3 V c 0 t) (iblk3 V c 1 t)).2.1 (ix2 r (0 : Fin 1)) = ⊥ ∧
      (reset3 (F := Ideal) (iblk3 V c 0 t) (iblk3 V c 1 t)).2.2.1 (ix2 r (0 : Fin 1)) = 0 ∧
      (reset3 (F := Ideal) (iblk3 V c 0 t) (iblk3 V c 1 t)).2.2.2 (ix2 r (0 : Fin 1)) = 0 := by
  refine ⟨fun d => ?_, pay9_at r, pay10_at r, pay11_at r⟩
  show k3_pay8 (F := Ideal) (iblk3 V c 0 t) (iblk3 V c 1 t) (ix2 r d) = _
  rw [pay8_at]
  exact Finset.sum_congr rfl fun k _ => by rw [hb.rX t r k, hb.rP t k d]

theorem rowState3 (hb : BlkReads3 V c) (r : Fin 512) (x : Fin 67735 → ℝ)
    (hx : ∀ j : Fin 67735, logit3 V c r (pad3 j) = ((x j : ℝ) : EReal))
    (htg : (T3 V c (ix2 r (0 : Fin 1)) : BitVec 32).toNat < 67735)
    (κ : Fin 2) (s : ℕ) :
    ∀ (hs : s < 17) (hn : κ.val * 17 + s < cfg3.N),
      (∀ d : Fin 16, (stAt3 V c (κ.val * 17 + s) hn).1 (ix2 r d)
          = ∑ k : Fin 1024, X3 V c (ix2 r k) * P3 V c (ix2 k d)) ∧
        RowInv x (T3 V c (ix2 r (0 : Fin 1))) (κ.val * 34816) (κ.val * 34816 + (s + 1) * 2048)
          ((stAt3 V c (κ.val * 17 + s) hn).2.1 (ix2 r (0 : Fin 1)))
          ((stAt3 V c (κ.val * 17 + s) hn).2.2.1 (ix2 r (0 : Fin 1)))
          ((stAt3 V c (κ.val * 17 + s) hn).2.2.2 (ix2 r (0 : Fin 1))) := by
  induction s with
  | zero =>
    intro hs hn
    have e : stAt3 V c (κ.val * 17 + 0) hn = _ :=
      stAt3_first V c ⟨κ.val * 17 + 0, hn⟩ (by show (κ.val * 17 + 0) % 17 = 0; omega)
    rw [e]
    obtain ⟨hH, hM, hL, hA⟩ := reset_row hb ⟨κ.val * 17 + 0, hn⟩ r
    have hstep := upd_row hb r x hx htg ⟨κ.val * 17 + 0, hn⟩ _ (κ.val * 34816)
      (by show κ.val * 34816 ≤ (κ.val * 17 + 0) * 2048; omega) hH
      (Or.inl ⟨by show (κ.val * 17 + 0) * 2048 = κ.val * 34816; omega, hM, hL, hA⟩)
    have hb' : (κ.val * 17 + 0) * 2048 + 2048 = κ.val * 34816 + (0 + 1) * 2048 := by omega
    exact ⟨hstep.1, hb' ▸ hstep.2⟩
  | succ s ih =>
    intro hs hn
    obtain ⟨hH, hI⟩ := ih (by omega) (by omega)
    have e : stAt3 V c (κ.val * 17 + (s + 1)) hn = _ :=
      stAt3_next V c ⟨κ.val * 17 + (s + 1), hn⟩ (by show ¬ (κ.val * 17 + (s + 1)) % 17 = 0; omega)
    rw [e]
    have hstep := upd_row hb r x hx htg ⟨κ.val * 17 + (s + 1), hn⟩
      (stAt3 V c (κ.val * 17 + s) (by omega)) (κ.val * 34816)
      (by show κ.val * 34816 ≤ (κ.val * 17 + (s + 1)) * 2048; omega) hH
      (Or.inr (by
        have hb' : κ.val * 34816 + (s + 1) * 2048 = (κ.val * 17 + (s + 1)) * 2048 := by omega
        exact hb' ▸ hI))
    have hb' : (κ.val * 17 + (s + 1)) * 2048 + 2048 = κ.val * 34816 + (s + 1 + 1) * 2048 := by omega
    exact ⟨hstep.1, hb' ▸ hstep.2⟩

theorem rowState3_last (hb : BlkReads3 V c) (r : Fin 512) (x : Fin 67735 → ℝ)
    (hx : ∀ j : Fin 67735, logit3 V c r (pad3 j) = ((x j : ℝ) : EReal))
    (htg : (T3 V c (ix2 r (0 : Fin 1)) : BitVec 32).toNat < 67735)
    (κ : Fin 2) (hn : κ.val * 17 + 16 < cfg3.N) :
    RowInv x (T3 V c (ix2 r (0 : Fin 1))) (κ.val * 34816) (κ.val * 34816 + 34816)
      ((stAt3 V c (κ.val * 17 + 16) hn).2.1 (ix2 r (0 : Fin 1)))
      ((stAt3 V c (κ.val * 17 + 16) hn).2.2.1 (ix2 r (0 : Fin 1)))
      ((stAt3 V c (κ.val * 17 + 16) hn).2.2.2 (ix2 r (0 : Fin 1))) :=
  (rowState3 hb r x hx htg κ 16 (by norm_num) hn).2

theorem rowCore0_3 (hb : BlkReads3 V c) (r : Fin 512) (x : Fin 67735 → ℝ)
    (hx : ∀ j : Fin 67735, logit3 V c r (pad3 j) = ((x j : ℝ) : EReal))
    (htg : (T3 V c (ix2 r (0 : Fin 1)) : BitVec 32).toNat < 67735)
    (h₀ : 16 < cfg3.N) :
    RowInv x (T3 V c (ix2 r (0 : Fin 1))) 0 34816
      ((stAt3 V c 16 h₀).2.1 (ix2 r (0 : Fin 1))) ((stAt3 V c 16 h₀).2.2.1 (ix2 r (0 : Fin 1)))
      ((stAt3 V c 16 h₀).2.2.2 (ix2 r (0 : Fin 1))) :=
  rowState3_last hb r x hx htg (0 : Fin 2) h₀

theorem rowCore1_3 (hb : BlkReads3 V c) (r : Fin 512) (x : Fin 67735 → ℝ)
    (hx : ∀ j : Fin 67735, logit3 V c r (pad3 j) = ((x j : ℝ) : EReal))
    (htg : (T3 V c (ix2 r (0 : Fin 1)) : BitVec 32).toNat < 67735)
    (h₁ : 33 < cfg3.N) :
    RowInv x (T3 V c (ix2 r (0 : Fin 1))) 34816 69632
      ((stAt3 V c 33 h₁).2.1 (ix2 r (0 : Fin 1))) ((stAt3 V c 33 h₁).2.2.1 (ix2 r (0 : Fin 1)))
      ((stAt3 V c 33 h₁).2.2.2 (ix2 r (0 : Fin 1))) :=
  rowState3_last hb r x hx htg (1 : Fin 2) h₁

end

end Cert.Hand.Row3
-- ==== Proof.Frame3Arr.lean ====
import proofs.«412644_j75642964017948_3_alg».proof.Proof.Frame3Dat
import Idealize.ShloMosaic.Lib.Pipeline.Value
import Idealize.ShloMosaic.Lib.ValueIdx
import Idealize.ShloMosaic.Lib.ValueLayout

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable {F : FTy → Type} [FloatOps F] [Named F]

theorem idx_facts3 : ∀ t : Fin cfg3.N,
    win3_0.index t (0 : Fin 2) = 0 ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0
    ∧ win3_3.index t (0 : Fin 2) = t.val ∧ win3_3.index t (1 : Fin 2) = 0
    ∧ win3_4.index t (0 : Fin 2) = 0 ∧ win3_4.index t (1 : Fin 2) = 0
    ∧ win3_5.index t (0 : Fin 3) = t.val / 17 ∧ win3_5.index t (1 : Fin 3) = 0 ∧ win3_5.index t (2 : Fin 3) = 0
    ∧ win3_6.index t (0 : Fin 3) = t.val / 17 ∧ win3_6.index t (1 : Fin 3) = 0 ∧ win3_6.index t (2 : Fin 3) = 0
    ∧ win3_7.index t (0 : Fin 3) = t.val / 17 ∧ win3_7.index t (1 : Fin 3) = 0 ∧ win3_7.index t (2 : Fin 3) = 0 :=
  (by decide +kernel : ∀ t : Fin grid3.N, _)

section

variable (V : (c : Dev nD) → (b : Ref sig .tc) → Buf (Elt F) ((c : Thread nD τ).loc b))

theorem iblk3_0_at (c : Dev nD) (t : Fin cfg3.N) (r : Fin 512) (k : Fin 1024) :
    iblk3 V c 0 t (ix2 r k) = (V c (Pipeline.arrRef spec3 0) : S512x1024.Idx → Elt F .f32) (ix2 r k) := by
  obtain ⟨e00, e01, -⟩ := idx_facts3 t
  show V c (Pipeline.arrRef spec3 0) (((cfg3.win 0).blk t).view.emb (ix2 r k)) = _
  refine congrArg _ (funext fun a => Fin.ext ?_)
  match a with
  | ⟨0, _⟩ => show win3_0.index t (0 : Fin 2) * 512 + 1 * r.val = r.val; omega
  | ⟨1, _⟩ => show win3_0.index t (1 : Fin 2) * 1024 + 1 * k.val = k.val; omega

theorem iblk3_1_at (c : Dev nD) (t : Fin cfg3.N) (k : Fin 1024) (d : Fin 16) :
    iblk3 V c 1 t (ix2 k d) = (V c (Pipeline.arrRef spec3 1) : S1024x16.Idx → Elt F .f32) (ix2 k d) := by
  obtain ⟨-, -, e10, e11, -⟩ := idx_facts3 t
  show V c (Pipeline.arrRef spec3 1) (((cfg3.win 1).blk t).view.emb (ix2 k d)) = _
  refine congrArg _ (funext fun a => Fin.ext ?_)
  match a with
  | ⟨0, _⟩ => show win3_1.index t (0 : Fin 2) * 1024 + 1 * k.val = k.val; omega
  | ⟨1, _⟩ => show win3_1.index t (1 : Fin 2) * 16 + 1 * d.val = d.val; omega

theorem iblk3_2_at (c : Dev nD) (t : Fin cfg3.N) (j : Fin 2048) (d : Fin 16) :
    iblk3 V c 2 t (ix2 j d)
      = (V c (Pipeline.arrRef spec3 2) : S69632x16.Idx → Elt F .f32)
          (ix2 ⟨t.val * 2048 + j.val, by have := t.isLt; have h : cfg3.N = 34 := N_3; have := j.isLt; omega⟩ d) := by
  obtain ⟨-, -, -, -, e20, e21, -⟩ := idx_facts3 t
  show V c (Pipeline.arrRef spec3 2) (((cfg3.win 2).blk t).view.emb (ix2 j d)) = _
  refine congrArg _ (funext fun a => Fin.ext ?_)
  match a with
  | ⟨0, _⟩ => show win3_2.index t (0 : Fin 2) * 2048 + 1 * j.val = t.val * 2048 + j.val; omega
  | ⟨1, _⟩ => show win3_2.index t (1 : Fin 2) * 16 + 1 * d.val = d.val; omega

theorem iblk3_3_at (c : Dev nD) (t : Fin cfg3.N) (j : Fin 2048) :
    iblk3 V c 3 t (ix2 j (0 : Fin 1))
      = (V c (Pipeline.arrRef spec3 3) : S69632x1.Idx → Elt F .f32)
          (ix2 ⟨t.val * 2048 + j.val, by have := t.isLt; have h : cfg3.N = 34 := N_3; have := j.isLt; omega⟩ (0 : Fin 1)) := by
  obtain ⟨-, -, -, -, -, -, e30, e31, -⟩ := idx_facts3 t
  show V c (Pipeline.arrRef spec3 3) (((cfg3.win 3).blk t).view.emb (ix2 j (0 : Fin 1))) = _
  refine congrArg _ (funext fun a => Fin.ext ?_)
  match a with
  | ⟨0, _⟩ => show win3_3.index t (0 : Fin 2) * 2048 + 1 * j.val = t.val * 2048 + j.val; omega
  | ⟨1, _⟩ => show win3_3.index t (1 : Fin 2) * 1 + 1 * 0 = 0; omega

theorem iblk3_4_at (c : Dev nD) (t : Fin cfg3.N) (r : Fin 512) :
    iblk3 V c 4 t (ix2 r (0 : Fin 1)) = (V c (Pipeline.arrRef spec3 4) : S512x1.Idx → Elt F .i32) (ix2 r (0 : Fin 1)) := by
  obtain ⟨-, -, -, -, -, -, -, -, e40, e41, -⟩ := idx_facts3 t
  show V c (Pipeline.arrRef spec3 4) (((cfg3.win 4).blk t).view.emb (ix2 r (0 : Fin 1))) = _
  refine congrArg _ (funext fun a => Fin.ext ?_)
  match a with
  | ⟨0, _⟩ => show win3_4.index t (0 : Fin 2) * 512 + 1 * r.val = r.val; omega
  | ⟨1, _⟩ => show win3_4.index t (1 : Fin 2) * 1 + 1 * 0 = 0; omega

theorem arr3_5_at (c : Dev nD) (κ : Fin 2) (r : Fin 512) (hlt : κ.val * 17 + 16 < cfg3.N) :
    ((dat3 V c).arrAt 5 cfg3.N : S2x512x1.Idx → Elt F .f32) (ix3 κ r (0 : Fin 1))
      = (stAt3 V c (κ.val * 17 + 16) hlt).2.1 (ix2 r (0 : Fin 1)) := by
  let s : (n : ℕ) → n < cfg3.N → Vec F S512x1 .f32 := fun n hn => (stAt3 V c n hn).2.1
  have hN : cfg3.N = 34 := N_3
  have hκ : κ.val < 2 := κ.isLt
  let G : S2x512x1.Idx → Elt F .f32 := fun i =>
    s ((i 0).val * 17 + 16) (by have : (i 0).val < 2 := (i 0).isLt; rw [hN]; omega) (ix2 ⟨(i 1).val, (i 1).isLt⟩ (0 : Fin 1))
  have hG : ∀ t, (cfg3.win 5).flush t = true → (dat3 V c).flushed 5 t = ((cfg3.win 5).blk t).view.read (Elt F) G := by
    intro t hf
    have h9 : t.val % 17 = 16 := (flush3_5 t).mp hf
    obtain ⟨-, -, -, -, -, -, -, -, -, -, e0, e1, e2, -⟩ := idx_facts3 t
    show (cfg3.win 5).cut (grid3.coords t) ((dat3 V c).after 5 t) = _
    rw [after3_5]
    funext y
    obtain ⟨u, p, u', rfl⟩ : ∃ (u : Fin 1) (p : Fin 512) (u' : Fin 1), y = ix3 u p u' := ⟨y 0, y 1, y 2, eq_ix3 y⟩
    have hu : u.val = 0 := by omega
    have hu' : u' = (0 : Fin 1) := Fin.ext (by omega)
    subst hu'
    show k3_pay5 (s t.val t.isLt) (ix3 u p (0 : Fin 1)) = G (((cfg3.win 5).blk t).view.emb (ix3 u p (0 : Fin 1)))
    have h0 : ((((cfg3.win 5).blk t).view.emb (ix3 u p (0 : Fin 1))) 0).val = t.val / 17 := by
      show win3_5.index t (0 : Fin 3) * 1 + 1 * u.val = _; omega
    have h1 : ((((cfg3.win 5).blk t).view.emb (ix3 u p (0 : Fin 1))) 1).val = p.val := by
      show win3_5.index t (1 : Fin 3) * 512 + 1 * p.val = _; omega
    have key : ∀ (n : ℕ) (hn : n < cfg3.N) (q : Fin 512), n = t.val → q = p →
        s n hn (ix2 q (0 : Fin 1)) = s t.val t.isLt (ix2 p (0 : Fin 1)) := by
      intro n hn q hnt hq; subst hnt; subst hq; rfl
    unfold k3_pay5
    rw [shapeCast_ab_1ab_apply]
    exact (key _ _ _ (by rw [h0]; omega) (Fin.ext h1)).symm
  have hf : (cfg3.win 5).flush ⟨κ.val * 17 + 16, hlt⟩ = true :=
    (flush3_5 _).mpr (by show (κ.val * 17 + 16) % 17 = 16; omega)
  obtain ⟨-, -, -, -, -, -, -, -, -, -, e0, e1, e2, -⟩ := idx_facts3 ⟨κ.val * 17 + 16, hlt⟩
  have e : ((cfg3.win 5).blk ⟨κ.val * 17 + 16, hlt⟩).view.emb (ix3 (0 : Fin 1) r (0 : Fin 1)) = ix3 κ r (0 : Fin 1) :=
    funext fun a => Fin.ext (by
      match a with
      | ⟨0, _⟩ => show win3_5.index ⟨κ.val * 17 + 16, hlt⟩ (0 : Fin 3) * 1 + 1 * 0 = κ.val; rw [e0]; show (κ.val * 17 + 16) / 17 * 1 + 1 * 0 = κ.val; omega
      | ⟨1, _⟩ => show win3_5.index ⟨κ.val * 17 + 16, hlt⟩ (1 : Fin 3) * 512 + 1 * r.val = r.val; rw [e1]; omega
      | ⟨2, _⟩ => show win3_5.index ⟨κ.val * 17 + 16, hlt⟩ (2 : Fin 3) * 1 + 1 * 0 = 0; rw [e2])
  have hmem := ((cfg3.win 5).blk ⟨κ.val * 17 + 16, hlt⟩).view.emb_mem_set (ix3 (0 : Fin 1) r (0 : Fin 1))
  rw [e] at hmem
  exact (dat3 V c).arrAt_apply_of_mem 5 G hG cfg3.N ⟨κ.val * 17 + 16, hlt⟩ (ix3 κ r (0 : Fin 1)) hlt hf hmem

theorem arr3_6_at (c : Dev nD) (κ : Fin 2) (r : Fin 512) (hlt : κ.val * 17 + 16 < cfg3.N) :
    ((dat3 V c).arrAt 6 cfg3.N : S2x512x1.Idx → Elt F .f32) (ix3 κ r (0 : Fin 1))
      = (stAt3 V c (κ.val * 17 + 16) hlt).2.2.1 (ix2 r (0 : Fin 1)) := by
  let s : (n : ℕ) → n < cfg3.N → Vec F S512x1 .f32 := fun n hn => (stAt3 V c n hn).2.2.1
  have hN : cfg3.N = 34 := N_3
  have hκ : κ.val < 2 := κ.isLt
  let G : S2x512x1.Idx → Elt F .f32 := fun i =>
    s ((i 0).val * 17 + 16) (by have : (i 0).val < 2 := (i 0).isLt; rw [hN]; omega) (ix2 ⟨(i 1).val, (i 1).isLt⟩ (0 : Fin 1))
  have hG : ∀ t, (cfg3.win 6).flush t = true → (dat3 V c).flushed 6 t = ((cfg3.win 6).blk t).view.read (Elt F) G := by
    intro t hf
    have h9 : t.val % 17 = 16 := (flush3_6 t).mp hf
    obtain ⟨-, -, -, -, -, -, -, -, -, -, -, -, -, e0, e1, e2, -⟩ := idx_facts3 t
    show (cfg3.win 6).cut (grid3.coords t) ((dat3 V c).after 6 t) = _
    rw [after3_6]
    funext y
    obtain ⟨u, p, u', rfl⟩ : ∃ (u : Fin 1) (p : Fin 512) (u' : Fin 1), y = ix3 u p u' := ⟨y 0, y 1, y 2, eq_ix3 y⟩
    have hu : u.val = 0 := by omega
    have hu' : u' = (0 : Fin 1) := Fin.ext (by omega)
    subst hu'
    show k3_pay6 (s t.val t.isLt) (ix3 u p (0 : Fin 1)) = G (((cfg3.win 6).blk t).view.emb (ix3 u p (0 : Fin 1)))
    have h0 : ((((cfg3.win 6).blk t).view.emb (ix3 u p (0 : Fin 1))) 0).val = t.val / 17 := by
      show win3_6.index t (0 : Fin 3) * 1 + 1 * u.val = _; omega
    have h1 : ((((cfg3.win 6).blk t).view.emb (ix3 u p (0 : Fin 1))) 1).val = p.val := by
      show win3_6.index t (1 : Fin 3) * 512 + 1 * p.val = _; omega
    have key : ∀ (n : ℕ) (hn : n < cfg3.N) (q : Fin 512), n = t.val → q = p →
        s n hn (ix2 q (0 : Fin 1)) = s t.val t.isLt (ix2 p (0 : Fin 1)) := by
      intro n hn q hnt hq; subst hnt; subst hq; rfl
    unfold k3_pay6
    rw [shapeCast_ab_1ab_apply]
    exact (key _ _ _ (by rw [h0]; omega) (Fin.ext h1)).symm
  have hf : (cfg3.win 6).flush ⟨κ.val * 17 + 16, hlt⟩ = true :=
    (flush3_6 _).mpr (by show (κ.val * 17 + 16) % 17 = 16; omega)
  obtain ⟨-, -, -, -, -, -, -, -, -, -, -, -, -, e0, e1, e2, -⟩ := idx_facts3 ⟨κ.val * 17 + 16, hlt⟩
  have e : ((cfg3.win 6).blk ⟨κ.val * 17 + 16, hlt⟩).view.emb (ix3 (0 : Fin 1) r (0 : Fin 1)) = ix3 κ r (0 : Fin 1) :=
    funext fun a => Fin.ext (by
      match a with
      | ⟨0, _⟩ => show win3_6.index ⟨κ.val * 17 + 16, hlt⟩ (0 : Fin 3) * 1 + 1 * 0 = κ.val; rw [e0]; show (κ.val * 17 + 16) / 17 * 1 + 1 * 0 = κ.val; omega
      | ⟨1, _⟩ => show win3_6.index ⟨κ.val * 17 + 16, hlt⟩ (1 : Fin 3) * 512 + 1 * r.val = r.val; rw [e1]; omega
      | ⟨2, _⟩ => show win3_6.index ⟨κ.val * 17 + 16, hlt⟩ (2 : Fin 3) * 1 + 1 * 0 = 0; rw [e2])
  have hmem := ((cfg3.win 6).blk ⟨κ.val * 17 + 16, hlt⟩).view.emb_mem_set (ix3 (0 : Fin 1) r (0 : Fin 1))
  rw [e] at hmem
  exact (dat3 V c).arrAt_apply_of_mem 6 G hG cfg3.N ⟨κ.val * 17 + 16, hlt⟩ (ix3 κ r (0 : Fin 1)) hlt hf hmem

theorem arr3_7_at (c : Dev nD) (κ : Fin 2) (r : Fin 512) (hlt : κ.val * 17 + 16 < cfg3.N) :
    ((dat3 V c).arrAt 7 cfg3.N : S2x512x1.Idx → Elt F .f32) (ix3 κ r (0 : Fin 1))
      = (stAt3 V c (κ.val * 17 + 16) hlt).2.2.2 (ix2 r (0 : Fin 1)) := by
  let s : (n : ℕ) → n < cfg3.N → Vec F S512x1 .f32 := fun n hn => (stAt3 V c n hn).2.2.2
  have hN : cfg3.N = 34 := N_3
  have hκ : κ.val < 2 := κ.isLt
  let G : S2x512x1.Idx → Elt F .f32 := fun i =>
    s ((i 0).val * 17 + 16) (by have : (i 0).val < 2 := (i 0).isLt; rw [hN]; omega) (ix2 ⟨(i 1).val, (i 1).isLt⟩ (0 : Fin 1))
  have hG : ∀ t, (cfg3.win 7).flush t = true → (dat3 V c).flushed 7 t = ((cfg3.win 7).blk t).view.read (Elt F) G := by
    intro t hf
    have h9 : t.val % 17 = 16 := (flush3_7 t).mp hf
    obtain ⟨-, -, -, -, -, -, -, -, -, -, -, -, -, -, -, -, e0, e1, e2⟩ := idx_facts3 t
    show (cfg3.win 7).cut (grid3.coords t) ((dat3 V c).after 7 t) = _
    rw [after3_7]
    funext y
    obtain ⟨u, p, u', rfl⟩ : ∃ (u : Fin 1) (p : Fin 512) (u' : Fin 1), y = ix3 u p u' := ⟨y 0, y 1, y 2, eq_ix3 y⟩
    have hu : u.val = 0 := by omega
    have hu' : u' = (0 : Fin 1) := Fin.ext (by omega)
    subst hu'
    show k3_pay7 (s t.val t.isLt) (ix3 u p (0 : Fin 1)) = G (((cfg3.win 7).blk t).view.emb (ix3 u p (0 : Fin 1)))
    have h0 : ((((cfg3.win 7).blk t).view.emb (ix3 u p (0 : Fin 1))) 0).val = t.val / 17 := by
      show win3_7.index t (0 : Fin 3) * 1 + 1 * u.val = _; omega
    have h1 : ((((cfg3.win 7).blk t).view.emb (ix3 u p (0 : Fin 1))) 1).val = p.val := by
      show win3_7.index t (1 : Fin 3) * 512 + 1 * p.val = _; omega
    have key : ∀ (n : ℕ) (hn : n < cfg3.N) (q : Fin 512), n = t.val → q = p →
        s n hn (ix2 q (0 : Fin 1)) = s t.val t.isLt (ix2 p (0 : Fin 1)) := by
      intro n hn q hnt hq; subst hnt; subst hq; rfl
    unfold k3_pay7
    rw [shapeCast_ab_1ab_apply]
    exact (key _ _ _ (by rw [h0]; omega) (Fin.ext h1)).symm
  have hf : (cfg3.win 7).flush ⟨κ.val * 17 + 16, hlt⟩ = true :=
    (flush3_7 _).mpr (by show (κ.val * 17 + 16) % 17 = 16; omega)
  obtain ⟨-, -, -, -, -, -, -, -, -, -, -, -, -, -, -, -, e0, e1, e2⟩ := idx_facts3 ⟨κ.val * 17 + 16, hlt⟩
  have e : ((cfg3.win 7).blk ⟨κ.val * 17 + 16, hlt⟩).view.emb (ix3 (0 : Fin 1) r (0 : Fin 1)) = ix3 κ r (0 : Fin 1) :=
    funext fun a => Fin.ext (by
      match a with
      | ⟨0, _⟩ => show win3_7.index ⟨κ.val * 17 + 16, hlt⟩ (0 : Fin 3) * 1 + 1 * 0 = κ.val; rw [e0]; show (κ.val * 17 + 16) / 17 * 1 + 1 * 0 = κ.val; omega
      | ⟨1, _⟩ => show win3_7.index ⟨κ.val * 17 + 16, hlt⟩ (1 : Fin 3) * 512 + 1 * r.val = r.val; rw [e1]; omega
      | ⟨2, _⟩ => show win3_7.index ⟨κ.val * 17 + 16, hlt⟩ (2 : Fin 3) * 1 + 1 * 0 = 0; rw [e2])
  have hmem := ((cfg3.win 7).blk ⟨κ.val * 17 + 16, hlt⟩).view.emb_mem_set (ix3 (0 : Fin 1) r (0 : Fin 1))
  rw [e] at hmem
  exact (dat3 V c).arrAt_apply_of_mem 7 G hG cfg3.N ⟨κ.val * 17 + 16, hlt⟩ (ix3 κ r (0 : Fin 1)) hlt hf hmem

end

end Cert.KernelIdeal.Hand

end
-- ==== Proof.RegionSix3.lean ====
import proofs.«412644_j75642964017948_3_alg».proof.Proof.RowState3
import proofs.«412644_j75642964017948_3_alg».proof.Proof.RowMerge
import proofs.«412644_j75642964017948_3_alg».proof.Proof.Frame3Arr
import proofs.«412644_j75642964017948_3_alg».proof.Proof.GluePostDefs

set_option maxRecDepth 16384

noncomputable section

namespace Cert.Hand.Row3

open Cert.KernelIdeal Cert.KernelIdeal.Gen Cert.KernelIdeal.Hand Cert.Hand.LSE Cert.Hand.GluePost
open Idealize.ShloMosaic Idealize.ShloMosaic.TcCoe Idealize.ShloMosaic.ValueIdx
open Idealize.SL Idealize.SL.Sem

section
variable (V : (c : Dev nD) → (b : Ref sig .tc) → Buf (Elt Ideal) ((c : Thread nD τ).loc b)) (c : Dev nD)

theorem blkReads3 : BlkReads3 V c where
  rX := fun t r k => iblk3_0_at V c t r k
  rP := fun t k d => iblk3_1_at V c t k d
  rW := fun t j d => iblk3_2_at V c t j d
  rB := fun t j => iblk3_3_at V c t j
  rT := fun t r => iblk3_4_at V c t r

abbrev six3At (r : Fin 512) : Six :=
  sixAt ((dat3 V c).arrAt 5 cfg3.N : S2x512x1.Idx → EReal) ((dat3 V c).arrAt 6 cfg3.N : S2x512x1.Idx → EReal)
    ((dat3 V c).arrAt 7 cfg3.N : S2x512x1.Idx → EReal) r

theorem six3 (r : Fin 512) (x : Fin 67735 → ℝ)
    (hx : ∀ j : Fin 67735, logit3 V c r (pad3 j) = ((x j : ℝ) : EReal))
    (htg : (T3 V c (ix2 r (0 : Fin 1)) : BitVec 32).toNat < 67735) :
    ESumm Finset.univ x (six3At V c r).st.1 (six3At V c r).st.2 ∧
      (six3At V c r).acc = ((x ⟨(T3 V c (ix2 r (0 : Fin 1)) : BitVec 32).toNat, htg⟩ : ℝ) : EReal) := by
  have h₀ : 16 < cfg3.N := by rw [show cfg3.N = 34 from N_3]; norm_num
  have h₁ : 33 < cfg3.N := by rw [show cfg3.N = 34 from N_3]; norm_num
  have hs : six3At V c r
      = ⟨(stAt3 V c 16 h₀).2.1 (ix2 r (0 : Fin 1)), (stAt3 V c 33 h₁).2.1 (ix2 r (0 : Fin 1)),
         (stAt3 V c 16 h₀).2.2.1 (ix2 r (0 : Fin 1)), (stAt3 V c 33 h₁).2.2.1 (ix2 r (0 : Fin 1)),
         (stAt3 V c 16 h₀).2.2.2 (ix2 r (0 : Fin 1)), (stAt3 V c 33 h₁).2.2.2 (ix2 r (0 : Fin 1))⟩ := by
    show sixAt _ _ _ r = _
    unfold sixAt
    rw [arr3_5_at V c (0 : Fin 2) r h₀, arr3_5_at V c (1 : Fin 2) r h₁, arr3_6_at V c (0 : Fin 2) r h₀,
      arr3_6_at V c (1 : Fin 2) r h₁, arr3_7_at V c (0 : Fin 2) r h₀, arr3_7_at V c (1 : Fin 2) r h₁]
    rfl
  have hw := RowInv.whole (by norm_num : 34816 ≤ 69632) (by norm_num : 67735 ≤ 69632) (by norm_num)
    (rowCore0_3 (blkReads3 V c) r x hx htg h₀) (rowCore1_3 (blkReads3 V c) r x hx htg h₁)
  rw [hs]
  exact ⟨hw.1, hw.2.1 htg⟩

end

end Cert.Hand.Row3
-- ==== Proof.KerSix.lean ====
import proofs.«412644_j75642964017948_3_alg».proof.Proof.FrameOuts
import proofs.«412644_j75642964017948_3_alg».proof.Proof.RegionSix0
import proofs.«412644_j75642964017948_3_alg».proof.Proof.RegionSix1
import proofs.«412644_j75642964017948_3_alg».proof.Proof.RegionSix2
import proofs.«412644_j75642964017948_3_alg».proof.Proof.RegionSix3
import proofs.«412644_j75642964017948_3_alg».proof.Proof.GluePostDefs

set_option maxRecDepth 16384

noncomputable section

namespace Cert.Hand.KerMain

open Cert.KernelIdeal Cert.KernelIdeal.Gen Cert.KernelIdeal.Hand
open Idealize.ShloMosaic Idealize.ShloMosaic.TcCoe Idealize.SL.Sem
open Idealize.ShloMosaic.ValueIdx
open Cert.Hand.GluePost

variable (m : (ℓ : Loc nD τ sig) → Buf (Elt Ideal) ℓ)

theorem six0_eq (c : Dev nD) (r : Fin 512) :
    sixAt (outsW m 14 main_v38_0 c) (outsW m 14 main_v38_1 c) (outsW m 14 main_v38_2 c) r
      = Cert.Hand.Row0.six0At (fun c b => V13 m c b) c r := by

  have e5 : (outsW m 14 main_v38_0 c : S2x512x1.Idx → EReal) = ((dat0 (fun c b => V13 m c b) c).arrAt 5 cfg0.N : S2x512x1.Idx → EReal) := by
    show W14 m c (Proc.devRef .tc main_v38_0) = _
    unfold W14
    exact Pipeline.withArrays_arr spec0 launch0.win.arr_inj c _ _ 5
  have e6 : (outsW m 14 main_v38_1 c : S2x512x1.Idx → EReal) = ((dat0 (fun c b => V13 m c b) c).arrAt 6 cfg0.N : S2x512x1.Idx → EReal) := by
    show W14 m c (Proc.devRef .tc main_v38_1) = _
    unfold W14
    exact Pipeline.withArrays_arr spec0 launch0.win.arr_inj c _ _ 6
  have e7 : (outsW m 14 main_v38_2 c : S2x512x1.Idx → EReal) = ((dat0 (fun c b => V13 m c b) c).arrAt 7 cfg0.N : S2x512x1.Idx → EReal) := by
    show W14 m c (Proc.devRef .tc main_v38_2) = _
    unfold W14
    exact Pipeline.withArrays_arr spec0 launch0.win.arr_inj c _ _ 7
  unfold Cert.Hand.Row0.six0At
  rw [← e5, ← e6, ← e7]

theorem six1_eq (c : Dev nD) (r : Fin 512) :
    sixAt (outsW m 16 main_v88_0 c) (outsW m 16 main_v88_1 c) (outsW m 16 main_v88_2 c) r
      = Cert.Hand.Row1.six1At (fun c b => V15 m (outsW m) c b) c r := by
  have e : (fun (c : Dev nD) (b : Ref sig .tc) => V15 m (outsW m) c b) = fun (c : Dev nD) (b : Ref sig .tc) => W15 m c b := by funext c b; rw [V15_eq]
  rw [e]
  have e5 : (outsW m 16 main_v88_0 c : S2x512x1.Idx → EReal) = ((dat1 (fun (c : Dev nD) (b : Ref sig .tc) => W15 m c b) c).arrAt 5 cfg1.N : S2x512x1.Idx → EReal) := by
    show W16 m c (Proc.devRef .tc main_v88_0) = _
    unfold W16
    exact Pipeline.withArrays_arr spec1 launch1.win.arr_inj c _ _ 5
  have e6 : (outsW m 16 main_v88_1 c : S2x512x1.Idx → EReal) = ((dat1 (fun (c : Dev nD) (b : Ref sig .tc) => W15 m c b) c).arrAt 6 cfg1.N : S2x512x1.Idx → EReal) := by
    show W16 m c (Proc.devRef .tc main_v88_1) = _
    unfold W16
    exact Pipeline.withArrays_arr spec1 launch1.win.arr_inj c _ _ 6
  have e7 : (outsW m 16 main_v88_2 c : S2x512x1.Idx → EReal) = ((dat1 (fun (c : Dev nD) (b : Ref sig .tc) => W15 m c b) c).arrAt 7 cfg1.N : S2x512x1.Idx → EReal) := by
    show W16 m c (Proc.devRef .tc main_v88_2) = _
    unfold W16
    exact Pipeline.withArrays_arr spec1 launch1.win.arr_inj c _ _ 7
  unfold Cert.Hand.Row1.six1At
  rw [← e5, ← e6, ← e7]

theorem six2_eq (c : Dev nD) (r : Fin 512) :
    sixAt (outsW m 18 main_v118_0 c) (outsW m 18 main_v118_1 c) (outsW m 18 main_v118_2 c) r
      = Cert.Hand.Row2.six2At (fun c b => V17 m (outsW m) c b) c r := by
  have e : (fun (c : Dev nD) (b : Ref sig .tc) => V17 m (outsW m) c b) = fun (c : Dev nD) (b : Ref sig .tc) => W17 m c b := by funext c b; rw [V17_eq]
  rw [e]
  have e5 : (outsW m 18 main_v118_0 c : S2x512x1.Idx → EReal) = ((dat2 (fun (c : Dev nD) (b : Ref sig .tc) => W17 m c b) c).arrAt 5 cfg2.N : S2x512x1.Idx → EReal) := by
    show W18 m c (Proc.devRef .tc main_v118_0) = _
    unfold W18
    exact Pipeline.withArrays_arr spec2 launch2.win.arr_inj c _ _ 5
  have e6 : (outsW m 18 main_v118_1 c : S2x512x1.Idx → EReal) = ((dat2 (fun (c : Dev nD) (b : Ref sig .tc) => W17 m c b) c).arrAt 6 cfg2.N : S2x512x1.Idx → EReal) := by
    show W18 m c (Proc.devRef .tc main_v118_1) = _
    unfold W18
    exact Pipeline.withArrays_arr spec2 launch2.win.arr_inj c _ _ 6
  have e7 : (outsW m 18 main_v118_2 c : S2x512x1.Idx → EReal) = ((dat2 (fun (c : Dev nD) (b : Ref sig .tc) => W17 m c b) c).arrAt 7 cfg2.N : S2x512x1.Idx → EReal) := by
    show W18 m c (Proc.devRef .tc main_v118_2) = _
    unfold W18
    exact Pipeline.withArrays_arr spec2 launch2.win.arr_inj c _ _ 7
  unfold Cert.Hand.Row2.six2At
  rw [← e5, ← e6, ← e7]

theorem six3_eq (c : Dev nD) (r : Fin 512) :
    sixAt (outsW m 20 main_v152_0 c) (outsW m 20 main_v152_1 c) (outsW m 20 main_v152_2 c) r
      = Cert.Hand.Row3.six3At (fun c b => V19 m (outsW m) c b) c r := by
  have e : (fun (c : Dev nD) (b : Ref sig .tc) => V19 m (outsW m) c b) = fun (c : Dev nD) (b : Ref sig .tc) => W19 m c b := by funext c b; rw [V19_eq]
  rw [e]
  have e5 : (outsW m 20 main_v152_0 c : S2x512x1.Idx → EReal) = ((dat3 (fun (c : Dev nD) (b : Ref sig .tc) => W19 m c b) c).arrAt 5 cfg3.N : S2x512x1.Idx → EReal) := by
    show W20 m c (Proc.devRef .tc main_v152_0) = _
    unfold W20
    exact Pipeline.withArrays_arr spec3 launch3.win.arr_inj c _ _ 5
  have e6 : (outsW m 20 main_v152_1 c : S2x512x1.Idx → EReal) = ((dat3 (fun (c : Dev nD) (b : Ref sig .tc) => W19 m c b) c).arrAt 6 cfg3.N : S2x512x1.Idx → EReal) := by
    show W20 m c (Proc.devRef .tc main_v152_1) = _
    unfold W20
    exact Pipeline.withArrays_arr spec3 launch3.win.arr_inj c _ _ 6
  have e7 : (outsW m 20 main_v152_2 c : S2x512x1.Idx → EReal) = ((dat3 (fun (c : Dev nD) (b : Ref sig .tc) => W19 m c b) c).arrAt 7 cfg3.N : S2x512x1.Idx → EReal) := by
    show W20 m c (Proc.devRef .tc main_v152_2) = _
    unfold W20
    exact Pipeline.withArrays_arr spec3 launch3.win.arr_inj c _ _ 7
  unfold Cert.Hand.Row3.six3At
  rw [← e5, ← e6, ← e7]

end Cert.Hand.KerMain

end
-- ==== Proof.GluePost1.lean ====
import proofs.«412644_j75642964017948_3_alg».proof.Proof.GluePostDefs

set_option maxRecDepth 1856

noncomputable section

namespace Cert.Hand.GluePost

open Idealize.ShloMosaic Idealize.ShloMosaic.TcCoe
open Idealize.ShloMosaic.ValueIdx
open Cert.KernelIdeal Cert.KernelIdeal.Gen
open scoped BigOperators

section Chunks
variable {F : FTy → Type} [FloatOps F] [Named F]
abbrev opsA : List (HloOp τ sig (Elt F)) :=
  [ StableHlo.unary main_v38_0 main_v39 ((extractStridedSlice S1x512x1 ![0, 0, 0] · slices_S2x512x1_S1x512x1_0_0_0) : (⟨S2x512x1, .f32⟩ : BufTy).Contents (Elt F) → (⟨S1x512x1, .f32⟩ : BufTy).Contents (Elt F)),
    StableHlo.reshape main_v39 main_v40 rfl shapeCasts_S1x512x1_S512x1,
    StableHlo.unary main_v38_0 main_v41 ((extractStridedSlice S1x512x1 ![1, 0, 0] · slices_S2x512x1_S1x512x1_1_0_0) : (⟨S2x512x1, .f32⟩ : BufTy).Contents (Elt F) → (⟨S1x512x1, .f32⟩ : BufTy).Contents (Elt F)),
    StableHlo.reshape main_v41 main_v42 rfl shapeCasts_S1x512x1_S512x1,
    StableHlo.unary main_v38_1 main_v43 ((extractStridedSlice S1x512x1 ![0, 0, 0] · slices_S2x512x1_S1x512x1_0_0_0) : (⟨S2x512x1, .f32⟩ : BufTy).Contents (Elt F) → (⟨S1x512x1, .f32⟩ : BufTy).Contents (Elt F)),
    StableHlo.reshape main_v43 main_v44 rfl shapeCasts_S1x512x1_S512x1,
    StableHlo.unary main_v38_1 main_v45 ((extractStridedSlice S1x512x1 ![1, 0, 0] · slices_S2x512x1_S1x512x1_1_0_0) : (⟨S2x512x1, .f32⟩ : BufTy).Contents (Elt F) → (⟨S1x512x1, .f32⟩ : BufTy).Contents (Elt F)),
    StableHlo.reshape main_v45 main_v46 rfl shapeCasts_S1x512x1_S512x1,
    StableHlo.unary main_v38_2 main_v47 ((extractStridedSlice S1x512x1 ![0, 0, 0] · slices_S2x512x1_S1x512x1_0_0_0) : (⟨S2x512x1, .f32⟩ : BufTy).Contents (Elt F) → (⟨S1x512x1, .f32⟩ : BufTy).Contents (Elt F)),
    StableHlo.reshape main_v47 main_v48 rfl shapeCasts_S1x512x1_S512x1,
    StableHlo.unary main_v38_2 main_v49 ((extractStridedSlice S1x512x1 ![1, 0, 0] · slices_S2x512x1_S1x512x1_1_0_0) : (⟨S2x512x1, .f32⟩ : BufTy).Contents (Elt F) → (⟨S1x512x1, .f32⟩ : BufTy).Contents (Elt F)),
    StableHlo.reshape main_v49 main_v50 rfl shapeCasts_S1x512x1_S512x1,
    StableHlo.binary main_v40 main_v42 main_v51 (maximumf : (⟨S512x1, .f32⟩ : BufTy).Contents (Elt F) → (⟨S512x1, .f32⟩ : BufTy).Contents (Elt F) → (⟨S512x1, .f32⟩ : BufTy).Contents (Elt F)),
    StableHlo.binary main_v40 main_v51 main_v52 (subf : (⟨S512x1, .f32⟩ : BufTy).Contents (Elt F) → (⟨S512x1, .f32⟩ : BufTy).Contents (Elt F) → (⟨S512x1, .f32⟩ : BufTy).Contents (Elt F)),
    StableHlo.unary main_v52 main_v53 (Host.exp : (⟨S512x1, .f32⟩ : BufTy).Contents (Elt F) → (⟨S512x1, .f32⟩ : BufTy).Contents (Elt F)),
    StableHlo.binary main_v44 main_v53 main_v54 (mulf : (⟨S512x1, .f32⟩ : BufTy).Contents (Elt F) → (⟨S512x1, .f32⟩ : BufTy).Contents (Elt F) → (⟨S512x1, .f32⟩ : BufTy).Contents (Elt F)),
    StableHlo.binary main_v42 main_v51 main_v55 (subf : (⟨S512x1, .f32⟩ : BufTy).Contents (Elt F) → (⟨S512x1, .f32⟩ : BufTy).Contents (Elt F) → (⟨S512x1, .f32⟩ : BufTy).Contents (Elt F)),
    StableHlo.unary main_v55 main_v56 (Host.exp : (⟨S512x1, .f32⟩ : BufTy).Contents (Elt F) → (⟨S512x1, .f32⟩ : BufTy).Contents (Elt F)),
    StableHlo.binary main_v46 main_v56 main_v57 (mulf : (⟨S512x1, .f32⟩ : BufTy).Contents (Elt F) → (⟨S512x1, .f32⟩ : BufTy).Contents (Elt F) → (⟨S512x1, .f32⟩ : BufTy).Contents (Elt F)),
    StableHlo.binary main_v54 main_v57 main_v58 (addf : (⟨S512x1, .f32⟩ : BufTy).Contents (Elt F) → (⟨S512x1, .f32⟩ : BufTy).Contents (Elt F) → (⟨S512x1, .f32⟩ : BufTy).Contents (Elt F)),
    StableHlo.binary main_v48 main_v50 main_v59 (addf : (⟨S512x1, .f32⟩ : BufTy).Contents (Elt F) → (⟨S512x1, .f32⟩ : BufTy).Contents (Elt F) → (⟨S512x1, .f32⟩ : BufTy).Contents (Elt F)) ]
abbrev opsB : List (HloOp τ sig (Elt F)) :=
  [ StableHlo.binary main_v4 main_arg2 main_v60 ((fun l r => Host.dotGeneral dot_S512x1024_S1024x1024_S512x1024_1_0_0_1_n_n none l r) : (⟨S512x1024, .f32⟩ : BufTy).Contents (Elt F) → (⟨S1024x1024, .f32⟩ : BufTy).Contents (Elt F) → (⟨S512x1024, .f32⟩ : BufTy).Contents (Elt F)),
    StableHlo.unary main_arg14 main_v61 ((transpose S1024x3 [1, 0] · transposes_S3x1024_S1024x3_1_0) : (⟨S3x1024, .f32⟩ : BufTy).Contents (Elt F) → (⟨S1024x3, .f32⟩ : BufTy).Contents (Elt F)),
    StableHlo.binary main_v60 main_v61 main_v62 ((fun l r => Host.dotGeneral dot_S512x1024_S1024x3_S512x3_1_0_0_1_n_n none l r) : (⟨S512x1024, .f32⟩ : BufTy).Contents (Elt F) → (⟨S1024x3, .f32⟩ : BufTy).Contents (Elt F) → (⟨S512x3, .f32⟩ : BufTy).Contents (Elt F)),
    StableHlo.unary main_arg15 main_v63 (broadcastInDim S1x3 ![1] bcast_S3_S1x3_1 : (⟨S3, .f32⟩ : BufTy).Contents (Elt F) → (⟨S1x3, .f32⟩ : BufTy).Contents (Elt F)),
    StableHlo.unary main_v63 main_v64 (broadcastInDim S512x3 ![0, 1] bcast_S1x3_S512x3_0_1 : (⟨S1x3, .f32⟩ : BufTy).Contents (Elt F) → (⟨S512x3, .f32⟩ : BufTy).Contents (Elt F)),
    StableHlo.binary main_v62 main_v64 main_v65 (addf : (⟨S512x3, .f32⟩ : BufTy).Contents (Elt F) → (⟨S512x3, .f32⟩ : BufTy).Contents (Elt F) → (⟨S512x3, .f32⟩ : BufTy).Contents (Elt F)) ]
abbrev opsC : List (HloOp τ sig (Elt F)) :=
  [ StableHlo.nullary main_cst (constant S_ .f32 0xFF800000#32),
    StableHlo.binary main_v65 main_cst main_v66 ((fun x v => Host.reduce FloatOps.maximumf x v reducesTo_S512x3_S512_d1 h_S_) : (⟨S512x3, .f32⟩ : BufTy).Contents (Elt F) → (⟨S_, .f32⟩ : BufTy).Contents (Elt F) → (⟨S512, .f32⟩ : BufTy).Contents (Elt F)),
    StableHlo.unary main_v66 main_v67 (broadcastInDim S512x1 ![0] bcast_S512_S512x1_0 : (⟨S512, .f32⟩ : BufTy).Contents (Elt F) → (⟨S512x1, .f32⟩ : BufTy).Contents (Elt F)),
    StableHlo.unary main_v67 main_v68 (broadcastInDim S512x3 ![0, 1] bcast_S512x1_S512x3_0_1 : (⟨S512x1, .f32⟩ : BufTy).Contents (Elt F) → (⟨S512x3, .f32⟩ : BufTy).Contents (Elt F)),
    StableHlo.binary main_v65 main_v68 main_v69 (subf : (⟨S512x3, .f32⟩ : BufTy).Contents (Elt F) → (⟨S512x3, .f32⟩ : BufTy).Contents (Elt F) → (⟨S512x3, .f32⟩ : BufTy).Contents (Elt F)),
    StableHlo.unary main_v69 main_v70 (Host.exp : (⟨S512x3, .f32⟩ : BufTy).Contents (Elt F) → (⟨S512x3, .f32⟩ : BufTy).Contents (Elt F)),
    StableHlo.nullary main_cst_18 (constant S_ .f32 0x00000000#32),
    StableHlo.binary main_v70 main_cst_18 main_v71 ((fun x v => Host.reduceAdd x v reducesTo_S512x3_S512_d1 h_S_) : (⟨S512x3, .f32⟩ : BufTy).Contents (Elt F) → (⟨S_, .f32⟩ : BufTy).Contents (Elt F) → (⟨S512, .f32⟩ : BufTy).Contents (Elt F)),
    StableHlo.unary main_v71 main_v72 (broadcastInDim S512x1 ![0] bcast_S512_S512x1_0 : (⟨S512, .f32⟩ : BufTy).Contents (Elt F) → (⟨S512x1, .f32⟩ : BufTy).Contents (Elt F)) ]
abbrev opsD : List (HloOp τ sig (Elt F)) :=
  [ StableHlo.binary main_v51 main_v67 main_v73 (maximumf : (⟨S512x1, .f32⟩ : BufTy).Contents (Elt F) → (⟨S512x1, .f32⟩ : BufTy).Contents (Elt F) → (⟨S512x1, .f32⟩ : BufTy).Contents (Elt F)),
    StableHlo.binary main_v51 main_v73 main_v74 (subf : (⟨S512x1, .f32⟩ : BufTy).Contents (Elt F) → (⟨S512x1, .f32⟩ : BufTy).Contents (Elt F) → (⟨S512x1, .f32⟩ : BufTy).Contents (Elt F)),
    StableHlo.unary main_v74 main_v75 (Host.exp : (⟨S512x1, .f32⟩ : BufTy).Contents (Elt F) → (⟨S512x1, .f32⟩ : BufTy).Contents (Elt F)),
    StableHlo.binary main_v58 main_v75 main_v76 (mulf : (⟨S512x1, .f32⟩ : BufTy).Contents (Elt F) → (⟨S512x1, .f32⟩ : BufTy).Contents (Elt F) → (⟨S512x1, .f32⟩ : BufTy).Contents (Elt F)),
    StableHlo.binary main_v67 main_v73 main_v77 (subf : (⟨S512x1, .f32⟩ : BufTy).Contents (Elt F) → (⟨S512x1, .f32⟩ : BufTy).Contents (Elt F) → (⟨S512x1, .f32⟩ : BufTy).Contents (Elt F)),
    StableHlo.unary main_v77 main_v78 (Host.exp : (⟨S512x1, .f32⟩ : BufTy).Contents (Elt F) → (⟨S512x1, .f32⟩ : BufTy).Contents (Elt F)),
    StableHlo.binary main_v72 main_v78 main_v79 (mulf : (⟨S512x1, .f32⟩ : BufTy).Contents (Elt F) → (⟨S512x1, .f32⟩ : BufTy).Contents (Elt F) → (⟨S512x1, .f32⟩ : BufTy).Contents (Elt F)),
    StableHlo.binary main_v76 main_v79 main_v80 (addf : (⟨S512x1, .f32⟩ : BufTy).Contents (Elt F) → (⟨S512x1, .f32⟩ : BufTy).Contents (Elt F) → (⟨S512x1, .f32⟩ : BufTy).Contents (Elt F)),
    StableHlo.unary main_v80 main_v81 (Host.log : (⟨S512x1, .f32⟩ : BufTy).Contents (Elt F) → (⟨S512x1, .f32⟩ : BufTy).Contents (Elt F)),
    StableHlo.binary main_v73 main_v81 main_v82 (addf : (⟨S512x1, .f32⟩ : BufTy).Contents (Elt F) → (⟨S512x1, .f32⟩ : BufTy).Contents (Elt F) → (⟨S512x1, .f32⟩ : BufTy).Contents (Elt F)),
    StableHlo.binary main_v59 main_v82 main_v83 (subf : (⟨S512x1, .f32⟩ : BufTy).Contents (Elt F) → (⟨S512x1, .f32⟩ : BufTy).Contents (Elt F) → (⟨S512x1, .f32⟩ : BufTy).Contents (Elt F)),
    StableHlo.reshape main_v83 main_v84 rfl shapeCasts_S512x1_S512,
    StableHlo.unary main_v82 main_v85 (broadcastInDim S512x3 ![0, 1] bcast_S512x1_S512x3_0_1 : (⟨S512x1, .f32⟩ : BufTy).Contents (Elt F) → (⟨S512x3, .f32⟩ : BufTy).Contents (Elt F)),
    StableHlo.binary main_v65 main_v85 main_v86 (subf : (⟨S512x3, .f32⟩ : BufTy).Contents (Elt F) → (⟨S512x3, .f32⟩ : BufTy).Contents (Elt F) → (⟨S512x3, .f32⟩ : BufTy).Contents (Elt F)),
    StableHlo.reshape main_arg7 main_v87 rfl shapeCasts_S20000_S20000x1 ]
theorem hostOps1_split : (hostOps1 : List (HloOp τ sig (Elt F))) = opsA ++ (opsB ++ (opsC ++ opsD)) := rfl
end Chunks

variable (m : (ℓ : Loc nD τ sig) → Buf (Elt Ideal) ℓ) (outs : Outs (F := Ideal))

def WA (c : Dev nD) : Valuation τ sig (Elt Ideal) := StableHlo.after opsA (V14 m outs c)

def WB (c : Dev nD) : Valuation τ sig (Elt Ideal) := StableHlo.after opsB (WA m outs c)

def WC (c : Dev nD) : Valuation τ sig (Elt Ideal) := StableHlo.after opsC (WB m outs c)

theorem V15_eq (c : Dev nD) : V15 m outs c = StableHlo.after opsD (WC m outs c) := by
  show StableHlo.after hostOps1 _ = _
  rw [hostOps1_split, StableHlo.after_append, StableHlo.after_append, StableHlo.after_append]
  rfl

theorem V14_v38_0 (c : Dev nD) : V14 m outs c main_v38_0 = outs 14 main_v38_0 c := by
  simp only [V14, Function.update_of_ne (StableHlo.devRef_ne_of_ne (by decide : main_v38_0 ≠ main_v38_2) : (Proc.devRef .tc main_v38_0 : DevRef τ sig) ≠ Proc.devRef .tc main_v38_2), Function.update_of_ne (StableHlo.devRef_ne_of_ne (by decide : main_v38_0 ≠ main_v38_1) : (Proc.devRef .tc main_v38_0 : DevRef τ sig) ≠ Proc.devRef .tc main_v38_1), Function.update_self]
theorem V14_v38_1 (c : Dev nD) : V14 m outs c main_v38_1 = outs 14 main_v38_1 c := by
  simp only [V14, Function.update_of_ne (StableHlo.devRef_ne_of_ne (by decide : main_v38_1 ≠ main_v38_2) : (Proc.devRef .tc main_v38_1 : DevRef τ sig) ≠ Proc.devRef .tc main_v38_2), Function.update_self]
theorem V14_v38_2 (c : Dev nD) : V14 m outs c main_v38_2 = outs 14 main_v38_2 c := by
  simp only [V14, Function.update_self]

abbrev head (c : Dev nD) (n : Fin 512) : Six := sixAt (outs 14 main_v38_0 c) (outs 14 main_v38_1 c) (outs 14 main_v38_2 c) n

theorem WA_v51 (c : Dev nD) (n : Fin 512) :
    (WA m outs c main_v51 : S512x1.Idx → EReal) (ix2 n 0) = (head outs c n).st.1 := by
  show (StableHlo.after opsA (V14 m outs c) (Proc.devRef .tc main_v51) : S512x1.Idx → EReal) (ix2 n 0) = _
  after_results
  rw [maximumf_apply]
  dsimp only
  erw [read_core0, read_core1, V14_v38_0]
  rfl

theorem WA_v58 (c : Dev nD) (n : Fin 512) :
    (WA m outs c main_v58 : S512x1.Idx → EReal) (ix2 n 0) = (head outs c n).st.2 := by
  show (StableHlo.after opsA (V14 m outs c) (Proc.devRef .tc main_v58) : S512x1.Idx → EReal) (ix2 n 0) = _
  after_results
  simp only [maximumf_apply, addf_apply, mulf_apply, subf_apply, hexp_apply]
  erw [read_core0, read_core1, read_core0, read_core1, V14_v38_0, V14_v38_1]
  rfl

theorem WA_v59 (c : Dev nD) (n : Fin 512) :
    (WA m outs c main_v59 : S512x1.Idx → EReal) (ix2 n 0) = (head outs c n).acc := by
  show (StableHlo.after opsA (V14 m outs c) (Proc.devRef .tc main_v59) : S512x1.Idx → EReal) (ix2 n 0) = _
  after_results
  rw [addf_apply]
  dsimp only
  erw [read_core0, read_core1, V14_v38_2]
  rfl

theorem WA_v4 (c : Dev nD) : WA m outs c main_v4 = V13 m c main_v4 := by
  refine Eq.trans ?_ (V14_of m outs c main_v4 (by decide))
  show StableHlo.after opsA (V14 m outs c) (Proc.devRef .tc main_v4) = _
  after_results
theorem WA_arg2 (c : Dev nD) : WA m outs c main_arg2 = m ((c : Thread nD τ).loc main_arg2) := by
  refine Eq.trans ?_ ((V14_of m outs c main_arg2 (by decide)).trans <| (V13_of m c main_arg2 (by decide)).trans <| (V12_of m c main_arg2 (by decide)).trans <| (V11_of m c main_arg2 (by decide)).trans <| (V10_of m c main_arg2 (by decide)).trans <| (V9_of m c main_arg2 (by decide)).trans <| (V8_of m c main_arg2 (by decide)).trans <| (V7_of m c main_arg2 (by decide)).trans <| (V6_of m c main_arg2 (by decide)).trans <| (V5_of m c main_arg2 (by decide)).trans <| (V4_of m c main_arg2 (by decide)).trans <| (V3_of m c main_arg2 (by decide)).trans <| (V2_of m c main_arg2 (by decide)).trans <| (V1_of m c main_arg2 (by decide)))
  show StableHlo.after opsA (V14 m outs c) (Proc.devRef .tc main_arg2) = _
  after_results
theorem WA_arg14 (c : Dev nD) : WA m outs c main_arg14 = m ((c : Thread nD τ).loc main_arg14) := by
  refine Eq.trans ?_ ((V14_of m outs c main_arg14 (by decide)).trans <| (V13_of m c main_arg14 (by decide)).trans <| (V12_of m c main_arg14 (by decide)).trans <| (V11_of m c main_arg14 (by decide)).trans <| (V10_of m c main_arg14 (by decide)).trans <| (V9_of m c main_arg14 (by decide)).trans <| (V8_of m c main_arg14 (by decide)).trans <| (V7_of m c main_arg14 (by decide)).trans <| (V6_of m c main_arg14 (by decide)).trans <| (V5_of m c main_arg14 (by decide)).trans <| (V4_of m c main_arg14 (by decide)).trans <| (V3_of m c main_arg14 (by decide)).trans <| (V2_of m c main_arg14 (by decide)).trans <| (V1_of m c main_arg14 (by decide)))
  show StableHlo.after opsA (V14 m outs c) (Proc.devRef .tc main_arg14) = _
  after_results
theorem WA_arg15 (c : Dev nD) : WA m outs c main_arg15 = m ((c : Thread nD τ).loc main_arg15) := by
  refine Eq.trans ?_ ((V14_of m outs c main_arg15 (by decide)).trans <| (V13_of m c main_arg15 (by decide)).trans <| (V12_of m c main_arg15 (by decide)).trans <| (V11_of m c main_arg15 (by decide)).trans <| (V10_of m c main_arg15 (by decide)).trans <| (V9_of m c main_arg15 (by decide)).trans <| (V8_of m c main_arg15 (by decide)).trans <| (V7_of m c main_arg15 (by decide)).trans <| (V6_of m c main_arg15 (by decide)).trans <| (V5_of m c main_arg15 (by decide)).trans <| (V4_of m c main_arg15 (by decide)).trans <| (V3_of m c main_arg15 (by decide)).trans <| (V2_of m c main_arg15 (by decide)).trans <| (V1_of m c main_arg15 (by decide)))
  show StableHlo.after opsA (V14 m outs c) (Proc.devRef .tc main_arg15) = _
  after_results

abbrev cl (c : Dev nD) (n : Fin 512) (i : Fin 3) : EReal :=
  clusterLogit (V13 m c main_v4) (m ((c : Thread nD τ).loc main_arg2)) (m ((c : Thread nD τ).loc main_arg14)) (m ((c : Thread nD τ).loc main_arg15)) n i

theorem WB_v65 (c : Dev nD) (n : Fin 512) (i : Fin 3) :
    (WB m outs c main_v65 : S512x3.Idx → EReal) (ix2 n i) = cl m c n i := by
  show (StableHlo.after opsB (WA m outs c) (Proc.devRef .tc main_v65) : S512x3.Idx → EReal) (ix2 n i) = _
  after_results
  rw [addf_apply, WA_v4, WA_arg2, WA_arg14, WA_arg15]
  exact congrArg₂ (· + ·)
    ((dot2_apply _ _ n i).trans (Finset.sum_congr rfl fun k _ => congrArg₂ (· * ·) (dot1_apply _ _ n k) (transpose_ix2_apply _ _ k i)))
    (bias_apply _ _ _ n i)

theorem WB_of_v51 (c : Dev nD) : WB m outs c main_v51 = WA m outs c main_v51 := by
  show StableHlo.after opsB (WA m outs c) (Proc.devRef .tc main_v51) = _
  after_results
theorem WB_of_v58 (c : Dev nD) : WB m outs c main_v58 = WA m outs c main_v58 := by
  show StableHlo.after opsB (WA m outs c) (Proc.devRef .tc main_v58) = _
  after_results
theorem WB_of_v59 (c : Dev nD) : WB m outs c main_v59 = WA m outs c main_v59 := by
  show StableHlo.after opsB (WA m outs c) (Proc.devRef .tc main_v59) = _
  after_results

theorem WC_v67 (c : Dev nD) (n : Fin 512) :
    (WC m outs c main_v67 : S512x1.Idx → EReal) (ix2 n 0) = clMax (cl m c n) := by
  show (StableHlo.after opsC (WB m outs c) (Proc.devRef .tc main_v67) : S512x1.Idx → EReal) (ix2 n 0) = _
  after_results
  erw [col_apply, rowMax_apply]
  exact congrArg clMax (funext fun i => WB_v65 m outs c n i)

theorem WC_v72 (c : Dev nD) (n : Fin 512) :
    (WC m outs c main_v72 : S512x1.Idx → EReal) (ix2 n 0) = clSum (cl m c n) := by
  show (StableHlo.after opsC (WB m outs c) (Proc.devRef .tc main_v72) : S512x1.Idx → EReal) (ix2 n 0) = _
  after_results
  erw [col_apply, rowSum_apply]
  refine Eq.trans (Finset.sum_congr rfl (g := fun i => Ideal.exp (cl m c n i - clMax (cl m c n))) fun i _ => ?_) rfl
  rw [hexp_apply, subf_apply]
  erw [rowbc_apply, col_apply, rowMax_apply]
  exact congrArg₂ (fun a b => Ideal.exp (a - b)) (WB_v65 m outs c n i) (congrArg clMax (funext fun i => WB_v65 m outs c n i))

theorem WC_of_v51 (c : Dev nD) : WC m outs c main_v51 = WA m outs c main_v51 := by
  refine Eq.trans ?_ (WB_of_v51 m outs c)
  show StableHlo.after opsC (WB m outs c) (Proc.devRef .tc main_v51) = _
  after_results
theorem WC_of_v58 (c : Dev nD) : WC m outs c main_v58 = WA m outs c main_v58 := by
  refine Eq.trans ?_ (WB_of_v58 m outs c)
  show StableHlo.after opsC (WB m outs c) (Proc.devRef .tc main_v58) = _
  after_results
theorem WC_of_v59 (c : Dev nD) : WC m outs c main_v59 = WA m outs c main_v59 := by
  refine Eq.trans ?_ (WB_of_v59 m outs c)
  show StableHlo.after opsC (WB m outs c) (Proc.devRef .tc main_v59) = _
  after_results
theorem WC_of_v65 (c : Dev nD) : WC m outs c main_v65 = WB m outs c main_v65 := by
  show StableHlo.after opsC (WB m outs c) (Proc.devRef .tc main_v65) = _
  after_results

theorem V15_v84 (c : Dev nD) (n : Fin 512) :
    (V15 m outs c main_v84 : S512.Idx → EReal) (ix1 n) = sel0 (head outs c n) (cl m c n) := by
  rw [V15_eq]
  show (StableHlo.after opsD (WC m outs c) (Proc.devRef .tc main_v84) : S512.Idx → EReal) (ix1 n) = _
  after_results
  dsimp only
  erw [colcast_apply]
  simp only [maximumf_apply, addf_apply, mulf_apply, subf_apply, hexp_apply, hlog_apply]
  rw [WC_of_v51, WC_of_v58, WC_of_v59, WA_v51, WA_v58, WA_v59, WC_v67, WC_v72]
  rfl

theorem V15_v86 (c : Dev nD) (n : Fin 512) (i : Fin 3) :
    (V15 m outs c main_v86 : S512x3.Idx → EReal) (ix2 n i) = cl m c n i - logZ (head outs c n) (cl m c n) := by
  rw [V15_eq]
  show (StableHlo.after opsD (WC m outs c) (Proc.devRef .tc main_v86) : S512x3.Idx → EReal) (ix2 n i) = _
  after_results
  rw [subf_apply]
  erw [rowbc_apply]
  simp only [maximumf_apply, addf_apply, mulf_apply, subf_apply, hexp_apply, hlog_apply]
  rw [WC_of_v51, WC_of_v58, WC_of_v65, WB_v65, WA_v51, WA_v58, WC_v67, WC_v72]
  rfl

end Cert.Hand.GluePost
-- ==== Proof.GluePost2.lean ====
import proofs.«412644_j75642964017948_3_alg».proof.Proof.GluePostDefs

set_option maxRecDepth 1856

noncomputable section

namespace Cert.Hand.GluePost

open Idealize.ShloMosaic Idealize.ShloMosaic.TcCoe
open Idealize.ShloMosaic.ValueIdx
open Cert.KernelIdeal Cert.KernelIdeal.Gen
open scoped BigOperators

section Chunks
variable {F : FTy → Type} [FloatOps F] [Named F]
abbrev ops2A : List (HloOp τ sig (Elt F)) :=
  [ StableHlo.unary main_v88_0 main_v89 ((extractStridedSlice S1x512x1 ![0, 0, 0] · slices_S2x512x1_S1x512x1_0_0_0) : (⟨S2x512x1, .f32⟩ : BufTy).Contents (Elt F) → (⟨S1x512x1, .f32⟩ : BufTy).Contents (Elt F)),
    StableHlo.reshape main_v89 main_v90 rfl shapeCasts_S1x512x1_S512x1,
    StableHlo.unary main_v88_0 main_v91 ((extractStridedSlice S1x512x1 ![1, 0, 0] · slices_S2x512x1_S1x512x1_1_0_0) : (⟨S2x512x1, .f32⟩ : BufTy).Contents (Elt F) → (⟨S1x512x1, .f32⟩ : BufTy).Contents (Elt F)),
    StableHlo.reshape main_v91 main_v92 rfl shapeCasts_S1x512x1_S512x1,
    StableHlo.unary main_v88_1 main_v93 ((extractStridedSlice S1x512x1 ![0, 0, 0] · slices_S2x512x1_S1x512x1_0_0_0) : (⟨S2x512x1, .f32⟩ : BufTy).Contents (Elt F) → (⟨S1x512x1, .f32⟩ : BufTy).Contents (Elt F)),
    StableHlo.reshape main_v93 main_v94 rfl shapeCasts_S1x512x1_S512x1,
    StableHlo.unary main_v88_1 main_v95 ((extractStridedSlice S1x512x1 ![1, 0, 0] · slices_S2x512x1_S1x512x1_1_0_0) : (⟨S2x512x1, .f32⟩ : BufTy).Contents (Elt F) → (⟨S1x512x1, .f32⟩ : BufTy).Contents (Elt F)),
    StableHlo.reshape main_v95 main_v96 rfl shapeCasts_S1x512x1_S512x1,
    StableHlo.unary main_v88_2 main_v97 ((extractStridedSlice S1x512x1 ![0, 0, 0] · slices_S2x512x1_S1x512x1_0_0_0) : (⟨S2x512x1, .f32⟩ : BufTy).Contents (Elt F) → (⟨S1x512x1, .f32⟩ : BufTy).Contents (Elt F)),
    StableHlo.reshape main_v97 main_v98 rfl shapeCasts_S1x512x1_S512x1,
    StableHlo.unary main_v88_2 main_v99 ((extractStridedSlice S1x512x1 ![1, 0, 0] · slices_S2x512x1_S1x512x1_1_0_0) : (⟨S2x512x1, .f32⟩ : BufTy).Contents (Elt F) → (⟨S1x512x1, .f32⟩ : BufTy).Contents (Elt F)),
    StableHlo.reshape main_v99 main_v100 rfl shapeCasts_S1x512x1_S512x1,
    StableHlo.binary main_v90 main_v92 main_v101 (maximumf : (⟨S512x1, .f32⟩ : BufTy).Contents (Elt F) → (⟨S512x1, .f32⟩ : BufTy).Contents (Elt F) → (⟨S512x1, .f32⟩ : BufTy).Contents (Elt F)),
    StableHlo.binary main_v90 main_v101 main_v102 (subf : (⟨S512x1, .f32⟩ : BufTy).Contents (Elt F) → (⟨S512x1, .f32⟩ : BufTy).Contents (Elt F) → (⟨S512x1, .f32⟩ : BufTy).Contents (Elt F)),
    StableHlo.unary main_v102 main_v103 (Host.exp : (⟨S512x1, .f32⟩ : BufTy).Contents (Elt F) → (⟨S512x1, .f32⟩ : BufTy).Contents (Elt F)),
    StableHlo.binary main_v94 main_v103 main_v104 (mulf : (⟨S512x1, .f32⟩ : BufTy).Contents (Elt F) → (⟨S512x1, .f32⟩ : BufTy).Contents (Elt F) → (⟨S512x1, .f32⟩ : BufTy).Contents (Elt F)),
    StableHlo.binary main_v92 main_v101 main_v105 (subf : (⟨S512x1, .f32⟩ : BufTy).Contents (Elt F) → (⟨S512x1, .f32⟩ : BufTy).Contents (Elt F) → (⟨S512x1, .f32⟩ : BufTy).Contents (Elt F)),
    StableHlo.unary main_v105 main_v106 (Host.exp : (⟨S512x1, .f32⟩ : BufTy).Contents (Elt F) → (⟨S512x1, .f32⟩ : BufTy).Contents (Elt F)),
    StableHlo.binary main_v96 main_v106 main_v107 (mulf : (⟨S512x1, .f32⟩ : BufTy).Contents (Elt F) → (⟨S512x1, .f32⟩ : BufTy).Contents (Elt F) → (⟨S512x1, .f32⟩ : BufTy).Contents (Elt F)),
    StableHlo.binary main_v104 main_v107 main_v108 (addf : (⟨S512x1, .f32⟩ : BufTy).Contents (Elt F) → (⟨S512x1, .f32⟩ : BufTy).Contents (Elt F) → (⟨S512x1, .f32⟩ : BufTy).Contents (Elt F)),
    StableHlo.binary main_v98 main_v100 main_v109 (addf : (⟨S512x1, .f32⟩ : BufTy).Contents (Elt F) → (⟨S512x1, .f32⟩ : BufTy).Contents (Elt F) → (⟨S512x1, .f32⟩ : BufTy).Contents (Elt F)) ]
abbrev ops2B : List (HloOp τ sig (Elt F)) :=
  [ StableHlo.unary main_v108 main_v110 (Host.log : (⟨S512x1, .f32⟩ : BufTy).Contents (Elt F) → (⟨S512x1, .f32⟩ : BufTy).Contents (Elt F)),
    StableHlo.binary main_v101 main_v110 main_v111 (addf : (⟨S512x1, .f32⟩ : BufTy).Contents (Elt F) → (⟨S512x1, .f32⟩ : BufTy).Contents (Elt F) → (⟨S512x1, .f32⟩ : BufTy).Contents (Elt F)),
    StableHlo.binary main_v109 main_v111 main_v112 (subf : (⟨S512x1, .f32⟩ : BufTy).Contents (Elt F) → (⟨S512x1, .f32⟩ : BufTy).Contents (Elt F) → (⟨S512x1, .f32⟩ : BufTy).Contents (Elt F)),
    StableHlo.reshape main_v112 main_v113 rfl shapeCasts_S512x1_S512,
    StableHlo.unary main_v86 main_v114 ((extractStridedSlice S512x1 ![0, 0] · slices_S512x3_S512x1_0_0) : (⟨S512x3, .f32⟩ : BufTy).Contents (Elt F) → (⟨S512x1, .f32⟩ : BufTy).Contents (Elt F)),
    StableHlo.reshape main_v114 main_v115 rfl shapeCasts_S512x1_S512,
    StableHlo.binary main_v115 main_v113 main_v116 (addf : (⟨S512, .f32⟩ : BufTy).Contents (Elt F) → (⟨S512, .f32⟩ : BufTy).Contents (Elt F) → (⟨S512, .f32⟩ : BufTy).Contents (Elt F)),
    StableHlo.reshape main_arg10 main_v117 rfl shapeCasts_S160000_S160000x1 ]
theorem hostOps2_split : (hostOps2 : List (HloOp τ sig (Elt F))) = ops2A ++ ops2B := rfl
end Chunks

variable (m : (ℓ : Loc nD τ sig) → Buf (Elt Ideal) ℓ) (outs : Outs (F := Ideal))

def W2A (c : Dev nD) : Valuation τ sig (Elt Ideal) := StableHlo.after ops2A (V16 m outs c)

theorem V17_eq (c : Dev nD) : V17 m outs c = StableHlo.after ops2B (W2A m outs c) := by
  show StableHlo.after hostOps2 _ = _
  rw [hostOps2_split, StableHlo.after_append]
  rfl

theorem V16_main_v88_0 (c : Dev nD) : V16 m outs c main_v88_0 = outs 16 main_v88_0 c := by
  simp only [V16, Function.update_of_ne (StableHlo.devRef_ne_of_ne (by decide : main_v88_0 ≠ main_v88_2) : (Proc.devRef .tc main_v88_0 : DevRef τ sig) ≠ Proc.devRef .tc main_v88_2), Function.update_of_ne (StableHlo.devRef_ne_of_ne (by decide : main_v88_0 ≠ main_v88_1) : (Proc.devRef .tc main_v88_0 : DevRef τ sig) ≠ Proc.devRef .tc main_v88_1), Function.update_self]
theorem V16_main_v88_1 (c : Dev nD) : V16 m outs c main_v88_1 = outs 16 main_v88_1 c := by
  simp only [V16, Function.update_of_ne (StableHlo.devRef_ne_of_ne (by decide : main_v88_1 ≠ main_v88_2) : (Proc.devRef .tc main_v88_1 : DevRef τ sig) ≠ Proc.devRef .tc main_v88_2), Function.update_self]
theorem V16_main_v88_2 (c : Dev nD) : V16 m outs c main_v88_2 = outs 16 main_v88_2 c := by
  simp only [V16, Function.update_self]

abbrev tail2 (c : Dev nD) (n : Fin 512) : Six := sixAt (outs 16 main_v88_0 c) (outs 16 main_v88_1 c) (outs 16 main_v88_2 c) n

theorem W2A_M (c : Dev nD) (n : Fin 512) :
    (W2A m outs c main_v101 : S512x1.Idx → EReal) (ix2 n 0) = (tail2 outs c n).st.1 := by
  show (StableHlo.after ops2A (V16 m outs c) (Proc.devRef .tc main_v101) : S512x1.Idx → EReal) (ix2 n 0) = _
  after_results
  rw [maximumf_apply]
  dsimp only
  erw [read_core0, read_core1, V16_main_v88_0]
  rfl

theorem W2A_L (c : Dev nD) (n : Fin 512) :
    (W2A m outs c main_v108 : S512x1.Idx → EReal) (ix2 n 0) = (tail2 outs c n).st.2 := by
  show (StableHlo.after ops2A (V16 m outs c) (Proc.devRef .tc main_v108) : S512x1.Idx → EReal) (ix2 n 0) = _
  after_results
  simp only [maximumf_apply, addf_apply, mulf_apply, subf_apply, hexp_apply]
  erw [read_core0, read_core1, read_core0, read_core1, V16_main_v88_0, V16_main_v88_1]
  rfl

theorem W2A_A (c : Dev nD) (n : Fin 512) :
    (W2A m outs c main_v109 : S512x1.Idx → EReal) (ix2 n 0) = (tail2 outs c n).acc := by
  show (StableHlo.after ops2A (V16 m outs c) (Proc.devRef .tc main_v109) : S512x1.Idx → EReal) (ix2 n 0) = _
  after_results
  rw [addf_apply]
  dsimp only
  erw [read_core0, read_core1, V16_main_v88_2]
  rfl

theorem W2A_v86 (c : Dev nD) : W2A m outs c main_v86 = V15 m outs c main_v86 := by
  refine Eq.trans ?_ ((V16_of m outs c main_v86 (by decide)))
  show StableHlo.after ops2A (V16 m outs c) (Proc.devRef .tc main_v86) = _
  after_results

theorem V17_main_v116 (c : Dev nD) (n : Fin 512) (z : EReal)
    (hz : (V15 m outs c main_v86 : S512x3.Idx → EReal) (ix2 n 0) = z) :
    (V17 m outs c main_v116 : S512.Idx → EReal) (ix1 n)
      = z + ((tail2 outs c n).acc - ((tail2 outs c n).st.1 + Ideal.log (tail2 outs c n).st.2)) := by
  rw [V17_eq]
  show (StableHlo.after ops2B (W2A m outs c) (Proc.devRef .tc main_v116) : S512.Idx → EReal) (ix1 n) = _
  after_results
  rw [addf_apply]
  dsimp only
  refine congrArg₂ (· + ·) ?_ ?_
  · erw [colcast_apply, colpick0_apply]
    rw [W2A_v86]
    exact hz
  · erw [colcast_apply]
    simp only [addf_apply, subf_apply, hlog_apply]
    rw [W2A_M, W2A_L, W2A_A]

end Cert.Hand.GluePost
-- ==== Proof.GluePost3.lean ====
import proofs.«412644_j75642964017948_3_alg».proof.Proof.GluePostDefs

set_option maxRecDepth 1856

noncomputable section

namespace Cert.Hand.GluePost

open Idealize.ShloMosaic Idealize.ShloMosaic.TcCoe
open Idealize.ShloMosaic.ValueIdx
open Cert.KernelIdeal Cert.KernelIdeal.Gen
open scoped BigOperators

section Chunks
variable {F : FTy → Type} [FloatOps F] [Named F]
abbrev ops3A : List (HloOp τ sig (Elt F)) :=
  [ StableHlo.unary main_v118_0 main_v119 ((extractStridedSlice S1x512x1 ![0, 0, 0] · slices_S2x512x1_S1x512x1_0_0_0) : (⟨S2x512x1, .f32⟩ : BufTy).Contents (Elt F) → (⟨S1x512x1, .f32⟩ : BufTy).Contents (Elt F)),
    StableHlo.reshape main_v119 main_v120 rfl shapeCasts_S1x512x1_S512x1,
    StableHlo.unary main_v118_0 main_v121 ((extractStridedSlice S1x512x1 ![1, 0, 0] · slices_S2x512x1_S1x512x1_1_0_0) : (⟨S2x512x1, .f32⟩ : BufTy).Contents (Elt F) → (⟨S1x512x1, .f32⟩ : BufTy).Contents (Elt F)),
    StableHlo.reshape main_v121 main_v122 rfl shapeCasts_S1x512x1_S512x1,
    StableHlo.unary main_v118_1 main_v123 ((extractStridedSlice S1x512x1 ![0, 0, 0] · slices_S2x512x1_S1x512x1_0_0_0) : (⟨S2x512x1, .f32⟩ : BufTy).Contents (Elt F) → (⟨S1x512x1, .f32⟩ : BufTy).Contents (Elt F)),
    StableHlo.reshape main_v123 main_v124 rfl shapeCasts_S1x512x1_S512x1,
    StableHlo.unary main_v118_1 main_v125 ((extractStridedSlice S1x512x1 ![1, 0, 0] · slices_S2x512x1_S1x512x1_1_0_0) : (⟨S2x512x1, .f32⟩ : BufTy).Contents (Elt F) → (⟨S1x512x1, .f32⟩ : BufTy).Contents (Elt F)),
    StableHlo.reshape main_v125 main_v126 rfl shapeCasts_S1x512x1_S512x1,
    StableHlo.unary main_v118_2 main_v127 ((extractStridedSlice S1x512x1 ![0, 0, 0] · slices_S2x512x1_S1x512x1_0_0_0) : (⟨S2x512x1, .f32⟩ : BufTy).Contents (Elt F) → (⟨S1x512x1, .f32⟩ : BufTy).Contents (Elt F)),
    StableHlo.reshape main_v127 main_v128 rfl shapeCasts_S1x512x1_S512x1,
    StableHlo.unary main_v118_2 main_v129 ((extractStridedSlice S1x512x1 ![1, 0, 0] · slices_S2x512x1_S1x512x1_1_0_0) : (⟨S2x512x1, .f32⟩ : BufTy).Contents (Elt F) → (⟨S1x512x1, .f32⟩ : BufTy).Contents (Elt F)),
    StableHlo.reshape main_v129 main_v130 rfl shapeCasts_S1x512x1_S512x1,
    StableHlo.binary main_v120 main_v122 main_v131 (maximumf : (⟨S512x1, .f32⟩ : BufTy).Contents (Elt F) → (⟨S512x1, .f32⟩ : BufTy).Contents (Elt F) → (⟨S512x1, .f32⟩ : BufTy).Contents (Elt F)),
    StableHlo.binary main_v120 main_v131 main_v132 (subf : (⟨S512x1, .f32⟩ : BufTy).Contents (Elt F) → (⟨S512x1, .f32⟩ : BufTy).Contents (Elt F) → (⟨S512x1, .f32⟩ : BufTy).Contents (Elt F)),
    StableHlo.unary main_v132 main_v133 (Host.exp : (⟨S512x1, .f32⟩ : BufTy).Contents (Elt F) → (⟨S512x1, .f32⟩ : BufTy).Contents (Elt F)),
    StableHlo.binary main_v124 main_v133 main_v134 (mulf : (⟨S512x1, .f32⟩ : BufTy).Contents (Elt F) → (⟨S512x1, .f32⟩ : BufTy).Contents (Elt F) → (⟨S512x1, .f32⟩ : BufTy).Contents (Elt F)),
    StableHlo.binary main_v122 main_v131 main_v135 (subf : (⟨S512x1, .f32⟩ : BufTy).Contents (Elt F) → (⟨S512x1, .f32⟩ : BufTy).Contents (Elt F) → (⟨S512x1, .f32⟩ : BufTy).Contents (Elt F)),
    StableHlo.unary main_v135 main_v136 (Host.exp : (⟨S512x1, .f32⟩ : BufTy).Contents (Elt F) → (⟨S512x1, .f32⟩ : BufTy).Contents (Elt F)),
    StableHlo.binary main_v126 main_v136 main_v137 (mulf : (⟨S512x1, .f32⟩ : BufTy).Contents (Elt F) → (⟨S512x1, .f32⟩ : BufTy).Contents (Elt F) → (⟨S512x1, .f32⟩ : BufTy).Contents (Elt F)),
    StableHlo.binary main_v134 main_v137 main_v138 (addf : (⟨S512x1, .f32⟩ : BufTy).Contents (Elt F) → (⟨S512x1, .f32⟩ : BufTy).Contents (Elt F) → (⟨S512x1, .f32⟩ : BufTy).Contents (Elt F)),
    StableHlo.binary main_v128 main_v130 main_v139 (addf : (⟨S512x1, .f32⟩ : BufTy).Contents (Elt F) → (⟨S512x1, .f32⟩ : BufTy).Contents (Elt F) → (⟨S512x1, .f32⟩ : BufTy).Contents (Elt F)) ]
abbrev ops3B : List (HloOp τ sig (Elt F)) :=
  [ StableHlo.unary main_v138 main_v140 (Host.log : (⟨S512x1, .f32⟩ : BufTy).Contents (Elt F) → (⟨S512x1, .f32⟩ : BufTy).Contents (Elt F)),
    StableHlo.binary main_v131 main_v140 main_v141 (addf : (⟨S512x1, .f32⟩ : BufTy).Contents (Elt F) → (⟨S512x1, .f32⟩ : BufTy).Contents (Elt F) → (⟨S512x1, .f32⟩ : BufTy).Contents (Elt F)),
    StableHlo.binary main_v139 main_v141 main_v142 (subf : (⟨S512x1, .f32⟩ : BufTy).Contents (Elt F) → (⟨S512x1, .f32⟩ : BufTy).Contents (Elt F) → (⟨S512x1, .f32⟩ : BufTy).Contents (Elt F)),
    StableHlo.reshape main_v142 main_v143 rfl shapeCasts_S512x1_S512,
    StableHlo.unary main_v86 main_v144 ((extractStridedSlice S512x1 ![0, 1] · slices_S512x3_S512x1_0_1) : (⟨S512x3, .f32⟩ : BufTy).Contents (Elt F) → (⟨S512x1, .f32⟩ : BufTy).Contents (Elt F)),
    StableHlo.reshape main_v144 main_v145 rfl shapeCasts_S512x1_S512,
    StableHlo.binary main_v145 main_v143 main_v146 (addf : (⟨S512, .f32⟩ : BufTy).Contents (Elt F) → (⟨S512, .f32⟩ : BufTy).Contents (Elt F) → (⟨S512, .f32⟩ : BufTy).Contents (Elt F)),
    StableHlo.nullary main_cst_19 (constant S_ .f32 0x00000000#32),
    StableHlo.unary main_cst_19 main_v147 (broadcastInDim S1897x16 ![] bcast_S_S1897x16 : (⟨S_, .f32⟩ : BufTy).Contents (Elt F) → (⟨S1897x16, .f32⟩ : BufTy).Contents (Elt F)),
    StableHlo.binary main_arg12 main_v147 main_v148 ((fun a b => concatenate S69632x16 0 [⟨S67735x16, a⟩, ⟨S1897x16, b⟩] concatenates_S67735x16_S1897x16_S69632x16_d0) : (⟨S67735x16, .f32⟩ : BufTy).Contents (Elt F) → (⟨S1897x16, .f32⟩ : BufTy).Contents (Elt F) → (⟨S69632x16, .f32⟩ : BufTy).Contents (Elt F)),
    StableHlo.nullary main_cst_20 (constant S_ .f32 0x00000000#32),
    StableHlo.unary main_cst_20 main_v149 (broadcastInDim S1897 ![] bcast_S_S1897 : (⟨S_, .f32⟩ : BufTy).Contents (Elt F) → (⟨S1897, .f32⟩ : BufTy).Contents (Elt F)),
    StableHlo.binary main_arg13 main_v149 main_v150 ((fun a b => concatenate S69632 0 [⟨S67735, a⟩, ⟨S1897, b⟩] concatenates_S67735_S1897_S69632_d0) : (⟨S67735, .f32⟩ : BufTy).Contents (Elt F) → (⟨S1897, .f32⟩ : BufTy).Contents (Elt F) → (⟨S69632, .f32⟩ : BufTy).Contents (Elt F)),
    StableHlo.reshape main_v150 main_v151 rfl shapeCasts_S69632_S69632x1 ]
theorem hostOps3_split : (hostOps3 : List (HloOp τ sig (Elt F))) = ops3A ++ ops3B := rfl
end Chunks

variable (m : (ℓ : Loc nD τ sig) → Buf (Elt Ideal) ℓ) (outs : Outs (F := Ideal))

def W3A (c : Dev nD) : Valuation τ sig (Elt Ideal) := StableHlo.after ops3A (V18 m outs c)

theorem V19_eq (c : Dev nD) : V19 m outs c = StableHlo.after ops3B (W3A m outs c) := by
  show StableHlo.after hostOps3 _ = _
  rw [hostOps3_split, StableHlo.after_append]
  rfl

theorem V18_main_v118_0 (c : Dev nD) : V18 m outs c main_v118_0 = outs 18 main_v118_0 c := by
  simp only [V18, Function.update_of_ne (StableHlo.devRef_ne_of_ne (by decide : main_v118_0 ≠ main_v118_2) : (Proc.devRef .tc main_v118_0 : DevRef τ sig) ≠ Proc.devRef .tc main_v118_2), Function.update_of_ne (StableHlo.devRef_ne_of_ne (by decide : main_v118_0 ≠ main_v118_1) : (Proc.devRef .tc main_v118_0 : DevRef τ sig) ≠ Proc.devRef .tc main_v118_1), Function.update_self]
theorem V18_main_v118_1 (c : Dev nD) : V18 m outs c main_v118_1 = outs 18 main_v118_1 c := by
  simp only [V18, Function.update_of_ne (StableHlo.devRef_ne_of_ne (by decide : main_v118_1 ≠ main_v118_2) : (Proc.devRef .tc main_v118_1 : DevRef τ sig) ≠ Proc.devRef .tc main_v118_2), Function.update_self]
theorem V18_main_v118_2 (c : Dev nD) : V18 m outs c main_v118_2 = outs 18 main_v118_2 c := by
  simp only [V18, Function.update_self]

abbrev tail3 (c : Dev nD) (n : Fin 512) : Six := sixAt (outs 18 main_v118_0 c) (outs 18 main_v118_1 c) (outs 18 main_v118_2 c) n

theorem W3A_M (c : Dev nD) (n : Fin 512) :
    (W3A m outs c main_v131 : S512x1.Idx → EReal) (ix2 n 0) = (tail3 outs c n).st.1 := by
  show (StableHlo.after ops3A (V18 m outs c) (Proc.devRef .tc main_v131) : S512x1.Idx → EReal) (ix2 n 0) = _
  after_results
  rw [maximumf_apply]
  dsimp only
  erw [read_core0, read_core1, V18_main_v118_0]
  rfl

theorem W3A_L (c : Dev nD) (n : Fin 512) :
    (W3A m outs c main_v138 : S512x1.Idx → EReal) (ix2 n 0) = (tail3 outs c n).st.2 := by
  show (StableHlo.after ops3A (V18 m outs c) (Proc.devRef .tc main_v138) : S512x1.Idx → EReal) (ix2 n 0) = _
  after_results
  simp only [maximumf_apply, addf_apply, mulf_apply, subf_apply, hexp_apply]
  erw [read_core0, read_core1, read_core0, read_core1, V18_main_v118_0, V18_main_v118_1]
  rfl

theorem W3A_A (c : Dev nD) (n : Fin 512) :
    (W3A m outs c main_v139 : S512x1.Idx → EReal) (ix2 n 0) = (tail3 outs c n).acc := by
  show (StableHlo.after ops3A (V18 m outs c) (Proc.devRef .tc main_v139) : S512x1.Idx → EReal) (ix2 n 0) = _
  after_results
  rw [addf_apply]
  dsimp only
  erw [read_core0, read_core1, V18_main_v118_2]
  rfl

theorem W3A_v86 (c : Dev nD) : W3A m outs c main_v86 = V15 m outs c main_v86 := by
  refine Eq.trans ?_ ((V18_of m outs c main_v86 (by decide)).trans <| (V17_of m outs c main_v86 (by decide)).trans <| (V16_of m outs c main_v86 (by decide)))
  show StableHlo.after ops3A (V18 m outs c) (Proc.devRef .tc main_v86) = _
  after_results

theorem V19_main_v146 (c : Dev nD) (n : Fin 512) (z : EReal)
    (hz : (V15 m outs c main_v86 : S512x3.Idx → EReal) (ix2 n 1) = z) :
    (V19 m outs c main_v146 : S512.Idx → EReal) (ix1 n)
      = z + ((tail3 outs c n).acc - ((tail3 outs c n).st.1 + Ideal.log (tail3 outs c n).st.2)) := by
  rw [V19_eq]
  show (StableHlo.after ops3B (W3A m outs c) (Proc.devRef .tc main_v146) : S512.Idx → EReal) (ix1 n) = _
  after_results
  rw [addf_apply]
  dsimp only
  refine congrArg₂ (· + ·) ?_ ?_
  · erw [colcast_apply, colpick1_apply]
    rw [W3A_v86]
    exact hz
  · erw [colcast_apply]
    simp only [addf_apply, subf_apply, hlog_apply]
    rw [W3A_M, W3A_L, W3A_A]

end Cert.Hand.GluePost
-- ==== Proof.GluePost4.lean ====
import proofs.«412644_j75642964017948_3_alg».proof.Proof.GluePostDefs

set_option maxRecDepth 1856

noncomputable section

namespace Cert.Hand.GluePost

open Idealize.ShloMosaic Idealize.ShloMosaic.TcCoe
open Idealize.ShloMosaic.ValueIdx
open Cert.KernelIdeal Cert.KernelIdeal.Gen
open scoped BigOperators

section Chunks
variable {F : FTy → Type} [FloatOps F] [Named F]
abbrev ops4A : List (HloOp τ sig (Elt F)) :=
  [ StableHlo.unary main_v152_0 main_v153 ((extractStridedSlice S1x512x1 ![0, 0, 0] · slices_S2x512x1_S1x512x1_0_0_0) : (⟨S2x512x1, .f32⟩ : BufTy).Contents (Elt F) → (⟨S1x512x1, .f32⟩ : BufTy).Contents (Elt F)),
    StableHlo.reshape main_v153 main_v154 rfl shapeCasts_S1x512x1_S512x1,
    StableHlo.unary main_v152_0 main_v155 ((extractStridedSlice S1x512x1 ![1, 0, 0] · slices_S2x512x1_S1x512x1_1_0_0) : (⟨S2x512x1, .f32⟩ : BufTy).Contents (Elt F) → (⟨S1x512x1, .f32⟩ : BufTy).Contents (Elt F)),
    StableHlo.reshape main_v155 main_v156 rfl shapeCasts_S1x512x1_S512x1,
    StableHlo.unary main_v152_1 main_v157 ((extractStridedSlice S1x512x1 ![0, 0, 0] · slices_S2x512x1_S1x512x1_0_0_0) : (⟨S2x512x1, .f32⟩ : BufTy).Contents (Elt F) → (⟨S1x512x1, .f32⟩ : BufTy).Contents (Elt F)),
    StableHlo.reshape main_v157 main_v158 rfl shapeCasts_S1x512x1_S512x1,
    StableHlo.unary main_v152_1 main_v159 ((extractStridedSlice S1x512x1 ![1, 0, 0] · slices_S2x512x1_S1x512x1_1_0_0) : (⟨S2x512x1, .f32⟩ : BufTy).Contents (Elt F) → (⟨S1x512x1, .f32⟩ : BufTy).Contents (Elt F)),
    StableHlo.reshape main_v159 main_v160 rfl shapeCasts_S1x512x1_S512x1,
    StableHlo.unary main_v152_2 main_v161 ((extractStridedSlice S1x512x1 ![0, 0, 0] · slices_S2x512x1_S1x512x1_0_0_0) : (⟨S2x512x1, .f32⟩ : BufTy).Contents (Elt F) → (⟨S1x512x1, .f32⟩ : BufTy).Contents (Elt F)),
    StableHlo.reshape main_v161 main_v162 rfl shapeCasts_S1x512x1_S512x1,
    StableHlo.unary main_v152_2 main_v163 ((extractStridedSlice S1x512x1 ![1, 0, 0] · slices_S2x512x1_S1x512x1_1_0_0) : (⟨S2x512x1, .f32⟩ : BufTy).Contents (Elt F) → (⟨S1x512x1, .f32⟩ : BufTy).Contents (Elt F)),
    StableHlo.reshape main_v163 main_v164 rfl shapeCasts_S1x512x1_S512x1,
    StableHlo.binary main_v154 main_v156 main_v165 (maximumf : (⟨S512x1, .f32⟩ : BufTy).Contents (Elt F) → (⟨S512x1, .f32⟩ : BufTy).Contents (Elt F) → (⟨S512x1, .f32⟩ : BufTy).Contents (Elt F)),
    StableHlo.binary main_v154 main_v165 main_v166 (subf : (⟨S512x1, .f32⟩ : BufTy).Contents (Elt F) → (⟨S512x1, .f32⟩ : BufTy).Contents (Elt F) → (⟨S512x1, .f32⟩ : BufTy).Contents (Elt F)),
    StableHlo.unary main_v166 main_v167 (Host.exp : (⟨S512x1, .f32⟩ : BufTy).Contents (Elt F) → (⟨S512x1, .f32⟩ : BufTy).Contents (Elt F)),
    StableHlo.binary main_v158 main_v167 main_v168 (mulf : (⟨S512x1, .f32⟩ : BufTy).Contents (Elt F) → (⟨S512x1, .f32⟩ : BufTy).Contents (Elt F) → (⟨S512x1, .f32⟩ : BufTy).Contents (Elt F)),
    StableHlo.binary main_v156 main_v165 main_v169 (subf : (⟨S512x1, .f32⟩ : BufTy).Contents (Elt F) → (⟨S512x1, .f32⟩ : BufTy).Contents (Elt F) → (⟨S512x1, .f32⟩ : BufTy).Contents (Elt F)),
    StableHlo.unary main_v169 main_v170 (Host.exp : (⟨S512x1, .f32⟩ : BufTy).Contents (Elt F) → (⟨S512x1, .f32⟩ : BufTy).Contents (Elt F)),
    StableHlo.binary main_v160 main_v170 main_v171 (mulf : (⟨S512x1, .f32⟩ : BufTy).Contents (Elt F) → (⟨S512x1, .f32⟩ : BufTy).Contents (Elt F) → (⟨S512x1, .f32⟩ : BufTy).Contents (Elt F)),
    StableHlo.binary main_v168 main_v171 main_v172 (addf : (⟨S512x1, .f32⟩ : BufTy).Contents (Elt F) → (⟨S512x1, .f32⟩ : BufTy).Contents (Elt F) → (⟨S512x1, .f32⟩ : BufTy).Contents (Elt F)),
    StableHlo.binary main_v162 main_v164 main_v173 (addf : (⟨S512x1, .f32⟩ : BufTy).Contents (Elt F) → (⟨S512x1, .f32⟩ : BufTy).Contents (Elt F) → (⟨S512x1, .f32⟩ : BufTy).Contents (Elt F)) ]
abbrev ops4B : List (HloOp τ sig (Elt F)) :=
  [ StableHlo.unary main_v172 main_v174 (Host.log : (⟨S512x1, .f32⟩ : BufTy).Contents (Elt F) → (⟨S512x1, .f32⟩ : BufTy).Contents (Elt F)),
    StableHlo.binary main_v165 main_v174 main_v175 (addf : (⟨S512x1, .f32⟩ : BufTy).Contents (Elt F) → (⟨S512x1, .f32⟩ : BufTy).Contents (Elt F) → (⟨S512x1, .f32⟩ : BufTy).Contents (Elt F)),
    StableHlo.binary main_v173 main_v175 main_v176 (subf : (⟨S512x1, .f32⟩ : BufTy).Contents (Elt F) → (⟨S512x1, .f32⟩ : BufTy).Contents (Elt F) → (⟨S512x1, .f32⟩ : BufTy).Contents (Elt F)),
    StableHlo.reshape main_v176 main_v177 rfl shapeCasts_S512x1_S512,
    StableHlo.unary main_v86 main_v178 ((extractStridedSlice S512x1 ![0, 2] · slices_S512x3_S512x1_0_2) : (⟨S512x3, .f32⟩ : BufTy).Contents (Elt F) → (⟨S512x1, .f32⟩ : BufTy).Contents (Elt F)),
    StableHlo.reshape main_v178 main_v179 rfl shapeCasts_S512x1_S512,
    StableHlo.binary main_v179 main_v177 main_v180 (addf : (⟨S512, .f32⟩ : BufTy).Contents (Elt F) → (⟨S512, .f32⟩ : BufTy).Contents (Elt F) → (⟨S512, .f32⟩ : BufTy).Contents (Elt F)),
    StableHlo.nullary main_cst_21 (constant S_ .f32 0x00000000#32) ]
theorem hostOps4_split : (hostOps4 : List (HloOp τ sig (Elt F))) = ops4A ++ ops4B := rfl
end Chunks

variable (m : (ℓ : Loc nD τ sig) → Buf (Elt Ideal) ℓ) (outs : Outs (F := Ideal))

def W4A (c : Dev nD) : Valuation τ sig (Elt Ideal) := StableHlo.after ops4A (V20 m outs c)

theorem V21_eq (c : Dev nD) : V21 m outs c = StableHlo.after ops4B (W4A m outs c) := by
  show StableHlo.after hostOps4 _ = _
  rw [hostOps4_split, StableHlo.after_append]
  rfl

theorem V20_main_v152_0 (c : Dev nD) : V20 m outs c main_v152_0 = outs 20 main_v152_0 c := by
  simp only [V20, Function.update_of_ne (StableHlo.devRef_ne_of_ne (by decide : main_v152_0 ≠ main_v152_2) : (Proc.devRef .tc main_v152_0 : DevRef τ sig) ≠ Proc.devRef .tc main_v152_2), Function.update_of_ne (StableHlo.devRef_ne_of_ne (by decide : main_v152_0 ≠ main_v152_1) : (Proc.devRef .tc main_v152_0 : DevRef τ sig) ≠ Proc.devRef .tc main_v152_1), Function.update_self]
theorem V20_main_v152_1 (c : Dev nD) : V20 m outs c main_v152_1 = outs 20 main_v152_1 c := by
  simp only [V20, Function.update_of_ne (StableHlo.devRef_ne_of_ne (by decide : main_v152_1 ≠ main_v152_2) : (Proc.devRef .tc main_v152_1 : DevRef τ sig) ≠ Proc.devRef .tc main_v152_2), Function.update_self]
theorem V20_main_v152_2 (c : Dev nD) : V20 m outs c main_v152_2 = outs 20 main_v152_2 c := by
  simp only [V20, Function.update_self]

abbrev tail4 (c : Dev nD) (n : Fin 512) : Six := sixAt (outs 20 main_v152_0 c) (outs 20 main_v152_1 c) (outs 20 main_v152_2 c) n

theorem W4A_M (c : Dev nD) (n : Fin 512) :
    (W4A m outs c main_v165 : S512x1.Idx → EReal) (ix2 n 0) = (tail4 outs c n).st.1 := by
  show (StableHlo.after ops4A (V20 m outs c) (Proc.devRef .tc main_v165) : S512x1.Idx → EReal) (ix2 n 0) = _
  after_results
  rw [maximumf_apply]
  dsimp only
  erw [read_core0, read_core1, V20_main_v152_0]
  rfl

theorem W4A_L (c : Dev nD) (n : Fin 512) :
    (W4A m outs c main_v172 : S512x1.Idx → EReal) (ix2 n 0) = (tail4 outs c n).st.2 := by
  show (StableHlo.after ops4A (V20 m outs c) (Proc.devRef .tc main_v172) : S512x1.Idx → EReal) (ix2 n 0) = _
  after_results
  simp only [maximumf_apply, addf_apply, mulf_apply, subf_apply, hexp_apply]
  erw [read_core0, read_core1, read_core0, read_core1, V20_main_v152_0, V20_main_v152_1]
  rfl

theorem W4A_A (c : Dev nD) (n : Fin 512) :
    (W4A m outs c main_v173 : S512x1.Idx → EReal) (ix2 n 0) = (tail4 outs c n).acc := by
  show (StableHlo.after ops4A (V20 m outs c) (Proc.devRef .tc main_v173) : S512x1.Idx → EReal) (ix2 n 0) = _
  after_results
  rw [addf_apply]
  dsimp only
  erw [read_core0, read_core1, V20_main_v152_2]
  rfl

theorem W4A_v86 (c : Dev nD) : W4A m outs c main_v86 = V15 m outs c main_v86 := by
  refine Eq.trans ?_ ((V20_of m outs c main_v86 (by decide)).trans <| (V19_of m outs c main_v86 (by decide)).trans <| (V18_of m outs c main_v86 (by decide)).trans <| (V17_of m outs c main_v86 (by decide)).trans <| (V16_of m outs c main_v86 (by decide)))
  show StableHlo.after ops4A (V20 m outs c) (Proc.devRef .tc main_v86) = _
  after_results

theorem V21_main_v180 (c : Dev nD) (n : Fin 512) (z : EReal)
    (hz : (V15 m outs c main_v86 : S512x3.Idx → EReal) (ix2 n 2) = z) :
    (V21 m outs c main_v180 : S512.Idx → EReal) (ix1 n)
      = z + ((tail4 outs c n).acc - ((tail4 outs c n).st.1 + Ideal.log (tail4 outs c n).st.2)) := by
  rw [V21_eq]
  show (StableHlo.after ops4B (W4A m outs c) (Proc.devRef .tc main_v180) : S512.Idx → EReal) (ix1 n) = _
  after_results
  rw [addf_apply]
  dsimp only
  refine congrArg₂ (· + ·) ?_ ?_
  · erw [colcast_apply, colpick2_apply]
    rw [W4A_v86]
    exact hz
  · erw [colcast_apply]
    simp only [addf_apply, subf_apply, hlog_apply]
    rw [W4A_M, W4A_L, W4A_A]

end Cert.Hand.GluePost
-- ==== Proof.GluePost.lean ====
import proofs.«412644_j75642964017948_3_alg».proof.Proof.GluePost1
import proofs.«412644_j75642964017948_3_alg».proof.Proof.GluePost2
import proofs.«412644_j75642964017948_3_alg».proof.Proof.GluePost3
import proofs.«412644_j75642964017948_3_alg».proof.Proof.GluePost4

set_option maxRecDepth 1856

noncomputable section

namespace Cert.Hand.GluePost

open Idealize.ShloMosaic Idealize.ShloMosaic.TcCoe
open Idealize.ShloMosaic.ValueIdx
open Cert.KernelIdeal Cert.KernelIdeal.Gen
open scoped BigOperators

variable (m : (ℓ : Loc nD τ sig) → Buf (Elt Ideal) ℓ) (outs : Outs (F := Ideal))

theorem zeros_apply (h : S_.BroadcastsInDim S512 ![]) (n : Fin 512) :
    broadcastInDim S512 ![] h (constant (F := Ideal) S_ .f32 0x00000000#32) (ix1 n) = (0 : EReal) :=
  (broadcastInDim_apply _ h _ (ix1 n) ix0 fun a => a.elim0).trans Ideal.ofBits_zero_f32

theorem front_apply {α : Type} (x : S512.Idx → α) (h : S512.Slices ![0] S511) (n : Fin 511) :
    extractStridedSlice S511 ![0] x h (ix1 n) = x (ix1 n.castSucc) :=
  extractStridedSlice_apply _ x h _ (ix1 n.castSucc) fun a => match a with | ⟨0, _⟩ => (Nat.zero_add _).symm

theorem cst21_step (W : Valuation τ sig (Elt Ideal)) :
    StableHlo.after hostOps4 W (Proc.devRef .tc main_cst_21) = constant (F := Ideal) S_ .f32 0x00000000#32 := by
  after_results

theorem cst22_step (W : Valuation τ sig (Elt Ideal)) :
    StableHlo.after hostOps4_2 W (Proc.devRef .tc main_cst_22) = constant (F := Ideal) S_ .f32 0x00000000#32 := by
  after_results

theorem cst23_step (W : Valuation τ sig (Elt Ideal)) :
    StableHlo.after hostOps4_4 W (Proc.devRef .tc main_cst_23) = constant (F := Ideal) S_ .f32 0x00000000#32 := by
  after_results

theorem cst24_step (W : Valuation τ sig (Elt Ideal)) :
    StableHlo.after hostOps4_6 W (Proc.devRef .tc main_cst_24) = constant (F := Ideal) S_ .f32 0x00000000#32 := by
  after_results

theorem sel0_step (W : Valuation τ sig (Elt Ideal)) (n : Fin 512) :
    (StableHlo.after hostOps4_1 W (Proc.devRef .tc main_v181) : S512.Idx → EReal) (ix1 n)
      = Scalar.select ((W main_v7 : S512.Idx → BitVec 1) (ix1 n)) ((W main_v84 : S512.Idx → EReal) (ix1 n))
          (broadcastInDim S512 ![] bcast_S_S512 (W main_cst_21 : S_.Idx → EReal) (ix1 n)) := by
  after_results
  simp only [StableHlo.TRef.ofBuf, StableHlo.TRef.toBuf, cast_eq, id]
  rfl

theorem sel1_step (W : Valuation τ sig (Elt Ideal)) (n : Fin 512) :
    (StableHlo.after hostOps4_3 W (Proc.devRef .tc main_v182) : S512.Idx → EReal) (ix1 n)
      = Scalar.select ((W main_v12 : S512.Idx → BitVec 1) (ix1 n)) ((W main_v116 : S512.Idx → EReal) (ix1 n))
          (broadcastInDim S512 ![] bcast_S_S512 (W main_cst_22 : S_.Idx → EReal) (ix1 n)) := by
  after_results
  simp only [StableHlo.TRef.ofBuf, StableHlo.TRef.toBuf, cast_eq, id]
  rfl

theorem sel2_step (W : Valuation τ sig (Elt Ideal)) (n : Fin 512) :
    (StableHlo.after hostOps4_5 W (Proc.devRef .tc main_v184) : S512.Idx → EReal) (ix1 n)
      = Scalar.select ((W main_v17 : S512.Idx → BitVec 1) (ix1 n)) ((W main_v146 : S512.Idx → EReal) (ix1 n))
          (broadcastInDim S512 ![] bcast_S_S512 (W main_cst_23 : S_.Idx → EReal) (ix1 n)) := by
  after_results
  simp only [StableHlo.TRef.ofBuf, StableHlo.TRef.toBuf, cast_eq, id]
  rfl

theorem sel3_step (W : Valuation τ sig (Elt Ideal)) (n : Fin 512) :
    (StableHlo.after hostOps4_7 W (Proc.devRef .tc main_v186) : S512.Idx → EReal) (ix1 n)
      = Scalar.select ((W main_v22 : S512.Idx → BitVec 1) (ix1 n)) ((W main_v180 : S512.Idx → EReal) (ix1 n))
          (broadcastInDim S512 ![] bcast_S_S512 (W main_cst_24 : S_.Idx → EReal) (ix1 n)) := by
  after_results
  simp only [StableHlo.TRef.ofBuf, StableHlo.TRef.toBuf, cast_eq, id]
  rfl

theorem add1_step (W : Valuation τ sig (Elt Ideal)) (n : Fin 512) :
    (StableHlo.after hostOps4_4 W (Proc.devRef .tc main_v183) : S512.Idx → EReal) (ix1 n)
      = addf (F := Ideal) (s := S512) (φ := .f32) (W main_v181 : FVec Ideal S512 .f32) (W main_v182 : FVec Ideal S512 .f32) (ix1 n) := by
  after_results

theorem add2_step (W : Valuation τ sig (Elt Ideal)) (n : Fin 512) :
    (StableHlo.after hostOps4_6 W (Proc.devRef .tc main_v185) : S512.Idx → EReal) (ix1 n)
      = addf (F := Ideal) (s := S512) (φ := .f32) (W main_v183 : FVec Ideal S512 .f32) (W main_v184 : FVec Ideal S512 .f32) (ix1 n) := by
  after_results

theorem neg_step (W : Valuation τ sig (Elt Ideal)) (n : Fin 511) :
    (StableHlo.after hostOps4_8 W (Proc.devRef .tc main_v189) : S511.Idx → EReal) (ix1 n)
      = Host.negf (F := Ideal) (s := S512) (φ := .f32) (addf (F := Ideal) (s := S512) (φ := .f32) (W main_v185 : FVec Ideal S512 .f32) (W main_v186 : FVec Ideal S512 .f32)) (ix1 n.castSucc) := by
  after_results
  erw [front_apply]

theorem V21_cst21 (c : Dev nD) : V21 m outs c main_cst_21 = constant (F := Ideal) S_ .f32 0x00000000#32 := cst21_step (V20 m outs c)
theorem V23_cst22 (c : Dev nD) : V23 m outs c main_cst_22 = constant (F := Ideal) S_ .f32 0x00000000#32 := cst22_step (V22 m outs c)
theorem V25_cst23 (c : Dev nD) : V25 m outs c main_cst_23 = constant (F := Ideal) S_ .f32 0x00000000#32 := cst23_step (V24 m outs c)
theorem V27_cst24 (c : Dev nD) : V27 m outs c main_cst_24 = constant (F := Ideal) S_ .f32 0x00000000#32 := cst24_step (V26 m outs c)

theorem V21_v7 (c : Dev nD) : V21 m outs c main_v7 = V13 m c main_v7 := (V21_of m outs c main_v7 (by decide)).trans <| (V20_of m outs c main_v7 (by decide)).trans <| (V19_of m outs c main_v7 (by decide)).trans <| (V18_of m outs c main_v7 (by decide)).trans <| (V17_of m outs c main_v7 (by decide)).trans <| (V16_of m outs c main_v7 (by decide)).trans <| (V15_of m outs c main_v7 (by decide)).trans <| (V14_of m outs c main_v7 (by decide))
theorem V21_v84 (c : Dev nD) : V21 m outs c main_v84 = V15 m outs c main_v84 := (V21_of m outs c main_v84 (by decide)).trans <| (V20_of m outs c main_v84 (by decide)).trans <| (V19_of m outs c main_v84 (by decide)).trans <| (V18_of m outs c main_v84 (by decide)).trans <| (V17_of m outs c main_v84 (by decide)).trans <| (V16_of m outs c main_v84 (by decide))
theorem V23_v12 (c : Dev nD) : V23 m outs c main_v12 = V13 m c main_v12 := (V23_of m outs c main_v12 (by decide)).trans <| (V22_of m outs c main_v12 (by decide)).trans <| (V21_of m outs c main_v12 (by decide)).trans <| (V20_of m outs c main_v12 (by decide)).trans <| (V19_of m outs c main_v12 (by decide)).trans <| (V18_of m outs c main_v12 (by decide)).trans <| (V17_of m outs c main_v12 (by decide)).trans <| (V16_of m outs c main_v12 (by decide)).trans <| (V15_of m outs c main_v12 (by decide)).trans <| (V14_of m outs c main_v12 (by decide))
theorem V23_v116 (c : Dev nD) : V23 m outs c main_v116 = V17 m outs c main_v116 := (V23_of m outs c main_v116 (by decide)).trans <| (V22_of m outs c main_v116 (by decide)).trans <| (V21_of m outs c main_v116 (by decide)).trans <| (V20_of m outs c main_v116 (by decide)).trans <| (V19_of m outs c main_v116 (by decide)).trans <| (V18_of m outs c main_v116 (by decide))
theorem V24_v181 (c : Dev nD) : V24 m outs c main_v181 = V22 m outs c main_v181 := (V24_of m outs c main_v181 (by decide)).trans <| (V23_of m outs c main_v181 (by decide))
theorem V25_v17 (c : Dev nD) : V25 m outs c main_v17 = V13 m c main_v17 := (V25_of m outs c main_v17 (by decide)).trans <| (V24_of m outs c main_v17 (by decide)).trans <| (V23_of m outs c main_v17 (by decide)).trans <| (V22_of m outs c main_v17 (by decide)).trans <| (V21_of m outs c main_v17 (by decide)).trans <| (V20_of m outs c main_v17 (by decide)).trans <| (V19_of m outs c main_v17 (by decide)).trans <| (V18_of m outs c main_v17 (by decide)).trans <| (V17_of m outs c main_v17 (by decide)).trans <| (V16_of m outs c main_v17 (by decide)).trans <| (V15_of m outs c main_v17 (by decide)).trans <| (V14_of m outs c main_v17 (by decide))
theorem V25_v146 (c : Dev nD) : V25 m outs c main_v146 = V19 m outs c main_v146 := (V25_of m outs c main_v146 (by decide)).trans <| (V24_of m outs c main_v146 (by decide)).trans <| (V23_of m outs c main_v146 (by decide)).trans <| (V22_of m outs c main_v146 (by decide)).trans <| (V21_of m outs c main_v146 (by decide)).trans <| (V20_of m outs c main_v146 (by decide))
theorem V26_v183 (c : Dev nD) : V26 m outs c main_v183 = V25 m outs c main_v183 := (V26_of m outs c main_v183 (by decide))
theorem V27_v22 (c : Dev nD) : V27 m outs c main_v22 = V13 m c main_v22 := (V27_of m outs c main_v22 (by decide)).trans <| (V26_of m outs c main_v22 (by decide)).trans <| (V25_of m outs c main_v22 (by decide)).trans <| (V24_of m outs c main_v22 (by decide)).trans <| (V23_of m outs c main_v22 (by decide)).trans <| (V22_of m outs c main_v22 (by decide)).trans <| (V21_of m outs c main_v22 (by decide)).trans <| (V20_of m outs c main_v22 (by decide)).trans <| (V19_of m outs c main_v22 (by decide)).trans <| (V18_of m outs c main_v22 (by decide)).trans <| (V17_of m outs c main_v22 (by decide)).trans <| (V16_of m outs c main_v22 (by decide)).trans <| (V15_of m outs c main_v22 (by decide)).trans <| (V14_of m outs c main_v22 (by decide))
theorem V27_v180 (c : Dev nD) : V27 m outs c main_v180 = V21 m outs c main_v180 := (V27_of m outs c main_v180 (by decide)).trans <| (V26_of m outs c main_v180 (by decide)).trans <| (V25_of m outs c main_v180 (by decide)).trans <| (V24_of m outs c main_v180 (by decide)).trans <| (V23_of m outs c main_v180 (by decide)).trans <| (V22_of m outs c main_v180 (by decide))
theorem V28_v185 (c : Dev nD) : V28 m outs c main_v185 = V27 m outs c main_v185 := (V28_of m outs c main_v185 (by decide))

theorem V22_v181 (c : Dev nD) (n : Fin 512) (k : BitVec 1) (a : EReal)
    (hk : (V13 m c main_v7 : S512.Idx → BitVec 1) (ix1 n) = k) (ha : (V15 m outs c main_v84 : S512.Idx → EReal) (ix1 n) = a) :
    (V22 m outs c main_v181 : S512.Idx → EReal) (ix1 n) = if k = 1#1 then a else 0 := by
  refine (sel0_step (V21 m outs c) n).trans ?_
  rw [V21_cst21, zeros_apply, V21_v7, V21_v84, hk, ha]
  rfl

theorem V24_v182 (c : Dev nD) (n : Fin 512) (k : BitVec 1) (a : EReal)
    (hk : (V13 m c main_v12 : S512.Idx → BitVec 1) (ix1 n) = k) (ha : (V17 m outs c main_v116 : S512.Idx → EReal) (ix1 n) = a) :
    (V24 m outs c main_v182 : S512.Idx → EReal) (ix1 n) = if k = 1#1 then a else 0 := by
  refine (sel1_step (V23 m outs c) n).trans ?_
  rw [V23_cst22, zeros_apply, V23_v12, V23_v116, hk, ha]
  rfl

theorem V25_v183 (c : Dev nD) (n : Fin 512) (a b : EReal)
    (ha : (V22 m outs c main_v181 : S512.Idx → EReal) (ix1 n) = a) (hb : (V24 m outs c main_v182 : S512.Idx → EReal) (ix1 n) = b) :
    (V25 m outs c main_v183 : S512.Idx → EReal) (ix1 n) = a + b := by
  refine (add1_step (V24 m outs c) n).trans ?_
  rw [addf_apply, V24_v181, ha, hb]

theorem V26_v184 (c : Dev nD) (n : Fin 512) (k : BitVec 1) (a : EReal)
    (hk : (V13 m c main_v17 : S512.Idx → BitVec 1) (ix1 n) = k) (ha : (V19 m outs c main_v146 : S512.Idx → EReal) (ix1 n) = a) :
    (V26 m outs c main_v184 : S512.Idx → EReal) (ix1 n) = if k = 1#1 then a else 0 := by
  refine (sel2_step (V25 m outs c) n).trans ?_
  rw [V25_cst23, zeros_apply, V25_v17, V25_v146, hk, ha]
  rfl

theorem V27_v185 (c : Dev nD) (n : Fin 512) (a b : EReal)
    (ha : (V25 m outs c main_v183 : S512.Idx → EReal) (ix1 n) = a) (hb : (V26 m outs c main_v184 : S512.Idx → EReal) (ix1 n) = b) :
    (V27 m outs c main_v185 : S512.Idx → EReal) (ix1 n) = a + b := by
  refine (add2_step (V26 m outs c) n).trans ?_
  rw [addf_apply, V26_v183, ha, hb]

theorem V28_v186 (c : Dev nD) (n : Fin 512) (k : BitVec 1) (a : EReal)
    (hk : (V13 m c main_v22 : S512.Idx → BitVec 1) (ix1 n) = k) (ha : (V21 m outs c main_v180 : S512.Idx → EReal) (ix1 n) = a) :
    (V28 m outs c main_v186 : S512.Idx → EReal) (ix1 n) = if k = 1#1 then a else 0 := by
  refine (sel3_step (V27 m outs c) n).trans ?_
  rw [V27_cst24, zeros_apply, V27_v22, V27_v180, hk, ha]
  rfl

theorem V29_v189 (c : Dev nD) (n : Fin 511) (a b : EReal)
    (ha : (V27 m outs c main_v185 : S512.Idx → EReal) (ix1 n.castSucc) = a) (hb : (V28 m outs c main_v186 : S512.Idx → EReal) (ix1 n.castSucc) = b) :
    (V29 m outs c main_v189 : S511.Idx → EReal) (ix1 n) = -(a + b) := by
  refine (neg_step (V28 m outs c) n).trans ?_
  rw [hneg_apply, addf_apply, V28_v185, ha, hb]

theorem ker_out (c : Dev nD) (n : Fin 511) :
    (V29 m outs c main_v189 : S511.Idx → EReal) (ix1 n)
      = kerRow ((V13 m c main_v7 : S512.Idx → BitVec 1) (ix1 n.castSucc)) ((V13 m c main_v12 : S512.Idx → BitVec 1) (ix1 n.castSucc))
          ((V13 m c main_v17 : S512.Idx → BitVec 1) (ix1 n.castSucc)) ((V13 m c main_v22 : S512.Idx → BitVec 1) (ix1 n.castSucc))
          (clusterLogit (V13 m c main_v4) (m ((c : Thread nD τ).loc main_arg2)) (m ((c : Thread nD τ).loc main_arg14))
            (m ((c : Thread nD τ).loc main_arg15)) n.castSucc)
          (sixAt (outs 14 main_v38_0 c) (outs 14 main_v38_1 c) (outs 14 main_v38_2 c) n.castSucc)
          (sixAt (outs 16 main_v88_0 c) (outs 16 main_v88_1 c) (outs 16 main_v88_2 c) n.castSucc)
          (sixAt (outs 18 main_v118_0 c) (outs 18 main_v118_1 c) (outs 18 main_v118_2 c) n.castSucc)
          (sixAt (outs 20 main_v152_0 c) (outs 20 main_v152_1 c) (outs 20 main_v152_2 c) n.castSucc) :=
  V29_v189 m outs c n _ _
    (V27_v185 m outs c n.castSucc _ _
      (V25_v183 m outs c n.castSucc _ _
        (V22_v181 m outs c n.castSucc _ _ rfl (V15_v84 m outs c n.castSucc))
        (V24_v182 m outs c n.castSucc _ _ rfl (V17_main_v116 m outs c n.castSucc _ (V15_v86 m outs c n.castSucc 0))))
      (V26_v184 m outs c n.castSucc _ _ rfl (V19_main_v146 m outs c n.castSucc _ (V15_v86 m outs c n.castSucc 1))))
    (V28_v186 m outs c n.castSucc _ _ rfl (V21_main_v180 m outs c n.castSucc _ (V15_v86 m outs c n.castSucc 2)))

end Cert.Hand.GluePost
-- ==== Proof.Spec.lean ====
import Mathlib.Analysis.SpecialFunctions.Log.Basic
import Mathlib.Analysis.SpecialFunctions.Exp
import Mathlib.Algebra.BigOperators.Group.Finset.Basic

noncomputable section

namespace Cert.Hand.Spec

def lse {ι : Type} [Fintype ι] (x : ι → ℝ) : ℝ := Real.log (∑ i, Real.exp (x i))

def nll (y : ℤ) (xh : Fin 20003 → ℝ) (x1 : Fin 20000 → ℝ) (x2 : Fin 160000 → ℝ) (x3 : Fin 67735 → ℝ) : ℝ :=
  if h0 : 0 ≤ y ∧ y < 20000 then
    -(xh ⟨y.toNat, by omega⟩ - lse xh)
  else if h1 : 20000 ≤ y ∧ y < 40000 then
    -((xh ⟨20000, by omega⟩ - lse xh) + (x1 ⟨(y - 20000).toNat, by omega⟩ - lse x1))
  else if h2 : 40000 ≤ y ∧ y < 200000 then
    -((xh ⟨20001, by omega⟩ - lse xh) + (x2 ⟨(y - 40000).toNat, by omega⟩ - lse x2))
  else if h3 : 200000 ≤ y ∧ y < 267735 then
    -((xh ⟨20002, by omega⟩ - lse xh) + (x3 ⟨(y - 200000).toNat, by omega⟩ - lse x3))
  else 0

end Cert.Hand.Spec

end
-- ==== Proof.KerRowClosed.lean ====
import proofs.«412644_j75642964017948_3_alg».proof.Proof.GluePostDefs
import proofs.«412644_j75642964017948_3_alg».proof.Proof.LibLogSumExp
import proofs.«412644_j75642964017948_3_alg».proof.Proof.Spec

noncomputable section

namespace Cert.Hand.KerClosed

open Idealize.ShloMosaic
open Cert.Hand.GluePost Cert.Hand.LSE Cert.Hand.Spec
open scoped BigOperators

def wordIx (j : Fin 20000) : Fin 20003 := ⟨j.val, by omega⟩

def clusIx (j : Fin 3) : Fin 20003 := ⟨20000 + j.val, by omega⟩

theorem logZ_eq (xh : Fin 20003 → ℝ) (cl : Fin 3 → EReal)
    (hcl : ∀ i : Fin 3, cl i = ((xh ⟨20000 + i.val, by omega⟩ : ℝ) : EReal)) (h : Six)
    (hh : ESumm (Finset.univ : Finset (Fin 20000)) (fun j => xh ⟨j.val, by omega⟩) h.st.1 h.st.2) :
    logZ h cl = ((lse xh : ℝ) : EReal) := by
  have hc : ESumm ((Finset.univ : Finset (Fin 3)).image clusIx) xh (clMax cl) (clSum cl) :=
    ESumm.of_tile cl clusIx Finset.univ (fun j _ => hcl j) (fun j hj => absurd (Finset.mem_univ j) hj)
      (fun a _ b _ e => Fin.ext (by
        have e' : (clusIx a).val = (clusIx b).val := congrArg Fin.val e
        have e'' : 20000 + a.val = 20000 + b.val := e'
        omega)) Finset.univ_nonempty rfl
  have hw : ESumm ((Finset.univ : Finset (Fin 20000)).image wordIx) xh h.st.1 h.st.2 :=
    ESumm.image (f := wordIx) (fun a _ b _ e => Fin.ext (by
      have e' : (wordIx a).val = (wordIx b).val := congrArg Fin.val e
      exact e')) hh
  have hd : Disjoint ((Finset.univ : Finset (Fin 20000)).image wordIx) ((Finset.univ : Finset (Fin 3)).image clusIx) := by
    rw [Finset.disjoint_left]
    intro k hk1 hk2
    obtain ⟨a, _, ha⟩ := Finset.mem_image.mp hk1
    obtain ⟨b, _, hb⟩ := Finset.mem_image.mp hk2
    have e1 : (wordIx a).val = k.val := congrArg Fin.val ha
    have e2 : (clusIx b).val = k.val := congrArg Fin.val hb
    have e1' : a.val = k.val := e1
    have e2' : 20000 + b.val = k.val := e2
    omega
  have hu : (Finset.univ : Finset (Fin 20000)).image wordIx ∪ (Finset.univ : Finset (Fin 3)).image clusIx
      = (Finset.univ : Finset (Fin 20003)) := by
    ext k
    simp only [Finset.mem_union, Finset.mem_image, Finset.mem_univ, true_and, iff_true]
    by_cases hk : k.val < 20000
    · exact Or.inl ⟨⟨k.val, hk⟩, Fin.ext rfl⟩
    · exact Or.inr ⟨⟨k.val - 20000, by omega⟩, Fin.ext (by
        show 20000 + (k.val - 20000) = k.val
        omega)⟩
  have hm := ESumm.merge hd hw hc
  rw [hu] at hm
  exact hm.lse

theorem tail_lse {V : Nat} (x : Fin V → ℝ) (t : Six) (ht : ESumm (Finset.univ : Finset (Fin V)) x t.st.1 t.st.2) :
    t.st.1 + Ideal.log t.st.2 = ((lse x : ℝ) : EReal) := ht.lse

theorem kerRow_closed (y : ℤ) (hy : 0 ≤ y) (k0 k1 k2 k3 : BitVec 1)
    (hk0 : k0 = 1#1 ↔ y < 20000) (hk1 : k1 = 1#1 ↔ 20000 ≤ y ∧ y < 40000)
    (hk2 : k2 = 1#1 ↔ 40000 ≤ y ∧ y < 200000) (hk3 : k3 = 1#1 ↔ 200000 ≤ y ∧ y < 267735)
    (xh : Fin 20003 → ℝ) (x1 : Fin 20000 → ℝ) (x2 : Fin 160000 → ℝ) (x3 : Fin 67735 → ℝ)
    (cl : Fin 3 → EReal) (hcl : ∀ i : Fin 3, cl i = ((xh ⟨20000 + i.val, by omega⟩ : ℝ) : EReal))
    (h t1 t2 t3 : Six)
    (hh : ESumm (Finset.univ : Finset (Fin 20000)) (fun j => xh ⟨j.val, by omega⟩) h.st.1 h.st.2)
    (hha : ∀ hlt : y < 20000, h.acc = ((xh ⟨y.toNat, by omega⟩ : ℝ) : EReal))
    (ht1 : ESumm (Finset.univ : Finset (Fin 20000)) x1 t1.st.1 t1.st.2)
    (ht1a : ∀ (hlo : 20000 ≤ y) (hhi : y < 40000), t1.acc = ((x1 ⟨(y - 20000).toNat, by omega⟩ : ℝ) : EReal))
    (ht2 : ESumm (Finset.univ : Finset (Fin 160000)) x2 t2.st.1 t2.st.2)
    (ht2a : ∀ (hlo : 40000 ≤ y) (hhi : y < 200000), t2.acc = ((x2 ⟨(y - 40000).toNat, by omega⟩ : ℝ) : EReal))
    (ht3 : ESumm (Finset.univ : Finset (Fin 67735)) x3 t3.st.1 t3.st.2)
    (ht3a : ∀ (hlo : 200000 ≤ y) (hhi : y < 267735), t3.acc = ((x3 ⟨(y - 200000).toNat, by omega⟩ : ℝ) : EReal)) :
    kerRow k0 k1 k2 k3 cl h t1 t2 t3 = ((nll y xh x1 x2 x3 : ℝ) : EReal) := by
  have hZ := logZ_eq xh cl hcl h hh
  have e1 := tail_lse x1 t1 ht1
  have e2 := tail_lse x2 t2 ht2
  have e3 := tail_lse x3 t3 ht3
  unfold kerRow
  by_cases c0 : y < 20000
  · have k0' : k0 = 1#1 := hk0.mpr c0
    have k1' : ¬ k1 = 1#1 := fun e => by have := hk1.mp e; omega
    have k2' : ¬ k2 = 1#1 := fun e => by have := hk2.mp e; omega
    have k3' : ¬ k3 = 1#1 := fun e => by have := hk3.mp e; omega
    rw [if_pos k0', if_neg k1', if_neg k2', if_neg k3', add_zero, add_zero, add_zero]
    unfold sel0
    rw [hZ, hha c0, nll, dif_pos ⟨hy, c0⟩]
    simp only [EReal.coe_neg, EReal.coe_sub]
  · have k0' : ¬ k0 = 1#1 := fun e => c0 (hk0.mp e)
    have n0 : ¬ (0 ≤ y ∧ y < 20000) := fun e => c0 e.2
    by_cases c1 : y < 40000
    · have k1' : k1 = 1#1 := hk1.mpr ⟨by omega, c1⟩
      have k2' : ¬ k2 = 1#1 := fun e => by have := hk2.mp e; omega
      have k3' : ¬ k3 = 1#1 := fun e => by have := hk3.mp e; omega
      rw [if_neg k0', if_pos k1', if_neg k2', if_neg k3', zero_add, add_zero, add_zero]
      unfold selT
      rw [hZ, hcl 0, ht1a (by omega) c1, e1, nll, dif_neg n0, dif_pos ⟨by omega, c1⟩]
      simp only [EReal.coe_neg, EReal.coe_sub, EReal.coe_add]
      rfl
    · have k1' : ¬ k1 = 1#1 := fun e => c1 (hk1.mp e).2
      have n1 : ¬ (20000 ≤ y ∧ y < 40000) := fun e => c1 e.2
      by_cases c2 : y < 200000
      · have k2' : k2 = 1#1 := hk2.mpr ⟨by omega, c2⟩
        have k3' : ¬ k3 = 1#1 := fun e => by have := hk3.mp e; omega
        rw [if_neg k0', if_neg k1', if_pos k2', if_neg k3', zero_add, zero_add, add_zero]
        unfold selT
        rw [hZ, hcl 1, ht2a (by omega) c2, e2, nll, dif_neg n0, dif_neg n1, dif_pos ⟨by omega, c2⟩]
        simp only [EReal.coe_neg, EReal.coe_sub, EReal.coe_add]
        rfl
      · have k2' : ¬ k2 = 1#1 := fun e => c2 (hk2.mp e).2
        have n2 : ¬ (40000 ≤ y ∧ y < 200000) := fun e => c2 e.2
        by_cases c3 : y < 267735
        · have k3' : k3 = 1#1 := hk3.mpr ⟨by omega, c3⟩
          rw [if_neg k0', if_neg k1', if_neg k2', if_pos k3', zero_add, zero_add, zero_add]
          unfold selT
          rw [hZ, hcl 2, ht3a (by omega) c3, e3, nll, dif_neg n0, dif_neg n1, dif_neg n2, dif_pos ⟨by omega, c3⟩]
          simp only [EReal.coe_neg, EReal.coe_sub, EReal.coe_add]
          rfl
        · have k3' : ¬ k3 = 1#1 := fun e => c3 (hk3.mp e).2
          have n3 : ¬ (200000 ≤ y ∧ y < 267735) := fun e => c3 e.2
          rw [if_neg k0', if_neg k1', if_neg k2', if_neg k3', add_zero, add_zero, add_zero, neg_zero,
            nll, dif_neg n0, dif_neg n1, dif_neg n2, dif_neg n3, EReal.coe_zero]

end Cert.Hand.KerClosed
-- ==== Proof.PreFacts.lean ====
import proofs.«412644_j75642964017948_3_alg».proof.Defs
import Idealize.ShloMosaic.Lib.ReduceAll
import Idealize.ShloMosaic.Lib.ValueIdx
import Idealize.ShloMosaic.Lib.Affine
import Idealize.ShloMosaic.Lib.StableHlo.Predicate

noncomputable section

namespace Cert.Hand.PreFacts

open Idealize.ShloMosaic Idealize.ShloMosaic.TcCoe
open Idealize.ShloMosaic.ValueIdx
open Idealize.ShloMosaic.StableHlo.Predicate (ofBool_eq_one_iff)
open Cert.KernelIdeal

instance : Subsingleton (⟨0, ![]⟩ : Shape).Idx := ⟨fun a b => funext fun d => d.elim0⟩

theorem ofBits_inf_f32 : Ideal.ofBits .f32 0x7F800000#32 = ⊤ := by simp [Ideal.ofBits, Ideal.ieee]

theorem real_of_abs_lt_top (x : EReal)
    (h : Ideal.cmp .olt (max x (-x)) (Ideal.ofBits .f32 0x7F800000#32) = 1#1) : ∃ r : ℝ, x = (r : EReal) := by
  rw [ofBits_inf_f32] at h
  have h' : max x (-x) < ⊤ := by
    simpa only [Ideal.cmp, ofBool_eq_one_iff, decide_eq_true_eq] using h
  induction x using EReal.rec with
  | bot => exact absurd h' (by simp)
  | coe r => exact ⟨r, rfl⟩
  | top => exact absurd h' (by simp)

theorem all_finite {s : Shape} {axes : List (Fin s.rank)} (x : FVec Ideal s .f32)
    (hb : (⟨0, ![]⟩ : Shape).BroadcastsInDim s (![] : Fin 0 → Fin s.rank)) (hr : s.ReducesTo axes ⟨0, ![]⟩)
    (hu : 0 < (⟨0, ![]⟩ : Shape).numel)
    (e : Host.reduce IntOp.andi
          (cmpf .olt (Host.absf x) (broadcastInDim s ![] hb (constant (F := Ideal) ⟨0, ![]⟩ .f32 0x7F800000#32)))
          (constantI ⟨0, ![]⟩ 1 1#1) hr hu ix0 = 1#1) :
    ∀ i, ∃ r : ℝ, x i = (r : EReal) := fun i => by
  have h1 := Host.reduce_andi_all _ _ hr hu ix0 e i
  have h2 : Ideal.cmp .olt (max (x i) (-(x i))) (Ideal.ofBits .f32 0x7F800000#32) = 1#1 := h1
  exact real_of_abs_lt_top (x i) h2

theorem all_nonneg {s : Shape} {axes : List (Fin s.rank)} (y : IVec s 32)
    (hb : (⟨0, ![]⟩ : Shape).BroadcastsInDim s (![] : Fin 0 → Fin s.rank)) (hr : s.ReducesTo axes ⟨0, ![]⟩)
    (hu : 0 < (⟨0, ![]⟩ : Shape).numel)
    (e : Host.reduce IntOp.andi
          (cmpi .sge y (broadcastInDim s ![] hb (constantI ⟨0, ![]⟩ 32 0#32)))
          (constantI ⟨0, ![]⟩ 1 1#1) hr hu ix0 = 1#1) :
    ∀ i, 0 ≤ (y i).toInt := fun i => by
  have h1 := Host.reduce_andi_all _ _ hr hu ix0 e i
  have h2 : IntOp.cmpi .sge (y i) 0#32 = 1#1 := h1
  simpa only [IntOp.cmpi, BitVec.sle, ofBool_eq_one_iff, decide_eq_true_eq, BitVec.toInt_zero] using h2

theorem vandi_eq_one (a b : IVec ⟨0, ![]⟩ 1) (i : (⟨0, ![]⟩ : Shape).Idx) : andi a b i = 1#1 ↔ a i = 1#1 ∧ b i = 1#1 :=
  IntOp.andi_eq_one

structure PreFacts (m : (ℓ : Loc nD τ sig) → Buf (Elt Ideal) ℓ) (c : Dev nD) : Prop where

  fin0 : ∀ i, ∃ r : ℝ, (m ((c : Thread nD τ).loc main_arg0) : S1x512x1024.Idx → EReal) i = (r : EReal)

  lab_nonneg : ∀ i, 0 ≤ ((m ((c : Thread nD τ).loc main_arg1) : S1x512.Idx → BitVec 32) i).toInt

  fin2 : ∀ i, ∃ r : ℝ, (m ((c : Thread nD τ).loc main_arg2) : S1024x1024.Idx → EReal) i = (r : EReal)

  fin3 : ∀ i, ∃ r : ℝ, (m ((c : Thread nD τ).loc main_arg3) : S20000x1024.Idx → EReal) i = (r : EReal)

  fin4 : ∀ i, ∃ r : ℝ, (m ((c : Thread nD τ).loc main_arg4) : S20000.Idx → EReal) i = (r : EReal)

  fin5 : ∀ i, ∃ r : ℝ, (m ((c : Thread nD τ).loc main_arg5) : S1024x256.Idx → EReal) i = (r : EReal)

  fin6 : ∀ i, ∃ r : ℝ, (m ((c : Thread nD τ).loc main_arg6) : S20000x256.Idx → EReal) i = (r : EReal)

  fin7 : ∀ i, ∃ r : ℝ, (m ((c : Thread nD τ).loc main_arg7) : S20000.Idx → EReal) i = (r : EReal)

  fin8 : ∀ i, ∃ r : ℝ, (m ((c : Thread nD τ).loc main_arg8) : S1024x64.Idx → EReal) i = (r : EReal)

  fin9 : ∀ i, ∃ r : ℝ, (m ((c : Thread nD τ).loc main_arg9) : S160000x64.Idx → EReal) i = (r : EReal)

  fin10 : ∀ i, ∃ r : ℝ, (m ((c : Thread nD τ).loc main_arg10) : S160000.Idx → EReal) i = (r : EReal)

  fin11 : ∀ i, ∃ r : ℝ, (m ((c : Thread nD τ).loc main_arg11) : S1024x16.Idx → EReal) i = (r : EReal)

  fin12 : ∀ i, ∃ r : ℝ, (m ((c : Thread nD τ).loc main_arg12) : S67735x16.Idx → EReal) i = (r : EReal)

  fin13 : ∀ i, ∃ r : ℝ, (m ((c : Thread nD τ).loc main_arg13) : S67735.Idx → EReal) i = (r : EReal)

  fin14 : ∀ i, ∃ r : ℝ, (m ((c : Thread nD τ).loc main_arg14) : S3x1024.Idx → EReal) i = (r : EReal)

  fin15 : ∀ i, ∃ r : ℝ, (m ((c : Thread nD τ).loc main_arg15) : S3.Idx → EReal) i = (r : EReal)

theorem pre_facts [hF : Cert.Pre_finite_inputs.Facts] (m : (ℓ : Loc nD τ sig) → Buf (Elt Ideal) ℓ)
    (h : Cert.Pre_KernelIdeal m) (c : Dev nD) : PreFacts m c := by
  have h0 := congrFun (h c) ix0
  dsimp only [Cert.Pre_finite_inputs.fn, Cert.Pre_finite_inputs.fn_part1, Cert.Pre_finite_inputs.fn_part2,
    Cert.Pre_finite_inputs.fn_part3, Cert.Pre_finite_inputs.fn_part4] at h0
  obtain ⟨h0, hlab⟩ := (vandi_eq_one _ _ _).1 h0
  obtain ⟨h0, h15⟩ := (vandi_eq_one _ _ _).1 h0
  obtain ⟨h0, h14⟩ := (vandi_eq_one _ _ _).1 h0
  obtain ⟨h0, h13⟩ := (vandi_eq_one _ _ _).1 h0
  obtain ⟨h0, h12⟩ := (vandi_eq_one _ _ _).1 h0
  obtain ⟨h0, h11⟩ := (vandi_eq_one _ _ _).1 h0
  obtain ⟨h0, h10⟩ := (vandi_eq_one _ _ _).1 h0
  obtain ⟨h0, h9⟩ := (vandi_eq_one _ _ _).1 h0
  obtain ⟨h0, h8⟩ := (vandi_eq_one _ _ _).1 h0
  obtain ⟨h0, h7⟩ := (vandi_eq_one _ _ _).1 h0
  obtain ⟨h0, h6⟩ := (vandi_eq_one _ _ _).1 h0
  obtain ⟨h0, h5⟩ := (vandi_eq_one _ _ _).1 h0
  obtain ⟨h0, h4⟩ := (vandi_eq_one _ _ _).1 h0
  obtain ⟨h0, h3⟩ := (vandi_eq_one _ _ _).1 h0
  obtain ⟨h0, h2⟩ := (vandi_eq_one _ _ _).1 h0
  exact
    { fin0 := all_finite _ _ _ _ h0
      lab_nonneg := all_nonneg _ _ _ _ hlab
      fin2 := all_finite _ _ _ _ h2
      fin3 := all_finite _ _ _ _ h3
      fin4 := all_finite _ _ _ _ h4
      fin5 := all_finite _ _ _ _ h5
      fin6 := all_finite _ _ _ _ h6
      fin7 := all_finite _ _ _ _ h7
      fin8 := all_finite _ _ _ _ h8
      fin9 := all_finite _ _ _ _ h9
      fin10 := all_finite _ _ _ _ h10
      fin11 := all_finite _ _ _ _ h11
      fin12 := all_finite _ _ _ _ h12
      fin13 := all_finite _ _ _ _ h13
      fin14 := all_finite _ _ _ _ h14
      fin15 := all_finite _ _ _ _ h15 }

end Cert.Hand.PreFacts
-- ==== Proof.GluePre.lean ====
import proofs.«412644_j75642964017948_3_alg».proof.Proof.Gen.KernelIdeal.Regions
import Idealize.ShloMosaic.Lib.ValueIdx
import Idealize.ShloMosaic.Lib.ValueLayout
import Idealize.ShloMosaic.Lib.Pipeline.Value
import Idealize.ShloMosaic.Lib.KernelVsHost
import Idealize.ShloMosaic.Lib.StableHlo.Run
import Idealize.ShloMosaic.Lib.StableHlo.Predicate
import Idealize.ShloMosaic.Lib.Affine

set_option maxRecDepth 1856

noncomputable section

namespace Cert.Hand.GluePre

open Idealize.ShloMosaic Idealize.ShloMosaic.TcCoe
open Idealize.SL Idealize.SL.RA Idealize.SL.BI
open scoped Idealize.SL.BI
open Idealize.ShloMosaic.Rounds
open Idealize.ShloMosaic.ValueIdx
open Cert.KernelIdeal Cert.KernelIdeal.Gen
open Idealize.ShloMosaic.StableHlo.Predicate (ofBool_eq_one_iff)

variable (m : (ℓ : Loc nD τ sig) → Buf (Elt Ideal) ℓ) (outs : Outs (F := Ideal))

def mask0w (y : BitVec 32) : BitVec 1 := IntOp.cmpi .slt y 20000#32

def mask1w (y : BitVec 32) : BitVec 1 := IntOp.andi (IntOp.cmpi .sge y 20000#32) (IntOp.cmpi .slt y 40000#32)

def mask2w (y : BitVec 32) : BitVec 1 := IntOp.andi (IntOp.cmpi .sge y 40000#32) (IntOp.cmpi .slt y 200000#32)

def mask3w (y : BitVec 32) : BitVec 1 := IntOp.andi (IntOp.cmpi .sge y 200000#32) (IntOp.cmpi .slt y 267735#32)

theorem slt_lit (y k : BitVec 32) : IntOp.cmpi .slt y k = 1#1 ↔ y.toInt < k.toInt := by
  simp only [IntOp.cmpi, BitVec.slt, ofBool_eq_one_iff, decide_eq_true_eq]

theorem sge_lit (y k : BitVec 32) : IntOp.cmpi .sge y k = 1#1 ↔ k.toInt ≤ y.toInt := by
  simp only [IntOp.cmpi, BitVec.sle, ofBool_eq_one_iff, decide_eq_true_eq]

theorem mask0w_eq_one (y : BitVec 32) : mask0w y = 1#1 ↔ y.toInt < 20000 := by
  unfold mask0w; rw [slt_lit]; exact Iff.rfl

theorem mask1w_eq_one (y : BitVec 32) : mask1w y = 1#1 ↔ 20000 ≤ y.toInt ∧ y.toInt < 40000 := by
  unfold mask1w; rw [IntOp.andi_eq_one, slt_lit, sge_lit]; exact Iff.rfl

theorem mask2w_eq_one (y : BitVec 32) : mask2w y = 1#1 ↔ 40000 ≤ y.toInt ∧ y.toInt < 200000 := by
  unfold mask2w; rw [IntOp.andi_eq_one, slt_lit, sge_lit]; exact Iff.rfl

theorem mask3w_eq_one (y : BitVec 32) : mask3w y = 1#1 ↔ 200000 ≤ y.toInt ∧ y.toInt < 267735 := by
  unfold mask3w; rw [IntOp.andi_eq_one, slt_lit, sge_lit]; exact Iff.rfl

def targetHeadw (y : BitVec 32) : BitVec 32 := Scalar.select (mask0w y) y 20000#32

theorem targetHeadw_eq (y : BitVec 32) : targetHeadw y = if mask0w y = 1#1 then y else 20000#32 := rfl

def clipw (hi w : BitVec 32) : BitVec 32 := IntOp.minsi hi (IntOp.maxsi 0#32 w)

theorem clipw_toInt (hi w : BitVec 32) : (clipw hi w).toInt = min hi.toInt (max 0 w.toInt) := by
  have h0 : (0#32 : BitVec 32).toInt = 0 := by decide
  unfold clipw IntOp.minsi IntOp.maxsi
  simp only [BitVec.slt, decide_eq_true_eq, h0]
  split_ifs <;> omega

theorem toInt_sub_of_le (y s : BitVec 32) (hs : 0 ≤ s.toInt) (hy : s.toInt ≤ y.toInt) :
    (y - s).toInt = y.toInt - s.toInt := by
  have hyl := y.isLt
  have hsl := s.isLt
  rw [BitVec.toInt_eq_toNat_cond] at hs hy ⊢
  rw [BitVec.toInt_eq_toNat_cond] at hy ⊢
  rw [BitVec.toInt_eq_toNat_cond (x := s)]
  rw [BitVec.toNat_sub]
  split_ifs at * <;> omega

def rel1w (y : BitVec 32) : BitVec 32 := clipw 19999#32 (IntOp.subi y 20000#32)

def rel2w (y : BitVec 32) : BitVec 32 := clipw 159999#32 (IntOp.subi y 40000#32)

def rel3w (y : BitVec 32) : BitVec 32 := clipw 67734#32 (IntOp.subi y 200000#32)

theorem rel1w_range (y : BitVec 32) : 0 ≤ (rel1w y).toInt ∧ (rel1w y).toInt ≤ 19999 := by
  unfold rel1w; rw [clipw_toInt, show (19999#32 : BitVec 32).toInt = 19999 by decide]; omega
theorem rel2w_range (y : BitVec 32) : 0 ≤ (rel2w y).toInt ∧ (rel2w y).toInt ≤ 159999 := by
  unfold rel2w; rw [clipw_toInt, show (159999#32 : BitVec 32).toInt = 159999 by decide]; omega
theorem rel3w_range (y : BitVec 32) : 0 ≤ (rel3w y).toInt ∧ (rel3w y).toInt ≤ 67734 := by
  unfold rel3w; rw [clipw_toInt, show (67734#32 : BitVec 32).toInt = 67734 by decide]; omega

theorem rel1w_of_mask (y : BitVec 32) (h : mask1w y = 1#1) : (rel1w y).toInt = y.toInt - 20000 := by
  obtain ⟨h1, h2⟩ := (mask1w_eq_one y).1 h
  have e : (IntOp.subi y 20000#32).toInt = y.toInt - 20000 :=
    toInt_sub_of_le y 20000#32 (by decide) (by rw [show (20000#32 : BitVec 32).toInt = 20000 by decide]; exact h1)
  unfold rel1w; rw [clipw_toInt, e, show (19999#32 : BitVec 32).toInt = 19999 by decide]; omega

theorem rel2w_of_mask (y : BitVec 32) (h : mask2w y = 1#1) : (rel2w y).toInt = y.toInt - 40000 := by
  obtain ⟨h1, h2⟩ := (mask2w_eq_one y).1 h
  have e : (IntOp.subi y 40000#32).toInt = y.toInt - 40000 :=
    toInt_sub_of_le y 40000#32 (by decide) (by rw [show (40000#32 : BitVec 32).toInt = 40000 by decide]; exact h1)
  unfold rel2w; rw [clipw_toInt, e, show (159999#32 : BitVec 32).toInt = 159999 by decide]; omega

theorem rel3w_of_mask (y : BitVec 32) (h : mask3w y = 1#1) : (rel3w y).toInt = y.toInt - 200000 := by
  obtain ⟨h1, h2⟩ := (mask3w_eq_one y).1 h
  have e : (IntOp.subi y 200000#32).toInt = y.toInt - 200000 :=
    toInt_sub_of_le y 200000#32 (by decide) (by rw [show (200000#32 : BitVec 32).toInt = 200000 by decide]; exact h1)
  unfold rel3w; rw [clipw_toInt, e, show (67734#32 : BitVec 32).toInt = 67734 by decide]; omega

theorem toNat_of_toInt_nonneg (w : BitVec 32) (h : 0 ≤ w.toInt) : (w.toNat : ℤ) = w.toInt := by
  have hl := w.isLt
  rw [BitVec.toInt_eq_toNat_cond] at h ⊢
  split_ifs at * <;> omega

theorem targetHeadw_of_mask (y : BitVec 32) (h : mask0w y = 1#1) : targetHeadw y = y := by
  rw [targetHeadw_eq, if_pos h]
theorem v4_term (c : Dev nD) :
    (V13 m c main_v4 : S512x1024.Idx → EReal) =
      pad S512x1024 ![0, 0] ![1, 0] ![0, 0]
        (shapeCast S511x1024
          (extractStridedSlice S1x511x1024 ![0, 0, 0] (m ((c : Thread nD τ).loc main_arg0) : S1x512x1024.Idx → EReal)
            slices_S1x512x1024_S1x511x1024_0_0_0)
          shapeCasts_S1x511x1024_S511x1024)
        (sitofp (F := Ideal) .f32 (constantI S_ 32 0#32)) pads_S511x1024_S512x1024_010_000 h_S_ := by
  rw [V13_of m c main_v4 (by decide), V12_of m c main_v4 (by decide), V11_of m c main_v4 (by decide), V10_of m c main_v4 (by decide), V9_of m c main_v4 (by decide), V8_of m c main_v4 (by decide), V7_of m c main_v4 (by decide), V6_of m c main_v4 (by decide), V5_of m c main_v4 (by decide), V4_of m c main_v4 (by decide), V3_of m c main_v4 (by decide)]
  show StableHlo.after hostOps0_1 _ (Proc.devRef .tc main_v4) = _
  after_results
  rfl

theorem xpad (c : Dev nD) (n : Fin 512) (k : Fin 1024) :
    (V13 m c main_v4 : S512x1024.Idx → EReal) (ix2 n k) =
      if h : n.val < 511 then
        (m ((c : Thread nD τ).loc main_arg0) : S1x512x1024.Idx → EReal) (ix3 (0 : Fin 1) (⟨n.val, by omega⟩ : Fin 512) k)
      else (0 : EReal) := by
  rw [v4_term]
  by_cases h : n.val < 511
  · rw [dif_pos h]
    refine (pad_apply_of_inside _ _ _ _ _ pads_S511x1024_S512x1024_010_000 h_S_ (ix2 n k) (ix2 (⟨n.val, h⟩ : Fin 511) k)
      (fun a => match a with
        | ⟨0, _⟩ => by show n.val = 0 + n.val * (0 + 1); omega
        | ⟨1, _⟩ => by show k.val = 0 + k.val * (0 + 1); omega)).trans ?_
    refine (shapeCast_apply _ shapeCasts_S1x511x1024_S511x1024 (ix2 (⟨n.val, h⟩ : Fin 511) k)
      (ix3 (0 : Fin 1) (⟨n.val, h⟩ : Fin 511) k) (by
        rw [Shape.rowMajor_val_three, Shape.rowMajor_val_two]
        show (0 * 511 + n.val) * 1024 + k.val = n.val * 1024 + k.val
        omega)).trans ?_
    exact extractStridedSlice_apply _ _ slices_S1x512x1024_S1x511x1024_0_0_0 (ix3 (0 : Fin 1) (⟨n.val, h⟩ : Fin 511) k)
      (ix3 (0 : Fin 1) (⟨n.val, by omega⟩ : Fin 512) k)
      (fun a => match a with
        | ⟨0, _⟩ => by show (0 : Nat) = 0 + 0; omega
        | ⟨1, _⟩ => by show n.val = 0 + n.val; omega
        | ⟨2, _⟩ => by show k.val = 0 + k.val; omega)
  · rw [dif_neg h]
    refine (pad_apply_of_not_inside _ _ _ _ _ pads_S511x1024_S512x1024_010_000 h_S_ (ix2 n k) (0 : Fin 2) (by
      intro hin
      have e : (n.val - 0) / (0 + 1) < 511 := hin.2.2
      omega)).trans ?_
    show Scalar.sitofp (F := Ideal) .f32 (0#32) = 0
    exact sitofp_zero

theorem v5_term (c : Dev nD) :
    (V4 m c main_v5 : S512.Idx → BitVec 32) =
      pad S512 ![0] ![1] ![0]
        (shapeCast S511
          (extractStridedSlice S1x511 ![0, 1] (m ((c : Thread nD τ).loc main_arg1) : S1x512.Idx → BitVec 32)
            slices_S1x512_S1x511_0_1)
          shapeCasts_S1x511_S511)
        (constantI S_ 32 0#32) pads_S511_S512_010 h_S_ := by
  show StableHlo.after hostOps0_3 _ (Proc.devRef .tc main_v5) = _
  after_results
  rfl

def ypad (c : Dev nD) (n : Fin 512) : BitVec 32 :=
  if h : n.val < 511 then
    (m ((c : Thread nD τ).loc main_arg1) : S1x512.Idx → BitVec 32) (ix2 (0 : Fin 1) (⟨n.val + 1, by omega⟩ : Fin 512))
  else 0#32

theorem v5_apply (c : Dev nD) (n : Fin 512) : (V4 m c main_v5 : S512.Idx → BitVec 32) (ix1 n) = ypad m c n := by
  rw [v5_term]
  unfold ypad
  by_cases h : n.val < 511
  · rw [dif_pos h]
    refine (pad_apply_of_inside _ _ _ _ _ pads_S511_S512_010 h_S_ (ix1 n) (ix1 (⟨n.val, h⟩ : Fin 511))
      (fun a => match a with
        | ⟨0, _⟩ => by show n.val = 0 + n.val * (0 + 1); omega)).trans ?_
    refine (shapeCast_apply _ shapeCasts_S1x511_S511 (ix1 (⟨n.val, h⟩ : Fin 511))
      (ix2 (0 : Fin 1) (⟨n.val, h⟩ : Fin 511)) (by
        rw [Shape.rowMajor_val_two, Shape.rowMajor_val_one]
        show 0 * 511 + n.val = n.val
        omega)).trans ?_
    exact extractStridedSlice_apply _ _ slices_S1x512_S1x511_0_1 (ix2 (0 : Fin 1) (⟨n.val, h⟩ : Fin 511))
      (ix2 (0 : Fin 1) (⟨n.val + 1, by omega⟩ : Fin 512))
      (fun a => match a with
        | ⟨0, _⟩ => by show (0 : Nat) = 0 + 0; omega
        | ⟨1, _⟩ => by show n.val + 1 = 1 + n.val; omega)
  · rw [dif_neg h]
    exact pad_apply_of_not_inside _ _ _ _ _ pads_S511_S512_010 h_S_ (ix1 n) (0 : Fin 1) (by
      intro hin
      have e : (n.val - 0) / (0 + 1) < 511 := hin.2.2
      omega)

theorem ypad_of_lt (c : Dev nD) (n : Fin 512) (h : n.val < 511) :
    ypad m c n = (m ((c : Thread nD τ).loc main_arg1) : S1x512.Idx → BitVec 32) (ix2 (0 : Fin 1) (⟨n.val + 1, by omega⟩ : Fin 512)) := by
  unfold ypad; rw [dif_pos h]
theorem v5_persist (c : Dev nD) : V13 m c main_v5 = V4 m c main_v5 := by
  rw [V13_of m c main_v5 (by decide), V12_of m c main_v5 (by decide), V11_of m c main_v5 (by decide), V10_of m c main_v5 (by decide), V9_of m c main_v5 (by decide), V8_of m c main_v5 (by decide), V7_of m c main_v5 (by decide), V6_of m c main_v5 (by decide), V5_of m c main_v5 (by decide)]

theorem v7_term (c : Dev nD) :
    (V5 m c main_v7 : S512.Idx → BitVec 1) =
      cmpi .slt (V4 m c main_v5 : S512.Idx → BitVec 32) (broadcastInDim S512 ![] bcast_S_S512 (constantI S_ 32 20000#32)) := by
  show StableHlo.after hostOps0_4 (V4 m c) (Proc.devRef .tc main_v7) = _
  generalize V4 m c = W
  after_results

theorem v12_term (c : Dev nD) :
    (V5 m c main_v12 : S512.Idx → BitVec 1) =
      andi (cmpi .sge (V4 m c main_v5 : S512.Idx → BitVec 32) (broadcastInDim S512 ![] bcast_S_S512 (constantI S_ 32 20000#32)))
        (cmpi .slt (V4 m c main_v5 : S512.Idx → BitVec 32) (broadcastInDim S512 ![] bcast_S_S512 (constantI S_ 32 40000#32))) := by
  show StableHlo.after hostOps0_4 (V4 m c) (Proc.devRef .tc main_v12) = _
  generalize V4 m c = W
  after_results

theorem v17_term (c : Dev nD) :
    (V5 m c main_v17 : S512.Idx → BitVec 1) =
      andi (cmpi .sge (V4 m c main_v5 : S512.Idx → BitVec 32) (broadcastInDim S512 ![] bcast_S_S512 (constantI S_ 32 40000#32)))
        (cmpi .slt (V4 m c main_v5 : S512.Idx → BitVec 32) (broadcastInDim S512 ![] bcast_S_S512 (constantI S_ 32 200000#32))) := by
  show StableHlo.after hostOps0_4 (V4 m c) (Proc.devRef .tc main_v17) = _
  generalize V4 m c = W
  after_results

theorem v22_term (c : Dev nD) :
    (V5 m c main_v22 : S512.Idx → BitVec 1) =
      andi (cmpi .sge (V4 m c main_v5 : S512.Idx → BitVec 32) (broadcastInDim S512 ![] bcast_S_S512 (constantI S_ 32 200000#32)))
        (cmpi .slt (V4 m c main_v5 : S512.Idx → BitVec 32) (broadcastInDim S512 ![] bcast_S_S512 (constantI S_ 32 267735#32))) := by
  show StableHlo.after hostOps0_4 (V4 m c) (Proc.devRef .tc main_v22) = _
  generalize V4 m c = W
  after_results

theorem v7_apply (c : Dev nD) (n : Fin 512) : (V5 m c main_v7 : S512.Idx → BitVec 1) (ix1 n) = mask0w (ypad m c n) := by
  rw [v7_term, ← v5_apply]; rfl
theorem v12_apply (c : Dev nD) (n : Fin 512) : (V5 m c main_v12 : S512.Idx → BitVec 1) (ix1 n) = mask1w (ypad m c n) := by
  rw [v12_term, ← v5_apply]; rfl
theorem v17_apply (c : Dev nD) (n : Fin 512) : (V5 m c main_v17 : S512.Idx → BitVec 1) (ix1 n) = mask2w (ypad m c n) := by
  rw [v17_term, ← v5_apply]; rfl
theorem v22_apply (c : Dev nD) (n : Fin 512) : (V5 m c main_v22 : S512.Idx → BitVec 1) (ix1 n) = mask3w (ypad m c n) := by
  rw [v22_term, ← v5_apply]; rfl

theorem col_apply {α : Type} (x : S512.Idx → α) (n : Fin 512) (z : Fin 1) :
    shapeCast S512x1 x shapeCasts_S512_S512x1 (ix2 n z) = x (ix1 n) :=
  shapeCast_apply x shapeCasts_S512_S512x1 (ix2 n z) (ix1 n) (by
    rw [Shape.rowMajor_val_two, Shape.rowMajor_val_one]
    show n.val = n.val * 1 + z.val
    omega)

theorem v24_term (c : Dev nD) :
    (V7 m c main_v24 : S512x1.Idx → BitVec 32) =
      shapeCast S512x1
        (select (cmpi .slt (V4 m c main_v5 : S512.Idx → BitVec 32) (broadcastInDim S512 ![] bcast_S_S512 (constantI S_ 32 20000#32)))
          (V4 m c main_v5 : S512.Idx → BitVec 32)
          (broadcastInDim S512 ![] bcast_S_S512 (constantI S_ 32 20000#32)))
        shapeCasts_S512_S512x1 := by
  show StableHlo.after hostOps0_6 (StableHlo.after hostOps0_5 (StableHlo.after hostOps0_4 (V4 m c))) (Proc.devRef .tc main_v24) = _
  generalize V4 m c = W
  after_results
  rfl

theorem v28_term (c : Dev nD) :
    (V9 m c main_v28 : S512x1.Idx → BitVec 32) =
      shapeCast S512x1
        (minsi (broadcastInDim S512 ![] bcast_S_S512 (constantI S_ 32 19999#32))
          (maxsi (broadcastInDim S512 ![] bcast_S_S512 (constantI S_ 32 0#32))
            (subi (V6 m c main_v5 : S512.Idx → BitVec 32) (broadcastInDim S512 ![] bcast_S_S512 (constantI S_ 32 20000#32)))))
        shapeCasts_S512_S512x1 := by
  show StableHlo.after hostOps0_8 (StableHlo.after hostOps0_7 (StableHlo.after hostOps0_6 (V6 m c))) (Proc.devRef .tc main_v28) = _
  generalize V6 m c = W
  after_results
  rfl

theorem v32_term (c : Dev nD) :
    (V11 m c main_v32 : S512x1.Idx → BitVec 32) =
      shapeCast S512x1
        (minsi (broadcastInDim S512 ![] bcast_S_S512 (constantI S_ 32 159999#32))
          (maxsi (broadcastInDim S512 ![] bcast_S_S512 (constantI S_ 32 0#32))
            (subi (V8 m c main_v5 : S512.Idx → BitVec 32) (broadcastInDim S512 ![] bcast_S_S512 (constantI S_ 32 40000#32)))))
        shapeCasts_S512_S512x1 := by
  show StableHlo.after hostOps0_10 (StableHlo.after hostOps0_9 (StableHlo.after hostOps0_8 (V8 m c))) (Proc.devRef .tc main_v32) = _
  generalize V8 m c = W
  after_results
  rfl

theorem v36_term (c : Dev nD) :
    (V13 m c main_v36 : S512x1.Idx → BitVec 32) =
      shapeCast S512x1
        (minsi (broadcastInDim S512 ![] bcast_S_S512 (constantI S_ 32 67734#32))
          (maxsi (broadcastInDim S512 ![] bcast_S_S512 (constantI S_ 32 0#32))
            (subi (V10 m c main_v5 : S512.Idx → BitVec 32) (broadcastInDim S512 ![] bcast_S_S512 (constantI S_ 32 200000#32)))))
        shapeCasts_S512_S512x1 := by
  show StableHlo.after hostOps0_12 (StableHlo.after hostOps0_11 (StableHlo.after hostOps0_10 (V10 m c))) (Proc.devRef .tc main_v36) = _
  generalize V10 m c = W
  after_results
  rfl

theorem v24_apply (c : Dev nD) (n : Fin 512) (z : Fin 1) :
    (V7 m c main_v24 : S512x1.Idx → BitVec 32) (ix2 n z) = targetHeadw (ypad m c n) := by
  rw [v24_term, col_apply, ← v5_apply]; rfl
theorem v28_apply (c : Dev nD) (n : Fin 512) (z : Fin 1) :
    (V9 m c main_v28 : S512x1.Idx → BitVec 32) (ix2 n z) = rel1w (ypad m c n) := by
  rw [v28_term, col_apply, ← v5_apply, ← show V6 m c main_v5 = V4 m c main_v5 from by rw [V6_of m c main_v5 (by decide), V5_of m c main_v5 (by decide)]]; rfl
theorem v32_apply (c : Dev nD) (n : Fin 512) (z : Fin 1) :
    (V11 m c main_v32 : S512x1.Idx → BitVec 32) (ix2 n z) = rel2w (ypad m c n) := by
  rw [v32_term, col_apply, ← v5_apply, ← show V8 m c main_v5 = V4 m c main_v5 from by rw [V8_of m c main_v5 (by decide), V7_of m c main_v5 (by decide), V6_of m c main_v5 (by decide), V5_of m c main_v5 (by decide)]]; rfl
theorem v36_apply (c : Dev nD) (n : Fin 512) (z : Fin 1) :
    (V13 m c main_v36 : S512x1.Idx → BitVec 32) (ix2 n z) = rel3w (ypad m c n) := by
  rw [v36_term, col_apply, ← v5_apply, ← show V10 m c main_v5 = V4 m c main_v5 from by rw [V10_of m c main_v5 (by decide), V9_of m c main_v5 (by decide), V8_of m c main_v5 (by decide), V7_of m c main_v5 (by decide), V6_of m c main_v5 (by decide), V5_of m c main_v5 (by decide)]]; rfl

theorem arg4_at12 (c : Dev nD) : V12 m c main_arg4 = m ((c : Thread nD τ).loc main_arg4) :=
  (V12_of m c main_arg4 (by decide)).trans <| (V11_of m c main_arg4 (by decide)).trans <| (V10_of m c main_arg4 (by decide)).trans <| (V9_of m c main_arg4 (by decide)).trans <| (V8_of m c main_arg4 (by decide)).trans <| (V7_of m c main_arg4 (by decide)).trans <| (V6_of m c main_arg4 (by decide)).trans <| (V5_of m c main_arg4 (by decide)).trans <| (V4_of m c main_arg4 (by decide)).trans <| (V3_of m c main_arg4 (by decide)).trans <| (V2_of m c main_arg4 (by decide)).trans <| (V1_of m c main_arg4 (by decide)).trans rfl
theorem arg7_at14 (c : Dev nD) : V14 m outs c main_arg7 = m ((c : Thread nD τ).loc main_arg7) :=
  (V14_of m outs c main_arg7 (by decide)).trans <| (V13_of m c main_arg7 (by decide)).trans <| (V12_of m c main_arg7 (by decide)).trans <| (V11_of m c main_arg7 (by decide)).trans <| (V10_of m c main_arg7 (by decide)).trans <| (V9_of m c main_arg7 (by decide)).trans <| (V8_of m c main_arg7 (by decide)).trans <| (V7_of m c main_arg7 (by decide)).trans <| (V6_of m c main_arg7 (by decide)).trans <| (V5_of m c main_arg7 (by decide)).trans <| (V4_of m c main_arg7 (by decide)).trans <| (V3_of m c main_arg7 (by decide)).trans <| (V2_of m c main_arg7 (by decide)).trans <| (V1_of m c main_arg7 (by decide)).trans rfl
theorem arg10_at16 (c : Dev nD) : V16 m outs c main_arg10 = m ((c : Thread nD τ).loc main_arg10) :=
  (V16_of m outs c main_arg10 (by decide)).trans <| (V15_of m outs c main_arg10 (by decide)).trans <| (V14_of m outs c main_arg10 (by decide)).trans <| (V13_of m c main_arg10 (by decide)).trans <| (V12_of m c main_arg10 (by decide)).trans <| (V11_of m c main_arg10 (by decide)).trans <| (V10_of m c main_arg10 (by decide)).trans <| (V9_of m c main_arg10 (by decide)).trans <| (V8_of m c main_arg10 (by decide)).trans <| (V7_of m c main_arg10 (by decide)).trans <| (V6_of m c main_arg10 (by decide)).trans <| (V5_of m c main_arg10 (by decide)).trans <| (V4_of m c main_arg10 (by decide)).trans <| (V3_of m c main_arg10 (by decide)).trans <| (V2_of m c main_arg10 (by decide)).trans <| (V1_of m c main_arg10 (by decide)).trans rfl
theorem arg12_at18 (c : Dev nD) : V18 m outs c main_arg12 = m ((c : Thread nD τ).loc main_arg12) :=
  (V18_of m outs c main_arg12 (by decide)).trans <| (V17_of m outs c main_arg12 (by decide)).trans <| (V16_of m outs c main_arg12 (by decide)).trans <| (V15_of m outs c main_arg12 (by decide)).trans <| (V14_of m outs c main_arg12 (by decide)).trans <| (V13_of m c main_arg12 (by decide)).trans <| (V12_of m c main_arg12 (by decide)).trans <| (V11_of m c main_arg12 (by decide)).trans <| (V10_of m c main_arg12 (by decide)).trans <| (V9_of m c main_arg12 (by decide)).trans <| (V8_of m c main_arg12 (by decide)).trans <| (V7_of m c main_arg12 (by decide)).trans <| (V6_of m c main_arg12 (by decide)).trans <| (V5_of m c main_arg12 (by decide)).trans <| (V4_of m c main_arg12 (by decide)).trans <| (V3_of m c main_arg12 (by decide)).trans <| (V2_of m c main_arg12 (by decide)).trans <| (V1_of m c main_arg12 (by decide)).trans rfl
theorem arg13_at18 (c : Dev nD) : V18 m outs c main_arg13 = m ((c : Thread nD τ).loc main_arg13) :=
  (V18_of m outs c main_arg13 (by decide)).trans <| (V17_of m outs c main_arg13 (by decide)).trans <| (V16_of m outs c main_arg13 (by decide)).trans <| (V15_of m outs c main_arg13 (by decide)).trans <| (V14_of m outs c main_arg13 (by decide)).trans <| (V13_of m c main_arg13 (by decide)).trans <| (V12_of m c main_arg13 (by decide)).trans <| (V11_of m c main_arg13 (by decide)).trans <| (V10_of m c main_arg13 (by decide)).trans <| (V9_of m c main_arg13 (by decide)).trans <| (V8_of m c main_arg13 (by decide)).trans <| (V7_of m c main_arg13 (by decide)).trans <| (V6_of m c main_arg13 (by decide)).trans <| (V5_of m c main_arg13 (by decide)).trans <| (V4_of m c main_arg13 (by decide)).trans <| (V3_of m c main_arg13 (by decide)).trans <| (V2_of m c main_arg13 (by decide)).trans <| (V1_of m c main_arg13 (by decide)).trans rfl

theorem v37_term (c : Dev nD) :
    (V13 m c main_v37 : S20000x1.Idx → EReal) =
      shapeCast S20000x1 (m ((c : Thread nD τ).loc main_arg4) : S20000.Idx → EReal) shapeCasts_S20000_S20000x1 := by
  rw [← arg4_at12 m c]
  show StableHlo.after hostOps0_12 (V12 m c) (Proc.devRef .tc main_v37) = _
  generalize V12 m c = W
  after_results
  rfl

theorem v87_term (c : Dev nD) :
    (V15 m outs c main_v87 : S20000x1.Idx → EReal) =
      shapeCast S20000x1 (m ((c : Thread nD τ).loc main_arg7) : S20000.Idx → EReal) shapeCasts_S20000_S20000x1 := by
  rw [← arg7_at14 m outs c]
  show StableHlo.after hostOps1 (V14 m outs c) (Proc.devRef .tc main_v87) = _
  generalize V14 m outs c = W
  after_results
  rfl

theorem v117_term (c : Dev nD) :
    (V17 m outs c main_v117 : S160000x1.Idx → EReal) =
      shapeCast S160000x1 (m ((c : Thread nD τ).loc main_arg10) : S160000.Idx → EReal) shapeCasts_S160000_S160000x1 := by
  rw [← arg10_at16 m outs c]
  show StableHlo.after hostOps2 (V16 m outs c) (Proc.devRef .tc main_v117) = _
  generalize V16 m outs c = W
  after_results
  rfl

theorem v148_term (c : Dev nD) :
    (V19 m outs c main_v148 : S69632x16.Idx → EReal) =
      concatenate S69632x16 0
        [⟨S67735x16, (m ((c : Thread nD τ).loc main_arg12) : S67735x16.Idx → EReal)⟩,
         ⟨S1897x16, broadcastInDim S1897x16 ![] bcast_S_S1897x16 (constant (F := Ideal) S_ .f32 0x00000000#32)⟩]
        concatenates_S67735x16_S1897x16_S69632x16_d0 := by
  rw [← arg12_at18 m outs c]
  show StableHlo.after hostOps3 (V18 m outs c) (Proc.devRef .tc main_v148) = _
  generalize V18 m outs c = W
  after_results

theorem v151_term (c : Dev nD) :
    (V19 m outs c main_v151 : S69632x1.Idx → EReal) =
      shapeCast S69632x1
        (concatenate S69632 0
          [⟨S67735, (m ((c : Thread nD τ).loc main_arg13) : S67735.Idx → EReal)⟩,
           ⟨S1897, broadcastInDim S1897 ![] bcast_S_S1897 (constant (F := Ideal) S_ .f32 0x00000000#32)⟩]
          concatenates_S67735_S1897_S69632_d0)
        shapeCasts_S69632_S69632x1 := by
  rw [← arg13_at18 m outs c]
  show StableHlo.after hostOps3 (V18 m outs c) (Proc.devRef .tc main_v151) = _
  generalize V18 m outs c = W
  after_results
  rfl

theorem col20000_apply {α : Type} (x : S20000.Idx → α) (j : Fin 20000) (z : Fin 1) :
    shapeCast S20000x1 x shapeCasts_S20000_S20000x1 (ix2 j z) = x (ix1 j) :=
  shapeCast_apply x shapeCasts_S20000_S20000x1 (ix2 j z) (ix1 j) (by
    rw [Shape.rowMajor_val_two, Shape.rowMajor_val_one]
    show j.val = j.val * 1 + z.val
    omega)

theorem col160000_apply {α : Type} (x : S160000.Idx → α) (j : Fin 160000) (z : Fin 1) :
    shapeCast S160000x1 x shapeCasts_S160000_S160000x1 (ix2 j z) = x (ix1 j) :=
  shapeCast_apply x shapeCasts_S160000_S160000x1 (ix2 j z) (ix1 j) (by
    rw [Shape.rowMajor_val_two, Shape.rowMajor_val_one]
    show j.val = j.val * 1 + z.val
    omega)

theorem col69632_apply {α : Type} (x : S69632.Idx → α) (j : Fin 69632) (z : Fin 1) :
    shapeCast S69632x1 x shapeCasts_S69632_S69632x1 (ix2 j z) = x (ix1 j) :=
  shapeCast_apply x shapeCasts_S69632_S69632x1 (ix2 j z) (ix1 j) (by
    rw [Shape.rowMajor_val_two, Shape.rowMajor_val_one]
    show j.val = j.val * 1 + z.val
    omega)

theorem w3pad_apply (w : S67735x16.Idx → EReal) (j : Fin 69632) (d : Fin 16) :
    concatenate S69632x16 0
        [⟨S67735x16, w⟩,
         ⟨S1897x16, broadcastInDim S1897x16 ![] bcast_S_S1897x16 (constant (F := Ideal) S_ .f32 0x00000000#32)⟩]
        concatenates_S67735x16_S1897x16_S69632x16_d0 (ix2 j d)
      = if h : j.val < 67735 then w (ix2 (⟨j.val, h⟩ : Fin 67735) d) else (0 : EReal) := by
  by_cases h : j.val < 67735
  · rw [dif_pos h]
    exact concatenate_pair_apply_left (0 : Fin 2) w _ concatenates_S67735x16_S1897x16_S69632x16_d0 (ix2 j d) rfl
      (ix2 (⟨j.val, h⟩ : Fin 67735) d) (fun b => match b with | ⟨0, _⟩ => rfl | ⟨1, _⟩ => rfl)
  · rw [dif_neg h]
    refine (concatenate_pair_apply_right (t := S69632x16) (s₁ := S67735x16) (s₂ := S1897x16) (0 : Fin 2) w
      (broadcastInDim S1897x16 ![] bcast_S_S1897x16 (constant (F := Ideal) S_ .f32 0x00000000#32))
      concatenates_S67735x16_S1897x16_S69632x16_d0 (ix2 j d) rfl rfl
      (ix2 (⟨j.val - 67735, by omega⟩ : Fin 1897) d)
      (fun b => match b with
        | ⟨0, _⟩ => fun hb => absurd rfl hb
        | ⟨1, _⟩ => fun _ => rfl)
      (by show j.val - 67735 + 67735 = j.val; omega)).trans ?_
    exact Ideal.ofBits_zero_f32

theorem b3pad_apply (b : S67735.Idx → EReal) (j : Fin 69632) :
    concatenate S69632 0
        [⟨S67735, b⟩,
         ⟨S1897, broadcastInDim S1897 ![] bcast_S_S1897 (constant (F := Ideal) S_ .f32 0x00000000#32)⟩]
        concatenates_S67735_S1897_S69632_d0 (ix1 j)
      = if h : j.val < 67735 then b (ix1 (⟨j.val, h⟩ : Fin 67735)) else (0 : EReal) := by
  by_cases h : j.val < 67735
  · rw [dif_pos h]
    exact concatenate_pair_apply_left (0 : Fin 1) b _ concatenates_S67735_S1897_S69632_d0 (ix1 j) rfl
      (ix1 (⟨j.val, h⟩ : Fin 67735)) (fun b => match b with | ⟨0, _⟩ => rfl)
  · rw [dif_neg h]
    refine (concatenate_pair_apply_right (t := S69632) (s₁ := S67735) (s₂ := S1897) (0 : Fin 1) b
      (broadcastInDim S1897 ![] bcast_S_S1897 (constant (F := Ideal) S_ .f32 0x00000000#32))
      concatenates_S67735_S1897_S69632_d0 (ix1 j) rfl rfl
      (ix1 (⟨j.val - 67735, by omega⟩ : Fin 1897))
      (fun b => match b with
        | ⟨0, _⟩ => fun hb => absurd rfl hb)
      (by show j.val - 67735 + 67735 = j.val; omega)).trans ?_
    exact Ideal.ofBits_zero_f32

theorem mask0_read (c : Dev nD) (n : Fin 512) :
    (V13 m c main_v7 : S512.Idx → BitVec 1) (ix1 n) = mask0w (ypad m c n) := by
  rw [show V13 m c main_v7 = V5 m c main_v7 from (V13_of m c main_v7 (by decide)).trans <| (V12_of m c main_v7 (by decide)).trans <| (V11_of m c main_v7 (by decide)).trans <| (V10_of m c main_v7 (by decide)).trans <| (V9_of m c main_v7 (by decide)).trans <| (V8_of m c main_v7 (by decide)).trans <| (V7_of m c main_v7 (by decide)).trans <| (V6_of m c main_v7 (by decide)).trans rfl]; exact v7_apply m c n

theorem mask1_read (c : Dev nD) (n : Fin 512) :
    (V13 m c main_v12 : S512.Idx → BitVec 1) (ix1 n) = mask1w (ypad m c n) := by
  rw [show V13 m c main_v12 = V5 m c main_v12 from (V13_of m c main_v12 (by decide)).trans <| (V12_of m c main_v12 (by decide)).trans <| (V11_of m c main_v12 (by decide)).trans <| (V10_of m c main_v12 (by decide)).trans <| (V9_of m c main_v12 (by decide)).trans <| (V8_of m c main_v12 (by decide)).trans <| (V7_of m c main_v12 (by decide)).trans <| (V6_of m c main_v12 (by decide)).trans rfl]; exact v12_apply m c n

theorem mask2_read (c : Dev nD) (n : Fin 512) :
    (V13 m c main_v17 : S512.Idx → BitVec 1) (ix1 n) = mask2w (ypad m c n) := by
  rw [show V13 m c main_v17 = V5 m c main_v17 from (V13_of m c main_v17 (by decide)).trans <| (V12_of m c main_v17 (by decide)).trans <| (V11_of m c main_v17 (by decide)).trans <| (V10_of m c main_v17 (by decide)).trans <| (V9_of m c main_v17 (by decide)).trans <| (V8_of m c main_v17 (by decide)).trans <| (V7_of m c main_v17 (by decide)).trans <| (V6_of m c main_v17 (by decide)).trans rfl]; exact v17_apply m c n

theorem mask3_read (c : Dev nD) (n : Fin 512) :
    (V13 m c main_v22 : S512.Idx → BitVec 1) (ix1 n) = mask3w (ypad m c n) := by
  rw [show V13 m c main_v22 = V5 m c main_v22 from (V13_of m c main_v22 (by decide)).trans <| (V12_of m c main_v22 (by decide)).trans <| (V11_of m c main_v22 (by decide)).trans <| (V10_of m c main_v22 (by decide)).trans <| (V9_of m c main_v22 (by decide)).trans <| (V8_of m c main_v22 (by decide)).trans <| (V7_of m c main_v22 (by decide)).trans <| (V6_of m c main_v22 (by decide)).trans rfl]; exact v22_apply m c n

theorem targetHead_read (c : Dev nD) (n : Fin 512) (z : Fin 1) :
    (V13 m c main_v24 : S512x1.Idx → BitVec 32) (ix2 n z) = targetHeadw (ypad m c n) := by
  rw [show V13 m c main_v24 = V7 m c main_v24 from (V13_of m c main_v24 (by decide)).trans <| (V12_of m c main_v24 (by decide)).trans <| (V11_of m c main_v24 (by decide)).trans <| (V10_of m c main_v24 (by decide)).trans <| (V9_of m c main_v24 (by decide)).trans <| (V8_of m c main_v24 (by decide)).trans rfl]; exact v24_apply m c n z

theorem rel1_read (c : Dev nD) (n : Fin 512) (z : Fin 1) :
    (V13 m c main_v28 : S512x1.Idx → BitVec 32) (ix2 n z) = rel1w (ypad m c n) := by
  rw [show V13 m c main_v28 = V9 m c main_v28 from (V13_of m c main_v28 (by decide)).trans <| (V12_of m c main_v28 (by decide)).trans <| (V11_of m c main_v28 (by decide)).trans <| (V10_of m c main_v28 (by decide)).trans rfl]; exact v28_apply m c n z

theorem rel2_read (c : Dev nD) (n : Fin 512) (z : Fin 1) :
    (V13 m c main_v32 : S512x1.Idx → BitVec 32) (ix2 n z) = rel2w (ypad m c n) := by
  rw [show V13 m c main_v32 = V11 m c main_v32 from (V13_of m c main_v32 (by decide)).trans <| (V12_of m c main_v32 (by decide)).trans rfl]; exact v32_apply m c n z

theorem rel3_read (c : Dev nD) (n : Fin 512) (z : Fin 1) :
    (V13 m c main_v36 : S512x1.Idx → BitVec 32) (ix2 n z) = rel3w (ypad m c n) :=
  v36_apply m c n z

theorem b0col_read (c : Dev nD) (j : Fin 20000) (z : Fin 1) :
    (V13 m c main_v37 : S20000x1.Idx → EReal) (ix2 j z)
      = (m ((c : Thread nD τ).loc main_arg4) : S20000.Idx → EReal) (ix1 j) := by
  rw [v37_term, col20000_apply]

theorem b1col_read (c : Dev nD) (j : Fin 20000) (z : Fin 1) :
    (V15 m outs c main_v87 : S20000x1.Idx → EReal) (ix2 j z)
      = (m ((c : Thread nD τ).loc main_arg7) : S20000.Idx → EReal) (ix1 j) := by
  rw [v87_term, col20000_apply]

theorem b2col_read (c : Dev nD) (j : Fin 160000) (z : Fin 1) :
    (V17 m outs c main_v117 : S160000x1.Idx → EReal) (ix2 j z)
      = (m ((c : Thread nD τ).loc main_arg10) : S160000.Idx → EReal) (ix1 j) := by
  rw [v117_term, col160000_apply]

theorem w3pad_read (c : Dev nD) (j : Fin 69632) (d : Fin 16) :
    (V19 m outs c main_v148 : S69632x16.Idx → EReal) (ix2 j d)
      = if h : j.val < 67735 then
          (m ((c : Thread nD τ).loc main_arg12) : S67735x16.Idx → EReal) (ix2 (⟨j.val, h⟩ : Fin 67735) d)
        else (0 : EReal) := by
  rw [v148_term]; exact w3pad_apply _ j d

theorem b3pad_read (c : Dev nD) (j : Fin 69632) (z : Fin 1) :
    (V19 m outs c main_v151 : S69632x1.Idx → EReal) (ix2 j z)
      = if h : j.val < 67735 then
          (m ((c : Thread nD τ).loc main_arg13) : S67735.Idx → EReal) (ix1 (⟨j.val, h⟩ : Fin 67735))
        else (0 : EReal) := by
  rw [v151_term, col69632_apply]; exact b3pad_apply _ j

end Cert.Hand.GluePre
-- ==== Proof.RefBase.lean ====
import proofs.«412644_j75642964017948_3_alg».proof.Proof.RefReadP
-- ==== Proof.RefLSMath.lean ====
import Idealize.ShloMosaic.PureOps.Ideal.Laws
import Mathlib.Order.CompleteLattice.Finset

noncomputable section

namespace Cert.Hand.RefLS

open Idealize.ShloMosaic

theorem ofBits_negInf : Ideal.ofBits .f32 0xFF800000#32 = (⊥ : EReal) := by
  simp [Ideal.ofBits, Ideal.ieee]

end Cert.Hand.RefLS
-- ==== Proof.RefLogSoftmaxHead.lean ====
import proofs.«412644_j75642964017948_3_alg».proof.Proof.RefBase
import proofs.«412644_j75642964017948_3_alg».proof.Proof.RefLSMath
import Idealize.ShloMosaic.Lib.ValueIdx
import Idealize.ShloMosaic.Lib.Pipeline.Value
import Idealize.ShloMosaic.PureOps.Ideal.Laws

noncomputable section

namespace Cert.Hand.RefLS

open Cert.ReferenceIdeal Cert.ReferenceIdeal.Gen Cert.ReferenceIdeal.ReadP Idealize.ShloMosaic Idealize.ShloMosaic.ValueIdx

def Wcat (w0 : S20000x1024.Idx → EReal) (cw : S3x1024.Idx → EReal) (j : Fin 20003) (d : Fin 1024) : EReal :=
  if h : j.val < 20000 then w0 (ix2 (⟨j.val, h⟩ : Fin 20000) d)
  else cw (ix2 (⟨j.val - 20000, by have := j.isLt; omega⟩ : Fin 3) d)

def bcat (b0 : S20000.Idx → EReal) (cb : S3.Idx → EReal) (j : Fin 20003) : EReal :=
  if h : j.val < 20000 then b0 (ix1 (⟨j.val, h⟩ : Fin 20000))
  else cb (ix1 (⟨j.val - 20000, by have := j.isLt; omega⟩ : Fin 3))

def Ghead (x : S1x512x1024.Idx → EReal) (proj : S1024x1024.Idx → EReal) (w0 : S20000x1024.Idx → EReal)
    (b0 : S20000.Idx → EReal) (cw : S3x1024.Idx → EReal) (cb : S3.Idx → EReal) (n : Fin 511) (j : Fin 20003) : EReal :=
  (∑ d : Fin 1024, (∑ k : Fin 1024, x (ix3 (0 : Fin 1) (⟨n.val, by have := n.isLt; omega⟩ : Fin 512) k) * proj (ix2 k d))
      * Wcat w0 cw j d) + bcat b0 cb j

theorem wcat_read (x3 : (⟨S20000x1024, .f32⟩ : BufTy).Contents (Elt Ideal)) (x14 : (⟨S3x1024, .f32⟩ : BufTy).Contents (Elt Ideal))
    (j : Fin 20003) (d : Fin 1024) :
    val_main_v4 (F := Ideal) x3 x14 (ix2 j d) = Wcat x3 x14 j d := by
  unfold val_main_v4 Wcat
  by_cases h : j.val < 20000
  · rw [dif_pos h]
    exact concatenate_pair_apply_left 0 x3 x14 concatenates_S20000x1024_S3x1024_S20003x1024_d0 (ix2 j d) rfl
      (ix2 (⟨j.val, h⟩ : Fin 20000) d) (fun b => match b with
        | ⟨0, _⟩ => rfl
        | ⟨1, _⟩ => rfl)
  · rw [dif_neg h]
    exact concatenate_pair_apply_right 0 x3 x14 concatenates_S20000x1024_S3x1024_S20003x1024_d0 (ix2 j d) rfl rfl
      (ix2 (⟨j.val - 20000, by have := j.isLt; omega⟩ : Fin 3) d) (fun b => match b with
        | ⟨0, _⟩ => fun hb => absurd rfl hb
        | ⟨1, _⟩ => fun _ => rfl)
      (by show j.val - 20000 + 20000 = j.val; omega)

theorem bcat_read (x4 : (⟨S20000, .f32⟩ : BufTy).Contents (Elt Ideal)) (x15 : (⟨S3, .f32⟩ : BufTy).Contents (Elt Ideal))
    (j : Fin 20003) :
    val_main_v5 (F := Ideal) x4 x15 (ix1 j) = bcat x4 x15 j := by
  unfold val_main_v5 bcat
  by_cases h : j.val < 20000
  · rw [dif_pos h]
    exact concatenate_pair_apply_left 0 x4 x15 concatenates_S20000_S3_S20003_d0 (ix1 j) rfl
      (ix1 (⟨j.val, h⟩ : Fin 20000)) (fun b => match b with
        | ⟨0, _⟩ => rfl)
  · rw [dif_neg h]
    exact concatenate_pair_apply_right 0 x4 x15 concatenates_S20000_S3_S20003_d0 (ix1 j) rfl rfl
      (ix1 (⟨j.val - 20000, by have := j.isLt; omega⟩ : Fin 3)) (fun b => match b with
        | ⟨0, _⟩ => fun hb => absurd rfl hb)
      (by show j.val - 20000 + 20000 = j.val; omega)

theorem head_logits (x0 : (⟨S1x512x1024, .f32⟩ : BufTy).Contents (Elt Ideal)) (x2 : (⟨S1024x1024, .f32⟩ : BufTy).Contents (Elt Ideal)) (x3 : (⟨S20000x1024, .f32⟩ : BufTy).Contents (Elt Ideal)) (x4 : (⟨S20000, .f32⟩ : BufTy).Contents (Elt Ideal)) (x14 : (⟨S3x1024, .f32⟩ : BufTy).Contents (Elt Ideal)) (x15 : (⟨S3, .f32⟩ : BufTy).Contents (Elt Ideal)) (n : Fin 511) (j : Fin 20003) :
    val_main_v11 (F := Ideal) x0 x2 x3 x4 x14 x15 (ix2 n j) = Ghead x0 x2 x3 x4 x14 x15 n j := by
  have ex : ∀ d k : Fin 1024, idx_main_v0 (idx_main_v1 (lidx_main_v6 (lidx_main_v8 (ix2 n j) d) k))
      = ix3 (0 : Fin 1) (⟨n.val, by have := n.isLt; omega⟩ : Fin 512) k := fun d k => funext fun a => Fin.ext (by
    have hn : n.val < 511 := n.isLt
    have hk : k.val < 1024 := k.isLt
    match a with
    | ⟨0, _⟩ => rfl
    | ⟨1, _⟩ => show (n.val * 1024 + k.val) / 1024 % 511 = n.val; omega
    | ⟨2, _⟩ => show (n.val * 1024 + k.val) % 1024 = k.val; omega)
  have ep : ∀ d k : Fin 1024, ridx_main_v6 (lidx_main_v8 (ix2 n j) d) k = ix2 k d := fun d k => funext fun a => Fin.ext (by
    match a with
    | ⟨0, _⟩ => rfl
    | ⟨1, _⟩ => rfl)
  have ew : ∀ d : Fin 1024, idx_main_v7 (ridx_main_v8 (ix2 n j) d) = ix2 j d := fun d => funext fun a => Fin.ext (by
    match a with
    | ⟨0, _⟩ => rfl
    | ⟨1, _⟩ => rfl)
  have eb : idx_main_v9 (idx_main_v10 (ix2 n j)) = ix1 j := funext fun a => Fin.ext (by
    match a with
    | ⟨0, _⟩ => rfl)
  rw [val_main_v11_apply, val_main_v8_apply, val_main_v10_apply, val_main_v9_apply, eb, bcat_read]
  simp only [val_main_v6_apply, val_main_v1_apply, val_main_v0_apply, val_main_v7_apply, ex, ep, ew, wcat_read,
    Ideal.addf_def]
  rfl

theorem head_rowmax (x0 : (⟨S1x512x1024, .f32⟩ : BufTy).Contents (Elt Ideal)) (x2 : (⟨S1024x1024, .f32⟩ : BufTy).Contents (Elt Ideal)) (x3 : (⟨S20000x1024, .f32⟩ : BufTy).Contents (Elt Ideal)) (x4 : (⟨S20000, .f32⟩ : BufTy).Contents (Elt Ideal)) (x14 : (⟨S3x1024, .f32⟩ : BufTy).Contents (Elt Ideal)) (x15 : (⟨S3, .f32⟩ : BufTy).Contents (Elt Ideal)) (n : Fin 511) :
    val_main_call0_v0 (F := Ideal) x0 x2 x3 x4 x14 x15 (ix1 n)
      = Finset.univ.sup fun j : Fin 20003 => val_main_v11 (F := Ideal) x0 x2 x3 x4 x14 x15 (ix2 n j) := by
  unfold val_main_call0_v0
  generalize val_main_v11 (F := Ideal) x0 x2 x3 x4 x14 x15 = y
  have h : S511x20003.Reduces [1] S511 := by decide
  rw [Host.reduce_eq_fold_single (FloatOps.maximumf (F := Ideal) (φ := .f32)) y _ reducesTo_S511x20003_S511_d1 h h_S_]
  have hf : (y ∘ h.lift (ix1 n)) = fun k : Fin 20003 => y (ix2 n k) := funext fun k => congrArg y (funext fun a => Fin.ext (by
    match a with
    | ⟨0, _⟩ => rfl
    | ⟨1, _⟩ => rfl))
  show (Finset.univ : Finset (Fin 20003)).fold max (Ideal.ofBits .f32 0xFF800000#32) (y ∘ h.lift (ix1 n)) = _
  rw [hf, ofBits_negInf]
  rfl

theorem head_shift (x0 : (⟨S1x512x1024, .f32⟩ : BufTy).Contents (Elt Ideal)) (x2 : (⟨S1024x1024, .f32⟩ : BufTy).Contents (Elt Ideal)) (x3 : (⟨S20000x1024, .f32⟩ : BufTy).Contents (Elt Ideal)) (x4 : (⟨S20000, .f32⟩ : BufTy).Contents (Elt Ideal)) (x14 : (⟨S3x1024, .f32⟩ : BufTy).Contents (Elt Ideal)) (x15 : (⟨S3, .f32⟩ : BufTy).Contents (Elt Ideal)) (n : Fin 511) (j : Fin 20003) :
    val_main_call0_v5 (F := Ideal) x0 x2 x3 x4 x14 x15 (ix2 n j)
      = Ghead x0 x2 x3 x4 x14 x15 n j - Finset.univ.sup (Ghead x0 x2 x3 x4 x14 x15 n) := by
  have e : idx_main_call0_v3 (idx_main_call0_v4 (ix2 n j)) = ix1 n := funext fun a => Fin.ext (by
    match a with
    | ⟨0, _⟩ => rfl)
  rw [val_main_call0_v5_apply, val_main_call0_v4_apply, val_main_call0_v3_apply, val_main_call0_v2_apply,
    val_main_call0_v1_apply, val_main_call0_cst_0_apply, e, head_rowmax, head_logits]
  simp only [head_logits, Ideal.subf_def, Ideal.maximumf_def, Ideal.ofBits_def, ofBits_negInf]
  rw [max_eq_right bot_le]

theorem head_sumexp (x0 : (⟨S1x512x1024, .f32⟩ : BufTy).Contents (Elt Ideal)) (x2 : (⟨S1024x1024, .f32⟩ : BufTy).Contents (Elt Ideal)) (x3 : (⟨S20000x1024, .f32⟩ : BufTy).Contents (Elt Ideal)) (x4 : (⟨S20000, .f32⟩ : BufTy).Contents (Elt Ideal)) (x14 : (⟨S3x1024, .f32⟩ : BufTy).Contents (Elt Ideal)) (x15 : (⟨S3, .f32⟩ : BufTy).Contents (Elt Ideal)) (n : Fin 511) :
    val_main_call0_v7 (F := Ideal) x0 x2 x3 x4 x14 x15 (ix1 n)
      = ∑ j : Fin 20003, Ideal.exp (Ghead x0 x2 x3 x4 x14 x15 n j - Finset.univ.sup (Ghead x0 x2 x3 x4 x14 x15 n)) := by
  have e : ∀ k : Fin 20003, idx_main_call0_v7 (ix1 n) k = ix2 n k := fun k => funext fun a => Fin.ext (by
    match a with
    | ⟨0, _⟩ => rfl
    | ⟨1, _⟩ => rfl)
  rw [val_main_call0_v7_apply, val_main_call0_cst_1_apply]
  simp only [val_main_call0_v6_apply, e, head_shift, Ideal.hostUnary_exp_def, Ideal.ofBits_def, Ideal.ofBits_zero_f32,
    zero_add]

theorem head_lp (x0 : (⟨S1x512x1024, .f32⟩ : BufTy).Contents (Elt Ideal)) (x2 : (⟨S1024x1024, .f32⟩ : BufTy).Contents (Elt Ideal)) (x3 : (⟨S20000x1024, .f32⟩ : BufTy).Contents (Elt Ideal)) (x4 : (⟨S20000, .f32⟩ : BufTy).Contents (Elt Ideal)) (x14 : (⟨S3x1024, .f32⟩ : BufTy).Contents (Elt Ideal)) (x15 : (⟨S3, .f32⟩ : BufTy).Contents (Elt Ideal)) (n : Fin 511) (j : Fin 20003) :
    val_main_v12 (F := Ideal) x0 x2 x3 x4 x14 x15 (ix2 n j)
      = (Ghead x0 x2 x3 x4 x14 x15 n j - Finset.univ.sup (Ghead x0 x2 x3 x4 x14 x15 n))
        - Ideal.log (∑ j' : Fin 20003, Ideal.exp (Ghead x0 x2 x3 x4 x14 x15 n j' - Finset.univ.sup (Ghead x0 x2 x3 x4 x14 x15 n))) := by
  have e : idx_main_call0_v8 (idx_main_call0_v10 (ix2 n j)) = ix1 n := funext fun a => Fin.ext (by
    match a with
    | ⟨0, _⟩ => rfl)
  rw [val_main_v12_apply, head_shift, val_main_call0_v10_apply, val_main_call0_v9_apply, val_main_call0_v8_apply, e,
    head_sumexp]
  simp only [Ideal.subf_def, Ideal.hostUnary_log_def]

end Cert.Hand.RefLS
-- ==== Proof.RefLogSoftmaxT1.lean ====
import proofs.«412644_j75642964017948_3_alg».proof.Proof.RefBase
import proofs.«412644_j75642964017948_3_alg».proof.Proof.RefLSMath
import Idealize.ShloMosaic.Lib.ValueIdx
import Idealize.ShloMosaic.Lib.Pipeline.Value
import Idealize.ShloMosaic.PureOps.Ideal.Laws

noncomputable section

namespace Cert.Hand.RefLS

open Cert.ReferenceIdeal Cert.ReferenceIdeal.Gen Cert.ReferenceIdeal.ReadP Idealize.ShloMosaic Idealize.ShloMosaic.ValueIdx

def Gtail1 (x : S1x512x1024.Idx → EReal) (proj : S1024x256.Idx → EReal) (w : S20000x256.Idx → EReal)
    (b : S20000.Idx → EReal) (n : Fin 511) (j : Fin 20000) : EReal :=
  (∑ d : Fin 256, (∑ k : Fin 1024, x (ix3 (0 : Fin 1) (⟨n.val, by have := n.isLt; omega⟩ : Fin 512) k) * proj (ix2 k d))
      * w (ix2 j d)) + b (ix1 j)

theorem tail1_logits (x0 : (⟨S1x512x1024, .f32⟩ : BufTy).Contents (Elt Ideal)) (x5 : (⟨S1024x256, .f32⟩ : BufTy).Contents (Elt Ideal)) (x6 : (⟨S20000x256, .f32⟩ : BufTy).Contents (Elt Ideal)) (x7 : (⟨S20000, .f32⟩ : BufTy).Contents (Elt Ideal)) (n : Fin 511) (j : Fin 20000) :
    val_main_v34 (F := Ideal) x0 x5 x6 x7 (ix2 n j) = Gtail1 x0 x5 x6 x7 n j := by
  have ex : ∀ (d : Fin 256) (k : Fin 1024), idx_main_v0 (idx_main_v1 (lidx_main_v29 (lidx_main_v31 (ix2 n j) d) k))
      = ix3 (0 : Fin 1) (⟨n.val, by have := n.isLt; omega⟩ : Fin 512) k := fun d k => funext fun a => Fin.ext (by
    have hn : n.val < 511 := n.isLt
    have hk : k.val < 1024 := k.isLt
    match a with
    | ⟨0, _⟩ => rfl
    | ⟨1, _⟩ => show (n.val * 1024 + k.val) / 1024 % 511 = n.val; omega
    | ⟨2, _⟩ => show (n.val * 1024 + k.val) % 1024 = k.val; omega)
  have ep : ∀ (d : Fin 256) (k : Fin 1024), ridx_main_v29 (lidx_main_v31 (ix2 n j) d) k = ix2 k d := fun d k => funext fun a => Fin.ext (by
    match a with
    | ⟨0, _⟩ => rfl
    | ⟨1, _⟩ => rfl)
  have ew : ∀ d : Fin 256, idx_main_v30 (ridx_main_v31 (ix2 n j) d) = ix2 j d := fun d => funext fun a => Fin.ext (by
    match a with
    | ⟨0, _⟩ => rfl
    | ⟨1, _⟩ => rfl)
  have eb : idx_main_v32 (idx_main_v33 (ix2 n j)) = ix1 j := funext fun a => Fin.ext (by
    match a with
    | ⟨0, _⟩ => rfl)
  rw [val_main_v34_apply, val_main_v31_apply, val_main_v33_apply, val_main_v32_apply, eb]
  simp only [val_main_v29_apply, val_main_v1_apply, val_main_v0_apply, val_main_v30_apply, ex, ep, ew, Ideal.addf_def]
  rfl

theorem tail1_rowmax (x0 : (⟨S1x512x1024, .f32⟩ : BufTy).Contents (Elt Ideal)) (x5 : (⟨S1024x256, .f32⟩ : BufTy).Contents (Elt Ideal)) (x6 : (⟨S20000x256, .f32⟩ : BufTy).Contents (Elt Ideal)) (x7 : (⟨S20000, .f32⟩ : BufTy).Contents (Elt Ideal)) (n : Fin 511) :
    val_main_call5_v0 (F := Ideal) x0 x5 x6 x7 (ix1 n)
      = Finset.univ.sup fun j : Fin 20000 => val_main_v34 (F := Ideal) x0 x5 x6 x7 (ix2 n j) := by
  unfold val_main_call5_v0
  generalize val_main_v34 (F := Ideal) x0 x5 x6 x7 = y
  have h : S511x20000.Reduces [1] S511 := by decide
  rw [Host.reduce_eq_fold_single (FloatOps.maximumf (F := Ideal) (φ := .f32)) y _ reducesTo_S511x20000_S511_d1 h h_S_]
  have hf : (y ∘ h.lift (ix1 n)) = fun k : Fin 20000 => y (ix2 n k) := funext fun k => congrArg y (funext fun a => Fin.ext (by
    match a with
    | ⟨0, _⟩ => rfl
    | ⟨1, _⟩ => rfl))
  show (Finset.univ : Finset (Fin 20000)).fold max (Ideal.ofBits .f32 0xFF800000#32) (y ∘ h.lift (ix1 n)) = _
  rw [hf, ofBits_negInf]
  rfl

theorem tail1_shift (x0 : (⟨S1x512x1024, .f32⟩ : BufTy).Contents (Elt Ideal)) (x5 : (⟨S1024x256, .f32⟩ : BufTy).Contents (Elt Ideal)) (x6 : (⟨S20000x256, .f32⟩ : BufTy).Contents (Elt Ideal)) (x7 : (⟨S20000, .f32⟩ : BufTy).Contents (Elt Ideal)) (n : Fin 511) (j : Fin 20000) :
    val_main_call5_v5 (F := Ideal) x0 x5 x6 x7 (ix2 n j)
      = Gtail1 x0 x5 x6 x7 n j - Finset.univ.sup (Gtail1 x0 x5 x6 x7 n) := by
  have e : idx_main_call5_v3 (idx_main_call5_v4 (ix2 n j)) = ix1 n := funext fun a => Fin.ext (by
    match a with
    | ⟨0, _⟩ => rfl)
  rw [val_main_call5_v5_apply, val_main_call5_v4_apply, val_main_call5_v3_apply, val_main_call5_v2_apply,
    val_main_call5_v1_apply, val_main_call5_cst_0_apply, e, tail1_rowmax, tail1_logits]
  simp only [tail1_logits, Ideal.subf_def, Ideal.maximumf_def, Ideal.ofBits_def, ofBits_negInf]
  rw [max_eq_right bot_le]

theorem tail1_sumexp (x0 : (⟨S1x512x1024, .f32⟩ : BufTy).Contents (Elt Ideal)) (x5 : (⟨S1024x256, .f32⟩ : BufTy).Contents (Elt Ideal)) (x6 : (⟨S20000x256, .f32⟩ : BufTy).Contents (Elt Ideal)) (x7 : (⟨S20000, .f32⟩ : BufTy).Contents (Elt Ideal)) (n : Fin 511) :
    val_main_call5_v7 (F := Ideal) x0 x5 x6 x7 (ix1 n)
      = ∑ j : Fin 20000, Ideal.exp (Gtail1 x0 x5 x6 x7 n j - Finset.univ.sup (Gtail1 x0 x5 x6 x7 n)) := by
  have e : ∀ k : Fin 20000, idx_main_call5_v7 (ix1 n) k = ix2 n k := fun k => funext fun a => Fin.ext (by
    match a with
    | ⟨0, _⟩ => rfl
    | ⟨1, _⟩ => rfl)
  rw [val_main_call5_v7_apply, val_main_call5_cst_1_apply]
  simp only [val_main_call5_v6_apply, e, tail1_shift, Ideal.hostUnary_exp_def, Ideal.ofBits_def, Ideal.ofBits_zero_f32,
    zero_add]

theorem tail1_lp (x0 : (⟨S1x512x1024, .f32⟩ : BufTy).Contents (Elt Ideal)) (x5 : (⟨S1024x256, .f32⟩ : BufTy).Contents (Elt Ideal)) (x6 : (⟨S20000x256, .f32⟩ : BufTy).Contents (Elt Ideal)) (x7 : (⟨S20000, .f32⟩ : BufTy).Contents (Elt Ideal)) (n : Fin 511) (j : Fin 20000) :
    val_main_v35 (F := Ideal) x0 x5 x6 x7 (ix2 n j)
      = (Gtail1 x0 x5 x6 x7 n j - Finset.univ.sup (Gtail1 x0 x5 x6 x7 n))
        - Ideal.log (∑ j' : Fin 20000, Ideal.exp (Gtail1 x0 x5 x6 x7 n j' - Finset.univ.sup (Gtail1 x0 x5 x6 x7 n))) := by
  have e : idx_main_call5_v8 (idx_main_call5_v10 (ix2 n j)) = ix1 n := funext fun a => Fin.ext (by
    match a with
    | ⟨0, _⟩ => rfl)
  rw [val_main_v35_apply, tail1_shift, val_main_call5_v10_apply, val_main_call5_v9_apply, val_main_call5_v8_apply, e,
    tail1_sumexp]
  simp only [Ideal.subf_def, Ideal.hostUnary_log_def]

end Cert.Hand.RefLS
-- ==== Proof.RefLogSoftmaxT2.lean ====
import proofs.«412644_j75642964017948_3_alg».proof.Proof.RefBase
import proofs.«412644_j75642964017948_3_alg».proof.Proof.RefLSMath
import Idealize.ShloMosaic.Lib.ValueIdx
import Idealize.ShloMosaic.Lib.Pipeline.Value
import Idealize.ShloMosaic.PureOps.Ideal.Laws

noncomputable section

namespace Cert.Hand.RefLS

open Cert.ReferenceIdeal Cert.ReferenceIdeal.Gen Cert.ReferenceIdeal.ReadP Idealize.ShloMosaic Idealize.ShloMosaic.ValueIdx

def Gtail2 (x : S1x512x1024.Idx → EReal) (proj : S1024x64.Idx → EReal) (w : S160000x64.Idx → EReal)
    (b : S160000.Idx → EReal) (n : Fin 511) (j : Fin 160000) : EReal :=
  (∑ d : Fin 64, (∑ k : Fin 1024, x (ix3 (0 : Fin 1) (⟨n.val, by have := n.isLt; omega⟩ : Fin 512) k) * proj (ix2 k d))
      * w (ix2 j d)) + b (ix1 j)

theorem tail2_logits (x0 : (⟨S1x512x1024, .f32⟩ : BufTy).Contents (Elt Ideal)) (x8 : (⟨S1024x64, .f32⟩ : BufTy).Contents (Elt Ideal)) (x9 : (⟨S160000x64, .f32⟩ : BufTy).Contents (Elt Ideal)) (x10 : (⟨S160000, .f32⟩ : BufTy).Contents (Elt Ideal)) (n : Fin 511) (j : Fin 160000) :
    val_main_v57 (F := Ideal) x0 x8 x9 x10 (ix2 n j) = Gtail2 x0 x8 x9 x10 n j := by
  have ex : ∀ (d : Fin 64) (k : Fin 1024), idx_main_v0 (idx_main_v1 (lidx_main_v52 (lidx_main_v54 (ix2 n j) d) k))
      = ix3 (0 : Fin 1) (⟨n.val, by have := n.isLt; omega⟩ : Fin 512) k := fun d k => funext fun a => Fin.ext (by
    have hn : n.val < 511 := n.isLt
    have hk : k.val < 1024 := k.isLt
    match a with
    | ⟨0, _⟩ => rfl
    | ⟨1, _⟩ => show (n.val * 1024 + k.val) / 1024 % 511 = n.val; omega
    | ⟨2, _⟩ => show (n.val * 1024 + k.val) % 1024 = k.val; omega)
  have ep : ∀ (d : Fin 64) (k : Fin 1024), ridx_main_v52 (lidx_main_v54 (ix2 n j) d) k = ix2 k d := fun d k => funext fun a => Fin.ext (by
    match a with
    | ⟨0, _⟩ => rfl
    | ⟨1, _⟩ => rfl)
  have ew : ∀ d : Fin 64, idx_main_v53 (ridx_main_v54 (ix2 n j) d) = ix2 j d := fun d => funext fun a => Fin.ext (by
    match a with
    | ⟨0, _⟩ => rfl
    | ⟨1, _⟩ => rfl)
  have eb : idx_main_v55 (idx_main_v56 (ix2 n j)) = ix1 j := funext fun a => Fin.ext (by
    match a with
    | ⟨0, _⟩ => rfl)
  rw [val_main_v57_apply, val_main_v54_apply, val_main_v56_apply, val_main_v55_apply, eb]
  simp only [val_main_v52_apply, val_main_v1_apply, val_main_v0_apply, val_main_v53_apply, ex, ep, ew, Ideal.addf_def]
  rfl

theorem tail2_rowmax (x0 : (⟨S1x512x1024, .f32⟩ : BufTy).Contents (Elt Ideal)) (x8 : (⟨S1024x64, .f32⟩ : BufTy).Contents (Elt Ideal)) (x9 : (⟨S160000x64, .f32⟩ : BufTy).Contents (Elt Ideal)) (x10 : (⟨S160000, .f32⟩ : BufTy).Contents (Elt Ideal)) (n : Fin 511) :
    val_main_call9_v0 (F := Ideal) x0 x8 x9 x10 (ix1 n)
      = Finset.univ.sup fun j : Fin 160000 => val_main_v57 (F := Ideal) x0 x8 x9 x10 (ix2 n j) := by
  unfold val_main_call9_v0
  generalize val_main_v57 (F := Ideal) x0 x8 x9 x10 = y
  have h : S511x160000.Reduces [1] S511 := by decide
  rw [Host.reduce_eq_fold_single (FloatOps.maximumf (F := Ideal) (φ := .f32)) y _ reducesTo_S511x160000_S511_d1 h h_S_]
  have hf : (y ∘ h.lift (ix1 n)) = fun k : Fin 160000 => y (ix2 n k) := funext fun k => congrArg y (funext fun a => Fin.ext (by
    match a with
    | ⟨0, _⟩ => rfl
    | ⟨1, _⟩ => rfl))
  show (Finset.univ : Finset (Fin 160000)).fold max (Ideal.ofBits .f32 0xFF800000#32) (y ∘ h.lift (ix1 n)) = _
  rw [hf, ofBits_negInf]
  rfl

theorem tail2_shift (x0 : (⟨S1x512x1024, .f32⟩ : BufTy).Contents (Elt Ideal)) (x8 : (⟨S1024x64, .f32⟩ : BufTy).Contents (Elt Ideal)) (x9 : (⟨S160000x64, .f32⟩ : BufTy).Contents (Elt Ideal)) (x10 : (⟨S160000, .f32⟩ : BufTy).Contents (Elt Ideal)) (n : Fin 511) (j : Fin 160000) :
    val_main_call9_v5 (F := Ideal) x0 x8 x9 x10 (ix2 n j)
      = Gtail2 x0 x8 x9 x10 n j - Finset.univ.sup (Gtail2 x0 x8 x9 x10 n) := by
  have e : idx_main_call9_v3 (idx_main_call9_v4 (ix2 n j)) = ix1 n := funext fun a => Fin.ext (by
    match a with
    | ⟨0, _⟩ => rfl)
  rw [val_main_call9_v5_apply, val_main_call9_v4_apply, val_main_call9_v3_apply, val_main_call9_v2_apply,
    val_main_call9_v1_apply, val_main_call9_cst_0_apply, e, tail2_rowmax, tail2_logits]
  simp only [tail2_logits, Ideal.subf_def, Ideal.maximumf_def, Ideal.ofBits_def, ofBits_negInf]
  rw [max_eq_right bot_le]

theorem tail2_sumexp (x0 : (⟨S1x512x1024, .f32⟩ : BufTy).Contents (Elt Ideal)) (x8 : (⟨S1024x64, .f32⟩ : BufTy).Contents (Elt Ideal)) (x9 : (⟨S160000x64, .f32⟩ : BufTy).Contents (Elt Ideal)) (x10 : (⟨S160000, .f32⟩ : BufTy).Contents (Elt Ideal)) (n : Fin 511) :
    val_main_call9_v7 (F := Ideal) x0 x8 x9 x10 (ix1 n)
      = ∑ j : Fin 160000, Ideal.exp (Gtail2 x0 x8 x9 x10 n j - Finset.univ.sup (Gtail2 x0 x8 x9 x10 n)) := by
  have e : ∀ k : Fin 160000, idx_main_call9_v7 (ix1 n) k = ix2 n k := fun k => funext fun a => Fin.ext (by
    match a with
    | ⟨0, _⟩ => rfl
    | ⟨1, _⟩ => rfl)
  rw [val_main_call9_v7_apply, val_main_call9_cst_1_apply]
  simp only [val_main_call9_v6_apply, e, tail2_shift, Ideal.hostUnary_exp_def, Ideal.ofBits_def, Ideal.ofBits_zero_f32,
    zero_add]

theorem tail2_lp (x0 : (⟨S1x512x1024, .f32⟩ : BufTy).Contents (Elt Ideal)) (x8 : (⟨S1024x64, .f32⟩ : BufTy).Contents (Elt Ideal)) (x9 : (⟨S160000x64, .f32⟩ : BufTy).Contents (Elt Ideal)) (x10 : (⟨S160000, .f32⟩ : BufTy).Contents (Elt Ideal)) (n : Fin 511) (j : Fin 160000) :
    val_main_v58 (F := Ideal) x0 x8 x9 x10 (ix2 n j)
      = (Gtail2 x0 x8 x9 x10 n j - Finset.univ.sup (Gtail2 x0 x8 x9 x10 n))
        - Ideal.log (∑ j' : Fin 160000, Ideal.exp (Gtail2 x0 x8 x9 x10 n j' - Finset.univ.sup (Gtail2 x0 x8 x9 x10 n))) := by
  have e : idx_main_call9_v8 (idx_main_call9_v10 (ix2 n j)) = ix1 n := funext fun a => Fin.ext (by
    match a with
    | ⟨0, _⟩ => rfl)
  rw [val_main_v58_apply, tail2_shift, val_main_call9_v10_apply, val_main_call9_v9_apply, val_main_call9_v8_apply, e,
    tail2_sumexp]
  simp only [Ideal.subf_def, Ideal.hostUnary_log_def]

end Cert.Hand.RefLS
-- ==== Proof.RefLogSoftmaxT3.lean ====
import proofs.«412644_j75642964017948_3_alg».proof.Proof.RefBase
import proofs.«412644_j75642964017948_3_alg».proof.Proof.RefLSMath
import Idealize.ShloMosaic.Lib.ValueIdx
import Idealize.ShloMosaic.Lib.Pipeline.Value
import Idealize.ShloMosaic.PureOps.Ideal.Laws

noncomputable section

namespace Cert.Hand.RefLS

open Cert.ReferenceIdeal Cert.ReferenceIdeal.Gen Cert.ReferenceIdeal.ReadP Idealize.ShloMosaic Idealize.ShloMosaic.ValueIdx

def Gtail3 (x : S1x512x1024.Idx → EReal) (proj : S1024x16.Idx → EReal) (w : S67735x16.Idx → EReal)
    (b : S67735.Idx → EReal) (n : Fin 511) (j : Fin 67735) : EReal :=
  (∑ d : Fin 16, (∑ k : Fin 1024, x (ix3 (0 : Fin 1) (⟨n.val, by have := n.isLt; omega⟩ : Fin 512) k) * proj (ix2 k d))
      * w (ix2 j d)) + b (ix1 j)

theorem tail3_logits (x0 : (⟨S1x512x1024, .f32⟩ : BufTy).Contents (Elt Ideal)) (x11 : (⟨S1024x16, .f32⟩ : BufTy).Contents (Elt Ideal)) (x12 : (⟨S67735x16, .f32⟩ : BufTy).Contents (Elt Ideal)) (x13 : (⟨S67735, .f32⟩ : BufTy).Contents (Elt Ideal)) (n : Fin 511) (j : Fin 67735) :
    val_main_v80 (F := Ideal) x0 x11 x12 x13 (ix2 n j) = Gtail3 x0 x11 x12 x13 n j := by
  have ex : ∀ (d : Fin 16) (k : Fin 1024), idx_main_v0 (idx_main_v1 (lidx_main_v75 (lidx_main_v77 (ix2 n j) d) k))
      = ix3 (0 : Fin 1) (⟨n.val, by have := n.isLt; omega⟩ : Fin 512) k := fun d k => funext fun a => Fin.ext (by
    have hn : n.val < 511 := n.isLt
    have hk : k.val < 1024 := k.isLt
    match a with
    | ⟨0, _⟩ => rfl
    | ⟨1, _⟩ => show (n.val * 1024 + k.val) / 1024 % 511 = n.val; omega
    | ⟨2, _⟩ => show (n.val * 1024 + k.val) % 1024 = k.val; omega)
  have ep : ∀ (d : Fin 16) (k : Fin 1024), ridx_main_v75 (lidx_main_v77 (ix2 n j) d) k = ix2 k d := fun d k => funext fun a => Fin.ext (by
    match a with
    | ⟨0, _⟩ => rfl
    | ⟨1, _⟩ => rfl)
  have ew : ∀ d : Fin 16, idx_main_v76 (ridx_main_v77 (ix2 n j) d) = ix2 j d := fun d => funext fun a => Fin.ext (by
    match a with
    | ⟨0, _⟩ => rfl
    | ⟨1, _⟩ => rfl)
  have eb : idx_main_v78 (idx_main_v79 (ix2 n j)) = ix1 j := funext fun a => Fin.ext (by
    match a with
    | ⟨0, _⟩ => rfl)
  rw [val_main_v80_apply, val_main_v77_apply, val_main_v79_apply, val_main_v78_apply, eb]
  simp only [val_main_v75_apply, val_main_v1_apply, val_main_v0_apply, val_main_v76_apply, ex, ep, ew, Ideal.addf_def]
  rfl

theorem tail3_rowmax (x0 : (⟨S1x512x1024, .f32⟩ : BufTy).Contents (Elt Ideal)) (x11 : (⟨S1024x16, .f32⟩ : BufTy).Contents (Elt Ideal)) (x12 : (⟨S67735x16, .f32⟩ : BufTy).Contents (Elt Ideal)) (x13 : (⟨S67735, .f32⟩ : BufTy).Contents (Elt Ideal)) (n : Fin 511) :
    val_main_call13_v0 (F := Ideal) x0 x11 x12 x13 (ix1 n)
      = Finset.univ.sup fun j : Fin 67735 => val_main_v80 (F := Ideal) x0 x11 x12 x13 (ix2 n j) := by
  unfold val_main_call13_v0
  generalize val_main_v80 (F := Ideal) x0 x11 x12 x13 = y
  have h : S511x67735.Reduces [1] S511 := by decide
  rw [Host.reduce_eq_fold_single (FloatOps.maximumf (F := Ideal) (φ := .f32)) y _ reducesTo_S511x67735_S511_d1 h h_S_]
  have hf : (y ∘ h.lift (ix1 n)) = fun k : Fin 67735 => y (ix2 n k) := funext fun k => congrArg y (funext fun a => Fin.ext (by
    match a with
    | ⟨0, _⟩ => rfl
    | ⟨1, _⟩ => rfl))
  show (Finset.univ : Finset (Fin 67735)).fold max (Ideal.ofBits .f32 0xFF800000#32) (y ∘ h.lift (ix1 n)) = _
  rw [hf, ofBits_negInf]
  rfl

theorem tail3_shift (x0 : (⟨S1x512x1024, .f32⟩ : BufTy).Contents (Elt Ideal)) (x11 : (⟨S1024x16, .f32⟩ : BufTy).Contents (Elt Ideal)) (x12 : (⟨S67735x16, .f32⟩ : BufTy).Contents (Elt Ideal)) (x13 : (⟨S67735, .f32⟩ : BufTy).Contents (Elt Ideal)) (n : Fin 511) (j : Fin 67735) :
    val_main_call13_v5 (F := Ideal) x0 x11 x12 x13 (ix2 n j)
      = Gtail3 x0 x11 x12 x13 n j - Finset.univ.sup (Gtail3 x0 x11 x12 x13 n) := by
  have e : idx_main_call13_v3 (idx_main_call13_v4 (ix2 n j)) = ix1 n := funext fun a => Fin.ext (by
    match a with
    | ⟨0, _⟩ => rfl)
  rw [val_main_call13_v5_apply, val_main_call13_v4_apply, val_main_call13_v3_apply, val_main_call13_v2_apply,
    val_main_call13_v1_apply, val_main_call13_cst_0_apply, e, tail3_rowmax, tail3_logits]
  simp only [tail3_logits, Ideal.subf_def, Ideal.maximumf_def, Ideal.ofBits_def, ofBits_negInf]
  rw [max_eq_right bot_le]

theorem tail3_sumexp (x0 : (⟨S1x512x1024, .f32⟩ : BufTy).Contents (Elt Ideal)) (x11 : (⟨S1024x16, .f32⟩ : BufTy).Contents (Elt Ideal)) (x12 : (⟨S67735x16, .f32⟩ : BufTy).Contents (Elt Ideal)) (x13 : (⟨S67735, .f32⟩ : BufTy).Contents (Elt Ideal)) (n : Fin 511) :
    val_main_call13_v7 (F := Ideal) x0 x11 x12 x13 (ix1 n)
      = ∑ j : Fin 67735, Ideal.exp (Gtail3 x0 x11 x12 x13 n j - Finset.univ.sup (Gtail3 x0 x11 x12 x13 n)) := by
  have e : ∀ k : Fin 67735, idx_main_call13_v7 (ix1 n) k = ix2 n k := fun k => funext fun a => Fin.ext (by
    match a with
    | ⟨0, _⟩ => rfl
    | ⟨1, _⟩ => rfl)
  rw [val_main_call13_v7_apply, val_main_call13_cst_1_apply]
  simp only [val_main_call13_v6_apply, e, tail3_shift, Ideal.hostUnary_exp_def, Ideal.ofBits_def, Ideal.ofBits_zero_f32,
    zero_add]

theorem tail3_lp (x0 : (⟨S1x512x1024, .f32⟩ : BufTy).Contents (Elt Ideal)) (x11 : (⟨S1024x16, .f32⟩ : BufTy).Contents (Elt Ideal)) (x12 : (⟨S67735x16, .f32⟩ : BufTy).Contents (Elt Ideal)) (x13 : (⟨S67735, .f32⟩ : BufTy).Contents (Elt Ideal)) (n : Fin 511) (j : Fin 67735) :
    val_main_v81 (F := Ideal) x0 x11 x12 x13 (ix2 n j)
      = (Gtail3 x0 x11 x12 x13 n j - Finset.univ.sup (Gtail3 x0 x11 x12 x13 n))
        - Ideal.log (∑ j' : Fin 67735, Ideal.exp (Gtail3 x0 x11 x12 x13 n j' - Finset.univ.sup (Gtail3 x0 x11 x12 x13 n))) := by
  have e : idx_main_call13_v8 (idx_main_call13_v10 (ix2 n j)) = ix1 n := funext fun a => Fin.ext (by
    match a with
    | ⟨0, _⟩ => rfl)
  rw [val_main_v81_apply, tail3_shift, val_main_call13_v10_apply, val_main_call13_v9_apply, val_main_call13_v8_apply, e,
    tail3_sumexp]
  simp only [Ideal.subf_def, Ideal.hostUnary_log_def]

end Cert.Hand.RefLS
-- ==== Proof.RealTables.lean ====
import proofs.«412644_j75642964017948_3_alg».proof.Proof.PreFacts
import proofs.«412644_j75642964017948_3_alg».proof.Proof.GluePre
import proofs.«412644_j75642964017948_3_alg».proof.Proof.Spec
import proofs.«412644_j75642964017948_3_alg».proof.Proof.LibLogSumExp
import proofs.«412644_j75642964017948_3_alg».proof.Proof.GluePostDefs
import proofs.«412644_j75642964017948_3_alg».proof.Proof.RefLogSoftmaxHead
import proofs.«412644_j75642964017948_3_alg».proof.Proof.RefLogSoftmaxT1
import proofs.«412644_j75642964017948_3_alg».proof.Proof.RefLogSoftmaxT2
import proofs.«412644_j75642964017948_3_alg».proof.Proof.RefLogSoftmaxT3
import Idealize.ShloMosaic.Lib.ValueIdx

set_option maxRecDepth 1856

noncomputable section

namespace Cert.Hand.Tables

open Idealize.ShloMosaic Idealize.ShloMosaic.TcCoe
open Idealize.ShloMosaic.ValueIdx
open Cert.KernelIdeal Cert.KernelIdeal.Gen
open Cert.Hand.PreFacts (PreFacts)
open scoped BigOperators

variable {m : (ℓ : Loc nD τ sig) → Buf (Elt Ideal) ℓ} {c : Dev nD}

def rIn (pf : PreFacts m c) : S1x512x1024.Idx → ℝ := fun i => Classical.choose (pf.fin0 i)
theorem rIn_spec (pf : PreFacts m c) (i : S1x512x1024.Idx) :
    (m ((c : Thread nD τ).loc main_arg0) : S1x512x1024.Idx → EReal) i = ((rIn pf i : ℝ) : EReal) :=
  Classical.choose_spec (pf.fin0 i)

def rP0 (pf : PreFacts m c) : S1024x1024.Idx → ℝ := fun i => Classical.choose (pf.fin2 i)
theorem rP0_spec (pf : PreFacts m c) (i : S1024x1024.Idx) :
    (m ((c : Thread nD τ).loc main_arg2) : S1024x1024.Idx → EReal) i = ((rP0 pf i : ℝ) : EReal) :=
  Classical.choose_spec (pf.fin2 i)

def rW0 (pf : PreFacts m c) : S20000x1024.Idx → ℝ := fun i => Classical.choose (pf.fin3 i)
theorem rW0_spec (pf : PreFacts m c) (i : S20000x1024.Idx) :
    (m ((c : Thread nD τ).loc main_arg3) : S20000x1024.Idx → EReal) i = ((rW0 pf i : ℝ) : EReal) :=
  Classical.choose_spec (pf.fin3 i)

def rB0 (pf : PreFacts m c) : S20000.Idx → ℝ := fun i => Classical.choose (pf.fin4 i)
theorem rB0_spec (pf : PreFacts m c) (i : S20000.Idx) :
    (m ((c : Thread nD τ).loc main_arg4) : S20000.Idx → EReal) i = ((rB0 pf i : ℝ) : EReal) :=
  Classical.choose_spec (pf.fin4 i)

def rP1 (pf : PreFacts m c) : S1024x256.Idx → ℝ := fun i => Classical.choose (pf.fin5 i)
theorem rP1_spec (pf : PreFacts m c) (i : S1024x256.Idx) :
    (m ((c : Thread nD τ).loc main_arg5) : S1024x256.Idx → EReal) i = ((rP1 pf i : ℝ) : EReal) :=
  Classical.choose_spec (pf.fin5 i)

def rW1 (pf : PreFacts m c) : S20000x256.Idx → ℝ := fun i => Classical.choose (pf.fin6 i)
theorem rW1_spec (pf : PreFacts m c) (i : S20000x256.Idx) :
    (m ((c : Thread nD τ).loc main_arg6) : S20000x256.Idx → EReal) i = ((rW1 pf i : ℝ) : EReal) :=
  Classical.choose_spec (pf.fin6 i)

def rB1 (pf : PreFacts m c) : S20000.Idx → ℝ := fun i => Classical.choose (pf.fin7 i)
theorem rB1_spec (pf : PreFacts m c) (i : S20000.Idx) :
    (m ((c : Thread nD τ).loc main_arg7) : S20000.Idx → EReal) i = ((rB1 pf i : ℝ) : EReal) :=
  Classical.choose_spec (pf.fin7 i)

def rP2 (pf : PreFacts m c) : S1024x64.Idx → ℝ := fun i => Classical.choose (pf.fin8 i)
theorem rP2_spec (pf : PreFacts m c) (i : S1024x64.Idx) :
    (m ((c : Thread nD τ).loc main_arg8) : S1024x64.Idx → EReal) i = ((rP2 pf i : ℝ) : EReal) :=
  Classical.choose_spec (pf.fin8 i)

def rW2 (pf : PreFacts m c) : S160000x64.Idx → ℝ := fun i => Classical.choose (pf.fin9 i)
theorem rW2_spec (pf : PreFacts m c) (i : S160000x64.Idx) :
    (m ((c : Thread nD τ).loc main_arg9) : S160000x64.Idx → EReal) i = ((rW2 pf i : ℝ) : EReal) :=
  Classical.choose_spec (pf.fin9 i)

def rB2 (pf : PreFacts m c) : S160000.Idx → ℝ := fun i => Classical.choose (pf.fin10 i)
theorem rB2_spec (pf : PreFacts m c) (i : S160000.Idx) :
    (m ((c : Thread nD τ).loc main_arg10) : S160000.Idx → EReal) i = ((rB2 pf i : ℝ) : EReal) :=
  Classical.choose_spec (pf.fin10 i)

def rP3 (pf : PreFacts m c) : S1024x16.Idx → ℝ := fun i => Classical.choose (pf.fin11 i)
theorem rP3_spec (pf : PreFacts m c) (i : S1024x16.Idx) :
    (m ((c : Thread nD τ).loc main_arg11) : S1024x16.Idx → EReal) i = ((rP3 pf i : ℝ) : EReal) :=
  Classical.choose_spec (pf.fin11 i)

def rW3 (pf : PreFacts m c) : S67735x16.Idx → ℝ := fun i => Classical.choose (pf.fin12 i)
theorem rW3_spec (pf : PreFacts m c) (i : S67735x16.Idx) :
    (m ((c : Thread nD τ).loc main_arg12) : S67735x16.Idx → EReal) i = ((rW3 pf i : ℝ) : EReal) :=
  Classical.choose_spec (pf.fin12 i)

def rB3 (pf : PreFacts m c) : S67735.Idx → ℝ := fun i => Classical.choose (pf.fin13 i)
theorem rB3_spec (pf : PreFacts m c) (i : S67735.Idx) :
    (m ((c : Thread nD τ).loc main_arg13) : S67735.Idx → EReal) i = ((rB3 pf i : ℝ) : EReal) :=
  Classical.choose_spec (pf.fin13 i)

def rCW (pf : PreFacts m c) : S3x1024.Idx → ℝ := fun i => Classical.choose (pf.fin14 i)
theorem rCW_spec (pf : PreFacts m c) (i : S3x1024.Idx) :
    (m ((c : Thread nD τ).loc main_arg14) : S3x1024.Idx → EReal) i = ((rCW pf i : ℝ) : EReal) :=
  Classical.choose_spec (pf.fin14 i)

def rCB (pf : PreFacts m c) : S3.Idx → ℝ := fun i => Classical.choose (pf.fin15 i)
theorem rCB_spec (pf : PreFacts m c) (i : S3.Idx) :
    (m ((c : Thread nD τ).loc main_arg15) : S3.Idx → EReal) i = ((rCB pf i : ℝ) : EReal) :=
  Classical.choose_spec (pf.fin15 i)

def hid0 (pf : PreFacts m c) (n : Fin 511) (d : Fin 1024) : ℝ :=
  ∑ k : Fin 1024, rIn pf (ix3 (0 : Fin 1) (⟨n.val, by have := n.isLt; omega⟩ : Fin 512) k) * rP0 pf (ix2 k d)

def hid1 (pf : PreFacts m c) (n : Fin 511) (d : Fin 256) : ℝ :=
  ∑ k : Fin 1024, rIn pf (ix3 (0 : Fin 1) (⟨n.val, by have := n.isLt; omega⟩ : Fin 512) k) * rP1 pf (ix2 k d)

def hid2 (pf : PreFacts m c) (n : Fin 511) (d : Fin 64) : ℝ :=
  ∑ k : Fin 1024, rIn pf (ix3 (0 : Fin 1) (⟨n.val, by have := n.isLt; omega⟩ : Fin 512) k) * rP2 pf (ix2 k d)

def hid3 (pf : PreFacts m c) (n : Fin 511) (d : Fin 16) : ℝ :=
  ∑ k : Fin 1024, rIn pf (ix3 (0 : Fin 1) (⟨n.val, by have := n.isLt; omega⟩ : Fin 512) k) * rP3 pf (ix2 k d)

def xh (pf : PreFacts m c) (n : Fin 511) : Fin 20003 → ℝ := fun j =>
  (∑ d : Fin 1024, hid0 pf n d *
      (if h : j.val < 20000 then rW0 pf (ix2 (⟨j.val, h⟩ : Fin 20000) d)
       else rCW pf (ix2 (⟨j.val - 20000, by have := j.isLt; omega⟩ : Fin 3) d)))
    + (if h : j.val < 20000 then rB0 pf (ix1 (⟨j.val, h⟩ : Fin 20000))
       else rCB pf (ix1 (⟨j.val - 20000, by have := j.isLt; omega⟩ : Fin 3)))

def x1 (pf : PreFacts m c) (n : Fin 511) : Fin 20000 → ℝ := fun j =>
  (∑ d : Fin 256, hid1 pf n d * rW1 pf (ix2 j d)) + rB1 pf (ix1 j)

def x2 (pf : PreFacts m c) (n : Fin 511) : Fin 160000 → ℝ := fun j =>
  (∑ d : Fin 64, hid2 pf n d * rW2 pf (ix2 j d)) + rB2 pf (ix1 j)

def x3 (pf : PreFacts m c) (n : Fin 511) : Fin 67735 → ℝ := fun j =>
  (∑ d : Fin 16, hid3 pf n d * rW3 pf (ix2 j d)) + rB3 pf (ix1 j)

theorem coe_logit {K D : ℕ} (X : Fin K → EReal) (P : Fin K → Fin D → EReal) (W : Fin D → EReal) (b : EReal)
    (x : Fin K → ℝ) (p : Fin K → Fin D → ℝ) (w : Fin D → ℝ) (β : ℝ)
    (hX : ∀ k, X k = (x k : EReal)) (hP : ∀ k d, P k d = (p k d : EReal)) (hW : ∀ d, W d = (w d : EReal))
    (hb : b = (β : EReal)) :
    (∑ d : Fin D, (∑ k : Fin K, X k * P k d) * W d) + b
      = (((∑ d : Fin D, (∑ k : Fin K, x k * p k d) * w d) + β : ℝ) : EReal) := by
  rw [hb, EReal.coe_add, LSE.coe_sum]
  congr 1
  refine Finset.sum_congr rfl fun d _ => ?_
  rw [hW, EReal.coe_mul, LSE.coe_sum]
  congr 1
  exact Finset.sum_congr rfl fun k _ => by rw [hX, hP, EReal.coe_mul]

theorem ref_head (pf : PreFacts m c) (n : Fin 511) (j : Fin 20003) :
    Cert.Hand.RefLS.Ghead (m ((c : Thread nD τ).loc main_arg0)) (m ((c : Thread nD τ).loc main_arg2))
        (m ((c : Thread nD τ).loc main_arg3)) (m ((c : Thread nD τ).loc main_arg4))
        (m ((c : Thread nD τ).loc main_arg14)) (m ((c : Thread nD τ).loc main_arg15)) n j
      = ((xh pf n j : ℝ) : EReal) := by
  unfold Cert.Hand.RefLS.Ghead xh hid0
  refine coe_logit _ _ _ _ _ _ _ _ (fun k => rIn_spec pf _) (fun k d => rP0_spec pf _) (fun d => ?_) ?_
  · unfold Cert.Hand.RefLS.Wcat
    by_cases h : j.val < 20000
    · rw [dif_pos h, dif_pos h]; exact rW0_spec pf _
    · rw [dif_neg h, dif_neg h]; exact rCW_spec pf _
  · unfold Cert.Hand.RefLS.bcat
    by_cases h : j.val < 20000
    · rw [dif_pos h, dif_pos h]; exact rB0_spec pf _
    · rw [dif_neg h, dif_neg h]; exact rCB_spec pf _

theorem ref_tail1 (pf : PreFacts m c) (n : Fin 511) (j : Fin 20000) :
    Cert.Hand.RefLS.Gtail1 (m ((c : Thread nD τ).loc main_arg0)) (m ((c : Thread nD τ).loc main_arg5))
        (m ((c : Thread nD τ).loc main_arg6)) (m ((c : Thread nD τ).loc main_arg7)) n j
      = ((x1 pf n j : ℝ) : EReal) := by
  unfold Cert.Hand.RefLS.Gtail1 x1 hid1
  exact coe_logit _ _ _ _ _ _ _ _ (fun k => rIn_spec pf _) (fun k d => rP1_spec pf _) (fun d => rW1_spec pf _) (rB1_spec pf _)

theorem ref_tail2 (pf : PreFacts m c) (n : Fin 511) (j : Fin 160000) :
    Cert.Hand.RefLS.Gtail2 (m ((c : Thread nD τ).loc main_arg0)) (m ((c : Thread nD τ).loc main_arg8))
        (m ((c : Thread nD τ).loc main_arg9)) (m ((c : Thread nD τ).loc main_arg10)) n j
      = ((x2 pf n j : ℝ) : EReal) := by
  unfold Cert.Hand.RefLS.Gtail2 x2 hid2
  exact coe_logit _ _ _ _ _ _ _ _ (fun k => rIn_spec pf _) (fun k d => rP2_spec pf _) (fun d => rW2_spec pf _) (rB2_spec pf _)

theorem ref_tail3 (pf : PreFacts m c) (n : Fin 511) (j : Fin 67735) :
    Cert.Hand.RefLS.Gtail3 (m ((c : Thread nD τ).loc main_arg0)) (m ((c : Thread nD τ).loc main_arg11))
        (m ((c : Thread nD τ).loc main_arg12)) (m ((c : Thread nD τ).loc main_arg13)) n j
      = ((x3 pf n j : ℝ) : EReal) := by
  unfold Cert.Hand.RefLS.Gtail3 x3 hid3
  exact coe_logit _ _ _ _ _ _ _ _ (fun k => rIn_spec pf _) (fun k d => rP3_spec pf _) (fun d => rW3_spec pf _) (rB3_spec pf _)

theorem xrow (pf : PreFacts m c) (n : Fin 511) (k : Fin 1024) :
    (V13 m c main_v4 : S512x1024.Idx → EReal) (ix2 n.castSucc k)
      = ((rIn pf (ix3 (0 : Fin 1) (⟨n.val, by have := n.isLt; omega⟩ : Fin 512) k) : ℝ) : EReal) := by
  rw [Cert.Hand.GluePre.xpad m c n.castSucc k, dif_pos (show n.castSucc.val < 511 from n.isLt)]
  exact rIn_spec pf _

theorem kern0_logit (pf : PreFacts m c) (n : Fin 511) (j : Fin 20000)
    (X : S512x1024.Idx → EReal) (P : S1024x1024.Idx → EReal) (W : S20000x1024.Idx → EReal) (B : S20000x1.Idx → EReal)
    (hX : X = V13 m c main_v4) (hP : P = m ((c : Thread nD τ).loc main_arg2))
    (hW : W = m ((c : Thread nD τ).loc main_arg3)) (hB : B = V13 m c main_v37) :
    (∑ d : Fin 1024, (∑ k : Fin 1024, X (ix2 n.castSucc k) * P (ix2 k d)) * W (ix2 j d)) + B (ix2 j (0 : Fin 1))
      = ((xh pf n (⟨j.val, by have := j.isLt; omega⟩ : Fin 20003) : ℝ) : EReal) := by
  subst hX hP hW hB
  unfold xh hid0
  refine coe_logit _ _ _ _ _ _ _ _ (fun k => xrow pf n k) (fun k d => rP0_spec pf _) (fun d => ?_) ?_
  · rw [dif_pos (show j.val < 20000 from j.isLt)]; exact rW0_spec pf _
  · rw [dif_pos (show j.val < 20000 from j.isLt)]
    exact (Cert.Hand.GluePre.b0col_read m c j 0).trans (rB0_spec pf _)

theorem kern1_logit (outs : Outs (F := Ideal)) (pf : PreFacts m c) (n : Fin 511) (j : Fin 20000)
    (X : S512x1024.Idx → EReal) (P : S1024x256.Idx → EReal) (W : S20000x256.Idx → EReal) (B : S20000x1.Idx → EReal)
    (hX : X = V13 m c main_v4) (hP : P = m ((c : Thread nD τ).loc main_arg5))
    (hW : W = m ((c : Thread nD τ).loc main_arg6)) (hB : B = V15 m outs c main_v87) :
    (∑ d : Fin 256, (∑ k : Fin 1024, X (ix2 n.castSucc k) * P (ix2 k d)) * W (ix2 j d)) + B (ix2 j (0 : Fin 1))
      = ((x1 pf n j : ℝ) : EReal) := by
  subst hX hP hW hB
  unfold x1 hid1
  exact coe_logit _ _ _ _ _ _ _ _ (fun k => xrow pf n k) (fun k d => rP1_spec pf _) (fun d => rW1_spec pf _)
    ((Cert.Hand.GluePre.b1col_read m outs c j 0).trans (rB1_spec pf _))

theorem kern2_logit (outs : Outs (F := Ideal)) (pf : PreFacts m c) (n : Fin 511) (j : Fin 160000)
    (X : S512x1024.Idx → EReal) (P : S1024x64.Idx → EReal) (W : S160000x64.Idx → EReal) (B : S160000x1.Idx → EReal)
    (hX : X = V13 m c main_v4) (hP : P = m ((c : Thread nD τ).loc main_arg8))
    (hW : W = m ((c : Thread nD τ).loc main_arg9)) (hB : B = V17 m outs c main_v117) :
    (∑ d : Fin 64, (∑ k : Fin 1024, X (ix2 n.castSucc k) * P (ix2 k d)) * W (ix2 j d)) + B (ix2 j (0 : Fin 1))
      = ((x2 pf n j : ℝ) : EReal) := by
  subst hX hP hW hB
  unfold x2 hid2
  exact coe_logit _ _ _ _ _ _ _ _ (fun k => xrow pf n k) (fun k d => rP2_spec pf _) (fun d => rW2_spec pf _)
    ((Cert.Hand.GluePre.b2col_read m outs c j 0).trans (rB2_spec pf _))

theorem kern3_logit (outs : Outs (F := Ideal)) (pf : PreFacts m c) (n : Fin 511) (j : Fin 69632) (hj : j.val < 67735)
    (X : S512x1024.Idx → EReal) (P : S1024x16.Idx → EReal) (W : S69632x16.Idx → EReal) (B : S69632x1.Idx → EReal)
    (hX : X = V13 m c main_v4) (hP : P = m ((c : Thread nD τ).loc main_arg11))
    (hW : W = V19 m outs c main_v148) (hB : B = V19 m outs c main_v151) :
    (∑ d : Fin 16, (∑ k : Fin 1024, X (ix2 n.castSucc k) * P (ix2 k d)) * W (ix2 j d)) + B (ix2 j (0 : Fin 1))
      = ((x3 pf n (⟨j.val, hj⟩ : Fin 67735) : ℝ) : EReal) := by
  subst hX hP hW hB
  unfold x3 hid3
  refine coe_logit _ _ _ _ _ _ _ _ (fun k => xrow pf n k) (fun k d => rP3_spec pf _) (fun d => ?_) ?_
  · exact ((Cert.Hand.GluePre.w3pad_read m outs c j d).trans (dif_pos hj)).trans (rW3_spec pf _)
  · exact ((Cert.Hand.GluePre.b3pad_read m outs c j 0).trans (dif_pos hj)).trans (rB3_spec pf _)

theorem cluster_logit (pf : PreFacts m c) (n : Fin 511) (i : Fin 3) :
    Cert.Hand.GluePost.clusterLogit (V13 m c main_v4) (m ((c : Thread nD τ).loc main_arg2))
        (m ((c : Thread nD τ).loc main_arg14)) (m ((c : Thread nD τ).loc main_arg15)) n.castSucc i
      = ((xh pf n (⟨20000 + i.val, by have := i.isLt; omega⟩ : Fin 20003) : ℝ) : EReal) := by
  have e : ∀ hlt : 20000 + i.val - 20000 < 3, (⟨20000 + i.val - 20000, hlt⟩ : Fin 3) = i :=
    fun _ => Fin.ext (Nat.add_sub_cancel_left 20000 i.val)
  unfold Cert.Hand.GluePost.clusterLogit xh hid0
  refine coe_logit _ _ _ _ _ _ _ _ (fun k => xrow pf n k) (fun k d => rP0_spec pf _) (fun d => ?_) ?_
  · rw [dif_neg (show ¬ 20000 + i.val < 20000 by omega), e]; exact rCW_spec pf _
  · rw [dif_neg (show ¬ 20000 + i.val < 20000 by omega), e]; exact rCB_spec pf _

end Cert.Hand.Tables
-- ==== Proof.GluePrePersist.lean ====
import proofs.«412644_j75642964017948_3_alg».proof.Proof.Gen.KernelIdeal.Regions

set_option maxRecDepth 1856

noncomputable section

namespace Cert.Hand.GluePre

open Idealize.ShloMosaic Idealize.ShloMosaic.TcCoe
open Idealize.SL Idealize.SL.RA Idealize.SL.BI
open scoped Idealize.SL.BI
open Idealize.ShloMosaic.Rounds
open Cert.KernelIdeal Cert.KernelIdeal.Gen

variable (m : (ℓ : Loc nD τ sig) → Buf (Elt Ideal) ℓ) (outs : Outs (F := Ideal))

theorem main_v4_at14 (c : Dev nD) : V14 m outs c main_v4 = V13 m c main_v4 := V14_of m outs c main_v4 (by decide)
theorem main_v4_at15 (c : Dev nD) : V15 m outs c main_v4 = V13 m c main_v4 :=
  (V15_of m outs c main_v4 (by decide)).trans (main_v4_at14 m outs c)
theorem main_v4_at16 (c : Dev nD) : V16 m outs c main_v4 = V13 m c main_v4 :=
  (V16_of m outs c main_v4 (by decide)).trans (main_v4_at15 m outs c)
theorem main_v4_at17 (c : Dev nD) : V17 m outs c main_v4 = V13 m c main_v4 :=
  (V17_of m outs c main_v4 (by decide)).trans (main_v4_at16 m outs c)
theorem main_v4_at18 (c : Dev nD) : V18 m outs c main_v4 = V13 m c main_v4 :=
  (V18_of m outs c main_v4 (by decide)).trans (main_v4_at17 m outs c)
theorem main_v4_at19 (c : Dev nD) : V19 m outs c main_v4 = V13 m c main_v4 :=
  (V19_of m outs c main_v4 (by decide)).trans (main_v4_at18 m outs c)
theorem main_v4_at20 (c : Dev nD) : V20 m outs c main_v4 = V13 m c main_v4 :=
  (V20_of m outs c main_v4 (by decide)).trans (main_v4_at19 m outs c)
theorem main_v4_at21 (c : Dev nD) : V21 m outs c main_v4 = V13 m c main_v4 :=
  (V21_of m outs c main_v4 (by decide)).trans (main_v4_at20 m outs c)
theorem main_v4_at22 (c : Dev nD) : V22 m outs c main_v4 = V13 m c main_v4 :=
  (V22_of m outs c main_v4 (by decide)).trans (main_v4_at21 m outs c)
theorem main_v4_at23 (c : Dev nD) : V23 m outs c main_v4 = V13 m c main_v4 :=
  (V23_of m outs c main_v4 (by decide)).trans (main_v4_at22 m outs c)
theorem main_v4_at24 (c : Dev nD) : V24 m outs c main_v4 = V13 m c main_v4 :=
  (V24_of m outs c main_v4 (by decide)).trans (main_v4_at23 m outs c)
theorem main_v4_at25 (c : Dev nD) : V25 m outs c main_v4 = V13 m c main_v4 :=
  (V25_of m outs c main_v4 (by decide)).trans (main_v4_at24 m outs c)
theorem main_v4_at26 (c : Dev nD) : V26 m outs c main_v4 = V13 m c main_v4 :=
  (V26_of m outs c main_v4 (by decide)).trans (main_v4_at25 m outs c)
theorem main_v4_at27 (c : Dev nD) : V27 m outs c main_v4 = V13 m c main_v4 :=
  (V27_of m outs c main_v4 (by decide)).trans (main_v4_at26 m outs c)
theorem main_v5_at14 (c : Dev nD) : V14 m outs c main_v5 = V13 m c main_v5 := V14_of m outs c main_v5 (by decide)
theorem main_v5_at15 (c : Dev nD) : V15 m outs c main_v5 = V13 m c main_v5 :=
  (V15_of m outs c main_v5 (by decide)).trans (main_v5_at14 m outs c)
theorem main_v5_at16 (c : Dev nD) : V16 m outs c main_v5 = V13 m c main_v5 :=
  (V16_of m outs c main_v5 (by decide)).trans (main_v5_at15 m outs c)
theorem main_v5_at17 (c : Dev nD) : V17 m outs c main_v5 = V13 m c main_v5 :=
  (V17_of m outs c main_v5 (by decide)).trans (main_v5_at16 m outs c)
theorem main_v5_at18 (c : Dev nD) : V18 m outs c main_v5 = V13 m c main_v5 :=
  (V18_of m outs c main_v5 (by decide)).trans (main_v5_at17 m outs c)
theorem main_v5_at19 (c : Dev nD) : V19 m outs c main_v5 = V13 m c main_v5 :=
  (V19_of m outs c main_v5 (by decide)).trans (main_v5_at18 m outs c)
theorem main_v5_at20 (c : Dev nD) : V20 m outs c main_v5 = V13 m c main_v5 :=
  (V20_of m outs c main_v5 (by decide)).trans (main_v5_at19 m outs c)
theorem main_v5_at21 (c : Dev nD) : V21 m outs c main_v5 = V13 m c main_v5 :=
  (V21_of m outs c main_v5 (by decide)).trans (main_v5_at20 m outs c)
theorem main_v5_at22 (c : Dev nD) : V22 m outs c main_v5 = V13 m c main_v5 :=
  (V22_of m outs c main_v5 (by decide)).trans (main_v5_at21 m outs c)
theorem main_v5_at23 (c : Dev nD) : V23 m outs c main_v5 = V13 m c main_v5 :=
  (V23_of m outs c main_v5 (by decide)).trans (main_v5_at22 m outs c)
theorem main_v5_at24 (c : Dev nD) : V24 m outs c main_v5 = V13 m c main_v5 :=
  (V24_of m outs c main_v5 (by decide)).trans (main_v5_at23 m outs c)
theorem main_v5_at25 (c : Dev nD) : V25 m outs c main_v5 = V13 m c main_v5 :=
  (V25_of m outs c main_v5 (by decide)).trans (main_v5_at24 m outs c)
theorem main_v5_at26 (c : Dev nD) : V26 m outs c main_v5 = V13 m c main_v5 :=
  (V26_of m outs c main_v5 (by decide)).trans (main_v5_at25 m outs c)
theorem main_v5_at27 (c : Dev nD) : V27 m outs c main_v5 = V13 m c main_v5 :=
  (V27_of m outs c main_v5 (by decide)).trans (main_v5_at26 m outs c)
theorem main_v7_at14 (c : Dev nD) : V14 m outs c main_v7 = V13 m c main_v7 := V14_of m outs c main_v7 (by decide)
theorem main_v7_at15 (c : Dev nD) : V15 m outs c main_v7 = V13 m c main_v7 :=
  (V15_of m outs c main_v7 (by decide)).trans (main_v7_at14 m outs c)
theorem main_v7_at16 (c : Dev nD) : V16 m outs c main_v7 = V13 m c main_v7 :=
  (V16_of m outs c main_v7 (by decide)).trans (main_v7_at15 m outs c)
theorem main_v7_at17 (c : Dev nD) : V17 m outs c main_v7 = V13 m c main_v7 :=
  (V17_of m outs c main_v7 (by decide)).trans (main_v7_at16 m outs c)
theorem main_v7_at18 (c : Dev nD) : V18 m outs c main_v7 = V13 m c main_v7 :=
  (V18_of m outs c main_v7 (by decide)).trans (main_v7_at17 m outs c)
theorem main_v7_at19 (c : Dev nD) : V19 m outs c main_v7 = V13 m c main_v7 :=
  (V19_of m outs c main_v7 (by decide)).trans (main_v7_at18 m outs c)
theorem main_v7_at20 (c : Dev nD) : V20 m outs c main_v7 = V13 m c main_v7 :=
  (V20_of m outs c main_v7 (by decide)).trans (main_v7_at19 m outs c)
theorem main_v7_at21 (c : Dev nD) : V21 m outs c main_v7 = V13 m c main_v7 :=
  (V21_of m outs c main_v7 (by decide)).trans (main_v7_at20 m outs c)
theorem main_v7_at22 (c : Dev nD) : V22 m outs c main_v7 = V13 m c main_v7 :=
  (V22_of m outs c main_v7 (by decide)).trans (main_v7_at21 m outs c)
theorem main_v7_at23 (c : Dev nD) : V23 m outs c main_v7 = V13 m c main_v7 :=
  (V23_of m outs c main_v7 (by decide)).trans (main_v7_at22 m outs c)
theorem main_v7_at24 (c : Dev nD) : V24 m outs c main_v7 = V13 m c main_v7 :=
  (V24_of m outs c main_v7 (by decide)).trans (main_v7_at23 m outs c)
theorem main_v7_at25 (c : Dev nD) : V25 m outs c main_v7 = V13 m c main_v7 :=
  (V25_of m outs c main_v7 (by decide)).trans (main_v7_at24 m outs c)
theorem main_v7_at26 (c : Dev nD) : V26 m outs c main_v7 = V13 m c main_v7 :=
  (V26_of m outs c main_v7 (by decide)).trans (main_v7_at25 m outs c)
theorem main_v7_at27 (c : Dev nD) : V27 m outs c main_v7 = V13 m c main_v7 :=
  (V27_of m outs c main_v7 (by decide)).trans (main_v7_at26 m outs c)
theorem main_v12_at14 (c : Dev nD) : V14 m outs c main_v12 = V13 m c main_v12 := V14_of m outs c main_v12 (by decide)
theorem main_v12_at15 (c : Dev nD) : V15 m outs c main_v12 = V13 m c main_v12 :=
  (V15_of m outs c main_v12 (by decide)).trans (main_v12_at14 m outs c)
theorem main_v12_at16 (c : Dev nD) : V16 m outs c main_v12 = V13 m c main_v12 :=
  (V16_of m outs c main_v12 (by decide)).trans (main_v12_at15 m outs c)
theorem main_v12_at17 (c : Dev nD) : V17 m outs c main_v12 = V13 m c main_v12 :=
  (V17_of m outs c main_v12 (by decide)).trans (main_v12_at16 m outs c)
theorem main_v12_at18 (c : Dev nD) : V18 m outs c main_v12 = V13 m c main_v12 :=
  (V18_of m outs c main_v12 (by decide)).trans (main_v12_at17 m outs c)
theorem main_v12_at19 (c : Dev nD) : V19 m outs c main_v12 = V13 m c main_v12 :=
  (V19_of m outs c main_v12 (by decide)).trans (main_v12_at18 m outs c)
theorem main_v12_at20 (c : Dev nD) : V20 m outs c main_v12 = V13 m c main_v12 :=
  (V20_of m outs c main_v12 (by decide)).trans (main_v12_at19 m outs c)
theorem main_v12_at21 (c : Dev nD) : V21 m outs c main_v12 = V13 m c main_v12 :=
  (V21_of m outs c main_v12 (by decide)).trans (main_v12_at20 m outs c)
theorem main_v12_at22 (c : Dev nD) : V22 m outs c main_v12 = V13 m c main_v12 :=
  (V22_of m outs c main_v12 (by decide)).trans (main_v12_at21 m outs c)
theorem main_v12_at23 (c : Dev nD) : V23 m outs c main_v12 = V13 m c main_v12 :=
  (V23_of m outs c main_v12 (by decide)).trans (main_v12_at22 m outs c)
theorem main_v12_at24 (c : Dev nD) : V24 m outs c main_v12 = V13 m c main_v12 :=
  (V24_of m outs c main_v12 (by decide)).trans (main_v12_at23 m outs c)
theorem main_v12_at25 (c : Dev nD) : V25 m outs c main_v12 = V13 m c main_v12 :=
  (V25_of m outs c main_v12 (by decide)).trans (main_v12_at24 m outs c)
theorem main_v12_at26 (c : Dev nD) : V26 m outs c main_v12 = V13 m c main_v12 :=
  (V26_of m outs c main_v12 (by decide)).trans (main_v12_at25 m outs c)
theorem main_v12_at27 (c : Dev nD) : V27 m outs c main_v12 = V13 m c main_v12 :=
  (V27_of m outs c main_v12 (by decide)).trans (main_v12_at26 m outs c)
theorem main_v17_at14 (c : Dev nD) : V14 m outs c main_v17 = V13 m c main_v17 := V14_of m outs c main_v17 (by decide)
theorem main_v17_at15 (c : Dev nD) : V15 m outs c main_v17 = V13 m c main_v17 :=
  (V15_of m outs c main_v17 (by decide)).trans (main_v17_at14 m outs c)
theorem main_v17_at16 (c : Dev nD) : V16 m outs c main_v17 = V13 m c main_v17 :=
  (V16_of m outs c main_v17 (by decide)).trans (main_v17_at15 m outs c)
theorem main_v17_at17 (c : Dev nD) : V17 m outs c main_v17 = V13 m c main_v17 :=
  (V17_of m outs c main_v17 (by decide)).trans (main_v17_at16 m outs c)
theorem main_v17_at18 (c : Dev nD) : V18 m outs c main_v17 = V13 m c main_v17 :=
  (V18_of m outs c main_v17 (by decide)).trans (main_v17_at17 m outs c)
theorem main_v17_at19 (c : Dev nD) : V19 m outs c main_v17 = V13 m c main_v17 :=
  (V19_of m outs c main_v17 (by decide)).trans (main_v17_at18 m outs c)
theorem main_v17_at20 (c : Dev nD) : V20 m outs c main_v17 = V13 m c main_v17 :=
  (V20_of m outs c main_v17 (by decide)).trans (main_v17_at19 m outs c)
theorem main_v17_at21 (c : Dev nD) : V21 m outs c main_v17 = V13 m c main_v17 :=
  (V21_of m outs c main_v17 (by decide)).trans (main_v17_at20 m outs c)
theorem main_v17_at22 (c : Dev nD) : V22 m outs c main_v17 = V13 m c main_v17 :=
  (V22_of m outs c main_v17 (by decide)).trans (main_v17_at21 m outs c)
theorem main_v17_at23 (c : Dev nD) : V23 m outs c main_v17 = V13 m c main_v17 :=
  (V23_of m outs c main_v17 (by decide)).trans (main_v17_at22 m outs c)
theorem main_v17_at24 (c : Dev nD) : V24 m outs c main_v17 = V13 m c main_v17 :=
  (V24_of m outs c main_v17 (by decide)).trans (main_v17_at23 m outs c)
theorem main_v17_at25 (c : Dev nD) : V25 m outs c main_v17 = V13 m c main_v17 :=
  (V25_of m outs c main_v17 (by decide)).trans (main_v17_at24 m outs c)
theorem main_v17_at26 (c : Dev nD) : V26 m outs c main_v17 = V13 m c main_v17 :=
  (V26_of m outs c main_v17 (by decide)).trans (main_v17_at25 m outs c)
theorem main_v17_at27 (c : Dev nD) : V27 m outs c main_v17 = V13 m c main_v17 :=
  (V27_of m outs c main_v17 (by decide)).trans (main_v17_at26 m outs c)
theorem main_v22_at14 (c : Dev nD) : V14 m outs c main_v22 = V13 m c main_v22 := V14_of m outs c main_v22 (by decide)
theorem main_v22_at15 (c : Dev nD) : V15 m outs c main_v22 = V13 m c main_v22 :=
  (V15_of m outs c main_v22 (by decide)).trans (main_v22_at14 m outs c)
theorem main_v22_at16 (c : Dev nD) : V16 m outs c main_v22 = V13 m c main_v22 :=
  (V16_of m outs c main_v22 (by decide)).trans (main_v22_at15 m outs c)
theorem main_v22_at17 (c : Dev nD) : V17 m outs c main_v22 = V13 m c main_v22 :=
  (V17_of m outs c main_v22 (by decide)).trans (main_v22_at16 m outs c)
theorem main_v22_at18 (c : Dev nD) : V18 m outs c main_v22 = V13 m c main_v22 :=
  (V18_of m outs c main_v22 (by decide)).trans (main_v22_at17 m outs c)
theorem main_v22_at19 (c : Dev nD) : V19 m outs c main_v22 = V13 m c main_v22 :=
  (V19_of m outs c main_v22 (by decide)).trans (main_v22_at18 m outs c)
theorem main_v22_at20 (c : Dev nD) : V20 m outs c main_v22 = V13 m c main_v22 :=
  (V20_of m outs c main_v22 (by decide)).trans (main_v22_at19 m outs c)
theorem main_v22_at21 (c : Dev nD) : V21 m outs c main_v22 = V13 m c main_v22 :=
  (V21_of m outs c main_v22 (by decide)).trans (main_v22_at20 m outs c)
theorem main_v22_at22 (c : Dev nD) : V22 m outs c main_v22 = V13 m c main_v22 :=
  (V22_of m outs c main_v22 (by decide)).trans (main_v22_at21 m outs c)
theorem main_v22_at23 (c : Dev nD) : V23 m outs c main_v22 = V13 m c main_v22 :=
  (V23_of m outs c main_v22 (by decide)).trans (main_v22_at22 m outs c)
theorem main_v22_at24 (c : Dev nD) : V24 m outs c main_v22 = V13 m c main_v22 :=
  (V24_of m outs c main_v22 (by decide)).trans (main_v22_at23 m outs c)
theorem main_v22_at25 (c : Dev nD) : V25 m outs c main_v22 = V13 m c main_v22 :=
  (V25_of m outs c main_v22 (by decide)).trans (main_v22_at24 m outs c)
theorem main_v22_at26 (c : Dev nD) : V26 m outs c main_v22 = V13 m c main_v22 :=
  (V26_of m outs c main_v22 (by decide)).trans (main_v22_at25 m outs c)
theorem main_v22_at27 (c : Dev nD) : V27 m outs c main_v22 = V13 m c main_v22 :=
  (V27_of m outs c main_v22 (by decide)).trans (main_v22_at26 m outs c)
theorem main_v24_at14 (c : Dev nD) : V14 m outs c main_v24 = V13 m c main_v24 := V14_of m outs c main_v24 (by decide)
theorem main_v24_at15 (c : Dev nD) : V15 m outs c main_v24 = V13 m c main_v24 :=
  (V15_of m outs c main_v24 (by decide)).trans (main_v24_at14 m outs c)
theorem main_v24_at16 (c : Dev nD) : V16 m outs c main_v24 = V13 m c main_v24 :=
  (V16_of m outs c main_v24 (by decide)).trans (main_v24_at15 m outs c)
theorem main_v24_at17 (c : Dev nD) : V17 m outs c main_v24 = V13 m c main_v24 :=
  (V17_of m outs c main_v24 (by decide)).trans (main_v24_at16 m outs c)
theorem main_v24_at18 (c : Dev nD) : V18 m outs c main_v24 = V13 m c main_v24 :=
  (V18_of m outs c main_v24 (by decide)).trans (main_v24_at17 m outs c)
theorem main_v24_at19 (c : Dev nD) : V19 m outs c main_v24 = V13 m c main_v24 :=
  (V19_of m outs c main_v24 (by decide)).trans (main_v24_at18 m outs c)
theorem main_v24_at20 (c : Dev nD) : V20 m outs c main_v24 = V13 m c main_v24 :=
  (V20_of m outs c main_v24 (by decide)).trans (main_v24_at19 m outs c)
theorem main_v24_at21 (c : Dev nD) : V21 m outs c main_v24 = V13 m c main_v24 :=
  (V21_of m outs c main_v24 (by decide)).trans (main_v24_at20 m outs c)
theorem main_v24_at22 (c : Dev nD) : V22 m outs c main_v24 = V13 m c main_v24 :=
  (V22_of m outs c main_v24 (by decide)).trans (main_v24_at21 m outs c)
theorem main_v24_at23 (c : Dev nD) : V23 m outs c main_v24 = V13 m c main_v24 :=
  (V23_of m outs c main_v24 (by decide)).trans (main_v24_at22 m outs c)
theorem main_v24_at24 (c : Dev nD) : V24 m outs c main_v24 = V13 m c main_v24 :=
  (V24_of m outs c main_v24 (by decide)).trans (main_v24_at23 m outs c)
theorem main_v24_at25 (c : Dev nD) : V25 m outs c main_v24 = V13 m c main_v24 :=
  (V25_of m outs c main_v24 (by decide)).trans (main_v24_at24 m outs c)
theorem main_v24_at26 (c : Dev nD) : V26 m outs c main_v24 = V13 m c main_v24 :=
  (V26_of m outs c main_v24 (by decide)).trans (main_v24_at25 m outs c)
theorem main_v24_at27 (c : Dev nD) : V27 m outs c main_v24 = V13 m c main_v24 :=
  (V27_of m outs c main_v24 (by decide)).trans (main_v24_at26 m outs c)
theorem main_v28_at14 (c : Dev nD) : V14 m outs c main_v28 = V13 m c main_v28 := V14_of m outs c main_v28 (by decide)
theorem main_v28_at15 (c : Dev nD) : V15 m outs c main_v28 = V13 m c main_v28 :=
  (V15_of m outs c main_v28 (by decide)).trans (main_v28_at14 m outs c)
theorem main_v28_at16 (c : Dev nD) : V16 m outs c main_v28 = V13 m c main_v28 :=
  (V16_of m outs c main_v28 (by decide)).trans (main_v28_at15 m outs c)
theorem main_v28_at17 (c : Dev nD) : V17 m outs c main_v28 = V13 m c main_v28 :=
  (V17_of m outs c main_v28 (by decide)).trans (main_v28_at16 m outs c)
theorem main_v28_at18 (c : Dev nD) : V18 m outs c main_v28 = V13 m c main_v28 :=
  (V18_of m outs c main_v28 (by decide)).trans (main_v28_at17 m outs c)
theorem main_v28_at19 (c : Dev nD) : V19 m outs c main_v28 = V13 m c main_v28 :=
  (V19_of m outs c main_v28 (by decide)).trans (main_v28_at18 m outs c)
theorem main_v28_at20 (c : Dev nD) : V20 m outs c main_v28 = V13 m c main_v28 :=
  (V20_of m outs c main_v28 (by decide)).trans (main_v28_at19 m outs c)
theorem main_v28_at21 (c : Dev nD) : V21 m outs c main_v28 = V13 m c main_v28 :=
  (V21_of m outs c main_v28 (by decide)).trans (main_v28_at20 m outs c)
theorem main_v28_at22 (c : Dev nD) : V22 m outs c main_v28 = V13 m c main_v28 :=
  (V22_of m outs c main_v28 (by decide)).trans (main_v28_at21 m outs c)
theorem main_v28_at23 (c : Dev nD) : V23 m outs c main_v28 = V13 m c main_v28 :=
  (V23_of m outs c main_v28 (by decide)).trans (main_v28_at22 m outs c)
theorem main_v28_at24 (c : Dev nD) : V24 m outs c main_v28 = V13 m c main_v28 :=
  (V24_of m outs c main_v28 (by decide)).trans (main_v28_at23 m outs c)
theorem main_v28_at25 (c : Dev nD) : V25 m outs c main_v28 = V13 m c main_v28 :=
  (V25_of m outs c main_v28 (by decide)).trans (main_v28_at24 m outs c)
theorem main_v28_at26 (c : Dev nD) : V26 m outs c main_v28 = V13 m c main_v28 :=
  (V26_of m outs c main_v28 (by decide)).trans (main_v28_at25 m outs c)
theorem main_v28_at27 (c : Dev nD) : V27 m outs c main_v28 = V13 m c main_v28 :=
  (V27_of m outs c main_v28 (by decide)).trans (main_v28_at26 m outs c)
theorem main_v32_at14 (c : Dev nD) : V14 m outs c main_v32 = V13 m c main_v32 := V14_of m outs c main_v32 (by decide)
theorem main_v32_at15 (c : Dev nD) : V15 m outs c main_v32 = V13 m c main_v32 :=
  (V15_of m outs c main_v32 (by decide)).trans (main_v32_at14 m outs c)
theorem main_v32_at16 (c : Dev nD) : V16 m outs c main_v32 = V13 m c main_v32 :=
  (V16_of m outs c main_v32 (by decide)).trans (main_v32_at15 m outs c)
theorem main_v32_at17 (c : Dev nD) : V17 m outs c main_v32 = V13 m c main_v32 :=
  (V17_of m outs c main_v32 (by decide)).trans (main_v32_at16 m outs c)
theorem main_v32_at18 (c : Dev nD) : V18 m outs c main_v32 = V13 m c main_v32 :=
  (V18_of m outs c main_v32 (by decide)).trans (main_v32_at17 m outs c)
theorem main_v32_at19 (c : Dev nD) : V19 m outs c main_v32 = V13 m c main_v32 :=
  (V19_of m outs c main_v32 (by decide)).trans (main_v32_at18 m outs c)
theorem main_v32_at20 (c : Dev nD) : V20 m outs c main_v32 = V13 m c main_v32 :=
  (V20_of m outs c main_v32 (by decide)).trans (main_v32_at19 m outs c)
theorem main_v32_at21 (c : Dev nD) : V21 m outs c main_v32 = V13 m c main_v32 :=
  (V21_of m outs c main_v32 (by decide)).trans (main_v32_at20 m outs c)
theorem main_v32_at22 (c : Dev nD) : V22 m outs c main_v32 = V13 m c main_v32 :=
  (V22_of m outs c main_v32 (by decide)).trans (main_v32_at21 m outs c)
theorem main_v32_at23 (c : Dev nD) : V23 m outs c main_v32 = V13 m c main_v32 :=
  (V23_of m outs c main_v32 (by decide)).trans (main_v32_at22 m outs c)
theorem main_v32_at24 (c : Dev nD) : V24 m outs c main_v32 = V13 m c main_v32 :=
  (V24_of m outs c main_v32 (by decide)).trans (main_v32_at23 m outs c)
theorem main_v32_at25 (c : Dev nD) : V25 m outs c main_v32 = V13 m c main_v32 :=
  (V25_of m outs c main_v32 (by decide)).trans (main_v32_at24 m outs c)
theorem main_v32_at26 (c : Dev nD) : V26 m outs c main_v32 = V13 m c main_v32 :=
  (V26_of m outs c main_v32 (by decide)).trans (main_v32_at25 m outs c)
theorem main_v32_at27 (c : Dev nD) : V27 m outs c main_v32 = V13 m c main_v32 :=
  (V27_of m outs c main_v32 (by decide)).trans (main_v32_at26 m outs c)
theorem main_v36_at14 (c : Dev nD) : V14 m outs c main_v36 = V13 m c main_v36 := V14_of m outs c main_v36 (by decide)
theorem main_v36_at15 (c : Dev nD) : V15 m outs c main_v36 = V13 m c main_v36 :=
  (V15_of m outs c main_v36 (by decide)).trans (main_v36_at14 m outs c)
theorem main_v36_at16 (c : Dev nD) : V16 m outs c main_v36 = V13 m c main_v36 :=
  (V16_of m outs c main_v36 (by decide)).trans (main_v36_at15 m outs c)
theorem main_v36_at17 (c : Dev nD) : V17 m outs c main_v36 = V13 m c main_v36 :=
  (V17_of m outs c main_v36 (by decide)).trans (main_v36_at16 m outs c)
theorem main_v36_at18 (c : Dev nD) : V18 m outs c main_v36 = V13 m c main_v36 :=
  (V18_of m outs c main_v36 (by decide)).trans (main_v36_at17 m outs c)
theorem main_v36_at19 (c : Dev nD) : V19 m outs c main_v36 = V13 m c main_v36 :=
  (V19_of m outs c main_v36 (by decide)).trans (main_v36_at18 m outs c)
theorem main_v36_at20 (c : Dev nD) : V20 m outs c main_v36 = V13 m c main_v36 :=
  (V20_of m outs c main_v36 (by decide)).trans (main_v36_at19 m outs c)
theorem main_v36_at21 (c : Dev nD) : V21 m outs c main_v36 = V13 m c main_v36 :=
  (V21_of m outs c main_v36 (by decide)).trans (main_v36_at20 m outs c)
theorem main_v36_at22 (c : Dev nD) : V22 m outs c main_v36 = V13 m c main_v36 :=
  (V22_of m outs c main_v36 (by decide)).trans (main_v36_at21 m outs c)
theorem main_v36_at23 (c : Dev nD) : V23 m outs c main_v36 = V13 m c main_v36 :=
  (V23_of m outs c main_v36 (by decide)).trans (main_v36_at22 m outs c)
theorem main_v36_at24 (c : Dev nD) : V24 m outs c main_v36 = V13 m c main_v36 :=
  (V24_of m outs c main_v36 (by decide)).trans (main_v36_at23 m outs c)
theorem main_v36_at25 (c : Dev nD) : V25 m outs c main_v36 = V13 m c main_v36 :=
  (V25_of m outs c main_v36 (by decide)).trans (main_v36_at24 m outs c)
theorem main_v36_at26 (c : Dev nD) : V26 m outs c main_v36 = V13 m c main_v36 :=
  (V26_of m outs c main_v36 (by decide)).trans (main_v36_at25 m outs c)
theorem main_v36_at27 (c : Dev nD) : V27 m outs c main_v36 = V13 m c main_v36 :=
  (V27_of m outs c main_v36 (by decide)).trans (main_v36_at26 m outs c)
end Cert.Hand.GluePre
-- ==== Proof.RealTablesRow.lean ====
import proofs.«412644_j75642964017948_3_alg».proof.Proof.RealTables
import proofs.«412644_j75642964017948_3_alg».proof.Proof.GluePrePersist
import proofs.«412644_j75642964017948_3_alg».proof.Proof.RowState0
import proofs.«412644_j75642964017948_3_alg».proof.Proof.RowState1
import proofs.«412644_j75642964017948_3_alg».proof.Proof.RowState2
import proofs.«412644_j75642964017948_3_alg».proof.Proof.RowState3

set_option maxRecDepth 16384

noncomputable section

namespace Cert.Hand.Tables

open Idealize.ShloMosaic Idealize.ShloMosaic.TcCoe
open Idealize.ShloMosaic.ValueIdx
open Cert.KernelIdeal Cert.KernelIdeal.Gen
open Cert.Hand.PreFacts (PreFacts)
open Cert.Hand.GluePre
open scoped BigOperators

variable {m : (ℓ : Loc nD τ sig) → Buf (Elt Ideal) ℓ} {c : Dev nD}

theorem row0_logit (pf : PreFacts m c) (n : Fin 511) (j : Fin 20000) :
    Cert.Hand.Row0.logit0 (fun c b => V13 m c b) c n.castSucc j
      = ((xh pf n (⟨j.val, by have := j.isLt; omega⟩ : Fin 20003) : ℝ) : EReal) := by
  unfold Cert.Hand.Row0.logit0
  exact kern0_logit pf n j _ _ _ _ rfl
    (((V13_of m c main_arg2 (by decide)).trans <| (V12_of m c main_arg2 (by decide)).trans <| (V11_of m c main_arg2 (by decide)).trans <| (V10_of m c main_arg2 (by decide)).trans <| (V9_of m c main_arg2 (by decide)).trans <| (V8_of m c main_arg2 (by decide)).trans <| (V7_of m c main_arg2 (by decide)).trans <| (V6_of m c main_arg2 (by decide)).trans <| (V5_of m c main_arg2 (by decide)).trans <| (V4_of m c main_arg2 (by decide)).trans <| (V3_of m c main_arg2 (by decide)).trans <| (V2_of m c main_arg2 (by decide)).trans <| (V1_of m c main_arg2 (by decide)).trans rfl) : V13 m c main_arg2 = m ((c : Thread nD τ).loc main_arg2))
    (((V13_of m c main_arg3 (by decide)).trans <| (V12_of m c main_arg3 (by decide)).trans <| (V11_of m c main_arg3 (by decide)).trans <| (V10_of m c main_arg3 (by decide)).trans <| (V9_of m c main_arg3 (by decide)).trans <| (V8_of m c main_arg3 (by decide)).trans <| (V7_of m c main_arg3 (by decide)).trans <| (V6_of m c main_arg3 (by decide)).trans <| (V5_of m c main_arg3 (by decide)).trans <| (V4_of m c main_arg3 (by decide)).trans <| (V3_of m c main_arg3 (by decide)).trans <| (V2_of m c main_arg3 (by decide)).trans <| (V1_of m c main_arg3 (by decide)).trans rfl) : V13 m c main_arg3 = m ((c : Thread nD τ).loc main_arg3))
    rfl

theorem row1_logit (outs : Outs (F := Ideal)) (pf : PreFacts m c) (n : Fin 511) (j : Fin 20000) :
    Cert.Hand.Row1.logit1 (fun c b => V15 m outs c b) c n.castSucc j = ((x1 pf n j : ℝ) : EReal) := by
  unfold Cert.Hand.Row1.logit1
  exact kern1_logit outs pf n j _ _ _ _ (main_v4_at15 m outs c)
    (((V15_of m outs c main_arg5 (by decide)).trans <| (V14_of m outs c main_arg5 (by decide)).trans <| (V13_of m c main_arg5 (by decide)).trans <| (V12_of m c main_arg5 (by decide)).trans <| (V11_of m c main_arg5 (by decide)).trans <| (V10_of m c main_arg5 (by decide)).trans <| (V9_of m c main_arg5 (by decide)).trans <| (V8_of m c main_arg5 (by decide)).trans <| (V7_of m c main_arg5 (by decide)).trans <| (V6_of m c main_arg5 (by decide)).trans <| (V5_of m c main_arg5 (by decide)).trans <| (V4_of m c main_arg5 (by decide)).trans <| (V3_of m c main_arg5 (by decide)).trans <| (V2_of m c main_arg5 (by decide)).trans <| (V1_of m c main_arg5 (by decide)).trans rfl) : V15 m outs c main_arg5 = m ((c : Thread nD τ).loc main_arg5))
    (((V15_of m outs c main_arg6 (by decide)).trans <| (V14_of m outs c main_arg6 (by decide)).trans <| (V13_of m c main_arg6 (by decide)).trans <| (V12_of m c main_arg6 (by decide)).trans <| (V11_of m c main_arg6 (by decide)).trans <| (V10_of m c main_arg6 (by decide)).trans <| (V9_of m c main_arg6 (by decide)).trans <| (V8_of m c main_arg6 (by decide)).trans <| (V7_of m c main_arg6 (by decide)).trans <| (V6_of m c main_arg6 (by decide)).trans <| (V5_of m c main_arg6 (by decide)).trans <| (V4_of m c main_arg6 (by decide)).trans <| (V3_of m c main_arg6 (by decide)).trans <| (V2_of m c main_arg6 (by decide)).trans <| (V1_of m c main_arg6 (by decide)).trans rfl) : V15 m outs c main_arg6 = m ((c : Thread nD τ).loc main_arg6))
    rfl

theorem row2_logit (outs : Outs (F := Ideal)) (pf : PreFacts m c) (n : Fin 511) (j : Fin 160000) :
    Cert.Hand.Row2.logit2 (fun c b => V17 m outs c b) c n.castSucc j = ((x2 pf n j : ℝ) : EReal) := by
  unfold Cert.Hand.Row2.logit2
  exact kern2_logit outs pf n j _ _ _ _ (main_v4_at17 m outs c)
    (((V17_of m outs c main_arg8 (by decide)).trans <| (V16_of m outs c main_arg8 (by decide)).trans <| (V15_of m outs c main_arg8 (by decide)).trans <| (V14_of m outs c main_arg8 (by decide)).trans <| (V13_of m c main_arg8 (by decide)).trans <| (V12_of m c main_arg8 (by decide)).trans <| (V11_of m c main_arg8 (by decide)).trans <| (V10_of m c main_arg8 (by decide)).trans <| (V9_of m c main_arg8 (by decide)).trans <| (V8_of m c main_arg8 (by decide)).trans <| (V7_of m c main_arg8 (by decide)).trans <| (V6_of m c main_arg8 (by decide)).trans <| (V5_of m c main_arg8 (by decide)).trans <| (V4_of m c main_arg8 (by decide)).trans <| (V3_of m c main_arg8 (by decide)).trans <| (V2_of m c main_arg8 (by decide)).trans <| (V1_of m c main_arg8 (by decide)).trans rfl) : V17 m outs c main_arg8 = m ((c : Thread nD τ).loc main_arg8))
    (((V17_of m outs c main_arg9 (by decide)).trans <| (V16_of m outs c main_arg9 (by decide)).trans <| (V15_of m outs c main_arg9 (by decide)).trans <| (V14_of m outs c main_arg9 (by decide)).trans <| (V13_of m c main_arg9 (by decide)).trans <| (V12_of m c main_arg9 (by decide)).trans <| (V11_of m c main_arg9 (by decide)).trans <| (V10_of m c main_arg9 (by decide)).trans <| (V9_of m c main_arg9 (by decide)).trans <| (V8_of m c main_arg9 (by decide)).trans <| (V7_of m c main_arg9 (by decide)).trans <| (V6_of m c main_arg9 (by decide)).trans <| (V5_of m c main_arg9 (by decide)).trans <| (V4_of m c main_arg9 (by decide)).trans <| (V3_of m c main_arg9 (by decide)).trans <| (V2_of m c main_arg9 (by decide)).trans <| (V1_of m c main_arg9 (by decide)).trans rfl) : V17 m outs c main_arg9 = m ((c : Thread nD τ).loc main_arg9))
    rfl

theorem row3_logit (outs : Outs (F := Ideal)) (pf : PreFacts m c) (n : Fin 511) (j : Fin 67735) :
    Cert.Hand.Row3.logit3 (fun c b => V19 m outs c b) c n.castSucc (Cert.Hand.Row3.pad3 j) = ((x3 pf n j : ℝ) : EReal) := by
  unfold Cert.Hand.Row3.logit3
  exact kern3_logit outs pf n (Cert.Hand.Row3.pad3 j) j.isLt _ _ _ _ (main_v4_at19 m outs c)
    (((V19_of m outs c main_arg11 (by decide)).trans <| (V18_of m outs c main_arg11 (by decide)).trans <| (V17_of m outs c main_arg11 (by decide)).trans <| (V16_of m outs c main_arg11 (by decide)).trans <| (V15_of m outs c main_arg11 (by decide)).trans <| (V14_of m outs c main_arg11 (by decide)).trans <| (V13_of m c main_arg11 (by decide)).trans <| (V12_of m c main_arg11 (by decide)).trans <| (V11_of m c main_arg11 (by decide)).trans <| (V10_of m c main_arg11 (by decide)).trans <| (V9_of m c main_arg11 (by decide)).trans <| (V8_of m c main_arg11 (by decide)).trans <| (V7_of m c main_arg11 (by decide)).trans <| (V6_of m c main_arg11 (by decide)).trans <| (V5_of m c main_arg11 (by decide)).trans <| (V4_of m c main_arg11 (by decide)).trans <| (V3_of m c main_arg11 (by decide)).trans <| (V2_of m c main_arg11 (by decide)).trans <| (V1_of m c main_arg11 (by decide)).trans rfl) : V19 m outs c main_arg11 = m ((c : Thread nD τ).loc main_arg11))
    rfl rfl

theorem row0_target (n : Fin 511) :
    Cert.Hand.Row0.T0 (fun c b => V13 m c b) c (ix2 n.castSucc (0 : Fin 1)) = targetHeadw (ypad m c n.castSucc) :=
  targetHead_read m c n.castSucc 0

theorem row1_target (outs : Outs (F := Ideal)) (n : Fin 511) :
    Cert.Hand.Row1.T1 (fun c b => V15 m outs c b) c (ix2 n.castSucc (0 : Fin 1)) = rel1w (ypad m c n.castSucc) :=
  (congrFun (main_v28_at15 m outs c) _).trans (rel1_read m c n.castSucc 0)

theorem row2_target (outs : Outs (F := Ideal)) (n : Fin 511) :
    Cert.Hand.Row2.T2 (fun c b => V17 m outs c b) c (ix2 n.castSucc (0 : Fin 1)) = rel2w (ypad m c n.castSucc) :=
  (congrFun (main_v32_at17 m outs c) _).trans (rel2_read m c n.castSucc 0)

theorem row3_target (outs : Outs (F := Ideal)) (n : Fin 511) :
    Cert.Hand.Row3.T3 (fun c b => V19 m outs c b) c (ix2 n.castSucc (0 : Fin 1)) = rel3w (ypad m c n.castSucc) :=
  (congrFun (main_v36_at19 m outs c) _).trans (rel3_read m c n.castSucc 0)

end Cert.Hand.Tables
-- ==== Proof.KerClosedMain.lean ====
import proofs.«412644_j75642964017948_3_alg».proof.Proof.KerSix
import proofs.«412644_j75642964017948_3_alg».proof.Proof.GluePost
import proofs.«412644_j75642964017948_3_alg».proof.Proof.KerRowClosed
import proofs.«412644_j75642964017948_3_alg».proof.Proof.RealTablesRow

set_option maxRecDepth 16384

noncomputable section

namespace Cert.Hand.KerMain

open Cert.KernelIdeal Cert.KernelIdeal.Gen Cert.KernelIdeal.Hand
open Idealize.ShloMosaic Idealize.ShloMosaic.TcCoe Idealize.SL.Sem
open Idealize.ShloMosaic.ValueIdx
open Cert.Hand.GluePost Cert.Hand.GluePre Cert.Hand.Tables Cert.Hand.LSE
open Cert.Hand.PreFacts (PreFacts)

variable (m : (ℓ : Loc nD τ sig) → Buf (Elt Ideal) ℓ) (c : Dev nD)

theorem toNat_toInt (w : BitVec 32) (h : 0 ≤ w.toInt) : w.toInt.toNat = w.toNat := by
  have := toNat_of_toInt_nonneg w h; omega

theorem ker_closed (pf : PreFacts m c) (n : Fin 511) :
    (V29 m (outsW m) c main_v189 : S511.Idx → EReal) (ix1 n)
      = ((Cert.Hand.Spec.nll (ypad m c n.castSucc).toInt (xh pf n) (x1 pf n) (x2 pf n) (x3 pf n) : ℝ) : EReal) := by
  have hy : 0 ≤ (ypad m c n.castSucc).toInt := by
    rw [ypad_of_lt m c n.castSucc (by rw [Fin.coe_castSucc]; exact n.isLt)]; exact pf.lab_nonneg _
  rw [ker_out m (outsW m) c n, six0_eq, six1_eq, six2_eq, six3_eq]

  have s0 := Cert.Hand.Row0.six0 (fun c b => V13 m c b) c n.castSucc (fun j => xh pf n ⟨j.val, by omega⟩) (fun j => row0_logit pf n j)
  have s1 := Cert.Hand.Row1.six1 (fun c b => V15 m (outsW m) c b) c n.castSucc (x1 pf n) (fun j => row1_logit (outsW m) pf n j)
  have s2 := Cert.Hand.Row2.six2 (fun c b => V17 m (outsW m) c b) c n.castSucc (x2 pf n) (fun j => row2_logit (outsW m) pf n j)
  have t3r : (rel3w (ypad m c n.castSucc)).toNat < 67735 := by
    have h := rel3w_range (ypad m c n.castSucc); have := toNat_of_toInt_nonneg _ h.1; omega
  have s3 := Cert.Hand.Row3.six3 (fun c b => V19 m (outsW m) c b) c n.castSucc (x3 pf n) (fun j => row3_logit (outsW m) pf n j)
    (by rw [row3_target (outsW m) n]; exact t3r)
  rw [row0_target (m := m) (c := c) n] at s0
  rw [row1_target (outsW m) n] at s1
  rw [row2_target (outsW m) n] at s2
  simp only [row3_target (outsW m) n] at s3
  refine Cert.Hand.KerClosed.kerRow_closed (ypad m c n.castSucc).toInt hy _ _ _ _ ?_ ?_ ?_ ?_ (xh pf n) (x1 pf n) (x2 pf n) (x3 pf n) _
    (fun i => cluster_logit pf n i) _ _ _ _ s0.1 ?_ s1.1 ?_ s2.1 ?_ s3.1 ?_
  · rw [mask0_read]; exact mask0w_eq_one _
  · rw [mask1_read]; exact mask1w_eq_one _
  · rw [mask2_read]; exact mask2w_eq_one _
  · rw [mask3_read]; exact mask3w_eq_one _
  · intro hlt
    have hm : mask0w (ypad m c n.castSucc) = 1#1 := (mask0w_eq_one _).mpr hlt
    have ht : targetHeadw (ypad m c n.castSucc) = ypad m c n.castSucc := targetHeadw_of_mask _ hm
    have hlt' : (targetHeadw (ypad m c n.castSucc)).toNat < 20000 := by
      rw [ht]; have := toNat_of_toInt_nonneg _ hy; omega
    rw [s0.2.1 hlt']
    congr 2; apply Fin.ext; show (targetHeadw (ypad m c n.castSucc)).toNat = (ypad m c n.castSucc).toInt.toNat; rw [ht]; exact (toNat_toInt _ hy).symm
  · intro hlo hhi
    have hm : mask1w (ypad m c n.castSucc) = 1#1 := (mask1w_eq_one _).mpr ⟨hlo, hhi⟩
    have hr := rel1w_of_mask _ hm
    have hg := rel1w_range (ypad m c n.castSucc)
    have hlt' : (rel1w (ypad m c n.castSucc)).toNat < 20000 := by have := toNat_of_toInt_nonneg _ hg.1; omega
    rw [s1.2.1 hlt']
    congr 2; apply Fin.ext; show (rel1w (ypad m c n.castSucc)).toNat = ((ypad m c n.castSucc).toInt - 20000).toNat
    have := toNat_of_toInt_nonneg _ hg.1; omega
  · intro hlo hhi
    have hm : mask2w (ypad m c n.castSucc) = 1#1 := (mask2w_eq_one _).mpr ⟨hlo, hhi⟩
    have hr := rel2w_of_mask _ hm
    have hg := rel2w_range (ypad m c n.castSucc)
    have hlt' : (rel2w (ypad m c n.castSucc)).toNat < 160000 := by have := toNat_of_toInt_nonneg _ hg.1; omega
    rw [s2.2.1 hlt']
    congr 2; apply Fin.ext; show (rel2w (ypad m c n.castSucc)).toNat = ((ypad m c n.castSucc).toInt - 40000).toNat
    have := toNat_of_toInt_nonneg _ hg.1; omega
  · intro hlo hhi
    have hm : mask3w (ypad m c n.castSucc) = 1#1 := (mask3w_eq_one _).mpr ⟨hlo, hhi⟩
    have hr := rel3w_of_mask _ hm
    have hg := rel3w_range (ypad m c n.castSucc)
    rw [s3.2]
    congr 2; apply Fin.ext; show (rel3w (ypad m c n.castSucc)).toNat = ((ypad m c n.castSucc).toInt - 200000).toNat
    have := toNat_of_toInt_nonneg _ hg.1; omega

end Cert.Hand.KerMain

end
-- ==== Proof.RefSelSpec.lean ====
import Idealize.ShloMosaic.Lib.ValueIdx
import Idealize.ShloMosaic.Lib.StableHlo.Predicate
import Idealize.ShloMosaic.PureOps.Ideal

noncomputable section

namespace Cert.Hand.RefSel

open Idealize.ShloMosaic Idealize.ShloMosaic.ValueIdx Idealize.ShloMosaic.StableHlo

theorem minsi_toInt (a b : BitVec 32) : (IntOp.minsi a b).toInt = min a.toInt b.toInt := by
  unfold IntOp.minsi; simp only [BitVec.slt, decide_eq_true_eq]; split <;> omega

theorem maxsi_toInt (a b : BitVec 32) : (IntOp.maxsi a b).toInt = max a.toInt b.toInt := by
  unfold IntOp.maxsi; simp only [BitVec.slt, decide_eq_true_eq]; split <;> omega

theorem cmpi_slt_iff (a b : BitVec 32) : IntOp.cmpi .slt a b = 1#1 ↔ a.toInt < b.toInt := by
  simp only [IntOp.cmpi, Predicate.ofBool_eq_one_iff, BitVec.slt, decide_eq_true_eq]

theorem cmpi_sle_iff (a b : BitVec 32) : IntOp.cmpi .sle a b = 1#1 ↔ a.toInt ≤ b.toInt := by
  simp only [IntOp.cmpi, Predicate.ofBool_eq_one_iff, BitVec.sle, decide_eq_true_eq]

theorem cmpi_sge_iff (a b : BitVec 32) : IntOp.cmpi .sge a b = 1#1 ↔ b.toInt ≤ a.toInt := by
  simp only [IntOp.cmpi, Predicate.ofBool_eq_one_iff, BitVec.sle, decide_eq_true_eq]

theorem andi_one_iff (c d : BitVec 1) : IntOp.andi c d = 1#1 ↔ c = 1#1 ∧ d = 1#1 := by revert c d; decide

theorem cmpi_slt_eq_zero (a b : BitVec 32) (h : b.toInt ≤ a.toInt) : IntOp.cmpi .slt a b = 0#1 :=
  eq_zero_of_ne_one (fun e => absurd ((cmpi_slt_iff a b).1 e) (by omega))

theorem subi_toInt (y c : BitVec 32) (h1 : -2147483648 ≤ y.toInt - c.toInt) (h2 : y.toInt - c.toInt < 2147483648) :
    (IntOp.subi y c).toInt = y.toInt - c.toInt := by
  unfold IntOp.subi
  rw [BitVec.toInt_sub]
  exact Int.bmod_eq_of_le_mul_two (by omega) (by omega)

theorem toNat_of_toInt_nonneg (y : BitVec 32) (h : 0 ≤ y.toInt) : (y.toNat : Int) = y.toInt := by
  rw [BitVec.toInt_eq_toNat_cond] at h ⊢
  split at h <;> split <;> omega

def clipW (hi w : BitVec 32) : BitVec 32 := IntOp.minsi hi (IntOp.maxsi 0#32 w)

theorem clipW_toInt (hi w : BitVec 32) : (clipW hi w).toInt = min hi.toInt (max 0 w.toInt) := by
  unfold clipW
  rw [minsi_toInt, maxsi_toInt]
  rfl

theorem clipW_nonneg (hi w : BitVec 32) (hhi : 0 ≤ hi.toInt) : 0 ≤ (clipW hi w).toInt := by
  rw [clipW_toInt]; omega

theorem clipW_le (hi w : BitVec 32) : (clipW hi w).toInt ≤ hi.toInt := by
  rw [clipW_toInt]; omega

theorem clipW_eq_self (hi w : BitVec 32) (h0 : 0 ≤ w.toInt) (h1 : w.toInt ≤ hi.toInt) : clipW hi w = w :=
  BitVec.eq_of_toInt_eq (by rw [clipW_toInt]; omega)

theorem take_wrap (c N : BitVec 32) (h0 : 0 ≤ c.toInt) :
    Scalar.select (IntOp.cmpi .slt c 0#32) (IntOp.addi c N) c = c := by
  rw [cmpi_slt_eq_zero c 0#32 (by simpa using h0)]
  exact select_zero _ _

theorem take_inb (c lim : BitVec 32) (h0 : 0 ≤ c.toInt) (h1 : c.toInt ≤ lim.toInt) :
    IntOp.andi (IntOp.cmpi .sge c 0#32) (IntOp.cmpi .sle c lim) = 1#1 :=
  (andi_one_iff _ _).2 ⟨(cmpi_sge_iff c 0#32).2 (by simpa using h0), (cmpi_sle_iff c lim).2 h1⟩

def lt0 (y : BitVec 32) : Prop := IntOp.cmpi .slt y 20000#32 = 1#1

def in1 (y : BitVec 32) : Prop := IntOp.andi (IntOp.cmpi .sge y 20000#32) (IntOp.cmpi .slt y 40000#32) = 1#1

def in2 (y : BitVec 32) : Prop := IntOp.andi (IntOp.cmpi .sge y 40000#32) (IntOp.cmpi .slt y 200000#32) = 1#1

def in3 (y : BitVec 32) : Prop := IntOp.andi (IntOp.cmpi .sge y 200000#32) (IntOp.cmpi .slt y 267735#32) = 1#1

instance (y : BitVec 32) : Decidable (lt0 y) := inferInstanceAs (Decidable (IntOp.cmpi .slt y 20000#32 = 1#1))
instance (y : BitVec 32) : Decidable (in1 y) :=
  inferInstanceAs (Decidable (IntOp.andi (IntOp.cmpi .sge y 20000#32) (IntOp.cmpi .slt y 40000#32) = 1#1))
instance (y : BitVec 32) : Decidable (in2 y) :=
  inferInstanceAs (Decidable (IntOp.andi (IntOp.cmpi .sge y 40000#32) (IntOp.cmpi .slt y 200000#32) = 1#1))
instance (y : BitVec 32) : Decidable (in3 y) :=
  inferInstanceAs (Decidable (IntOp.andi (IntOp.cmpi .sge y 200000#32) (IntOp.cmpi .slt y 267735#32) = 1#1))

def idx0 (y : BitVec 32) : Fin 20003 := ⟨min (clipW 19999#32 y).toInt.toNat (20003 - 1), by omega⟩

def rel1 (y : BitVec 32) : Fin 20000 := ⟨min (clipW 19999#32 (IntOp.subi y 20000#32)).toInt.toNat (20000 - 1), by omega⟩

def rel2 (y : BitVec 32) : Fin 160000 := ⟨min (clipW 159999#32 (IntOp.subi y 40000#32)).toInt.toNat (160000 - 1), by omega⟩

def rel3 (y : BitVec 32) : Fin 67735 := ⟨min (clipW 67734#32 (IntOp.subi y 200000#32)).toInt.toNat (67735 - 1), by omega⟩

def refRow (y : BitVec 32) (r0 : Fin 20003 → EReal) (r1 : Fin 20000 → EReal) (r2 : Fin 160000 → EReal)
    (r3 : Fin 67735 → EReal) : EReal :=
  if in3 y then -(r0 ⟨20002, by decide⟩ + r3 (rel3 y))
  else if in2 y then -(r0 ⟨20001, by decide⟩ + r2 (rel2 y))
  else if in1 y then -(r0 ⟨20000, by decide⟩ + r1 (rel1 y))
  else if lt0 y then -(r0 (idx0 y))
  else 0

theorem select_eq_ite {α : Type} (c : BitVec 1) (a b : α) : Scalar.select c a b = if c = 1#1 then a else b := rfl

theorem lt0_iff (y : BitVec 32) : lt0 y ↔ y.toInt < 20000 := by
  unfold lt0; rw [cmpi_slt_iff]; exact Iff.rfl
theorem in1_iff (y : BitVec 32) : in1 y ↔ 20000 ≤ y.toInt ∧ y.toInt < 40000 := by
  unfold in1; rw [andi_one_iff, cmpi_sge_iff, cmpi_slt_iff]; exact Iff.rfl
theorem in2_iff (y : BitVec 32) : in2 y ↔ 40000 ≤ y.toInt ∧ y.toInt < 200000 := by
  unfold in2; rw [andi_one_iff, cmpi_sge_iff, cmpi_slt_iff]; exact Iff.rfl
theorem in3_iff (y : BitVec 32) : in3 y ↔ 200000 ≤ y.toInt ∧ y.toInt < 267735 := by
  unfold in3; rw [andi_one_iff, cmpi_sge_iff, cmpi_slt_iff]; exact Iff.rfl

theorem masks_disjoint (y : BitVec 32) :
    ¬(lt0 y ∧ in1 y) ∧ ¬(lt0 y ∧ in2 y) ∧ ¬(lt0 y ∧ in3 y) ∧ ¬(in1 y ∧ in2 y) ∧ ¬(in1 y ∧ in3 y) ∧ ¬(in2 y ∧ in3 y) := by
  rw [lt0_iff, in1_iff, in2_iff, in3_iff]; omega

theorem idx0_val (y : BitVec 32) (h : 0 ≤ y.toInt) (hl : lt0 y) : (idx0 y).val = y.toNat := by
  have hn := toNat_of_toInt_nonneg y h
  rw [lt0_iff] at hl
  have hc : clipW 19999#32 y = y := clipW_eq_self _ _ h (by show y.toInt ≤ 19999; omega)
  show min (clipW 19999#32 y).toInt.toNat (20003 - 1) = y.toNat
  rw [hc]; omega

theorem rel1_val (y : BitVec 32) (hl : in1 y) : (rel1 y).val = y.toNat - 20000 := by
  rw [in1_iff] at hl
  have hn := toNat_of_toInt_nonneg y (by omega)
  have hs : (IntOp.subi y 20000#32).toInt = y.toInt - 20000 :=
    subi_toInt y 20000#32 (by show -2147483648 ≤ y.toInt - 20000; omega) (by show y.toInt - 20000 < 2147483648; omega)
  have hc : clipW 19999#32 (IntOp.subi y 20000#32) = IntOp.subi y 20000#32 :=
    clipW_eq_self _ _ (by omega) (by show _ ≤ (19999 : Int); omega)
  show min (clipW 19999#32 (IntOp.subi y 20000#32)).toInt.toNat (20000 - 1) = y.toNat - 20000
  rw [hc, hs]; omega

theorem rel2_val (y : BitVec 32) (hl : in2 y) : (rel2 y).val = y.toNat - 40000 := by
  rw [in2_iff] at hl
  have hn := toNat_of_toInt_nonneg y (by omega)
  have hs : (IntOp.subi y 40000#32).toInt = y.toInt - 40000 :=
    subi_toInt y 40000#32 (by show -2147483648 ≤ y.toInt - 40000; omega) (by show y.toInt - 40000 < 2147483648; omega)
  have hc : clipW 159999#32 (IntOp.subi y 40000#32) = IntOp.subi y 40000#32 :=
    clipW_eq_self _ _ (by omega) (by show _ ≤ (159999 : Int); omega)
  show min (clipW 159999#32 (IntOp.subi y 40000#32)).toInt.toNat (160000 - 1) = y.toNat - 40000
  rw [hc, hs]; omega

theorem rel3_val (y : BitVec 32) (hl : in3 y) : (rel3 y).val = y.toNat - 200000 := by
  rw [in3_iff] at hl
  have hn := toNat_of_toInt_nonneg y (by omega)
  have hs : (IntOp.subi y 200000#32).toInt = y.toInt - 200000 :=
    subi_toInt y 200000#32 (by show -2147483648 ≤ y.toInt - 200000; omega) (by show y.toInt - 200000 < 2147483648; omega)
  have hc : clipW 67734#32 (IntOp.subi y 200000#32) = IntOp.subi y 200000#32 :=
    clipW_eq_self _ _ (by omega) (by show _ ≤ (67734 : Int); omega)
  show min (clipW 67734#32 (IntOp.subi y 200000#32)).toInt.toNat (67735 - 1) = y.toNat - 200000
  rw [hc, hs]; omega

theorem refRow_in3 (y : BitVec 32) (r0 : Fin 20003 → EReal) (r1 : Fin 20000 → EReal) (r2 : Fin 160000 → EReal)
    (r3 : Fin 67735 → EReal) (h : in3 y) : refRow y r0 r1 r2 r3 = -(r0 ⟨20002, by decide⟩ + r3 (rel3 y)) := by
  unfold refRow; rw [if_pos h]
theorem refRow_in2 (y : BitVec 32) (r0 : Fin 20003 → EReal) (r1 : Fin 20000 → EReal) (r2 : Fin 160000 → EReal)
    (r3 : Fin 67735 → EReal) (h : in2 y) : refRow y r0 r1 r2 r3 = -(r0 ⟨20001, by decide⟩ + r2 (rel2 y)) := by
  have hd := masks_disjoint y
  unfold refRow; rw [if_neg (fun h3 => hd.2.2.2.2.2 ⟨h, h3⟩), if_pos h]
theorem refRow_in1 (y : BitVec 32) (r0 : Fin 20003 → EReal) (r1 : Fin 20000 → EReal) (r2 : Fin 160000 → EReal)
    (r3 : Fin 67735 → EReal) (h : in1 y) : refRow y r0 r1 r2 r3 = -(r0 ⟨20000, by decide⟩ + r1 (rel1 y)) := by
  have hd := masks_disjoint y
  unfold refRow; rw [if_neg (fun h3 => hd.2.2.2.2.1 ⟨h, h3⟩), if_neg (fun h2 => hd.2.2.2.1 ⟨h, h2⟩), if_pos h]
theorem refRow_lt0 (y : BitVec 32) (r0 : Fin 20003 → EReal) (r1 : Fin 20000 → EReal) (r2 : Fin 160000 → EReal)
    (r3 : Fin 67735 → EReal) (h : lt0 y) : refRow y r0 r1 r2 r3 = -(r0 (idx0 y)) := by
  have hd := masks_disjoint y
  unfold refRow
  rw [if_neg (fun h3 => hd.2.2.1 ⟨h, h3⟩), if_neg (fun h2 => hd.2.1 ⟨h, h2⟩), if_neg (fun h1 => hd.1 ⟨h, h1⟩), if_pos h]
theorem refRow_none (y : BitVec 32) (r0 : Fin 20003 → EReal) (r1 : Fin 20000 → EReal) (r2 : Fin 160000 → EReal)
    (r3 : Fin 67735 → EReal) (h0 : ¬lt0 y) (h1 : ¬in1 y) (h2 : ¬in2 y) (h3 : ¬in3 y) : refRow y r0 r1 r2 r3 = 0 := by
  unfold refRow; rw [if_neg h3, if_neg h2, if_neg h1, if_neg h0]

theorem foldl_andi_ones {ι : Type} (f : ι → BitVec 1) (hf : ∀ n, f n = 1#1) :
    ∀ l : List ι, l.foldl (fun r n => IntOp.andi r (f n)) 1#1 = 1#1
  | [] => rfl
  | a :: l => by
    rw [List.foldl_cons, hf a, show IntOp.andi 1#1 1#1 = 1#1 from by decide]
    exact foldl_andi_ones f hf l

theorem reduce_andi_ones {s t u : Shape} {axes : List (Fin s.rank)} (x : s.Idx → BitVec 1) (init : u.Idx → BitVec 1)
    (h : s.ReducesTo axes t) (hu : 0 < u.numel) (hx : ∀ i, x i = 1#1) (hi : ∀ k, init k = 1#1) (j : t.Idx) :
    Host.reduce IntOp.andi x init h hu j = 1#1 := by
  unfold Host.reduce
  rw [hi]
  exact foldl_andi_ones (fun n => x (s.rowMajor.symm n)) (fun n => hx _) _

section Take

variable {α : Type}

theorem gather_row_axis0 {R N w : Nat}
    (d : GatherDims ⟨2, ![R, N]⟩ ⟨3, ![R, 1, 1]⟩ ⟨2, ![R, 1]⟩)
    (hoff : d.offsetDims = []) (hcoll : d.collapsedSliceDims = [1]) (hob : d.operandBatchingDims = [0])
    (hsb : d.startIndicesBatchingDims = [0]) (hsim : d.startIndexMap = [1]) (hivd : d.indexVectorDim = 2)
    (idx : IVec ⟨3, ![R, 1, 1]⟩ w) (n : Fin R) :
    (d.operandIdx (ix2 n (0 : Fin 1)) idx (0 : Fin 2)).val = n.val := by
  have hb : (0 : Fin 2) ∈ d.operandBatchingDims := by rw [hob]; exact List.mem_singleton.mpr rfl
  show d.start _ idx 0 + d.batchCoord _ 0 + d.offCoord _ 0 = n.val
  rw [d.start_batching _ idx 0 hb, d.offCoord_eq_zero _ 0 (fun h => ((d.mem_sKept 0).1 h).2 hb), Nat.zero_add, Nat.add_zero]
  obtain ⟨od, cd, ob, sb, sm, iv, ss, wf⟩ := d
  dsimp only at hoff hcoll hob hsb hsim hivd
  subst hoff hcoll hob hsb hsim hivd
  unfold GatherDims.batchCoord
  rw [dif_pos hb]
  unfold GatherDims.siCoord
  simp only [Fin.val_cast]
  rfl

theorem gather_row_axis1 {R N w : Nat}
    (d : GatherDims ⟨2, ![R, N]⟩ ⟨3, ![R, 1, 1]⟩ ⟨2, ![R, 1]⟩)
    (hoff : d.offsetDims = []) (hcoll : d.collapsedSliceDims = [1]) (hob : d.operandBatchingDims = [0])
    (hsb : d.startIndicesBatchingDims = [0]) (hsim : d.startIndexMap = [1]) (hivd : d.indexVectorDim = 2)
    (idx : IVec ⟨3, ![R, 1, 1]⟩ w) (n : Fin R) :
    (d.operandIdx (ix2 n (0 : Fin 1)) idx (1 : Fin 2)).val
      = min (idx (ix3 n (0 : Fin 1) (0 : Fin 1))).toInt.toNat (N - 1) := by
  have hsl : d.sliceSizes (1 : Fin 2) = 1 := d.slice_collapsed 1 (by rw [hcoll]; exact List.mem_singleton.mpr rfl)
  have hb : (1 : Fin 2) ∉ d.operandBatchingDims := by rw [hob]; simp
  have hk : (1 : Fin 2) ∉ d.sKept := by rw [GatherDims.mem_sKept, hcoll]; simp
  have hm : (1 : Fin 2) ∈ d.startIndexMap := by rw [hsim]; exact List.mem_singleton.mpr rfl
  show d.start _ idx 1 + d.batchCoord _ 1 + d.offCoord _ 1 = _
  rw [d.batchCoord_eq_zero _ 1 hb, d.offCoord_eq_zero _ 1 hk, Nat.add_zero]
  unfold GatherDims.start
  rw [dif_pos hm, hsl]
  show min (idx _).toInt.toNat (N - 1) = _
  congr 3
  congr 1
  funext b
  refine Fin.ext ?_
  match b with
  | ⟨0, _⟩ =>
    obtain ⟨od, cd, ob, sb, sm, iv, ss, wf⟩ := d
    dsimp only at hoff hcoll hob hsb hsim hivd
    subst hoff hcoll hob hsb hsim hivd
    unfold GatherDims.siIdx
    rw [dif_neg (fun h => absurd h (by decide : ¬ (0 : Nat) = 2))]
    unfold GatherDims.siCoord
    simp only [Fin.val_cast]
    rfl
  | ⟨1, _⟩ => exact (Nat.lt_one_iff.mp (Fin.isLt _)).trans (Nat.lt_one_iff.mp (Fin.isLt _)).symm
  | ⟨2, _⟩ => exact (Nat.lt_one_iff.mp (Fin.isLt _)).trans (Nat.lt_one_iff.mp (Fin.isLt _)).symm

theorem gather_row_apply {R N w : Nat} (hN : 0 < N)
    (d : GatherDims ⟨2, ![R, N]⟩ ⟨3, ![R, 1, 1]⟩ ⟨2, ![R, 1]⟩)
    (hoff : d.offsetDims = []) (hcoll : d.collapsedSliceDims = [1]) (hob : d.operandBatchingDims = [0])
    (hsb : d.startIndicesBatchingDims = [0]) (hsim : d.startIndexMap = [1]) (hivd : d.indexVectorDim = 2)
    (x : (⟨2, ![R, N]⟩ : Shape).Idx → α) (idx : IVec ⟨3, ![R, 1, 1]⟩ w) (n : Fin R) :
    Host.gather d x idx (ix2 n (0 : Fin 1))
      = x (ix2 n ⟨min (idx (ix3 n (0 : Fin 1) (0 : Fin 1))).toInt.toNat (N - 1), by omega⟩) := by
  unfold Host.gather
  congr 1
  funext a
  refine Fin.ext ?_
  match a with
  | ⟨0, _⟩ => exact gather_row_axis0 d hoff hcoll hob hsb hsim hivd idx n
  | ⟨1, _⟩ => exact gather_row_axis1 d hoff hcoll hob hsb hsim hivd idx n

end Take

end Cert.Hand.RefSel

end
-- ==== Proof.RefSelect.lean ====
import proofs.«412644_j75642964017948_3_alg».proof.Proof.RefBase
import proofs.«412644_j75642964017948_3_alg».proof.Proof.RefSelSpec

noncomputable section

namespace Cert.Hand.RefSel

open Cert.ReferenceIdeal Cert.ReferenceIdeal.Gen Cert.ReferenceIdeal.ReadP Idealize.ShloMosaic Idealize.ShloMosaic.ValueIdx
  Idealize.ShloMosaic.StableHlo

def yw (x1 : (⟨S1x512, .i32⟩ : BufTy).Contents (Elt Ideal)) (n : Fin 511) : BitVec 32 :=
  x1 (ix2 (0 : Fin 1) (⟨n.val + 1, by omega⟩ : Fin 512))

theorem y_at (x1 : (⟨S1x512, .i32⟩ : BufTy).Contents (Elt Ideal)) (n : Fin 511) : val_main_v3 (F := Ideal) x1 (ix1 n) = yw x1 n := by
  rw [val_main_v3_apply, val_main_v2_apply]
  unfold yw
  congr 1
  funext a
  refine Fin.ext ?_
  match a with
  | ⟨0, _⟩ => rfl
  | ⟨1, _⟩ =>
    have hn : n.val < 511 := n.isLt
    show 1 + n.val % 511 = n.val + 1
    omega

theorem clip0_at (x1 : (⟨S1x512, .i32⟩ : BufTy).Contents (Elt Ideal)) (n : Fin 511) :
    val_main_v15 (F := Ideal) x1 (ix1 n) = clipW 19999#32 (yw x1 n) := by
  rw [val_main_v15_apply, val_main_call1_v4_apply, val_main_call1_v3_apply, val_main_c_1_apply, val_main_call1_v2_apply,
    val_main_call1_v1_apply, val_main_call1_v0_apply, val_main_c_0_apply, y_at]
  rfl

theorem take0_idx (x1 : (⟨S1x512, .i32⟩ : BufTy).Contents (Elt Ideal)) (i : S511x1x1.Idx) :
    val_main_call2_v5 (F := Ideal) x1 i = clipW 19999#32 (yw x1 (⟨(i 0).val, (i 0).isLt⟩ : Fin 511)) := by
  have e : idx_main_v16 (idx_main_call2_v5 i) = ix1 (⟨(i 0).val, (i 0).isLt⟩ : Fin 511) := funext fun a => Fin.ext (by
    match a with
    | ⟨0, _⟩ =>
      have h1 : (i 1).val < 1 := (i 1).isLt
      have h2 : (i 2).val < 1 := (i 2).isLt
      show (((i 0).val * 1 + (i 1).val) * 1 + (i 2).val) / 1 = (i 0).val
      omega)
  rw [val_main_call2_v5_apply, val_main_call2_v4_apply, val_main_call2_v1_apply, val_main_call2_v3_apply, val_main_v16_apply, e, clip0_at,
    val_main_call2_v0_apply, val_main_call2_c_apply, val_main_call2_v2_apply, val_main_call2_c_0_apply]
  exact take_wrap _ _ (clipW_nonneg _ _ (by decide))

theorem take0_mask (x1 : (⟨S1x512, .i32⟩ : BufTy).Contents (Elt Ideal)) (i : S511x1x1.Idx) : val_main_call2_v11 (F := Ideal) x1 i = 1#1 := by
  rw [val_main_call2_v11_apply, val_main_call2_v7_apply, val_main_call2_v10_apply, take0_idx, val_main_call2_v6_apply, val_main_call2_c_2_apply,
    val_main_call2_v9_apply, val_main_call2_v8_apply, val_main_call2_c_1_apply]
  exact take_inb _ _ (clipW_nonneg _ _ (by decide)) (le_trans (clipW_le _ _) (by decide))

theorem take0_at (x0 : (⟨S1x512x1024, .f32⟩ : BufTy).Contents (Elt Ideal)) (x1 : (⟨S1x512, .i32⟩ : BufTy).Contents (Elt Ideal)) (x2 : (⟨S1024x1024, .f32⟩ : BufTy).Contents (Elt Ideal)) (x3 : (⟨S20000x1024, .f32⟩ : BufTy).Contents (Elt Ideal)) (x4 : (⟨S20000, .f32⟩ : BufTy).Contents (Elt Ideal)) (x14 : (⟨S3x1024, .f32⟩ : BufTy).Contents (Elt Ideal)) (x15 : (⟨S3, .f32⟩ : BufTy).Contents (Elt Ideal)) (n : Fin 511) :
    val_main_v18 (F := Ideal) x0 x1 x2 x3 x4 x14 x15 (ix1 n)
      = val_main_v12 (F := Ideal) x0 x2 x3 x4 x14 x15 (ix2 n (idx0 (yw x1 n))) := by
  have e : idx_main_v18 (ix1 n) = ix2 n (0 : Fin 1) := funext fun a => Fin.ext (by
    match a with
    | ⟨0, _⟩ => exact Nat.div_one _
    | ⟨1, _⟩ => rfl)
  have hm : val_main_call2_v12 (F := Ideal) x1 (ix2 n (0 : Fin 1)) = 1#1 := by
    unfold val_main_call2_v12
    exact reduce_andi_ones _ _ _ _ (take0_mask x1) (fun _ => rfl) _
  rw [val_main_v18_apply, e, val_main_v17_apply, hm, select_one]
  unfold val_main_call2_v13
  generalize val_main_v12 (F := Ideal) x0 x2 x3 x4 x14 x15 = lp
  rw [gather_row_apply (by decide) gather_S511x20003_S511x1x1_S511x1_n_1_0_0_1_2_11 rfl rfl rfl rfl rfl rfl lp _ n]
  simp only [take0_idx]
  rfl

theorem clip1_at (x1 : (⟨S1x512, .i32⟩ : BufTy).Contents (Elt Ideal)) (n : Fin 511) :
    val_main_v28 (F := Ideal) x1 (ix1 n) = clipW 19999#32 (IntOp.subi (yw x1 n) 20000#32) := by
  rw [val_main_v28_apply, val_main_call4_v4_apply, val_main_call4_v3_apply, val_main_c_6_apply, val_main_call4_v2_apply,
    val_main_call4_v1_apply, val_main_call4_v0_apply, val_main_c_5_apply, val_main_v27_apply, y_at, val_main_v26_apply, val_main_c_4_apply]
  rfl

theorem take1_idx (x1 : (⟨S1x512, .i32⟩ : BufTy).Contents (Elt Ideal)) (i : S511x1x1.Idx) :
    val_main_call6_v5 (F := Ideal) x1 i = clipW 19999#32 (IntOp.subi (yw x1 (⟨(i 0).val, (i 0).isLt⟩ : Fin 511)) 20000#32) := by
  have e : idx_main_v36 (idx_main_call6_v5 i) = ix1 (⟨(i 0).val, (i 0).isLt⟩ : Fin 511) := funext fun a => Fin.ext (by
    match a with
    | ⟨0, _⟩ =>
      have h1 : (i 1).val < 1 := (i 1).isLt
      have h2 : (i 2).val < 1 := (i 2).isLt
      show (((i 0).val * 1 + (i 1).val) * 1 + (i 2).val) / 1 = (i 0).val
      omega)
  rw [val_main_call6_v5_apply, val_main_call6_v4_apply, val_main_call6_v1_apply, val_main_call6_v3_apply, val_main_v36_apply, e, clip1_at,
    val_main_call6_v0_apply, val_main_call6_c_apply, val_main_call6_v2_apply, val_main_call6_c_0_apply]
  exact take_wrap _ _ (clipW_nonneg _ _ (by decide))

theorem take1_mask (x1 : (⟨S1x512, .i32⟩ : BufTy).Contents (Elt Ideal)) (i : S511x1x1.Idx) : val_main_call6_v11 (F := Ideal) x1 i = 1#1 := by
  rw [val_main_call6_v11_apply, val_main_call6_v7_apply, val_main_call6_v10_apply, take1_idx, val_main_call6_v6_apply, val_main_call6_c_2_apply,
    val_main_call6_v9_apply, val_main_call6_v8_apply, val_main_call6_c_1_apply]
  exact take_inb _ _ (clipW_nonneg _ _ (by decide)) (le_trans (clipW_le _ _) (by decide))

theorem take1_at (x0 : (⟨S1x512x1024, .f32⟩ : BufTy).Contents (Elt Ideal)) (x1 : (⟨S1x512, .i32⟩ : BufTy).Contents (Elt Ideal)) (x5 : (⟨S1024x256, .f32⟩ : BufTy).Contents (Elt Ideal)) (x6 : (⟨S20000x256, .f32⟩ : BufTy).Contents (Elt Ideal)) (x7 : (⟨S20000, .f32⟩ : BufTy).Contents (Elt Ideal)) (n : Fin 511) :
    val_main_v38 (F := Ideal) x0 x1 x5 x6 x7 (ix1 n)
      = val_main_v35 (F := Ideal) x0 x5 x6 x7 (ix2 n (rel1 (yw x1 n))) := by
  have e : idx_main_v38 (ix1 n) = ix2 n (0 : Fin 1) := funext fun a => Fin.ext (by
    match a with
    | ⟨0, _⟩ => exact Nat.div_one _
    | ⟨1, _⟩ => rfl)
  have hm : val_main_call6_v12 (F := Ideal) x1 (ix2 n (0 : Fin 1)) = 1#1 := by
    unfold val_main_call6_v12
    exact reduce_andi_ones _ _ _ _ (take1_mask x1) (fun _ => rfl) _
  rw [val_main_v38_apply, e, val_main_v37_apply, hm, select_one]
  unfold val_main_call6_v13
  generalize val_main_v35 (F := Ideal) x0 x5 x6 x7 = lp
  rw [gather_row_apply (by decide) gather_S511x20000_S511x1x1_S511x1_n_1_0_0_1_2_11 rfl rfl rfl rfl rfl rfl lp _ n]
  simp only [take1_idx]
  rfl

theorem clip2_at (x1 : (⟨S1x512, .i32⟩ : BufTy).Contents (Elt Ideal)) (n : Fin 511) :
    val_main_v51 (F := Ideal) x1 (ix1 n) = clipW 159999#32 (IntOp.subi (yw x1 n) 40000#32) := by
  rw [val_main_v51_apply, val_main_call8_v4_apply, val_main_call8_v3_apply, val_main_c_11_apply, val_main_call8_v2_apply,
    val_main_call8_v1_apply, val_main_call8_v0_apply, val_main_c_10_apply, val_main_v50_apply, y_at, val_main_v49_apply, val_main_c_9_apply]
  rfl

theorem take2_idx (x1 : (⟨S1x512, .i32⟩ : BufTy).Contents (Elt Ideal)) (i : S511x1x1.Idx) :
    val_main_call10_v5 (F := Ideal) x1 i = clipW 159999#32 (IntOp.subi (yw x1 (⟨(i 0).val, (i 0).isLt⟩ : Fin 511)) 40000#32) := by
  have e : idx_main_v59 (idx_main_call10_v5 i) = ix1 (⟨(i 0).val, (i 0).isLt⟩ : Fin 511) := funext fun a => Fin.ext (by
    match a with
    | ⟨0, _⟩ =>
      have h1 : (i 1).val < 1 := (i 1).isLt
      have h2 : (i 2).val < 1 := (i 2).isLt
      show (((i 0).val * 1 + (i 1).val) * 1 + (i 2).val) / 1 = (i 0).val
      omega)
  rw [val_main_call10_v5_apply, val_main_call10_v4_apply, val_main_call10_v1_apply, val_main_call10_v3_apply, val_main_v59_apply, e, clip2_at,
    val_main_call10_v0_apply, val_main_call10_c_apply, val_main_call10_v2_apply, val_main_call10_c_0_apply]
  exact take_wrap _ _ (clipW_nonneg _ _ (by decide))

theorem take2_mask (x1 : (⟨S1x512, .i32⟩ : BufTy).Contents (Elt Ideal)) (i : S511x1x1.Idx) : val_main_call10_v11 (F := Ideal) x1 i = 1#1 := by
  rw [val_main_call10_v11_apply, val_main_call10_v7_apply, val_main_call10_v10_apply, take2_idx, val_main_call10_v6_apply, val_main_call10_c_2_apply,
    val_main_call10_v9_apply, val_main_call10_v8_apply, val_main_call10_c_1_apply]
  exact take_inb _ _ (clipW_nonneg _ _ (by decide)) (le_trans (clipW_le _ _) (by decide))

theorem take2_at (x0 : (⟨S1x512x1024, .f32⟩ : BufTy).Contents (Elt Ideal)) (x1 : (⟨S1x512, .i32⟩ : BufTy).Contents (Elt Ideal)) (x8 : (⟨S1024x64, .f32⟩ : BufTy).Contents (Elt Ideal)) (x9 : (⟨S160000x64, .f32⟩ : BufTy).Contents (Elt Ideal)) (x10 : (⟨S160000, .f32⟩ : BufTy).Contents (Elt Ideal)) (n : Fin 511) :
    val_main_v61 (F := Ideal) x0 x1 x8 x9 x10 (ix1 n)
      = val_main_v58 (F := Ideal) x0 x8 x9 x10 (ix2 n (rel2 (yw x1 n))) := by
  have e : idx_main_v61 (ix1 n) = ix2 n (0 : Fin 1) := funext fun a => Fin.ext (by
    match a with
    | ⟨0, _⟩ => exact Nat.div_one _
    | ⟨1, _⟩ => rfl)
  have hm : val_main_call10_v12 (F := Ideal) x1 (ix2 n (0 : Fin 1)) = 1#1 := by
    unfold val_main_call10_v12
    exact reduce_andi_ones _ _ _ _ (take2_mask x1) (fun _ => rfl) _
  rw [val_main_v61_apply, e, val_main_v60_apply, hm, select_one]
  unfold val_main_call10_v13
  generalize val_main_v58 (F := Ideal) x0 x8 x9 x10 = lp
  rw [gather_row_apply (by decide) gather_S511x160000_S511x1x1_S511x1_n_1_0_0_1_2_11 rfl rfl rfl rfl rfl rfl lp _ n]
  simp only [take2_idx]
  rfl

theorem clip3_at (x1 : (⟨S1x512, .i32⟩ : BufTy).Contents (Elt Ideal)) (n : Fin 511) :
    val_main_v74 (F := Ideal) x1 (ix1 n) = clipW 67734#32 (IntOp.subi (yw x1 n) 200000#32) := by
  rw [val_main_v74_apply, val_main_call12_v4_apply, val_main_call12_v3_apply, val_main_c_16_apply, val_main_call12_v2_apply,
    val_main_call12_v1_apply, val_main_call12_v0_apply, val_main_c_15_apply, val_main_v73_apply, y_at, val_main_v72_apply, val_main_c_14_apply]
  rfl

theorem take3_idx (x1 : (⟨S1x512, .i32⟩ : BufTy).Contents (Elt Ideal)) (i : S511x1x1.Idx) :
    val_main_call14_v5 (F := Ideal) x1 i = clipW 67734#32 (IntOp.subi (yw x1 (⟨(i 0).val, (i 0).isLt⟩ : Fin 511)) 200000#32) := by
  have e : idx_main_v82 (idx_main_call14_v5 i) = ix1 (⟨(i 0).val, (i 0).isLt⟩ : Fin 511) := funext fun a => Fin.ext (by
    match a with
    | ⟨0, _⟩ =>
      have h1 : (i 1).val < 1 := (i 1).isLt
      have h2 : (i 2).val < 1 := (i 2).isLt
      show (((i 0).val * 1 + (i 1).val) * 1 + (i 2).val) / 1 = (i 0).val
      omega)
  rw [val_main_call14_v5_apply, val_main_call14_v4_apply, val_main_call14_v1_apply, val_main_call14_v3_apply, val_main_v82_apply, e, clip3_at,
    val_main_call14_v0_apply, val_main_call14_c_apply, val_main_call14_v2_apply, val_main_call14_c_0_apply]
  exact take_wrap _ _ (clipW_nonneg _ _ (by decide))

theorem take3_mask (x1 : (⟨S1x512, .i32⟩ : BufTy).Contents (Elt Ideal)) (i : S511x1x1.Idx) : val_main_call14_v11 (F := Ideal) x1 i = 1#1 := by
  rw [val_main_call14_v11_apply, val_main_call14_v7_apply, val_main_call14_v10_apply, take3_idx, val_main_call14_v6_apply, val_main_call14_c_2_apply,
    val_main_call14_v9_apply, val_main_call14_v8_apply, val_main_call14_c_1_apply]
  exact take_inb _ _ (clipW_nonneg _ _ (by decide)) (le_trans (clipW_le _ _) (by decide))

theorem take3_at (x0 : (⟨S1x512x1024, .f32⟩ : BufTy).Contents (Elt Ideal)) (x1 : (⟨S1x512, .i32⟩ : BufTy).Contents (Elt Ideal)) (x11 : (⟨S1024x16, .f32⟩ : BufTy).Contents (Elt Ideal)) (x12 : (⟨S67735x16, .f32⟩ : BufTy).Contents (Elt Ideal)) (x13 : (⟨S67735, .f32⟩ : BufTy).Contents (Elt Ideal)) (n : Fin 511) :
    val_main_v84 (F := Ideal) x0 x1 x11 x12 x13 (ix1 n)
      = val_main_v81 (F := Ideal) x0 x11 x12 x13 (ix2 n (rel3 (yw x1 n))) := by
  have e : idx_main_v84 (ix1 n) = ix2 n (0 : Fin 1) := funext fun a => Fin.ext (by
    match a with
    | ⟨0, _⟩ => exact Nat.div_one _
    | ⟨1, _⟩ => rfl)
  have hm : val_main_call14_v12 (F := Ideal) x1 (ix2 n (0 : Fin 1)) = 1#1 := by
    unfold val_main_call14_v12
    exact reduce_andi_ones _ _ _ _ (take3_mask x1) (fun _ => rfl) _
  rw [val_main_v84_apply, e, val_main_v83_apply, hm, select_one]
  unfold val_main_call14_v13
  generalize val_main_v81 (F := Ideal) x0 x11 x12 x13 = lp
  rw [gather_row_apply (by decide) gather_S511x67735_S511x1x1_S511x1_n_1_0_0_1_2_11 rfl rfl rfl rfl rfl rfl lp _ n]
  simp only [take3_idx]
  rfl

theorem mask0_at (x1 : (⟨S1x512, .i32⟩ : BufTy).Contents (Elt Ideal)) (n : Fin 511) :
    val_main_v14 (F := Ideal) x1 (ix1 n) = IntOp.cmpi .slt (yw x1 n) 20000#32 := by
  rw [val_main_v14_apply, y_at, val_main_v13_apply, val_main_c_apply]

theorem mask1_at (x1 : (⟨S1x512, .i32⟩ : BufTy).Contents (Elt Ideal)) (n : Fin 511) :
    val_main_v25 (F := Ideal) x1 (ix1 n)
      = IntOp.andi (IntOp.cmpi .sge (yw x1 n) 20000#32) (IntOp.cmpi .slt (yw x1 n) 40000#32) := by
  rw [val_main_v25_apply, val_main_v22_apply, val_main_v24_apply, y_at, val_main_v21_apply, val_main_c_2_apply,
    val_main_v23_apply, val_main_c_3_apply]

theorem mask2_at (x1 : (⟨S1x512, .i32⟩ : BufTy).Contents (Elt Ideal)) (n : Fin 511) :
    val_main_v48 (F := Ideal) x1 (ix1 n)
      = IntOp.andi (IntOp.cmpi .sge (yw x1 n) 40000#32) (IntOp.cmpi .slt (yw x1 n) 200000#32) := by
  rw [val_main_v48_apply, val_main_v45_apply, val_main_v47_apply, y_at, val_main_v44_apply, val_main_c_7_apply,
    val_main_v46_apply, val_main_c_8_apply]

theorem mask3_at (x1 : (⟨S1x512, .i32⟩ : BufTy).Contents (Elt Ideal)) (n : Fin 511) :
    val_main_v71 (F := Ideal) x1 (ix1 n)
      = IntOp.andi (IntOp.cmpi .sge (yw x1 n) 200000#32) (IntOp.cmpi .slt (yw x1 n) 267735#32) := by
  rw [val_main_v71_apply, val_main_v68_apply, val_main_v70_apply, y_at, val_main_v67_apply, val_main_c_12_apply,
    val_main_v69_apply, val_main_c_13_apply]

theorem cluster1_at (x0 : (⟨S1x512x1024, .f32⟩ : BufTy).Contents (Elt Ideal)) (x2 : (⟨S1024x1024, .f32⟩ : BufTy).Contents (Elt Ideal)) (x3 : (⟨S20000x1024, .f32⟩ : BufTy).Contents (Elt Ideal)) (x4 : (⟨S20000, .f32⟩ : BufTy).Contents (Elt Ideal)) (x14 : (⟨S3x1024, .f32⟩ : BufTy).Contents (Elt Ideal)) (x15 : (⟨S3, .f32⟩ : BufTy).Contents (Elt Ideal)) (n : Fin 511) :
    val_main_v40 (F := Ideal) x0 x2 x3 x4 x14 x15 (ix1 n) = val_main_v12 (F := Ideal) x0 x2 x3 x4 x14 x15 (ix2 n (⟨20000, by decide⟩ : Fin 20003)) := by
  rw [val_main_v40_apply, val_main_v39_apply]
  congr 1
  funext a
  refine Fin.ext ?_
  match a with
  | ⟨0, _⟩ => exact Nat.div_one _
  | ⟨1, _⟩ => rfl

theorem cluster2_at (x0 : (⟨S1x512x1024, .f32⟩ : BufTy).Contents (Elt Ideal)) (x2 : (⟨S1024x1024, .f32⟩ : BufTy).Contents (Elt Ideal)) (x3 : (⟨S20000x1024, .f32⟩ : BufTy).Contents (Elt Ideal)) (x4 : (⟨S20000, .f32⟩ : BufTy).Contents (Elt Ideal)) (x14 : (⟨S3x1024, .f32⟩ : BufTy).Contents (Elt Ideal)) (x15 : (⟨S3, .f32⟩ : BufTy).Contents (Elt Ideal)) (n : Fin 511) :
    val_main_v63 (F := Ideal) x0 x2 x3 x4 x14 x15 (ix1 n) = val_main_v12 (F := Ideal) x0 x2 x3 x4 x14 x15 (ix2 n (⟨20001, by decide⟩ : Fin 20003)) := by
  rw [val_main_v63_apply, val_main_v62_apply]
  congr 1
  funext a
  refine Fin.ext ?_
  match a with
  | ⟨0, _⟩ => exact Nat.div_one _
  | ⟨1, _⟩ => rfl

theorem cluster3_at (x0 : (⟨S1x512x1024, .f32⟩ : BufTy).Contents (Elt Ideal)) (x2 : (⟨S1024x1024, .f32⟩ : BufTy).Contents (Elt Ideal)) (x3 : (⟨S20000x1024, .f32⟩ : BufTy).Contents (Elt Ideal)) (x4 : (⟨S20000, .f32⟩ : BufTy).Contents (Elt Ideal)) (x14 : (⟨S3x1024, .f32⟩ : BufTy).Contents (Elt Ideal)) (x15 : (⟨S3, .f32⟩ : BufTy).Contents (Elt Ideal)) (n : Fin 511) :
    val_main_v86 (F := Ideal) x0 x2 x3 x4 x14 x15 (ix1 n) = val_main_v12 (F := Ideal) x0 x2 x3 x4 x14 x15 (ix2 n (⟨20002, by decide⟩ : Fin 20003)) := by
  rw [val_main_v86_apply, val_main_v85_apply]
  congr 1
  funext a
  refine Fin.ext ?_
  match a with
  | ⟨0, _⟩ => exact Nat.div_one _
  | ⟨1, _⟩ => rfl

theorem sel0_at (x0 : (⟨S1x512x1024, .f32⟩ : BufTy).Contents (Elt Ideal)) (x1 : (⟨S1x512, .i32⟩ : BufTy).Contents (Elt Ideal)) (x2 : (⟨S1024x1024, .f32⟩ : BufTy).Contents (Elt Ideal)) (x3 : (⟨S20000x1024, .f32⟩ : BufTy).Contents (Elt Ideal)) (x4 : (⟨S20000, .f32⟩ : BufTy).Contents (Elt Ideal)) (x14 : (⟨S3x1024, .f32⟩ : BufTy).Contents (Elt Ideal)) (x15 : (⟨S3, .f32⟩ : BufTy).Contents (Elt Ideal)) (n : Fin 511) :
    val_main_v20 (F := Ideal) x0 x1 x2 x3 x4 x14 x15 (ix1 n)
      = if lt0 (yw x1 n) then -(val_main_v12 (F := Ideal) x0 x2 x3 x4 x14 x15 (ix2 n (idx0 (yw x1 n)))) else 0 := by
  rw [val_main_v20_apply, mask0_at, val_main_v19_apply, take0_at, val_main_call3_v1_apply, val_main_call3_v0_apply,
    val_main_cst_apply, select_eq_ite]
  show (if _ then -(_) else Ideal.ofBits .f32 0x00000000#32) = _
  rw [Ideal.ofBits_zero_f32]
  rfl

theorem sel1_at (x0 : (⟨S1x512x1024, .f32⟩ : BufTy).Contents (Elt Ideal)) (x1 : (⟨S1x512, .i32⟩ : BufTy).Contents (Elt Ideal)) (x2 : (⟨S1024x1024, .f32⟩ : BufTy).Contents (Elt Ideal)) (x3 : (⟨S20000x1024, .f32⟩ : BufTy).Contents (Elt Ideal)) (x4 : (⟨S20000, .f32⟩ : BufTy).Contents (Elt Ideal)) (x5 : (⟨S1024x256, .f32⟩ : BufTy).Contents (Elt Ideal)) (x6 : (⟨S20000x256, .f32⟩ : BufTy).Contents (Elt Ideal)) (x7 : (⟨S20000, .f32⟩ : BufTy).Contents (Elt Ideal)) (x14 : (⟨S3x1024, .f32⟩ : BufTy).Contents (Elt Ideal)) (x15 : (⟨S3, .f32⟩ : BufTy).Contents (Elt Ideal)) (n : Fin 511) :
    val_main_v43 (F := Ideal) x0 x1 x2 x3 x4 x5 x6 x7 x14 x15 (ix1 n)
      = if in1 (yw x1 n) then
          -(val_main_v12 (F := Ideal) x0 x2 x3 x4 x14 x15 (ix2 n (⟨20000, by decide⟩ : Fin 20003))
            + val_main_v35 (F := Ideal) x0 x5 x6 x7 (ix2 n (rel1 (yw x1 n))))
        else val_main_v20 (F := Ideal) x0 x1 x2 x3 x4 x14 x15 (ix1 n) := by
  rw [val_main_v43_apply, mask1_at, val_main_v42_apply, val_main_v41_apply, cluster1_at, take1_at, select_eq_ite]
  rfl

theorem sel2_at (x0 : (⟨S1x512x1024, .f32⟩ : BufTy).Contents (Elt Ideal)) (x1 : (⟨S1x512, .i32⟩ : BufTy).Contents (Elt Ideal)) (x2 : (⟨S1024x1024, .f32⟩ : BufTy).Contents (Elt Ideal)) (x3 : (⟨S20000x1024, .f32⟩ : BufTy).Contents (Elt Ideal)) (x4 : (⟨S20000, .f32⟩ : BufTy).Contents (Elt Ideal)) (x5 : (⟨S1024x256, .f32⟩ : BufTy).Contents (Elt Ideal)) (x6 : (⟨S20000x256, .f32⟩ : BufTy).Contents (Elt Ideal)) (x7 : (⟨S20000, .f32⟩ : BufTy).Contents (Elt Ideal)) (x8 : (⟨S1024x64, .f32⟩ : BufTy).Contents (Elt Ideal)) (x9 : (⟨S160000x64, .f32⟩ : BufTy).Contents (Elt Ideal)) (x10 : (⟨S160000, .f32⟩ : BufTy).Contents (Elt Ideal)) (x14 : (⟨S3x1024, .f32⟩ : BufTy).Contents (Elt Ideal)) (x15 : (⟨S3, .f32⟩ : BufTy).Contents (Elt Ideal)) (n : Fin 511) :
    val_main_v66 (F := Ideal) x0 x1 x2 x3 x4 x5 x6 x7 x8 x9 x10 x14 x15 (ix1 n)
      = if in2 (yw x1 n) then
          -(val_main_v12 (F := Ideal) x0 x2 x3 x4 x14 x15 (ix2 n (⟨20001, by decide⟩ : Fin 20003))
            + val_main_v58 (F := Ideal) x0 x8 x9 x10 (ix2 n (rel2 (yw x1 n))))
        else val_main_v43 (F := Ideal) x0 x1 x2 x3 x4 x5 x6 x7 x14 x15 (ix1 n) := by
  rw [val_main_v66_apply, mask2_at, val_main_v65_apply, val_main_v64_apply, cluster2_at, take2_at, select_eq_ite]
  rfl

theorem sel3_at (x0 : (⟨S1x512x1024, .f32⟩ : BufTy).Contents (Elt Ideal)) (x1 : (⟨S1x512, .i32⟩ : BufTy).Contents (Elt Ideal)) (x2 : (⟨S1024x1024, .f32⟩ : BufTy).Contents (Elt Ideal)) (x3 : (⟨S20000x1024, .f32⟩ : BufTy).Contents (Elt Ideal)) (x4 : (⟨S20000, .f32⟩ : BufTy).Contents (Elt Ideal)) (x5 : (⟨S1024x256, .f32⟩ : BufTy).Contents (Elt Ideal)) (x6 : (⟨S20000x256, .f32⟩ : BufTy).Contents (Elt Ideal)) (x7 : (⟨S20000, .f32⟩ : BufTy).Contents (Elt Ideal)) (x8 : (⟨S1024x64, .f32⟩ : BufTy).Contents (Elt Ideal)) (x9 : (⟨S160000x64, .f32⟩ : BufTy).Contents (Elt Ideal)) (x10 : (⟨S160000, .f32⟩ : BufTy).Contents (Elt Ideal)) (x11 : (⟨S1024x16, .f32⟩ : BufTy).Contents (Elt Ideal)) (x12 : (⟨S67735x16, .f32⟩ : BufTy).Contents (Elt Ideal)) (x13 : (⟨S67735, .f32⟩ : BufTy).Contents (Elt Ideal)) (x14 : (⟨S3x1024, .f32⟩ : BufTy).Contents (Elt Ideal)) (x15 : (⟨S3, .f32⟩ : BufTy).Contents (Elt Ideal)) (n : Fin 511) :
    val_main_v89 (F := Ideal) x0 x1 x2 x3 x4 x5 x6 x7 x8 x9 x10 x11 x12 x13 x14 x15 (ix1 n)
      = if in3 (yw x1 n) then
          -(val_main_v12 (F := Ideal) x0 x2 x3 x4 x14 x15 (ix2 n (⟨20002, by decide⟩ : Fin 20003))
            + val_main_v81 (F := Ideal) x0 x11 x12 x13 (ix2 n (rel3 (yw x1 n))))
        else val_main_v66 (F := Ideal) x0 x1 x2 x3 x4 x5 x6 x7 x8 x9 x10 x14 x15 (ix1 n) := by
  rw [val_main_v89_apply, mask3_at, val_main_v88_apply, val_main_v87_apply, cluster3_at, take3_at, select_eq_ite]
  rfl

theorem ref_out (x0 : (⟨S1x512x1024, .f32⟩ : BufTy).Contents (Elt Ideal)) (x1 : (⟨S1x512, .i32⟩ : BufTy).Contents (Elt Ideal)) (x2 : (⟨S1024x1024, .f32⟩ : BufTy).Contents (Elt Ideal)) (x3 : (⟨S20000x1024, .f32⟩ : BufTy).Contents (Elt Ideal)) (x4 : (⟨S20000, .f32⟩ : BufTy).Contents (Elt Ideal)) (x5 : (⟨S1024x256, .f32⟩ : BufTy).Contents (Elt Ideal)) (x6 : (⟨S20000x256, .f32⟩ : BufTy).Contents (Elt Ideal)) (x7 : (⟨S20000, .f32⟩ : BufTy).Contents (Elt Ideal)) (x8 : (⟨S1024x64, .f32⟩ : BufTy).Contents (Elt Ideal)) (x9 : (⟨S160000x64, .f32⟩ : BufTy).Contents (Elt Ideal)) (x10 : (⟨S160000, .f32⟩ : BufTy).Contents (Elt Ideal)) (x11 : (⟨S1024x16, .f32⟩ : BufTy).Contents (Elt Ideal)) (x12 : (⟨S67735x16, .f32⟩ : BufTy).Contents (Elt Ideal)) (x13 : (⟨S67735, .f32⟩ : BufTy).Contents (Elt Ideal)) (x14 : (⟨S3x1024, .f32⟩ : BufTy).Contents (Elt Ideal)) (x15 : (⟨S3, .f32⟩ : BufTy).Contents (Elt Ideal)) (n : Fin 511) :
    val_main_v89 (F := Ideal) x0 x1 x2 x3 x4 x5 x6 x7 x8 x9 x10 x11 x12 x13 x14 x15 (ix1 n)
      = refRow (yw x1 n)
          (fun j => val_main_v12 (F := Ideal) x0 x2 x3 x4 x14 x15 (ix2 n j))
          (fun j => val_main_v35 (F := Ideal) x0 x5 x6 x7 (ix2 n j))
          (fun j => val_main_v58 (F := Ideal) x0 x8 x9 x10 (ix2 n j))
          (fun j => val_main_v81 (F := Ideal) x0 x11 x12 x13 (ix2 n j)) := by
  rw [sel3_at, sel2_at, sel1_at, sel0_at]
  rfl

end Cert.Hand.RefSel

end
-- ==== Proof.RefClosed.lean ====
import proofs.«412644_j75642964017948_3_alg».proof.Proof.RefSelect
import proofs.«412644_j75642964017948_3_alg».proof.Proof.RefLogSoftmaxHead
import proofs.«412644_j75642964017948_3_alg».proof.Proof.RefLogSoftmaxT1
import proofs.«412644_j75642964017948_3_alg».proof.Proof.RefLogSoftmaxT2
import proofs.«412644_j75642964017948_3_alg».proof.Proof.RefLogSoftmaxT3
import proofs.«412644_j75642964017948_3_alg».proof.Proof.LibLogSumExp
import proofs.«412644_j75642964017948_3_alg».proof.Proof.Spec

noncomputable section

namespace Cert.Hand.RefClosed

open Idealize.ShloMosaic Cert.Hand.RefSel Cert.Hand.LSE

theorem row_logp {N : Nat} (G : Fin N → EReal) (x : Fin N → ℝ) (hG : ∀ j, G j = ((x j : ℝ) : EReal)) (j : Fin N) :
    (G j - Finset.univ.sup G) - Ideal.log (∑ j' : Fin N, Ideal.exp (G j' - Finset.univ.sup G))
      = ((x j - Cert.Hand.Spec.lse x : ℝ) : EReal) := by
  have hS : ESumm ((Finset.univ : Finset (Fin N)).image id) x (Finset.univ.sup G)
      (∑ j' : Fin N, Ideal.exp (G j' - Finset.univ.sup G)) :=
    ESumm.of_tile G id Finset.univ (fun j _ => hG j) (fun j hj => absurd (Finset.mem_univ j) hj)
      (Set.injOn_id _) ⟨j, Finset.mem_univ j⟩ rfl
  rw [Finset.image_id] at hS
  rw [hG j]
  exact hS.ref_logp (x j)

theorem refRow_closed (y : BitVec 32) (hy : 0 ≤ y.toInt)
    (r0 : Fin 20003 → EReal) (r1 : Fin 20000 → EReal) (r2 : Fin 160000 → EReal) (r3 : Fin 67735 → EReal)
    (xh : Fin 20003 → ℝ) (xt1 : Fin 20000 → ℝ) (xt2 : Fin 160000 → ℝ) (xt3 : Fin 67735 → ℝ)
    (e0 : ∀ j, r0 j = ((xh j - Cert.Hand.Spec.lse xh : ℝ) : EReal))
    (e1 : ∀ j, r1 j = ((xt1 j - Cert.Hand.Spec.lse xt1 : ℝ) : EReal))
    (e2 : ∀ j, r2 j = ((xt2 j - Cert.Hand.Spec.lse xt2 : ℝ) : EReal))
    (e3 : ∀ j, r3 j = ((xt3 j - Cert.Hand.Spec.lse xt3 : ℝ) : EReal)) :
    refRow y r0 r1 r2 r3 = ((Cert.Hand.Spec.nll y.toInt xh xt1 xt2 xt3 : ℝ) : EReal) := by
  have hn := toNat_of_toInt_nonneg y hy
  unfold Cert.Hand.Spec.nll
  by_cases c0 : y.toInt < 20000
  · have m0 : lt0 y := (lt0_iff y).2 c0
    have hi : idx0 y = ⟨y.toInt.toNat, by omega⟩ := Fin.ext (by rw [idx0_val y hy m0]; show y.toNat = y.toInt.toNat; omega)
    rw [refRow_lt0 y r0 r1 r2 r3 m0, dif_pos ⟨hy, c0⟩, e0, hi]
    rfl
  by_cases c1 : y.toInt < 40000
  · have m1 : in1 y := (in1_iff y).2 ⟨by omega, c1⟩
    have hi : rel1 y = ⟨(y.toInt - 20000).toNat, by omega⟩ :=
      Fin.ext (by rw [rel1_val y m1]; show y.toNat - 20000 = (y.toInt - 20000).toNat; omega)
    rw [refRow_in1 y r0 r1 r2 r3 m1, dif_neg (fun h => c0 h.2), dif_pos ⟨by omega, c1⟩, e0, e1, hi, ← EReal.coe_add]
    rfl
  by_cases c2 : y.toInt < 200000
  · have m2 : in2 y := (in2_iff y).2 ⟨by omega, c2⟩
    have hi : rel2 y = ⟨(y.toInt - 40000).toNat, by omega⟩ :=
      Fin.ext (by rw [rel2_val y m2]; show y.toNat - 40000 = (y.toInt - 40000).toNat; omega)
    rw [refRow_in2 y r0 r1 r2 r3 m2, dif_neg (fun h => c0 h.2), dif_neg (fun h => c1 h.2), dif_pos ⟨by omega, c2⟩, e0, e2, hi,
      ← EReal.coe_add]
    rfl
  by_cases c3 : y.toInt < 267735
  · have m3 : in3 y := (in3_iff y).2 ⟨by omega, c3⟩
    have hi : rel3 y = ⟨(y.toInt - 200000).toNat, by omega⟩ :=
      Fin.ext (by rw [rel3_val y m3]; show y.toNat - 200000 = (y.toInt - 200000).toNat; omega)
    rw [refRow_in3 y r0 r1 r2 r3 m3, dif_neg (fun h => c0 h.2), dif_neg (fun h => c1 h.2), dif_neg (fun h => c2 h.2),
      dif_pos ⟨by omega, c3⟩, e0, e3, hi, ← EReal.coe_add]
    rfl
  · rw [refRow_none y r0 r1 r2 r3 (fun h => c0 ((lt0_iff y).1 h)) (fun h => c1 ((in1_iff y).1 h).2)
      (fun h => c2 ((in2_iff y).1 h).2) (fun h => c3 ((in3_iff y).1 h).2), dif_neg (fun h => c0 h.2), dif_neg (fun h => c1 h.2),
      dif_neg (fun h => c2 h.2), dif_neg (fun h => c3 h.2)]
    rfl

open Cert.ReferenceIdeal Cert.ReferenceIdeal.Gen Cert.ReferenceIdeal.ReadP Idealize.ShloMosaic.ValueIdx Cert.Hand.RefLS

theorem ref_closed (x0 : (⟨S1x512x1024, .f32⟩ : BufTy).Contents (Elt Ideal)) (x1 : (⟨S1x512, .i32⟩ : BufTy).Contents (Elt Ideal)) (x2 : (⟨S1024x1024, .f32⟩ : BufTy).Contents (Elt Ideal)) (x3 : (⟨S20000x1024, .f32⟩ : BufTy).Contents (Elt Ideal)) (x4 : (⟨S20000, .f32⟩ : BufTy).Contents (Elt Ideal)) (x5 : (⟨S1024x256, .f32⟩ : BufTy).Contents (Elt Ideal)) (x6 : (⟨S20000x256, .f32⟩ : BufTy).Contents (Elt Ideal)) (x7 : (⟨S20000, .f32⟩ : BufTy).Contents (Elt Ideal)) (x8 : (⟨S1024x64, .f32⟩ : BufTy).Contents (Elt Ideal)) (x9 : (⟨S160000x64, .f32⟩ : BufTy).Contents (Elt Ideal)) (x10 : (⟨S160000, .f32⟩ : BufTy).Contents (Elt Ideal)) (x11 : (⟨S1024x16, .f32⟩ : BufTy).Contents (Elt Ideal)) (x12 : (⟨S67735x16, .f32⟩ : BufTy).Contents (Elt Ideal)) (x13 : (⟨S67735, .f32⟩ : BufTy).Contents (Elt Ideal)) (x14 : (⟨S3x1024, .f32⟩ : BufTy).Contents (Elt Ideal)) (x15 : (⟨S3, .f32⟩ : BufTy).Contents (Elt Ideal)) (n : Fin 511)
    (xh : Fin 20003 → ℝ) (xt1 : Fin 20000 → ℝ) (xt2 : Fin 160000 → ℝ) (xt3 : Fin 67735 → ℝ)
    (hh : ∀ j, Ghead x0 x2 x3 x4 x14 x15 n j = ((xh j : ℝ) : EReal))
    (h1 : ∀ j, Gtail1 x0 x5 x6 x7 n j = ((xt1 j : ℝ) : EReal))
    (h2 : ∀ j, Gtail2 x0 x8 x9 x10 n j = ((xt2 j : ℝ) : EReal))
    (h3 : ∀ j, Gtail3 x0 x11 x12 x13 n j = ((xt3 j : ℝ) : EReal))
    (hy : 0 ≤ (yw x1 n).toInt) :
    val_main_v89 (F := Ideal) x0 x1 x2 x3 x4 x5 x6 x7 x8 x9 x10 x11 x12 x13 x14 x15 (ix1 n)
      = ((Cert.Hand.Spec.nll (yw x1 n).toInt xh xt1 xt2 xt3 : ℝ) : EReal) := by
  rw [ref_out]
  exact refRow_closed (yw x1 n) hy _ _ _ _ xh xt1 xt2 xt3
    (fun j => by rw [head_lp]; exact row_logp _ xh hh j)
    (fun j => by rw [tail1_lp]; exact row_logp _ xt1 h1 j)
    (fun j => by rw [tail2_lp]; exact row_logp _ xt2 h2 j)
    (fun j => by rw [tail3_lp]; exact row_logp _ xt3 h3 j)

end Cert.Hand.RefClosed

end
-- ==== Proof.RefRunP.lean ====
import proofs.«412644_j75642964017948_3_alg».proof.Proof.RefRunP0

noncomputable section

namespace Cert.ReferenceIdeal.ValueP

open Cert.ReferenceIdeal Cert.ReferenceIdeal.Gen Idealize.ShloMosaic Idealize.ShloMosaic.TcCoe Idealize.SL.Sem Idealize.ShloMosaic.StableHlo

variable {F : FTy → Type} [FloatOps F]

theorem after_app : ∀ (l₁ l₂ : List (HloOp τ sig (Elt F))) (V : Valuation τ sig (Elt F)), after (l₁ ++ l₂) V = after l₂ (after l₁ V)
  | [], _, _ => rfl
  | _ :: l₁, l₂, _ => after_app l₁ l₂ _

/-- The contents after the first `n` of @main's operations. -/
def upto (n : Nat) (V : Valuation τ sig (Elt F)) : Valuation τ sig (Elt F) := after (ops.take n) V

theorem upto_zero (V : Valuation τ sig (Elt F)) : upto 0 V = V := rfl

theorem upto_all (V : Valuation τ sig (Elt F)) : after ops V = upto 272 V := rfl

/-- The first `n + 34` operations are the first `n` followed by the next 34. -/
theorem upto_add (n : Nat) (V : Valuation τ sig (Elt F)) : upto (n + 34) V = after ((ops.drop n).take 34) (upto n V) := by
  unfold upto; rw [List.take_add, after_app]

set_option maxRecDepth 8192 in
set_option maxHeartbeats 20000000 in
/-- Thirty-four operations at a time: each result buffer holds its operation's function of the contents before it, and a buffer a stretch does not write passes through. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v89) = res_main_v89 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15) :=
  (θ_run defs _ _).mono (fun _ h c => by
      simp only [h]
      rw [upto_all]
      iterate 8
        rw [upto_add]
        simp (disch := decide) only [ops, List.drop_succ_cons, List.drop_zero, List.take_succ_cons, List.take_zero, List.take_nil, after_cons, after_nil, upto_zero, and_true,
          nullary_result', unary_result', binary_result', ternary_result', quaternary_result', reshape_result',
          nullary_result_ne', unary_result_ne', binary_result_ne', ternary_result_ne', quaternary_result_ne', reshape_result_ne',
          TRef.toBuf, TRef.ofBuf, cast_eq]
      unfold res_main_v89
      rfl)
    (run_seq scopedRefs_eq scopedSems_eq defs main (fun _ => ops) main_eq (fun _ => ops_sub) m ρ)

end Cert.ReferenceIdeal.ValueP

end
-- ==== Proof.Final.lean ====
import proofs.«412644_j75642964017948_3_alg».proof.Defs
import proofs.«412644_j75642964017948_3_alg».proof.Proof.Gen.Kernel
import proofs.«412644_j75642964017948_3_alg».proof.Proof.Gen.Pre_finite_inputs
import proofs.«412644_j75642964017948_3_alg».proof.Proof.FrameMain
import proofs.«412644_j75642964017948_3_alg».proof.Proof.KerClosedMain
import proofs.«412644_j75642964017948_3_alg».proof.Proof.RefClosed
import proofs.«412644_j75642964017948_3_alg».proof.Proof.RefRunP
import proofs.«412644_j75642964017948_3_alg».proof.Proof.RealTables
import proofs.«412644_j75642964017948_3_alg».proof.Proof.PreFacts
import Idealize.ShloMosaic.PureOps.IdealRules

/-! Both idealized programs compute, token by token, the adaptive-softmax negative log-likelihood of the same real logit
rows: the kernel by a running maximum and sum of exponentials over vocabulary tiles on two cores, merged at the end, the
reference by a log-softmax of each whole row; a log-sum-exp does not depend on how its row is cut. -/

set_option maxRecDepth 16384

noncomputable section

namespace Cert.Proof.Claims

open Idealize.ShloMosaic Idealize.ShloMosaic.TcCoe Idealize.SL.Sem
open Idealize.ShloMosaic.ValueIdx

open Lean Elab Tactic in
/-- Closes the goal with `f` applied to `xs`; its type is compared with the goal when the declaration is checked. -/
elab "assign_app " f:term " to " xs:term,* : tactic => withMainContext do
  (← getMainGoal).assign (mkAppN (← elabTerm f none) (← xs.getElems.mapM (elabTerm · none)))

/-- At `Bits` a named constant is read as its bit pattern. -/
instance patternNamed : Named Bits := ⟨fun _ _ {φ} b => FloatOps.ofBits φ b⟩

/-- Read so, the idealized program at `Bits` is the kernel itself, term for term: the one rewrite put a name where
    the kernel has that name's pattern. So the kernel's frame is the idealized program's frame at that instance. -/
theorem frame_k : Cert.frame_Kernel := by
  intro m ρ _
  assign_app (@Cert.KernelIdeal.Hand.frame Bits _ patternNamed) to m, ρ

theorem frame_ki : Cert.frame_KernelIdeal := fun m ρ _ => Cert.KernelIdeal.Hand.frame (F := Ideal) m ρ

theorem frame_ri : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal :=
  IdealRules.named_const.statement Cert.KernelIdeal.κ "neg_big" .f32 0xFF333332#32 ⊥ rfl

theorem algebraic : Cert.algebraic_KernelIdeal_ReferenceIdeal := by
  intro m ρ m' ρ' hpre hagree
  refine ⟨fun c => Cert.KernelIdeal.Gen.V29 m (Cert.KernelIdeal.Hand.outsW m) c Cert.KernelIdeal.main_v189,
    Cert.KernelIdeal.Hand.run_value (F := Ideal) m ρ, ?_⟩
  refine (θ_run Cert.ReferenceIdeal.defs _ _).mono (fun _ h c => ⟨(h c).1.trans ?_, (h c).2⟩)
    (Cert.ReferenceIdeal.ValueP.run (F := Ideal) m' ρ')
  have pf := Cert.Hand.PreFacts.pre_facts m hpre c
  obtain ⟨e0, e1, e2, e3, e4, e5, e6, e7, e8, e9, e10, e11, e12, e13, e14, e15⟩ := hagree c
  rw [Cert.ReferenceIdeal.ReadP.val_main_v89_eq, e0, e1, e2, e3, e4, e5, e6, e7, e8, e9, e10, e11, e12, e13, e14, e15]
  funext i
  obtain ⟨n, rfl⟩ : ∃ n : Fin 511, i = ix1 n := ⟨i 0, eq_ix1 i⟩
  have hy : 0 ≤ (Cert.Hand.RefSel.yw (m ((c.tc : Thread Cert.KernelIdeal.nD Cert.KernelIdeal.τ).loc Cert.KernelIdeal.main_arg1)) n).toInt := pf.lab_nonneg _
  have hyw : Cert.Hand.GluePre.ypad m c n.castSucc
      = Cert.Hand.RefSel.yw (m ((c.tc : Thread Cert.KernelIdeal.nD Cert.KernelIdeal.τ).loc Cert.KernelIdeal.main_arg1)) n := by
    rw [Cert.Hand.GluePre.ypad_of_lt m c n.castSucc (by rw [Fin.coe_castSucc]; exact n.isLt)]; rfl
  rw [Cert.Hand.RefClosed.ref_closed _ _ _ _ _ _ _ _ _ _ _ _ _ _ _ _ n (Cert.Hand.Tables.xh pf n) (Cert.Hand.Tables.x1 pf n) (Cert.Hand.Tables.x2 pf n) (Cert.Hand.Tables.x3 pf n)
    (Cert.Hand.Tables.ref_head pf n) (Cert.Hand.Tables.ref_tail1 pf n) (Cert.Hand.Tables.ref_tail2 pf n) (Cert.Hand.Tables.ref_tail3 pf n) hy, ← hyw]
  exact (Cert.Hand.KerMain.ker_closed m c pf n).symm

end Cert.Proof.Claims

end
-- ==== Proof.lean ====
import proofs.«412644_j75642964017948_3_alg».proof.Defs
import proofs.«412644_j75642964017948_3_alg».proof.Proof.Gen.Kernel
import proofs.«412644_j75642964017948_3_alg».proof.Proof.Gen.KernelIdeal
import proofs.«412644_j75642964017948_3_alg».proof.Proof.Gen.ReferenceIdeal
import proofs.«412644_j75642964017948_3_alg».proof.Proof.Gen.Pre_finite_inputs
import proofs.«412644_j75642964017948_3_alg».proof.Proof.Final
import Idealize.ShloMosaic.Adequacy
import Idealize.ShloMosaic.Init

noncomputable section

namespace Cert.Proof

open Idealize.ShloMosaic Idealize.SL.Sem

theorem claim : Cert.Claim := ⟨Cert.Kernel.Gen.facts, Cert.KernelIdeal.Gen.facts, Cert.ReferenceIdeal.Gen.facts, Cert.Pre_finite_inputs.Gen.facts,
  Cert.Proof.Claims.frame_k, Cert.Proof.Claims.frame_ki, Cert.Proof.Claims.frame_ri, Cert.Proof.Claims.preserves, Cert.Proof.Claims.algebraic⟩

end Cert.Proof

end
